-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.named_const.Statement Cert.KernelIdeal.κ "inv_10" .f32 0x3DCCCCCD#32 ((1 / 10 : ℝ) : EReal)
  ∧ IdealRules.named_const.Statement Cert.KernelIdeal.κ "inv_25" .f32 0x3D23D70A#32 ((1 / 25 : ℝ) : EReal)
  ∧ IdealRules.named_const.Statement Cert.KernelIdeal.κ "inv_25" .f32 0x3D23D70A#32 ((1 / 25 : ℝ) : EReal)
  ∧ IdealRules.named_const.Statement Cert.KernelIdeal.κ "inv_25" .f32 0x3D23D70A#32 ((1 / 25 : ℝ) : EReal)
  ∧ IdealRules.named_const.Statement Cert.KernelIdeal.κ "inv_25" .f32 0x3D23D70A#32 ((1 / 25 : ℝ) : EReal)
  ∧ IdealRules.named_const.Statement Cert.KernelIdeal.κ "inv_25" .f32 0x3D23D70A#32 ((1 / 25 : ℝ) : EReal)
  ∧ IdealRules.named_const.Statement Cert.KernelIdeal.κ "inv_25" .f32 0x3D23D70A#32 ((1 / 25 : ℝ) : EReal)
  ∧ IdealRules.named_const.Statement Cert.KernelIdeal.κ "inv_25" .f32 0x3D23D70A#32 ((1 / 25 : ℝ) : EReal)
  ∧ IdealRules.named_const.Statement Cert.KernelIdeal.κ "inv_25" .f32 0x3D23D70A#32 ((1 / 25 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S1024 : Shape := ⟨1, ![1024]⟩
abbrev S1024x10 : Shape := ⟨2, ![1024, 10]⟩
abbrev S10240x25 : Shape := ⟨2, ![10240, 25]⟩
abbrev S128x128 : Shape := ⟨2, ![128, 128]⟩
abbrev S256x128 : Shape := ⟨2, ![256, 128]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S1024 : S_.BroadcastsInDim S1024 (![] : Fin 0 → Fin S1024.rank)
  reducesTo_S1024_S_d0 : S1024.ReducesTo [0] S_
  bcast_S_S1024x10 : S_.BroadcastsInDim S1024x10 (![] : Fin 0 → Fin S1024x10.rank)
  reducesTo_S1024x10_S_d0_1 : S1024x10.ReducesTo [0, 1] S_
  bcast_S_S10240x25 : S_.BroadcastsInDim S10240x25 (![] : Fin 0 → Fin S10240x25.rank)
  reducesTo_S10240x25_S_d0_1 : S10240x25.ReducesTo [0, 1] S_

variable [Facts]

def fn_part3 {F : FTy → Type} [FloatOps F] (main_v44 : IVec S_ 1) (main_v49 : IVec S10240x25 1) (main_c_19 : IVec S_ 1) : IVec S_ 1 :=
  let main_v50 : IVec S_ 1 := (fun x v => Host.reduce IntOp.andi x v reducesTo_S10240x25_S_d0_1 h_S_) main_v49 main_c_19
  let main_v51 : IVec S_ 1 := andi main_v44 main_v50
  main_v51

def fn_part2 {F : FTy → Type} [FloatOps F] (main_arg1 : IVec S500000x128 32) (main_arg3 : IVec S1024x10 32) (main_arg4 : IVec S10240x25 32) (main_v30 : IVec S_ 1) (main_v32 : IVec S500000x128 1) (main_c_12 : IVec S_ 32) : IVec S_ 1 :=
  let main_v33 : IVec S500000x128 32 := broadcastInDim S500000x128 ![] bcast_S_S500000x128 main_c_12
  let main_v34 : IVec S500000x128 1 := cmpi .slt main_arg1 main_v33
  let main_v35 : IVec S500000x128 1 := andi main_v32 main_v34
  let main_c_13 : IVec S_ 1 := constantI S_ 1 1#1
  let main_v36 : IVec S_ 1 := (fun x v => Host.reduce IntOp.andi x v reducesTo_S500000x128_S_d0_1 h_S_) main_v35 main_c_13
  let main_v37 : IVec S_ 1 := andi main_v30 main_v36
  let main_c_14 : IVec S_ 32 := constantI S_ 32 0#32
  let main_v38 : IVec S1024x10 32 := broadcastInDim S1024x10 ![] bcast_S_S1024x10 main_c_14
  let main_v39 : IVec S1024x10 1 := cmpi .sge main_arg3 main_v38
  let main_c_15 : IVec S_ 32 := constantI S_ 32 128#32
  let main_v40 : IVec S1024x10 32 := broadcastInDim S1024x10 ![] bcast_S_S1024x10 main_c_15
  let main_v41 : IVec S1024x10 1 := cmpi .slt main_arg3 main_v40
  let main_v42 : IVec S1024x10 1 := andi main_v39 main_v41
  let main_c_16 : IVec S_ 1 := constantI S_ 1 1#1
  let main_v43 : IVec S_ 1 := (fun x v => Host.reduce IntOp.andi x v reducesTo_S1024x10_S_d0_1 h_S_) main_v42 main_c_16
  let main_v44 : IVec S_ 1 := andi main_v37 main_v43
  let main_c_17 : IVec S_ 32 := constantI S_ 32 0#32
  let main_v45 : IVec S10240x25 32 := broadcastInDim S10240x25 ![] bcast_S_S10240x25 main_c_17
  let main_v46 : IVec S10240x25 1 := cmpi .sge main_arg4 main_v45
  let main_c_18 : IVec S_ 32 := constantI S_ 32 128#32
  let main_v47 : IVec S10240x25 32 := broadcastInDim S10240x25 ![] bcast_S_S10240x25 main_c_18
  let main_v48 : IVec S10240x25 1 := cmpi .slt main_arg4 main_v47
  let main_v49 : IVec S10240x25 1 := andi main_v46 main_v48
  let main_c_19 : IVec S_ 1 := constantI S_ 1 1#1
  fn_part3 (F := F) main_v44 main_v49 main_c_19

def fn_part1 {F : FTy → Type} [FloatOps F] (main_arg1 : IVec S500000x128 32) (main_arg2 : IVec S1024 32) (main_arg3 : IVec S1024x10 32) (main_arg4 : IVec S10240x25 32) (main_arg8 : FVec F S256x128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256x128 .f32 := Host.absf main_arg8
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_c_8 : IVec S_ 32 := constantI S_ 32 0#32
  let main_v24 : IVec S1024 32 := broadcastInDim S1024 ![] bcast_S_S1024 main_c_8
  let main_v25 : IVec S1024 1 := cmpi .sge main_arg2 main_v24
  let main_c_9 : IVec S_ 32 := constantI S_ 32 500000#32
  let main_v26 : IVec S1024 32 := broadcastInDim S1024 ![] bcast_S_S1024 main_c_9
  let main_v27 : IVec S1024 1 := cmpi .slt main_arg2 main_v26
  let main_v28 : IVec S1024 1 := andi main_v25 main_v27
  let main_c_10 : IVec S_ 1 := constantI S_ 1 1#1
  let main_v29 : IVec S_ 1 := (fun x v => Host.reduce IntOp.andi x v reducesTo_S1024_S_d0 h_S_) main_v28 main_c_10
  let main_v30 : IVec S_ 1 := andi main_v23 main_v29
  let main_c_11 : IVec S_ 32 := constantI S_ 32 0#32
  let main_v31 : IVec S500000x128 32 := broadcastInDim S500000x128 ![] bcast_S_S500000x128 main_c_11
  let main_v32 : IVec S500000x128 1 := cmpi .sge main_arg1 main_v31
  let main_c_12 : IVec S_ 32 := constantI S_ 32 500000#32
  fn_part2 (F := F) main_arg1 main_arg3 main_arg4 main_v30 main_v32 main_c_12

def fn {F : FTy → Type} [FloatOps F] (main_arg0 : FVec F S500000x128 .f32) (main_arg1 : IVec S500000x128 32) (main_arg2 : IVec S1024 32) (main_arg3 : IVec S1024x10 32) (main_arg4 : IVec S10240x25 32) (main_arg5 : FVec F S128x128 .f32) (main_arg6 : FVec F S128x128 .f32) (main_arg7 : FVec F S256x128 .f32) (main_arg8 : FVec F S256x128 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S128x128 .f32 := Host.absf main_arg5
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg6
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S256x128 .f32 := Host.absf main_arg7
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg1 main_arg2 main_arg3 main_arg4 main_arg8 main_v13 main_v16
-- ==== Kernel.lean ====
abbrev S500000x128 : Shape := ⟨2, ![500000, 128]⟩
abbrev S1024 : Shape := ⟨1, ![1024]⟩
abbrev S1024x10 : Shape := ⟨2, ![1024, 10]⟩
abbrev S10240x25 : Shape := ⟨2, ![10240, 25]⟩
abbrev S128x128 : Shape := ⟨2, ![128, 128]⟩
abbrev S256x128 : Shape := ⟨2, ![256, 128]⟩
abbrev S_ : Shape := ⟨0, ![]⟩
abbrev S1024x1 : Shape := ⟨2, ![1024, 1]⟩
abbrev S1024x128 : Shape := ⟨2, ![1024, 128]⟩
abbrev S1024x10x1 : Shape := ⟨3, ![1024, 10, 1]⟩
abbrev S1 : Shape := ⟨1, ![1]⟩
abbrev S1x1x1 : Shape := ⟨3, ![1, 1, 1]⟩
abbrev S10240 : Shape := ⟨1, ![10240]⟩
abbrev S10240x1 : Shape := ⟨2, ![10240, 1]⟩
abbrev S10240x128 : Shape := ⟨2, ![10240, 128]⟩
abbrev S10240x25x1 : Shape := ⟨3, ![10240, 25, 1]⟩
abbrev S256000 : Shape := ⟨1, ![256000]⟩
abbrev S500000x1x128 : Shape := ⟨3, ![500000, 1, 128]⟩
abbrev S1024x1x128 : Shape := ⟨3, ![1024, 1, 128]⟩
abbrev S1x1x128 : Shape := ⟨3, ![1, 1, 128]⟩
abbrev S10240x1x128 : Shape := ⟨3, ![10240, 1, 128]⟩
abbrev S1280x25 : Shape := ⟨2, ![1280, 25]⟩
abbrev S32000 : Shape := ⟨1, ![32000]⟩
abbrev S1280x1x128 : Shape := ⟨3, ![1280, 1, 128]⟩
abbrev S1280x128 : Shape := ⟨2, ![1280, 128]⟩
abbrev S1024x256 : Shape := ⟨2, ![1024, 256]⟩
abbrev S10240x256 : Shape := ⟨2, ![10240, 256]⟩
abbrev S1024x10x256 : Shape := ⟨3, ![1024, 10, 256]⟩

abbrev nBuf : Space → Nat
  | .hbm => 121
  | .vmem => 73
  | .smem => 11
  | _ => 0

abbrev bufTy : (tb : Table) → Fin (tcTables nBuf tb) → BufTy
  | .hbm, ⟨0, _⟩ => ⟨S500000x128, .f32⟩
  | .hbm, ⟨1, _⟩ => ⟨S500000x128, .i32⟩
  | .hbm, ⟨2, _⟩ => ⟨S1024, .i32⟩
  | .hbm, ⟨3, _⟩ => ⟨S1024x10, .i32⟩
  | .hbm, ⟨4, _⟩ => ⟨S10240x25, .i32⟩
  | .hbm, ⟨5, _⟩ => ⟨S128x128, .f32⟩
  | .hbm, ⟨6, _⟩ => ⟨S128x128, .f32⟩
  | .hbm, ⟨7, _⟩ => ⟨S256x128, .f32⟩
  | .hbm, ⟨8, _⟩ => ⟨S256x128, .f32⟩
  | .hbm, ⟨9, _⟩ => ⟨S_, .i32⟩
  | .hbm, ⟨10, _⟩ => ⟨S1024, .i32⟩
  | .hbm, ⟨11, _⟩ => ⟨S1024, .i1⟩
  | .hbm, ⟨12, _⟩ => ⟨S_, .i32⟩
  | .hbm, ⟨13, _⟩ => ⟨S1024, .i32⟩
  | .hbm, ⟨14, _⟩ => ⟨S1024, .i32⟩
  | .hbm, ⟨15, _⟩ => ⟨S1024, .i32⟩
  | .hbm, ⟨16, _⟩ => ⟨S1024x1, .i32⟩
  | .hbm, ⟨17, _⟩ => ⟨S1024x128, .i32⟩
  | .hbm, ⟨18, _⟩ => ⟨S_, .i32⟩
  | .hbm, ⟨19, _⟩ => ⟨S1024x10, .i32⟩
  | .hbm, ⟨20, _⟩ => ⟨S1024x10, .i1⟩
  | .hbm, ⟨21, _⟩ => ⟨S_, .i32⟩
  | .hbm, ⟨22, _⟩ => ⟨S1024x10, .i32⟩
  | .hbm, ⟨23, _⟩ => ⟨S1024x10, .i32⟩
  | .hbm, ⟨24, _⟩ => ⟨S1024x10, .i32⟩
  | .hbm, ⟨25, _⟩ => ⟨S1024x10x1, .i32⟩
  | .hbm, ⟨26, _⟩ => ⟨S1, .i32⟩
  | .hbm, ⟨27, _⟩ => ⟨S_, .i32⟩
  | .hbm, ⟨28, _⟩ => ⟨S1024x10x1, .i32⟩
  | .hbm, ⟨29, _⟩ => ⟨S1024x10x1, .i1⟩
  | .hbm, ⟨30, _⟩ => ⟨S1x1x1, .i32⟩
  | .hbm, ⟨31, _⟩ => ⟨S1024x10x1, .i32⟩
  | .hbm, ⟨32, _⟩ => ⟨S1024x10x1, .i1⟩
  | .hbm, ⟨33, _⟩ => ⟨S1024x10x1, .i1⟩
  | .hbm, ⟨34, _⟩ => ⟨S_, .i1⟩
  | .hbm, ⟨35, _⟩ => ⟨S1024x10, .i1⟩
  | .hbm, ⟨36, _⟩ => ⟨S1024x10, .i32⟩
  | .hbm, ⟨37, _⟩ => ⟨S_, .i32⟩
  | .hbm, ⟨38, _⟩ => ⟨S1024x10, .i32⟩
  | .hbm, ⟨39, _⟩ => ⟨S1024x10, .i32⟩
  | .hbm, ⟨40, _⟩ => ⟨S10240, .i32⟩
  | .hbm, ⟨41, _⟩ => ⟨S_, .i32⟩
  | .hbm, ⟨42, _⟩ => ⟨S10240, .i32⟩
  | .hbm, ⟨43, _⟩ => ⟨S10240, .i1⟩
  | .hbm, ⟨44, _⟩ => ⟨S_, .i32⟩
  | .hbm, ⟨45, _⟩ => ⟨S10240, .i32⟩
  | .hbm, ⟨46, _⟩ => ⟨S10240, .i32⟩
  | .hbm, ⟨47, _⟩ => ⟨S10240, .i32⟩
  | .hbm, ⟨48, _⟩ => ⟨S10240x1, .i32⟩
  | .hbm, ⟨49, _⟩ => ⟨S10240x128, .i32⟩
  | .hbm, ⟨50, _⟩ => ⟨S_, .i32⟩
  | .hbm, ⟨51, _⟩ => ⟨S10240x25, .i32⟩
  | .hbm, ⟨52, _⟩ => ⟨S10240x25, .i1⟩
  | .hbm, ⟨53, _⟩ => ⟨S_, .i32⟩
  | .hbm, ⟨54, _⟩ => ⟨S10240x25, .i32⟩
  | .hbm, ⟨55, _⟩ => ⟨S10240x25, .i32⟩
  | .hbm, ⟨56, _⟩ => ⟨S10240x25, .i32⟩
  | .hbm, ⟨57, _⟩ => ⟨S10240x25x1, .i32⟩
  | .hbm, ⟨58, _⟩ => ⟨S1, .i32⟩
  | .hbm, ⟨59, _⟩ => ⟨S_, .i32⟩
  | .hbm, ⟨60, _⟩ => ⟨S10240x25x1, .i32⟩
  | .hbm, ⟨61, _⟩ => ⟨S10240x25x1, .i1⟩
  | .hbm, ⟨62, _⟩ => ⟨S1x1x1, .i32⟩
  | .hbm, ⟨63, _⟩ => ⟨S10240x25x1, .i32⟩
  | .hbm, ⟨64, _⟩ => ⟨S10240x25x1, .i1⟩
  | .hbm, ⟨65, _⟩ => ⟨S10240x25x1, .i1⟩
  | .hbm, ⟨66, _⟩ => ⟨S_, .i1⟩
  | .hbm, ⟨67, _⟩ => ⟨S10240x25, .i1⟩
  | .hbm, ⟨68, _⟩ => ⟨S10240x25, .i32⟩
  | .hbm, ⟨69, _⟩ => ⟨S_, .i32⟩
  | .hbm, ⟨70, _⟩ => ⟨S10240x25, .i32⟩
  | .hbm, ⟨71, _⟩ => ⟨S10240x25, .i32⟩
  | .hbm, ⟨72, _⟩ => ⟨S256000, .i32⟩
  | .hbm, ⟨73, _⟩ => ⟨S1024x1, .i32⟩
  | .hbm, ⟨74, _⟩ => ⟨S500000x1x128, .f32⟩
  | .hbm, ⟨75, _⟩ => ⟨S1024x1x128, .f32⟩
  | .hbm, ⟨76, _⟩ => ⟨S1024x128, .f32⟩
  | .hbm, ⟨77, _⟩ => ⟨S10240x1, .i32⟩
  | .hbm, ⟨78, _⟩ => ⟨S500000x1x128, .f32⟩
  | .hbm, ⟨79, _⟩ => ⟨S10240x1x128, .f32⟩
  | .hbm, ⟨80, _⟩ => ⟨S10240x128, .f32⟩
  | .hbm, ⟨81, _⟩ => ⟨S1024x10, .i32⟩
  | .hbm, ⟨82, _⟩ => ⟨S500000x1x128, .f32⟩
  | .hbm, ⟨83, _⟩ => ⟨S1024x1x128, .f32⟩
  | .hbm, ⟨84, _⟩ => ⟨S1024x128, .f32⟩
  | .hbm, ⟨85, _⟩ => ⟨S10240x25, .i32⟩
  | .hbm, ⟨86, _⟩ => ⟨S500000x1x128, .f32⟩
  | .hbm, ⟨87, _⟩ => ⟨S1280x25, .i32⟩
  | .hbm, ⟨88, _⟩ => ⟨S1280x1x128, .f32⟩
  | .hbm, ⟨89, _⟩ => ⟨S1280x128, .f32⟩
  | .hbm, ⟨90, _⟩ => ⟨S1280x25, .i32⟩
  | .hbm, ⟨91, _⟩ => ⟨S1280x1x128, .f32⟩
  | .hbm, ⟨92, _⟩ => ⟨S1280x128, .f32⟩
  | .hbm, ⟨93, _⟩ => ⟨S1280x25, .i32⟩
  | .hbm, ⟨94, _⟩ => ⟨S1280x1x128, .f32⟩
  | .hbm, ⟨95, _⟩ => ⟨S1280x128, .f32⟩
  | .hbm, ⟨96, _⟩ => ⟨S1280x25, .i32⟩
  | .hbm, ⟨97, _⟩ => ⟨S1280x1x128, .f32⟩
  | .hbm, ⟨98, _⟩ => ⟨S1280x128, .f32⟩
  | .hbm, ⟨99, _⟩ => ⟨S1280x25, .i32⟩
  | .hbm, ⟨100, _⟩ => ⟨S1280x1x128, .f32⟩
  | .hbm, ⟨101, _⟩ => ⟨S1280x128, .f32⟩
  | .hbm, ⟨102, _⟩ => ⟨S1280x25, .i32⟩
  | .hbm, ⟨103, _⟩ => ⟨S1280x1x128, .f32⟩
  | .hbm, ⟨104, _⟩ => ⟨S1280x128, .f32⟩
  | .hbm, ⟨105, _⟩ => ⟨S1280x25, .i32⟩
  | .hbm, ⟨106, _⟩ => ⟨S1280x1x128, .f32⟩
  | .hbm, ⟨107, _⟩ => ⟨S1280x128, .f32⟩
  | .hbm, ⟨108, _⟩ => ⟨S1280x25, .i32⟩
  | .hbm, ⟨109, _⟩ => ⟨S1280x1x128, .f32⟩
  | .hbm, ⟨110, _⟩ => ⟨S1280x128, .f32⟩
  | .hbm, ⟨111, _⟩ => ⟨S10240x128, .f32⟩
  | .hbm, ⟨112, _⟩ => ⟨S1024x256, .f32⟩
  | .hbm, ⟨113, _⟩ => ⟨S10240x256, .f32⟩
  | .hbm, ⟨114, _⟩ => ⟨S1024x10x256, .f32⟩
  | .hbm, ⟨115, _⟩ => ⟨S_, .f32⟩
  | .hbm, ⟨116, _⟩ => ⟨S1024x256, .f32⟩
  | .hbm, ⟨117, _⟩ => ⟨S_, .f32⟩
  | .hbm, ⟨118, _⟩ => ⟨S1024x256, .f32⟩
  | .hbm, ⟨119, _⟩ => ⟨S1024x256, .f32⟩
  | .hbm, ⟨120, _⟩ => ⟨S1024x256, .f32⟩
  | .local _ .vmem, ⟨0, _⟩ => ⟨S1x1x128, .f32⟩
  | .local _ .vmem, ⟨1, _⟩ => ⟨S1x1x128, .f32⟩
  | .local _ .vmem, ⟨2, _⟩ => ⟨S1x1x128, .f32⟩
  | .local _ .vmem, ⟨3, _⟩ => ⟨S1x1x128, .f32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | .local _ .vmem, ⟨12, _⟩ => ⟨S1x1x128, .f32⟩
  | .local _ .vmem, ⟨13, _⟩ => ⟨S1x1x128, .f32⟩
  | .local _ .vmem, ⟨14, _⟩ => ⟨S1x1x128, .f32⟩
  | .local _ .vmem, ⟨15, _⟩ => ⟨S1x1x128, .f32⟩
  | .local _ .vmem, ⟨16, _⟩ => ⟨S1x1x128, .f32⟩
  | .local _ .vmem, ⟨17, _⟩ => ⟨S1x1x128, .f32⟩
  | .local _ .vmem, ⟨18, _⟩ => ⟨S1x1x128, .f32⟩
  | .local _ .vmem, ⟨19, _⟩ => ⟨S1x1x128, .f32⟩
  | .local _ .vmem, ⟨20, _⟩ => ⟨S1x1x128, .f32⟩
  | .local _ .vmem, ⟨21, _⟩ => ⟨S1x1x128, .f32⟩
  | .local _ .vmem, ⟨22, _⟩ => ⟨S1x1x128, .f32⟩
  | .local _ .vmem, ⟨23, _⟩ => ⟨S1x1x128, .f32⟩
  | .local _ .vmem, ⟨24, _⟩ => ⟨S1x1x128, .f32⟩
  | .local _ .vmem, ⟨25, _⟩ => ⟨S1x1x128, .f32⟩
  | .local _ .vmem, ⟨26, _⟩ => ⟨S1x1x128, .f32⟩
  | .local _ .vmem, ⟨27, _⟩ => ⟨S1x1x128, .f32⟩
  | .local _ .vmem, ⟨28, _⟩ => ⟨S1x1x128, .f32⟩
  | .local _ .vmem, ⟨29, _⟩ => ⟨S1x1x128, .f32⟩
  | .local _ .vmem, ⟨30, _⟩ => ⟨S1x1x128, .f32⟩
  | .local _ .vmem, ⟨31, _⟩ => ⟨S1x1x128, .f32⟩
  | .local _ .vmem, ⟨32, _⟩ => ⟨S1x1x128, .f32⟩
  | .local _ .vmem, ⟨33, _⟩ => ⟨S1x1x128, .f32⟩
  | .local _ .vmem, ⟨34, _⟩ => ⟨S1x1x128, .f32⟩
  | .local _ .vmem, ⟨35, _⟩ => ⟨S1x1x128, .f32⟩
  | .local _ .vmem, ⟨36, _⟩ => ⟨S1x1x128, .f32⟩
  | .local _ .vmem, ⟨37, _⟩ => ⟨S1x1x128, .f32⟩
  | .local _ .vmem, ⟨38, _⟩ => ⟨S1x1x128, .f32⟩
  | .local _ .vmem, ⟨39, _⟩ => ⟨S1x1x128, .f32⟩
  | .local _ .vmem, ⟨40, _⟩ => ⟨S1x1x128, .f32⟩
  | .local _ .vmem, ⟨41, _⟩ => ⟨S1x1x128, .f32⟩
  | .local _ .vmem, ⟨42, _⟩ => ⟨S1x1x128, .f32⟩
  | .local _ .vmem, ⟨43, _⟩ => ⟨S1x1x128, .f32⟩
  | .local _ .vmem, ⟨44, _⟩ => ⟨S1x1x128, .f32⟩
  | .local _ .vmem, ⟨45, _⟩ => ⟨S1x1x128, .f32⟩
  | .local _ .vmem, ⟨46, _⟩ => ⟨S1x1x128, .f32⟩
  | .local _ .vmem, ⟨47, _⟩ => ⟨S1x1x128, .f32⟩
  | .local _ .vmem, ⟨48, _⟩ => ⟨S1x1x128, .f32⟩
  | .local _ .vmem, ⟨49, _⟩ => ⟨S1x1x128, .f32⟩
  | .local _ .vmem, ⟨50, _⟩ => ⟨S1x1x128, .f32⟩
  | .local _ .vmem, ⟨51, _⟩ => ⟨S1x1x128, .f32⟩
  | .local _ .vmem, ⟨52, _⟩ => ⟨S1x1x128, .f32⟩
  | .local _ .vmem, ⟨53, _⟩ => ⟨S1x1x128, .f32⟩
  | .local _ .vmem, ⟨54, _⟩ => ⟨S1x1x128, .f32⟩
  | .local _ .vmem, ⟨55, _⟩ => ⟨S1024x128, .f32⟩
  | .local _ .vmem, ⟨56, _⟩ => ⟨S1024x128, .f32⟩
  | .local _ .vmem, ⟨57, _⟩ => ⟨S128x128, .f32⟩
  | .local _ .vmem, ⟨58, _⟩ => ⟨S128x128, .f32⟩
  | .local _ .vmem, ⟨59, _⟩ => ⟨S1024x256, .f32⟩
  | .local _ .vmem, ⟨60, _⟩ => ⟨S1024x128, .f32⟩
  | .local _ .vmem, ⟨61, _⟩ => ⟨S1024x128, .f32⟩
  | .local _ .vmem, ⟨62, _⟩ => ⟨S1024x128, .f32⟩
  | .local _ .vmem, ⟨63, _⟩ => ⟨S1024x128, .f32⟩
  | .local _ .vmem, ⟨64, _⟩ => ⟨S128x128, .f32⟩
  | .local _ .vmem, ⟨65, _⟩ => ⟨S128x128, .f32⟩
  | .local _ .vmem, ⟨66, _⟩ => ⟨S1024x256, .f32⟩
  | .local _ .vmem, ⟨67, _⟩ => ⟨S1024x256, .f32⟩
  | .local _ .vmem, ⟨68, _⟩ => ⟨S1024x256, .f32⟩
  | .local _ .vmem, ⟨69, _⟩ => ⟨S1024x256, .f32⟩
  | .local _ .vmem, ⟨70, _⟩ => ⟨S256x128, .f32⟩
  | .local _ .vmem, ⟨71, _⟩ => ⟨S256x128, .f32⟩
  | .local _ .vmem, ⟨72, _⟩ => ⟨S1024x256, .f32⟩
  | .local _ .smem, ⟨0, _⟩ => ⟨S1024, .i32⟩
  | .local _ .smem, ⟨1, _⟩ => ⟨S10240, .i32⟩
  | .local _ .smem, ⟨2, _⟩ => ⟨S10240, .i32⟩
  | .local _ .smem, ⟨3, _⟩ => ⟨S32000, .i32⟩
  | .local _ .smem, ⟨4, _⟩ => ⟨S32000, .i32⟩
  | .local _ .smem, ⟨5, _⟩ => ⟨S32000, .i32⟩
  | .local _ .smem, ⟨6, _⟩ => ⟨S32000, .i32⟩
  | .local _ .smem, ⟨7, _⟩ => ⟨S32000, .i32⟩
  | .local _ .smem, ⟨8, _⟩ => ⟨S32000, .i32⟩
  | .local _ .smem, ⟨9, _⟩ => ⟨S32000, .i32⟩
  | .local _ .smem, ⟨10, _⟩ => ⟨S32000, .i32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_c_4 : Ref sig .tc := ⟨.hbm, 37, rfl⟩
abbrev main_call0_v14 : Ref sig .tc := ⟨.hbm, 38, rfl⟩
abbrev main_v7 : Ref sig .tc := ⟨.hbm, 39, rfl⟩
abbrev main_v8 : Ref sig .tc := ⟨.hbm, 40, rfl⟩
abbrev main_c_1 : Ref sig .tc := ⟨.hbm, 41, rfl⟩
abbrev main_v9 : Ref sig .tc := ⟨.hbm, 42, rfl⟩
abbrev main_v10 : Ref sig .tc := ⟨.hbm, 43, rfl⟩
abbrev main_c_2 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_c_1 : Ref sig .tc := ⟨.hbm, 58, rfl⟩
abbrev main_call1_c_2 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_3 : Ref sig .tc := ⟨.hbm, 66, rfl⟩
abbrev main_call1_v12 : Ref sig .tc := ⟨.hbm, 67, rfl⟩
abbrev main_call1_v13 : Ref sig .tc := ⟨.hbm, 68, rfl⟩
abbrev main_call1_c_4 : Ref sig .tc := ⟨.hbm, 69, rfl⟩
abbrev main_call1_v14 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_cst : Ref sig .tc := ⟨.hbm, 115, rfl⟩
abbrev main_v71 : Ref sig .tc := ⟨.hbm, 116, rfl⟩
abbrev main_cst_3 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v20 : Ref sig .tc := ⟨.smem, 0, rfl⟩
abbrev main_v25 : Ref sig .tc := ⟨.smem, 1, rfl⟩
abbrev main_v30 : Ref sig .tc := ⟨.smem, 2, rfl⟩
abbrev main_v36 : Ref sig .tc := ⟨.smem, 3, rfl⟩
abbrev main_v40 : Ref sig .tc := ⟨.smem, 4, rfl⟩
abbrev main_v44 : Ref sig .tc := ⟨.smem, 5, rfl⟩
abbrev main_v48 : Ref sig .tc := ⟨.smem, 6, rfl⟩
abbrev main_v52 : Ref sig .tc := ⟨.smem, 7, rfl⟩
abbrev main_v56 : Ref sig .tc := ⟨.smem, 8, rfl⟩
abbrev main_v60 : Ref sig .tc := ⟨.smem, 9, rfl⟩
abbrev main_v64 : Ref sig .tc := ⟨.smem, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_scratch0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_scratch0 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_scratch0 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_scratch0 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg1_1 : Ref sig .tc := ⟨.vmem, 28, rfl⟩
abbrev cc5_scratch0 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg1_1 : Ref sig .tc := ⟨.vmem, 33, rfl⟩
abbrev cc6_scratch0 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg1_1 : Ref sig .tc := ⟨.vmem, 38, rfl⟩
abbrev cc7_scratch0 : Ref sig .tc := ⟨.vmem, 39, rfl⟩
abbrev cc8_stg0_0 : Ref sig .tc := ⟨.vmem, 40, rfl⟩
abbrev cc8_stg0_1 : Ref sig .tc := ⟨.vmem, 41, rfl⟩
abbrev cc8_stg1_0 : Ref sig .tc := ⟨.vmem, 42, rfl⟩
abbrev cc8_stg1_1 : Ref sig .tc := ⟨.vmem, 43, rfl⟩
abbrev cc8_scratch0 : Ref sig .tc := ⟨.vmem, 44, rfl⟩
abbrev cc9_stg0_0 : Ref sig .tc := ⟨.vmem, 45, rfl⟩
abbrev cc9_stg0_1 : Ref sig .tc := ⟨.vmem, 46, rfl⟩
abbrev cc9_stg1_0 : Ref sig .tc := ⟨.vmem, 47, rfl⟩
abbrev cc9_stg1_1 : Ref sig .tc := ⟨.vmem, 48, rfl⟩
abbrev cc9_scratch0 : Ref sig .tc := ⟨.vmem, 49, rfl⟩
abbrev cc10_stg0_0 : Ref sig .tc := ⟨.vmem, 50, rfl⟩
abbrev cc10_stg0_1 : Ref sig .tc := ⟨.vmem, 51, rfl⟩
abbrev cc10_stg1_0 : Ref sig .tc := ⟨.vmem, 52, rfl⟩
abbrev cc10_stg1_1 : Ref sig .tc := ⟨.vmem, 53, rfl⟩
abbrev cc10_scratch0 : Ref sig .tc := ⟨.vmem, 54, rfl⟩
abbrev cc11_stg0_0 : Ref sig .tc := ⟨.vmem, 55, rfl⟩
abbrev cc11_stg1_0 : Ref sig .tc := ⟨.vmem, 56, rfl⟩
abbrev cc11_stg2_0 : Ref sig .tc := ⟨.vmem, 57, rfl⟩
abbrev cc11_stg3_0 : Ref sig .tc := ⟨.vmem, 58, rfl⟩
abbrev cc11_stg4_0 : Ref sig .tc := ⟨.vmem, 59, rfl⟩
abbrev cc12_stg0_0 : Ref sig .tc := ⟨.vmem, 60, rfl⟩
abbrev cc12_stg0_1 : Ref sig .tc := ⟨.vmem, 61, rfl⟩
abbrev cc12_stg1_0 : Ref sig .tc := ⟨.vmem, 62, rfl⟩
abbrev cc12_stg1_1 : Ref sig .tc := ⟨.vmem, 63, rfl⟩
abbrev cc12_stg2_0 : Ref sig .tc := ⟨.vmem, 64, rfl⟩
abbrev cc12_stg3_0 : Ref sig .tc := ⟨.vmem, 65, rfl⟩
abbrev cc12_stg4_0 : Ref sig .tc := ⟨.vmem, 66, rfl⟩
abbrev cc12_stg4_1 : Ref sig .tc := ⟨.vmem, 67, rfl⟩
abbrev cc13_stg0_0 : Ref sig .tc := ⟨.vmem, 68, rfl⟩
abbrev cc13_stg1_0 : Ref sig .tc := ⟨.vmem, 69, rfl⟩
abbrev cc13_stg2_0 : Ref sig .tc := ⟨.vmem, 70, rfl⟩
abbrev cc13_stg3_0 : Ref sig .tc := ⟨.vmem, 71, rfl⟩
abbrev cc13_stg4_0 : Ref sig .tc := ⟨.vmem, 72, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc3_sem0_0 : DmaSem sig := 12
abbrev cc3_sem0_1 : DmaSem sig := 13
abbrev cc3_sem1_0 : DmaSem sig := 14
abbrev cc3_sem1_1 : DmaSem sig := 15
abbrev cc4_sem0_0 : DmaSem sig := 16
abbrev cc4_sem0_1 : DmaSem sig := 17
abbrev cc4_sem1_0 : DmaSem sig := 18
abbrev cc4_sem1_1 : DmaSem sig := 19
abbrev cc5_sem0_0 : DmaSem sig := 20
abbrev cc5_sem0_1 : DmaSem sig := 21
abbrev cc5_sem1_0 : DmaSem sig := 22
abbrev cc5_sem1_1 : DmaSem sig := 23
abbrev cc6_sem0_0 : DmaSem sig := 24
abbrev cc6_sem0_1 : DmaSem sig := 25
abbrev cc6_sem1_0 : DmaSem sig := 26
abbrev cc6_sem1_1 : DmaSem sig := 27
abbrev cc7_sem0_0 : DmaSem sig := 28
abbrev cc7_sem0_1 : DmaSem sig := 29
abbrev cc7_sem1_0 : DmaSem sig := 30
abbrev cc7_sem1_1 : DmaSem sig := 31
abbrev cc8_sem0_0 : DmaSem sig := 32
abbrev cc8_sem0_1 : DmaSem sig := 33
abbrev cc8_sem1_0 : DmaSem sig := 34
abbrev cc8_sem1_1 : DmaSem sig := 35
abbrev cc9_sem0_0 : DmaSem sig := 36
abbrev cc9_sem0_1 : DmaSem sig := 37
abbrev cc9_sem1_0 : DmaSem sig := 38
abbrev cc9_sem1_1 : DmaSem sig := 39
abbrev cc10_sem0_0 : DmaSem sig := 40
abbrev cc10_sem0_1 : DmaSem sig := 41
abbrev cc10_sem1_0 : DmaSem sig := 42
abbrev cc10_sem1_1 : DmaSem sig := 43
abbrev cc11_sem0_0 : DmaSem sig := 44
abbrev cc11_sem1_0 : DmaSem sig := 45
abbrev cc11_sem2_0 : DmaSem sig := 46
abbrev cc11_sem3_0 : DmaSem sig := 47
abbrev cc11_sem4_0 : DmaSem sig := 48
abbrev cc12_sem0_0 : DmaSem sig := 49
abbrev cc12_sem0_1 : DmaSem sig := 50
abbrev cc12_sem1_0 : DmaSem sig := 51
abbrev cc12_sem1_1 : DmaSem sig := 52
abbrev cc12_sem2_0 : DmaSem sig := 53
abbrev cc12_sem3_0 : DmaSem sig := 54
abbrev cc12_sem4_0 : DmaSem sig := 55
abbrev cc12_sem4_1 : DmaSem sig := 56
abbrev cc13_sem0_0 : DmaSem sig := 57
abbrev cc13_sem1_0 : DmaSem sig := 58
abbrev cc13_sem2_0 : DmaSem sig := 59
abbrev cc13_sem3_0 : DmaSem sig := 60
abbrev cc13_sem4_0 : DmaSem sig := 61

abbrev nD : Nat := 1
abbrev τ : Topo := Topo.v7x

variable {F : FTy → Type} [FloatOps F]

abbrev grid0 : Pipeline.Grid := ⟨2, ![1024, 1], ![false, false]⟩

abbrev pre0 : Pipeline.Prefetch sig := ⟨1, ![main_v20.idx], fun | 0 => main_v20.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let v2 : Index := Scalar.indexCast v1
  ![v2.toNat]
def k0_cond2 (i : grid0.Coords) : BitVec 1 :=
  let arg1 : BitVec 32 := BitVec.ofNat 32 (i 1).val
  let c0_i32_9 : BitVec 32 := 0#32
  let v10 : BitVec 1 := Scalar.cmpi .eq arg1 c0_i32_9
  let v11 : BitVec 32 := Scalar.extui v10
  let c0_i32_10 : BitVec 32 := 0#32
  let v12 : BitVec 1 := Scalar.cmpi .ne v11 c0_i32_10
  v12

def cc0_transform_0 (k0_off1_inb : ∀ i : grid0.Coords, ∀ a, (k0_off1 i) a + S1.size a ≤ S1024.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let v2 : Index := Scalar.indexCast v1
  let v3 : BitVec 32 := pf.at 0 (Rect.unit (s := S1024) ![v2.toNat] S1.size (k0_off1_inb i)) numel1_S1
  let c0_i32 : BitVec 32 := 0#32
  let c0_i32_0 : BitVec 32 := 0#32
  let c0_i32_1 : BitVec 32 := 0#32
  ![v3.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![10240, 1], ![false, false]⟩

abbrev pre1 : Pipeline.Prefetch sig := ⟨1, ![main_v25.idx], fun | 0 => main_v25.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let v2 : Index := Scalar.indexCast v1
  ![v2.toNat]
def k1_cond2 (i : grid1.Coords) : BitVec 1 :=
  let arg1 : BitVec 32 := BitVec.ofNat 32 (i 1).val
  let c0_i32_9 : BitVec 32 := 0#32
  let v10 : BitVec 1 := Scalar.cmpi .eq arg1 c0_i32_9
  let v11 : BitVec 32 := Scalar.extui v10
  let c0_i32_10 : BitVec 32 := 0#32
  let v12 : BitVec 1 := Scalar.cmpi .ne v11 c0_i32_10
  v12

def cc1_transform_0 (k1_off1_inb : ∀ i : grid1.Coords, ∀ a, (k1_off1 i) a + S1.size a ≤ S10240.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let v2 : Index := Scalar.indexCast v1
  let v3 : BitVec 32 := pf.at 0 (Rect.unit (s := S10240) ![v2.toNat] S1.size (k1_off1_inb i)) numel1_S1
  let c0_i32 : BitVec 32 := 0#32
  let c0_i32_0 : BitVec 32 := 0#32
  let c0_i32_1 : BitVec 32 := 0#32
  ![v3.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev grid2 : Pipeline.Grid := ⟨2, ![1024, 10], ![false, false]⟩

abbrev pre2 : Pipeline.Prefetch sig := ⟨1, ![main_v30.idx], fun | 0 => main_v30.names | ⟨_ + 1, h⟩ => absurd h (Nat.not_lt.2 (Nat.le_add_left _ _)), fun | 0 => rfl | ⟨_ + 1, h⟩ => absurd h (Nat.not_lt.2 (Nat.le_add_left _ _))⟩

def k2_off1 (i : grid2.Coords) : Fin 1 → Nat :=
  let arg0 : BitVec 32 := BitVec.ofNat 32 (i 0).val
  let c10_i32 : BitVec 32 := 10#32
  let v0 : BitVec 32 := Scalar.muli arg0 c10_i32
  let arg1 : BitVec 32 := BitVec.ofNat 32 (i 1).val
  let v1 : BitVec 32 := Scalar.addi v0 arg1
  let v2 : Index := Scalar.indexCast v1
  ![v2.toNat]
def k2_cond2 (i : grid2.Coords) : BitVec 1 :=
  let arg1 : BitVec 32 := BitVec.ofNat 32 (i 1).val
  let c9_i32 : BitVec 32 := 9#32
  let v10 : BitVec 1 := Scalar.cmpi .eq arg1 c9_i32
  let v11 : BitVec 32 := Scalar.extui v10
  let c0_i32_9 : BitVec 32 := 0#32
  let v12 : BitVec 1 := Scalar.cmpi .ne v11 c0_i32_9
  v12

def cc2_transform_0 (k2_off1_inb : ∀ i : grid2.Coords, ∀ a, (k2_off1 i) a + S1.size a ≤ S10240.size a) (numel1_S1 : S1.numel = 1) (pf : pre2.Contents (Elt F)) (i : grid2.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let v2 : Index := Scalar.indexCast v1
  let v3 : BitVec 32 := pf.at 0 (Rect.unit (s := S10240) ![v2.toNat] S1.size (k2_off1_inb i)) numel1_S1
  let c0_i32 : BitVec 32 := 0#32
  let c0_i32_0 : BitVec 32 := 0#32
  let c0_i32_1 : BitVec 32 := 0#32
  ![v3.toNat, c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev grid3 : Pipeline.Grid := ⟨2, ![1280, 25], ![false, false]⟩

abbrev pre3 : Pipeline.Prefetch sig := ⟨1, ![main_v36.idx], fun | 0 => main_v36.names | ⟨_ + 1, h⟩ => absurd h (Nat.not_lt.2 (Nat.le_add_left _ _)), fun | 0 => rfl | ⟨_ + 1, h⟩ => absurd h (Nat.not_lt.2 (Nat.le_add_left _ _))⟩

def k3_off1 (i : grid3.Coords) : Fin 1 → Nat :=
  let arg0 : BitVec 32 := BitVec.ofNat 32 (i 0).val
  let c25_i32 : BitVec 32 := 25#32
  let v0 : BitVec 32 := Scalar.muli arg0 c25_i32
  let arg1 : BitVec 32 := BitVec.ofNat 32 (i 1).val
  let v1 : BitVec 32 := Scalar.addi v0 arg1
  let v2 : Index := Scalar.indexCast v1
  ![v2.toNat]
def k3_cond2 (i : grid3.Coords) : BitVec 1 :=
  let arg1 : BitVec 32 := BitVec.ofNat 32 (i 1).val
  let c24_i32 : BitVec 32 := 24#32
  let v10 : BitVec 1 := Scalar.cmpi .eq arg1 c24_i32
  let v11 : BitVec 32 := Scalar.extui v10
  let c0_i32_9 : BitVec 32 := 0#32
  let v12 : BitVec 1 := Scalar.cmpi .ne v11 c0_i32_9
  v12

def cc3_transform_0 (k3_off1_inb : ∀ i : grid3.Coords, ∀ a, (k3_off1 i) a + S1.size a ≤ S32000.size a) (numel1_S1 : S1.numel = 1) (pf : pre3.Contents (Elt F)) (i : grid3.Coords) : Fin 3 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let v2 : Index := Scalar.indexCast v1
  let v3 : BitVec 32 := pf.at 0 (Rect.unit (s := S32000) ![v2.toNat] S1.size (k3_off1_inb i)) numel1_S1
  let c0_i32 : BitVec 32 := 0#32
  let c0_i32_0 : BitVec 32 := 0#32
  let c0_i32_1 : BitVec 32 := 0#32
  ![v3.toNat, c0_i32.toNat, c0_i32_0.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x1x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x1x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev grid4 : Pipeline.Grid := ⟨2, ![1280, 25], ![false, false]⟩

abbrev pre4 : Pipeline.Prefetch sig := ⟨1, ![main_v40.idx], fun | 0 => main_v40.names | ⟨_ + 1, h⟩ => absurd h (Nat.not_lt.2 (Nat.le_add_left _ _)), fun | 0 => rfl | ⟨_ + 1, h⟩ => absurd h (Nat.not_lt.2 (Nat.le_add_left _ _))⟩

def k4_off1 (i : grid4.Coords) : Fin 1 → Nat :=
  let arg0 : BitVec 32 := BitVec.ofNat 32 (i 0).val
  let c25_i32 : BitVec 32 := 25#32
  let v0 : BitVec 32 := Scalar.muli arg0 c25_i32
  let arg1 : BitVec 32 := BitVec.ofNat 32 (i 1).val
  let v1 : BitVec 32 := Scalar.addi v0 arg1
  let v2 : Index := Scalar.indexCast v1
  ![v2.toNat]
def k4_cond2 (i : grid4.Coords) : BitVec 1 :=
  let arg1 : BitVec 32 := BitVec.ofNat 32 (i 1).val
  let c24_i32 : BitVec 32 := 24#32
  let v10 : BitVec 1 := Scalar.cmpi .eq arg1 c24_i32
  let v11 : BitVec 32 := Scalar.extui v10
  let c0_i32_9 : BitVec 32 := 0#32
  let v12 : BitVec 1 := Scalar.cmpi .ne v11 c0_i32_9
  v12

def cc4_transform_0 (k4_off1_inb : ∀ i : grid4.Coords, ∀ a, (k4_off1 i) a + S1.size a ≤ S32000.size a) (numel1_S1 : S1.numel = 1) (pf : pre4.Contents (Elt F)) (i : grid4.Coords) : Fin 3 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let v2 : Index := Scalar.indexCast v1
  let v3 : BitVec 32 := pf.at 0 (Rect.unit (s := S32000) ![v2.toNat] S1.size (k4_off1_inb i)) numel1_S1
  let c0_i32 : BitVec 32 := 0#32
  let c0_i32_0 : BitVec 32 := 0#32
  let c0_i32_1 : BitVec 32 := 0#32
  ![v3.toNat, c0_i32.toNat, c0_i32_0.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x1x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x1x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev grid5 : Pipeline.Grid := ⟨2, ![1280, 25], ![false, false]⟩

abbrev pre5 : Pipeline.Prefetch sig := ⟨1, ![main_v44.idx], fun | 0 => main_v44.names | ⟨_ + 1, h⟩ => absurd h (Nat.not_lt.2 (Nat.le_add_left _ _)), fun | 0 => rfl | ⟨_ + 1, h⟩ => absurd h (Nat.not_lt.2 (Nat.le_add_left _ _))⟩

def k5_off1 (i : grid5.Coords) : Fin 1 → Nat :=
  let arg0 : BitVec 32 := BitVec.ofNat 32 (i 0).val
  let c25_i32 : BitVec 32 := 25#32
  let v0 : BitVec 32 := Scalar.muli arg0 c25_i32
  let arg1 : BitVec 32 := BitVec.ofNat 32 (i 1).val
  let v1 : BitVec 32 := Scalar.addi v0 arg1
  let v2 : Index := Scalar.indexCast v1
  ![v2.toNat]
def k5_cond2 (i : grid5.Coords) : BitVec 1 :=
  let arg1 : BitVec 32 := BitVec.ofNat 32 (i 1).val
  let c24_i32 : BitVec 32 := 24#32
  let v10 : BitVec 1 := Scalar.cmpi .eq arg1 c24_i32
  let v11 : BitVec 32 := Scalar.extui v10
  let c0_i32_9 : BitVec 32 := 0#32
  let v12 : BitVec 1 := Scalar.cmpi .ne v11 c0_i32_9
  v12

def cc5_transform_0 (k5_off1_inb : ∀ i : grid5.Coords, ∀ a, (k5_off1 i) a + S1.size a ≤ S32000.size a) (numel1_S1 : S1.numel = 1) (pf : pre5.Contents (Elt F)) (i : grid5.Coords) : Fin 3 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let v2 : Index := Scalar.indexCast v1
  let v3 : BitVec 32 := pf.at 0 (Rect.unit (s := S32000) ![v2.toNat] S1.size (k5_off1_inb i)) numel1_S1
  let c0_i32 : BitVec 32 := 0#32
  let c0_i32_0 : BitVec 32 := 0#32
  let c0_i32_1 : BitVec 32 := 0#32
  ![v3.toNat, c0_i32.toNat, c0_i32_0.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S1x1x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1x1x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev grid6 : Pipeline.Grid := ⟨2, ![1280, 25], ![false, false]⟩

abbrev pre6 : Pipeline.Prefetch sig := ⟨1, ![main_v48.idx], fun | 0 => main_v48.names | ⟨_ + 1, h⟩ => absurd h (Nat.not_lt.2 (Nat.le_add_left _ _)), fun | 0 => rfl | ⟨_ + 1, h⟩ => absurd h (Nat.not_lt.2 (Nat.le_add_left _ _))⟩

def k6_off1 (i : grid6.Coords) : Fin 1 → Nat :=
  let arg0 : BitVec 32 := BitVec.ofNat 32 (i 0).val
  let c25_i32 : BitVec 32 := 25#32
  let v0 : BitVec 32 := Scalar.muli arg0 c25_i32
  let arg1 : BitVec 32 := BitVec.ofNat 32 (i 1).val
  let v1 : BitVec 32 := Scalar.addi v0 arg1
  let v2 : Index := Scalar.indexCast v1
  ![v2.toNat]
def k6_cond2 (i : grid6.Coords) : BitVec 1 :=
  let arg1 : BitVec 32 := BitVec.ofNat 32 (i 1).val
  let c24_i32 : BitVec 32 := 24#32
  let v10 : BitVec 1 := Scalar.cmpi .eq arg1 c24_i32
  let v11 : BitVec 32 := Scalar.extui v10
  let c0_i32_9 : BitVec 32 := 0#32
  let v12 : BitVec 1 := Scalar.cmpi .ne v11 c0_i32_9
  v12

def cc6_transform_0 (k6_off1_inb : ∀ i : grid6.Coords, ∀ a, (k6_off1 i) a + S1.size a ≤ S32000.size a) (numel1_S1 : S1.numel = 1) (pf : pre6.Contents (Elt F)) (i : grid6.Coords) : Fin 3 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let v2 : Index := Scalar.indexCast v1
  let v3 : BitVec 32 := pf.at 0 (Rect.unit (s := S32000) ![v2.toNat] S1.size (k6_off1_inb i)) numel1_S1
  let c0_i32 : BitVec 32 := 0#32
  let c0_i32_0 : BitVec 32 := 0#32
  let c0_i32_1 : BitVec 32 := 0#32
  ![v3.toNat, c0_i32.toNat, c0_i32_0.toNat]

def cc6_transform_1 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S1x1x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S1x1x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false]

abbrev grid7 : Pipeline.Grid := ⟨2, ![1280, 25], ![false, false]⟩

abbrev pre7 : Pipeline.Prefetch sig := ⟨1, ![main_v52.idx], fun | 0 => main_v52.names | ⟨_ + 1, h⟩ => absurd h (Nat.not_lt.2 (Nat.le_add_left _ _)), fun | 0 => rfl | ⟨_ + 1, h⟩ => absurd h (Nat.not_lt.2 (Nat.le_add_left _ _))⟩

def k7_off1 (i : grid7.Coords) : Fin 1 → Nat :=
  let arg0 : BitVec 32 := BitVec.ofNat 32 (i 0).val
  let c25_i32 : BitVec 32 := 25#32
  let v0 : BitVec 32 := Scalar.muli arg0 c25_i32
  let arg1 : BitVec 32 := BitVec.ofNat 32 (i 1).val
  let v1 : BitVec 32 := Scalar.addi v0 arg1
  let v2 : Index := Scalar.indexCast v1
  ![v2.toNat]
def k7_cond2 (i : grid7.Coords) : BitVec 1 :=
  let arg1 : BitVec 32 := BitVec.ofNat 32 (i 1).val
  let c24_i32 : BitVec 32 := 24#32
  let v10 : BitVec 1 := Scalar.cmpi .eq arg1 c24_i32
  let v11 : BitVec 32 := Scalar.extui v10
  let c0_i32_9 : BitVec 32 := 0#32
  let v12 : BitVec 1 := Scalar.cmpi .ne v11 c0_i32_9
  v12

def cc7_transform_0 (k7_off1_inb : ∀ i : grid7.Coords, ∀ a, (k7_off1 i) a + S1.size a ≤ S32000.size a) (numel1_S1 : S1.numel = 1) (pf : pre7.Contents (Elt F)) (i : grid7.Coords) : Fin 3 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let v2 : Index := Scalar.indexCast v1
  let v3 : BitVec 32 := pf.at 0 (Rect.unit (s := S32000) ![v2.toNat] S1.size (k7_off1_inb i)) numel1_S1
  let c0_i32 : BitVec 32 := 0#32
  let c0_i32_0 : BitVec 32 := 0#32
  let c0_i32_1 : BitVec 32 := 0#32
  ![v3.toNat, c0_i32.toNat, c0_i32_0.toNat]

def cc7_transform_1 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S1x1x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S1x1x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, false]

abbrev grid8 : Pipeline.Grid := ⟨2, ![1280, 25], ![false, false]⟩

abbrev pre8 : Pipeline.Prefetch sig := ⟨1, ![main_v56.idx], fun | 0 => main_v56.names | ⟨_ + 1, h⟩ => absurd h (Nat.not_lt.2 (Nat.le_add_left _ _)), fun | 0 => rfl | ⟨_ + 1, h⟩ => absurd h (Nat.not_lt.2 (Nat.le_add_left _ _))⟩

def k8_off1 (i : grid8.Coords) : Fin 1 → Nat :=
  let arg0 : BitVec 32 := BitVec.ofNat 32 (i 0).val
  let c25_i32 : BitVec 32 := 25#32
  let v0 : BitVec 32 := Scalar.muli arg0 c25_i32
  let arg1 : BitVec 32 := BitVec.ofNat 32 (i 1).val
  let v1 : BitVec 32 := Scalar.addi v0 arg1
  let v2 : Index := Scalar.indexCast v1
  ![v2.toNat]
def k8_cond2 (i : grid8.Coords) : BitVec 1 :=
  let arg1 : BitVec 32 := BitVec.ofNat 32 (i 1).val
  let c24_i32 : BitVec 32 := 24#32
  let v10 : BitVec 1 := Scalar.cmpi .eq arg1 c24_i32
  let v11 : BitVec 32 := Scalar.extui v10
  let c0_i32_9 : BitVec 32 := 0#32
  let v12 : BitVec 1 := Scalar.cmpi .ne v11 c0_i32_9
  v12

def cc8_transform_0 (k8_off1_inb : ∀ i : grid8.Coords, ∀ a, (k8_off1 i) a + S1.size a ≤ S32000.size a) (numel1_S1 : S1.numel = 1) (pf : pre8.Contents (Elt F)) (i : grid8.Coords) : Fin 3 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let v2 : Index := Scalar.indexCast v1
  let v3 : BitVec 32 := pf.at 0 (Rect.unit (s := S32000) ![v2.toNat] S1.size (k8_off1_inb i)) numel1_S1
  let c0_i32 : BitVec 32 := 0#32
  let c0_i32_0 : BitVec 32 := 0#32
  let c0_i32_1 : BitVec 32 := 0#32
  ![v3.toNat, c0_i32.toNat, c0_i32_0.toNat]

def cc8_transform_1 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage8_0 : Fin 2 → Memref sig .tc .vmem S1x1x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, true]

abbrev stage8_1 : Fin 2 → Memref sig .tc .vmem S1x1x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true, false]

abbrev grid9 : Pipeline.Grid := ⟨2, ![1280, 25], ![false, false]⟩

abbrev pre9 : Pipeline.Prefetch sig := ⟨1, ![main_v60.idx], fun | 0 => main_v60.names | ⟨_ + 1, h⟩ => absurd h (Nat.not_lt.2 (Nat.le_add_left _ _)), fun | 0 => rfl | ⟨_ + 1, h⟩ => absurd h (Nat.not_lt.2 (Nat.le_add_left _ _))⟩

def k9_off1 (i : grid9.Coords) : Fin 1 → Nat :=
  let arg0 : BitVec 32 := BitVec.ofNat 32 (i 0).val
  let c25_i32 : BitVec 32 := 25#32
  let v0 : BitVec 32 := Scalar.muli arg0 c25_i32
  let arg1 : BitVec 32 := BitVec.ofNat 32 (i 1).val
  let v1 : BitVec 32 := Scalar.addi v0 arg1
  let v2 : Index := Scalar.indexCast v1
  ![v2.toNat]
def k9_cond2 (i : grid9.Coords) : BitVec 1 :=
  let arg1 : BitVec 32 := BitVec.ofNat 32 (i 1).val
  let c24_i32 : BitVec 32 := 24#32
  let v10 : BitVec 1 := Scalar.cmpi .eq arg1 c24_i32
  let v11 : BitVec 32 := Scalar.extui v10
  let c0_i32_9 : BitVec 32 := 0#32
  let v12 : BitVec 1 := Scalar.cmpi .ne v11 c0_i32_9
  v12

def cc9_transform_0 (k9_off1_inb : ∀ i : grid9.Coords, ∀ a, (k9_off1 i) a + S1.size a ≤ S32000.size a) (numel1_S1 : S1.numel = 1) (pf : pre9.Contents (Elt F)) (i : grid9.Coords) : Fin 3 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let v2 : Index := Scalar.indexCast v1
  let v3 : BitVec 32 := pf.at 0 (Rect.unit (s := S32000) ![v2.toNat] S1.size (k9_off1_inb i)) numel1_S1
  let c0_i32 : BitVec 32 := 0#32
  let c0_i32_0 : BitVec 32 := 0#32
  let c0_i32_1 : BitVec 32 := 0#32
  ![v3.toNat, c0_i32.toNat, c0_i32_0.toNat]

def cc9_transform_1 (i : grid9.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage9_0 : Fin 2 → Memref sig .tc .vmem S1x1x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, true]

abbrev stage9_1 : Fin 2 → Memref sig .tc .vmem S1x1x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true, false]

abbrev grid10 : Pipeline.Grid := ⟨2, ![1280, 25], ![false, false]⟩

abbrev pre10 : Pipeline.Prefetch sig := ⟨1, ![main_v64.idx], fun | 0 => main_v64.names | ⟨_ + 1, h⟩ => absurd h (Nat.not_lt.2 (Nat.le_add_left _ _)), fun | 0 => rfl | ⟨_ + 1, h⟩ => absurd h (Nat.not_lt.2 (Nat.le_add_left _ _))⟩

def k10_off1 (i : grid10.Coords) : Fin 1 → Nat :=
  let arg0 : BitVec 32 := BitVec.ofNat 32 (i 0).val
  let c25_i32 : BitVec 32 := 25#32
  let v0 : BitVec 32 := Scalar.muli arg0 c25_i32
  let arg1 : BitVec 32 := BitVec.ofNat 32 (i 1).val
  let v1 : BitVec 32 := Scalar.addi v0 arg1
  let v2 : Index := Scalar.indexCast v1
  ![v2.toNat]
def k10_cond2 (i : grid10.Coords) : BitVec 1 :=
  let arg1 : BitVec 32 := BitVec.ofNat 32 (i 1).val
  let c24_i32 : BitVec 32 := 24#32
  let v10 : BitVec 1 := Scalar.cmpi .eq arg1 c24_i32
  let v11 : BitVec 32 := Scalar.extui v10
  let c0_i32_9 : BitVec 32 := 0#32
  let v12 : BitVec 1 := Scalar.cmpi .ne v11 c0_i32_9
  v12

def cc10_transform_0 (k10_off1_inb : ∀ i : grid10.Coords, ∀ a, (k10_off1 i) a + S1.size a ≤ S32000.size a) (numel1_S1 : S1.numel = 1) (pf : pre10.Contents (Elt F)) (i : grid10.Coords) : Fin 3 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let v2 : Index := Scalar.indexCast v1
  let v3 : BitVec 32 := pf.at 0 (Rect.unit (s := S32000) ![v2.toNat] S1.size (k10_off1_inb i)) numel1_S1
  let c0_i32 : BitVec 32 := 0#32
  let c0_i32_0 : BitVec 32 := 0#32
  let c0_i32_1 : BitVec 32 := 0#32
  ![v3.toNat, c0_i32.toNat, c0_i32_0.toNat]

def cc10_transform_1 (i : grid10.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage10_0 : Fin 2 → Memref sig .tc .vmem S1x1x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, true]

abbrev stage10_1 : Fin 2 → Memref sig .tc .vmem S1x1x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true, false]

abbrev grid11 : Pipeline.Grid := ⟨1, ![1], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 1 → Memref sig .tc .vmem S1024x128 .f32 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))
abbrev reads11_0 : Fin grid11.rank → Bool := ![true]

abbrev stage11_1 : Fin 1 → Memref sig .tc .vmem S1024x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![true]

abbrev stage11_2 : Fin 1 → Memref sig .tc .vmem S128x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S128x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1024x256 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S1024x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S1024x128 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S128x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S128x128 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 2 → Memref sig .tc .vmem S1024x256 .f32 := fun | 0 => Memref.whole cc12_stg4_0 | 1 => Memref.whole cc12_stg4_1 | ⟨_ + 2, h⟩ => absurd h (Nat.not_lt.2 (Nat.le_add_left _ _))
abbrev sem12_4 : Fin 2 → DmaSem sig := fun | 0 => cc12_sem4_0 | 1 => cc12_sem4_1 | ⟨_ + 2, h⟩ => absurd h (Nat.not_lt.2 (Nat.le_add_left _ _))
abbrev reads12_4 : Fin grid12.rank → Bool := ![true]

abbrev grid13 : Pipeline.Grid := ⟨1, ![1], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 1 → Memref sig .tc .vmem S1024x256 .f32 := fun | 0 => Memref.whole cc13_stg0_0 | ⟨_ + 1, h⟩ => absurd h (Nat.not_lt.2 (Nat.le_add_left _ _))
abbrev sem13_0 : Fin 1 → DmaSem sig := fun | 0 => cc13_sem0_0 | ⟨_ + 1, h⟩ => absurd h (Nat.not_lt.2 (Nat.le_add_left _ _))
abbrev reads13_0 : Fin grid13.rank → Bool := ![true]

abbrev stage13_1 : Fin 1 → Memref sig .tc .vmem S1024x256 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![true]

abbrev stage13_2 : Fin 1 → Memref sig .tc .vmem S256x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S256x128 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1024x256 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![true]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bcast_S_S1024x10 : S_.BroadcastsInDim S1024x10 (![] : Fin 0 → Fin S1024x10.rank)
  shapeCasts_S1024x10_S1024x10x1 : S1024x10.ShapeCasts S1024x10x1
  bcast_S_S1024x10x1 : S_.BroadcastsInDim S1024x10x1 (![] : Fin 0 → Fin S1024x10x1.rank)
  bcast_S1_S1x1x1_2 : S1.BroadcastsInDim S1x1x1 (![2] : Fin 1 → Fin S1x1x1.rank)
  bcast_S1x1x1_S1024x10x1_0_1_2 : S1x1x1.BroadcastsInDim S1024x10x1 (![0, 1, 2] : Fin 3 → Fin S1024x10x1.rank)
  reducesTo_S1024x10x1_S1024x10_d2 : S1024x10x1.ReducesTo [2] S1024x10
  h_S_ : 0 < S_.numel
  shapeCasts_S1024x10_S10240 : S1024x10.ShapeCasts S10240
  bcast_S_S10240 : S_.BroadcastsInDim S10240 (![] : Fin 0 → Fin S10240.rank)
  bcast_S10240_S10240x1_0 : S10240.BroadcastsInDim S10240x1 (![0] : Fin 1 → Fin S10240x1.rank)
  bcast_S_S10240x25 : S_.BroadcastsInDim S10240x25 (![] : Fin 0 → Fin S10240x25.rank)
  shapeCasts_S10240x25_S10240x25x1 : S10240x25.ShapeCasts S10240x25x1
  bcast_S_S10240x25x1 : S_.BroadcastsInDim S10240x25x1 (![] : Fin 0 → Fin S10240x25x1.rank)
  bcast_S1x1x1_S10240x25x1_0_1_2 : S1x1x1.BroadcastsInDim S10240x25x1 (![0, 1, 2] : Fin 3 → Fin S10240x25x1.rank)
  reducesTo_S10240x25x1_S10240x25_d2 : S10240x25x1.ReducesTo [2] S10240x25
  shapeCasts_S10240x25_S256000 : S10240x25.ShapeCasts S256000
  shapeCasts_S1024_S1024x1 : S1024.ShapeCasts S1024x1
  shapeCasts_S500000x128_S500000x1x128 : S500000x128.ShapeCasts S500000x1x128
  shapeCasts_S1024x1_S1024 : S1024x1.ShapeCasts S1024
  numel1_S1 : S1.numel = 1
  inb_S1x1x128_S1x1x128_0_0_0 : ∀ a, (![0, 0, 0] : Fin 3 → Nat) a + S1x1x128.size a ≤ S1x1x128.size a
  h_S1x1x128 : 0 < S1x1x128.numel
  shapeCasts_S1x1x128_S1x1x128 : S1x1x128.ShapeCasts S1x1x128
  shapeCasts_S1024x1x128_S1024x128 : S1024x1x128.ShapeCasts S1024x128
  shapeCasts_S10240_S10240x1 : S10240.ShapeCasts S10240x1
  shapeCasts_S10240x1_S10240 : S10240x1.ShapeCasts S10240
  shapeCasts_S10240x1x128_S10240x128 : S10240x1x128.ShapeCasts S10240x128
  shapeCasts_S10240_S1024x10 : S10240.ShapeCasts S1024x10
  shapeCasts_S256000_S10240x25 : S256000.ShapeCasts S10240x25
  slices_S10240x25_S1280x25_0_0 : S10240x25.Slices ![0, 0] S1280x25
  shapeCasts_S1280x25_S32000 : S1280x25.ShapeCasts S32000
  shapeCasts_S1280x1x128_S1280x128 : S1280x1x128.ShapeCasts S1280x128
  slices_S10240x25_S1280x25_1280_0 : S10240x25.Slices ![1280, 0] S1280x25
  slices_S10240x25_S1280x25_2560_0 : S10240x25.Slices ![2560, 0] S1280x25
  slices_S10240x25_S1280x25_3840_0 : S10240x25.Slices ![3840, 0] S1280x25
  slices_S10240x25_S1280x25_5120_0 : S10240x25.Slices ![5120, 0] S1280x25
  slices_S10240x25_S1280x25_6400_0 : S10240x25.Slices ![6400, 0] S1280x25
  slices_S10240x25_S1280x25_7680_0 : S10240x25.Slices ![7680, 0] S1280x25
  slices_S10240x25_S1280x25_8960_0 : S10240x25.Slices ![8960, 0] S1280x25
  concatenates_S1280x128_S1280x128_S1280x128_S1280x128_S1280x128_S1280x128_S1280x128_S1280x128_S10240x128_d0 : Shape.Concatenates [S1280x128, S1280x128, S1280x128, S1280x128, S1280x128, S1280x128, S1280x128, S1280x128] S10240x128 0
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  concatenates_S1024x128_S1024x128_S1024x256_d1 : Shape.Concatenates [S1024x128, S1024x128] S1024x256 1
  inb_S1024x256_S1024x256_0_0 : ∀ a, (![0, 0] : Fin 2 → Nat) a + S1024x256.size a ≤ S1024x256.size a
  h_S1024x256 : 0 < S1024x256.numel
  shapeCasts_S10240x256_S1024x10x256 : S10240x256.ShapeCasts S1024x10x256
  reducesTo_S1024x10x256_S1024x256_d1 : S1024x10x256.ReducesTo [1] S1024x256
  bcast_S_S1024x256 : S_.BroadcastsInDim S1024x256 (![] : Fin 0 → Fin S1024x256.rank)
  shapeCasts_S1024x256_S1024x256 : S1024x256.ShapeCasts S1024x256
  inb_S256x128_S256x128_0_0 : ∀ a, (![0, 0] : Fin 2 → Nat) a + S256x128.size a ≤ S256x128.size a
  h_S256x128 : 0 < S256x128.numel
  gather_S500000x128_S1024x1_S1024x128_1_0_n_n_0_1_1128_wf : GatherDims.WF S500000x128 S1024x1 S1024x128 [1] [0] [] [0] [] 1 ![1, 128]
  gather_S1024x128_S1024x10x1_S1024x10_n_1_0_0_1_2_11_wf : GatherDims.WF S1024x128 S1024x10x1 S1024x10 [] [1] [0] [1] [0] 2 ![1, 1]
  gather_S500000x128_S10240x1_S10240x128_1_0_n_n_0_1_1128_wf : GatherDims.WF S500000x128 S10240x1 S10240x128 [1] [0] [] [0] [] 1 ![1, 128]
  gather_S10240x128_S10240x25x1_S10240x25_n_1_0_0_1_2_11_wf : GatherDims.WF S10240x128 S10240x25x1 S10240x25 [] [1] [0] [1] [0] 2 ![1, 1]
  dot_S1024x128_S128x128_S1024x128_1_0_0_1_n_n_wf : DotDims.WF S1024x128 S128x128 S1024x128 [1] [0] [0] [1] [] []
  dot_S1024x256_S256x128_S1024x128_1_0_0_1_n_n_wf : DotDims.WF S1024x256 S256x128 S1024x128 [1] [0] [0] [1] [] []
  hrank0 : 0 < grid0.rank
  k0_off1_inb : ∀ i : grid0.Coords, ∀ a, (k0_off1 i) a + S1.size a ≤ S1024.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128.size a ≤ S1024x1x128.size a
  hwx0_1 : ∀ i : grid0.Coords, EltTy.bits .f32 = 32 ∨ (Rect.block (s := S1024x1x128) S1x1x128.size (cc0_transform_1 i) (hinb0_1 i)).WholeWords (EltTy.packing .f32)
  hrank1 : 0 < grid1.rank
  k1_off1_inb : ∀ i : grid1.Coords, ∀ a, (k1_off1 i) a + S1.size a ≤ S10240.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1 pf i = cc1_transform_0 k1_off1_inb numel1_S1 pf i'
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x128.size a ≤ S10240x1x128.size a
  hwx1_1 : ∀ i : grid1.Coords, EltTy.bits .f32 = 32 ∨ (Rect.block (s := S10240x1x128) S1x1x128.size (cc1_transform_1 i) (hinb1_1 i)).WholeWords (EltTy.packing .f32)
  hrank2 : 0 < grid2.rank
  k2_off1_inb : ∀ i : grid2.Coords, ∀ a, (k2_off1 i) a + S1.size a ≤ S10240.size a
  hstage2_0 : ∀ j, (stage2_0 j).IsWhole
  nbuf2_0 : grid2.bufCount reads2_0 false = 2
  hreads2_0 : ∀ {F : FTy → Type} [FloatOps F] (pf : pre2.Contents (Elt F)) (i i' : grid2.Coords), (∀ a, reads2_0 a = true → i a = i' a) → cc2_transform_0 k2_off1_inb numel1_S1 pf i = cc2_transform_0 k2_off1_inb numel1_S1 pf i'
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1x128.size a ≤ S1024x1x128.size a
  hwx2_1 : ∀ i : grid2.Coords, EltTy.bits .f32 = 32 ∨ (Rect.block (s := S1024x1x128) S1x1x128.size (cc2_transform_1 i) (hinb2_1 i)).WholeWords (EltTy.packing .f32)
  hrank3 : 0 < grid3.rank
  k3_off1_inb : ∀ i : grid3.Coords, ∀ a, (k3_off1 i) a + S1.size a ≤ S32000.size a
  hstage3_0 : ∀ j, (stage3_0 j).IsWhole
  nbuf3_0 : grid3.bufCount reads3_0 false = 2
  hreads3_0 : ∀ {F : FTy → Type} [FloatOps F] (pf : pre3.Contents (Elt F)) (i i' : grid3.Coords), (∀ a, reads3_0 a = true → i a = i' a) → cc3_transform_0 k3_off1_inb numel1_S1 pf i = cc3_transform_0 k3_off1_inb numel1_S1 pf i'
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x1x128.size a ≤ S1280x1x128.size a
  hwx3_1 : ∀ i : grid3.Coords, EltTy.bits .f32 = 32 ∨ (Rect.block (s := S1280x1x128) S1x1x128.size (cc3_transform_1 i) (hinb3_1 i)).WholeWords (EltTy.packing .f32)
  hrank4 : 0 < grid4.rank
  k4_off1_inb : ∀ i : grid4.Coords, ∀ a, (k4_off1 i) a + S1.size a ≤ S32000.size a
  hstage4_0 : ∀ j, (stage4_0 j).IsWhole
  nbuf4_0 : grid4.bufCount reads4_0 false = 2
  hreads4_0 : ∀ {F : FTy → Type} [FloatOps F] (pf : pre4.Contents (Elt F)) (i i' : grid4.Coords), (∀ a, reads4_0 a = true → i a = i' a) → cc4_transform_0 k4_off1_inb numel1_S1 pf i = cc4_transform_0 k4_off1_inb numel1_S1 pf i'
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x1x128.size a ≤ S1280x1x128.size a
  hwx4_1 : ∀ i : grid4.Coords, EltTy.bits .f32 = 32 ∨ (Rect.block (s := S1280x1x128) S1x1x128.size (cc4_transform_1 i) (hinb4_1 i)).WholeWords (EltTy.packing .f32)
  hrank5 : 0 < grid5.rank
  k5_off1_inb : ∀ i : grid5.Coords, ∀ a, (k5_off1 i) a + S1.size a ≤ S32000.size a
  hstage5_0 : ∀ j, (stage5_0 j).IsWhole
  nbuf5_0 : grid5.bufCount reads5_0 false = 2
  hreads5_0 : ∀ {F : FTy → Type} [FloatOps F] (pf : pre5.Contents (Elt F)) (i i' : grid5.Coords), (∀ a, reads5_0 a = true → i a = i' a) → cc5_transform_0 k5_off1_inb numel1_S1 pf i = cc5_transform_0 k5_off1_inb numel1_S1 pf i'
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1x1x128.size a ≤ S1280x1x128.size a
  hwx5_1 : ∀ i : grid5.Coords, EltTy.bits .f32 = 32 ∨ (Rect.block (s := S1280x1x128) S1x1x128.size (cc5_transform_1 i) (hinb5_1 i)).WholeWords (EltTy.packing .f32)
  hrank6 : 0 < grid6.rank
  k6_off1_inb : ∀ i : grid6.Coords, ∀ a, (k6_off1 i) a + S1.size a ≤ S32000.size a
  hstage6_0 : ∀ j, (stage6_0 j).IsWhole
  nbuf6_0 : grid6.bufCount reads6_0 false = 2
  hreads6_0 : ∀ {F : FTy → Type} [FloatOps F] (pf : pre6.Contents (Elt F)) (i i' : grid6.Coords), (∀ a, reads6_0 a = true → i a = i' a) → cc6_transform_0 k6_off1_inb numel1_S1 pf i = cc6_transform_0 k6_off1_inb numel1_S1 pf i'
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1x1x128.size a ≤ S1280x1x128.size a
  hwx6_1 : ∀ i : grid6.Coords, EltTy.bits .f32 = 32 ∨ (Rect.block (s := S1280x1x128) S1x1x128.size (cc6_transform_1 i) (hinb6_1 i)).WholeWords (EltTy.packing .f32)
  hrank7 : 0 < grid7.rank
  k7_off1_inb : ∀ i : grid7.Coords, ∀ a, (k7_off1 i) a + S1.size a ≤ S32000.size a
  hstage7_0 : ∀ j, (stage7_0 j).IsWhole
  nbuf7_0 : grid7.bufCount reads7_0 false = 2
  hreads7_0 : ∀ {F : FTy → Type} [FloatOps F] (pf : pre7.Contents (Elt F)) (i i' : grid7.Coords), (∀ a, reads7_0 a = true → i a = i' a) → cc7_transform_0 k7_off1_inb numel1_S1 pf i = cc7_transform_0 k7_off1_inb numel1_S1 pf i'
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1x1x128.size a ≤ S1280x1x128.size a
  hwx7_1 : ∀ i : grid7.Coords, EltTy.bits .f32 = 32 ∨ (Rect.block (s := S1280x1x128) S1x1x128.size (cc7_transform_1 i) (hinb7_1 i)).WholeWords (EltTy.packing .f32)
  hrank8 : 0 < grid8.rank
  k8_off1_inb : ∀ i : grid8.Coords, ∀ a, (k8_off1 i) a + S1.size a ≤ S32000.size a
  hstage8_0 : ∀ j, (stage8_0 j).IsWhole
  nbuf8_0 : grid8.bufCount reads8_0 false = 2
  hreads8_0 : ∀ {F : FTy → Type} [FloatOps F] (pf : pre8.Contents (Elt F)) (i i' : grid8.Coords), (∀ a, reads8_0 a = true → i a = i' a) → cc8_transform_0 k8_off1_inb numel1_S1 pf i = cc8_transform_0 k8_off1_inb numel1_S1 pf i'
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S1x1x128.size a ≤ S1280x1x128.size a
  hwx8_1 : ∀ i : grid8.Coords, EltTy.bits .f32 = 32 ∨ (Rect.block (s := S1280x1x128) S1x1x128.size (cc8_transform_1 i) (hinb8_1 i)).WholeWords (EltTy.packing .f32)
  hrank9 : 0 < grid9.rank
  k9_off1_inb : ∀ i : grid9.Coords, ∀ a, (k9_off1 i) a + S1.size a ≤ S32000.size a
  hstage9_0 : ∀ j, (stage9_0 j).IsWhole
  nbuf9_0 : grid9.bufCount reads9_0 false = 2
  hreads9_0 : ∀ {F : FTy → Type} [FloatOps F] (pf : pre9.Contents (Elt F)) (i i' : grid9.Coords), (∀ a, reads9_0 a = true → i a = i' a) → cc9_transform_0 k9_off1_inb numel1_S1 pf i = cc9_transform_0 k9_off1_inb numel1_S1 pf i'
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S1x1x128.size a ≤ S1280x1x128.size a
  hwx9_1 : ∀ i : grid9.Coords, EltTy.bits .f32 = 32 ∨ (Rect.block (s := S1280x1x128) S1x1x128.size (cc9_transform_1 i) (hinb9_1 i)).WholeWords (EltTy.packing .f32)
  hrank10 : 0 < grid10.rank
  k10_off1_inb : ∀ i : grid10.Coords, ∀ a, (k10_off1 i) a + S1.size a ≤ S32000.size a
  hstage10_0 : ∀ j, (stage10_0 j).IsWhole
  nbuf10_0 : grid10.bufCount reads10_0 false = 2
  hreads10_0 : ∀ {F : FTy → Type} [FloatOps F] (pf : pre10.Contents (Elt F)) (i i' : grid10.Coords), (∀ a, reads10_0 a = true → i a = i' a) → cc10_transform_0 k10_off1_inb numel1_S1 pf i = cc10_transform_0 k10_off1_inb numel1_S1 pf i'
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S1x1x128.size a ≤ S1280x1x128.size a
  hwx10_1 : ∀ i : grid10.Coords, EltTy.bits .f32 = 32 ∨ (Rect.block (s := S1280x1x128) S1x1x128.size (cc10_transform_1 i) (hinb10_1 i)).WholeWords (EltTy.packing .f32)
  hrank11 : 0 < grid11.rank
  hstage11_0 : ∀ j, (stage11_0 j).IsWhole
  nbuf11_0 : grid11.bufCount reads11_0 false = 1
  hreads11_0 : ∀ i i' : grid11.Coords, (∀ a, reads11_0 a = true → i a = i' a) → cc11_transform_0 i = cc11_transform_0 i'
  hinb11_0 : ∀ (i : grid11.Coords) a, (cc11_transform_0 i a + 1) * S1024x128.size a ≤ S1024x128.size a
  hwx11_0 : ∀ i : grid11.Coords, EltTy.bits .f32 = 32 ∨ (Rect.block (s := S1024x128) S1024x128.size (cc11_transform_0 i) (hinb11_0 i)).WholeWords (EltTy.packing .f32)
  hstage11_1 : ∀ j, (stage11_1 j).IsWhole
  nbuf11_1 : grid11.bufCount reads11_1 false = 1
  hreads11_1 : ∀ i i' : grid11.Coords, (∀ a, reads11_1 a = true → i a = i' a) → cc11_transform_1 i = cc11_transform_1 i'
  hinb11_1 : ∀ (i : grid11.Coords) a, (cc11_transform_1 i a + 1) * S1024x128.size a ≤ S1024x128.size a
  hwx11_1 : ∀ i : grid11.Coords, EltTy.bits .f32 = 32 ∨ (Rect.block (s := S1024x128) S1024x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S128x128.size a ≤ S128x128.size a
  hwx11_2 : ∀ i : grid11.Coords, EltTy.bits .f32 = 32 ∨ (Rect.block (s := S128x128) S128x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S128x128.size a ≤ S128x128.size a
  hwx11_3 : ∀ i : grid11.Coords, EltTy.bits .f32 = 32 ∨ (Rect.block (s := S128x128) S128x128.size (cc11_transform_3 i) (hinb11_3 i)).WholeWords (EltTy.packing .f32)
  hstage11_4 : ∀ j, (stage11_4 j).IsWhole
  nbuf11_4 : grid11.bufCount reads11_4 false = 1
  hreads11_4 : ∀ i i' : grid11.Coords, (∀ a, reads11_4 a = true → i a = i' a) → cc11_transform_4 i = cc11_transform_4 i'
  hinb11_4 : ∀ (i : grid11.Coords) a, (cc11_transform_4 i a + 1) * S1024x256.size a ≤ S1024x256.size a
  hwx11_4 : ∀ i : grid11.Coords, EltTy.bits .f32 = 32 ∨ (Rect.block (s := S1024x256) S1024x256.size (cc11_transform_4 i) (hinb11_4 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S1024x128.size a ≤ S10240x128.size a
  hwx12_0 : ∀ i : grid12.Coords, EltTy.bits .f32 = 32 ∨ (Rect.block (s := S10240x128) S1024x128.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S1024x128.size a ≤ S10240x128.size a
  hwx12_1 : ∀ i : grid12.Coords, EltTy.bits .f32 = 32 ∨ (Rect.block (s := S10240x128) S1024x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S128x128.size a ≤ S128x128.size a
  hwx12_2 : ∀ i : grid12.Coords, EltTy.bits .f32 = 32 ∨ (Rect.block (s := S128x128) S128x128.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S128x128.size a ≤ S128x128.size a
  hwx12_3 : ∀ i : grid12.Coords, EltTy.bits .f32 = 32 ∨ (Rect.block (s := S128x128) S128x128.size (cc12_transform_3 i) (hinb12_3 i)).WholeWords (EltTy.packing .f32)
  hstage12_4 : ∀ j, (stage12_4 j).IsWhole
  nbuf12_4 : grid12.bufCount reads12_4 false = 2
  hreads12_4 : ∀ i i' : grid12.Coords, (∀ a, reads12_4 a = true → i a = i' a) → cc12_transform_4 i = cc12_transform_4 i'
  hinb12_4 : ∀ (i : grid12.Coords) a, (cc12_transform_4 i a + 1) * S1024x256.size a ≤ S10240x256.size a
  hwx12_4 : ∀ i : grid12.Coords, EltTy.bits .f32 = 32 ∨ (Rect.block (s := S10240x256) S1024x256.size (cc12_transform_4 i) (hinb12_4 i)).WholeWords (EltTy.packing .f32)
  hrank13 : 0 < grid13.rank
  hstage13_0 : ∀ j, (stage13_0 j).IsWhole
  nbuf13_0 : grid13.bufCount reads13_0 false = 1
  hreads13_0 : ∀ i i' : grid13.Coords, (∀ a, reads13_0 a = true → i a = i' a) → cc13_transform_0 i = cc13_transform_0 i'
  hinb13_0 : ∀ (i : grid13.Coords) a, (cc13_transform_0 i a + 1) * S1024x256.size a ≤ S1024x256.size a
  hwx13_0 : ∀ i : grid13.Coords, EltTy.bits .f32 = 32 ∨ (Rect.block (s := S1024x256) S1024x256.size (cc13_transform_0 i) (hinb13_0 i)).WholeWords (EltTy.packing .f32)
  hstage13_1 : ∀ j, (stage13_1 j).IsWhole
  nbuf13_1 : grid13.bufCount reads13_1 false = 1
  hreads13_1 : ∀ i i' : grid13.Coords, (∀ a, reads13_1 a = true → i a = i' a) → cc13_transform_1 i = cc13_transform_1 i'
  hinb13_1 : ∀ (i : grid13.Coords) a, (cc13_transform_1 i a + 1) * S1024x256.size a ≤ S1024x256.size a
  hwx13_1 : ∀ i : grid13.Coords, EltTy.bits .f32 = 32 ∨ (Rect.block (s := S1024x256) S1024x256.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S256x128.size a ≤ S256x128.size a
  hwx13_2 : ∀ i : grid13.Coords, EltTy.bits .f32 = 32 ∨ (Rect.block (s := S256x128) S256x128.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S256x128.size a ≤ S256x128.size a
  hwx13_3 : ∀ i : grid13.Coords, EltTy.bits .f32 = 32 ∨ (Rect.block (s := S256x128) S256x128.size (cc13_transform_3 i) (hinb13_3 i)).WholeWords (EltTy.packing .f32)
  hstage13_4 : ∀ j, (stage13_4 j).IsWhole
  nbuf13_4 : grid13.bufCount reads13_4 false = 1
  hreads13_4 : ∀ i i' : grid13.Coords, (∀ a, reads13_4 a = true → i a = i' a) → cc13_transform_4 i = cc13_transform_4 i'
  hinb13_4 : ∀ (i : grid13.Coords) a, (cc13_transform_4 i a + 1) * S1024x256.size a ≤ S1024x256.size a
  hwx13_4 : ∀ i : grid13.Coords, EltTy.bits .f32 = 32 ∨ (Rect.block (s := S1024x256) S1024x256.size (cc13_transform_4 i) (hinb13_4 i)).WholeWords (EltTy.packing .f32)

variable [Facts₀]

def gather_S500000x128_S1024x1_S1024x128_1_0_n_n_0_1_1128 : GatherDims S500000x128 S1024x1 S1024x128 where
  offsetDims := [1]
  collapsedSliceDims := [0]
  operandBatchingDims := []
  startIndicesBatchingDims := []
  startIndexMap := [0]
  indexVectorDim := 1
  sliceSizes := ![1, 128]
  wf := gather_S500000x128_S1024x1_S1024x128_1_0_n_n_0_1_1128_wf
def gather_S1024x128_S1024x10x1_S1024x10_n_1_0_0_1_2_11 : GatherDims S1024x128 S1024x10x1 S1024x10 where
  offsetDims := []
  collapsedSliceDims := [1]
  operandBatchingDims := [0]
  startIndicesBatchingDims := [0]
  startIndexMap := [1]
  indexVectorDim := 2
  sliceSizes := ![1, 1]
  wf := gather_S1024x128_S1024x10x1_S1024x10_n_1_0_0_1_2_11_wf
def gather_S500000x128_S10240x1_S10240x128_1_0_n_n_0_1_1128 : GatherDims S500000x128 S10240x1 S10240x128 where
  offsetDims := [1]
  collapsedSliceDims := [0]
  operandBatchingDims := []
  startIndicesBatchingDims := []
  startIndexMap := [0]
  indexVectorDim := 1
  sliceSizes := ![1, 128]
  wf := gather_S500000x128_S10240x1_S10240x128_1_0_n_n_0_1_1128_wf
def gather_S10240x128_S10240x25x1_S10240x25_n_1_0_0_1_2_11 : GatherDims S10240x128 S10240x25x1 S10240x25 where
  offsetDims := []
  collapsedSliceDims := [1]
  operandBatchingDims := [0]
  startIndicesBatchingDims := [0]
  startIndexMap := [1]
  indexVectorDim := 2
  sliceSizes := ![1, 1]
  wf := gather_S10240x128_S10240x25x1_S10240x25_n_1_0_0_1_2_11_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf

abbrev spec0_0 : Pipeline.WinSpec sig grid0.rank :=
  Pipeline.WinSpec.ofSpec (Memref.whole main_v19) S1x1x128.size reads0_0 false false 2 stage0_0 sem0_0 nbuf0_0 hstage0_0

abbrev spec0_1 : Pipeline.WinSpec sig grid0.rank :=
  Pipeline.WinSpec.ofSpec (Memref.whole main_v21) S1x1x128.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_0 k0_off1_inb numel1_S1 pf | 1 => cc0_transform_1 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 | ⟨_ + 2, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x1x128.size a ≤ S500000x1x128.size a), EltTy.bits .f32 = 32 ∨ (Rect.block (s := S500000x1x128) S1x1x128.size (cc0_transform_0 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok i).elim fun h _ => h a | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok i).elim fun _ h => h | 1 => hwx0_1 | ⟨_ + 2, h⟩ => absurd h (Nat.not_lt.2 (Nat.le_add_left _ _))
abbrev idle0 : Fin 2 → grid0.Coords → Bool := fun | 0 => fun _ => false | 1 => fun i => !(k0_cond2 i == 1#1) | ⟨_ + 2, h⟩ => absurd h (Nat.not_lt.2 (Nat.le_add_left _ _))

abbrev spec1_0 : Pipeline.WinSpec sig grid1.rank :=
  Pipeline.WinSpec.ofSpec (Memref.whole main_v24) S1x1x128.size reads1_0 false false 2 stage1_0 sem1_0 nbuf1_0 hstage1_0

abbrev spec1_1 : Pipeline.WinSpec sig grid1.rank :=
  Pipeline.WinSpec.ofSpec (Memref.whole main_v26) S1x1x128.size reads1_1 true false 2 stage1_1 sem1_1 nbuf1_1 hstage1_1

abbrev spec1 : Fin 2 → Pipeline.WinSpec sig grid1.rank := fun | 0 => spec1_0 | 1 => spec1_1 | ⟨_ + 2, h⟩ => absurd h (Nat.not_lt.2 (Nat.le_add_left _ _))
theorem hcount1 : ∀ w, grid1.bufCount (spec1 w).reads (spec1 w).sync = (spec1 w).nbuf := fun | 0 => nbuf1_0 | 1 => nbuf1_1 | ⟨_ + 2, h⟩ => absurd h (Nat.not_lt.2 (Nat.le_add_left _ _))
abbrev ix1 (pf : pre1.Contents (Elt F)) : (w : Fin 2) → grid1.Coords → Fin (spec1 w).shape.rank → Nat := fun | 0 => cc1_transform_0 k1_off1_inb numel1_S1 pf | 1 => cc1_transform_1 | ⟨_ + 2, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 | ⟨_ + 2, h⟩ => absurd h (Nat.not_lt.2 (Nat.le_add_left _ _))
def ok1 (pf : pre1.Contents (Elt F)) : Prop :=
  (∀ i : grid1.Coords, ∃ h : (∀ a, (cc1_transform_0 k1_off1_inb numel1_S1 pf i a + 1) * S1x1x128.size a ≤ S500000x1x128.size a), EltTy.bits .f32 = 32 ∨ (Rect.block (s := S500000x1x128) S1x1x128.size (cc1_transform_0 k1_off1_inb numel1_S1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok i).elim fun h _ => h a | 1 => hinb1_1 | ⟨_ + 2, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok i).elim fun _ h => h | 1 => hwx1_1 | ⟨_ + 2, h⟩ => absurd h (Nat.not_lt.2 (Nat.le_add_left _ _))
abbrev idle1 : Fin 2 → grid1.Coords → Bool := fun | 0 => fun _ => false | 1 => fun i => !(k1_cond2 i == 1#1) | ⟨_ + 2, h⟩ => absurd h (Nat.not_lt.2 (Nat.le_add_left _ _))

abbrev spec2_0 : Pipeline.WinSpec sig grid2.rank :=
  Pipeline.WinSpec.ofSpec (Memref.whole main_v29) S1x1x128.size reads2_0 false false 2 stage2_0 sem2_0 nbuf2_0 hstage2_0

abbrev spec2_1 : Pipeline.WinSpec sig grid2.rank :=
  Pipeline.WinSpec.ofSpec (Memref.whole main_v31) S1x1x128.size reads2_1 true false 2 stage2_1 sem2_1 nbuf2_1 hstage2_1

abbrev spec2 : Fin 2 → Pipeline.WinSpec sig grid2.rank := fun | 0 => spec2_0 | 1 => spec2_1 | ⟨_ + 2, h⟩ => absurd h (Nat.not_lt.2 (Nat.le_add_left _ _))
theorem hcount2 : ∀ w, grid2.bufCount (spec2 w).reads (spec2 w).sync = (spec2 w).nbuf := fun | 0 => nbuf2_0 | 1 => nbuf2_1 | ⟨_ + 2, h⟩ => absurd h (Nat.not_lt.2 (Nat.le_add_left _ _))
abbrev ix2 (pf : pre2.Contents (Elt F)) : (w : Fin 2) → grid2.Coords → Fin (spec2 w).shape.rank → Nat := fun | 0 => cc2_transform_0 k2_off1_inb numel1_S1 pf | 1 => cc2_transform_1 | ⟨_ + 2, h⟩ => absurd h (Nat.not_lt.2 (Nat.le_add_left _ _))
theorem hreads2 : ∀ (pf : pre2.Contents (Elt F)) w (i i' : grid2.Coords), (∀ a, (spec2 w).reads a = true → i a = i' a) → ix2 pf w i = ix2 pf w i' := fun pf => fun | 0 => hreads2_0 pf | 1 => hreads2_1 | ⟨_ + 2, h⟩ => absurd h (Nat.not_lt.2 (Nat.le_add_left _ _))
def ok2 (pf : pre2.Contents (Elt F)) : Prop :=
  (∀ i : grid2.Coords, ∃ h : (∀ a, (cc2_transform_0 k2_off1_inb numel1_S1 pf i a + 1) * S1x1x128.size a ≤ S500000x1x128.size a), EltTy.bits .f32 = 32 ∨ (Rect.block (s := S500000x1x128) S1x1x128.size (cc2_transform_0 k2_off1_inb numel1_S1 pf i) h).WholeWords (EltTy.packing .f32))
instance (pf : pre2.Contents (Elt F)) : Decidable (ok2 pf) := decidable_of_iff' _ (Iff.of_eq (ok2.eq_1 pf))
theorem hinb2 : ∀ (pf : pre2.Contents (Elt F)), ok2 pf → ∀ w (i : grid2.Coords) a, (ix2 pf w i a + 1) * (spec2 w).size a ≤ (spec2 w).shape.size a :=
  fun pf hok => fun | 0 => fun i a => (hok i).elim fun h _ => h a | 1 => hinb2_1 | ⟨_ + 2, h⟩ => absurd h (Nat.not_lt.2 (Nat.le_add_left _ _))
theorem hwx2 : ∀ (pf : pre2.Contents (Elt F)) (hok : ok2 pf) w (i : grid2.Coords), (spec2 w).elt.bits = 32 ∨ (Rect.block (spec2 w).size (ix2 pf w i) (hinb2 pf hok w i)).WholeWords (spec2 w).elt.packing :=
  fun pf hok => fun | 0 => fun i => (hok i).elim fun _ h => h | 1 => hwx2_1 | ⟨_ + 2, h⟩ => absurd h (Nat.not_lt.2 (Nat.le_add_left _ _))
abbrev idle2 : Fin 2 → grid2.Coords → Bool := fun | 0 => fun _ => false | 1 => fun i => !(k2_cond2 i == 1#1) | ⟨_ + 2, h⟩ => absurd h (Nat.not_lt.2 (Nat.le_add_left _ _))

abbrev spec3_0 : Pipeline.WinSpec sig grid3.rank :=
  Pipeline.WinSpec.ofSpec (Memref.whole main_v34) S1x1x128.size reads3_0 false false 2 stage3_0 sem3_0 nbuf3_0 hstage3_0

abbrev spec3_1 : Pipeline.WinSpec sig grid3.rank :=
  Pipeline.WinSpec.ofSpec (Memref.whole main_v37) S1x1x128.size reads3_1 true false 2 stage3_1 sem3_1 nbuf3_1 hstage3_1

abbrev spec3 : Fin 2 → Pipeline.WinSpec sig grid3.rank := fun | 0 => spec3_0 | 1 => spec3_1 | ⟨_ + 2, h⟩ => absurd h (Nat.not_lt.2 (Nat.le_add_left _ _))
theorem hcount3 : ∀ w, grid3.bufCount (spec3 w).reads (spec3 w).sync = (spec3 w).nbuf := fun | 0 => nbuf3_0 | 1 => nbuf3_1 | ⟨_ + 2, h⟩ => absurd h (Nat.not_lt.2 (Nat.le_add_left _ _))
abbrev ix3 (pf : pre3.Contents (Elt F)) : (w : Fin 2) → grid3.Coords → Fin (spec3 w).shape.rank → Nat := fun | 0 => cc3_transform_0 k3_off1_inb numel1_S1 pf | 1 => cc3_transform_1 | ⟨_ + 2, h⟩ => absurd h (Nat.not_lt.2 (Nat.le_add_left _ _))
theorem hreads3 : ∀ (pf : pre3.Contents (Elt F)) w (i i' : grid3.Coords), (∀ a, (spec3 w).reads a = true → i a = i' a) → ix3 pf w i = ix3 pf w i' := fun pf => fun | 0 => hreads3_0 pf | 1 => hreads3_1 | ⟨_ + 2, h⟩ => absurd h (Nat.not_lt.2 (Nat.le_add_left _ _))
def ok3 (pf : pre3.Contents (Elt F)) : Prop :=
  (∀ i : grid3.Coords, ∃ h : (∀ a, (cc3_transform_0 k3_off1_inb numel1_S1 pf i a + 1) * S1x1x128.size a ≤ S500000x1x128.size a), EltTy.bits .f32 = 32 ∨ (Rect.block (s := S500000x1x128) S1x1x128.size (cc3_transform_0 k3_off1_inb numel1_S1 pf i) h).WholeWords (EltTy.packing .f32))
instance (pf : pre3.Contents (Elt F)) : Decidable (ok3 pf) := decidable_of_iff' _ (Iff.of_eq (ok3.eq_1 pf))
theorem hinb3 : ∀ (pf : pre3.Contents (Elt F)), ok3 pf → ∀ w (i : grid3.Coords) a, (ix3 pf w i a + 1) * (spec3 w).size a ≤ (spec3 w).shape.size a :=
  fun pf hok => fun | 0 => fun i a => (hok i).elim fun h _ => h a | 1 => hinb3_1 | ⟨_ + 2, h⟩ => absurd h (Nat.not_lt.2 (Nat.le_add_left _ _))
theorem hwx3 : ∀ (pf : pre3.Contents (Elt F)) (hok : ok3 pf) w (i : grid3.Coords), (spec3 w).elt.bits = 32 ∨ (Rect.block (spec3 w).size (ix3 pf w i) (hinb3 pf hok w i)).WholeWords (spec3 w).elt.packing :=
  fun pf hok => fun | 0 => fun i => (hok i).elim fun _ h => h | 1 => hwx3_1 | ⟨_ + 2, h⟩ => absurd h (Nat.not_lt.2 (Nat.le_add_left _ _))
abbrev idle3 : Fin 2 → grid3.Coords → Bool := fun | 0 => fun _ => false | 1 => fun i => !(k3_cond2 i == 1#1) | ⟨_ + 2, h⟩ => absurd h (Nat.not_lt.2 (Nat.le_add_left _ _))

abbrev spec4_0 : Pipeline.WinSpec sig grid4.rank :=
  Pipeline.WinSpec.ofSpec (Memref.whole main_v34) S1x1x128.size reads4_0 false false 2 stage4_0 sem4_0 nbuf4_0 hstage4_0

abbrev spec4_1 : Pipeline.WinSpec sig grid4.rank :=
  Pipeline.WinSpec.ofSpec (Memref.whole main_v41) S1x1x128.size reads4_1 true false 2 stage4_1 sem4_1 nbuf4_1 hstage4_1

abbrev spec4 : Fin 2 → Pipeline.WinSpec sig grid4.rank := fun | 0 => spec4_0 | 1 => spec4_1 | ⟨_ + 2, h⟩ => absurd h (Nat.not_lt.2 (Nat.le_add_left _ _))
theorem hcount4 : ∀ w, grid4.bufCount (spec4 w).reads (spec4 w).sync = (spec4 w).nbuf := fun | 0 => nbuf4_0 | 1 => nbuf4_1 | ⟨_ + 2, h⟩ => absurd h (Nat.not_lt.2 (Nat.le_add_left _ _))
abbrev ix4 (pf : pre4.Contents (Elt F)) : (w : Fin 2) → grid4.Coords → Fin (spec4 w).shape.rank → Nat := fun | 0 => cc4_transform_0 k4_off1_inb numel1_S1 pf | 1 => cc4_transform_1 | ⟨_ + 2, h⟩ => absurd h (Nat.not_lt.2 (Nat.le_add_left _ _))
theorem hreads4 : ∀ (pf : pre4.Contents (Elt F)) w (i i' : grid4.Coords), (∀ a, (spec4 w).reads a = true → i a = i' a) → ix4 pf w i = ix4 pf w i' := fun pf => fun | 0 => hreads4_0 pf | 1 => hreads4_1 | ⟨_ + 2, h⟩ => absurd h (Nat.not_lt.2 (Nat.le_add_left _ _))
def ok4 (pf : pre4.Contents (Elt F)) : Prop :=
  (∀ i : grid4.Coords, ∃ h : (∀ a, (cc4_transform_0 k4_off1_inb numel1_S1 pf i a + 1) * S1x1x128.size a ≤ S500000x1x128.size a), EltTy.bits .f32 = 32 ∨ (Rect.block (s := S500000x1x128) S1x1x128.size (cc4_transform_0 k4_off1_inb numel1_S1 pf i) h).WholeWords (EltTy.packing .f32))
instance (pf : pre4.Contents (Elt F)) : Decidable (ok4 pf) := decidable_of_iff' _ (Iff.of_eq (ok4.eq_1 pf))
theorem hinb4 : ∀ (pf : pre4.Contents (Elt F)), ok4 pf → ∀ w (i : grid4.Coords) a, (ix4 pf w i a + 1) * (spec4 w).size a ≤ (spec4 w).shape.size a :=
  fun pf hok => fun | 0 => fun i a => (hok i).elim fun h _ => h a | 1 => hinb4_1 | ⟨_ + 2, h⟩ => absurd h (Nat.not_lt.2 (Nat.le_add_left _ _))
theorem hwx4 : ∀ (pf : pre4.Contents (Elt F)) (hok : ok4 pf) w (i : grid4.Coords), (spec4 w).elt.bits = 32 ∨ (Rect.block (spec4 w).size (ix4 pf w i) (hinb4 pf hok w i)).WholeWords (spec4 w).elt.packing :=
  fun pf hok => fun | 0 => fun i => (hok i).elim fun _ h => h | 1 => hwx4_1 | ⟨_ + 2, h⟩ => absurd h (Nat.not_lt.2 (Nat.le_add_left _ _))
abbrev idle4 : Fin 2 → grid4.Coords → Bool := fun | 0 => fun _ => false | 1 => fun i => !(k4_cond2 i == 1#1) | ⟨_ + 2, h⟩ => absurd h (Nat.not_lt.2 (Nat.le_add_left _ _))

abbrev spec5_0 : Pipeline.WinSpec sig grid5.rank :=
  Pipeline.WinSpec.ofSpec (Memref.whole main_v34) S1x1x128.size reads5_0 false false 2 stage5_0 sem5_0 nbuf5_0 hstage5_0

abbrev spec5_1 : Pipeline.WinSpec sig grid5.rank :=
  Pipeline.WinSpec.ofSpec (Memref.whole main_v45) S1x1x128.size reads5_1 true false 2 stage5_1 sem5_1 nbuf5_1 hstage5_1

abbrev spec5 : Fin 2 → Pipeline.WinSpec sig grid5.rank := fun | 0 => spec5_0 | 1 => spec5_1 | ⟨_ + 2, h⟩ => absurd h (Nat.not_lt.2 (Nat.le_add_left _ _))
theorem hcount5 : ∀ w, grid5.bufCount (spec5 w).reads (spec5 w).sync = (spec5 w).nbuf := fun | 0 => nbuf5_0 | 1 => nbuf5_1 | ⟨_ + 2, h⟩ => absurd h (Nat.not_lt.2 (Nat.le_add_left _ _))
abbrev ix5 (pf : pre5.Contents (Elt F)) : (w : Fin 2) → grid5.Coords → Fin (spec5 w).shape.rank → Nat := fun | 0 => cc5_transform_0 k5_off1_inb numel1_S1 pf | 1 => cc5_transform_1 | ⟨_ + 2, h⟩ => absurd h (Nat.not_lt.2 (Nat.le_add_left _ _))
theorem hreads5 : ∀ (pf : pre5.Contents (Elt F)) w (i i' : grid5.Coords), (∀ a, (spec5 w).reads a = true → i a = i' a) → ix5 pf w i = ix5 pf w i' := fun pf => fun | 0 => hreads5_0 pf | 1 => hreads5_1 | ⟨_ + 2, h⟩ => absurd h (Nat.not_lt.2 (Nat.le_add_left _ _))
def ok5 (pf : pre5.Contents (Elt F)) : Prop :=
  (∀ i : grid5.Coords, ∃ h : (∀ a, (cc5_transform_0 k5_off1_inb numel1_S1 pf i a + 1) * S1x1x128.size a ≤ S500000x1x128.size a), EltTy.bits .f32 = 32 ∨ (Rect.block (s := S500000x1x128) S1x1x128.size (cc5_transform_0 k5_off1_inb numel1_S1 pf i) h).WholeWords (EltTy.packing .f32))
instance (pf : pre5.Contents (Elt F)) : Decidable (ok5 pf) := decidable_of_iff' _ (Iff.of_eq (ok5.eq_1 pf))
theorem hinb5 : ∀ (pf : pre5.Contents (Elt F)), ok5 pf → ∀ w (i : grid5.Coords) a, (ix5 pf w i a + 1) * (spec5 w).size a ≤ (spec5 w).shape.size a :=
  fun pf hok => fun | 0 => fun i a => (hok i).elim fun h _ => h a | 1 => hinb5_1 | ⟨_ + 2, h⟩ => absurd h (Nat.not_lt.2 (Nat.le_add_left _ _))
theorem hwx5 : ∀ (pf : pre5.Contents (Elt F)) (hok : ok5 pf) w (i : grid5.Coords), (spec5 w).elt.bits = 32 ∨ (Rect.block (spec5 w).size (ix5 pf w i) (hinb5 pf hok w i)).WholeWords (spec5 w).elt.packing :=
  fun pf hok => fun | 0 => fun i => (hok i).elim fun _ h => h | 1 => hwx5_1 | ⟨_ + 2, h⟩ => absurd h (Nat.not_lt.2 (Nat.le_add_left _ _))
abbrev idle5 : Fin 2 → grid5.Coords → Bool := fun | 0 => fun _ => false | 1 => fun i => !(k5_cond2 i == 1#1) | ⟨_ + 2, h⟩ => absurd h (Nat.not_lt.2 (Nat.le_add_left _ _))

abbrev spec6_0 : Pipeline.WinSpec sig grid6.rank :=
  Pipeline.WinSpec.ofSpec (Memref.whole main_v34) S1x1x128.size reads6_0 false false 2 stage6_0 sem6_0 nbuf6_0 hstage6_0

abbrev spec6_1 : Pipeline.WinSpec sig grid6.rank :=
  Pipeline.WinSpec.ofSpec (Memref.whole main_v49) S1x1x128.size reads6_1 true false 2 stage6_1 sem6_1 nbuf6_1 hstage6_1

abbrev spec6 : Fin 2 → Pipeline.WinSpec sig grid6.rank := fun | 0 => spec6_0 | 1 => spec6_1 | ⟨_ + 2, h⟩ => absurd h (Nat.not_lt.2 (Nat.le_add_left _ _))
theorem hcount6 : ∀ w, grid6.bufCount (spec6 w).reads (spec6 w).sync = (spec6 w).nbuf := fun | 0 => nbuf6_0 | 1 => nbuf6_1 | ⟨_ + 2, h⟩ => absurd h (Nat.not_lt.2 (Nat.le_add_left _ _))
abbrev ix6 (pf : pre6.Contents (Elt F)) : (w : Fin 2) → grid6.Coords → Fin (spec6 w).shape.rank → Nat := fun | 0 => cc6_transform_0 k6_off1_inb numel1_S1 pf | 1 => cc6_transform_1 | ⟨_ + 2, h⟩ => absurd h (Nat.not_lt.2 (Nat.le_add_left _ _))
theorem hreads6 : ∀ (pf : pre6.Contents (Elt F)) w (i i' : grid6.Coords), (∀ a, (spec6 w).reads a = true → i a = i' a) → ix6 pf w i = ix6 pf w i' := fun pf => fun | 0 => hreads6_0 pf | 1 => hreads6_1 | ⟨_ + 2, h⟩ => absurd h (Nat.not_lt.2 (Nat.le_add_left _ _))
def ok6 (pf : pre6.Contents (Elt F)) : Prop :=
  (∀ i : grid6.Coords, ∃ h : (∀ a, (cc6_transform_0 k6_off1_inb numel1_S1 pf i a + 1) * S1x1x128.size a ≤ S500000x1x128.size a), EltTy.bits .f32 = 32 ∨ (Rect.block (s := S500000x1x128) S1x1x128.size (cc6_transform_0 k6_off1_inb numel1_S1 pf i) h).WholeWords (EltTy.packing .f32))
instance (pf : pre6.Contents (Elt F)) : Decidable (ok6 pf) := decidable_of_iff' _ (Iff.of_eq (ok6.eq_1 pf))
theorem hinb6 : ∀ (pf : pre6.Contents (Elt F)), ok6 pf → ∀ w (i : grid6.Coords) a, (ix6 pf w i a + 1) * (spec6 w).size a ≤ (spec6 w).shape.size a :=
  fun pf hok => fun | 0 => fun i a => (hok i).elim fun h _ => h a | 1 => hinb6_1 | ⟨_ + 2, h⟩ => absurd h (Nat.not_lt.2 (Nat.le_add_left _ _))
theorem hwx6 : ∀ (pf : pre6.Contents (Elt F)) (hok : ok6 pf) w (i : grid6.Coords), (spec6 w).elt.bits = 32 ∨ (Rect.block (spec6 w).size (ix6 pf w i) (hinb6 pf hok w i)).WholeWords (spec6 w).elt.packing :=
  fun pf hok => fun | 0 => fun i => (hok i).elim fun _ h => h | 1 => hwx6_1 | ⟨_ + 2, h⟩ => absurd h (Nat.not_lt.2 (Nat.le_add_left _ _))
abbrev idle6 : Fin 2 → grid6.Coords → Bool := fun | 0 => fun _ => false | 1 => fun i => !(k6_cond2 i == 1#1) | ⟨_ + 2, h⟩ => absurd h (Nat.not_lt.2 (Nat.le_add_left _ _))

abbrev spec7_0 : Pipeline.WinSpec sig grid7.rank :=
  Pipeline.WinSpec.ofSpec (Memref.whole main_v34) S1x1x128.size reads7_0 false false 2 stage7_0 sem7_0 nbuf7_0 hstage7_0

abbrev spec7_1 : Pipeline.WinSpec sig grid7.rank :=
  Pipeline.WinSpec.ofSpec (Memref.whole main_v53) S1x1x128.size reads7_1 true false 2 stage7_1 sem7_1 nbuf7_1 hstage7_1

abbrev spec7 : Fin 2 → Pipeline.WinSpec sig grid7.rank := fun | 0 => spec7_0 | 1 => spec7_1 | ⟨_ + 2, h⟩ => absurd h (Nat.not_lt.2 (Nat.le_add_left _ _))
theorem hcount7 : ∀ w, grid7.bufCount (spec7 w).reads (spec7 w).sync = (spec7 w).nbuf := fun | 0 => nbuf7_0 | 1 => nbuf7_1 | ⟨_ + 2, h⟩ => absurd h (Nat.not_lt.2 (Nat.le_add_left _ _))
abbrev ix7 (pf : pre7.Contents (Elt F)) : (w : Fin 2) → grid7.Coords → Fin (spec7 w).shape.rank → Nat := fun | 0 => cc7_transform_0 k7_off1_inb numel1_S1 pf | 1 => cc7_transform_1 | ⟨_ + 2, h⟩ => absurd h (Nat.not_lt.2 (Nat.le_add_left _ _))
theorem hreads7 : ∀ (pf : pre7.Contents (Elt F)) w (i i' : grid7.Coords), (∀ a, (spec7 w).reads a = true → i a = i' a) → ix7 pf w i = ix7 pf w i' := fun pf => fun | 0 => hreads7_0 pf | 1 => hreads7_1 | ⟨_ + 2, h⟩ => absurd h (Nat.not_lt.2 (Nat.le_add_left _ _))
def ok7 (pf : pre7.Contents (Elt F)) : Prop :=
  (∀ i : grid7.Coords, ∃ h : (∀ a, (cc7_transform_0 k7_off1_inb numel1_S1 pf i a + 1) * S1x1x128.size a ≤ S500000x1x128.size a), EltTy.bits .f32 = 32 ∨ (Rect.block (s := S500000x1x128) S1x1x128.size (cc7_transform_0 k7_off1_inb numel1_S1 pf i) h).WholeWords (EltTy.packing .f32))
instance (pf : pre7.Contents (Elt F)) : Decidable (ok7 pf) := decidable_of_iff' _ (Iff.of_eq (ok7.eq_1 pf))
theorem hinb7 : ∀ (pf : pre7.Contents (Elt F)), ok7 pf → ∀ w (i : grid7.Coords) a, (ix7 pf w i a + 1) * (spec7 w).size a ≤ (spec7 w).shape.size a :=
  fun pf hok => fun | 0 => fun i a => (hok i).elim fun h _ => h a | 1 => hinb7_1 | ⟨_ + 2, h⟩ => absurd h (Nat.not_lt.2 (Nat.le_add_left _ _))
theorem hwx7 : ∀ (pf : pre7.Contents (Elt F)) (hok : ok7 pf) w (i : grid7.Coords), (spec7 w).elt.bits = 32 ∨ (Rect.block (spec7 w).size (ix7 pf w i) (hinb7 pf hok w i)).WholeWords (spec7 w).elt.packing :=
  fun pf hok => fun | 0 => fun i => (hok i).elim fun _ h => h | 1 => hwx7_1 | ⟨_ + 2, h⟩ => absurd h (Nat.not_lt.2 (Nat.le_add_left _ _))
abbrev idle7 : Fin 2 → grid7.Coords → Bool := fun | 0 => fun _ => false | 1 => fun i => !(k7_cond2 i == 1#1) | ⟨_ + 2, h⟩ => absurd h (Nat.not_lt.2 (Nat.le_add_left _ _))

abbrev spec8_0 : Pipeline.WinSpec sig grid8.rank :=
  Pipeline.WinSpec.ofSpec (Memref.whole main_v34) S1x1x128.size reads8_0 false false 2 stage8_0 sem8_0 nbuf8_0 hstage8_0

abbrev spec8_1 : Pipeline.WinSpec sig grid8.rank :=
  Pipeline.WinSpec.ofSpec (Memref.whole main_v57) S1x1x128.size reads8_1 true false 2 stage8_1 sem8_1 nbuf8_1 hstage8_1

abbrev spec8 : Fin 2 → Pipeline.WinSpec sig grid8.rank := fun | 0 => spec8_0 | 1 => spec8_1 | ⟨_ + 2, h⟩ => absurd h (Nat.not_lt.2 (Nat.le_add_left _ _))
theorem hcount8 : ∀ w, grid8.bufCount (spec8 w).reads (spec8 w).sync = (spec8 w).nbuf := fun | 0 => nbuf8_0 | 1 => nbuf8_1 | ⟨_ + 2, h⟩ => absurd h (Nat.not_lt.2 (Nat.le_add_left _ _))
abbrev ix8 (pf : pre8.Contents (Elt F)) : (w : Fin 2) → grid8.Coords → Fin (spec8 w).shape.rank → Nat := fun | 0 => cc8_transform_0 k8_off1_inb numel1_S1 pf | 1 => cc8_transform_1 | ⟨_ + 2, h⟩ => absurd h (Nat.not_lt.2 (Nat.le_add_left _ _))
theorem hreads8 : ∀ (pf : pre8.Contents (Elt F)) w (i i' : grid8.Coords), (∀ a, (spec8 w).reads a = true → i a = i' a) → ix8 pf w i = ix8 pf w i' := fun pf => fun | 0 => hreads8_0 pf | 1 => hreads8_1 | ⟨_ + 2, h⟩ => absurd h (Nat.not_lt.2 (Nat.le_add_left _ _))
def ok8 (pf : pre8.Contents (Elt F)) : Prop :=
  (∀ i : grid8.Coords, ∃ h : (∀ a, (cc8_transform_0 k8_off1_inb numel1_S1 pf i a + 1) * S1x1x128.size a ≤ S500000x1x128.size a), EltTy.bits .f32 = 32 ∨ (Rect.block (s := S500000x1x128) S1x1x128.size (cc8_transform_0 k8_off1_inb numel1_S1 pf i) h).WholeWords (EltTy.packing .f32))
instance (pf : pre8.Contents (Elt F)) : Decidable (ok8 pf) := decidable_of_iff' _ (Iff.of_eq (ok8.eq_1 pf))
theorem hinb8 : ∀ (pf : pre8.Contents (Elt F)), ok8 pf → ∀ w (i : grid8.Coords) a, (ix8 pf w i a + 1) * (spec8 w).size a ≤ (spec8 w).shape.size a :=
  fun pf hok => fun | 0 => fun i a => (hok i).elim fun h _ => h a | 1 => hinb8_1 | ⟨_ + 2, h⟩ => absurd h (Nat.not_lt.2 (Nat.le_add_left _ _))
theorem hwx8 : ∀ (pf : pre8.Contents (Elt F)) (hok : ok8 pf) w (i : grid8.Coords), (spec8 w).elt.bits = 32 ∨ (Rect.block (spec8 w).size (ix8 pf w i) (hinb8 pf hok w i)).WholeWords (spec8 w).elt.packing :=
  fun pf hok => fun | 0 => fun i => (hok i).elim fun _ h => h | 1 => hwx8_1 | ⟨_ + 2, h⟩ => absurd h (Nat.not_lt.2 (Nat.le_add_left _ _))
abbrev idle8 : Fin 2 → grid8.Coords → Bool := fun | 0 => fun _ => false | 1 => fun i => !(k8_cond2 i == 1#1) | ⟨_ + 2, h⟩ => absurd h (Nat.not_lt.2 (Nat.le_add_left _ _))

abbrev spec9_0 : Pipeline.WinSpec sig grid9.rank :=
  Pipeline.WinSpec.ofSpec (Memref.whole main_v34) S1x1x128.size reads9_0 false false 2 stage9_0 sem9_0 nbuf9_0 hstage9_0

abbrev spec9_1 : Pipeline.WinSpec sig grid9.rank :=
  Pipeline.WinSpec.ofSpec (Memref.whole main_v61) S1x1x128.size reads9_1 true false 2 stage9_1 sem9_1 nbuf9_1 hstage9_1

abbrev spec9 : Fin 2 → Pipeline.WinSpec sig grid9.rank := fun | 0 => spec9_0 | 1 => spec9_1 | ⟨_ + 2, h⟩ => absurd h (Nat.not_lt.2 (Nat.le_add_left _ _))
theorem hcount9 : ∀ w, grid9.bufCount (spec9 w).reads (spec9 w).sync = (spec9 w).nbuf := fun | 0 => nbuf9_0 | 1 => nbuf9_1 | ⟨_ + 2, h⟩ => absurd h (Nat.not_lt.2 (Nat.le_add_left _ _))
abbrev ix9 (pf : pre9.Contents (Elt F)) : (w : Fin 2) → grid9.Coords → Fin (spec9 w).shape.rank → Nat := fun | 0 => cc9_transform_0 k9_off1_inb numel1_S1 pf | 1 => cc9_transform_1 | ⟨_ + 2, h⟩ => absurd h (Nat.not_lt.2 (Nat.le_add_left _ _))
theorem hreads9 : ∀ (pf : pre9.Contents (Elt F)) w (i i' : grid9.Coords), (∀ a, (spec9 w).reads a = true → i a = i' a) → ix9 pf w i = ix9 pf w i' := fun pf => fun | 0 => hreads9_0 pf | 1 => hreads9_1 | ⟨_ + 2, h⟩ => absurd h (Nat.not_lt.2 (Nat.le_add_left _ _))
def ok9 (pf : pre9.Contents (Elt F)) : Prop :=
  (∀ i : grid9.Coords, ∃ h : (∀ a, (cc9_transform_0 k9_off1_inb numel1_S1 pf i a + 1) * S1x1x128.size a ≤ S500000x1x128.size a), EltTy.bits .f32 = 32 ∨ (Rect.block (s := S500000x1x128) S1x1x128.size (cc9_transform_0 k9_off1_inb numel1_S1 pf i) h).WholeWords (EltTy.packing .f32))
instance (pf : pre9.Contents (Elt F)) : Decidable (ok9 pf) := decidable_of_iff' _ (Iff.of_eq (ok9.eq_1 pf))
theorem hinb9 : ∀ (pf : pre9.Contents (Elt F)), ok9 pf → ∀ w (i : grid9.Coords) a, (ix9 pf w i a + 1) * (spec9 w).size a ≤ (spec9 w).shape.size a :=
  fun pf hok => fun | 0 => fun i a => (hok i).elim fun h _ => h a | 1 => hinb9_1 | ⟨_ + 2, h⟩ => absurd h (Nat.not_lt.2 (Nat.le_add_left _ _))
theorem hwx9 : ∀ (pf : pre9.Contents (Elt F)) (hok : ok9 pf) w (i : grid9.Coords), (spec9 w).elt.bits = 32 ∨ (Rect.block (spec9 w).size (ix9 pf w i) (hinb9 pf hok w i)).WholeWords (spec9 w).elt.packing :=
  fun pf hok => fun | 0 => fun i => (hok i).elim fun _ h => h | 1 => hwx9_1 | ⟨_ + 2, h⟩ => absurd h (Nat.not_lt.2 (Nat.le_add_left _ _))
abbrev idle9 : Fin 2 → grid9.Coords → Bool := fun | 0 => fun _ => false | 1 => fun i => !(k9_cond2 i == 1#1) | ⟨_ + 2, h⟩ => absurd h (Nat.not_lt.2 (Nat.le_add_left _ _))

abbrev spec10_0 : Pipeline.WinSpec sig grid10.rank :=
  Pipeline.WinSpec.ofSpec (Memref.whole main_v34) S1x1x128.size reads10_0 false false 2 stage10_0 sem10_0 nbuf10_0 hstage10_0

abbrev spec10_1 : Pipeline.WinSpec sig grid10.rank :=
  Pipeline.WinSpec.ofSpec (Memref.whole main_v65) S1x1x128.size reads10_1 true false 2 stage10_1 sem10_1 nbuf10_1 hstage10_1

abbrev spec10 : Fin 2 → Pipeline.WinSpec sig grid10.rank := fun | 0 => spec10_0 | 1 => spec10_1 | ⟨_ + 2, h⟩ => absurd h (Nat.not_lt.2 (Nat.le_add_left _ _))
theorem hcount10 : ∀ w, grid10.bufCount (spec10 w).reads (spec10 w).sync = (spec10 w).nbuf := fun | 0 => nbuf10_0 | 1 => nbuf10_1 | ⟨_ + 2, h⟩ => absurd h (Nat.not_lt.2 (Nat.le_add_left _ _))
abbrev ix10 (pf : pre10.Contents (Elt F)) : (w : Fin 2) → grid10.Coords → Fin (spec10 w).shape.rank → Nat := fun | 0 => cc10_transform_0 k10_off1_inb numel1_S1 pf | 1 => cc10_transform_1 | ⟨_ + 2, h⟩ => absurd h (Nat.not_lt.2 (Nat.le_add_left _ _))
theorem hreads10 : ∀ (pf : pre10.Contents (Elt F)) w (i i' : grid10.Coords), (∀ a, (spec10 w).reads a = true → i a = i' a) → ix10 pf w i = ix10 pf w i' := fun pf => fun | 0 => hreads10_0 pf | 1 => hreads10_1 | ⟨_ + 2, h⟩ => absurd h (Nat.not_lt.2 (Nat.le_add_left _ _))
def ok10 (pf : pre10.Contents (Elt F)) : Prop :=
  (∀ i : grid10.Coords, ∃ h : (∀ a, (cc10_transform_0 k10_off1_inb numel1_S1 pf i a + 1) * S1x1x128.size a ≤ S500000x1x128.size a), EltTy.bits .f32 = 32 ∨ (Rect.block (s := S500000x1x128) S1x1x128.size (cc10_transform_0 k10_off1_inb numel1_S1 pf i) h).WholeWords (EltTy.packing .f32))
instance (pf : pre10.Contents (Elt F)) : Decidable (ok10 pf) := decidable_of_iff' _ (Iff.of_eq (ok10.eq_1 pf))
theorem hinb10 : ∀ (pf : pre10.Contents (Elt F)), ok10 pf → ∀ w (i : grid10.Coords) a, (ix10 pf w i a + 1) * (spec10 w).size a ≤ (spec10 w).shape.size a :=
  fun pf hok => fun | 0 => fun i a => (hok i).elim fun h _ => h a | 1 => hinb10_1 | ⟨_ + 2, h⟩ => absurd h (Nat.not_lt.2 (Nat.le_add_left _ _))
theorem hwx10 : ∀ (pf : pre10.Contents (Elt F)) (hok : ok10 pf) w (i : grid10.Coords), (spec10 w).elt.bits = 32 ∨ (Rect.block (spec10 w).size (ix10 pf w i) (hinb10 pf hok w i)).WholeWords (spec10 w).elt.packing :=
  fun pf hok => fun | 0 => fun i => (hok i).elim fun _ h => h | 1 => hwx10_1 | ⟨_ + 2, h⟩ => absurd h (Nat.not_lt.2 (Nat.le_add_left _ _))
abbrev idle10 : Fin 2 → grid10.Coords → Bool := fun | 0 => fun _ => false | 1 => fun i => !(k10_cond2 i == 1#1) | ⟨_ + 2, h⟩ => absurd h (Nat.not_lt.2 (Nat.le_add_left _ _))

abbrev win11_0 : Pipeline.Window sig grid11 :=
  Pipeline.Window.ofSpec (Memref.whole main_v22) S1024x128.size cc11_transform_0 reads11_0 false false 1 stage11_0 sem11_0
    hrank11 hreads11_0 hinb11_0 nbuf11_0 (Memref.isWhole_whole _) hwx11_0 hstage11_0

abbrev win11_1 : Pipeline.Window sig grid11 :=
  Pipeline.Window.ofSpec (Memref.whole main_v32) S1024x128.size cc11_transform_1 reads11_1 false false 1 stage11_1 sem11_1
    hrank11 hreads11_1 hinb11_1 nbuf11_1 (Memref.isWhole_whole _) hwx11_1 hstage11_1

abbrev win11_2 : Pipeline.Window sig grid11 :=
  Pipeline.Window.ofSpec (Memref.whole main_arg6) S128x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_arg5) S128x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v68) S1024x256.size cc11_transform_4 reads11_4 true false 1 stage11_4 sem11_4
    hrank11 hreads11_4 hinb11_4 nbuf11_4 (Memref.isWhole_whole _) hwx11_4 hstage11_4

abbrev win11 : Fin 5 → Pipeline.Window sig grid11 := fun | 0 => win11_0 | 1 => win11_1 | 2 => win11_2 | 3 => win11_3 | 4 => win11_4 | ⟨_ + 5, h⟩ => absurd h (Nat.not_lt.2 (Nat.le_add_left _ _))
abbrev spec11 : Fin 5 → Pipeline.WinSpec sig grid11.rank := fun w => (win11 w).toWinSpec

abbrev win12_0 : Pipeline.Window sig grid12 :=
  Pipeline.Window.ofSpec (Memref.whole main_v27) S1024x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v67) S1024x128.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_arg6) S128x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_arg5) S128x128.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v69) S1024x256.size cc12_transform_4 reads12_4 true false 2 stage12_4 sem12_4
    hrank12 hreads12_4 hinb12_4 nbuf12_4 (Memref.isWhole_whole _) hwx12_4 hstage12_4

abbrev win12 : Fin 5 → Pipeline.Window sig grid12 := fun | 0 => win12_0 | 1 => win12_1 | 2 => win12_2 | 3 => win12_3 | 4 => win12_4 | ⟨_ + 5, h⟩ => absurd h (Nat.not_lt.2 (Nat.le_add_left _ _))
abbrev spec12 : Fin 5 → Pipeline.WinSpec sig grid12.rank := fun w => (win12 w).toWinSpec

abbrev win13_0 : Pipeline.Window sig grid13 :=
  Pipeline.Window.ofSpec (Memref.whole main_v68) S1024x256.size cc13_transform_0 reads13_0 false false 1 stage13_0 sem13_0
    hrank13 hreads13_0 hinb13_0 nbuf13_0 (Memref.isWhole_whole _) hwx13_0 hstage13_0

abbrev win13_1 : Pipeline.Window sig grid13 :=
  Pipeline.Window.ofSpec (Memref.whole main_v73) S1024x256.size cc13_transform_1 reads13_1 false false 1 stage13_1 sem13_1
    hrank13 hreads13_1 hinb13_1 nbuf13_1 (Memref.isWhole_whole _) hwx13_1 hstage13_1

abbrev win13_2 : Pipeline.Window sig grid13 :=
  Pipeline.Window.ofSpec (Memref.whole main_arg8) S256x128.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_arg7) S256x128.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v74) S1024x256.size cc13_transform_4 reads13_4 true false 1 stage13_4 sem13_4
    hrank13 hreads13_4 hinb13_4 nbuf13_4 (Memref.isWhole_whole _) hwx13_4 hstage13_4

abbrev win13 : Fin 5 → Pipeline.Window sig grid13 := fun | 0 => win13_0 | 1 => win13_1 | 2 => win13_2 | 3 => win13_3 | 4 => win13_4 | ⟨_ + 5, h⟩ => absurd h (Nat.not_lt.2 (Nat.le_add_left _ _))
abbrev spec13 : Fin 5 → Pipeline.WinSpec sig grid13.rank := fun w => (win13 w).toWinSpec

class Facts : Prop extends Facts₀ where
  harr0 : ∀ w, (spec0 w).arr.IsWhole
  harr1 : ∀ w, (spec1 w).arr.IsWhole
  harr2 : ∀ w, (spec2 w).arr.IsWhole
  harr3 : ∀ w, (spec3 w).arr.IsWhole
  harr4 : ∀ w, (spec4 w).arr.IsWhole
  harr5 : ∀ w, (spec5 w).arr.IsWhole
  harr6 : ∀ w, (spec6 w).arr.IsWhole
  harr7 : ∀ w, (spec7 w).arr.IsWhole
  harr8 : ∀ w, (spec8 w).arr.IsWhole
  harr9 : ∀ w, (spec9 w).arr.IsWhole
  harr10 : ∀ w, (spec10 w).arr.IsWhole

variable [Facts]
-- ==== ReferenceIdeal.lean ====
abbrev S500000x128 : Shape := ⟨2, ![500000, 128]⟩
abbrev S1024 : Shape := ⟨1, ![1024]⟩
abbrev S1024x10 : Shape := ⟨2, ![1024, 10]⟩
abbrev S10240x25 : Shape := ⟨2, ![10240, 25]⟩
abbrev S128x128 : Shape := ⟨2, ![128, 128]⟩
abbrev S256x128 : Shape := ⟨2, ![256, 128]⟩
abbrev S_ : Shape := ⟨0, ![]⟩
abbrev S1024x1 : Shape := ⟨2, ![1024, 1]⟩
abbrev S1024x128 : Shape := ⟨2, ![1024, 128]⟩
abbrev S1024x10x1 : Shape := ⟨3, ![1024, 10, 1]⟩
abbrev S1 : Shape := ⟨1, ![1]⟩
abbrev S1x1x1 : Shape := ⟨3, ![1, 1, 1]⟩
abbrev S10240 : Shape := ⟨1, ![10240]⟩
abbrev S10240x1 : Shape := ⟨2, ![10240, 1]⟩
abbrev S10240x128 : Shape := ⟨2, ![10240, 128]⟩
abbrev S10240x25x1 : Shape := ⟨3, ![10240, 25, 1]⟩
abbrev S256000 : Shape := ⟨1, ![256000]⟩
abbrev S256000x1 : Shape := ⟨2, ![256000, 1]⟩
abbrev S256000x128 : Shape := ⟨2, ![256000, 128]⟩
abbrev S1024x10x128 : Shape := ⟨3, ![1024, 10, 128]⟩
abbrev S1024x256 : Shape := ⟨2, ![1024, 256]⟩
abbrev S10240x25x128 : Shape := ⟨3, ![10240, 25, 128]⟩
abbrev S10240x256 : Shape := ⟨2, ![10240, 256]⟩
abbrev S1024x10x256 : Shape := ⟨3, ![1024, 10, 256]⟩

abbrev nBuf : Space → Nat
  | .hbm => 133
  | .vmem => 0
  | .smem => 0
  | _ => 0

abbrev hbmTy0_0 (i : Nat) : BufTy := match i % 128 with
  | 0 => ⟨S500000x128, .f32⟩
  | 1 => ⟨S500000x128, .i32⟩
  | 2 => ⟨S1024, .i32⟩
  | 3 => ⟨S1024x10, .i32⟩
  | 4 => ⟨S10240x25, .i32⟩
  | 5 => ⟨S128x128, .f32⟩
  | 6 => ⟨S128x128, .f32⟩
  | 7 => ⟨S256x128, .f32⟩
  | 8 => ⟨S256x128, .f32⟩
  | 9 => ⟨S_, .i32⟩
  | 10 => ⟨S1024, .i32⟩
  | 11 => ⟨S1024, .i1⟩
  | 12 => ⟨S_, .i32⟩
  | 13 => ⟨S1024, .i32⟩
  | 14 => ⟨S1024, .i32⟩
  | 15 => ⟨S1024, .i32⟩
  | 16 => ⟨S1024x1, .i32⟩
  | 17 => ⟨S1024x128, .i32⟩
  | 18 => ⟨S_, .i32⟩
  | 19 => ⟨S1024x10, .i32⟩
  | 20 => ⟨S1024x10, .i1⟩
  | 21 => ⟨S_, .i32⟩
  | 22 => ⟨S1024x10, .i32⟩
  | 23 => ⟨S1024x10, .i32⟩
  | 24 => ⟨S1024x10, .i32⟩
  | 25 => ⟨S1024x10x1, .i32⟩
  | 26 => ⟨S1, .i32⟩
  | 27 => ⟨S_, .i32⟩
  | 28 => ⟨S1024x10x1, .i32⟩
  | 29 => ⟨S1024x10x1, .i1⟩
  | 30 => ⟨S1x1x1, .i32⟩
  | 31 => ⟨S1024x10x1, .i32⟩
  | 32 => ⟨S1024x10x1, .i1⟩
  | 33 => ⟨S1024x10x1, .i1⟩
  | 34 => ⟨S_, .i1⟩
  | 35 => ⟨S1024x10, .i1⟩
  | 36 => ⟨S1024x10, .i32⟩
  | 37 => ⟨S_, .i32⟩
  | 38 => ⟨S1024x10, .i32⟩
  | 39 => ⟨S1024x10, .i32⟩
  | 40 => ⟨S10240, .i32⟩
  | 41 => ⟨S_, .i32⟩
  | 42 => ⟨S10240, .i32⟩
  | 43 => ⟨S10240, .i1⟩
  | 44 => ⟨S_, .i32⟩
  | 45 => ⟨S10240, .i32⟩
  | 46 => ⟨S10240, .i32⟩
  | 47 => ⟨S10240, .i32⟩
  | 48 => ⟨S10240x1, .i32⟩
  | 49 => ⟨S10240x128, .i32⟩
  | 50 => ⟨S_, .i32⟩
  | 51 => ⟨S10240x25, .i32⟩
  | 52 => ⟨S10240x25, .i1⟩
  | 53 => ⟨S_, .i32⟩
  | 54 => ⟨S10240x25, .i32⟩
  | 55 => ⟨S10240x25, .i32⟩
  | 56 => ⟨S10240x25, .i32⟩
  | 57 => ⟨S10240x25x1, .i32⟩
  | 58 => ⟨S1, .i32⟩
  | 59 => ⟨S_, .i32⟩
  | 60 => ⟨S10240x25x1, .i32⟩
  | 61 => ⟨S10240x25x1, .i1⟩
  | 62 => ⟨S1x1x1, .i32⟩
  | 63 => ⟨S10240x25x1, .i32⟩
  | 64 => ⟨S10240x25x1, .i1⟩
  | 65 => ⟨S10240x25x1, .i1⟩
  | 66 => ⟨S_, .i1⟩
  | 67 => ⟨S10240x25, .i1⟩
  | 68 => ⟨S10240x25, .i32⟩
  | 69 => ⟨S_, .i32⟩
  | 70 => ⟨S10240x25, .i32⟩
  | 71 => ⟨S10240x25, .i32⟩
  | 72 => ⟨S256000, .i32⟩
  | 73 => ⟨S_, .i32⟩
  | 74 => ⟨S1024, .i32⟩
  | 75 => ⟨S1024, .i1⟩
  | 76 => ⟨S_, .i32⟩
  | 77 => ⟨S1024, .i32⟩
  | 78 => ⟨S1024, .i32⟩
  | 79 => ⟨S1024, .i32⟩
  | 80 => ⟨S1024x1, .i32⟩
  | 81 => ⟨S1024x128, .f32⟩
  | 82 => ⟨S_, .i32⟩
  | 83 => ⟨S10240, .i32⟩
  | 84 => ⟨S10240, .i1⟩
  | 85 => ⟨S_, .i32⟩
  | 86 => ⟨S10240, .i32⟩
  | 87 => ⟨S10240, .i32⟩
  | 88 => ⟨S10240, .i32⟩
  | 89 => ⟨S10240x1, .i32⟩
  | 90 => ⟨S10240x128, .f32⟩
  | 91 => ⟨S_, .i32⟩
  | 92 => ⟨S256000, .i32⟩
  | 93 => ⟨S256000, .i1⟩
  | 94 => ⟨S_, .i32⟩
  | 95 => ⟨S256000, .i32⟩
  | 96 => ⟨S256000, .i32⟩
  | 97 => ⟨S256000, .i32⟩
  | 98 => ⟨S256000x1, .i32⟩
  | 99 => ⟨S256000x128, .f32⟩
  | 100 => ⟨S1024x10x128, .f32⟩
  | 101 => ⟨S_, .f32⟩
  | 102 => ⟨S1024x128, .f32⟩
  | 103 => ⟨S_, .f32⟩
  | 104 => ⟨S1024x128, .f32⟩
  | 105 => ⟨S1024x128, .f32⟩
  | 106 => ⟨S1024x128, .f32⟩
  | 107 => ⟨S1024x128, .f32⟩
  | 108 => ⟨S1024x256, .f32⟩
  | 109 => ⟨S_, .f32⟩
  | 110 => ⟨S1024x256, .f32⟩
  | 111 => ⟨S1024x256, .f32⟩
  | 112 => ⟨S10240x25x128, .f32⟩
  | 113 => ⟨S_, .f32⟩
  | 114 => ⟨S10240x128, .f32⟩
  | 115 => ⟨S_, .f32⟩
  | 116 => ⟨S10240x128, .f32⟩
  | 117 => ⟨S10240x128, .f32⟩
  | 118 => ⟨S10240x128, .f32⟩
  | 119 => ⟨S10240x128, .f32⟩
  | 120 => ⟨S10240x256, .f32⟩
  | 121 => ⟨S_, .f32⟩
  | 122 => ⟨S10240x256, .f32⟩
  | 123 => ⟨S10240x256, .f32⟩
  | 124 => ⟨S1024x10x256, .f32⟩
  | 125 => ⟨S_, .f32⟩
  | 126 => ⟨S1024x256, .f32⟩
  | 127 => ⟨S_, .f32⟩
  | _ => ⟨S500000x128, .f32⟩

abbrev hbmTy0_1 (i : Nat) : BufTy := match i % 128 with
  | 0 => ⟨S1024x256, .f32⟩
  | 1 => ⟨S1024x256, .f32⟩
  | 2 => ⟨S1024x128, .f32⟩
  | 3 => ⟨S1024x128, .f32⟩
  | 4 => ⟨S1024x256, .f32⟩
  | _ => ⟨S500000x128, .f32⟩

abbrev hbmTy (i : Nat) : BufTy := match i / 128 with
  | 0 => hbmTy0_0 i
  | 1 => hbmTy0_1 i
  | _ => ⟨S500000x128, .f32⟩

abbrev bufTy : (tb : Table) → Fin (tcTables nBuf tb) → BufTy
  | .hbm, ⟨i, _⟩ => hbmTy i
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_c_4 : Ref sig .tc := ⟨.hbm, 37, rfl⟩
abbrev main_call0_v14 : Ref sig .tc := ⟨.hbm, 38, rfl⟩
abbrev main_v7 : Ref sig .tc := ⟨.hbm, 39, rfl⟩
abbrev main_v8 : Ref sig .tc := ⟨.hbm, 40, rfl⟩
abbrev main_c_1 : Ref sig .tc := ⟨.hbm, 41, rfl⟩
abbrev main_v9 : Ref sig .tc := ⟨.hbm, 42, rfl⟩
abbrev main_v10 : Ref sig .tc := ⟨.hbm, 43, rfl⟩
abbrev main_c_2 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_c_1 : Ref sig .tc := ⟨.hbm, 58, rfl⟩
abbrev main_call1_c_2 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_3 : Ref sig .tc := ⟨.hbm, 66, rfl⟩
abbrev main_call1_v12 : Ref sig .tc := ⟨.hbm, 67, rfl⟩
abbrev main_call1_v13 : Ref sig .tc := ⟨.hbm, 68, rfl⟩
abbrev main_call1_c_4 : Ref sig .tc := ⟨.hbm, 69, rfl⟩
abbrev main_call1_v14 : Ref sig .tc := ⟨.hbm, 70, rfl⟩
abbrev main_v16 : Ref sig .tc := ⟨.hbm, 71, rfl⟩
abbrev main_v17 : Ref sig .tc := ⟨.hbm, 72, rfl⟩
abbrev main_c_3 : Ref sig .tc := ⟨.hbm, 73, rfl⟩
abbrev main_v18 : Ref sig .tc := ⟨.hbm, 74, rfl⟩
abbrev main_v19 : Ref sig .tc := ⟨.hbm, 75, rfl⟩
abbrev main_c_4 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_c_5 : Ref sig .tc := ⟨.hbm, 82, rfl⟩
abbrev main_v25 : Ref sig .tc := ⟨.hbm, 83, rfl⟩
abbrev main_v26 : Ref sig .tc := ⟨.hbm, 84, rfl⟩
abbrev main_c_6 : Ref sig .tc := ⟨.hbm, 85, rfl⟩
abbrev main_v27 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_v31 : Ref sig .tc := ⟨.hbm, 90, rfl⟩
abbrev main_c_7 : Ref sig .tc := ⟨.hbm, 91, rfl⟩
abbrev main_v32 : Ref sig .tc := ⟨.hbm, 92, rfl⟩
abbrev main_v33 : Ref sig .tc := ⟨.hbm, 93, rfl⟩
abbrev main_c_8 : Ref sig .tc := ⟨.hbm, 94, rfl⟩
abbrev main_v34 : Ref sig .tc := ⟨.hbm, 95, rfl⟩
abbrev main_v35 : Ref sig .tc := ⟨.hbm, 96, rfl⟩
abbrev main_v36 : Ref sig .tc := ⟨.hbm, 97, rfl⟩
abbrev main_v37 : Ref sig .tc := ⟨.hbm, 98, rfl⟩
abbrev main_v38 : Ref sig .tc := ⟨.hbm, 99, rfl⟩
abbrev main_v39 : Ref sig .tc := ⟨.hbm, 100, rfl⟩
abbrev main_cst : Ref sig .tc := ⟨.hbm, 101, rfl⟩
abbrev main_v40 : Ref sig .tc := ⟨.hbm, 102, rfl⟩
abbrev main_cst_9 : Ref sig .tc := ⟨.hbm, 103, rfl⟩
abbrev main_v41 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_call2_cst : Ref sig .tc := ⟨.hbm, 109, rfl⟩
abbrev main_call2_v0 : Ref sig .tc := ⟨.hbm, 110, rfl⟩
abbrev main_v46 : Ref sig .tc := ⟨.hbm, 111, rfl⟩
abbrev main_v47 : Ref sig .tc := ⟨.hbm, 112, rfl⟩
abbrev main_cst_10 : Ref sig .tc := ⟨.hbm, 113, rfl⟩
abbrev main_v48 : Ref sig .tc := ⟨.hbm, 114, rfl⟩
abbrev main_cst_11 : Ref sig .tc := ⟨.hbm, 115, rfl⟩
abbrev main_v49 : Ref sig .tc := ⟨.hbm, 116, rfl⟩
abbrev main_v50 : Ref sig .tc := ⟨.hbm, 117, rfl⟩
abbrev main_v51 : Ref sig .tc := ⟨.hbm, 118, rfl⟩
abbrev main_v52 : Ref sig .tc := ⟨.hbm, 119, rfl⟩
abbrev main_v53 : Ref sig .tc := ⟨.hbm, 120, rfl⟩
abbrev main_call3_cst : Ref sig .tc := ⟨.hbm, 121, rfl⟩
abbrev main_call3_v0 : Ref sig .tc := ⟨.hbm, 122, rfl⟩
abbrev main_v54 : Ref sig .tc := ⟨.hbm, 123, rfl⟩
abbrev main_v55 : Ref sig .tc := ⟨.hbm, 124, rfl⟩
abbrev main_cst_12 : Ref sig .tc := ⟨.hbm, 125, rfl⟩
abbrev main_v56 : Ref sig .tc := ⟨.hbm, 126, rfl⟩
abbrev main_cst_13 : Ref sig .tc := ⟨.hbm, 127, rfl⟩
abbrev main_v57 : Ref sig .tc := ⟨.hbm, 128, rfl⟩
abbrev main_v58 : Ref sig .tc := ⟨.hbm, 129, rfl⟩
abbrev main_v59 : Ref sig .tc := ⟨.hbm, 130, rfl⟩
abbrev main_v60 : Ref sig .tc := ⟨.hbm, 131, rfl⟩
abbrev main_v61 : Ref sig .tc := ⟨.hbm, 132, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bcast_S_S1024x10 : S_.BroadcastsInDim S1024x10 (![] : Fin 0 → Fin S1024x10.rank)
  shapeCasts_S1024x10_S1024x10x1 : S1024x10.ShapeCasts S1024x10x1
  bcast_S_S1024x10x1 : S_.BroadcastsInDim S1024x10x1 (![] : Fin 0 → Fin S1024x10x1.rank)
  bcast_S1_S1x1x1_2 : S1.BroadcastsInDim S1x1x1 (![2] : Fin 1 → Fin S1x1x1.rank)
  bcast_S1x1x1_S1024x10x1_0_1_2 : S1x1x1.BroadcastsInDim S1024x10x1 (![0, 1, 2] : Fin 3 → Fin S1024x10x1.rank)
  reducesTo_S1024x10x1_S1024x10_d2 : S1024x10x1.ReducesTo [2] S1024x10
  h_S_ : 0 < S_.numel
  shapeCasts_S1024x10_S10240 : S1024x10.ShapeCasts S10240
  bcast_S_S10240 : S_.BroadcastsInDim S10240 (![] : Fin 0 → Fin S10240.rank)
  bcast_S10240_S10240x1_0 : S10240.BroadcastsInDim S10240x1 (![0] : Fin 1 → Fin S10240x1.rank)
  bcast_S_S10240x25 : S_.BroadcastsInDim S10240x25 (![] : Fin 0 → Fin S10240x25.rank)
  shapeCasts_S10240x25_S10240x25x1 : S10240x25.ShapeCasts S10240x25x1
  bcast_S_S10240x25x1 : S_.BroadcastsInDim S10240x25x1 (![] : Fin 0 → Fin S10240x25x1.rank)
  bcast_S1x1x1_S10240x25x1_0_1_2 : S1x1x1.BroadcastsInDim S10240x25x1 (![0, 1, 2] : Fin 3 → Fin S10240x25x1.rank)
  reducesTo_S10240x25x1_S10240x25_d2 : S10240x25x1.ReducesTo [2] S10240x25
  shapeCasts_S10240x25_S256000 : S10240x25.ShapeCasts S256000
  bcast_S_S256000 : S_.BroadcastsInDim S256000 (![] : Fin 0 → Fin S256000.rank)
  bcast_S256000_S256000x1_0 : S256000.BroadcastsInDim S256000x1 (![0] : Fin 1 → Fin S256000x1.rank)
  shapeCasts_S10240x128_S1024x10x128 : S10240x128.ShapeCasts S1024x10x128
  reducesTo_S1024x10x128_S1024x128_d1 : S1024x10x128.ReducesTo [1] S1024x128
  bcast_S_S1024x128 : S_.BroadcastsInDim S1024x128 (![] : Fin 0 → Fin S1024x128.rank)
  concatenates_S1024x128_S1024x128_S1024x256_d1 : Shape.Concatenates [S1024x128, S1024x128] S1024x256 1
  bcast_S_S1024x256 : S_.BroadcastsInDim S1024x256 (![] : Fin 0 → Fin S1024x256.rank)
  shapeCasts_S256000x128_S10240x25x128 : S256000x128.ShapeCasts S10240x25x128
  reducesTo_S10240x25x128_S10240x128_d1 : S10240x25x128.ReducesTo [1] S10240x128
  bcast_S_S10240x128 : S_.BroadcastsInDim S10240x128 (![] : Fin 0 → Fin S10240x128.rank)
  concatenates_S10240x128_S10240x128_S10240x256_d1 : Shape.Concatenates [S10240x128, S10240x128] S10240x256 1
  bcast_S_S10240x256 : S_.BroadcastsInDim S10240x256 (![] : Fin 0 → Fin S10240x256.rank)
  shapeCasts_S10240x256_S1024x10x256 : S10240x256.ShapeCasts S1024x10x256
  reducesTo_S1024x10x256_S1024x256_d1 : S1024x10x256.ReducesTo [1] S1024x256
  gather_S500000x128_S1024x1_S1024x128_1_0_n_n_0_1_1128_wf : GatherDims.WF S500000x128 S1024x1 S1024x128 [1] [0] [] [0] [] 1 ![1, 128]
  gather_S1024x128_S1024x10x1_S1024x10_n_1_0_0_1_2_11_wf : GatherDims.WF S1024x128 S1024x10x1 S1024x10 [] [1] [0] [1] [0] 2 ![1, 1]
  gather_S500000x128_S10240x1_S10240x128_1_0_n_n_0_1_1128_wf : GatherDims.WF S500000x128 S10240x1 S10240x128 [1] [0] [] [0] [] 1 ![1, 128]
  gather_S10240x128_S10240x25x1_S10240x25_n_1_0_0_1_2_11_wf : GatherDims.WF S10240x128 S10240x25x1 S10240x25 [] [1] [0] [1] [0] 2 ![1, 1]
  gather_S500000x128_S256000x1_S256000x128_1_0_n_n_0_1_1128_wf : GatherDims.WF S500000x128 S256000x1 S256000x128 [1] [0] [] [0] [] 1 ![1, 128]
  dot_S1024x128_S128x128_S1024x128_1_0_0_1_n_n_wf : DotDims.WF S1024x128 S128x128 S1024x128 [1] [0] [0] [1] [] []
  dot_S10240x128_S128x128_S10240x128_1_0_0_1_n_n_wf : DotDims.WF S10240x128 S128x128 S10240x128 [1] [0] [0] [1] [] []
  dot_S1024x256_S256x128_S1024x128_1_0_0_1_n_n_wf : DotDims.WF S1024x256 S256x128 S1024x128 [1] [0] [0] [1] [] []

variable [Facts₀]

def gather_S500000x128_S1024x1_S1024x128_1_0_n_n_0_1_1128 : GatherDims S500000x128 S1024x1 S1024x128 where
  offsetDims := [1]
  collapsedSliceDims := [0]
  operandBatchingDims := []
  startIndicesBatchingDims := []
  startIndexMap := [0]
  indexVectorDim := 1
  sliceSizes := ![1, 128]
  wf := gather_S500000x128_S1024x1_S1024x128_1_0_n_n_0_1_1128_wf
def gather_S1024x128_S1024x10x1_S1024x10_n_1_0_0_1_2_11 : GatherDims S1024x128 S1024x10x1 S1024x10 where
  offsetDims := []
  collapsedSliceDims := [1]
  operandBatchingDims := [0]
  startIndicesBatchingDims := [0]
  startIndexMap := [1]
  indexVectorDim := 2
  sliceSizes := ![1, 1]
  wf := gather_S1024x128_S1024x10x1_S1024x10_n_1_0_0_1_2_11_wf
def gather_S500000x128_S10240x1_S10240x128_1_0_n_n_0_1_1128 : GatherDims S500000x128 S10240x1 S10240x128 where
  offsetDims := [1]
  collapsedSliceDims := [0]
  operandBatchingDims := []
  startIndicesBatchingDims := []
  startIndexMap := [0]
  indexVectorDim := 1
  sliceSizes := ![1, 128]
  wf := gather_S500000x128_S10240x1_S10240x128_1_0_n_n_0_1_1128_wf
def gather_S10240x128_S10240x25x1_S10240x25_n_1_0_0_1_2_11 : GatherDims S10240x128 S10240x25x1 S10240x25 where
  offsetDims := []
  collapsedSliceDims := [1]
  operandBatchingDims := [0]
  startIndicesBatchingDims := [0]
  startIndexMap := [1]
  indexVectorDim := 2
  sliceSizes := ![1, 1]
  wf := gather_S10240x128_S10240x25x1_S10240x25_n_1_0_0_1_2_11_wf
def gather_S500000x128_S256000x1_S256000x128_1_0_n_n_0_1_1128 : GatherDims S500000x128 S256000x1 S256000x128 where
  offsetDims := [1]
  collapsedSliceDims := [0]
  operandBatchingDims := []
  startIndicesBatchingDims := []
  startIndexMap := [0]
  indexVectorDim := 1
  sliceSizes := ![1, 128]
  wf := gather_S500000x128_S256000x1_S256000x128_1_0_n_n_0_1_1128_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S10240x128_S128x128_S10240x128_1_0_0_1_n_n : DotDims S10240x128 S128x128 S10240x128 where
  lhsContracting := [1]
  rhsContracting := [0]
  lhsNonContracting := [0]
  rhsNonContracting := [1]
  lhsBatch := []
  rhsBatch := []
  wf := dot_S10240x128_S128x128_S10240x128_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf

class Facts : Prop extends Facts₀ where

variable [Facts]
-- ==== Proof.PreRange.lean ====
import proofs.«401580_j65068754534945_2_alg».proof.Proof.Gen.Pre_finite_inputs
import Idealize.ShloMosaic.Lib.ReduceAll
import Idealize.ShloMosaic.Lib.ValueIdx
import Idealize.ShloMosaic.Lib.StableHlo.Predicate

/-! The range conditions on the four integer inputs, read out of the precondition's one-bit conjuncts. -/

namespace Cert.Hand.PreRange

open Idealize.ShloMosaic Idealize.ShloMosaic.ValueIdx
open Cert.Pre_finite_inputs

variable {F : FTy → Type} [FloatOps F]

instance subsingleton_scalar_idx : Subsingleton S_.Idx := ⟨fun _ _ => funext fun d => d.elim0⟩

theorem word_range (x : BitVec 32) (K : Nat) (hK : K < 2 ^ 31)
    (h0 : IntOp.cmpi .sge x 0#32 = 1#1) (h1 : IntOp.cmpi .slt x (BitVec.ofNat 32 K) = 1#1) : x.toNat < K := by
  rw [IntOp.cmpi_sge, show (0#32 : BitVec 32).toInt = 0 from by decide] at h0
  rw [IntOp.cmpi_slt, StableHlo.Predicate.toInt_ofNat_small K hK] at h1
  have h2 : 2 * x.toNat < 2 ^ 32 := BitVec.toInt_pos_iff.1 h0
  rw [BitVec.toInt_eq_toNat_of_lt h2] at h1
  exact_mod_cast h1

theorem all_range {s : Shape} {axes : List (Fin s.rank)} (x : IVec s 32) (K : Nat) (hK : K < 2 ^ 31)
    (bc : S_.BroadcastsInDim s (![] : Fin 0 → Fin s.rank)) (red : s.ReducesTo axes S_) (hu : 0 < S_.numel)
    (e : Host.reduce IntOp.andi
          (andi (cmpi .sge x (broadcastInDim s ![] bc (constantI S_ 32 0#32)))
                (cmpi .slt x (broadcastInDim s ![] bc (constantI S_ 32 (BitVec.ofNat 32 K)))))
          (constantI S_ 1 1#1) red hu ix0 = 1#1) :
    ∀ i, (x i).toNat < K := by
  intro i
  have hi := Host.reduce_andi_all _ _ red hu ix0 e i
  change IntOp.andi (IntOp.cmpi .sge (x i) 0#32) (IntOp.cmpi .slt (x i) (BitVec.ofNat 32 K)) = 1#1 at hi
  obtain ⟨h0, h1⟩ := IntOp.andi_eq_one.1 hi
  exact word_range (x i) K hK h0 h1

theorem andi_ix0 (p q : IVec S_ 1) (h : andi p q ix0 = 1#1) : p ix0 = 1#1 ∧ q ix0 = 1#1 :=
  IntOp.andi_eq_one.1 h

theorem ranges (a0 : FVec F S500000x128 .f32) (a1 : IVec S500000x128 32) (a2 : IVec S1024 32) (a3 : IVec S1024x10 32)
    (a4 : IVec S10240x25 32) (a5 a6 : FVec F S128x128 .f32) (a7 a8 : FVec F S256x128 .f32)
    (h : Cert.Pre_finite_inputs.fn (F := F) a0 a1 a2 a3 a4 a5 a6 a7 a8 = fun _ => 1#1) :
    (∀ i, (a2 i).toNat < 500000) ∧ (∀ i, (a1 i).toNat < 500000) ∧ (∀ i, (a3 i).toNat < 128) ∧
      (∀ i, (a4 i).toNat < 128) := by
  have h0 := congrFun h ix0
  dsimp only [fn, fn_part1, fn_part2, fn_part3] at h0
  obtain ⟨h1, e4⟩ := andi_ix0 _ _ h0
  obtain ⟨h2, e3⟩ := andi_ix0 _ _ h1
  obtain ⟨h3, e1⟩ := andi_ix0 _ _ h2
  obtain ⟨-, e2⟩ := andi_ix0 _ _ h3
  exact ⟨all_range a2 500000 (by norm_num) _ _ _ e2, all_range a1 500000 (by norm_num) _ _ _ e1,
    all_range a3 128 (by norm_num) _ _ _ e3, all_range a4 128 (by norm_num) _ _ _ e4⟩

end Cert.Hand.PreRange
-- ==== Proof.Base.lean ====
import proofs.«401580_j65068754534945_2_alg».proof.Proof.Gen.KernelIdeal.Regions
import proofs.«401580_j65068754534945_2_alg».proof.Proof.Gen.KernelIdeal.Skeleton
import proofs.«401580_j65068754534945_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import Idealize.ShloMosaic.PureOps.Ideal.Laws

/-! What every step of the program carries besides its arrays, and whole-block loads and stores: a store over a whole block leaves its payload, a load of a whole block reads the contents. -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

abbrev Rst (c : Dev nD) : sProp 𝕄 :=
  iprop((∃ r, prngReg c r) ∗ ∃ W, owes (c : Thread nD τ) (0 : CellTallies nD τ sig Unit) W)

abbrev Lh : GSem nD τ sig → Finset Unit := fun _ => ∅
abbrev lvh : GSem nD τ sig → Unit → ℕ := fun _ _ => 0

theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

theorem zero_rowBlk : (![0, 0, 0] : Fin S1x1x128.rank → Nat) = fun _ => 0 := by
  funext a; fin_cases a <;> rfl

/-- The whole one-row block. -/
abbrev rowBlk : Rect S1x1x128 := Rect.unit (s := S1x1x128) ![0, 0, 0] ![1, 1, 128] inb_S1x1x128_S1x1x128_0_0_0

theorem mem_rowBlk (y : S1x1x128.Idx) : y ∈ rowBlk.set := View.mem_set_unit_zero (S := S1x1x128) zero_rowBlk _ y
theorem ld_rowBlk (X : Vec F S1x1x128 .f32) : View.ld X rowBlk = X := View.ld_unit_zero (S := S1x1x128) zero_rowBlk _ X
/-- A store through the whole block, made last, leaves its payload; a load after it reads that payload. -/
theorem read_writes_rowBlk {sp : Space} (v : View sig .tc sp S1x1x128 .f32) (f : v.ty.Contents (Elt F)) (w : Vec F S1x1x128 .f32)
    (L : List (View.Piece (Elt F) S1x1x128 .f32)) : v.read (Elt F) (v.writes (Elt F) f (⟨rowBlk, w⟩ :: L)) = w := by
  rw [View.read_writes_eq_canon _ _ _ (fun y => ⟨⟨rowBlk, w⟩, List.mem_cons.mpr (Or.inl rfl), mem_rowBlk y⟩),
    View.canon_cons_unit_zero (S := S1x1x128) zero_rowBlk]
theorem readCov_rowBlk {sp : Space} (v : View sig .tc sp S1x1x128 .f32) (w : Vec F S1x1x128 .f32)
    (L : List (View.Piece (Elt F) S1x1x128 .f32)) : v.readCov (⟨rowBlk, w⟩ :: L) rowBlk.toLoadRect = w := by
  rw [View.readCov_eq_canon_ld _ _ _ (fun y => ⟨⟨rowBlk, w⟩, List.mem_cons.mpr (Or.inl rfl), mem_rowBlk y⟩),
    View.canon_cons_unit_zero (S := S1x1x128) zero_rowBlk, ld_rowBlk]

section WholeBlock

variable {sig' : RefSig} {κ : Kind} {sp : Space} {S : Shape} {e : EltTy}

theorem readAt_whole_zero (v : View sig' κ sp S e) (f : v.ty.Contents (Elt F)) {off : Fin S.rank → Nat}
    (h : off = fun _ => 0) (inb : ∀ a, off a + S.size a ≤ S.size a) :
    v.readAt (Elt F) (Rect.unit off S.size inb).toLoadRect f = v.read (Elt F) f := by
  subst h; funext x
  show v.read (Elt F) f ((Rect.whole S).emb x) = v.read (Elt F) f x
  rw [Rect.emb_whole_apply]

theorem read_store_whole_zero (v : View sig' κ sp S e) (f : v.ty.Contents (Elt F)) {off : Fin S.rank → Nat}
    (h : off = fun _ => 0) (inb : ∀ a, off a + S.size a ≤ S.size a) (p : S.Idx → Elt F e) :
    v.read (Elt F) (v.writes (Elt F) f [(⟨Rect.unit off S.size inb, p⟩ : View.Piece (Elt F) S e)]) = p := by
  subst h; funext y
  have hy := View.read_writes_cons_emb v f (Rect.whole S) p [] y
  rwa [Rect.emb_whole_apply] at hy

end WholeBlock

theorem zeros2 : (![0, 0] : Fin 2 → Nat) = fun _ => 0 := funext fun a => by fin_cases a <;> rfl

section Seg
variable {p : Fin 14} (L : Pipeline.PLaunchFacts (nD := nD) (τ := τ) (pcfgs (F := F)) p)
variable (a : (p : Fin 14) → (pcfgs (F := F) p).Adm)
variable (pdats : (p : Fin 14) → (c : Dev nD) → Dat τ (Elt F) Unit ℕ (UR sig nD τ) ℕ (Pipeline.pin (pcfgs (F := F)) a p) c)
variable (Vin Vout : (c : Dev nD) → Valuation τ sig (Elt F)) (c : Dev nD)
variable (hsh : ∀ w, (pdats p c).share w = fullShare)
variable (hT : (fun k => Vin c (Proc.devRef .tc ((pcfgs (F := F) p).pre.ref k))) = (a p).1)

include L hsh hT in
/-- Entering a region that owes nothing: the memory at Vin is the region's arrays, its tables at the admissible contents, the generator register and the rest. -/
theorem seg_entry (hA : ∀ w, (pdats p c).A w = Vin c (Pipeline.arrRef (Pipeline.pin (pcfgs (F := F)) a p).spec w))
    (ho : (pdats p c).owed 0 = 0) (hr : (pdats p c).recorded 0 = Set.univ) :
    iprop(iprop(StableHlo.held (c : Thread nD τ) (Pipeline.ucRefs τ sig) (Vin c) ∗ Rst c)
        ∗ Pipeline.ownSems0 (fun k : PEmpty => k.elim) c ∗ levAts Lh lvh)
      ⊢ |={Set.univ}=> iprop((pdats p c).arrays ((pdats p c).arrAt · 0)
        ∗ Pipeline.prefHeld (pcfgs (F := F) p).pre c (fun _ => fullShare) (a p).1 ∗ (pdats p c).owesAt () 0 ∗ (∃ r, prngReg c r)
        ∗ Pipeline.unscopedRestP (pcfgs (F := F) p).pre (pcfgs (F := F) p).spec c (fun b => Vin c b)) := by
  have hsplit := Pipeline.arrays_of_unscopedBufs (p := p) (pcfgs (F := F)) a pdats L.win L.arr_whole c hsh (fun b => Vin c b) hA
  rw [Pipeline.unscopedBufs_held, Pipeline.unscopedRest_split L.pre, hT] at hsplit
  iintro ⟨⟨Hbufs, Hreg, Howes⟩, -, -⟩
  ihave Hs := hsplit $$ Hbufs
  icases Hs with ⟨Harr, HT, HR⟩
  imodintro
  iframe Harr HT Hreg HR
  unfold Pipeline.Dat.owesAt Pipeline.owesWithin Pipeline.Dat.bound
  rw [ho, hr]
  icases Howes with ⟨%W, Howes⟩
  iexists W; isplitr
  · ipureintro; exact fun _ _ => Or.inl trivial
  iexact Howes

include L hsh hT in
/-- Leaving it: the arrays at their final contents, the tables and the rest are the memory at Vout. -/
theorem seg_exit (hF : ∀ w, (pdats p c).arrAt w (Pipeline.pin (pcfgs (F := F)) a p).N = Vout c (Pipeline.arrRef (Pipeline.pin (pcfgs (F := F)) a p).spec w))
    (hrest : ∀ b : Ref sig .tc, b ∉ Finset.univ.image (Pipeline.arrRef (Pipeline.pin (pcfgs (F := F)) a p).spec) → Vout c b = Vin c b)
    (ho : (pdats p c).owed (Fin.last (Pipeline.pin (pcfgs (F := F)) a p).N) = 0) :
    iprop((pdats p c).arrays ((pdats p c).arrAt · (Pipeline.pin (pcfgs (F := F)) a p).N)
        ∗ (pdats p c).owesAt () (Fin.last (Pipeline.pin (pcfgs (F := F)) a p).N)
        ∗ iprop((∃ r, prngReg c r) ∗ Pipeline.prefHeld (pcfgs (F := F) p).pre c (fun _ => fullShare) (a p).1)
        ∗ Pipeline.unscopedRestP (pcfgs (F := F) p).pre (pcfgs (F := F) p).spec c (fun b => Vin c b))
      ⊢ |={Set.univ}=> iprop(StableHlo.held (c : Thread nD τ) (Pipeline.ucRefs τ sig) (Vout c) ∗ Rst c) := by
  have hjoin := Pipeline.unscopedBufs_of_arrays (p := p) (pcfgs (F := F)) a (Ix := Unit) (Name := ℕ) (U := UR sig nD τ) (Lvl := ℕ)
    L.win L.arr_whole c pdats hsh (fun b => Vin c b) (fun b => Vout c b) ((pdats p c).arrAt · (Pipeline.pin (pcfgs (F := F)) a p).N) hF hrest
  rw [Pipeline.unscopedBufs_held, Pipeline.unscopedRest_split L.pre, hT] at hjoin
  iintro ⟨Harr, Howes, ⟨Hreg, HT⟩, HR⟩
  imodintro
  isplitl [Harr HT HR]
  · iapply hjoin; iframe Harr HT HR
  isplitl [Hreg]; · iexact Hreg
  unfold Pipeline.Dat.owesAt Pipeline.owesWithin
  rw [ho]
  icases Howes with ⟨%W, -, Howes⟩
  iexists W; iexact Howes

end Seg

section SegC
variable {p : Fin 14} (L : Pipeline.PLaunchFacts (nD := nD) (τ := τ) (pcfgs (F := F)) p)
variable (a : (p : Fin 14) → (pcfgs (F := F) p).Adm)
variable (pdats : (p : Fin 14) → (c : Dev nD) → Dat τ (Elt F) Unit ℕ (UR sig nD τ) ℕ (Pipeline.pin (pcfgs (F := F)) a p) c)
variable (Vin Vout : (c : Dev nD) → Valuation τ sig (Elt F))

set_option backward.isDefEq.respectTransparency.types false in
/-- A region that owes nothing as a step from the memory at Vin to the memory at Vout: left to show are the body at every point and the invariant at both ends. -/
def seg (hsh : ∀ c w, (pdats p c).share w = fullShare)
    (hT : ∀ c, (fun k => Vin c (Proc.devRef .tc ((pcfgs (F := F) p).pre.ref k))) = (a p).1)
    (hA : ∀ c w, (pdats p c).A w = Vin c (Pipeline.arrRef (Pipeline.pin (pcfgs (F := F)) a p).spec w))
    (hF : ∀ c w, (pdats p c).arrAt w (Pipeline.pin (pcfgs (F := F)) a p).N = Vout c (Pipeline.arrRef (Pipeline.pin (pcfgs (F := F)) a p).spec w))
    (hrest : ∀ c (b : Ref sig .tc), b ∉ Finset.univ.image (Pipeline.arrRef (Pipeline.pin (pcfgs (F := F)) a p).spec) → Vout c b = Vin c b)
    (ho : ∀ c t, (pdats p c).owed t = 0) (hr : ∀ c, (pdats p c).recorded 0 = Set.univ)
    (hbody : ∀ c, Pipeline.BodyObligationLoose (pdats p c) (defs₀ (F := F)) Variants.none () Set.univ)
    (hin : ∀ c, iprop((∃ r, prngReg c r) ∗ Pipeline.prefHeld (pcfgs (F := F) p).pre c (fun _ => fullShare) (a p).1
      ∗ Pipeline.scopedRest (Pipeline.pin (pcfgs (F := F)) a p).spec c) ⊢ (pdats p c).Φ 0)
    (hout : ∀ c, (pdats p c).Φ (Fin.last (Pipeline.pin (pcfgs (F := F)) a p).N)
      ⊢ iprop(iprop((∃ r, prngReg c r) ∗ Pipeline.prefHeld (pcfgs (F := F) p).pre c (fun _ => fullShare) (a p).1)
        ∗ Pipeline.ownSems0 (fun k : PEmpty => k.elim) c ∗ Pipeline.scopedRest (Pipeline.pin (pcfgs (F := F)) a p).spec c)) :
    Pipeline.RegionSeg (pcfgs (F := F)) a pdats () defs₀ Variants.none Lh lvh p where
  win := L.win.to₀
  block_pos := L.block_pos
  stage_whole := L.stage_whole
  K := PEmpty
  osem k := k.elim
  ho := Pipeline.OwnSemFacts.none _
  hbody := hbody
  hwaits := Pipeline.hwaits_of_owed_zero _ _ _ _ Lh lvh p ho
  pre c := iprop(StableHlo.held (c : Thread nD τ) (Pipeline.ucRefs τ sig) (Vin c) ∗ Rst c)
  post c := iprop(StableHlo.held (c : Thread nD τ) (Pipeline.ucRefs τ sig) (Vout c) ∗ Rst c)
  X c := iprop(∃ r, prngReg c r)
  Y c := iprop((∃ r, prngReg c r) ∗ Pipeline.prefHeld (pcfgs (F := F) p).pre c (fun _ => fullShare) (a p).1)
  Z c := Pipeline.unscopedRestP (pcfgs (F := F) p).pre (pcfgs (F := F) p).spec c (fun b => Vin c b)
  hentry c := seg_entry L a pdats Vin c (hsh c) (hT c) (hA c) (ho c 0) (hr c)
  hin := hin
  hout := hout
  hexit c := seg_exit L a pdats Vin Vout c (hsh c) (hT c) (hF c) (hrest c) (ho c _)

end SegC

end Cert.KernelIdeal.Hand

end
-- ==== Proof.Tables.lean ====
import proofs.«401580_j65068754534945_2_alg».proof.Proof.Base
import Idealize.ShloMosaic.Lib.StableHlo.Run
import Idealize.ShloMosaic.Lib.StableHlo.Predicate
import Idealize.ShloMosaic.Lib.ReduceAll

/-! The eleven tables of row numbers are functions of the integer arguments alone, whatever the regions write, and under the range conditions every entry is below the feature table's height. -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

theorem reduce_andi_of_all {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_one x _ fun n _ => hx n

theorem toInt_of_small {x : BitVec 32} (hx : x.toNat < 2 ^ 31) : x.toInt = x.toNat :=
  BitVec.toInt_eq_toNat_of_lt (by omega)

theorem norm_of_small (x K : BitVec 32) (hx : x.toNat < 2 ^ 31) :
    Scalar.select (IntOp.cmpi .slt x 0#32) (IntOp.addi x K) x = x := by
  unfold Scalar.select
  rw [if_neg]
  intro h
  have h' : IntOp.cmpi .slt x 0#32 = 1#1 := h
  rw [IntOp.cmpi_slt, show (0#32 : BitVec 32).toInt = 0 from by decide, toInt_of_small hx] at h'
  omega

theorem inb_of_small (x : BitVec 32) (hx : x.toNat < 128) :
    IntOp.andi (IntOp.cmpi .sge x 0#32) (IntOp.cmpi .sle x 127#32) = 1#1 := by
  rw [IntOp.andi_eq_one, IntOp.cmpi_sge, IntOp.cmpi_sle, show (0#32 : BitVec 32).toInt = 0 from by decide,
    show (127#32 : BitVec 32).toInt = 127 from by decide, toInt_of_small (x := x) (by omega)]
  omega

section Pick

variable {n k : Nat} {sx : Shape} {axes : List (Fin 3)}

def pickIdx (a : IVec ⟨2, ![n, k]⟩ 32) (hc : (⟨2, ![n, k]⟩ : Shape).ShapeCasts ⟨3, ![n, k, 1]⟩)
    (b2 : S_.BroadcastsInDim ⟨2, ![n, k]⟩ (![] : Fin 0 → Fin 2)) : IVec ⟨3, ![n, k, 1]⟩ 32 :=
  shapeCast ⟨3, ![n, k, 1]⟩
    (select (cmpi .slt a (broadcastInDim ⟨2, ![n, k]⟩ ![] b2 (constantI S_ 32 0#32)))
      (addi a (broadcastInDim ⟨2, ![n, k]⟩ ![] b2 (constantI S_ 32 128#32))) a) hc

def pick (a : IVec ⟨2, ![n, k]⟩ 32) (x : IVec sx 32) (d : GatherDims sx ⟨3, ![n, k, 1]⟩ ⟨2, ![n, k]⟩)
    (hc : (⟨2, ![n, k]⟩ : Shape).ShapeCasts ⟨3, ![n, k, 1]⟩)
    (b2 : S_.BroadcastsInDim ⟨2, ![n, k]⟩ (![] : Fin 0 → Fin 2))
    (b3 : S_.BroadcastsInDim ⟨3, ![n, k, 1]⟩ (![] : Fin 0 → Fin 3))
    (b1 : S1.BroadcastsInDim S1x1x1 (![2] : Fin 1 → Fin 3))
    (b111 : S1x1x1.BroadcastsInDim ⟨3, ![n, k, 1]⟩ (![0, 1, 2] : Fin 3 → Fin 3))
    (red : (⟨3, ![n, k, 1]⟩ : Shape).ReducesTo axes ⟨2, ![n, k]⟩) (hu : 0 < S_.numel) : IVec ⟨2, ![n, k]⟩ 32 :=
  select
    (Host.reduce IntOp.andi
      (andi (cmpi .sge (pickIdx a hc b2) (broadcastInDim ⟨3, ![n, k, 1]⟩ ![] b3 (constantI S_ 32 0#32)))
        (cmpi .sle (pickIdx a hc b2)
          (broadcastInDim ⟨3, ![n, k, 1]⟩ ![0, 1, 2] b111 (broadcastInDim S1x1x1 ![2] b1 (constantI S1 32 127#32)))))
      (constantI S_ 1 1#1) red hu)
    (Host.gather d x (pickIdx a hc b2))
    (broadcastInDim ⟨2, ![n, k]⟩ ![] b2 (constantI S_ 32 2147483648#32))

theorem pick_lt {B : Nat} (a : IVec ⟨2, ![n, k]⟩ 32) (x : IVec sx 32) (d : GatherDims sx ⟨3, ![n, k, 1]⟩ ⟨2, ![n, k]⟩)
    (hc : (⟨2, ![n, k]⟩ : Shape).ShapeCasts ⟨3, ![n, k, 1]⟩)
    (b2 : S_.BroadcastsInDim ⟨2, ![n, k]⟩ (![] : Fin 0 → Fin 2))
    (b3 : S_.BroadcastsInDim ⟨3, ![n, k, 1]⟩ (![] : Fin 0 → Fin 3))
    (b1 : S1.BroadcastsInDim S1x1x1 (![2] : Fin 1 → Fin 3))
    (b111 : S1x1x1.BroadcastsInDim ⟨3, ![n, k, 1]⟩ (![0, 1, 2] : Fin 3 → Fin 3))
    (red : (⟨3, ![n, k, 1]⟩ : Shape).ReducesTo axes ⟨2, ![n, k]⟩) (hu : 0 < S_.numel)
    (ha : ∀ i, (a i).toNat < 128) (hx : ∀ i, (x i).toNat < B) (j : (⟨2, ![n, k]⟩ : Shape).Idx) :
    (pick a x d hc b2 b3 b1 b111 red hu j).toNat < B := by
  have hidx : ∀ i, (pickIdx a hc b2 i).toNat < 128 := fun i => by
    show (Scalar.select (IntOp.cmpi .slt (a (Shape.reshapeEquiv hc i)) 0#32)
      (IntOp.addi (a (Shape.reshapeEquiv hc i)) 128#32) (a (Shape.reshapeEquiv hc i))).toNat < 128
    rw [norm_of_small _ _ (by have := ha (Shape.reshapeEquiv hc i); omega)]
    exact ha _
  have hm : Host.reduce IntOp.andi
      (andi (cmpi .sge (pickIdx a hc b2) (broadcastInDim ⟨3, ![n, k, 1]⟩ ![] b3 (constantI S_ 32 0#32)))
        (cmpi .sle (pickIdx a hc b2)
          (broadcastInDim ⟨3, ![n, k, 1]⟩ ![0, 1, 2] b111 (broadcastInDim S1x1x1 ![2] b1 (constantI S1 32 127#32)))))
      (constantI S_ 1 1#1) red hu j = 1#1 :=
    reduce_andi_of_all _ _ red hu (fun i => inb_of_small _ (hidx i)) (fun _ => rfl) j
  show (Scalar.select _ (x _) _).toNat < B
  rw [hm, ValueIdx.select_one]
  exact hx _

end Pick

section Stretches

variable (W : Valuation τ sig (Elt F))

theorem ops0_4_v20 :
    (StableHlo.after hostOps0_4 W (Proc.devRef .tc main_v20) : S1024.Idx → BitVec 32) =
      shapeCast S1024 (shapeCast S1024x1 (W (Proc.devRef .tc main_arg2) : S1024.Idx → BitVec 32)
        shapeCasts_S1024_S1024x1) shapeCasts_S1024x1_S1024 := by
  after_results; rfl

theorem ops0_4_v17 :
    (StableHlo.after hostOps0_4 W (Proc.devRef .tc main_v17) : S256000.Idx → BitVec 32) =
      shapeCast S256000 (W (Proc.devRef .tc main_v16) : S10240x25.Idx → BitVec 32) shapeCasts_S10240x25_S256000 := by
  after_results; rfl

theorem ops1_v25 :
    (StableHlo.after hostOps1 W (Proc.devRef .tc main_v25) : S10240.Idx → BitVec 32) =
      shapeCast S10240 (shapeCast S10240x1 (W (Proc.devRef .tc main_v8) : S10240.Idx → BitVec 32)
        shapeCasts_S10240_S10240x1) shapeCasts_S10240x1_S10240 := by
  after_results; rfl

theorem ops2_v30 :
    (StableHlo.after hostOps2 W (Proc.devRef .tc main_v30) : S10240.Idx → BitVec 32) =
      shapeCast S10240 (shapeCast S1024x10 (W (Proc.devRef .tc main_v8) : S10240.Idx → BitVec 32)
        shapeCasts_S10240_S1024x10) shapeCasts_S1024x10_S10240 := by
  after_results; rfl

theorem ops3_v33 :
    (StableHlo.after hostOps3 W (Proc.devRef .tc main_v33) : S10240x25.Idx → BitVec 32) =
      shapeCast S10240x25 (W (Proc.devRef .tc main_v17) : S256000.Idx → BitVec 32) shapeCasts_S256000_S10240x25 := by
  after_results; rfl

theorem ops3_v36 :
    (StableHlo.after hostOps3 W (Proc.devRef .tc main_v36) : S32000.Idx → BitVec 32) =
      shapeCast S32000 (extractStridedSlice S1280x25 ![0, 0]
        (shapeCast S10240x25 (W (Proc.devRef .tc main_v17) : S256000.Idx → BitVec 32) shapeCasts_S256000_S10240x25)
        slices_S10240x25_S1280x25_0_0) shapeCasts_S1280x25_S32000 := by
  after_results; rfl

theorem ops4_v40 :
    (StableHlo.after hostOps4 W (Proc.devRef .tc main_v40) : S32000.Idx → BitVec 32) =
      shapeCast S32000 (extractStridedSlice S1280x25 ![1280, 0]
        (W (Proc.devRef .tc main_v33) : S10240x25.Idx → BitVec 32) slices_S10240x25_S1280x25_1280_0)
        shapeCasts_S1280x25_S32000 := by
  after_results; rfl
theorem ops5_v44 :
    (StableHlo.after hostOps5 W (Proc.devRef .tc main_v44) : S32000.Idx → BitVec 32) =
      shapeCast S32000 (extractStridedSlice S1280x25 ![2560, 0]
        (W (Proc.devRef .tc main_v33) : S10240x25.Idx → BitVec 32) slices_S10240x25_S1280x25_2560_0)
        shapeCasts_S1280x25_S32000 := by
  after_results; rfl
theorem ops6_v48 :
    (StableHlo.after hostOps6 W (Proc.devRef .tc main_v48) : S32000.Idx → BitVec 32) =
      shapeCast S32000 (extractStridedSlice S1280x25 ![3840, 0]
        (W (Proc.devRef .tc main_v33) : S10240x25.Idx → BitVec 32) slices_S10240x25_S1280x25_3840_0)
        shapeCasts_S1280x25_S32000 := by
  after_results; rfl
theorem ops7_v52 :
    (StableHlo.after hostOps7 W (Proc.devRef .tc main_v52) : S32000.Idx → BitVec 32) =
      shapeCast S32000 (extractStridedSlice S1280x25 ![5120, 0]
        (W (Proc.devRef .tc main_v33) : S10240x25.Idx → BitVec 32) slices_S10240x25_S1280x25_5120_0)
        shapeCasts_S1280x25_S32000 := by
  after_results; rfl
theorem ops8_v56 :
    (StableHlo.after hostOps8 W (Proc.devRef .tc main_v56) : S32000.Idx → BitVec 32) =
      shapeCast S32000 (extractStridedSlice S1280x25 ![6400, 0]
        (W (Proc.devRef .tc main_v33) : S10240x25.Idx → BitVec 32) slices_S10240x25_S1280x25_6400_0)
        shapeCasts_S1280x25_S32000 := by
  after_results; rfl
theorem ops9_v60 :
    (StableHlo.after hostOps9 W (Proc.devRef .tc main_v60) : S32000.Idx → BitVec 32) =
      shapeCast S32000 (extractStridedSlice S1280x25 ![7680, 0]
        (W (Proc.devRef .tc main_v33) : S10240x25.Idx → BitVec 32) slices_S10240x25_S1280x25_7680_0)
        shapeCasts_S1280x25_S32000 := by
  after_results; rfl
theorem ops10_v64 :
    (StableHlo.after hostOps10 W (Proc.devRef .tc main_v64) : S32000.Idx → BitVec 32) =
      shapeCast S32000 (extractStridedSlice S1280x25 ![8960, 0]
        (W (Proc.devRef .tc main_v33) : S10240x25.Idx → BitVec 32) slices_S10240x25_S1280x25_8960_0)
        shapeCasts_S1280x25_S32000 := by
  after_results; rfl

end Stretches

variable (outs outs' : Outs (F := F))

abbrev X8 (c : Dev nD) : IVec S10240 32 := V5 m c main_v8

abbrev X17 (c : Dev nD) : IVec S256000 32 := V5 m c main_v17

abbrev X33 (c : Dev nD) : IVec S10240x25 32 := shapeCast S10240x25 (X17 m c) shapeCasts_S256000_S10240x25

theorem v8_6 (c : Dev nD) : (V6 m outs c main_v8 : S10240.Idx → BitVec 32) = X8 m c :=
  V6_of m outs c main_v8 (by decide)
theorem v8_8 (c : Dev nD) : (V8 m outs c main_v8 : S10240.Idx → BitVec 32) = X8 m c :=
  (V8_of m outs c main_v8 (by decide)).trans <| (V7_of m outs c main_v8 (by decide)).trans (v8_6 m outs c)
theorem v17_10 (c : Dev nD) : (V10 m outs c main_v17 : S256000.Idx → BitVec 32) = X17 m c :=
  (V10_of m outs c main_v17 (by decide)).trans <| (V9_of m outs c main_v17 (by decide)).trans <|
  (V8_of m outs c main_v17 (by decide)).trans <| (V7_of m outs c main_v17 (by decide)).trans
  (V6_of m outs c main_v17 (by decide))
theorem v33_11 (c : Dev nD) : (V11 m outs c main_v33 : S10240x25.Idx → BitVec 32) = X33 m c :=
  (ops3_v33 (V10 m outs c)).trans (congrArg (fun x : IVec S256000 32 => shapeCast S10240x25 x shapeCasts_S256000_S10240x25) (v17_10 m outs c))
theorem v33_12 (c : Dev nD) : (V12 m outs c main_v33 : S10240x25.Idx → BitVec 32) = X33 m c :=
  (V12_of m outs c main_v33 (by decide)).trans (v33_11 m outs c)
theorem v33_14 (c : Dev nD) : (V14 m outs c main_v33 : S10240x25.Idx → BitVec 32) = X33 m c :=
  (V14_of m outs c main_v33 (by decide)).trans <| (V13_of m outs c main_v33 (by decide)).trans (v33_12 m outs c)
theorem v33_16 (c : Dev nD) : (V16 m outs c main_v33 : S10240x25.Idx → BitVec 32) = X33 m c :=
  (V16_of m outs c main_v33 (by decide)).trans <| (V15_of m outs c main_v33 (by decide)).trans (v33_14 m outs c)
theorem v33_18 (c : Dev nD) : (V18 m outs c main_v33 : S10240x25.Idx → BitVec 32) = X33 m c :=
  (V18_of m outs c main_v33 (by decide)).trans <| (V17_of m outs c main_v33 (by decide)).trans (v33_16 m outs c)
theorem v33_20 (c : Dev nD) : (V20 m outs c main_v33 : S10240x25.Idx → BitVec 32) = X33 m c :=
  (V20_of m outs c main_v33 (by decide)).trans <| (V19_of m outs c main_v33 (by decide)).trans (v33_18 m outs c)
theorem v33_22 (c : Dev nD) : (V22 m outs c main_v33 : S10240x25.Idx → BitVec 32) = X33 m c :=
  (V22_of m outs c main_v33 (by decide)).trans <| (V21_of m outs c main_v33 (by decide)).trans (v33_20 m outs c)
theorem v33_24 (c : Dev nD) : (V24 m outs c main_v33 : S10240x25.Idx → BitVec 32) = X33 m c :=
  (V24_of m outs c main_v33 (by decide)).trans <| (V23_of m outs c main_v33 (by decide)).trans (v33_22 m outs c)

theorem arg2_4 (c : Dev nD) : (V4 m c main_arg2 : S1024.Idx → BitVec 32) = m ((c.tc : Thread nD τ).loc main_arg2) :=
  (V4_of m c main_arg2 (by decide)).trans <| (V3_of m c main_arg2 (by decide)).trans <|
  (V2_of m c main_arg2 (by decide)).trans (V1_of m c main_arg2 (by decide))

theorem tbl0_eq (c : Dev nD) : (V5 m c main_v20 : S1024.Idx → BitVec 32) =
    shapeCast S1024 (shapeCast S1024x1 (m ((c.tc : Thread nD τ).loc main_arg2) : S1024.Idx → BitVec 32)
      shapeCasts_S1024_S1024x1) shapeCasts_S1024x1_S1024 :=
  (ops0_4_v20 (V4 m c)).trans
    (congrArg (fun x : IVec S1024 32 => shapeCast S1024 (shapeCast S1024x1 x shapeCasts_S1024_S1024x1) shapeCasts_S1024x1_S1024) (arg2_4 m c))
theorem tbl1_eq (c : Dev nD) : (V7 m outs c main_v25 : S10240.Idx → BitVec 32) =
    shapeCast S10240 (shapeCast S10240x1 (X8 m c) shapeCasts_S10240_S10240x1) shapeCasts_S10240x1_S10240 :=
  (ops1_v25 (V6 m outs c)).trans
    (congrArg (fun x : IVec S10240 32 => shapeCast S10240 (shapeCast S10240x1 x shapeCasts_S10240_S10240x1) shapeCasts_S10240x1_S10240) (v8_6 m outs c))
theorem tbl2_eq (c : Dev nD) : (V9 m outs c main_v30 : S10240.Idx → BitVec 32) =
    shapeCast S10240 (shapeCast S1024x10 (X8 m c) shapeCasts_S10240_S1024x10) shapeCasts_S1024x10_S10240 :=
  (ops2_v30 (V8 m outs c)).trans
    (congrArg (fun x : IVec S10240 32 => shapeCast S10240 (shapeCast S1024x10 x shapeCasts_S10240_S1024x10) shapeCasts_S1024x10_S10240) (v8_8 m outs c))
theorem tbl3_eq (c : Dev nD) : (V11 m outs c main_v36 : S32000.Idx → BitVec 32) =
    shapeCast S32000 (extractStridedSlice S1280x25 ![0, 0] (X33 m c) slices_S10240x25_S1280x25_0_0) shapeCasts_S1280x25_S32000 := by
  have e := ops3_v36 (V10 m outs c)
  rw [v17_10 m outs c] at e
  exact e
theorem tbl4_eq (c : Dev nD) : (V13 m outs c main_v40 : S32000.Idx → BitVec 32) =
    shapeCast S32000 (extractStridedSlice S1280x25 ![1280, 0] (X33 m c) slices_S10240x25_S1280x25_1280_0) shapeCasts_S1280x25_S32000 := by
  have e := ops4_v40 (V12 m outs c)
  rw [v33_12 m outs c] at e
  exact e
theorem tbl5_eq (c : Dev nD) : (V15 m outs c main_v44 : S32000.Idx → BitVec 32) =
    shapeCast S32000 (extractStridedSlice S1280x25 ![2560, 0] (X33 m c) slices_S10240x25_S1280x25_2560_0) shapeCasts_S1280x25_S32000 := by
  have e := ops5_v44 (V14 m outs c)
  rw [v33_14 m outs c] at e
  exact e
theorem tbl6_eq (c : Dev nD) : (V17 m outs c main_v48 : S32000.Idx → BitVec 32) =
    shapeCast S32000 (extractStridedSlice S1280x25 ![3840, 0] (X33 m c) slices_S10240x25_S1280x25_3840_0) shapeCasts_S1280x25_S32000 := by
  have e := ops6_v48 (V16 m outs c)
  rw [v33_16 m outs c] at e
  exact e
theorem tbl7_eq (c : Dev nD) : (V19 m outs c main_v52 : S32000.Idx → BitVec 32) =
    shapeCast S32000 (extractStridedSlice S1280x25 ![5120, 0] (X33 m c) slices_S10240x25_S1280x25_5120_0) shapeCasts_S1280x25_S32000 := by
  have e := ops7_v52 (V18 m outs c)
  rw [v33_18 m outs c] at e
  exact e
theorem tbl8_eq (c : Dev nD) : (V21 m outs c main_v56 : S32000.Idx → BitVec 32) =
    shapeCast S32000 (extractStridedSlice S1280x25 ![6400, 0] (X33 m c) slices_S10240x25_S1280x25_6400_0) shapeCasts_S1280x25_S32000 := by
  have e := ops8_v56 (V20 m outs c)
  rw [v33_20 m outs c] at e
  exact e
theorem tbl9_eq (c : Dev nD) : (V23 m outs c main_v60 : S32000.Idx → BitVec 32) =
    shapeCast S32000 (extractStridedSlice S1280x25 ![7680, 0] (X33 m c) slices_S10240x25_S1280x25_7680_0) shapeCasts_S1280x25_S32000 := by
  have e := ops9_v60 (V22 m outs c)
  rw [v33_22 m outs c] at e
  exact e
theorem tbl10_eq (c : Dev nD) : (V25 m outs c main_v64 : S32000.Idx → BitVec 32) =
    shapeCast S32000 (extractStridedSlice S1280x25 ![8960, 0] (X33 m c) slices_S10240x25_S1280x25_8960_0) shapeCasts_S1280x25_S32000 := by
  have e := ops10_v64 (V24 m outs c)
  rw [v33_24 m outs c] at e
  exact e

theorem tbl1_indep (c : Dev nD) : V7 m outs c main_v25 = V7 m outs' c main_v25 := (tbl1_eq m outs c).trans (tbl1_eq m outs' c).symm
theorem tbl2_indep (c : Dev nD) : V9 m outs c main_v30 = V9 m outs' c main_v30 := (tbl2_eq m outs c).trans (tbl2_eq m outs' c).symm
theorem tbl3_indep (c : Dev nD) : V11 m outs c main_v36 = V11 m outs' c main_v36 := (tbl3_eq m outs c).trans (tbl3_eq m outs' c).symm
theorem tbl4_indep (c : Dev nD) : V13 m outs c main_v40 = V13 m outs' c main_v40 := (tbl4_eq m outs c).trans (tbl4_eq m outs' c).symm
theorem tbl5_indep (c : Dev nD) : V15 m outs c main_v44 = V15 m outs' c main_v44 := (tbl5_eq m outs c).trans (tbl5_eq m outs' c).symm
theorem tbl6_indep (c : Dev nD) : V17 m outs c main_v48 = V17 m outs' c main_v48 := (tbl6_eq m outs c).trans (tbl6_eq m outs' c).symm
theorem tbl7_indep (c : Dev nD) : V19 m outs c main_v52 = V19 m outs' c main_v52 := (tbl7_eq m outs c).trans (tbl7_eq m outs' c).symm
theorem tbl8_indep (c : Dev nD) : V21 m outs c main_v56 = V21 m outs' c main_v56 := (tbl8_eq m outs c).trans (tbl8_eq m outs' c).symm
theorem tbl9_indep (c : Dev nD) : V23 m outs c main_v60 = V23 m outs' c main_v60 := (tbl9_eq m outs c).trans (tbl9_eq m outs' c).symm
theorem tbl10_indep (c : Dev nD) : V25 m outs c main_v64 = V25 m outs' c main_v64 := (tbl10_eq m outs c).trans (tbl10_eq m outs' c).symm

theorem shapeCast_lt {s t : Shape} {B : Nat} (x : IVec s 32) (h : s.ShapeCasts t) (hx : ∀ i, (x i).toNat < B) (j : t.Idx) :
    (shapeCast t x h j).toNat < B := hx _

theorem slice_lt {s t : Shape} {B : Nat} (off : Fin s.rank → Nat) (x : IVec s 32) (h : s.Slices off t)
    (hx : ∀ i, (x i).toNat < B) (j : t.Idx) : (extractStridedSlice t off x h j).toNat < B := hx _

theorem tbl0_inb (h2 : ∀ (c : Dev nD) i, ((m ((c.tc : Thread nD τ).loc main_arg2) : S1024.Idx → BitVec 32) i).toNat < 500000)
    (c : Dev nD) (k : S1024.Idx) : ((V5 m c main_v20 : S1024.Idx → BitVec 32) k).toNat < 500000 := by
  rw [tbl0_eq]
  exact shapeCast_lt _ _ (shapeCast_lt _ _ (h2 c)) k

section LaunchStretches

variable (W : Valuation τ sig (Elt F))

theorem ops0_v6 : ∃ idx : IVec S1024x1 32,
    (StableHlo.after hostOps0 W (Proc.devRef .tc main_v6) : S1024x128.Idx → BitVec 32) =
      Host.gather gather_S500000x128_S1024x1_S1024x128_1_0_n_n_0_1_1128
        (W (Proc.devRef .tc main_arg1) : S500000x128.Idx → BitVec 32) idx :=
  ⟨_, by after_results⟩

theorem ops0_1_v7 :
    (StableHlo.after hostOps0_1 W (Proc.devRef .tc main_v7) : S1024x10.Idx → BitVec 32) =
      pick (W (Proc.devRef .tc main_arg3) : S1024x10.Idx → BitVec 32) (W (Proc.devRef .tc main_v6) : S1024x128.Idx → BitVec 32)
        gather_S1024x128_S1024x10x1_S1024x10_n_1_0_0_1_2_11 shapeCasts_S1024x10_S1024x10x1 bcast_S_S1024x10
        bcast_S_S1024x10x1 bcast_S1_S1x1x1_2 bcast_S1x1x1_S1024x10x1_0_1_2 reducesTo_S1024x10x1_S1024x10_d2 h_S_ := by
  after_results_simp
  simp only [StableHlo.TRef.ofBuf, StableHlo.TRef.toBuf, cast_eq]
  rfl

theorem ops0_2_v8 :
    (StableHlo.after hostOps0_2 W (Proc.devRef .tc main_v8) : S10240.Idx → BitVec 32) =
      shapeCast S10240 (W (Proc.devRef .tc main_v7) : S1024x10.Idx → BitVec 32) shapeCasts_S1024x10_S10240 := by
  after_results; rfl

theorem ops0_2_v15 : ∃ idx : IVec S10240x1 32,
    (StableHlo.after hostOps0_2 W (Proc.devRef .tc main_v15) : S10240x128.Idx → BitVec 32) =
      Host.gather gather_S500000x128_S10240x1_S10240x128_1_0_n_n_0_1_1128
        (W (Proc.devRef .tc main_arg1) : S500000x128.Idx → BitVec 32) idx :=
  ⟨_, by after_results⟩

theorem ops0_3_v16 :
    (StableHlo.after hostOps0_3 W (Proc.devRef .tc main_v16) : S10240x25.Idx → BitVec 32) =
      pick (W (Proc.devRef .tc main_arg4) : S10240x25.Idx → BitVec 32) (W (Proc.devRef .tc main_v15) : S10240x128.Idx → BitVec 32)
        gather_S10240x128_S10240x25x1_S10240x25_n_1_0_0_1_2_11 shapeCasts_S10240x25_S10240x25x1 bcast_S_S10240x25
        bcast_S_S10240x25x1 bcast_S1_S1x1x1_2 bcast_S1x1x1_S10240x25x1_0_1_2 reducesTo_S10240x25x1_S10240x25_d2 h_S_ := by
  after_results_simp
  simp only [StableHlo.TRef.ofBuf, StableHlo.TRef.toBuf, cast_eq]
  rfl

end LaunchStretches

section Bounds

variable (h1 : ∀ (c : Dev nD) i, ((m ((c.tc : Thread nD τ).loc main_arg1) : S500000x128.Idx → BitVec 32) i).toNat < 500000)
  (h3 : ∀ (c : Dev nD) i, ((m ((c.tc : Thread nD τ).loc main_arg3) : S1024x10.Idx → BitVec 32) i).toNat < 128)
  (h4 : ∀ (c : Dev nD) i, ((m ((c.tc : Thread nD τ).loc main_arg4) : S10240x25.Idx → BitVec 32) i).toNat < 128)

include h1 in
theorem v6_lt (c : Dev nD) (j : S1024x128.Idx) : ((V1 m c main_v6 : S1024x128.Idx → BitVec 32) j).toNat < 500000 := by
  obtain ⟨idx, e⟩ := ops0_v6 (V0 m c)
  rw [show (V1 m c main_v6 : S1024x128.Idx → BitVec 32) = _ from e]
  exact h1 c _

include h1 h3 in
theorem v7_lt (c : Dev nD) (j : S1024x10.Idx) : ((V2 m c main_v7 : S1024x10.Idx → BitVec 32) j).toNat < 500000 := by
  rw [show (V2 m c main_v7 : S1024x10.Idx → BitVec 32) = _ from ops0_1_v7 (V1 m c)]
  refine pick_lt _ _ _ _ _ _ _ _ _ _ (fun i => ?_) (v6_lt m h1 c) j
  rw [show (V1 m c main_arg3 : S1024x10.Idx → BitVec 32) = m ((c.tc : Thread nD τ).loc main_arg3) from V1_of m c main_arg3 (by decide)]
  exact h3 c i

include h1 h3 in
theorem X8_lt (c : Dev nD) (j : S10240.Idx) : (X8 m c j).toNat < 500000 := by
  have e : X8 m c = shapeCast S10240 (V2 m c main_v7 : S1024x10.Idx → BitVec 32) shapeCasts_S1024x10_S10240 :=
    (V5_of m c main_v8 (by decide)).trans <| (V4_of m c main_v8 (by decide)).trans (ops0_2_v8 (V2 m c))
  rw [e]
  exact shapeCast_lt _ _ (v7_lt m h1 h3 c) j

include h1 in
theorem v15_lt (c : Dev nD) (j : S10240x128.Idx) : ((V3 m c main_v15 : S10240x128.Idx → BitVec 32) j).toNat < 500000 := by
  obtain ⟨idx, e⟩ := ops0_2_v15 (V2 m c)
  rw [show (V3 m c main_v15 : S10240x128.Idx → BitVec 32) = _ from e,
    show (V2 m c main_arg1 : S500000x128.Idx → BitVec 32) = m ((c.tc : Thread nD τ).loc main_arg1) from
      (V2_of m c main_arg1 (by decide)).trans (V1_of m c main_arg1 (by decide))]
  exact h1 c _

include h1 h4 in
theorem v16_lt (c : Dev nD) (j : S10240x25.Idx) : ((V4 m c main_v16 : S10240x25.Idx → BitVec 32) j).toNat < 500000 := by
  rw [show (V4 m c main_v16 : S10240x25.Idx → BitVec 32) = _ from ops0_3_v16 (V3 m c)]
  refine pick_lt _ _ _ _ _ _ _ _ _ _ (fun i => ?_) (v15_lt m h1 c) j
  rw [show (V3 m c main_arg4 : S10240x25.Idx → BitVec 32) = m ((c.tc : Thread nD τ).loc main_arg4) from
    (V3_of m c main_arg4 (by decide)).trans <| (V2_of m c main_arg4 (by decide)).trans (V1_of m c main_arg4 (by decide))]
  exact h4 c i

include h1 h4 in
theorem X33_lt (c : Dev nD) (j : S10240x25.Idx) : (X33 m c j).toNat < 500000 := by
  have e : X17 m c = shapeCast S256000 (V4 m c main_v16 : S10240x25.Idx → BitVec 32) shapeCasts_S10240x25_S256000 :=
    ops0_4_v17 (V4 m c)
  refine shapeCast_lt _ _ (fun i => ?_) j
  rw [e]
  exact shapeCast_lt _ _ (v16_lt m h1 h4 c) i

include h1 h3 in
theorem tbl1_inb (c : Dev nD) (k : S10240.Idx) : ((V7 m outs c main_v25 : S10240.Idx → BitVec 32) k).toNat < 500000 := by
  rw [tbl1_eq]; exact shapeCast_lt _ _ (shapeCast_lt _ _ (X8_lt m h1 h3 c)) k
include h1 h3 in
theorem tbl2_inb (c : Dev nD) (k : S10240.Idx) : ((V9 m outs c main_v30 : S10240.Idx → BitVec 32) k).toNat < 500000 := by
  rw [tbl2_eq]; exact shapeCast_lt _ _ (shapeCast_lt _ _ (X8_lt m h1 h3 c)) k
include h1 h4 in
theorem tbl3_inb (c : Dev nD) (k : S32000.Idx) : ((V11 m outs c main_v36 : S32000.Idx → BitVec 32) k).toNat < 500000 := by
  rw [tbl3_eq]; exact shapeCast_lt _ _ (slice_lt _ _ _ (X33_lt m h1 h4 c)) k
include h1 h4 in
theorem tbl4_inb (c : Dev nD) (k : S32000.Idx) : ((V13 m outs c main_v40 : S32000.Idx → BitVec 32) k).toNat < 500000 := by
  rw [tbl4_eq]; exact shapeCast_lt _ _ (slice_lt _ _ _ (X33_lt m h1 h4 c)) k
include h1 h4 in
theorem tbl5_inb (c : Dev nD) (k : S32000.Idx) : ((V15 m outs c main_v44 : S32000.Idx → BitVec 32) k).toNat < 500000 := by
  rw [tbl5_eq]; exact shapeCast_lt _ _ (slice_lt _ _ _ (X33_lt m h1 h4 c)) k
include h1 h4 in
theorem tbl6_inb (c : Dev nD) (k : S32000.Idx) : ((V17 m outs c main_v48 : S32000.Idx → BitVec 32) k).toNat < 500000 := by
  rw [tbl6_eq]; exact shapeCast_lt _ _ (slice_lt _ _ _ (X33_lt m h1 h4 c)) k
include h1 h4 in
theorem tbl7_inb (c : Dev nD) (k : S32000.Idx) : ((V19 m outs c main_v52 : S32000.Idx → BitVec 32) k).toNat < 500000 := by
  rw [tbl7_eq]; exact shapeCast_lt _ _ (slice_lt _ _ _ (X33_lt m h1 h4 c)) k
include h1 h4 in
theorem tbl8_inb (c : Dev nD) (k : S32000.Idx) : ((V21 m outs c main_v56 : S32000.Idx → BitVec 32) k).toNat < 500000 := by
  rw [tbl8_eq]; exact shapeCast_lt _ _ (slice_lt _ _ _ (X33_lt m h1 h4 c)) k
include h1 h4 in
theorem tbl9_inb (c : Dev nD) (k : S32000.Idx) : ((V23 m outs c main_v60 : S32000.Idx → BitVec 32) k).toNat < 500000 := by
  rw [tbl9_eq]; exact shapeCast_lt _ _ (slice_lt _ _ _ (X33_lt m h1 h4 c)) k
include h1 h4 in
theorem tbl10_inb (c : Dev nD) (k : S32000.Idx) : ((V25 m outs c main_v64 : S32000.Idx → BitVec 32) k).toNat < 500000 := by
  rw [tbl10_eq]; exact shapeCast_lt _ _ (slice_lt _ _ _ (X33_lt m h1 h4 c)) k

end Bounds

end Cert.KernelIdeal.Hand
-- ==== Proof.ArrIndep.lean ====
import proofs.«401580_j65068754534945_2_alg».proof.Proof.Tables

/-! The two arrays a gather region works on hold, at its entry, the reshaped feature table and the output's launch contents, whatever earlier regions wrote. -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

variable (m : (ℓ : Loc nD τ sig) → Buf (Elt F) ℓ)

section Stretches

variable (W : Valuation τ sig (Elt F))

theorem hostOps0_4_main_v19 :
    (StableHlo.after hostOps0_4 W (Proc.devRef .tc main_v19) : (⟨S500000x1x128, .f32⟩ : BufTy).Contents (Elt F)) =
      shapeCast S500000x1x128 (W (Proc.devRef .tc main_arg0) : (⟨S500000x128, .f32⟩ : BufTy).Contents (Elt F)) shapeCasts_S500000x128_S500000x1x128 := by
  after_results; rfl
theorem hostOps1_main_v24 :
    (StableHlo.after hostOps1 W (Proc.devRef .tc main_v24) : (⟨S500000x1x128, .f32⟩ : BufTy).Contents (Elt F)) =
      shapeCast S500000x1x128 (W (Proc.devRef .tc main_arg0) : (⟨S500000x128, .f32⟩ : BufTy).Contents (Elt F)) shapeCasts_S500000x128_S500000x1x128 := by
  after_results; rfl
theorem hostOps2_main_v29 :
    (StableHlo.after hostOps2 W (Proc.devRef .tc main_v29) : (⟨S500000x1x128, .f32⟩ : BufTy).Contents (Elt F)) =
      shapeCast S500000x1x128 (W (Proc.devRef .tc main_arg0) : (⟨S500000x128, .f32⟩ : BufTy).Contents (Elt F)) shapeCasts_S500000x128_S500000x1x128 := by
  after_results; rfl
theorem hostOps3_main_v34 :
    (StableHlo.after hostOps3 W (Proc.devRef .tc main_v34) : (⟨S500000x1x128, .f32⟩ : BufTy).Contents (Elt F)) =
      shapeCast S500000x1x128 (W (Proc.devRef .tc main_arg0) : (⟨S500000x128, .f32⟩ : BufTy).Contents (Elt F)) shapeCasts_S500000x128_S500000x1x128 := by
  after_results; rfl

end Stretches

variable (outs outs' : Outs (F := F))

abbrev XF (c : Dev nD) : (⟨S500000x1x128, .f32⟩ : BufTy).Contents (Elt F) :=
  shapeCast S500000x1x128 (m ((c.tc : Thread nD τ).loc main_arg0) : (⟨S500000x128, .f32⟩ : BufTy).Contents (Elt F)) shapeCasts_S500000x128_S500000x1x128

theorem arr0_in_eq (c : Dev nD) : (V5 m c main_v19 : (⟨S500000x1x128, .f32⟩ : BufTy).Contents (Elt F)) = XF m c := by
  have e := hostOps0_4_main_v19 (V4 m c)
  rw [show (V4 m c (Proc.devRef .tc main_arg0) : (⟨S500000x128, .f32⟩ : BufTy).Contents (Elt F)) = m ((c.tc : Thread nD τ).loc main_arg0) from
    (V4_of m c main_arg0 (by decide)).trans <| (V3_of m c main_arg0 (by decide)).trans <| (V2_of m c main_arg0 (by decide)).trans <| (V1_of m c main_arg0 (by decide))] at e
  exact e
theorem arr1_in_eq (c : Dev nD) : (V7 m outs c main_v24 : (⟨S500000x1x128, .f32⟩ : BufTy).Contents (Elt F)) = XF m c := by
  have e := hostOps1_main_v24 (V6 m outs c)
  rw [show (V6 m outs c (Proc.devRef .tc main_arg0) : (⟨S500000x128, .f32⟩ : BufTy).Contents (Elt F)) = m ((c.tc : Thread nD τ).loc main_arg0) from
    (V6_of m outs c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide))] at e
  exact e
theorem arr2_in_eq (c : Dev nD) : (V9 m outs c main_v29 : (⟨S500000x1x128, .f32⟩ : BufTy).Contents (Elt F)) = XF m c := by
  have e := hostOps2_main_v29 (V8 m outs c)
  rw [show (V8 m outs c (Proc.devRef .tc main_arg0) : (⟨S500000x128, .f32⟩ : BufTy).Contents (Elt F)) = m ((c.tc : Thread nD τ).loc main_arg0) from
    (V8_of m outs c main_arg0 (by decide)).trans <| (V7_of m outs c main_arg0 (by decide)).trans <| (V6_of m outs c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide))] at e
  exact e
theorem arr3_in_eq (c : Dev nD) : (V11 m outs c main_v34 : (⟨S500000x1x128, .f32⟩ : BufTy).Contents (Elt F)) = XF m c := by
  have e := hostOps3_main_v34 (V10 m outs c)
  rw [show (V10 m outs c (Proc.devRef .tc main_arg0) : (⟨S500000x128, .f32⟩ : BufTy).Contents (Elt F)) = m ((c.tc : Thread nD τ).loc main_arg0) from
    (V10_of m outs c main_arg0 (by decide)).trans <| (V9_of m outs c main_arg0 (by decide)).trans <| (V8_of m outs c main_arg0 (by decide)).trans <| (V7_of m outs c main_arg0 (by decide)).trans <| (V6_of m outs c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide))] at e
  exact e
theorem arr4_in_eq (c : Dev nD) : (V13 m outs c main_v34 : (⟨S500000x1x128, .f32⟩ : BufTy).Contents (Elt F)) = XF m c :=
  ((V13_of m outs c main_v34 (by decide)).trans <| (V12_of m outs c main_v34 (by decide))).trans (arr3_in_eq m outs c)
theorem arr5_in_eq (c : Dev nD) : (V15 m outs c main_v34 : (⟨S500000x1x128, .f32⟩ : BufTy).Contents (Elt F)) = XF m c :=
  ((V15_of m outs c main_v34 (by decide)).trans <| (V14_of m outs c main_v34 (by decide))).trans (arr4_in_eq m outs c)
theorem arr6_in_eq (c : Dev nD) : (V17 m outs c main_v34 : (⟨S500000x1x128, .f32⟩ : BufTy).Contents (Elt F)) = XF m c :=
  ((V17_of m outs c main_v34 (by decide)).trans <| (V16_of m outs c main_v34 (by decide))).trans (arr5_in_eq m outs c)
theorem arr7_in_eq (c : Dev nD) : (V19 m outs c main_v34 : (⟨S500000x1x128, .f32⟩ : BufTy).Contents (Elt F)) = XF m c :=
  ((V19_of m outs c main_v34 (by decide)).trans <| (V18_of m outs c main_v34 (by decide))).trans (arr6_in_eq m outs c)
theorem arr8_in_eq (c : Dev nD) : (V21 m outs c main_v34 : (⟨S500000x1x128, .f32⟩ : BufTy).Contents (Elt F)) = XF m c :=
  ((V21_of m outs c main_v34 (by decide)).trans <| (V20_of m outs c main_v34 (by decide))).trans (arr7_in_eq m outs c)
theorem arr9_in_eq (c : Dev nD) : (V23 m outs c main_v34 : (⟨S500000x1x128, .f32⟩ : BufTy).Contents (Elt F)) = XF m c :=
  ((V23_of m outs c main_v34 (by decide)).trans <| (V22_of m outs c main_v34 (by decide))).trans (arr8_in_eq m outs c)
theorem arr10_in_eq (c : Dev nD) : (V25 m outs c main_v34 : (⟨S500000x1x128, .f32⟩ : BufTy).Contents (Elt F)) = XF m c :=
  ((V25_of m outs c main_v34 (by decide)).trans <| (V24_of m outs c main_v34 (by decide))).trans (arr9_in_eq m outs c)

theorem arr0_out_eq (c : Dev nD) : V5 m c main_v21 = m ((c.tc : Thread nD τ).loc main_v21) :=
  (V5_of m c main_v21 (by decide)).trans <| (V4_of m c main_v21 (by decide)).trans <| (V3_of m c main_v21 (by decide)).trans <| (V2_of m c main_v21 (by decide)).trans <| (V1_of m c main_v21 (by decide))
theorem arr1_out_eq (c : Dev nD) : V7 m outs c main_v26 = m ((c.tc : Thread nD τ).loc main_v26) :=
  (V7_of m outs c main_v26 (by decide)).trans <| (V6_of m outs c main_v26 (by decide)).trans <| (V5_of m c main_v26 (by decide)).trans <| (V4_of m c main_v26 (by decide)).trans <| (V3_of m c main_v26 (by decide)).trans <| (V2_of m c main_v26 (by decide)).trans <| (V1_of m c main_v26 (by decide))
theorem arr2_out_eq (c : Dev nD) : V9 m outs c main_v31 = m ((c.tc : Thread nD τ).loc main_v31) :=
  (V9_of m outs c main_v31 (by decide)).trans <| (V8_of m outs c main_v31 (by decide)).trans <| (V7_of m outs c main_v31 (by decide)).trans <| (V6_of m outs c main_v31 (by decide)).trans <| (V5_of m c main_v31 (by decide)).trans <| (V4_of m c main_v31 (by decide)).trans <| (V3_of m c main_v31 (by decide)).trans <| (V2_of m c main_v31 (by decide)).trans <| (V1_of m c main_v31 (by decide))
theorem arr3_out_eq (c : Dev nD) : V11 m outs c main_v37 = m ((c.tc : Thread nD τ).loc main_v37) :=
  (V11_of m outs c main_v37 (by decide)).trans <| (V10_of m outs c main_v37 (by decide)).trans <| (V9_of m outs c main_v37 (by decide)).trans <| (V8_of m outs c main_v37 (by decide)).trans <| (V7_of m outs c main_v37 (by decide)).trans <| (V6_of m outs c main_v37 (by decide)).trans <| (V5_of m c main_v37 (by decide)).trans <| (V4_of m c main_v37 (by decide)).trans <| (V3_of m c main_v37 (by decide)).trans <| (V2_of m c main_v37 (by decide)).trans <| (V1_of m c main_v37 (by decide))
theorem arr4_out_eq (c : Dev nD) : V13 m outs c main_v41 = m ((c.tc : Thread nD τ).loc main_v41) :=
  (V13_of m outs c main_v41 (by decide)).trans <| (V12_of m outs c main_v41 (by decide)).trans <| (V11_of m outs c main_v41 (by decide)).trans <| (V10_of m outs c main_v41 (by decide)).trans <| (V9_of m outs c main_v41 (by decide)).trans <| (V8_of m outs c main_v41 (by decide)).trans <| (V7_of m outs c main_v41 (by decide)).trans <| (V6_of m outs c main_v41 (by decide)).trans <| (V5_of m c main_v41 (by decide)).trans <| (V4_of m c main_v41 (by decide)).trans <| (V3_of m c main_v41 (by decide)).trans <| (V2_of m c main_v41 (by decide)).trans <| (V1_of m c main_v41 (by decide))
theorem arr5_out_eq (c : Dev nD) : V15 m outs c main_v45 = m ((c.tc : Thread nD τ).loc main_v45) :=
  (V15_of m outs c main_v45 (by decide)).trans <| (V14_of m outs c main_v45 (by decide)).trans <| (V13_of m outs c main_v45 (by decide)).trans <| (V12_of m outs c main_v45 (by decide)).trans <| (V11_of m outs c main_v45 (by decide)).trans <| (V10_of m outs c main_v45 (by decide)).trans <| (V9_of m outs c main_v45 (by decide)).trans <| (V8_of m outs c main_v45 (by decide)).trans <| (V7_of m outs c main_v45 (by decide)).trans <| (V6_of m outs c main_v45 (by decide)).trans <| (V5_of m c main_v45 (by decide)).trans <| (V4_of m c main_v45 (by decide)).trans <| (V3_of m c main_v45 (by decide)).trans <| (V2_of m c main_v45 (by decide)).trans <| (V1_of m c main_v45 (by decide))
theorem arr6_out_eq (c : Dev nD) : V17 m outs c main_v49 = m ((c.tc : Thread nD τ).loc main_v49) :=
  (V17_of m outs c main_v49 (by decide)).trans <| (V16_of m outs c main_v49 (by decide)).trans <| (V15_of m outs c main_v49 (by decide)).trans <| (V14_of m outs c main_v49 (by decide)).trans <| (V13_of m outs c main_v49 (by decide)).trans <| (V12_of m outs c main_v49 (by decide)).trans <| (V11_of m outs c main_v49 (by decide)).trans <| (V10_of m outs c main_v49 (by decide)).trans <| (V9_of m outs c main_v49 (by decide)).trans <| (V8_of m outs c main_v49 (by decide)).trans <| (V7_of m outs c main_v49 (by decide)).trans <| (V6_of m outs c main_v49 (by decide)).trans <| (V5_of m c main_v49 (by decide)).trans <| (V4_of m c main_v49 (by decide)).trans <| (V3_of m c main_v49 (by decide)).trans <| (V2_of m c main_v49 (by decide)).trans <| (V1_of m c main_v49 (by decide))
theorem arr7_out_eq (c : Dev nD) : V19 m outs c main_v53 = m ((c.tc : Thread nD τ).loc main_v53) :=
  (V19_of m outs c main_v53 (by decide)).trans <| (V18_of m outs c main_v53 (by decide)).trans <| (V17_of m outs c main_v53 (by decide)).trans <| (V16_of m outs c main_v53 (by decide)).trans <| (V15_of m outs c main_v53 (by decide)).trans <| (V14_of m outs c main_v53 (by decide)).trans <| (V13_of m outs c main_v53 (by decide)).trans <| (V12_of m outs c main_v53 (by decide)).trans <| (V11_of m outs c main_v53 (by decide)).trans <| (V10_of m outs c main_v53 (by decide)).trans <| (V9_of m outs c main_v53 (by decide)).trans <| (V8_of m outs c main_v53 (by decide)).trans <| (V7_of m outs c main_v53 (by decide)).trans <| (V6_of m outs c main_v53 (by decide)).trans <| (V5_of m c main_v53 (by decide)).trans <| (V4_of m c main_v53 (by decide)).trans <| (V3_of m c main_v53 (by decide)).trans <| (V2_of m c main_v53 (by decide)).trans <| (V1_of m c main_v53 (by decide))
theorem arr8_out_eq (c : Dev nD) : V21 m outs c main_v57 = m ((c.tc : Thread nD τ).loc main_v57) :=
  (V21_of m outs c main_v57 (by decide)).trans <| (V20_of m outs c main_v57 (by decide)).trans <| (V19_of m outs c main_v57 (by decide)).trans <| (V18_of m outs c main_v57 (by decide)).trans <| (V17_of m outs c main_v57 (by decide)).trans <| (V16_of m outs c main_v57 (by decide)).trans <| (V15_of m outs c main_v57 (by decide)).trans <| (V14_of m outs c main_v57 (by decide)).trans <| (V13_of m outs c main_v57 (by decide)).trans <| (V12_of m outs c main_v57 (by decide)).trans <| (V11_of m outs c main_v57 (by decide)).trans <| (V10_of m outs c main_v57 (by decide)).trans <| (V9_of m outs c main_v57 (by decide)).trans <| (V8_of m outs c main_v57 (by decide)).trans <| (V7_of m outs c main_v57 (by decide)).trans <| (V6_of m outs c main_v57 (by decide)).trans <| (V5_of m c main_v57 (by decide)).trans <| (V4_of m c main_v57 (by decide)).trans <| (V3_of m c main_v57 (by decide)).trans <| (V2_of m c main_v57 (by decide)).trans <| (V1_of m c main_v57 (by decide))
theorem arr9_out_eq (c : Dev nD) : V23 m outs c main_v61 = m ((c.tc : Thread nD τ).loc main_v61) :=
  (V23_of m outs c main_v61 (by decide)).trans <| (V22_of m outs c main_v61 (by decide)).trans <| (V21_of m outs c main_v61 (by decide)).trans <| (V20_of m outs c main_v61 (by decide)).trans <| (V19_of m outs c main_v61 (by decide)).trans <| (V18_of m outs c main_v61 (by decide)).trans <| (V17_of m outs c main_v61 (by decide)).trans <| (V16_of m outs c main_v61 (by decide)).trans <| (V15_of m outs c main_v61 (by decide)).trans <| (V14_of m outs c main_v61 (by decide)).trans <| (V13_of m outs c main_v61 (by decide)).trans <| (V12_of m outs c main_v61 (by decide)).trans <| (V11_of m outs c main_v61 (by decide)).trans <| (V10_of m outs c main_v61 (by decide)).trans <| (V9_of m outs c main_v61 (by decide)).trans <| (V8_of m outs c main_v61 (by decide)).trans <| (V7_of m outs c main_v61 (by decide)).trans <| (V6_of m outs c main_v61 (by decide)).trans <| (V5_of m c main_v61 (by decide)).trans <| (V4_of m c main_v61 (by decide)).trans <| (V3_of m c main_v61 (by decide)).trans <| (V2_of m c main_v61 (by decide)).trans <| (V1_of m c main_v61 (by decide))
theorem arr10_out_eq (c : Dev nD) : V25 m outs c main_v65 = m ((c.tc : Thread nD τ).loc main_v65) :=
  (V25_of m outs c main_v65 (by decide)).trans <| (V24_of m outs c main_v65 (by decide)).trans <| (V23_of m outs c main_v65 (by decide)).trans <| (V22_of m outs c main_v65 (by decide)).trans <| (V21_of m outs c main_v65 (by decide)).trans <| (V20_of m outs c main_v65 (by decide)).trans <| (V19_of m outs c main_v65 (by decide)).trans <| (V18_of m outs c main_v65 (by decide)).trans <| (V17_of m outs c main_v65 (by decide)).trans <| (V16_of m outs c main_v65 (by decide)).trans <| (V15_of m outs c main_v65 (by decide)).trans <| (V14_of m outs c main_v65 (by decide)).trans <| (V13_of m outs c main_v65 (by decide)).trans <| (V12_of m outs c main_v65 (by decide)).trans <| (V11_of m outs c main_v65 (by decide)).trans <| (V10_of m outs c main_v65 (by decide)).trans <| (V9_of m outs c main_v65 (by decide)).trans <| (V8_of m outs c main_v65 (by decide)).trans <| (V7_of m outs c main_v65 (by decide)).trans <| (V6_of m outs c main_v65 (by decide)).trans <| (V5_of m c main_v65 (by decide)).trans <| (V4_of m c main_v65 (by decide)).trans <| (V3_of m c main_v65 (by decide)).trans <| (V2_of m c main_v65 (by decide)).trans <| (V1_of m c main_v65 (by decide))

theorem arr1_indep (c : Dev nD) (w : Fin 2) :
    V7 m outs c (Pipeline.arrRef spec1 w) = V7 m outs' c (Pipeline.arrRef spec1 w) :=
  match w with
  | ⟨0, _⟩ => (arr1_in_eq m outs c).trans (arr1_in_eq m outs' c).symm
  | ⟨1, _⟩ => (arr1_out_eq m outs c).trans (arr1_out_eq m outs' c).symm
  | ⟨_ + 2, h⟩ => absurd h (Nat.not_lt.2 (Nat.le_add_left _ _))
theorem arr2_indep (c : Dev nD) (w : Fin 2) :
    V9 m outs c (Pipeline.arrRef spec2 w) = V9 m outs' c (Pipeline.arrRef spec2 w) :=
  match w with
  | ⟨0, _⟩ => (arr2_in_eq m outs c).trans (arr2_in_eq m outs' c).symm
  | ⟨1, _⟩ => (arr2_out_eq m outs c).trans (arr2_out_eq m outs' c).symm
  | ⟨_ + 2, h⟩ => absurd h (Nat.not_lt.2 (Nat.le_add_left _ _))
theorem arr3_indep (c : Dev nD) (w : Fin 2) :
    V11 m outs c (Pipeline.arrRef spec3 w) = V11 m outs' c (Pipeline.arrRef spec3 w) :=
  match w with
  | ⟨0, _⟩ => (arr3_in_eq m outs c).trans (arr3_in_eq m outs' c).symm
  | ⟨1, _⟩ => (arr3_out_eq m outs c).trans (arr3_out_eq m outs' c).symm
  | ⟨_ + 2, h⟩ => absurd h (Nat.not_lt.2 (Nat.le_add_left _ _))
theorem arr4_indep (c : Dev nD) (w : Fin 2) :
    V13 m outs c (Pipeline.arrRef spec4 w) = V13 m outs' c (Pipeline.arrRef spec4 w) :=
  match w with
  | ⟨0, _⟩ => (arr4_in_eq m outs c).trans (arr4_in_eq m outs' c).symm
  | ⟨1, _⟩ => (arr4_out_eq m outs c).trans (arr4_out_eq m outs' c).symm
  | ⟨_ + 2, h⟩ => absurd h (Nat.not_lt.2 (Nat.le_add_left _ _))
theorem arr5_indep (c : Dev nD) (w : Fin 2) :
    V15 m outs c (Pipeline.arrRef spec5 w) = V15 m outs' c (Pipeline.arrRef spec5 w) :=
  match w with
  | ⟨0, _⟩ => (arr5_in_eq m outs c).trans (arr5_in_eq m outs' c).symm
  | ⟨1, _⟩ => (arr5_out_eq m outs c).trans (arr5_out_eq m outs' c).symm
  | ⟨_ + 2, h⟩ => absurd h (Nat.not_lt.2 (Nat.le_add_left _ _))
theorem arr6_indep (c : Dev nD) (w : Fin 2) :
    V17 m outs c (Pipeline.arrRef spec6 w) = V17 m outs' c (Pipeline.arrRef spec6 w) :=
  match w with
  | ⟨0, _⟩ => (arr6_in_eq m outs c).trans (arr6_in_eq m outs' c).symm
  | ⟨1, _⟩ => (arr6_out_eq m outs c).trans (arr6_out_eq m outs' c).symm
  | ⟨_ + 2, h⟩ => absurd h (Nat.not_lt.2 (Nat.le_add_left _ _))
theorem arr7_indep (c : Dev nD) (w : Fin 2) :
    V19 m outs c (Pipeline.arrRef spec7 w) = V19 m outs' c (Pipeline.arrRef spec7 w) :=
  match w with
  | ⟨0, _⟩ => (arr7_in_eq m outs c).trans (arr7_in_eq m outs' c).symm
  | ⟨1, _⟩ => (arr7_out_eq m outs c).trans (arr7_out_eq m outs' c).symm
  | ⟨_ + 2, h⟩ => absurd h (Nat.not_lt.2 (Nat.le_add_left _ _))
theorem arr8_indep (c : Dev nD) (w : Fin 2) :
    V21 m outs c (Pipeline.arrRef spec8 w) = V21 m outs' c (Pipeline.arrRef spec8 w) :=
  match w with
  | ⟨0, _⟩ => (arr8_in_eq m outs c).trans (arr8_in_eq m outs' c).symm
  | ⟨1, _⟩ => (arr8_out_eq m outs c).trans (arr8_out_eq m outs' c).symm
  | ⟨_ + 2, h⟩ => absurd h (Nat.not_lt.2 (Nat.le_add_left _ _))
theorem arr9_indep (c : Dev nD) (w : Fin 2) :
    V23 m outs c (Pipeline.arrRef spec9 w) = V23 m outs' c (Pipeline.arrRef spec9 w) :=
  match w with
  | ⟨0, _⟩ => (arr9_in_eq m outs c).trans (arr9_in_eq m outs' c).symm
  | ⟨1, _⟩ => (arr9_out_eq m outs c).trans (arr9_out_eq m outs' c).symm
  | ⟨_ + 2, h⟩ => absurd h (Nat.not_lt.2 (Nat.le_add_left _ _))
theorem arr10_indep (c : Dev nD) (w : Fin 2) :
    V25 m outs c (Pipeline.arrRef spec10 w) = V25 m outs' c (Pipeline.arrRef spec10 w) :=
  match w with
  | ⟨0, _⟩ => (arr10_in_eq m outs c).trans (arr10_in_eq m outs' c).symm
  | ⟨1, _⟩ => (arr10_out_eq m outs c).trans (arr10_out_eq m outs' c).symm
  | ⟨_ + 2, h⟩ => absurd h (Nat.not_lt.2 (Nat.le_add_left _ _))

end Cert.KernelIdeal.Hand
-- ==== Proof.Gather0.lean ====
import proofs.«401580_j65068754534945_2_alg».proof.Proof.Base

/-! One gather-and-mean region: groups of feature rows named by a table, summed in an accumulator that restarts at a group's first sample and is scaled into the output at its last. -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The restart test of the body, read off the sample coordinate. -/
abbrev first0 (i : grid0.Coords) : BitVec 1 :=
  Scalar.cmpi .ne (Scalar.extui (Scalar.cmpi .eq (BitVec.ofNat 32 (i 1).val) 0#32)) 0#32

/-- Point t is sample t % 1 of group t / 1. -/
theorem coords0_0 (t : Fin grid0.N) : (grid0.coords t 0).val = t.val / 1 % 1024 := by
  show t.val / grid0.stride 0 % _ = _; rw [show grid0.stride 0 = 1 by decide]; rfl
theorem coords0_1 (t : Fin grid0.N) : (grid0.coords t 1).val = t.val % 1 := by
  show t.val / grid0.stride 1 % _ = _; rw [show grid0.stride 1 = 1 by decide, Nat.div_one]; rfl

theorem first0_at (t : Fin grid0.N) : first0 (grid0.coords t) = 1#1 ↔ t.val % 1 = 0 := by
  rw [← coords0_1]; unfold first0; generalize grid0.coords t 1 = s; revert s; decide
theorem last0_at (t : Fin grid0.N) : k0_cond2 (grid0.coords t) = 1#1 ↔ t.val % 1 = 0 := by
  rw [← coords0_1]; unfold k0_cond2; generalize grid0.coords t 1 = s; revert s; decide

section
variable (a : (pcfg0 (F := F)).Adm)
variable (A : (c : Dev nD) → (w : Fin (cfg0 a).W) → Buf (Elt F) (((cfg0 a).win w).arr.view.loc (c.tc : Thread nD τ)))

/-- A point whose successor lies in another group, or is past the end, is a group's last sample. -/
theorem flush0_last (t : Fin (cfg0 a).N) (h : ((cfg0 a).win 1).flush t = true) : t.val % 1 = 0 := by
  unfold Pipeline.Window.flush at h
  simp only [Bool.and_eq_true, Bool.or_eq_true, decide_eq_true_eq] at h
  obtain ⟨-, h | ⟨h', hne⟩⟩ := h
  · have := h.trans N_0; omega
  · by_contra hc
    apply hne
    show cc0_transform_1 (grid0.coords ⟨t.val + 1, h'⟩) = cc0_transform_1 (grid0.coords t)
    refine hreads0_1 _ _ fun b hb => ?_
    obtain rfl : b = 0 := by revert hb; revert b; decide
    apply Fin.ext
    rw [coords0_0, coords0_0]
    show (t.val + 1) / 1 % 1024 = t.val / 1 % 1024
    omega

/-- The feature row the table names at point t. -/
def row0 (c : Dev nD) (t : Fin (cfg0 a).N) : Vec F S1x1x128 .f32 :=
  (((cfg0 a).win 0).blk t).view.read (Elt F) (A c 0)

/-- The running sum after point n, restarted from zero at a group's first sample. -/
def acc0 (c : Dev nD) : (n : ℕ) → n < (cfg0 a).N → Vec F S1x1x128 .f32
  | 0, h => k0_pay2 (k0_pay1 (F := F)) (row0 a A c ⟨0, h⟩)
  | n + 1, h => k0_pay2 (if first0 (grid0.coords ⟨n + 1, h⟩) = 1#1 then k0_pay1 (F := F) else acc0 c n (Nat.lt_of_succ_lt h))
      (row0 a A c ⟨n + 1, h⟩)

/-- Before position k the accumulator holds the running sum of the point before (anything before the first point). -/
def Phi0 (c : Dev nD) (k : ℕ) : sProp 𝕄 :=
  iprop((∃ X : Vec F S1x1x128 .f32, ⌜∀ n (h : n < (cfg0 a).N), k = n + 1 → X = acc0 a A c n h⌝
      ∗ owns (c : Thread nD τ) (Memref.whole cc0_scratch0) fullShare X)
    ∗ Pipeline.scopedRestBut (Ix := Unit) (Name := ℕ) (U := UR sig nD τ) (Lvl := ℕ) (Val := Elt F) spec0 c [cc0_scratch0]
    ∗ (∃ r, prngReg c r)
    ∗ Pipeline.prefHeld (Ix := Unit) (Name := ℕ) (U := UR sig nD τ) (Lvl := ℕ) pre0 c (fun _ => fullShare) a.1)

/-- What each point leaves: the named row on the input side, the group's scaled sum on the output side. -/
def dat0 (c : Dev nD) : Dat τ (Elt F) Unit ℕ (UR sig nD τ) ℕ (cfg0 a) c where
  A w := A c w
  after w t := match w with
    | ⟨0, _⟩ => row0 a A c t
    | ⟨1, _⟩ => k0_pay3 (acc0 a A c t.val t.isLt)
  Φ t := Phi0 a A c t.val
  q _ := fullShare
  owed _ := 0

theorem A_eq0 (c : Dev nD) (w : Fin (cfg0 a).W) : (dat0 a A c).A w = A c w := rfl
theorem after0_0 (c : Dev nD) (t : Fin (cfg0 a).N) : (dat0 a A c).after 0 t = row0 a A c t := rfl
theorem after0_1 (c : Dev nD) (t : Fin (cfg0 a).N) : (dat0 a A c).after 1 t = k0_pay3 (acc0 a A c t.val t.isLt) := rfl

theorem Phi0_castSucc (c : Dev nD) (t : Fin (cfg0 a).N) : (dat0 a A c).Φ t.castSucc = Phi0 a A c t.val := by
  dsimp only [dat0]; simp only [Fin.coe_castSucc]
theorem Phi0_succ (c : Dev nD) (t : Fin (cfg0 a).N) : (dat0 a A c).Φ t.succ = Phi0 a A c (t.val + 1) := rfl

theorem before0_0 (c : Dev nD) (t : Fin (cfg0 a).N) (d) : (dat0 a A c).before 0 t d = row0 a A c t :=
  ((dat0 a A c).before_in_eq_fetched 0 rfl (fun _ => rfl) (fun _ _ _ => rfl) (fun t => by rw [after0_0]; rfl) t d).trans rfl

end

/-- What a point leaves in the accumulator: the row added to zero at a first sample, to what was there otherwise. -/
def step0 (i : grid0.Coords) (X row : Vec F S1x1x128 .f32) : Vec F S1x1x128 .f32 :=
  k0_pay2 (if first0 i = 1#1 then k0_pay1 (F := F) else X) row

set_option maxHeartbeats 1000000 in
/-- One run of the body: the accumulator takes the step; the output takes the scaled sum at a group's last sample and is left as found otherwise. -/
theorem body0 (c : Dev nD) (E : Set ℕ) (i : grid0.Coords)
    (arg2 : Memref sig .tc .smem S1024 .i32) (harg2 : arg2.IsWhole)
    (arg3 : Memref sig .tc .vmem S1x1x128 .f32) (harg3 : arg3.IsWhole)
    (arg4 : Memref sig .tc .vmem S1x1x128 .f32) (harg4 : arg4.IsWhole)
    (arg5 : Memref sig .tc .vmem S1x1x128 .f32) (harg5 : arg5.IsWhole)
    (row X o accN oN : Vec F S1x1x128 .f32) (hN : step0 i X row = accN)
    (hO : (if k0_cond2 i = 1#1 then k0_pay3 accN else o) = oN) (K : PUnit → sProp 𝕄) :
    iprop(owns (c : Thread nD τ) arg3 fullShare row ∗ owns (c : Thread nD τ) arg5 fullShare X ∗ owns (c : Thread nD τ) arg4 fullShare o
        ∗ (iprop(owns (c : Thread nD τ) arg3 fullShare row ∗ owns (c : Thread nD τ) arg5 fullShare accN
            ∗ owns (c : Thread nD τ) arg4 fullShare oN) -∗ K ⟨⟩))
      ⊢ wp frame (wpE (defs₀ (F := F)) Variants.none c none) E (cc0_kernel i arg2 harg2 arg3 harg3 arg4 harg4 arg5 harg5) K := by
  subst hN; subst hO
  simp only [cc0_kernel_eq_skeleton]; unfold cc0_kernel_skel
  unfold owns step0
  iintro ⟨⟨%f0, %hf0, H0⟩, ⟨%f1, %hf1, H1⟩, ⟨%f2, %hf2, H2⟩, Hk⟩
  subst hf0; subst hf1; subst hf2
  by_cases h1 : first0 i = 1#1 <;> by_cases h2 : k0_cond2 i = 1#1
  all_goals
    simp only [h1, h2, if_true, if_false, ite_true, ite_false]
    sl_exec (disch := first | exact h1 | exact h2)
    sl_step
    iapply Hk
    isplitl [H0]
    · iexists f0; isplitr; · ipureintro; rfl
      iexact H0
    isplitl [H1]
    all_goals
      iexists _; isplitr; swap; · first | iexact H1 | iexact H2
      ipureintro
      first
        | rfl
        | (sl_unfold_words
           simp only [read_writes_rowBlk, readCov_rowBlk, View.readAt_eq_ld, ld_rowBlk])

section
variable (a : (pcfg0 (F := F)).Adm)
variable (A : (c : Dev nD) → (w : Fin (cfg0 a).W) → Buf (Elt F) (((cfg0 a).win w).arr.view.loc (c.tc : Thread nD τ)))

/-- One step from what the invariant holds is the running sum at the point. -/
theorem step0_acc (c : Dev nD) (t : Fin (cfg0 a).N) (X : Vec F S1x1x128 .f32)
    (hX : ∀ n (h : n < (cfg0 a).N), t.val = n + 1 → X = acc0 a A c n h) :
    step0 (grid0.coords t) X (row0 a A c t) = acc0 a A c t.val t.isLt := by
  obtain ⟨n, hn⟩ := t
  cases n with
  | zero => unfold step0 acc0; rw [if_pos ((first0_at ⟨0, hn⟩).mpr rfl)]
  | succ n => unfold step0; rw [hX n (Nat.lt_of_succ_lt hn) rfl]; rfl

set_option maxHeartbeats 1000000 in
/-- Every point's run of the body keeps the invariant. -/
theorem body_obligation0 (c : Dev nD) : BodyObligation (dat0 a A c) (defs₀ (F := F)) Variants.none () Set.univ := fun t => by
  rw [bigSep_W0, bigSep_W0]
  rw [show (dat0 a A c).owesAt () t.succ = (dat0 a A c).owesAt () t.castSucc from rfl, Phi0_castSucc, Phi0_succ]
  show _ ⊢ wp frame _ Set.univ (cc0_kernel (grid0.coords t) (Memref.whole main_v20) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (Memref.whole cc0_scratch0) (Memref.isWhole_whole _)) _
  have hf : k0_cond2 (grid0.coords t) ≠ 1#1 → ((pcfg0 (F := F)).win a 1).flush t = false := fun hl => by
    rw [← Bool.not_eq_true]; exact fun h => hl ((last0_at t).mpr (flush0_last a t h))
  by_cases hl : k0_cond2 (grid0.coords t) = 1#1
  all_goals
    have hi : idle0 1 (((pcfg0 (F := F)).gridAt a.1).coords t) = !decide (k0_cond2 (grid0.coords t) = 1#1) := by
      show (!(k0_cond2 (grid0.coords t) == 1#1)) = _
      first | (rw [hl]; rfl) | (rw [decide_eq_false hl, Bool.not_false, Bool.not_eq_true', beq_eq_false_iff_ne]; exact hl)
    first | rw [decide_eq_true hl, Bool.not_true] at hi | rw [decide_eq_false hl, Bool.not_false] at hi
    simp only [hi, after0_0, after0_1]
    iintro ⟨HΦ, Ho, ⟨%d0, H0⟩, ⟨%d1, H1⟩⟩
    rw [before0_0 a A c t d0]
    unfold Phi0
    icases HΦ with ⟨⟨%X, %hX, Hs⟩, Hrest, Hprng, Htbl⟩
    iapply (body0 c Set.univ (grid0.coords t) _ _ _ _ _ _ _ _ (row0 a A c t) X ((dat0 a A c).before 1 t d1)
      (acc0 a A c t.val t.isLt) _ (step0_acc a A c t X hX) (by first | exact if_pos hl | exact if_neg hl) _)
    iframe H0 Hs H1
    iintro ⟨H0, Hs, H1⟩
    iframe Ho H0 Hrest Hprng Htbl
    isplitl [Hs]
    · iexists _; isplitr; swap; · iexact Hs
      ipureintro; intro n h e
      obtain rfl : n = t.val := by omega
      rfl
    first
      | iexact H1
      | (split
         · iexists d1; iexact H1
         · rename_i hft; exact absurd (hft.symm.trans (hf hl)) (by decide))

end

/-- Entries below the feature table's height name rows inside it. -/
theorem ok0_of_inb (pf : pre0.Contents (Elt F)) (h : ∀ k, ((pf 0) k).toNat < 500000) : ok0 (F := F) pf := by
  intro i
  refine ⟨fun b => ?_, Or.inl rfl⟩
  match b with
  | ⟨0, _⟩ =>
    have hh : cc0_transform_0 k0_off1_inb numel1_S1 pf i ⟨0, by decide⟩ < 500000 := h _
    show (cc0_transform_0 k0_off1_inb numel1_S1 pf i ⟨0, _⟩ + 1) * 1 ≤ 500000
    omega
  | ⟨1, _⟩ => show (0 + 1) * 1 ≤ 1; decide
  | ⟨2, _⟩ => show (0 + 1) * 128 ≤ 128; decide
  | ⟨_ + 3, hb⟩ => exact absurd hb (by omega)

section Reg
variable (a : (p : Fin 14) → (pcfgs (F := F) p).Adm)
variable (pdats : (p : Fin 14) → (c : Dev nD) → Dat τ (Elt F) Unit ℕ (UR sig nD τ) ℕ (Pipeline.pin (pcfgs (F := F)) a p) c)
variable (A : (c : Dev nD) → (w : Fin (cfg0 (a 0)).W) → Buf (Elt F) (((cfg0 (a 0)).win w).arr.view.loc (c.tc : Thread nD τ)))
variable (Vin Vout : (c : Dev nD) → Valuation τ sig (Elt F))

set_option backward.isDefEq.respectTransparency.types false in
/-- The region as a step from the memory at Vin, which holds the table at the admissible contents, to the memory at Vout. -/
def reg0 (hpd : ∀ c, pdats 0 c = dat0 (a 0) A c)
    (hA : ∀ c w, A c w = Vin c (Pipeline.arrRef spec0 w))
    (hT : ∀ c, Vin c main_v20 = (a 0).1 0)
    (hF : ∀ c w, (dat0 (a 0) A c).arrAt w (cfg0 (a 0)).N = Vout c (Pipeline.arrRef spec0 w))
    (hrest : ∀ c (b : Ref sig .tc), b ∉ Finset.univ.image (Pipeline.arrRef spec0) → Vout c b = Vin c b) :
    Pipeline.RegionSeg (pcfgs (F := F)) a pdats () defs₀ Variants.none Lh lvh 0 :=
  seg (launch0 (F := F)) a pdats Vin Vout
    (fun c w => by rw [hpd c]; exact (dat0 (a 0) A c).share_full (fun _ => rfl) w)
    (fun c => funext fun (k : Fin 1) => by obtain rfl : k = 0 := Subsingleton.elim _ _; exact hT c)
    (fun c w => by rw [hpd c, A_eq0]; exact hA c w) (fun c w => by rw [hpd c]; exact hF c w) hrest
    (fun c _ => by rw [hpd c]; rfl) (fun c => by rw [hpd c]; rfl)
    (fun c => by rw [hpd c]; exact (body_obligation0 (a 0) A c).loose)
    (fun c => by
      rw [hpd c]
      show _ ⊢ Phi0 (a 0) A c 0
      unfold Phi0
      erw [scopedRest0_split]
      iintro ⟨Hreg, Htbl, ⟨%f, Hf⟩, Hbut⟩
      iframe Hbut Hreg
      isplitr [Htbl]; swap; · iexact Htbl
      iexists f; isplitr
      · ipureintro; intro n h e; exact absurd e (Nat.succ_ne_zero n).symm
      iapply (Entails.of_eq (owns_whole (c : Thread nD τ) cc0_scratch0 fullShare f).symm); iexact Hf)
    (fun c => by
      rw [Pipeline.ownSems0_none, hpd c]
      show Phi0 (a 0) A c (cfg0 (a 0)).N ⊢ _
      unfold Phi0
      erw [scopedRest0_split]
      iintro ⟨⟨%X, -, Hs⟩, Hbut, Hreg, Htbl⟩
      isplitl [Hreg Htbl]
      · isplitl [Hreg]; · iexact Hreg
        iexact Htbl
      isplitr; · iempintro
      isplitr [Hbut]; swap; · iexact Hbut
      iexists X; iapply (Entails.of_eq (owns_whole (c : Thread nD τ) cc0_scratch0 fullShare X)); iexact Hs)

end Reg

end Cert.KernelIdeal.Hand

end
-- ==== Proof.Gather1.lean ====
import proofs.«401580_j65068754534945_2_alg».proof.Proof.Base

/-! One gather-and-mean region: groups of feature rows named by a table, summed in an accumulator that restarts at a group's first sample and is scaled into the output at its last. -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The restart test of the body, read off the sample coordinate. -/
abbrev first1 (i : grid1.Coords) : BitVec 1 :=
  Scalar.cmpi .ne (Scalar.extui (Scalar.cmpi .eq (BitVec.ofNat 32 (i 1).val) 0#32)) 0#32

/-- Point t is sample t % 1 of group t / 1. -/
theorem coords1_0 (t : Fin grid1.N) : (grid1.coords t 0).val = t.val / 1 % 10240 := by
  show t.val / grid1.stride 0 % _ = _; rw [show grid1.stride 0 = 1 by decide]; rfl
theorem coords1_1 (t : Fin grid1.N) : (grid1.coords t 1).val = t.val % 1 := by
  show t.val / grid1.stride 1 % _ = _; rw [show grid1.stride 1 = 1 by decide, Nat.div_one]; rfl

theorem first1_at (t : Fin grid1.N) : first1 (grid1.coords t) = 1#1 ↔ t.val % 1 = 0 := by
  rw [← coords1_1]; unfold first1; generalize grid1.coords t 1 = s; revert s; decide
theorem last1_at (t : Fin grid1.N) : k1_cond2 (grid1.coords t) = 1#1 ↔ t.val % 1 = 0 := by
  rw [← coords1_1]; unfold k1_cond2; generalize grid1.coords t 1 = s; revert s; decide

section
variable (a : (pcfg1 (F := F)).Adm)
variable (A : (c : Dev nD) → (w : Fin (cfg1 a).W) → Buf (Elt F) (((cfg1 a).win w).arr.view.loc (c.tc : Thread nD τ)))

/-- A point whose successor lies in another group, or is past the end, is a group's last sample. -/
theorem flush1_last (t : Fin (cfg1 a).N) (h : ((cfg1 a).win 1).flush t = true) : t.val % 1 = 0 := by
  unfold Pipeline.Window.flush at h
  simp only [Bool.and_eq_true, Bool.or_eq_true, decide_eq_true_eq] at h
  obtain ⟨-, h | ⟨h', hne⟩⟩ := h
  · have := h.trans N_1; omega
  · by_contra hc
    apply hne
    show cc1_transform_1 (grid1.coords ⟨t.val + 1, h'⟩) = cc1_transform_1 (grid1.coords t)
    refine hreads1_1 _ _ fun b hb => ?_
    obtain rfl : b = 0 := by revert hb; revert b; decide
    apply Fin.ext
    rw [coords1_0, coords1_0]
    show (t.val + 1) / 1 % 10240 = t.val / 1 % 10240
    omega

/-- The feature row the table names at point t. -/
def row1 (c : Dev nD) (t : Fin (cfg1 a).N) : Vec F S1x1x128 .f32 :=
  (((cfg1 a).win 0).blk t).view.read (Elt F) (A c 0)

/-- The running sum after point n, restarted from zero at a group's first sample. -/
def acc1 (c : Dev nD) : (n : ℕ) → n < (cfg1 a).N → Vec F S1x1x128 .f32
  | 0, h => k1_pay2 (k1_pay1 (F := F)) (row1 a A c ⟨0, h⟩)
  | n + 1, h => k1_pay2 (if first1 (grid1.coords ⟨n + 1, h⟩) = 1#1 then k1_pay1 (F := F) else acc1 c n (Nat.lt_of_succ_lt h))
      (row1 a A c ⟨n + 1, h⟩)

/-- Before position k the accumulator holds the running sum of the point before (anything before the first point). -/
def Phi1 (c : Dev nD) (k : ℕ) : sProp 𝕄 :=
  iprop((∃ X : Vec F S1x1x128 .f32, ⌜∀ n (h : n < (cfg1 a).N), k = n + 1 → X = acc1 a A c n h⌝
      ∗ owns (c : Thread nD τ) (Memref.whole cc1_scratch0) fullShare X)
    ∗ Pipeline.scopedRestBut (Ix := Unit) (Name := ℕ) (U := UR sig nD τ) (Lvl := ℕ) (Val := Elt F) spec1 c [cc1_scratch0]
    ∗ (∃ r, prngReg c r)
    ∗ Pipeline.prefHeld (Ix := Unit) (Name := ℕ) (U := UR sig nD τ) (Lvl := ℕ) pre1 c (fun _ => fullShare) a.1)

/-- What each point leaves: the named row on the input side, the group's scaled sum on the output side. -/
def dat1 (c : Dev nD) : Dat τ (Elt F) Unit ℕ (UR sig nD τ) ℕ (cfg1 a) c where
  A w := A c w
  after w t := match w with
    | ⟨0, _⟩ => row1 a A c t
    | ⟨1, _⟩ => k1_pay3 (acc1 a A c t.val t.isLt)
  Φ t := Phi1 a A c t.val
  q _ := fullShare
  owed _ := 0

theorem A_eq1 (c : Dev nD) (w : Fin (cfg1 a).W) : (dat1 a A c).A w = A c w := rfl
theorem after1_0 (c : Dev nD) (t : Fin (cfg1 a).N) : (dat1 a A c).after 0 t = row1 a A c t := rfl
theorem after1_1 (c : Dev nD) (t : Fin (cfg1 a).N) : (dat1 a A c).after 1 t = k1_pay3 (acc1 a A c t.val t.isLt) := rfl

theorem Phi1_castSucc (c : Dev nD) (t : Fin (cfg1 a).N) : (dat1 a A c).Φ t.castSucc = Phi1 a A c t.val := by
  dsimp only [dat1]; simp only [Fin.coe_castSucc]
theorem Phi1_succ (c : Dev nD) (t : Fin (cfg1 a).N) : (dat1 a A c).Φ t.succ = Phi1 a A c (t.val + 1) := rfl

theorem before1_0 (c : Dev nD) (t : Fin (cfg1 a).N) (d) : (dat1 a A c).before 0 t d = row1 a A c t :=
  ((dat1 a A c).before_in_eq_fetched 0 rfl (fun _ => rfl) (fun _ _ _ => rfl) (fun t => by rw [after1_0]; rfl) t d).trans rfl

end

/-- What a point leaves in the accumulator: the row added to zero at a first sample, to what was there otherwise. -/
def step1 (i : grid1.Coords) (X row : Vec F S1x1x128 .f32) : Vec F S1x1x128 .f32 :=
  k1_pay2 (if first1 i = 1#1 then k1_pay1 (F := F) else X) row

set_option maxHeartbeats 1000000 in
/-- One run of the body: the accumulator takes the step; the output takes the scaled sum at a group's last sample and is left as found otherwise. -/
theorem body1 (c : Dev nD) (E : Set ℕ) (i : grid1.Coords)
    (arg2 : Memref sig .tc .smem S10240 .i32) (harg2 : arg2.IsWhole)
    (arg3 : Memref sig .tc .vmem S1x1x128 .f32) (harg3 : arg3.IsWhole)
    (arg4 : Memref sig .tc .vmem S1x1x128 .f32) (harg4 : arg4.IsWhole)
    (arg5 : Memref sig .tc .vmem S1x1x128 .f32) (harg5 : arg5.IsWhole)
    (row X o accN oN : Vec F S1x1x128 .f32) (hN : step1 i X row = accN)
    (hO : (if k1_cond2 i = 1#1 then k1_pay3 accN else o) = oN) (K : PUnit → sProp 𝕄) :
    iprop(owns (c : Thread nD τ) arg3 fullShare row ∗ owns (c : Thread nD τ) arg5 fullShare X ∗ owns (c : Thread nD τ) arg4 fullShare o
        ∗ (iprop(owns (c : Thread nD τ) arg3 fullShare row ∗ owns (c : Thread nD τ) arg5 fullShare accN
            ∗ owns (c : Thread nD τ) arg4 fullShare oN) -∗ K ⟨⟩))
      ⊢ wp frame (wpE (defs₀ (F := F)) Variants.none c none) E (cc1_kernel i arg2 harg2 arg3 harg3 arg4 harg4 arg5 harg5) K := by
  subst hN; subst hO
  simp only [cc1_kernel_eq_skeleton]; unfold cc1_kernel_skel
  unfold owns step1
  iintro ⟨⟨%f0, %hf0, H0⟩, ⟨%f1, %hf1, H1⟩, ⟨%f2, %hf2, H2⟩, Hk⟩
  subst hf0; subst hf1; subst hf2
  by_cases h1 : first1 i = 1#1 <;> by_cases h2 : k1_cond2 i = 1#1
  all_goals
    simp only [h1, h2, if_true, if_false, ite_true, ite_false]
    sl_exec (disch := first | exact h1 | exact h2)
    sl_step
    iapply Hk
    isplitl [H0]
    · iexists f0; isplitr; · ipureintro; rfl
      iexact H0
    isplitl [H1]
    all_goals
      iexists _; isplitr; swap; · first | iexact H1 | iexact H2
      ipureintro
      first
        | rfl
        | (sl_unfold_words
           simp only [read_writes_rowBlk, readCov_rowBlk, View.readAt_eq_ld, ld_rowBlk])

section
variable (a : (pcfg1 (F := F)).Adm)
variable (A : (c : Dev nD) → (w : Fin (cfg1 a).W) → Buf (Elt F) (((cfg1 a).win w).arr.view.loc (c.tc : Thread nD τ)))

/-- One step from what the invariant holds is the running sum at the point. -/
theorem step1_acc (c : Dev nD) (t : Fin (cfg1 a).N) (X : Vec F S1x1x128 .f32)
    (hX : ∀ n (h : n < (cfg1 a).N), t.val = n + 1 → X = acc1 a A c n h) :
    step1 (grid1.coords t) X (row1 a A c t) = acc1 a A c t.val t.isLt := by
  obtain ⟨n, hn⟩ := t
  cases n with
  | zero => unfold step1 acc1; rw [if_pos ((first1_at ⟨0, hn⟩).mpr rfl)]
  | succ n => unfold step1; rw [hX n (Nat.lt_of_succ_lt hn) rfl]; rfl

set_option maxHeartbeats 1000000 in
/-- Every point's run of the body keeps the invariant. -/
theorem body_obligation1 (c : Dev nD) : BodyObligation (dat1 a A c) (defs₀ (F := F)) Variants.none () Set.univ := fun t => by
  rw [bigSep_W1, bigSep_W1]
  rw [show (dat1 a A c).owesAt () t.succ = (dat1 a A c).owesAt () t.castSucc from rfl, Phi1_castSucc, Phi1_succ]
  show _ ⊢ wp frame _ Set.univ (cc1_kernel (grid1.coords t) (Memref.whole main_v25) (Memref.isWhole_whole _)
    (spec1_0.stage ((cfg1 a).slots t 0)) (hstage1_0 (((cfg1 a).slots t 0).cast nbuf1_0))
    (spec1_1.stage ((cfg1 a).slots t 1)) (hstage1_1 (((cfg1 a).slots t 1).cast nbuf1_1))
    (Memref.whole cc1_scratch0) (Memref.isWhole_whole _)) _
  have hf : k1_cond2 (grid1.coords t) ≠ 1#1 → ((pcfg1 (F := F)).win a 1).flush t = false := fun hl => by
    rw [← Bool.not_eq_true]; exact fun h => hl ((last1_at t).mpr (flush1_last a t h))
  by_cases hl : k1_cond2 (grid1.coords t) = 1#1
  all_goals
    have hi : idle1 1 (((pcfg1 (F := F)).gridAt a.1).coords t) = !decide (k1_cond2 (grid1.coords t) = 1#1) := by
      show (!(k1_cond2 (grid1.coords t) == 1#1)) = _
      first | (rw [hl]; rfl) | (rw [decide_eq_false hl, Bool.not_false, Bool.not_eq_true', beq_eq_false_iff_ne]; exact hl)
    first | rw [decide_eq_true hl, Bool.not_true] at hi | rw [decide_eq_false hl, Bool.not_false] at hi
    simp only [hi, after1_0, after1_1]
    iintro ⟨HΦ, Ho, ⟨%d0, H0⟩, ⟨%d1, H1⟩⟩
    rw [before1_0 a A c t d0]
    unfold Phi1
    icases HΦ with ⟨⟨%X, %hX, Hs⟩, Hrest, Hprng, Htbl⟩
    iapply (body1 c Set.univ (grid1.coords t) _ _ _ _ _ _ _ _ (row1 a A c t) X ((dat1 a A c).before 1 t d1)
      (acc1 a A c t.val t.isLt) _ (step1_acc a A c t X hX) (by first | exact if_pos hl | exact if_neg hl) _)
    iframe H0 Hs H1
    iintro ⟨H0, Hs, H1⟩
    iframe Ho H0 Hrest Hprng Htbl
    isplitl [Hs]
    · iexists _; isplitr; swap; · iexact Hs
      ipureintro; intro n h e
      obtain rfl : n = t.val := by omega
      rfl
    first
      | iexact H1
      | (split
         · iexists d1; iexact H1
         · rename_i hft; exact absurd (hft.symm.trans (hf hl)) (by decide))

end

/-- Entries below the feature table's height name rows inside it. -/
theorem ok1_of_inb (pf : pre1.Contents (Elt F)) (h : ∀ k, ((pf 0) k).toNat < 500000) : ok1 (F := F) pf := by
  intro i
  refine ⟨fun b => ?_, Or.inl rfl⟩
  match b with
  | ⟨0, _⟩ =>
    have hh : cc1_transform_0 k1_off1_inb numel1_S1 pf i ⟨0, by decide⟩ < 500000 := h _
    show (cc1_transform_0 k1_off1_inb numel1_S1 pf i ⟨0, _⟩ + 1) * 1 ≤ 500000
    omega
  | ⟨1, _⟩ => show (0 + 1) * 1 ≤ 1; decide
  | ⟨2, _⟩ => show (0 + 1) * 128 ≤ 128; decide
  | ⟨_ + 3, hb⟩ => exact absurd hb (by omega)

section Reg
variable (a : (p : Fin 14) → (pcfgs (F := F) p).Adm)
variable (pdats : (p : Fin 14) → (c : Dev nD) → Dat τ (Elt F) Unit ℕ (UR sig nD τ) ℕ (Pipeline.pin (pcfgs (F := F)) a p) c)
variable (A : (c : Dev nD) → (w : Fin (cfg1 (a 1)).W) → Buf (Elt F) (((cfg1 (a 1)).win w).arr.view.loc (c.tc : Thread nD τ)))
variable (Vin Vout : (c : Dev nD) → Valuation τ sig (Elt F))

set_option backward.isDefEq.respectTransparency.types false in
/-- The region as a step from the memory at Vin, which holds the table at the admissible contents, to the memory at Vout. -/
def reg1 (hpd : ∀ c, pdats 1 c = dat1 (a 1) A c)
    (hA : ∀ c w, A c w = Vin c (Pipeline.arrRef spec1 w))
    (hT : ∀ c, Vin c main_v25 = (a 1).1 0)
    (hF : ∀ c w, (dat1 (a 1) A c).arrAt w (cfg1 (a 1)).N = Vout c (Pipeline.arrRef spec1 w))
    (hrest : ∀ c (b : Ref sig .tc), b ∉ Finset.univ.image (Pipeline.arrRef spec1) → Vout c b = Vin c b) :
    Pipeline.RegionSeg (pcfgs (F := F)) a pdats () defs₀ Variants.none Lh lvh 1 :=
  seg (launch1 (F := F)) a pdats Vin Vout
    (fun c w => by rw [hpd c]; exact (dat1 (a 1) A c).share_full (fun _ => rfl) w)
    (fun c => funext fun (k : Fin 1) => by obtain rfl : k = 0 := Subsingleton.elim _ _; exact hT c)
    (fun c w => by rw [hpd c, A_eq1]; exact hA c w) (fun c w => by rw [hpd c]; exact hF c w) hrest
    (fun c _ => by rw [hpd c]; rfl) (fun c => by rw [hpd c]; rfl)
    (fun c => by rw [hpd c]; exact (body_obligation1 (a 1) A c).loose)
    (fun c => by
      rw [hpd c]
      show _ ⊢ Phi1 (a 1) A c 0
      unfold Phi1
      erw [scopedRest1_split]
      iintro ⟨Hreg, Htbl, ⟨%f, Hf⟩, Hbut⟩
      iframe Hbut Hreg
      isplitr [Htbl]; swap; · iexact Htbl
      iexists f; isplitr
      · ipureintro; intro n h e; exact absurd e (Nat.succ_ne_zero n).symm
      iapply (Entails.of_eq (owns_whole (c : Thread nD τ) cc1_scratch0 fullShare f).symm); iexact Hf)
    (fun c => by
      rw [Pipeline.ownSems0_none, hpd c]
      show Phi1 (a 1) A c (cfg1 (a 1)).N ⊢ _
      unfold Phi1
      erw [scopedRest1_split]
      iintro ⟨⟨%X, -, Hs⟩, Hbut, Hreg, Htbl⟩
      isplitl [Hreg Htbl]
      · isplitl [Hreg]; · iexact Hreg
        iexact Htbl
      isplitr; · iempintro
      isplitr [Hbut]; swap; · iexact Hbut
      iexists X; iapply (Entails.of_eq (owns_whole (c : Thread nD τ) cc1_scratch0 fullShare X)); iexact Hs)

end Reg

end Cert.KernelIdeal.Hand

end
-- ==== Proof.Gather2.lean ====
import proofs.«401580_j65068754534945_2_alg».proof.Proof.Base

/-! One gather-and-mean region: groups of feature rows named by a table, summed in an accumulator that restarts at a group's first sample and is scaled into the output at its last. -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The restart test of the body, read off the sample coordinate. -/
abbrev first2 (i : grid2.Coords) : BitVec 1 :=
  Scalar.cmpi .ne (Scalar.extui (Scalar.cmpi .eq (BitVec.ofNat 32 (i 1).val) 0#32)) 0#32

/-- Point t is sample t % 10 of group t / 10. -/
theorem coords2_0 (t : Fin grid2.N) : (grid2.coords t 0).val = t.val / 10 % 1024 := by
  show t.val / grid2.stride 0 % _ = _; rw [show grid2.stride 0 = 10 by decide]; rfl
theorem coords2_1 (t : Fin grid2.N) : (grid2.coords t 1).val = t.val % 10 := by
  show t.val / grid2.stride 1 % _ = _; rw [show grid2.stride 1 = 1 by decide, Nat.div_one]; rfl

theorem first2_at (t : Fin grid2.N) : first2 (grid2.coords t) = 1#1 ↔ t.val % 10 = 0 := by
  rw [← coords2_1]; unfold first2; generalize grid2.coords t 1 = s; revert s; decide
theorem last2_at (t : Fin grid2.N) : k2_cond2 (grid2.coords t) = 1#1 ↔ t.val % 10 = 9 := by
  rw [← coords2_1]; unfold k2_cond2; generalize grid2.coords t 1 = s; revert s; decide

section
variable (a : (pcfg2 (F := F)).Adm)
variable (A : (c : Dev nD) → (w : Fin (cfg2 a).W) → Buf (Elt F) (((cfg2 a).win w).arr.view.loc (c.tc : Thread nD τ)))

/-- A point whose successor lies in another group, or is past the end, is a group's last sample. -/
theorem flush2_last (t : Fin (cfg2 a).N) (h : ((cfg2 a).win 1).flush t = true) : t.val % 10 = 9 := by
  unfold Pipeline.Window.flush at h
  simp only [Bool.and_eq_true, Bool.or_eq_true, decide_eq_true_eq] at h
  obtain ⟨-, h | ⟨h', hne⟩⟩ := h
  · have := h.trans N_2; omega
  · by_contra hc
    apply hne
    show cc2_transform_1 (grid2.coords ⟨t.val + 1, h'⟩) = cc2_transform_1 (grid2.coords t)
    refine hreads2_1 _ _ fun b hb => ?_
    obtain rfl : b = 0 := by revert hb; revert b; decide
    apply Fin.ext
    rw [coords2_0, coords2_0]
    show (t.val + 1) / 10 % 1024 = t.val / 10 % 1024
    omega

/-- The feature row the table names at point t. -/
def row2 (c : Dev nD) (t : Fin (cfg2 a).N) : Vec F S1x1x128 .f32 :=
  (((cfg2 a).win 0).blk t).view.read (Elt F) (A c 0)

/-- The running sum after point n, restarted from zero at a group's first sample. -/
def acc2 (c : Dev nD) : (n : ℕ) → n < (cfg2 a).N → Vec F S1x1x128 .f32
  | 0, h => k2_pay2 (k2_pay1 (F := F)) (row2 a A c ⟨0, h⟩)
  | n + 1, h => k2_pay2 (if first2 (grid2.coords ⟨n + 1, h⟩) = 1#1 then k2_pay1 (F := F) else acc2 c n (Nat.lt_of_succ_lt h))
      (row2 a A c ⟨n + 1, h⟩)

/-- Before position k the accumulator holds the running sum of the point before (anything before the first point). -/
def Phi2 (c : Dev nD) (k : ℕ) : sProp 𝕄 :=
  iprop((∃ X : Vec F S1x1x128 .f32, ⌜∀ n (h : n < (cfg2 a).N), k = n + 1 → X = acc2 a A c n h⌝
      ∗ owns (c : Thread nD τ) (Memref.whole cc2_scratch0) fullShare X)
    ∗ Pipeline.scopedRestBut (Ix := Unit) (Name := ℕ) (U := UR sig nD τ) (Lvl := ℕ) (Val := Elt F) spec2 c [cc2_scratch0]
    ∗ (∃ r, prngReg c r)
    ∗ Pipeline.prefHeld (Ix := Unit) (Name := ℕ) (U := UR sig nD τ) (Lvl := ℕ) pre2 c (fun _ => fullShare) a.1)

/-- What each point leaves: the named row on the input side, the group's scaled sum on the output side. -/
def dat2 (c : Dev nD) : Dat τ (Elt F) Unit ℕ (UR sig nD τ) ℕ (cfg2 a) c where
  A w := A c w
  after w t := match w with
    | ⟨0, _⟩ => row2 a A c t
    | ⟨1, _⟩ => k2_pay3 (acc2 a A c t.val t.isLt)
  Φ t := Phi2 a A c t.val
  q _ := fullShare
  owed _ := 0

theorem A_eq2 (c : Dev nD) (w : Fin (cfg2 a).W) : (dat2 a A c).A w = A c w := rfl
theorem after2_0 (c : Dev nD) (t : Fin (cfg2 a).N) : (dat2 a A c).after 0 t = row2 a A c t := rfl
theorem after2_1 (c : Dev nD) (t : Fin (cfg2 a).N) : (dat2 a A c).after 1 t = k2_pay3 (acc2 a A c t.val t.isLt) := rfl

theorem Phi2_castSucc (c : Dev nD) (t : Fin (cfg2 a).N) : (dat2 a A c).Φ t.castSucc = Phi2 a A c t.val := by
  dsimp only [dat2]; simp only [Fin.coe_castSucc]
theorem Phi2_succ (c : Dev nD) (t : Fin (cfg2 a).N) : (dat2 a A c).Φ t.succ = Phi2 a A c (t.val + 1) := rfl

theorem before2_0 (c : Dev nD) (t : Fin (cfg2 a).N) (d) : (dat2 a A c).before 0 t d = row2 a A c t :=
  ((dat2 a A c).before_in_eq_fetched 0 rfl (fun _ => rfl) (fun _ _ _ => rfl) (fun t => by rw [after2_0]; rfl) t d).trans rfl

end

/-- What a point leaves in the accumulator: the row added to zero at a first sample, to what was there otherwise. -/
def step2 (i : grid2.Coords) (X row : Vec F S1x1x128 .f32) : Vec F S1x1x128 .f32 :=
  k2_pay2 (if first2 i = 1#1 then k2_pay1 (F := F) else X) row

set_option maxHeartbeats 1000000 in
/-- One run of the body: the accumulator takes the step; the output takes the scaled sum at a group's last sample and is left as found otherwise. -/
theorem body2 (c : Dev nD) (E : Set ℕ) (i : grid2.Coords)
    (arg2 : Memref sig .tc .smem S10240 .i32) (harg2 : arg2.IsWhole)
    (arg3 : Memref sig .tc .vmem S1x1x128 .f32) (harg3 : arg3.IsWhole)
    (arg4 : Memref sig .tc .vmem S1x1x128 .f32) (harg4 : arg4.IsWhole)
    (arg5 : Memref sig .tc .vmem S1x1x128 .f32) (harg5 : arg5.IsWhole)
    (row X o accN oN : Vec F S1x1x128 .f32) (hN : step2 i X row = accN)
    (hO : (if k2_cond2 i = 1#1 then k2_pay3 accN else o) = oN) (K : PUnit → sProp 𝕄) :
    iprop(owns (c : Thread nD τ) arg3 fullShare row ∗ owns (c : Thread nD τ) arg5 fullShare X ∗ owns (c : Thread nD τ) arg4 fullShare o
        ∗ (iprop(owns (c : Thread nD τ) arg3 fullShare row ∗ owns (c : Thread nD τ) arg5 fullShare accN
            ∗ owns (c : Thread nD τ) arg4 fullShare oN) -∗ K ⟨⟩))
      ⊢ wp frame (wpE (defs₀ (F := F)) Variants.none c none) E (cc2_kernel i arg2 harg2 arg3 harg3 arg4 harg4 arg5 harg5) K := by
  subst hN; subst hO
  simp only [cc2_kernel_eq_skeleton]; unfold cc2_kernel_skel
  unfold owns step2
  iintro ⟨⟨%f0, %hf0, H0⟩, ⟨%f1, %hf1, H1⟩, ⟨%f2, %hf2, H2⟩, Hk⟩
  subst hf0; subst hf1; subst hf2
  by_cases h1 : first2 i = 1#1 <;> by_cases h2 : k2_cond2 i = 1#1
  all_goals
    simp only [h1, h2, if_true, if_false, ite_true, ite_false]
    sl_exec (disch := first | exact h1 | exact h2)
    sl_step
    iapply Hk
    isplitl [H0]
    · iexists f0; isplitr; · ipureintro; rfl
      iexact H0
    isplitl [H1]
    all_goals
      iexists _; isplitr; swap; · first | iexact H1 | iexact H2
      ipureintro
      first
        | rfl
        | (sl_unfold_words
           simp only [read_writes_rowBlk, readCov_rowBlk, View.readAt_eq_ld, ld_rowBlk])

section
variable (a : (pcfg2 (F := F)).Adm)
variable (A : (c : Dev nD) → (w : Fin (cfg2 a).W) → Buf (Elt F) (((cfg2 a).win w).arr.view.loc (c.tc : Thread nD τ)))

/-- One step from what the invariant holds is the running sum at the point. -/
theorem step2_acc (c : Dev nD) (t : Fin (cfg2 a).N) (X : Vec F S1x1x128 .f32)
    (hX : ∀ n (h : n < (cfg2 a).N), t.val = n + 1 → X = acc2 a A c n h) :
    step2 (grid2.coords t) X (row2 a A c t) = acc2 a A c t.val t.isLt := by
  obtain ⟨n, hn⟩ := t
  cases n with
  | zero => unfold step2 acc2; rw [if_pos ((first2_at ⟨0, hn⟩).mpr rfl)]
  | succ n => unfold step2; rw [hX n (Nat.lt_of_succ_lt hn) rfl]; rfl

set_option maxHeartbeats 1000000 in
/-- Every point's run of the body keeps the invariant. -/
theorem body_obligation2 (c : Dev nD) : BodyObligation (dat2 a A c) (defs₀ (F := F)) Variants.none () Set.univ := fun t => by
  rw [bigSep_W2, bigSep_W2]
  rw [show (dat2 a A c).owesAt () t.succ = (dat2 a A c).owesAt () t.castSucc from rfl, Phi2_castSucc, Phi2_succ]
  show _ ⊢ wp frame _ Set.univ (cc2_kernel (grid2.coords t) (Memref.whole main_v30) (Memref.isWhole_whole _)
    (spec2_0.stage ((cfg2 a).slots t 0)) (hstage2_0 (((cfg2 a).slots t 0).cast nbuf2_0))
    (spec2_1.stage ((cfg2 a).slots t 1)) (hstage2_1 (((cfg2 a).slots t 1).cast nbuf2_1))
    (Memref.whole cc2_scratch0) (Memref.isWhole_whole _)) _
  have hf : k2_cond2 (grid2.coords t) ≠ 1#1 → ((pcfg2 (F := F)).win a 1).flush t = false := fun hl => by
    rw [← Bool.not_eq_true]; exact fun h => hl ((last2_at t).mpr (flush2_last a t h))
  by_cases hl : k2_cond2 (grid2.coords t) = 1#1
  all_goals
    have hi : idle2 1 (((pcfg2 (F := F)).gridAt a.1).coords t) = !decide (k2_cond2 (grid2.coords t) = 1#1) := by
      show (!(k2_cond2 (grid2.coords t) == 1#1)) = _
      first | (rw [hl]; rfl) | (rw [decide_eq_false hl, Bool.not_false, Bool.not_eq_true', beq_eq_false_iff_ne]; exact hl)
    first | rw [decide_eq_true hl, Bool.not_true] at hi | rw [decide_eq_false hl, Bool.not_false] at hi
    simp only [hi, after2_0, after2_1]
    iintro ⟨HΦ, Ho, ⟨%d0, H0⟩, ⟨%d1, H1⟩⟩
    rw [before2_0 a A c t d0]
    unfold Phi2
    icases HΦ with ⟨⟨%X, %hX, Hs⟩, Hrest, Hprng, Htbl⟩
    iapply (body2 c Set.univ (grid2.coords t) _ _ _ _ _ _ _ _ (row2 a A c t) X ((dat2 a A c).before 1 t d1)
      (acc2 a A c t.val t.isLt) _ (step2_acc a A c t X hX) (by first | exact if_pos hl | exact if_neg hl) _)
    iframe H0 Hs H1
    iintro ⟨H0, Hs, H1⟩
    iframe Ho H0 Hrest Hprng Htbl
    isplitl [Hs]
    · iexists _; isplitr; swap; · iexact Hs
      ipureintro; intro n h e
      obtain rfl : n = t.val := by omega
      rfl
    first
      | iexact H1
      | (split
         · iexists d1; iexact H1
         · rename_i hft; exact absurd (hft.symm.trans (hf hl)) (by decide))

end

/-- Entries below the feature table's height name rows inside it. -/
theorem ok2_of_inb (pf : pre2.Contents (Elt F)) (h : ∀ k, ((pf 0) k).toNat < 500000) : ok2 (F := F) pf := by
  intro i
  refine ⟨fun b => ?_, Or.inl rfl⟩
  match b with
  | ⟨0, _⟩ =>
    have hh : cc2_transform_0 k2_off1_inb numel1_S1 pf i ⟨0, by decide⟩ < 500000 := h _
    show (cc2_transform_0 k2_off1_inb numel1_S1 pf i ⟨0, _⟩ + 1) * 1 ≤ 500000
    omega
  | ⟨1, _⟩ => show (0 + 1) * 1 ≤ 1; decide
  | ⟨2, _⟩ => show (0 + 1) * 128 ≤ 128; decide
  | ⟨_ + 3, hb⟩ => exact absurd hb (by omega)

section Reg
variable (a : (p : Fin 14) → (pcfgs (F := F) p).Adm)
variable (pdats : (p : Fin 14) → (c : Dev nD) → Dat τ (Elt F) Unit ℕ (UR sig nD τ) ℕ (Pipeline.pin (pcfgs (F := F)) a p) c)
variable (A : (c : Dev nD) → (w : Fin (cfg2 (a 2)).W) → Buf (Elt F) (((cfg2 (a 2)).win w).arr.view.loc (c.tc : Thread nD τ)))
variable (Vin Vout : (c : Dev nD) → Valuation τ sig (Elt F))

set_option backward.isDefEq.respectTransparency.types false in
/-- The region as a step from the memory at Vin, which holds the table at the admissible contents, to the memory at Vout. -/
def reg2 (hpd : ∀ c, pdats 2 c = dat2 (a 2) A c)
    (hA : ∀ c w, A c w = Vin c (Pipeline.arrRef spec2 w))
    (hT : ∀ c, Vin c main_v30 = (a 2).1 0)
    (hF : ∀ c w, (dat2 (a 2) A c).arrAt w (cfg2 (a 2)).N = Vout c (Pipeline.arrRef spec2 w))
    (hrest : ∀ c (b : Ref sig .tc), b ∉ Finset.univ.image (Pipeline.arrRef spec2) → Vout c b = Vin c b) :
    Pipeline.RegionSeg (pcfgs (F := F)) a pdats () defs₀ Variants.none Lh lvh 2 :=
  seg (launch2 (F := F)) a pdats Vin Vout
    (fun c w => by rw [hpd c]; exact (dat2 (a 2) A c).share_full (fun _ => rfl) w)
    (fun c => funext fun (k : Fin 1) => by obtain rfl : k = 0 := Subsingleton.elim _ _; exact hT c)
    (fun c w => by rw [hpd c, A_eq2]; exact hA c w) (fun c w => by rw [hpd c]; exact hF c w) hrest
    (fun c _ => by rw [hpd c]; rfl) (fun c => by rw [hpd c]; rfl)
    (fun c => by rw [hpd c]; exact (body_obligation2 (a 2) A c).loose)
    (fun c => by
      rw [hpd c]
      show _ ⊢ Phi2 (a 2) A c 0
      unfold Phi2
      erw [scopedRest2_split]
      iintro ⟨Hreg, Htbl, ⟨%f, Hf⟩, Hbut⟩
      iframe Hbut Hreg
      isplitr [Htbl]; swap; · iexact Htbl
      iexists f; isplitr
      · ipureintro; intro n h e; exact absurd e (Nat.succ_ne_zero n).symm
      iapply (Entails.of_eq (owns_whole (c : Thread nD τ) cc2_scratch0 fullShare f).symm); iexact Hf)
    (fun c => by
      rw [Pipeline.ownSems0_none, hpd c]
      show Phi2 (a 2) A c (cfg2 (a 2)).N ⊢ _
      unfold Phi2
      erw [scopedRest2_split]
      iintro ⟨⟨%X, -, Hs⟩, Hbut, Hreg, Htbl⟩
      isplitl [Hreg Htbl]
      · isplitl [Hreg]; · iexact Hreg
        iexact Htbl
      isplitr; · iempintro
      isplitr [Hbut]; swap; · iexact Hbut
      iexists X; iapply (Entails.of_eq (owns_whole (c : Thread nD τ) cc2_scratch0 fullShare X)); iexact Hs)

end Reg

end Cert.KernelIdeal.Hand

end
-- ==== Proof.Gather3.lean ====
import proofs.«401580_j65068754534945_2_alg».proof.Proof.Base

/-! One gather-and-mean region: groups of feature rows named by a table, summed in an accumulator that restarts at a group's first sample and is scaled into the output at its last. -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The restart test of the body, read off the sample coordinate. -/
abbrev first3 (i : grid3.Coords) : BitVec 1 :=
  Scalar.cmpi .ne (Scalar.extui (Scalar.cmpi .eq (BitVec.ofNat 32 (i 1).val) 0#32)) 0#32

/-- Point t is sample t % 25 of group t / 25. -/
theorem coords3_0 (t : Fin grid3.N) : (grid3.coords t 0).val = t.val / 25 % 1280 := by
  show t.val / grid3.stride 0 % _ = _; rw [show grid3.stride 0 = 25 by decide]; rfl
theorem coords3_1 (t : Fin grid3.N) : (grid3.coords t 1).val = t.val % 25 := by
  show t.val / grid3.stride 1 % _ = _; rw [show grid3.stride 1 = 1 by decide, Nat.div_one]; rfl

theorem first3_at (t : Fin grid3.N) : first3 (grid3.coords t) = 1#1 ↔ t.val % 25 = 0 := by
  rw [← coords3_1]; unfold first3; generalize grid3.coords t 1 = s; revert s; decide
theorem last3_at (t : Fin grid3.N) : k3_cond2 (grid3.coords t) = 1#1 ↔ t.val % 25 = 24 := by
  rw [← coords3_1]; unfold k3_cond2; generalize grid3.coords t 1 = s; revert s; decide

section
variable (a : (pcfg3 (F := F)).Adm)
variable (A : (c : Dev nD) → (w : Fin (cfg3 a).W) → Buf (Elt F) (((cfg3 a).win w).arr.view.loc (c.tc : Thread nD τ)))

/-- A point whose successor lies in another group, or is past the end, is a group's last sample. -/
theorem flush3_last (t : Fin (cfg3 a).N) (h : ((cfg3 a).win 1).flush t = true) : t.val % 25 = 24 := by
  unfold Pipeline.Window.flush at h
  simp only [Bool.and_eq_true, Bool.or_eq_true, decide_eq_true_eq] at h
  obtain ⟨-, h | ⟨h', hne⟩⟩ := h
  · have := h.trans N_3; omega
  · by_contra hc
    apply hne
    show cc3_transform_1 (grid3.coords ⟨t.val + 1, h'⟩) = cc3_transform_1 (grid3.coords t)
    refine hreads3_1 _ _ fun b hb => ?_
    obtain rfl : b = 0 := by revert hb; revert b; decide
    apply Fin.ext
    rw [coords3_0, coords3_0]
    show (t.val + 1) / 25 % 1280 = t.val / 25 % 1280
    omega

/-- The feature row the table names at point t. -/
def row3 (c : Dev nD) (t : Fin (cfg3 a).N) : Vec F S1x1x128 .f32 :=
  (((cfg3 a).win 0).blk t).view.read (Elt F) (A c 0)

/-- The running sum after point n, restarted from zero at a group's first sample. -/
def acc3 (c : Dev nD) : (n : ℕ) → n < (cfg3 a).N → Vec F S1x1x128 .f32
  | 0, h => k3_pay2 (k3_pay1 (F := F)) (row3 a A c ⟨0, h⟩)
  | n + 1, h => k3_pay2 (if first3 (grid3.coords ⟨n + 1, h⟩) = 1#1 then k3_pay1 (F := F) else acc3 c n (Nat.lt_of_succ_lt h))
      (row3 a A c ⟨n + 1, h⟩)

/-- Before position k the accumulator holds the running sum of the point before (anything before the first point). -/
def Phi3 (c : Dev nD) (k : ℕ) : sProp 𝕄 :=
  iprop((∃ X : Vec F S1x1x128 .f32, ⌜∀ n (h : n < (cfg3 a).N), k = n + 1 → X = acc3 a A c n h⌝
      ∗ owns (c : Thread nD τ) (Memref.whole cc3_scratch0) fullShare X)
    ∗ Pipeline.scopedRestBut (Ix := Unit) (Name := ℕ) (U := UR sig nD τ) (Lvl := ℕ) (Val := Elt F) spec3 c [cc3_scratch0]
    ∗ (∃ r, prngReg c r)
    ∗ Pipeline.prefHeld (Ix := Unit) (Name := ℕ) (U := UR sig nD τ) (Lvl := ℕ) pre3 c (fun _ => fullShare) a.1)

/-- What each point leaves: the named row on the input side, the group's scaled sum on the output side. -/
def dat3 (c : Dev nD) : Dat τ (Elt F) Unit ℕ (UR sig nD τ) ℕ (cfg3 a) c where
  A w := A c w
  after w t := match w with
    | ⟨0, _⟩ => row3 a A c t
    | ⟨1, _⟩ => k3_pay3 (acc3 a A c t.val t.isLt)
  Φ t := Phi3 a A c t.val
  q _ := fullShare
  owed _ := 0

theorem A_eq3 (c : Dev nD) (w : Fin (cfg3 a).W) : (dat3 a A c).A w = A c w := rfl
theorem after3_0 (c : Dev nD) (t : Fin (cfg3 a).N) : (dat3 a A c).after 0 t = row3 a A c t := rfl
theorem after3_1 (c : Dev nD) (t : Fin (cfg3 a).N) : (dat3 a A c).after 1 t = k3_pay3 (acc3 a A c t.val t.isLt) := rfl

theorem Phi3_castSucc (c : Dev nD) (t : Fin (cfg3 a).N) : (dat3 a A c).Φ t.castSucc = Phi3 a A c t.val := by
  dsimp only [dat3]; simp only [Fin.coe_castSucc]
theorem Phi3_succ (c : Dev nD) (t : Fin (cfg3 a).N) : (dat3 a A c).Φ t.succ = Phi3 a A c (t.val + 1) := rfl

theorem before3_0 (c : Dev nD) (t : Fin (cfg3 a).N) (d) : (dat3 a A c).before 0 t d = row3 a A c t :=
  ((dat3 a A c).before_in_eq_fetched 0 rfl (fun _ => rfl) (fun _ _ _ => rfl) (fun t => by rw [after3_0]; rfl) t d).trans rfl

end

/-- What a point leaves in the accumulator: the row added to zero at a first sample, to what was there otherwise. -/
def step3 (i : grid3.Coords) (X row : Vec F S1x1x128 .f32) : Vec F S1x1x128 .f32 :=
  k3_pay2 (if first3 i = 1#1 then k3_pay1 (F := F) else X) row

set_option maxHeartbeats 1000000 in
/-- One run of the body: the accumulator takes the step; the output takes the scaled sum at a group's last sample and is left as found otherwise. -/
theorem body3 (c : Dev nD) (E : Set ℕ) (i : grid3.Coords)
    (arg2 : Memref sig .tc .smem S32000 .i32) (harg2 : arg2.IsWhole)
    (arg3 : Memref sig .tc .vmem S1x1x128 .f32) (harg3 : arg3.IsWhole)
    (arg4 : Memref sig .tc .vmem S1x1x128 .f32) (harg4 : arg4.IsWhole)
    (arg5 : Memref sig .tc .vmem S1x1x128 .f32) (harg5 : arg5.IsWhole)
    (row X o accN oN : Vec F S1x1x128 .f32) (hN : step3 i X row = accN)
    (hO : (if k3_cond2 i = 1#1 then k3_pay3 accN else o) = oN) (K : PUnit → sProp 𝕄) :
    iprop(owns (c : Thread nD τ) arg3 fullShare row ∗ owns (c : Thread nD τ) arg5 fullShare X ∗ owns (c : Thread nD τ) arg4 fullShare o
        ∗ (iprop(owns (c : Thread nD τ) arg3 fullShare row ∗ owns (c : Thread nD τ) arg5 fullShare accN
            ∗ owns (c : Thread nD τ) arg4 fullShare oN) -∗ K ⟨⟩))
      ⊢ wp frame (wpE (defs₀ (F := F)) Variants.none c none) E (cc3_kernel i arg2 harg2 arg3 harg3 arg4 harg4 arg5 harg5) K := by
  subst hN; subst hO
  simp only [cc3_kernel_eq_skeleton]; unfold cc3_kernel_skel
  unfold owns step3
  iintro ⟨⟨%f0, %hf0, H0⟩, ⟨%f1, %hf1, H1⟩, ⟨%f2, %hf2, H2⟩, Hk⟩
  subst hf0; subst hf1; subst hf2
  by_cases h1 : first3 i = 1#1 <;> by_cases h2 : k3_cond2 i = 1#1
  all_goals
    simp only [h1, h2, if_true, if_false, ite_true, ite_false]
    sl_exec (disch := first | exact h1 | exact h2)
    sl_step
    iapply Hk
    isplitl [H0]
    · iexists f0; isplitr; · ipureintro; rfl
      iexact H0
    isplitl [H1]
    all_goals
      iexists _; isplitr; swap; · first | iexact H1 | iexact H2
      ipureintro
      first
        | rfl
        | (sl_unfold_words
           simp only [read_writes_rowBlk, readCov_rowBlk, View.readAt_eq_ld, ld_rowBlk])

section
variable (a : (pcfg3 (F := F)).Adm)
variable (A : (c : Dev nD) → (w : Fin (cfg3 a).W) → Buf (Elt F) (((cfg3 a).win w).arr.view.loc (c.tc : Thread nD τ)))

/-- One step from what the invariant holds is the running sum at the point. -/
theorem step3_acc (c : Dev nD) (t : Fin (cfg3 a).N) (X : Vec F S1x1x128 .f32)
    (hX : ∀ n (h : n < (cfg3 a).N), t.val = n + 1 → X = acc3 a A c n h) :
    step3 (grid3.coords t) X (row3 a A c t) = acc3 a A c t.val t.isLt := by
  obtain ⟨n, hn⟩ := t
  cases n with
  | zero => unfold step3 acc3; rw [if_pos ((first3_at ⟨0, hn⟩).mpr rfl)]
  | succ n => unfold step3; rw [hX n (Nat.lt_of_succ_lt hn) rfl]; rfl

set_option maxHeartbeats 1000000 in
/-- Every point's run of the body keeps the invariant. -/
theorem body_obligation3 (c : Dev nD) : BodyObligation (dat3 a A c) (defs₀ (F := F)) Variants.none () Set.univ := fun t => by
  rw [bigSep_W3, bigSep_W3]
  rw [show (dat3 a A c).owesAt () t.succ = (dat3 a A c).owesAt () t.castSucc from rfl, Phi3_castSucc, Phi3_succ]
  show _ ⊢ wp frame _ Set.univ (cc3_kernel (grid3.coords t) (Memref.whole main_v36) (Memref.isWhole_whole _)
    (spec3_0.stage ((cfg3 a).slots t 0)) (hstage3_0 (((cfg3 a).slots t 0).cast nbuf3_0))
    (spec3_1.stage ((cfg3 a).slots t 1)) (hstage3_1 (((cfg3 a).slots t 1).cast nbuf3_1))
    (Memref.whole cc3_scratch0) (Memref.isWhole_whole _)) _
  have hf : k3_cond2 (grid3.coords t) ≠ 1#1 → ((pcfg3 (F := F)).win a 1).flush t = false := fun hl => by
    rw [← Bool.not_eq_true]; exact fun h => hl ((last3_at t).mpr (flush3_last a t h))
  by_cases hl : k3_cond2 (grid3.coords t) = 1#1
  all_goals
    have hi : idle3 1 (((pcfg3 (F := F)).gridAt a.1).coords t) = !decide (k3_cond2 (grid3.coords t) = 1#1) := by
      show (!(k3_cond2 (grid3.coords t) == 1#1)) = _
      first | (rw [hl]; rfl) | (rw [decide_eq_false hl, Bool.not_false, Bool.not_eq_true', beq_eq_false_iff_ne]; exact hl)
    first | rw [decide_eq_true hl, Bool.not_true] at hi | rw [decide_eq_false hl, Bool.not_false] at hi
    simp only [hi, after3_0, after3_1]
    iintro ⟨HΦ, Ho, ⟨%d0, H0⟩, ⟨%d1, H1⟩⟩
    rw [before3_0 a A c t d0]
    unfold Phi3
    icases HΦ with ⟨⟨%X, %hX, Hs⟩, Hrest, Hprng, Htbl⟩
    iapply (body3 c Set.univ (grid3.coords t) _ _ _ _ _ _ _ _ (row3 a A c t) X ((dat3 a A c).before 1 t d1)
      (acc3 a A c t.val t.isLt) _ (step3_acc a A c t X hX) (by first | exact if_pos hl | exact if_neg hl) _)
    iframe H0 Hs H1
    iintro ⟨H0, Hs, H1⟩
    iframe Ho H0 Hrest Hprng Htbl
    isplitl [Hs]
    · iexists _; isplitr; swap; · iexact Hs
      ipureintro; intro n h e
      obtain rfl : n = t.val := by omega
      rfl
    first
      | iexact H1
      | (split
         · iexists d1; iexact H1
         · rename_i hft; exact absurd (hft.symm.trans (hf hl)) (by decide))

end

/-- Entries below the feature table's height name rows inside it. -/
theorem ok3_of_inb (pf : pre3.Contents (Elt F)) (h : ∀ k, ((pf 0) k).toNat < 500000) : ok3 (F := F) pf := by
  intro i
  refine ⟨fun b => ?_, Or.inl rfl⟩
  match b with
  | ⟨0, _⟩ =>
    have hh : cc3_transform_0 k3_off1_inb numel1_S1 pf i ⟨0, by decide⟩ < 500000 := h _
    show (cc3_transform_0 k3_off1_inb numel1_S1 pf i ⟨0, _⟩ + 1) * 1 ≤ 500000
    omega
  | ⟨1, _⟩ => show (0 + 1) * 1 ≤ 1; decide
  | ⟨2, _⟩ => show (0 + 1) * 128 ≤ 128; decide
  | ⟨_ + 3, hb⟩ => exact absurd hb (by omega)

section Reg
variable (a : (p : Fin 14) → (pcfgs (F := F) p).Adm)
variable (pdats : (p : Fin 14) → (c : Dev nD) → Dat τ (Elt F) Unit ℕ (UR sig nD τ) ℕ (Pipeline.pin (pcfgs (F := F)) a p) c)
variable (A : (c : Dev nD) → (w : Fin (cfg3 (a 3)).W) → Buf (Elt F) (((cfg3 (a 3)).win w).arr.view.loc (c.tc : Thread nD τ)))
variable (Vin Vout : (c : Dev nD) → Valuation τ sig (Elt F))

set_option backward.isDefEq.respectTransparency.types false in
/-- The region as a step from the memory at Vin, which holds the table at the admissible contents, to the memory at Vout. -/
def reg3 (hpd : ∀ c, pdats 3 c = dat3 (a 3) A c)
    (hA : ∀ c w, A c w = Vin c (Pipeline.arrRef spec3 w))
    (hT : ∀ c, Vin c main_v36 = (a 3).1 0)
    (hF : ∀ c w, (dat3 (a 3) A c).arrAt w (cfg3 (a 3)).N = Vout c (Pipeline.arrRef spec3 w))
    (hrest : ∀ c (b : Ref sig .tc), b ∉ Finset.univ.image (Pipeline.arrRef spec3) → Vout c b = Vin c b) :
    Pipeline.RegionSeg (pcfgs (F := F)) a pdats () defs₀ Variants.none Lh lvh 3 :=
  seg (launch3 (F := F)) a pdats Vin Vout
    (fun c w => by rw [hpd c]; exact (dat3 (a 3) A c).share_full (fun _ => rfl) w)
    (fun c => funext fun (k : Fin 1) => by obtain rfl : k = 0 := Subsingleton.elim _ _; exact hT c)
    (fun c w => by rw [hpd c, A_eq3]; exact hA c w) (fun c w => by rw [hpd c]; exact hF c w) hrest
    (fun c _ => by rw [hpd c]; rfl) (fun c => by rw [hpd c]; rfl)
    (fun c => by rw [hpd c]; exact (body_obligation3 (a 3) A c).loose)
    (fun c => by
      rw [hpd c]
      show _ ⊢ Phi3 (a 3) A c 0
      unfold Phi3
      erw [scopedRest3_split]
      iintro ⟨Hreg, Htbl, ⟨%f, Hf⟩, Hbut⟩
      iframe Hbut Hreg
      isplitr [Htbl]; swap; · iexact Htbl
      iexists f; isplitr
      · ipureintro; intro n h e; exact absurd e (Nat.succ_ne_zero n).symm
      iapply (Entails.of_eq (owns_whole (c : Thread nD τ) cc3_scratch0 fullShare f).symm); iexact Hf)
    (fun c => by
      rw [Pipeline.ownSems0_none, hpd c]
      show Phi3 (a 3) A c (cfg3 (a 3)).N ⊢ _
      unfold Phi3
      erw [scopedRest3_split]
      iintro ⟨⟨%X, -, Hs⟩, Hbut, Hreg, Htbl⟩
      isplitl [Hreg Htbl]
      · isplitl [Hreg]; · iexact Hreg
        iexact Htbl
      isplitr; · iempintro
      isplitr [Hbut]; swap; · iexact Hbut
      iexists X; iapply (Entails.of_eq (owns_whole (c : Thread nD τ) cc3_scratch0 fullShare X)); iexact Hs)

end Reg

end Cert.KernelIdeal.Hand

end
-- ==== Proof.Gather4.lean ====
import proofs.«401580_j65068754534945_2_alg».proof.Proof.Gather3

/-! One gather-and-mean region: groups of feature rows named by a table, summed in an accumulator that restarts at a group's first sample and is scaled into the output at its last. -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The restart test of the body, read off the sample coordinate. -/
abbrev first4 (i : grid4.Coords) : BitVec 1 :=
  Scalar.cmpi .ne (Scalar.extui (Scalar.cmpi .eq (BitVec.ofNat 32 (i 1).val) 0#32)) 0#32

/-- Point t is sample t % 25 of group t / 25. -/
theorem coords4_0 (t : Fin grid4.N) : (grid4.coords t 0).val = t.val / 25 % 1280 := by
  show t.val / grid4.stride 0 % _ = _; rw [show grid4.stride 0 = 25 by decide]; rfl
theorem coords4_1 (t : Fin grid4.N) : (grid4.coords t 1).val = t.val % 25 := by
  show t.val / grid4.stride 1 % _ = _; rw [show grid4.stride 1 = 1 by decide, Nat.div_one]; rfl

theorem first4_at (t : Fin grid4.N) : first4 (grid4.coords t) = 1#1 ↔ t.val % 25 = 0 := by
  rw [← coords4_1]; unfold first4; generalize grid4.coords t 1 = s; revert s; decide
theorem last4_at (t : Fin grid4.N) : k4_cond2 (grid4.coords t) = 1#1 ↔ t.val % 25 = 24 := by
  rw [← coords4_1]; unfold k4_cond2; generalize grid4.coords t 1 = s; revert s; decide

section
variable (a : (pcfg4 (F := F)).Adm)
variable (A : (c : Dev nD) → (w : Fin (cfg4 a).W) → Buf (Elt F) (((cfg4 a).win w).arr.view.loc (c.tc : Thread nD τ)))

/-- A point whose successor lies in another group, or is past the end, is a group's last sample. -/
theorem flush4_last (t : Fin (cfg4 a).N) (h : ((cfg4 a).win 1).flush t = true) : t.val % 25 = 24 := by
  unfold Pipeline.Window.flush at h
  simp only [Bool.and_eq_true, Bool.or_eq_true, decide_eq_true_eq] at h
  obtain ⟨-, h | ⟨h', hne⟩⟩ := h
  · have := h.trans N_4; omega
  · by_contra hc
    apply hne
    show cc4_transform_1 (grid4.coords ⟨t.val + 1, h'⟩) = cc4_transform_1 (grid4.coords t)
    refine hreads4_1 _ _ fun b hb => ?_
    obtain rfl : b = 0 := by revert hb; revert b; decide
    apply Fin.ext
    rw [coords4_0, coords4_0]
    show (t.val + 1) / 25 % 1280 = t.val / 25 % 1280
    omega

/-- The feature row the table names at point t. -/
def row4 (c : Dev nD) (t : Fin (cfg4 a).N) : Vec F S1x1x128 .f32 :=
  (((cfg4 a).win 0).blk t).view.read (Elt F) (A c 0)

/-- The running sum after point n, restarted from zero at a group's first sample. -/
def acc4 (c : Dev nD) : (n : ℕ) → n < (cfg4 a).N → Vec F S1x1x128 .f32
  | 0, h => k4_pay2 (k4_pay1 (F := F)) (row4 a A c ⟨0, h⟩)
  | n + 1, h => k4_pay2 (if first4 (grid4.coords ⟨n + 1, h⟩) = 1#1 then k4_pay1 (F := F) else acc4 c n (Nat.lt_of_succ_lt h))
      (row4 a A c ⟨n + 1, h⟩)

/-- Before position k the accumulator holds the running sum of the point before (anything before the first point). -/
def Phi4 (c : Dev nD) (k : ℕ) : sProp 𝕄 :=
  iprop((∃ X : Vec F S1x1x128 .f32, ⌜∀ n (h : n < (cfg4 a).N), k = n + 1 → X = acc4 a A c n h⌝
      ∗ owns (c : Thread nD τ) (Memref.whole cc4_scratch0) fullShare X)
    ∗ Pipeline.scopedRestBut (Ix := Unit) (Name := ℕ) (U := UR sig nD τ) (Lvl := ℕ) (Val := Elt F) spec4 c [cc4_scratch0]
    ∗ (∃ r, prngReg c r)
    ∗ Pipeline.prefHeld (Ix := Unit) (Name := ℕ) (U := UR sig nD τ) (Lvl := ℕ) pre4 c (fun _ => fullShare) a.1)

/-- What each point leaves: the named row on the input side, the group's scaled sum on the output side. -/
def dat4 (c : Dev nD) : Dat τ (Elt F) Unit ℕ (UR sig nD τ) ℕ (cfg4 a) c where
  A w := A c w
  after w t := match w with
    | ⟨0, _⟩ => row4 a A c t
    | ⟨1, _⟩ => k4_pay3 (acc4 a A c t.val t.isLt)
  Φ t := Phi4 a A c t.val
  q _ := fullShare
  owed _ := 0

theorem A_eq4 (c : Dev nD) (w : Fin (cfg4 a).W) : (dat4 a A c).A w = A c w := rfl
theorem after4_0 (c : Dev nD) (t : Fin (cfg4 a).N) : (dat4 a A c).after 0 t = row4 a A c t := rfl
theorem after4_1 (c : Dev nD) (t : Fin (cfg4 a).N) : (dat4 a A c).after 1 t = k4_pay3 (acc4 a A c t.val t.isLt) := rfl

theorem Phi4_castSucc (c : Dev nD) (t : Fin (cfg4 a).N) : (dat4 a A c).Φ t.castSucc = Phi4 a A c t.val := by
  dsimp only [dat4]; simp only [Fin.coe_castSucc]
theorem Phi4_succ (c : Dev nD) (t : Fin (cfg4 a).N) : (dat4 a A c).Φ t.succ = Phi4 a A c (t.val + 1) := rfl

theorem before4_0 (c : Dev nD) (t : Fin (cfg4 a).N) (d) : (dat4 a A c).before 0 t d = row4 a A c t :=
  ((dat4 a A c).before_in_eq_fetched 0 rfl (fun _ => rfl) (fun _ _ _ => rfl) (fun t => by rw [after4_0]; rfl) t d).trans rfl

end

/-- What a point leaves in the accumulator: the row added to zero at a first sample, to what was there otherwise. -/
def step4 (i : grid4.Coords) (X row : Vec F S1x1x128 .f32) : Vec F S1x1x128 .f32 :=
  k4_pay2 (if first4 i = 1#1 then k4_pay1 (F := F) else X) row

section
variable (a : (pcfg4 (F := F)).Adm)
variable (A : (c : Dev nD) → (w : Fin (cfg4 a).W) → Buf (Elt F) (((cfg4 a).win w).arr.view.loc (c.tc : Thread nD τ)))

/-- One step from what the invariant holds is the running sum at the point. -/
theorem step4_acc (c : Dev nD) (t : Fin (cfg4 a).N) (X : Vec F S1x1x128 .f32)
    (hX : ∀ n (h : n < (cfg4 a).N), t.val = n + 1 → X = acc4 a A c n h) :
    step4 (grid4.coords t) X (row4 a A c t) = acc4 a A c t.val t.isLt := by
  obtain ⟨n, hn⟩ := t
  cases n with
  | zero => unfold step4 acc4; rw [if_pos ((first4_at ⟨0, hn⟩).mpr rfl)]
  | succ n => unfold step4; rw [hX n (Nat.lt_of_succ_lt hn) rfl]; rfl

set_option maxHeartbeats 1000000 in
/-- Every point's run of the body keeps the invariant. -/
theorem body_obligation4 (c : Dev nD) : BodyObligation (dat4 a A c) (defs₀ (F := F)) Variants.none () Set.univ := fun t => by
  rw [bigSep_W4, bigSep_W4]
  rw [show (dat4 a A c).owesAt () t.succ = (dat4 a A c).owesAt () t.castSucc from rfl, Phi4_castSucc, Phi4_succ]
  show _ ⊢ wp frame _ Set.univ (cc3_kernel (grid4.coords t) (Memref.whole main_v40) (Memref.isWhole_whole _)
    (spec4_0.stage ((cfg4 a).slots t 0)) (hstage4_0 (((cfg4 a).slots t 0).cast nbuf4_0))
    (spec4_1.stage ((cfg4 a).slots t 1)) (hstage4_1 (((cfg4 a).slots t 1).cast nbuf4_1))
    (Memref.whole cc4_scratch0) (Memref.isWhole_whole _)) _
  have hf : k4_cond2 (grid4.coords t) ≠ 1#1 → ((pcfg4 (F := F)).win a 1).flush t = false := fun hl => by
    rw [← Bool.not_eq_true]; exact fun h => hl ((last4_at t).mpr (flush4_last a t h))
  by_cases hl : k4_cond2 (grid4.coords t) = 1#1
  all_goals
    have hi : idle4 1 (((pcfg4 (F := F)).gridAt a.1).coords t) = !decide (k4_cond2 (grid4.coords t) = 1#1) := by
      show (!(k4_cond2 (grid4.coords t) == 1#1)) = _
      first | (rw [hl]; rfl) | (rw [decide_eq_false hl, Bool.not_false, Bool.not_eq_true', beq_eq_false_iff_ne]; exact hl)
    first | rw [decide_eq_true hl, Bool.not_true] at hi | rw [decide_eq_false hl, Bool.not_false] at hi
    simp only [hi, after4_0, after4_1]
    iintro ⟨HΦ, Ho, ⟨%d0, H0⟩, ⟨%d1, H1⟩⟩
    rw [before4_0 a A c t d0]
    unfold Phi4
    icases HΦ with ⟨⟨%X, %hX, Hs⟩, Hrest, Hprng, Htbl⟩
    iapply (body3 c Set.univ (grid4.coords t) _ _ _ _ _ _ _ _ (row4 a A c t) X ((dat4 a A c).before 1 t d1)
      (acc4 a A c t.val t.isLt) _ (step4_acc a A c t X hX) (by first | exact if_pos hl | exact if_neg hl) _)
    iframe H0 Hs H1
    iintro ⟨H0, Hs, H1⟩
    iframe Ho H0 Hrest Hprng Htbl
    isplitl [Hs]
    · iexists _; isplitr; swap; · iexact Hs
      ipureintro; intro n h e
      obtain rfl : n = t.val := by omega
      rfl
    first
      | iexact H1
      | (split
         · iexists d1; iexact H1
         · rename_i hft; exact absurd (hft.symm.trans (hf hl)) (by decide))

end

/-- Entries below the feature table's height name rows inside it. -/
theorem ok4_of_inb (pf : pre4.Contents (Elt F)) (h : ∀ k, ((pf 0) k).toNat < 500000) : ok4 (F := F) pf := by
  intro i
  refine ⟨fun b => ?_, Or.inl rfl⟩
  match b with
  | ⟨0, _⟩ =>
    have hh : cc4_transform_0 k4_off1_inb numel1_S1 pf i ⟨0, by decide⟩ < 500000 := h _
    show (cc4_transform_0 k4_off1_inb numel1_S1 pf i ⟨0, _⟩ + 1) * 1 ≤ 500000
    omega
  | ⟨1, _⟩ => show (0 + 1) * 1 ≤ 1; decide
  | ⟨2, _⟩ => show (0 + 1) * 128 ≤ 128; decide
  | ⟨_ + 3, hb⟩ => exact absurd hb (by omega)

section Reg
variable (a : (p : Fin 14) → (pcfgs (F := F) p).Adm)
variable (pdats : (p : Fin 14) → (c : Dev nD) → Dat τ (Elt F) Unit ℕ (UR sig nD τ) ℕ (Pipeline.pin (pcfgs (F := F)) a p) c)
variable (A : (c : Dev nD) → (w : Fin (cfg4 (a 4)).W) → Buf (Elt F) (((cfg4 (a 4)).win w).arr.view.loc (c.tc : Thread nD τ)))
variable (Vin Vout : (c : Dev nD) → Valuation τ sig (Elt F))

set_option backward.isDefEq.respectTransparency.types false in
/-- The region as a step from the memory at Vin, which holds the table at the admissible contents, to the memory at Vout. -/
def reg4 (hpd : ∀ c, pdats 4 c = dat4 (a 4) A c)
    (hA : ∀ c w, A c w = Vin c (Pipeline.arrRef spec4 w))
    (hT : ∀ c, Vin c main_v40 = (a 4).1 0)
    (hF : ∀ c w, (dat4 (a 4) A c).arrAt w (cfg4 (a 4)).N = Vout c (Pipeline.arrRef spec4 w))
    (hrest : ∀ c (b : Ref sig .tc), b ∉ Finset.univ.image (Pipeline.arrRef spec4) → Vout c b = Vin c b) :
    Pipeline.RegionSeg (pcfgs (F := F)) a pdats () defs₀ Variants.none Lh lvh 4 :=
  seg (launch4 (F := F)) a pdats Vin Vout
    (fun c w => by rw [hpd c]; exact (dat4 (a 4) A c).share_full (fun _ => rfl) w)
    (fun c => funext fun (k : Fin 1) => by obtain rfl : k = 0 := Subsingleton.elim _ _; exact hT c)
    (fun c w => by rw [hpd c, A_eq4]; exact hA c w) (fun c w => by rw [hpd c]; exact hF c w) hrest
    (fun c _ => by rw [hpd c]; rfl) (fun c => by rw [hpd c]; rfl)
    (fun c => by rw [hpd c]; exact (body_obligation4 (a 4) A c).loose)
    (fun c => by
      rw [hpd c]
      show _ ⊢ Phi4 (a 4) A c 0
      unfold Phi4
      erw [scopedRest4_split]
      iintro ⟨Hreg, Htbl, ⟨%f, Hf⟩, Hbut⟩
      iframe Hbut Hreg
      isplitr [Htbl]; swap; · iexact Htbl
      iexists f; isplitr
      · ipureintro; intro n h e; exact absurd e (Nat.succ_ne_zero n).symm
      iapply (Entails.of_eq (owns_whole (c : Thread nD τ) cc4_scratch0 fullShare f).symm); iexact Hf)
    (fun c => by
      rw [Pipeline.ownSems0_none, hpd c]
      show Phi4 (a 4) A c (cfg4 (a 4)).N ⊢ _
      unfold Phi4
      erw [scopedRest4_split]
      iintro ⟨⟨%X, -, Hs⟩, Hbut, Hreg, Htbl⟩
      isplitl [Hreg Htbl]
      · isplitl [Hreg]; · iexact Hreg
        iexact Htbl
      isplitr; · iempintro
      isplitr [Hbut]; swap; · iexact Hbut
      iexists X; iapply (Entails.of_eq (owns_whole (c : Thread nD τ) cc4_scratch0 fullShare X)); iexact Hs)

end Reg

end Cert.KernelIdeal.Hand

end
-- ==== Proof.Gather5.lean ====
import proofs.«401580_j65068754534945_2_alg».proof.Proof.Gather3

/-! One gather-and-mean region: groups of feature rows named by a table, summed in an accumulator that restarts at a group's first sample and is scaled into the output at its last. -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The restart test of the body, read off the sample coordinate. -/
abbrev first5 (i : grid5.Coords) : BitVec 1 :=
  Scalar.cmpi .ne (Scalar.extui (Scalar.cmpi .eq (BitVec.ofNat 32 (i 1).val) 0#32)) 0#32

/-- Point t is sample t % 25 of group t / 25. -/
theorem coords5_0 (t : Fin grid5.N) : (grid5.coords t 0).val = t.val / 25 % 1280 := by
  show t.val / grid5.stride 0 % _ = _; rw [show grid5.stride 0 = 25 by decide]; rfl
theorem coords5_1 (t : Fin grid5.N) : (grid5.coords t 1).val = t.val % 25 := by
  show t.val / grid5.stride 1 % _ = _; rw [show grid5.stride 1 = 1 by decide, Nat.div_one]; rfl

theorem first5_at (t : Fin grid5.N) : first5 (grid5.coords t) = 1#1 ↔ t.val % 25 = 0 := by
  rw [← coords5_1]; unfold first5; generalize grid5.coords t 1 = s; revert s; decide
theorem last5_at (t : Fin grid5.N) : k5_cond2 (grid5.coords t) = 1#1 ↔ t.val % 25 = 24 := by
  rw [← coords5_1]; unfold k5_cond2; generalize grid5.coords t 1 = s; revert s; decide

section
variable (a : (pcfg5 (F := F)).Adm)
variable (A : (c : Dev nD) → (w : Fin (cfg5 a).W) → Buf (Elt F) (((cfg5 a).win w).arr.view.loc (c.tc : Thread nD τ)))

/-- A point whose successor lies in another group, or is past the end, is a group's last sample. -/
theorem flush5_last (t : Fin (cfg5 a).N) (h : ((cfg5 a).win 1).flush t = true) : t.val % 25 = 24 := by
  unfold Pipeline.Window.flush at h
  simp only [Bool.and_eq_true, Bool.or_eq_true, decide_eq_true_eq] at h
  obtain ⟨-, h | ⟨h', hne⟩⟩ := h
  · have := h.trans N_5; omega
  · by_contra hc
    apply hne
    show cc5_transform_1 (grid5.coords ⟨t.val + 1, h'⟩) = cc5_transform_1 (grid5.coords t)
    refine hreads5_1 _ _ fun b hb => ?_
    obtain rfl : b = 0 := by revert hb; revert b; decide
    apply Fin.ext
    rw [coords5_0, coords5_0]
    show (t.val + 1) / 25 % 1280 = t.val / 25 % 1280
    omega

/-- The feature row the table names at point t. -/
def row5 (c : Dev nD) (t : Fin (cfg5 a).N) : Vec F S1x1x128 .f32 :=
  (((cfg5 a).win 0).blk t).view.read (Elt F) (A c 0)

/-- The running sum after point n, restarted from zero at a group's first sample. -/
def acc5 (c : Dev nD) : (n : ℕ) → n < (cfg5 a).N → Vec F S1x1x128 .f32
  | 0, h => k5_pay2 (k5_pay1 (F := F)) (row5 a A c ⟨0, h⟩)
  | n + 1, h => k5_pay2 (if first5 (grid5.coords ⟨n + 1, h⟩) = 1#1 then k5_pay1 (F := F) else acc5 c n (Nat.lt_of_succ_lt h))
      (row5 a A c ⟨n + 1, h⟩)

/-- Before position k the accumulator holds the running sum of the point before (anything before the first point). -/
def Phi5 (c : Dev nD) (k : ℕ) : sProp 𝕄 :=
  iprop((∃ X : Vec F S1x1x128 .f32, ⌜∀ n (h : n < (cfg5 a).N), k = n + 1 → X = acc5 a A c n h⌝
      ∗ owns (c : Thread nD τ) (Memref.whole cc5_scratch0) fullShare X)
    ∗ Pipeline.scopedRestBut (Ix := Unit) (Name := ℕ) (U := UR sig nD τ) (Lvl := ℕ) (Val := Elt F) spec5 c [cc5_scratch0]
    ∗ (∃ r, prngReg c r)
    ∗ Pipeline.prefHeld (Ix := Unit) (Name := ℕ) (U := UR sig nD τ) (Lvl := ℕ) pre5 c (fun _ => fullShare) a.1)

/-- What each point leaves: the named row on the input side, the group's scaled sum on the output side. -/
def dat5 (c : Dev nD) : Dat τ (Elt F) Unit ℕ (UR sig nD τ) ℕ (cfg5 a) c where
  A w := A c w
  after w t := match w with
    | ⟨0, _⟩ => row5 a A c t
    | ⟨1, _⟩ => k5_pay3 (acc5 a A c t.val t.isLt)
  Φ t := Phi5 a A c t.val
  q _ := fullShare
  owed _ := 0

theorem A_eq5 (c : Dev nD) (w : Fin (cfg5 a).W) : (dat5 a A c).A w = A c w := rfl
theorem after5_0 (c : Dev nD) (t : Fin (cfg5 a).N) : (dat5 a A c).after 0 t = row5 a A c t := rfl
theorem after5_1 (c : Dev nD) (t : Fin (cfg5 a).N) : (dat5 a A c).after 1 t = k5_pay3 (acc5 a A c t.val t.isLt) := rfl

theorem Phi5_castSucc (c : Dev nD) (t : Fin (cfg5 a).N) : (dat5 a A c).Φ t.castSucc = Phi5 a A c t.val := by
  dsimp only [dat5]; simp only [Fin.coe_castSucc]
theorem Phi5_succ (c : Dev nD) (t : Fin (cfg5 a).N) : (dat5 a A c).Φ t.succ = Phi5 a A c (t.val + 1) := rfl

theorem before5_0 (c : Dev nD) (t : Fin (cfg5 a).N) (d) : (dat5 a A c).before 0 t d = row5 a A c t :=
  ((dat5 a A c).before_in_eq_fetched 0 rfl (fun _ => rfl) (fun _ _ _ => rfl) (fun t => by rw [after5_0]; rfl) t d).trans rfl

end

/-- What a point leaves in the accumulator: the row added to zero at a first sample, to what was there otherwise. -/
def step5 (i : grid5.Coords) (X row : Vec F S1x1x128 .f32) : Vec F S1x1x128 .f32 :=
  k5_pay2 (if first5 i = 1#1 then k5_pay1 (F := F) else X) row

section
variable (a : (pcfg5 (F := F)).Adm)
variable (A : (c : Dev nD) → (w : Fin (cfg5 a).W) → Buf (Elt F) (((cfg5 a).win w).arr.view.loc (c.tc : Thread nD τ)))

/-- One step from what the invariant holds is the running sum at the point. -/
theorem step5_acc (c : Dev nD) (t : Fin (cfg5 a).N) (X : Vec F S1x1x128 .f32)
    (hX : ∀ n (h : n < (cfg5 a).N), t.val = n + 1 → X = acc5 a A c n h) :
    step5 (grid5.coords t) X (row5 a A c t) = acc5 a A c t.val t.isLt := by
  obtain ⟨n, hn⟩ := t
  cases n with
  | zero => unfold step5 acc5; rw [if_pos ((first5_at ⟨0, hn⟩).mpr rfl)]
  | succ n => unfold step5; rw [hX n (Nat.lt_of_succ_lt hn) rfl]; rfl

set_option maxHeartbeats 1000000 in
/-- Every point's run of the body keeps the invariant. -/
theorem body_obligation5 (c : Dev nD) : BodyObligation (dat5 a A c) (defs₀ (F := F)) Variants.none () Set.univ := fun t => by
  rw [bigSep_W5, bigSep_W5]
  rw [show (dat5 a A c).owesAt () t.succ = (dat5 a A c).owesAt () t.castSucc from rfl, Phi5_castSucc, Phi5_succ]
  show _ ⊢ wp frame _ Set.univ (cc3_kernel (grid5.coords t) (Memref.whole main_v44) (Memref.isWhole_whole _)
    (spec5_0.stage ((cfg5 a).slots t 0)) (hstage5_0 (((cfg5 a).slots t 0).cast nbuf5_0))
    (spec5_1.stage ((cfg5 a).slots t 1)) (hstage5_1 (((cfg5 a).slots t 1).cast nbuf5_1))
    (Memref.whole cc5_scratch0) (Memref.isWhole_whole _)) _
  have hf : k5_cond2 (grid5.coords t) ≠ 1#1 → ((pcfg5 (F := F)).win a 1).flush t = false := fun hl => by
    rw [← Bool.not_eq_true]; exact fun h => hl ((last5_at t).mpr (flush5_last a t h))
  by_cases hl : k5_cond2 (grid5.coords t) = 1#1
  all_goals
    have hi : idle5 1 (((pcfg5 (F := F)).gridAt a.1).coords t) = !decide (k5_cond2 (grid5.coords t) = 1#1) := by
      show (!(k5_cond2 (grid5.coords t) == 1#1)) = _
      first | (rw [hl]; rfl) | (rw [decide_eq_false hl, Bool.not_false, Bool.not_eq_true', beq_eq_false_iff_ne]; exact hl)
    first | rw [decide_eq_true hl, Bool.not_true] at hi | rw [decide_eq_false hl, Bool.not_false] at hi
    simp only [hi, after5_0, after5_1]
    iintro ⟨HΦ, Ho, ⟨%d0, H0⟩, ⟨%d1, H1⟩⟩
    rw [before5_0 a A c t d0]
    unfold Phi5
    icases HΦ with ⟨⟨%X, %hX, Hs⟩, Hrest, Hprng, Htbl⟩
    iapply (body3 c Set.univ (grid5.coords t) _ _ _ _ _ _ _ _ (row5 a A c t) X ((dat5 a A c).before 1 t d1)
      (acc5 a A c t.val t.isLt) _ (step5_acc a A c t X hX) (by first | exact if_pos hl | exact if_neg hl) _)
    iframe H0 Hs H1
    iintro ⟨H0, Hs, H1⟩
    iframe Ho H0 Hrest Hprng Htbl
    isplitl [Hs]
    · iexists _; isplitr; swap; · iexact Hs
      ipureintro; intro n h e
      obtain rfl : n = t.val := by omega
      rfl
    first
      | iexact H1
      | (split
         · iexists d1; iexact H1
         · rename_i hft; exact absurd (hft.symm.trans (hf hl)) (by decide))

end

/-- Entries below the feature table's height name rows inside it. -/
theorem ok5_of_inb (pf : pre5.Contents (Elt F)) (h : ∀ k, ((pf 0) k).toNat < 500000) : ok5 (F := F) pf := by
  intro i
  refine ⟨fun b => ?_, Or.inl rfl⟩
  match b with
  | ⟨0, _⟩ =>
    have hh : cc5_transform_0 k5_off1_inb numel1_S1 pf i ⟨0, by decide⟩ < 500000 := h _
    show (cc5_transform_0 k5_off1_inb numel1_S1 pf i ⟨0, _⟩ + 1) * 1 ≤ 500000
    omega
  | ⟨1, _⟩ => show (0 + 1) * 1 ≤ 1; decide
  | ⟨2, _⟩ => show (0 + 1) * 128 ≤ 128; decide
  | ⟨_ + 3, hb⟩ => exact absurd hb (by omega)

section Reg
variable (a : (p : Fin 14) → (pcfgs (F := F) p).Adm)
variable (pdats : (p : Fin 14) → (c : Dev nD) → Dat τ (Elt F) Unit ℕ (UR sig nD τ) ℕ (Pipeline.pin (pcfgs (F := F)) a p) c)
variable (A : (c : Dev nD) → (w : Fin (cfg5 (a 5)).W) → Buf (Elt F) (((cfg5 (a 5)).win w).arr.view.loc (c.tc : Thread nD τ)))
variable (Vin Vout : (c : Dev nD) → Valuation τ sig (Elt F))

set_option backward.isDefEq.respectTransparency.types false in
/-- The region as a step from the memory at Vin, which holds the table at the admissible contents, to the memory at Vout. -/
def reg5 (hpd : ∀ c, pdats 5 c = dat5 (a 5) A c)
    (hA : ∀ c w, A c w = Vin c (Pipeline.arrRef spec5 w))
    (hT : ∀ c, Vin c main_v44 = (a 5).1 0)
    (hF : ∀ c w, (dat5 (a 5) A c).arrAt w (cfg5 (a 5)).N = Vout c (Pipeline.arrRef spec5 w))
    (hrest : ∀ c (b : Ref sig .tc), b ∉ Finset.univ.image (Pipeline.arrRef spec5) → Vout c b = Vin c b) :
    Pipeline.RegionSeg (pcfgs (F := F)) a pdats () defs₀ Variants.none Lh lvh 5 :=
  seg (launch5 (F := F)) a pdats Vin Vout
    (fun c w => by rw [hpd c]; exact (dat5 (a 5) A c).share_full (fun _ => rfl) w)
    (fun c => funext fun (k : Fin 1) => by obtain rfl : k = 0 := Subsingleton.elim _ _; exact hT c)
    (fun c w => by rw [hpd c, A_eq5]; exact hA c w) (fun c w => by rw [hpd c]; exact hF c w) hrest
    (fun c _ => by rw [hpd c]; rfl) (fun c => by rw [hpd c]; rfl)
    (fun c => by rw [hpd c]; exact (body_obligation5 (a 5) A c).loose)
    (fun c => by
      rw [hpd c]
      show _ ⊢ Phi5 (a 5) A c 0
      unfold Phi5
      erw [scopedRest5_split]
      iintro ⟨Hreg, Htbl, ⟨%f, Hf⟩, Hbut⟩
      iframe Hbut Hreg
      isplitr [Htbl]; swap; · iexact Htbl
      iexists f; isplitr
      · ipureintro; intro n h e; exact absurd e (Nat.succ_ne_zero n).symm
      iapply (Entails.of_eq (owns_whole (c : Thread nD τ) cc5_scratch0 fullShare f).symm); iexact Hf)
    (fun c => by
      rw [Pipeline.ownSems0_none, hpd c]
      show Phi5 (a 5) A c (cfg5 (a 5)).N ⊢ _
      unfold Phi5
      erw [scopedRest5_split]
      iintro ⟨⟨%X, -, Hs⟩, Hbut, Hreg, Htbl⟩
      isplitl [Hreg Htbl]
      · isplitl [Hreg]; · iexact Hreg
        iexact Htbl
      isplitr; · iempintro
      isplitr [Hbut]; swap; · iexact Hbut
      iexists X; iapply (Entails.of_eq (owns_whole (c : Thread nD τ) cc5_scratch0 fullShare X)); iexact Hs)

end Reg

end Cert.KernelIdeal.Hand

end
-- ==== Proof.Gather6.lean ====
import proofs.«401580_j65068754534945_2_alg».proof.Proof.Gather3

/-! One gather-and-mean region: groups of feature rows named by a table, summed in an accumulator that restarts at a group's first sample and is scaled into the output at its last. -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The restart test of the body, read off the sample coordinate. -/
abbrev first6 (i : grid6.Coords) : BitVec 1 :=
  Scalar.cmpi .ne (Scalar.extui (Scalar.cmpi .eq (BitVec.ofNat 32 (i 1).val) 0#32)) 0#32

/-- Point t is sample t % 25 of group t / 25. -/
theorem coords6_0 (t : Fin grid6.N) : (grid6.coords t 0).val = t.val / 25 % 1280 := by
  show t.val / grid6.stride 0 % _ = _; rw [show grid6.stride 0 = 25 by decide]; rfl
theorem coords6_1 (t : Fin grid6.N) : (grid6.coords t 1).val = t.val % 25 := by
  show t.val / grid6.stride 1 % _ = _; rw [show grid6.stride 1 = 1 by decide, Nat.div_one]; rfl

theorem first6_at (t : Fin grid6.N) : first6 (grid6.coords t) = 1#1 ↔ t.val % 25 = 0 := by
  rw [← coords6_1]; unfold first6; generalize grid6.coords t 1 = s; revert s; decide
theorem last6_at (t : Fin grid6.N) : k6_cond2 (grid6.coords t) = 1#1 ↔ t.val % 25 = 24 := by
  rw [← coords6_1]; unfold k6_cond2; generalize grid6.coords t 1 = s; revert s; decide

section
variable (a : (pcfg6 (F := F)).Adm)
variable (A : (c : Dev nD) → (w : Fin (cfg6 a).W) → Buf (Elt F) (((cfg6 a).win w).arr.view.loc (c.tc : Thread nD τ)))

/-- A point whose successor lies in another group, or is past the end, is a group's last sample. -/
theorem flush6_last (t : Fin (cfg6 a).N) (h : ((cfg6 a).win 1).flush t = true) : t.val % 25 = 24 := by
  unfold Pipeline.Window.flush at h
  simp only [Bool.and_eq_true, Bool.or_eq_true, decide_eq_true_eq] at h
  obtain ⟨-, h | ⟨h', hne⟩⟩ := h
  · have := h.trans N_6; omega
  · by_contra hc
    apply hne
    show cc6_transform_1 (grid6.coords ⟨t.val + 1, h'⟩) = cc6_transform_1 (grid6.coords t)
    refine hreads6_1 _ _ fun b hb => ?_
    obtain rfl : b = 0 := by revert hb; revert b; decide
    apply Fin.ext
    rw [coords6_0, coords6_0]
    show (t.val + 1) / 25 % 1280 = t.val / 25 % 1280
    omega

/-- The feature row the table names at point t. -/
def row6 (c : Dev nD) (t : Fin (cfg6 a).N) : Vec F S1x1x128 .f32 :=
  (((cfg6 a).win 0).blk t).view.read (Elt F) (A c 0)

/-- The running sum after point n, restarted from zero at a group's first sample. -/
def acc6 (c : Dev nD) : (n : ℕ) → n < (cfg6 a).N → Vec F S1x1x128 .f32
  | 0, h => k6_pay2 (k6_pay1 (F := F)) (row6 a A c ⟨0, h⟩)
  | n + 1, h => k6_pay2 (if first6 (grid6.coords ⟨n + 1, h⟩) = 1#1 then k6_pay1 (F := F) else acc6 c n (Nat.lt_of_succ_lt h))
      (row6 a A c ⟨n + 1, h⟩)

/-- Before position k the accumulator holds the running sum of the point before (anything before the first point). -/
def Phi6 (c : Dev nD) (k : ℕ) : sProp 𝕄 :=
  iprop((∃ X : Vec F S1x1x128 .f32, ⌜∀ n (h : n < (cfg6 a).N), k = n + 1 → X = acc6 a A c n h⌝
      ∗ owns (c : Thread nD τ) (Memref.whole cc6_scratch0) fullShare X)
    ∗ Pipeline.scopedRestBut (Ix := Unit) (Name := ℕ) (U := UR sig nD τ) (Lvl := ℕ) (Val := Elt F) spec6 c [cc6_scratch0]
    ∗ (∃ r, prngReg c r)
    ∗ Pipeline.prefHeld (Ix := Unit) (Name := ℕ) (U := UR sig nD τ) (Lvl := ℕ) pre6 c (fun _ => fullShare) a.1)

/-- What each point leaves: the named row on the input side, the group's scaled sum on the output side. -/
def dat6 (c : Dev nD) : Dat τ (Elt F) Unit ℕ (UR sig nD τ) ℕ (cfg6 a) c where
  A w := A c w
  after w t := match w with
    | ⟨0, _⟩ => row6 a A c t
    | ⟨1, _⟩ => k6_pay3 (acc6 a A c t.val t.isLt)
  Φ t := Phi6 a A c t.val
  q _ := fullShare
  owed _ := 0

theorem A_eq6 (c : Dev nD) (w : Fin (cfg6 a).W) : (dat6 a A c).A w = A c w := rfl
theorem after6_0 (c : Dev nD) (t : Fin (cfg6 a).N) : (dat6 a A c).after 0 t = row6 a A c t := rfl
theorem after6_1 (c : Dev nD) (t : Fin (cfg6 a).N) : (dat6 a A c).after 1 t = k6_pay3 (acc6 a A c t.val t.isLt) := rfl

theorem Phi6_castSucc (c : Dev nD) (t : Fin (cfg6 a).N) : (dat6 a A c).Φ t.castSucc = Phi6 a A c t.val := by
  dsimp only [dat6]; simp only [Fin.coe_castSucc]
theorem Phi6_succ (c : Dev nD) (t : Fin (cfg6 a).N) : (dat6 a A c).Φ t.succ = Phi6 a A c (t.val + 1) := rfl

theorem before6_0 (c : Dev nD) (t : Fin (cfg6 a).N) (d) : (dat6 a A c).before 0 t d = row6 a A c t :=
  ((dat6 a A c).before_in_eq_fetched 0 rfl (fun _ => rfl) (fun _ _ _ => rfl) (fun t => by rw [after6_0]; rfl) t d).trans rfl

end

/-- What a point leaves in the accumulator: the row added to zero at a first sample, to what was there otherwise. -/
def step6 (i : grid6.Coords) (X row : Vec F S1x1x128 .f32) : Vec F S1x1x128 .f32 :=
  k6_pay2 (if first6 i = 1#1 then k6_pay1 (F := F) else X) row

section
variable (a : (pcfg6 (F := F)).Adm)
variable (A : (c : Dev nD) → (w : Fin (cfg6 a).W) → Buf (Elt F) (((cfg6 a).win w).arr.view.loc (c.tc : Thread nD τ)))

/-- One step from what the invariant holds is the running sum at the point. -/
theorem step6_acc (c : Dev nD) (t : Fin (cfg6 a).N) (X : Vec F S1x1x128 .f32)
    (hX : ∀ n (h : n < (cfg6 a).N), t.val = n + 1 → X = acc6 a A c n h) :
    step6 (grid6.coords t) X (row6 a A c t) = acc6 a A c t.val t.isLt := by
  obtain ⟨n, hn⟩ := t
  cases n with
  | zero => unfold step6 acc6; rw [if_pos ((first6_at ⟨0, hn⟩).mpr rfl)]
  | succ n => unfold step6; rw [hX n (Nat.lt_of_succ_lt hn) rfl]; rfl

set_option maxHeartbeats 1000000 in
/-- Every point's run of the body keeps the invariant. -/
theorem body_obligation6 (c : Dev nD) : BodyObligation (dat6 a A c) (defs₀ (F := F)) Variants.none () Set.univ := fun t => by
  rw [bigSep_W6, bigSep_W6]
  rw [show (dat6 a A c).owesAt () t.succ = (dat6 a A c).owesAt () t.castSucc from rfl, Phi6_castSucc, Phi6_succ]
  show _ ⊢ wp frame _ Set.univ (cc3_kernel (grid6.coords t) (Memref.whole main_v48) (Memref.isWhole_whole _)
    (spec6_0.stage ((cfg6 a).slots t 0)) (hstage6_0 (((cfg6 a).slots t 0).cast nbuf6_0))
    (spec6_1.stage ((cfg6 a).slots t 1)) (hstage6_1 (((cfg6 a).slots t 1).cast nbuf6_1))
    (Memref.whole cc6_scratch0) (Memref.isWhole_whole _)) _
  have hf : k6_cond2 (grid6.coords t) ≠ 1#1 → ((pcfg6 (F := F)).win a 1).flush t = false := fun hl => by
    rw [← Bool.not_eq_true]; exact fun h => hl ((last6_at t).mpr (flush6_last a t h))
  by_cases hl : k6_cond2 (grid6.coords t) = 1#1
  all_goals
    have hi : idle6 1 (((pcfg6 (F := F)).gridAt a.1).coords t) = !decide (k6_cond2 (grid6.coords t) = 1#1) := by
      show (!(k6_cond2 (grid6.coords t) == 1#1)) = _
      first | (rw [hl]; rfl) | (rw [decide_eq_false hl, Bool.not_false, Bool.not_eq_true', beq_eq_false_iff_ne]; exact hl)
    first | rw [decide_eq_true hl, Bool.not_true] at hi | rw [decide_eq_false hl, Bool.not_false] at hi
    simp only [hi, after6_0, after6_1]
    iintro ⟨HΦ, Ho, ⟨%d0, H0⟩, ⟨%d1, H1⟩⟩
    rw [before6_0 a A c t d0]
    unfold Phi6
    icases HΦ with ⟨⟨%X, %hX, Hs⟩, Hrest, Hprng, Htbl⟩
    iapply (body3 c Set.univ (grid6.coords t) _ _ _ _ _ _ _ _ (row6 a A c t) X ((dat6 a A c).before 1 t d1)
      (acc6 a A c t.val t.isLt) _ (step6_acc a A c t X hX) (by first | exact if_pos hl | exact if_neg hl) _)
    iframe H0 Hs H1
    iintro ⟨H0, Hs, H1⟩
    iframe Ho H0 Hrest Hprng Htbl
    isplitl [Hs]
    · iexists _; isplitr; swap; · iexact Hs
      ipureintro; intro n h e
      obtain rfl : n = t.val := by omega
      rfl
    first
      | iexact H1
      | (split
         · iexists d1; iexact H1
         · rename_i hft; exact absurd (hft.symm.trans (hf hl)) (by decide))

end

/-- Entries below the feature table's height name rows inside it. -/
theorem ok6_of_inb (pf : pre6.Contents (Elt F)) (h : ∀ k, ((pf 0) k).toNat < 500000) : ok6 (F := F) pf := by
  intro i
  refine ⟨fun b => ?_, Or.inl rfl⟩
  match b with
  | ⟨0, _⟩ =>
    have hh : cc6_transform_0 k6_off1_inb numel1_S1 pf i ⟨0, by decide⟩ < 500000 := h _
    show (cc6_transform_0 k6_off1_inb numel1_S1 pf i ⟨0, _⟩ + 1) * 1 ≤ 500000
    omega
  | ⟨1, _⟩ => show (0 + 1) * 1 ≤ 1; decide
  | ⟨2, _⟩ => show (0 + 1) * 128 ≤ 128; decide
  | ⟨_ + 3, hb⟩ => exact absurd hb (by omega)

section Reg
variable (a : (p : Fin 14) → (pcfgs (F := F) p).Adm)
variable (pdats : (p : Fin 14) → (c : Dev nD) → Dat τ (Elt F) Unit ℕ (UR sig nD τ) ℕ (Pipeline.pin (pcfgs (F := F)) a p) c)
variable (A : (c : Dev nD) → (w : Fin (cfg6 (a 6)).W) → Buf (Elt F) (((cfg6 (a 6)).win w).arr.view.loc (c.tc : Thread nD τ)))
variable (Vin Vout : (c : Dev nD) → Valuation τ sig (Elt F))

set_option backward.isDefEq.respectTransparency.types false in
/-- The region as a step from the memory at Vin, which holds the table at the admissible contents, to the memory at Vout. -/
def reg6 (hpd : ∀ c, pdats 6 c = dat6 (a 6) A c)
    (hA : ∀ c w, A c w = Vin c (Pipeline.arrRef spec6 w))
    (hT : ∀ c, Vin c main_v48 = (a 6).1 0)
    (hF : ∀ c w, (dat6 (a 6) A c).arrAt w (cfg6 (a 6)).N = Vout c (Pipeline.arrRef spec6 w))
    (hrest : ∀ c (b : Ref sig .tc), b ∉ Finset.univ.image (Pipeline.arrRef spec6) → Vout c b = Vin c b) :
    Pipeline.RegionSeg (pcfgs (F := F)) a pdats () defs₀ Variants.none Lh lvh 6 :=
  seg (launch6 (F := F)) a pdats Vin Vout
    (fun c w => by rw [hpd c]; exact (dat6 (a 6) A c).share_full (fun _ => rfl) w)
    (fun c => funext fun (k : Fin 1) => by obtain rfl : k = 0 := Subsingleton.elim _ _; exact hT c)
    (fun c w => by rw [hpd c, A_eq6]; exact hA c w) (fun c w => by rw [hpd c]; exact hF c w) hrest
    (fun c _ => by rw [hpd c]; rfl) (fun c => by rw [hpd c]; rfl)
    (fun c => by rw [hpd c]; exact (body_obligation6 (a 6) A c).loose)
    (fun c => by
      rw [hpd c]
      show _ ⊢ Phi6 (a 6) A c 0
      unfold Phi6
      erw [scopedRest6_split]
      iintro ⟨Hreg, Htbl, ⟨%f, Hf⟩, Hbut⟩
      iframe Hbut Hreg
      isplitr [Htbl]; swap; · iexact Htbl
      iexists f; isplitr
      · ipureintro; intro n h e; exact absurd e (Nat.succ_ne_zero n).symm
      iapply (Entails.of_eq (owns_whole (c : Thread nD τ) cc6_scratch0 fullShare f).symm); iexact Hf)
    (fun c => by
      rw [Pipeline.ownSems0_none, hpd c]
      show Phi6 (a 6) A c (cfg6 (a 6)).N ⊢ _
      unfold Phi6
      erw [scopedRest6_split]
      iintro ⟨⟨%X, -, Hs⟩, Hbut, Hreg, Htbl⟩
      isplitl [Hreg Htbl]
      · isplitl [Hreg]; · iexact Hreg
        iexact Htbl
      isplitr; · iempintro
      isplitr [Hbut]; swap; · iexact Hbut
      iexists X; iapply (Entails.of_eq (owns_whole (c : Thread nD τ) cc6_scratch0 fullShare X)); iexact Hs)

end Reg

end Cert.KernelIdeal.Hand

end
-- ==== Proof.Gather7.lean ====
import proofs.«401580_j65068754534945_2_alg».proof.Proof.Gather3

/-! One gather-and-mean region: groups of feature rows named by a table, summed in an accumulator that restarts at a group's first sample and is scaled into the output at its last. -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The restart test of the body, read off the sample coordinate. -/
abbrev first7 (i : grid7.Coords) : BitVec 1 :=
  Scalar.cmpi .ne (Scalar.extui (Scalar.cmpi .eq (BitVec.ofNat 32 (i 1).val) 0#32)) 0#32

/-- Point t is sample t % 25 of group t / 25. -/
theorem coords7_0 (t : Fin grid7.N) : (grid7.coords t 0).val = t.val / 25 % 1280 := by
  show t.val / grid7.stride 0 % _ = _; rw [show grid7.stride 0 = 25 by decide]; rfl
theorem coords7_1 (t : Fin grid7.N) : (grid7.coords t 1).val = t.val % 25 := by
  show t.val / grid7.stride 1 % _ = _; rw [show grid7.stride 1 = 1 by decide, Nat.div_one]; rfl

theorem first7_at (t : Fin grid7.N) : first7 (grid7.coords t) = 1#1 ↔ t.val % 25 = 0 := by
  rw [← coords7_1]; unfold first7; generalize grid7.coords t 1 = s; revert s; decide
theorem last7_at (t : Fin grid7.N) : k7_cond2 (grid7.coords t) = 1#1 ↔ t.val % 25 = 24 := by
  rw [← coords7_1]; unfold k7_cond2; generalize grid7.coords t 1 = s; revert s; decide

section
variable (a : (pcfg7 (F := F)).Adm)
variable (A : (c : Dev nD) → (w : Fin (cfg7 a).W) → Buf (Elt F) (((cfg7 a).win w).arr.view.loc (c.tc : Thread nD τ)))

/-- A point whose successor lies in another group, or is past the end, is a group's last sample. -/
theorem flush7_last (t : Fin (cfg7 a).N) (h : ((cfg7 a).win 1).flush t = true) : t.val % 25 = 24 := by
  unfold Pipeline.Window.flush at h
  simp only [Bool.and_eq_true, Bool.or_eq_true, decide_eq_true_eq] at h
  obtain ⟨-, h | ⟨h', hne⟩⟩ := h
  · have := h.trans N_7; omega
  · by_contra hc
    apply hne
    show cc7_transform_1 (grid7.coords ⟨t.val + 1, h'⟩) = cc7_transform_1 (grid7.coords t)
    refine hreads7_1 _ _ fun b hb => ?_
    obtain rfl : b = 0 := by revert hb; revert b; decide
    apply Fin.ext
    rw [coords7_0, coords7_0]
    show (t.val + 1) / 25 % 1280 = t.val / 25 % 1280
    omega

/-- The feature row the table names at point t. -/
def row7 (c : Dev nD) (t : Fin (cfg7 a).N) : Vec F S1x1x128 .f32 :=
  (((cfg7 a).win 0).blk t).view.read (Elt F) (A c 0)

/-- The running sum after point n, restarted from zero at a group's first sample. -/
def acc7 (c : Dev nD) : (n : ℕ) → n < (cfg7 a).N → Vec F S1x1x128 .f32
  | 0, h => k7_pay2 (k7_pay1 (F := F)) (row7 a A c ⟨0, h⟩)
  | n + 1, h => k7_pay2 (if first7 (grid7.coords ⟨n + 1, h⟩) = 1#1 then k7_pay1 (F := F) else acc7 c n (Nat.lt_of_succ_lt h))
      (row7 a A c ⟨n + 1, h⟩)

/-- Before position k the accumulator holds the running sum of the point before (anything before the first point). -/
def Phi7 (c : Dev nD) (k : ℕ) : sProp 𝕄 :=
  iprop((∃ X : Vec F S1x1x128 .f32, ⌜∀ n (h : n < (cfg7 a).N), k = n + 1 → X = acc7 a A c n h⌝
      ∗ owns (c : Thread nD τ) (Memref.whole cc7_scratch0) fullShare X)
    ∗ Pipeline.scopedRestBut (Ix := Unit) (Name := ℕ) (U := UR sig nD τ) (Lvl := ℕ) (Val := Elt F) spec7 c [cc7_scratch0]
    ∗ (∃ r, prngReg c r)
    ∗ Pipeline.prefHeld (Ix := Unit) (Name := ℕ) (U := UR sig nD τ) (Lvl := ℕ) pre7 c (fun _ => fullShare) a.1)

/-- What each point leaves: the named row on the input side, the group's scaled sum on the output side. -/
def dat7 (c : Dev nD) : Dat τ (Elt F) Unit ℕ (UR sig nD τ) ℕ (cfg7 a) c where
  A w := A c w
  after w t := match w with
    | ⟨0, _⟩ => row7 a A c t
    | ⟨1, _⟩ => k7_pay3 (acc7 a A c t.val t.isLt)
  Φ t := Phi7 a A c t.val
  q _ := fullShare
  owed _ := 0

theorem A_eq7 (c : Dev nD) (w : Fin (cfg7 a).W) : (dat7 a A c).A w = A c w := rfl
theorem after7_0 (c : Dev nD) (t : Fin (cfg7 a).N) : (dat7 a A c).after 0 t = row7 a A c t := rfl
theorem after7_1 (c : Dev nD) (t : Fin (cfg7 a).N) : (dat7 a A c).after 1 t = k7_pay3 (acc7 a A c t.val t.isLt) := rfl

theorem Phi7_castSucc (c : Dev nD) (t : Fin (cfg7 a).N) : (dat7 a A c).Φ t.castSucc = Phi7 a A c t.val := by
  dsimp only [dat7]; simp only [Fin.coe_castSucc]
theorem Phi7_succ (c : Dev nD) (t : Fin (cfg7 a).N) : (dat7 a A c).Φ t.succ = Phi7 a A c (t.val + 1) := rfl

theorem before7_0 (c : Dev nD) (t : Fin (cfg7 a).N) (d) : (dat7 a A c).before 0 t d = row7 a A c t :=
  ((dat7 a A c).before_in_eq_fetched 0 rfl (fun _ => rfl) (fun _ _ _ => rfl) (fun t => by rw [after7_0]; rfl) t d).trans rfl

end

/-- What a point leaves in the accumulator: the row added to zero at a first sample, to what was there otherwise. -/
def step7 (i : grid7.Coords) (X row : Vec F S1x1x128 .f32) : Vec F S1x1x128 .f32 :=
  k7_pay2 (if first7 i = 1#1 then k7_pay1 (F := F) else X) row

section
variable (a : (pcfg7 (F := F)).Adm)
variable (A : (c : Dev nD) → (w : Fin (cfg7 a).W) → Buf (Elt F) (((cfg7 a).win w).arr.view.loc (c.tc : Thread nD τ)))

/-- One step from what the invariant holds is the running sum at the point. -/
theorem step7_acc (c : Dev nD) (t : Fin (cfg7 a).N) (X : Vec F S1x1x128 .f32)
    (hX : ∀ n (h : n < (cfg7 a).N), t.val = n + 1 → X = acc7 a A c n h) :
    step7 (grid7.coords t) X (row7 a A c t) = acc7 a A c t.val t.isLt := by
  obtain ⟨n, hn⟩ := t
  cases n with
  | zero => unfold step7 acc7; rw [if_pos ((first7_at ⟨0, hn⟩).mpr rfl)]
  | succ n => unfold step7; rw [hX n (Nat.lt_of_succ_lt hn) rfl]; rfl

set_option maxHeartbeats 1000000 in
/-- Every point's run of the body keeps the invariant. -/
theorem body_obligation7 (c : Dev nD) : BodyObligation (dat7 a A c) (defs₀ (F := F)) Variants.none () Set.univ := fun t => by
  rw [bigSep_W7, bigSep_W7]
  rw [show (dat7 a A c).owesAt () t.succ = (dat7 a A c).owesAt () t.castSucc from rfl, Phi7_castSucc, Phi7_succ]
  show _ ⊢ wp frame _ Set.univ (cc3_kernel (grid7.coords t) (Memref.whole main_v52) (Memref.isWhole_whole _)
    (spec7_0.stage ((cfg7 a).slots t 0)) (hstage7_0 (((cfg7 a).slots t 0).cast nbuf7_0))
    (spec7_1.stage ((cfg7 a).slots t 1)) (hstage7_1 (((cfg7 a).slots t 1).cast nbuf7_1))
    (Memref.whole cc7_scratch0) (Memref.isWhole_whole _)) _
  have hf : k7_cond2 (grid7.coords t) ≠ 1#1 → ((pcfg7 (F := F)).win a 1).flush t = false := fun hl => by
    rw [← Bool.not_eq_true]; exact fun h => hl ((last7_at t).mpr (flush7_last a t h))
  by_cases hl : k7_cond2 (grid7.coords t) = 1#1
  all_goals
    have hi : idle7 1 (((pcfg7 (F := F)).gridAt a.1).coords t) = !decide (k7_cond2 (grid7.coords t) = 1#1) := by
      show (!(k7_cond2 (grid7.coords t) == 1#1)) = _
      first | (rw [hl]; rfl) | (rw [decide_eq_false hl, Bool.not_false, Bool.not_eq_true', beq_eq_false_iff_ne]; exact hl)
    first | rw [decide_eq_true hl, Bool.not_true] at hi | rw [decide_eq_false hl, Bool.not_false] at hi
    simp only [hi, after7_0, after7_1]
    iintro ⟨HΦ, Ho, ⟨%d0, H0⟩, ⟨%d1, H1⟩⟩
    rw [before7_0 a A c t d0]
    unfold Phi7
    icases HΦ with ⟨⟨%X, %hX, Hs⟩, Hrest, Hprng, Htbl⟩
    iapply (body3 c Set.univ (grid7.coords t) _ _ _ _ _ _ _ _ (row7 a A c t) X ((dat7 a A c).before 1 t d1)
      (acc7 a A c t.val t.isLt) _ (step7_acc a A c t X hX) (by first | exact if_pos hl | exact if_neg hl) _)
    iframe H0 Hs H1
    iintro ⟨H0, Hs, H1⟩
    iframe Ho H0 Hrest Hprng Htbl
    isplitl [Hs]
    · iexists _; isplitr; swap; · iexact Hs
      ipureintro; intro n h e
      obtain rfl : n = t.val := by omega
      rfl
    first
      | iexact H1
      | (split
         · iexists d1; iexact H1
         · rename_i hft; exact absurd (hft.symm.trans (hf hl)) (by decide))

end

/-- Entries below the feature table's height name rows inside it. -/
theorem ok7_of_inb (pf : pre7.Contents (Elt F)) (h : ∀ k, ((pf 0) k).toNat < 500000) : ok7 (F := F) pf := by
  intro i
  refine ⟨fun b => ?_, Or.inl rfl⟩
  match b with
  | ⟨0, _⟩ =>
    have hh : cc7_transform_0 k7_off1_inb numel1_S1 pf i ⟨0, by decide⟩ < 500000 := h _
    show (cc7_transform_0 k7_off1_inb numel1_S1 pf i ⟨0, _⟩ + 1) * 1 ≤ 500000
    omega
  | ⟨1, _⟩ => show (0 + 1) * 1 ≤ 1; decide
  | ⟨2, _⟩ => show (0 + 1) * 128 ≤ 128; decide
  | ⟨_ + 3, hb⟩ => exact absurd hb (by omega)

section Reg
variable (a : (p : Fin 14) → (pcfgs (F := F) p).Adm)
variable (pdats : (p : Fin 14) → (c : Dev nD) → Dat τ (Elt F) Unit ℕ (UR sig nD τ) ℕ (Pipeline.pin (pcfgs (F := F)) a p) c)
variable (A : (c : Dev nD) → (w : Fin (cfg7 (a 7)).W) → Buf (Elt F) (((cfg7 (a 7)).win w).arr.view.loc (c.tc : Thread nD τ)))
variable (Vin Vout : (c : Dev nD) → Valuation τ sig (Elt F))

set_option backward.isDefEq.respectTransparency.types false in
/-- The region as a step from the memory at Vin, which holds the table at the admissible contents, to the memory at Vout. -/
def reg7 (hpd : ∀ c, pdats 7 c = dat7 (a 7) A c)
    (hA : ∀ c w, A c w = Vin c (Pipeline.arrRef spec7 w))
    (hT : ∀ c, Vin c main_v52 = (a 7).1 0)
    (hF : ∀ c w, (dat7 (a 7) A c).arrAt w (cfg7 (a 7)).N = Vout c (Pipeline.arrRef spec7 w))
    (hrest : ∀ c (b : Ref sig .tc), b ∉ Finset.univ.image (Pipeline.arrRef spec7) → Vout c b = Vin c b) :
    Pipeline.RegionSeg (pcfgs (F := F)) a pdats () defs₀ Variants.none Lh lvh 7 :=
  seg (launch7 (F := F)) a pdats Vin Vout
    (fun c w => by rw [hpd c]; exact (dat7 (a 7) A c).share_full (fun _ => rfl) w)
    (fun c => funext fun (k : Fin 1) => by obtain rfl : k = 0 := Subsingleton.elim _ _; exact hT c)
    (fun c w => by rw [hpd c, A_eq7]; exact hA c w) (fun c w => by rw [hpd c]; exact hF c w) hrest
    (fun c _ => by rw [hpd c]; rfl) (fun c => by rw [hpd c]; rfl)
    (fun c => by rw [hpd c]; exact (body_obligation7 (a 7) A c).loose)
    (fun c => by
      rw [hpd c]
      show _ ⊢ Phi7 (a 7) A c 0
      unfold Phi7
      erw [scopedRest7_split]
      iintro ⟨Hreg, Htbl, ⟨%f, Hf⟩, Hbut⟩
      iframe Hbut Hreg
      isplitr [Htbl]; swap; · iexact Htbl
      iexists f; isplitr
      · ipureintro; intro n h e; exact absurd e (Nat.succ_ne_zero n).symm
      iapply (Entails.of_eq (owns_whole (c : Thread nD τ) cc7_scratch0 fullShare f).symm); iexact Hf)
    (fun c => by
      rw [Pipeline.ownSems0_none, hpd c]
      show Phi7 (a 7) A c (cfg7 (a 7)).N ⊢ _
      unfold Phi7
      erw [scopedRest7_split]
      iintro ⟨⟨%X, -, Hs⟩, Hbut, Hreg, Htbl⟩
      isplitl [Hreg Htbl]
      · isplitl [Hreg]; · iexact Hreg
        iexact Htbl
      isplitr; · iempintro
      isplitr [Hbut]; swap; · iexact Hbut
      iexists X; iapply (Entails.of_eq (owns_whole (c : Thread nD τ) cc7_scratch0 fullShare X)); iexact Hs)

end Reg

end Cert.KernelIdeal.Hand

end
-- ==== Proof.Gather8.lean ====
import proofs.«401580_j65068754534945_2_alg».proof.Proof.Gather3

/-! One gather-and-mean region: groups of feature rows named by a table, summed in an accumulator that restarts at a group's first sample and is scaled into the output at its last. -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The restart test of the body, read off the sample coordinate. -/
abbrev first8 (i : grid8.Coords) : BitVec 1 :=
  Scalar.cmpi .ne (Scalar.extui (Scalar.cmpi .eq (BitVec.ofNat 32 (i 1).val) 0#32)) 0#32

/-- Point t is sample t % 25 of group t / 25. -/
theorem coords8_0 (t : Fin grid8.N) : (grid8.coords t 0).val = t.val / 25 % 1280 := by
  show t.val / grid8.stride 0 % _ = _; rw [show grid8.stride 0 = 25 by decide]; rfl
theorem coords8_1 (t : Fin grid8.N) : (grid8.coords t 1).val = t.val % 25 := by
  show t.val / grid8.stride 1 % _ = _; rw [show grid8.stride 1 = 1 by decide, Nat.div_one]; rfl

theorem first8_at (t : Fin grid8.N) : first8 (grid8.coords t) = 1#1 ↔ t.val % 25 = 0 := by
  rw [← coords8_1]; unfold first8; generalize grid8.coords t 1 = s; revert s; decide
theorem last8_at (t : Fin grid8.N) : k8_cond2 (grid8.coords t) = 1#1 ↔ t.val % 25 = 24 := by
  rw [← coords8_1]; unfold k8_cond2; generalize grid8.coords t 1 = s; revert s; decide

section
variable (a : (pcfg8 (F := F)).Adm)
variable (A : (c : Dev nD) → (w : Fin (cfg8 a).W) → Buf (Elt F) (((cfg8 a).win w).arr.view.loc (c.tc : Thread nD τ)))

/-- A point whose successor lies in another group, or is past the end, is a group's last sample. -/
theorem flush8_last (t : Fin (cfg8 a).N) (h : ((cfg8 a).win 1).flush t = true) : t.val % 25 = 24 := by
  unfold Pipeline.Window.flush at h
  simp only [Bool.and_eq_true, Bool.or_eq_true, decide_eq_true_eq] at h
  obtain ⟨-, h | ⟨h', hne⟩⟩ := h
  · have := h.trans N_8; omega
  · by_contra hc
    apply hne
    show cc8_transform_1 (grid8.coords ⟨t.val + 1, h'⟩) = cc8_transform_1 (grid8.coords t)
    refine hreads8_1 _ _ fun b hb => ?_
    obtain rfl : b = 0 := by revert hb; revert b; decide
    apply Fin.ext
    rw [coords8_0, coords8_0]
    show (t.val + 1) / 25 % 1280 = t.val / 25 % 1280
    omega

/-- The feature row the table names at point t. -/
def row8 (c : Dev nD) (t : Fin (cfg8 a).N) : Vec F S1x1x128 .f32 :=
  (((cfg8 a).win 0).blk t).view.read (Elt F) (A c 0)

/-- The running sum after point n, restarted from zero at a group's first sample. -/
def acc8 (c : Dev nD) : (n : ℕ) → n < (cfg8 a).N → Vec F S1x1x128 .f32
  | 0, h => k8_pay2 (k8_pay1 (F := F)) (row8 a A c ⟨0, h⟩)
  | n + 1, h => k8_pay2 (if first8 (grid8.coords ⟨n + 1, h⟩) = 1#1 then k8_pay1 (F := F) else acc8 c n (Nat.lt_of_succ_lt h))
      (row8 a A c ⟨n + 1, h⟩)

/-- Before position k the accumulator holds the running sum of the point before (anything before the first point). -/
def Phi8 (c : Dev nD) (k : ℕ) : sProp 𝕄 :=
  iprop((∃ X : Vec F S1x1x128 .f32, ⌜∀ n (h : n < (cfg8 a).N), k = n + 1 → X = acc8 a A c n h⌝
      ∗ owns (c : Thread nD τ) (Memref.whole cc8_scratch0) fullShare X)
    ∗ Pipeline.scopedRestBut (Ix := Unit) (Name := ℕ) (U := UR sig nD τ) (Lvl := ℕ) (Val := Elt F) spec8 c [cc8_scratch0]
    ∗ (∃ r, prngReg c r)
    ∗ Pipeline.prefHeld (Ix := Unit) (Name := ℕ) (U := UR sig nD τ) (Lvl := ℕ) pre8 c (fun _ => fullShare) a.1)

/-- What each point leaves: the named row on the input side, the group's scaled sum on the output side. -/
def dat8 (c : Dev nD) : Dat τ (Elt F) Unit ℕ (UR sig nD τ) ℕ (cfg8 a) c where
  A w := A c w
  after w t := match w with
    | ⟨0, _⟩ => row8 a A c t
    | ⟨1, _⟩ => k8_pay3 (acc8 a A c t.val t.isLt)
  Φ t := Phi8 a A c t.val
  q _ := fullShare
  owed _ := 0

theorem A_eq8 (c : Dev nD) (w : Fin (cfg8 a).W) : (dat8 a A c).A w = A c w := rfl
theorem after8_0 (c : Dev nD) (t : Fin (cfg8 a).N) : (dat8 a A c).after 0 t = row8 a A c t := rfl
theorem after8_1 (c : Dev nD) (t : Fin (cfg8 a).N) : (dat8 a A c).after 1 t = k8_pay3 (acc8 a A c t.val t.isLt) := rfl

theorem Phi8_castSucc (c : Dev nD) (t : Fin (cfg8 a).N) : (dat8 a A c).Φ t.castSucc = Phi8 a A c t.val := by
  dsimp only [dat8]; simp only [Fin.coe_castSucc]
theorem Phi8_succ (c : Dev nD) (t : Fin (cfg8 a).N) : (dat8 a A c).Φ t.succ = Phi8 a A c (t.val + 1) := rfl

theorem before8_0 (c : Dev nD) (t : Fin (cfg8 a).N) (d) : (dat8 a A c).before 0 t d = row8 a A c t :=
  ((dat8 a A c).before_in_eq_fetched 0 rfl (fun _ => rfl) (fun _ _ _ => rfl) (fun t => by rw [after8_0]; rfl) t d).trans rfl

end

/-- What a point leaves in the accumulator: the row added to zero at a first sample, to what was there otherwise. -/
def step8 (i : grid8.Coords) (X row : Vec F S1x1x128 .f32) : Vec F S1x1x128 .f32 :=
  k8_pay2 (if first8 i = 1#1 then k8_pay1 (F := F) else X) row

section
variable (a : (pcfg8 (F := F)).Adm)
variable (A : (c : Dev nD) → (w : Fin (cfg8 a).W) → Buf (Elt F) (((cfg8 a).win w).arr.view.loc (c.tc : Thread nD τ)))

/-- One step from what the invariant holds is the running sum at the point. -/
theorem step8_acc (c : Dev nD) (t : Fin (cfg8 a).N) (X : Vec F S1x1x128 .f32)
    (hX : ∀ n (h : n < (cfg8 a).N), t.val = n + 1 → X = acc8 a A c n h) :
    step8 (grid8.coords t) X (row8 a A c t) = acc8 a A c t.val t.isLt := by
  obtain ⟨n, hn⟩ := t
  cases n with
  | zero => unfold step8 acc8; rw [if_pos ((first8_at ⟨0, hn⟩).mpr rfl)]
  | succ n => unfold step8; rw [hX n (Nat.lt_of_succ_lt hn) rfl]; rfl

set_option maxHeartbeats 1000000 in
/-- Every point's run of the body keeps the invariant. -/
theorem body_obligation8 (c : Dev nD) : BodyObligation (dat8 a A c) (defs₀ (F := F)) Variants.none () Set.univ := fun t => by
  rw [bigSep_W8, bigSep_W8]
  rw [show (dat8 a A c).owesAt () t.succ = (dat8 a A c).owesAt () t.castSucc from rfl, Phi8_castSucc, Phi8_succ]
  show _ ⊢ wp frame _ Set.univ (cc3_kernel (grid8.coords t) (Memref.whole main_v56) (Memref.isWhole_whole _)
    (spec8_0.stage ((cfg8 a).slots t 0)) (hstage8_0 (((cfg8 a).slots t 0).cast nbuf8_0))
    (spec8_1.stage ((cfg8 a).slots t 1)) (hstage8_1 (((cfg8 a).slots t 1).cast nbuf8_1))
    (Memref.whole cc8_scratch0) (Memref.isWhole_whole _)) _
  have hf : k8_cond2 (grid8.coords t) ≠ 1#1 → ((pcfg8 (F := F)).win a 1).flush t = false := fun hl => by
    rw [← Bool.not_eq_true]; exact fun h => hl ((last8_at t).mpr (flush8_last a t h))
  by_cases hl : k8_cond2 (grid8.coords t) = 1#1
  all_goals
    have hi : idle8 1 (((pcfg8 (F := F)).gridAt a.1).coords t) = !decide (k8_cond2 (grid8.coords t) = 1#1) := by
      show (!(k8_cond2 (grid8.coords t) == 1#1)) = _
      first | (rw [hl]; rfl) | (rw [decide_eq_false hl, Bool.not_false, Bool.not_eq_true', beq_eq_false_iff_ne]; exact hl)
    first | rw [decide_eq_true hl, Bool.not_true] at hi | rw [decide_eq_false hl, Bool.not_false] at hi
    simp only [hi, after8_0, after8_1]
    iintro ⟨HΦ, Ho, ⟨%d0, H0⟩, ⟨%d1, H1⟩⟩
    rw [before8_0 a A c t d0]
    unfold Phi8
    icases HΦ with ⟨⟨%X, %hX, Hs⟩, Hrest, Hprng, Htbl⟩
    iapply (body3 c Set.univ (grid8.coords t) _ _ _ _ _ _ _ _ (row8 a A c t) X ((dat8 a A c).before 1 t d1)
      (acc8 a A c t.val t.isLt) _ (step8_acc a A c t X hX) (by first | exact if_pos hl | exact if_neg hl) _)
    iframe H0 Hs H1
    iintro ⟨H0, Hs, H1⟩
    iframe Ho H0 Hrest Hprng Htbl
    isplitl [Hs]
    · iexists _; isplitr; swap; · iexact Hs
      ipureintro; intro n h e
      obtain rfl : n = t.val := by omega
      rfl
    first
      | iexact H1
      | (split
         · iexists d1; iexact H1
         · rename_i hft; exact absurd (hft.symm.trans (hf hl)) (by decide))

end

/-- Entries below the feature table's height name rows inside it. -/
theorem ok8_of_inb (pf : pre8.Contents (Elt F)) (h : ∀ k, ((pf 0) k).toNat < 500000) : ok8 (F := F) pf := by
  intro i
  refine ⟨fun b => ?_, Or.inl rfl⟩
  match b with
  | ⟨0, _⟩ =>
    have hh : cc8_transform_0 k8_off1_inb numel1_S1 pf i ⟨0, by decide⟩ < 500000 := h _
    show (cc8_transform_0 k8_off1_inb numel1_S1 pf i ⟨0, _⟩ + 1) * 1 ≤ 500000
    omega
  | ⟨1, _⟩ => show (0 + 1) * 1 ≤ 1; decide
  | ⟨2, _⟩ => show (0 + 1) * 128 ≤ 128; decide
  | ⟨_ + 3, hb⟩ => exact absurd hb (by omega)

section Reg
variable (a : (p : Fin 14) → (pcfgs (F := F) p).Adm)
variable (pdats : (p : Fin 14) → (c : Dev nD) → Dat τ (Elt F) Unit ℕ (UR sig nD τ) ℕ (Pipeline.pin (pcfgs (F := F)) a p) c)
variable (A : (c : Dev nD) → (w : Fin (cfg8 (a 8)).W) → Buf (Elt F) (((cfg8 (a 8)).win w).arr.view.loc (c.tc : Thread nD τ)))
variable (Vin Vout : (c : Dev nD) → Valuation τ sig (Elt F))

set_option backward.isDefEq.respectTransparency.types false in
/-- The region as a step from the memory at Vin, which holds the table at the admissible contents, to the memory at Vout. -/
def reg8 (hpd : ∀ c, pdats 8 c = dat8 (a 8) A c)
    (hA : ∀ c w, A c w = Vin c (Pipeline.arrRef spec8 w))
    (hT : ∀ c, Vin c main_v56 = (a 8).1 0)
    (hF : ∀ c w, (dat8 (a 8) A c).arrAt w (cfg8 (a 8)).N = Vout c (Pipeline.arrRef spec8 w))
    (hrest : ∀ c (b : Ref sig .tc), b ∉ Finset.univ.image (Pipeline.arrRef spec8) → Vout c b = Vin c b) :
    Pipeline.RegionSeg (pcfgs (F := F)) a pdats () defs₀ Variants.none Lh lvh 8 :=
  seg (launch8 (F := F)) a pdats Vin Vout
    (fun c w => by rw [hpd c]; exact (dat8 (a 8) A c).share_full (fun _ => rfl) w)
    (fun c => funext fun (k : Fin 1) => by obtain rfl : k = 0 := Subsingleton.elim _ _; exact hT c)
    (fun c w => by rw [hpd c, A_eq8]; exact hA c w) (fun c w => by rw [hpd c]; exact hF c w) hrest
    (fun c _ => by rw [hpd c]; rfl) (fun c => by rw [hpd c]; rfl)
    (fun c => by rw [hpd c]; exact (body_obligation8 (a 8) A c).loose)
    (fun c => by
      rw [hpd c]
      show _ ⊢ Phi8 (a 8) A c 0
      unfold Phi8
      erw [scopedRest8_split]
      iintro ⟨Hreg, Htbl, ⟨%f, Hf⟩, Hbut⟩
      iframe Hbut Hreg
      isplitr [Htbl]; swap; · iexact Htbl
      iexists f; isplitr
      · ipureintro; intro n h e; exact absurd e (Nat.succ_ne_zero n).symm
      iapply (Entails.of_eq (owns_whole (c : Thread nD τ) cc8_scratch0 fullShare f).symm); iexact Hf)
    (fun c => by
      rw [Pipeline.ownSems0_none, hpd c]
      show Phi8 (a 8) A c (cfg8 (a 8)).N ⊢ _
      unfold Phi8
      erw [scopedRest8_split]
      iintro ⟨⟨%X, -, Hs⟩, Hbut, Hreg, Htbl⟩
      isplitl [Hreg Htbl]
      · isplitl [Hreg]; · iexact Hreg
        iexact Htbl
      isplitr; · iempintro
      isplitr [Hbut]; swap; · iexact Hbut
      iexists X; iapply (Entails.of_eq (owns_whole (c : Thread nD τ) cc8_scratch0 fullShare X)); iexact Hs)

end Reg

end Cert.KernelIdeal.Hand

end
-- ==== Proof.Gather9.lean ====
import proofs.«401580_j65068754534945_2_alg».proof.Proof.Gather3

/-! One gather-and-mean region: groups of feature rows named by a table, summed in an accumulator that restarts at a group's first sample and is scaled into the output at its last. -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The restart test of the body, read off the sample coordinate. -/
abbrev first9 (i : grid9.Coords) : BitVec 1 :=
  Scalar.cmpi .ne (Scalar.extui (Scalar.cmpi .eq (BitVec.ofNat 32 (i 1).val) 0#32)) 0#32

/-- Point t is sample t % 25 of group t / 25. -/
theorem coords9_0 (t : Fin grid9.N) : (grid9.coords t 0).val = t.val / 25 % 1280 := by
  show t.val / grid9.stride 0 % _ = _; rw [show grid9.stride 0 = 25 by decide]; rfl
theorem coords9_1 (t : Fin grid9.N) : (grid9.coords t 1).val = t.val % 25 := by
  show t.val / grid9.stride 1 % _ = _; rw [show grid9.stride 1 = 1 by decide, Nat.div_one]; rfl

theorem first9_at (t : Fin grid9.N) : first9 (grid9.coords t) = 1#1 ↔ t.val % 25 = 0 := by
  rw [← coords9_1]; unfold first9; generalize grid9.coords t 1 = s; revert s; decide
theorem last9_at (t : Fin grid9.N) : k9_cond2 (grid9.coords t) = 1#1 ↔ t.val % 25 = 24 := by
  rw [← coords9_1]; unfold k9_cond2; generalize grid9.coords t 1 = s; revert s; decide

section
variable (a : (pcfg9 (F := F)).Adm)
variable (A : (c : Dev nD) → (w : Fin (cfg9 a).W) → Buf (Elt F) (((cfg9 a).win w).arr.view.loc (c.tc : Thread nD τ)))

/-- A point whose successor lies in another group, or is past the end, is a group's last sample. -/
theorem flush9_last (t : Fin (cfg9 a).N) (h : ((cfg9 a).win 1).flush t = true) : t.val % 25 = 24 := by
  unfold Pipeline.Window.flush at h
  simp only [Bool.and_eq_true, Bool.or_eq_true, decide_eq_true_eq] at h
  obtain ⟨-, h | ⟨h', hne⟩⟩ := h
  · have := h.trans N_9; omega
  · by_contra hc
    apply hne
    show cc9_transform_1 (grid9.coords ⟨t.val + 1, h'⟩) = cc9_transform_1 (grid9.coords t)
    refine hreads9_1 _ _ fun b hb => ?_
    obtain rfl : b = 0 := by revert hb; revert b; decide
    apply Fin.ext
    rw [coords9_0, coords9_0]
    show (t.val + 1) / 25 % 1280 = t.val / 25 % 1280
    omega

/-- The feature row the table names at point t. -/
def row9 (c : Dev nD) (t : Fin (cfg9 a).N) : Vec F S1x1x128 .f32 :=
  (((cfg9 a).win 0).blk t).view.read (Elt F) (A c 0)

/-- The running sum after point n, restarted from zero at a group's first sample. -/
def acc9 (c : Dev nD) : (n : ℕ) → n < (cfg9 a).N → Vec F S1x1x128 .f32
  | 0, h => k9_pay2 (k9_pay1 (F := F)) (row9 a A c ⟨0, h⟩)
  | n + 1, h => k9_pay2 (if first9 (grid9.coords ⟨n + 1, h⟩) = 1#1 then k9_pay1 (F := F) else acc9 c n (Nat.lt_of_succ_lt h))
      (row9 a A c ⟨n + 1, h⟩)

/-- Before position k the accumulator holds the running sum of the point before (anything before the first point). -/
def Phi9 (c : Dev nD) (k : ℕ) : sProp 𝕄 :=
  iprop((∃ X : Vec F S1x1x128 .f32, ⌜∀ n (h : n < (cfg9 a).N), k = n + 1 → X = acc9 a A c n h⌝
      ∗ owns (c : Thread nD τ) (Memref.whole cc9_scratch0) fullShare X)
    ∗ Pipeline.scopedRestBut (Ix := Unit) (Name := ℕ) (U := UR sig nD τ) (Lvl := ℕ) (Val := Elt F) spec9 c [cc9_scratch0]
    ∗ (∃ r, prngReg c r)
    ∗ Pipeline.prefHeld (Ix := Unit) (Name := ℕ) (U := UR sig nD τ) (Lvl := ℕ) pre9 c (fun _ => fullShare) a.1)

/-- What each point leaves: the named row on the input side, the group's scaled sum on the output side. -/
def dat9 (c : Dev nD) : Dat τ (Elt F) Unit ℕ (UR sig nD τ) ℕ (cfg9 a) c where
  A w := A c w
  after w t := match w with
    | ⟨0, _⟩ => row9 a A c t
    | ⟨1, _⟩ => k9_pay3 (acc9 a A c t.val t.isLt)
  Φ t := Phi9 a A c t.val
  q _ := fullShare
  owed _ := 0

theorem A_eq9 (c : Dev nD) (w : Fin (cfg9 a).W) : (dat9 a A c).A w = A c w := rfl
theorem after9_0 (c : Dev nD) (t : Fin (cfg9 a).N) : (dat9 a A c).after 0 t = row9 a A c t := rfl
theorem after9_1 (c : Dev nD) (t : Fin (cfg9 a).N) : (dat9 a A c).after 1 t = k9_pay3 (acc9 a A c t.val t.isLt) := rfl

theorem Phi9_castSucc (c : Dev nD) (t : Fin (cfg9 a).N) : (dat9 a A c).Φ t.castSucc = Phi9 a A c t.val := by
  dsimp only [dat9]; simp only [Fin.coe_castSucc]
theorem Phi9_succ (c : Dev nD) (t : Fin (cfg9 a).N) : (dat9 a A c).Φ t.succ = Phi9 a A c (t.val + 1) := rfl

theorem before9_0 (c : Dev nD) (t : Fin (cfg9 a).N) (d) : (dat9 a A c).before 0 t d = row9 a A c t :=
  ((dat9 a A c).before_in_eq_fetched 0 rfl (fun _ => rfl) (fun _ _ _ => rfl) (fun t => by rw [after9_0]; rfl) t d).trans rfl

end

/-- What a point leaves in the accumulator: the row added to zero at a first sample, to what was there otherwise. -/
def step9 (i : grid9.Coords) (X row : Vec F S1x1x128 .f32) : Vec F S1x1x128 .f32 :=
  k9_pay2 (if first9 i = 1#1 then k9_pay1 (F := F) else X) row

section
variable (a : (pcfg9 (F := F)).Adm)
variable (A : (c : Dev nD) → (w : Fin (cfg9 a).W) → Buf (Elt F) (((cfg9 a).win w).arr.view.loc (c.tc : Thread nD τ)))

/-- One step from what the invariant holds is the running sum at the point. -/
theorem step9_acc (c : Dev nD) (t : Fin (cfg9 a).N) (X : Vec F S1x1x128 .f32)
    (hX : ∀ n (h : n < (cfg9 a).N), t.val = n + 1 → X = acc9 a A c n h) :
    step9 (grid9.coords t) X (row9 a A c t) = acc9 a A c t.val t.isLt := by
  obtain ⟨n, hn⟩ := t
  cases n with
  | zero => unfold step9 acc9; rw [if_pos ((first9_at ⟨0, hn⟩).mpr rfl)]
  | succ n => unfold step9; rw [hX n (Nat.lt_of_succ_lt hn) rfl]; rfl

set_option maxHeartbeats 1000000 in
/-- Every point's run of the body keeps the invariant. -/
theorem body_obligation9 (c : Dev nD) : BodyObligation (dat9 a A c) (defs₀ (F := F)) Variants.none () Set.univ := fun t => by
  rw [bigSep_W9, bigSep_W9]
  rw [show (dat9 a A c).owesAt () t.succ = (dat9 a A c).owesAt () t.castSucc from rfl, Phi9_castSucc, Phi9_succ]
  show _ ⊢ wp frame _ Set.univ (cc3_kernel (grid9.coords t) (Memref.whole main_v60) (Memref.isWhole_whole _)
    (spec9_0.stage ((cfg9 a).slots t 0)) (hstage9_0 (((cfg9 a).slots t 0).cast nbuf9_0))
    (spec9_1.stage ((cfg9 a).slots t 1)) (hstage9_1 (((cfg9 a).slots t 1).cast nbuf9_1))
    (Memref.whole cc9_scratch0) (Memref.isWhole_whole _)) _
  have hf : k9_cond2 (grid9.coords t) ≠ 1#1 → ((pcfg9 (F := F)).win a 1).flush t = false := fun hl => by
    rw [← Bool.not_eq_true]; exact fun h => hl ((last9_at t).mpr (flush9_last a t h))
  by_cases hl : k9_cond2 (grid9.coords t) = 1#1
  all_goals
    have hi : idle9 1 (((pcfg9 (F := F)).gridAt a.1).coords t) = !decide (k9_cond2 (grid9.coords t) = 1#1) := by
      show (!(k9_cond2 (grid9.coords t) == 1#1)) = _
      first | (rw [hl]; rfl) | (rw [decide_eq_false hl, Bool.not_false, Bool.not_eq_true', beq_eq_false_iff_ne]; exact hl)
    first | rw [decide_eq_true hl, Bool.not_true] at hi | rw [decide_eq_false hl, Bool.not_false] at hi
    simp only [hi, after9_0, after9_1]
    iintro ⟨HΦ, Ho, ⟨%d0, H0⟩, ⟨%d1, H1⟩⟩
    rw [before9_0 a A c t d0]
    unfold Phi9
    icases HΦ with ⟨⟨%X, %hX, Hs⟩, Hrest, Hprng, Htbl⟩
    iapply (body3 c Set.univ (grid9.coords t) _ _ _ _ _ _ _ _ (row9 a A c t) X ((dat9 a A c).before 1 t d1)
      (acc9 a A c t.val t.isLt) _ (step9_acc a A c t X hX) (by first | exact if_pos hl | exact if_neg hl) _)
    iframe H0 Hs H1
    iintro ⟨H0, Hs, H1⟩
    iframe Ho H0 Hrest Hprng Htbl
    isplitl [Hs]
    · iexists _; isplitr; swap; · iexact Hs
      ipureintro; intro n h e
      obtain rfl : n = t.val := by omega
      rfl
    first
      | iexact H1
      | (split
         · iexists d1; iexact H1
         · rename_i hft; exact absurd (hft.symm.trans (hf hl)) (by decide))

end

/-- Entries below the feature table's height name rows inside it. -/
theorem ok9_of_inb (pf : pre9.Contents (Elt F)) (h : ∀ k, ((pf 0) k).toNat < 500000) : ok9 (F := F) pf := by
  intro i
  refine ⟨fun b => ?_, Or.inl rfl⟩
  match b with
  | ⟨0, _⟩ =>
    have hh : cc9_transform_0 k9_off1_inb numel1_S1 pf i ⟨0, by decide⟩ < 500000 := h _
    show (cc9_transform_0 k9_off1_inb numel1_S1 pf i ⟨0, _⟩ + 1) * 1 ≤ 500000
    omega
  | ⟨1, _⟩ => show (0 + 1) * 1 ≤ 1; decide
  | ⟨2, _⟩ => show (0 + 1) * 128 ≤ 128; decide
  | ⟨_ + 3, hb⟩ => exact absurd hb (by omega)

section Reg
variable (a : (p : Fin 14) → (pcfgs (F := F) p).Adm)
variable (pdats : (p : Fin 14) → (c : Dev nD) → Dat τ (Elt F) Unit ℕ (UR sig nD τ) ℕ (Pipeline.pin (pcfgs (F := F)) a p) c)
variable (A : (c : Dev nD) → (w : Fin (cfg9 (a 9)).W) → Buf (Elt F) (((cfg9 (a 9)).win w).arr.view.loc (c.tc : Thread nD τ)))
variable (Vin Vout : (c : Dev nD) → Valuation τ sig (Elt F))

set_option backward.isDefEq.respectTransparency.types false in
/-- The region as a step from the memory at Vin, which holds the table at the admissible contents, to the memory at Vout. -/
def reg9 (hpd : ∀ c, pdats 9 c = dat9 (a 9) A c)
    (hA : ∀ c w, A c w = Vin c (Pipeline.arrRef spec9 w))
    (hT : ∀ c, Vin c main_v60 = (a 9).1 0)
    (hF : ∀ c w, (dat9 (a 9) A c).arrAt w (cfg9 (a 9)).N = Vout c (Pipeline.arrRef spec9 w))
    (hrest : ∀ c (b : Ref sig .tc), b ∉ Finset.univ.image (Pipeline.arrRef spec9) → Vout c b = Vin c b) :
    Pipeline.RegionSeg (pcfgs (F := F)) a pdats () defs₀ Variants.none Lh lvh 9 :=
  seg (launch9 (F := F)) a pdats Vin Vout
    (fun c w => by rw [hpd c]; exact (dat9 (a 9) A c).share_full (fun _ => rfl) w)
    (fun c => funext fun (k : Fin 1) => by obtain rfl : k = 0 := Subsingleton.elim _ _; exact hT c)
    (fun c w => by rw [hpd c, A_eq9]; exact hA c w) (fun c w => by rw [hpd c]; exact hF c w) hrest
    (fun c _ => by rw [hpd c]; rfl) (fun c => by rw [hpd c]; rfl)
    (fun c => by rw [hpd c]; exact (body_obligation9 (a 9) A c).loose)
    (fun c => by
      rw [hpd c]
      show _ ⊢ Phi9 (a 9) A c 0
      unfold Phi9
      erw [scopedRest9_split]
      iintro ⟨Hreg, Htbl, ⟨%f, Hf⟩, Hbut⟩
      iframe Hbut Hreg
      isplitr [Htbl]; swap; · iexact Htbl
      iexists f; isplitr
      · ipureintro; intro n h e; exact absurd e (Nat.succ_ne_zero n).symm
      iapply (Entails.of_eq (owns_whole (c : Thread nD τ) cc9_scratch0 fullShare f).symm); iexact Hf)
    (fun c => by
      rw [Pipeline.ownSems0_none, hpd c]
      show Phi9 (a 9) A c (cfg9 (a 9)).N ⊢ _
      unfold Phi9
      erw [scopedRest9_split]
      iintro ⟨⟨%X, -, Hs⟩, Hbut, Hreg, Htbl⟩
      isplitl [Hreg Htbl]
      · isplitl [Hreg]; · iexact Hreg
        iexact Htbl
      isplitr; · iempintro
      isplitr [Hbut]; swap; · iexact Hbut
      iexists X; iapply (Entails.of_eq (owns_whole (c : Thread nD τ) cc9_scratch0 fullShare X)); iexact Hs)

end Reg

end Cert.KernelIdeal.Hand

end
-- ==== Proof.Gather10.lean ====
import proofs.«401580_j65068754534945_2_alg».proof.Proof.Gather3

/-! One gather-and-mean region: groups of feature rows named by a table, summed in an accumulator that restarts at a group's first sample and is scaled into the output at its last. -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The restart test of the body, read off the sample coordinate. -/
abbrev first10 (i : grid10.Coords) : BitVec 1 :=
  Scalar.cmpi .ne (Scalar.extui (Scalar.cmpi .eq (BitVec.ofNat 32 (i 1).val) 0#32)) 0#32

/-- Point t is sample t % 25 of group t / 25. -/
theorem coords10_0 (t : Fin grid10.N) : (grid10.coords t 0).val = t.val / 25 % 1280 := by
  show t.val / grid10.stride 0 % _ = _; rw [show grid10.stride 0 = 25 by decide]; rfl
theorem coords10_1 (t : Fin grid10.N) : (grid10.coords t 1).val = t.val % 25 := by
  show t.val / grid10.stride 1 % _ = _; rw [show grid10.stride 1 = 1 by decide, Nat.div_one]; rfl

theorem first10_at (t : Fin grid10.N) : first10 (grid10.coords t) = 1#1 ↔ t.val % 25 = 0 := by
  rw [← coords10_1]; unfold first10; generalize grid10.coords t 1 = s; revert s; decide
theorem last10_at (t : Fin grid10.N) : k10_cond2 (grid10.coords t) = 1#1 ↔ t.val % 25 = 24 := by
  rw [← coords10_1]; unfold k10_cond2; generalize grid10.coords t 1 = s; revert s; decide

section
variable (a : (pcfg10 (F := F)).Adm)
variable (A : (c : Dev nD) → (w : Fin (cfg10 a).W) → Buf (Elt F) (((cfg10 a).win w).arr.view.loc (c.tc : Thread nD τ)))

/-- A point whose successor lies in another group, or is past the end, is a group's last sample. -/
theorem flush10_last (t : Fin (cfg10 a).N) (h : ((cfg10 a).win 1).flush t = true) : t.val % 25 = 24 := by
  unfold Pipeline.Window.flush at h
  simp only [Bool.and_eq_true, Bool.or_eq_true, decide_eq_true_eq] at h
  obtain ⟨-, h | ⟨h', hne⟩⟩ := h
  · have := h.trans N_10; omega
  · by_contra hc
    apply hne
    show cc10_transform_1 (grid10.coords ⟨t.val + 1, h'⟩) = cc10_transform_1 (grid10.coords t)
    refine hreads10_1 _ _ fun b hb => ?_
    obtain rfl : b = 0 := by revert hb; revert b; decide
    apply Fin.ext
    rw [coords10_0, coords10_0]
    show (t.val + 1) / 25 % 1280 = t.val / 25 % 1280
    omega

/-- The feature row the table names at point t. -/
def row10 (c : Dev nD) (t : Fin (cfg10 a).N) : Vec F S1x1x128 .f32 :=
  (((cfg10 a).win 0).blk t).view.read (Elt F) (A c 0)

/-- The running sum after point n, restarted from zero at a group's first sample. -/
def acc10 (c : Dev nD) : (n : ℕ) → n < (cfg10 a).N → Vec F S1x1x128 .f32
  | 0, h => k10_pay2 (k10_pay1 (F := F)) (row10 a A c ⟨0, h⟩)
  | n + 1, h => k10_pay2 (if first10 (grid10.coords ⟨n + 1, h⟩) = 1#1 then k10_pay1 (F := F) else acc10 c n (Nat.lt_of_succ_lt h))
      (row10 a A c ⟨n + 1, h⟩)

/-- Before position k the accumulator holds the running sum of the point before (anything before the first point). -/
def Phi10 (c : Dev nD) (k : ℕ) : sProp 𝕄 :=
  iprop((∃ X : Vec F S1x1x128 .f32, ⌜∀ n (h : n < (cfg10 a).N), k = n + 1 → X = acc10 a A c n h⌝
      ∗ owns (c : Thread nD τ) (Memref.whole cc10_scratch0) fullShare X)
    ∗ Pipeline.scopedRestBut (Ix := Unit) (Name := ℕ) (U := UR sig nD τ) (Lvl := ℕ) (Val := Elt F) spec10 c [cc10_scratch0]
    ∗ (∃ r, prngReg c r)
    ∗ Pipeline.prefHeld (Ix := Unit) (Name := ℕ) (U := UR sig nD τ) (Lvl := ℕ) pre10 c (fun _ => fullShare) a.1)

/-- What each point leaves: the named row on the input side, the group's scaled sum on the output side. -/
def dat10 (c : Dev nD) : Dat τ (Elt F) Unit ℕ (UR sig nD τ) ℕ (cfg10 a) c where
  A w := A c w
  after w t := match w with
    | ⟨0, _⟩ => row10 a A c t
    | ⟨1, _⟩ => k10_pay3 (acc10 a A c t.val t.isLt)
  Φ t := Phi10 a A c t.val
  q _ := fullShare
  owed _ := 0

theorem A_eq10 (c : Dev nD) (w : Fin (cfg10 a).W) : (dat10 a A c).A w = A c w := rfl
theorem after10_0 (c : Dev nD) (t : Fin (cfg10 a).N) : (dat10 a A c).after 0 t = row10 a A c t := rfl
theorem after10_1 (c : Dev nD) (t : Fin (cfg10 a).N) : (dat10 a A c).after 1 t = k10_pay3 (acc10 a A c t.val t.isLt) := rfl

theorem Phi10_castSucc (c : Dev nD) (t : Fin (cfg10 a).N) : (dat10 a A c).Φ t.castSucc = Phi10 a A c t.val := by
  dsimp only [dat10]; simp only [Fin.coe_castSucc]
theorem Phi10_succ (c : Dev nD) (t : Fin (cfg10 a).N) : (dat10 a A c).Φ t.succ = Phi10 a A c (t.val + 1) := rfl

theorem before10_0 (c : Dev nD) (t : Fin (cfg10 a).N) (d) : (dat10 a A c).before 0 t d = row10 a A c t :=
  ((dat10 a A c).before_in_eq_fetched 0 rfl (fun _ => rfl) (fun _ _ _ => rfl) (fun t => by rw [after10_0]; rfl) t d).trans rfl

end

/-- What a point leaves in the accumulator: the row added to zero at a first sample, to what was there otherwise. -/
def step10 (i : grid10.Coords) (X row : Vec F S1x1x128 .f32) : Vec F S1x1x128 .f32 :=
  k10_pay2 (if first10 i = 1#1 then k10_pay1 (F := F) else X) row

section
variable (a : (pcfg10 (F := F)).Adm)
variable (A : (c : Dev nD) → (w : Fin (cfg10 a).W) → Buf (Elt F) (((cfg10 a).win w).arr.view.loc (c.tc : Thread nD τ)))

/-- One step from what the invariant holds is the running sum at the point. -/
theorem step10_acc (c : Dev nD) (t : Fin (cfg10 a).N) (X : Vec F S1x1x128 .f32)
    (hX : ∀ n (h : n < (cfg10 a).N), t.val = n + 1 → X = acc10 a A c n h) :
    step10 (grid10.coords t) X (row10 a A c t) = acc10 a A c t.val t.isLt := by
  obtain ⟨n, hn⟩ := t
  cases n with
  | zero => unfold step10 acc10; rw [if_pos ((first10_at ⟨0, hn⟩).mpr rfl)]
  | succ n => unfold step10; rw [hX n (Nat.lt_of_succ_lt hn) rfl]; rfl

set_option maxHeartbeats 1000000 in
/-- Every point's run of the body keeps the invariant. -/
theorem body_obligation10 (c : Dev nD) : BodyObligation (dat10 a A c) (defs₀ (F := F)) Variants.none () Set.univ := fun t => by
  rw [bigSep_W10, bigSep_W10]
  rw [show (dat10 a A c).owesAt () t.succ = (dat10 a A c).owesAt () t.castSucc from rfl, Phi10_castSucc, Phi10_succ]
  show _ ⊢ wp frame _ Set.univ (cc3_kernel (grid10.coords t) (Memref.whole main_v64) (Memref.isWhole_whole _)
    (spec10_0.stage ((cfg10 a).slots t 0)) (hstage10_0 (((cfg10 a).slots t 0).cast nbuf10_0))
    (spec10_1.stage ((cfg10 a).slots t 1)) (hstage10_1 (((cfg10 a).slots t 1).cast nbuf10_1))
    (Memref.whole cc10_scratch0) (Memref.isWhole_whole _)) _
  have hf : k10_cond2 (grid10.coords t) ≠ 1#1 → ((pcfg10 (F := F)).win a 1).flush t = false := fun hl => by
    rw [← Bool.not_eq_true]; exact fun h => hl ((last10_at t).mpr (flush10_last a t h))
  by_cases hl : k10_cond2 (grid10.coords t) = 1#1
  all_goals
    have hi : idle10 1 (((pcfg10 (F := F)).gridAt a.1).coords t) = !decide (k10_cond2 (grid10.coords t) = 1#1) := by
      show (!(k10_cond2 (grid10.coords t) == 1#1)) = _
      first | (rw [hl]; rfl) | (rw [decide_eq_false hl, Bool.not_false, Bool.not_eq_true', beq_eq_false_iff_ne]; exact hl)
    first | rw [decide_eq_true hl, Bool.not_true] at hi | rw [decide_eq_false hl, Bool.not_false] at hi
    simp only [hi, after10_0, after10_1]
    iintro ⟨HΦ, Ho, ⟨%d0, H0⟩, ⟨%d1, H1⟩⟩
    rw [before10_0 a A c t d0]
    unfold Phi10
    icases HΦ with ⟨⟨%X, %hX, Hs⟩, Hrest, Hprng, Htbl⟩
    iapply (body3 c Set.univ (grid10.coords t) _ _ _ _ _ _ _ _ (row10 a A c t) X ((dat10 a A c).before 1 t d1)
      (acc10 a A c t.val t.isLt) _ (step10_acc a A c t X hX) (by first | exact if_pos hl | exact if_neg hl) _)
    iframe H0 Hs H1
    iintro ⟨H0, Hs, H1⟩
    iframe Ho H0 Hrest Hprng Htbl
    isplitl [Hs]
    · iexists _; isplitr; swap; · iexact Hs
      ipureintro; intro n h e
      obtain rfl : n = t.val := by omega
      rfl
    first
      | iexact H1
      | (split
         · iexists d1; iexact H1
         · rename_i hft; exact absurd (hft.symm.trans (hf hl)) (by decide))

end

/-- Entries below the feature table's height name rows inside it. -/
theorem ok10_of_inb (pf : pre10.Contents (Elt F)) (h : ∀ k, ((pf 0) k).toNat < 500000) : ok10 (F := F) pf := by
  intro i
  refine ⟨fun b => ?_, Or.inl rfl⟩
  match b with
  | ⟨0, _⟩ =>
    have hh : cc10_transform_0 k10_off1_inb numel1_S1 pf i ⟨0, by decide⟩ < 500000 := h _
    show (cc10_transform_0 k10_off1_inb numel1_S1 pf i ⟨0, _⟩ + 1) * 1 ≤ 500000
    omega
  | ⟨1, _⟩ => show (0 + 1) * 1 ≤ 1; decide
  | ⟨2, _⟩ => show (0 + 1) * 128 ≤ 128; decide
  | ⟨_ + 3, hb⟩ => exact absurd hb (by omega)

section Reg
variable (a : (p : Fin 14) → (pcfgs (F := F) p).Adm)
variable (pdats : (p : Fin 14) → (c : Dev nD) → Dat τ (Elt F) Unit ℕ (UR sig nD τ) ℕ (Pipeline.pin (pcfgs (F := F)) a p) c)
variable (A : (c : Dev nD) → (w : Fin (cfg10 (a 10)).W) → Buf (Elt F) (((cfg10 (a 10)).win w).arr.view.loc (c.tc : Thread nD τ)))
variable (Vin Vout : (c : Dev nD) → Valuation τ sig (Elt F))

set_option backward.isDefEq.respectTransparency.types false in
/-- The region as a step from the memory at Vin, which holds the table at the admissible contents, to the memory at Vout. -/
def reg10 (hpd : ∀ c, pdats 10 c = dat10 (a 10) A c)
    (hA : ∀ c w, A c w = Vin c (Pipeline.arrRef spec10 w))
    (hT : ∀ c, Vin c main_v64 = (a 10).1 0)
    (hF : ∀ c w, (dat10 (a 10) A c).arrAt w (cfg10 (a 10)).N = Vout c (Pipeline.arrRef spec10 w))
    (hrest : ∀ c (b : Ref sig .tc), b ∉ Finset.univ.image (Pipeline.arrRef spec10) → Vout c b = Vin c b) :
    Pipeline.RegionSeg (pcfgs (F := F)) a pdats () defs₀ Variants.none Lh lvh 10 :=
  seg (launch10 (F := F)) a pdats Vin Vout
    (fun c w => by rw [hpd c]; exact (dat10 (a 10) A c).share_full (fun _ => rfl) w)
    (fun c => funext fun (k : Fin 1) => by obtain rfl : k = 0 := Subsingleton.elim _ _; exact hT c)
    (fun c w => by rw [hpd c, A_eq10]; exact hA c w) (fun c w => by rw [hpd c]; exact hF c w) hrest
    (fun c _ => by rw [hpd c]; rfl) (fun c => by rw [hpd c]; rfl)
    (fun c => by rw [hpd c]; exact (body_obligation10 (a 10) A c).loose)
    (fun c => by
      rw [hpd c]
      show _ ⊢ Phi10 (a 10) A c 0
      unfold Phi10
      erw [scopedRest10_split]
      iintro ⟨Hreg, Htbl, ⟨%f, Hf⟩, Hbut⟩
      iframe Hbut Hreg
      isplitr [Htbl]; swap; · iexact Htbl
      iexists f; isplitr
      · ipureintro; intro n h e; exact absurd e (Nat.succ_ne_zero n).symm
      iapply (Entails.of_eq (owns_whole (c : Thread nD τ) cc10_scratch0 fullShare f).symm); iexact Hf)
    (fun c => by
      rw [Pipeline.ownSems0_none, hpd c]
      show Phi10 (a 10) A c (cfg10 (a 10)).N ⊢ _
      unfold Phi10
      erw [scopedRest10_split]
      iintro ⟨⟨%X, -, Hs⟩, Hbut, Hreg, Htbl⟩
      isplitl [Hreg Htbl]
      · isplitl [Hreg]; · iexact Hreg
        iexact Htbl
      isplitr; · iempintro
      isplitr [Hbut]; swap; · iexact Hbut
      iexists X; iapply (Entails.of_eq (owns_whole (c : Thread nD τ) cc10_scratch0 fullShare X)); iexact Hs)

end Reg

end Cert.KernelIdeal.Hand

end
-- ==== Proof.Mlp11.lean ====
import proofs.«401580_j65068754534945_2_alg».proof.Proof.Base

/-! A two-product region: each point reads four blocks whole, forms two matrix products over zero, sets them side by side, rectifies, and stores the block in one piece, so the output block is a closed function of the four input blocks. -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

def out11 (x0 x1 : Vec F S1024x128 .f32) (x2 x3 : Vec F S128x128 .f32) : Vec F S1024x256 .f32 :=
  k11_pay1 x0 x2 x1 x3

set_option maxHeartbeats 1000000 in
theorem sound_kernel11 (c : Dev nD) (E : Set ℕ) (i : grid11.Coords)
    (arg1 : Memref sig .tc .vmem S1024x128 .f32) (harg1 : arg1.IsWhole)
    (arg2 : Memref sig .tc .vmem S1024x128 .f32) (harg2 : arg2.IsWhole)
    (arg3 : Memref sig .tc .vmem S128x128 .f32) (harg3 : arg3.IsWhole)
    (arg4 : Memref sig .tc .vmem S128x128 .f32) (harg4 : arg4.IsWhole)
    (arg5 : Memref sig .tc .vmem S1024x256 .f32) (harg5 : arg5.IsWhole)
    (x0 x1 : Vec F S1024x128 .f32) (x2 x3 : Vec F S128x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out11 x0 x1 x2 x3)) -∗ K ⟨⟩))
      ⊢ wp frame (wpE (defs₀ (F := F)) Variants.none c none) E
          (cc11_kernel i arg1 harg1 arg2 harg2 arg3 harg3 arg4 harg4 arg5 harg5) K := by
  simp only [cc11_kernel_eq_skeleton]; unfold cc11_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  simp only [readAt_whole_zero (S := S1024x128) _ _ zeros2, readAt_whole_zero (S := S128x128) _ _ zeros2]
  rw [read_store_whole_zero (S := S1024x256) _ _ zeros2]
  unfold out11
  rfl

variable (A : (c : Dev nD) → (w : Fin cfg11.W) → Buf (Elt F) ((cfg11.win w).arr.view.loc (c.tc : Thread nD τ)))

def blk11 (c : Dev nD) (w : Fin cfg11.W) (t : Fin cfg11.N) :
    ((cfg11.win w).xblock (cfg11.grid.coords t)).Idx → Elt F (cfg11.win w).elt :=
  ((cfg11.win w).blk t).view.read (Elt F) (A c w)

def dat11 (c : Dev nD) : Dat τ (Elt F) Unit ℕ (UR sig nD τ) ℕ cfg11 c where
  A w := A c w
  after w t := match w with
    | ⟨0, _⟩ => blk11 A c 0 t
    | ⟨1, _⟩ => blk11 A c 1 t
    | ⟨2, _⟩ => blk11 A c 2 t
    | ⟨3, _⟩ => blk11 A c 3 t
    | ⟨4, _⟩ => out11 (blk11 A c 0 t) (blk11 A c 1 t) (blk11 A c 2 t) (blk11 A c 3 t)
  Φ _ := Pipeline.ΦA spec11 c
  q _ := fullShare
  owed _ := 0

theorem A_eq11 (c : Dev nD) (w : Fin cfg11.W) : (dat11 A c).A w = A c w := by dsimp only [dat11]

theorem after11_0 (c : Dev nD) (t : Fin cfg11.N) : (dat11 A c).after 0 t = blk11 A c 0 t := by dsimp only [dat11]
theorem after11_1 (c : Dev nD) (t : Fin cfg11.N) : (dat11 A c).after 1 t = blk11 A c 1 t := by dsimp only [dat11]
theorem after11_2 (c : Dev nD) (t : Fin cfg11.N) : (dat11 A c).after 2 t = blk11 A c 2 t := by dsimp only [dat11]
theorem after11_3 (c : Dev nD) (t : Fin cfg11.N) : (dat11 A c).after 3 t = blk11 A c 3 t := by dsimp only [dat11]
theorem after11_4 (c : Dev nD) (t : Fin cfg11.N) :
    (dat11 A c).after 4 t = out11 (blk11 A c 0 t) (blk11 A c 1 t) (blk11 A c 2 t) (blk11 A c 3 t) := by
  dsimp only [dat11]

theorem before11_0 (c : Dev nD) (t : Fin cfg11.N) (d) : (dat11 A c).before 0 t d = blk11 A c 0 t :=
  ((dat11 A c).before_in_eq_fetched 0 rfl (fun _ => rfl) (fun _ _ _ => rfl)
    (fun t => by rw [after11_0]; unfold Dat.blockOf blk11; rw [A_eq11]) t d).trans
    (by unfold Dat.fetched Dat.blockOf blk11; rw [A_eq11]; rfl)
theorem before11_1 (c : Dev nD) (t : Fin cfg11.N) (d) : (dat11 A c).before 1 t d = blk11 A c 1 t :=
  ((dat11 A c).before_in_eq_fetched 1 rfl (fun _ => rfl) (fun _ _ _ => rfl)
    (fun t => by rw [after11_1]; unfold Dat.blockOf blk11; rw [A_eq11]) t d).trans
    (by unfold Dat.fetched Dat.blockOf blk11; rw [A_eq11]; rfl)
theorem before11_2 (c : Dev nD) (t : Fin cfg11.N) (d) : (dat11 A c).before 2 t d = blk11 A c 2 t :=
  ((dat11 A c).before_in_eq_fetched 2 rfl (fun _ => rfl) (fun _ _ _ => rfl)
    (fun t => by rw [after11_2]; unfold Dat.blockOf blk11; rw [A_eq11]) t d).trans
    (by unfold Dat.fetched Dat.blockOf blk11; rw [A_eq11]; rfl)
theorem before11_3 (c : Dev nD) (t : Fin cfg11.N) (d) : (dat11 A c).before 3 t d = blk11 A c 3 t :=
  ((dat11 A c).before_in_eq_fetched 3 rfl (fun _ => rfl) (fun _ _ _ => rfl)
    (fun t => by rw [after11_3]; unfold Dat.blockOf blk11; rw [A_eq11]) t d).trans
    (by unfold Dat.fetched Dat.blockOf blk11; rw [A_eq11]; rfl)

def bodyPre11 (c : Dev nD) (t : Fin cfg11.N) : sProp 𝕄 :=
  iprop((dat11 A c).Φ t.castSucc ∗ (dat11 A c).owesAt () t.castSucc
    ∗ (∃ d, owns (c : Thread nD τ) (st11_0 t) fullShare ((dat11 A c).before 0 t d))
    ∗ (∃ d, owns (c : Thread nD τ) (st11_1 t) fullShare ((dat11 A c).before 1 t d))
    ∗ (∃ d, owns (c : Thread nD τ) (st11_2 t) fullShare ((dat11 A c).before 2 t d))
    ∗ (∃ d, owns (c : Thread nD τ) (st11_3 t) fullShare ((dat11 A c).before 3 t d))
    ∗ (∃ d, owns (c : Thread nD τ) (st11_4 t) fullShare ((dat11 A c).before 4 t d)))

def bodyPost11 (c : Dev nD) (t : Fin cfg11.N) : sProp 𝕄 :=
  iprop((dat11 A c).Φ t.succ ∗ (dat11 A c).owesAt () t.succ
    ∗ owns (c : Thread nD τ) (st11_0 t) fullShare ((dat11 A c).after 0 t)
    ∗ owns (c : Thread nD τ) (st11_1 t) fullShare ((dat11 A c).after 1 t)
    ∗ owns (c : Thread nD τ) (st11_2 t) fullShare ((dat11 A c).after 2 t)
    ∗ owns (c : Thread nD τ) (st11_3 t) fullShare ((dat11 A c).after 3 t)
    ∗ owns (c : Thread nD τ) (st11_4 t) fullShare ((dat11 A c).after 4 t))

theorem sound_body11 (c : Dev nD) (t : Fin cfg11.N) :
    bodyPre11 A c t ⊢ wp frame (wpE (defs₀ (F := F)) Variants.none c none) Set.univ (bodyAt11 t)
      (fun _ => bodyPost11 A c t) := by
  unfold bodyPre11 bodyPost11 bodyAt11
  simp only [before11_0, before11_1, before11_2, before11_3]
  rewrite [after11_0, after11_1, after11_2, after11_3, after11_4,
    show (dat11 A c).Φ t.succ = (dat11 A c).Φ t.castSucc from rfl,
    show (dat11 A c).owesAt () t.succ = (dat11 A c).owesAt () t.castSucc from rfl]
  iintro ⟨HΦ, Ho, ⟨%d0, H0⟩, ⟨%d1, H1⟩, ⟨%d2, H2⟩, ⟨%d3, H3⟩, H4⟩
  iapply (sound_kernel11 c Set.univ (grid11.coords t) _ _ _ _ _ _ _ _ _ _
    (blk11 A c 0 t) (blk11 A c 1 t) (blk11 A c 2 t) (blk11 A c 3 t) _)
  isplitl [H0]; · iexact H0
  isplitl [H1]; · iexact H1
  isplitl [H2]; · iexact H2
  isplitl [H3]; · iexact H3
  isplitl [H4]
  · icases H4 with ⟨%d4, H4⟩; iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation11 (c : Dev nD) :
    BodyObligation (dat11 (F := F) A c) (defs₀ (F := F)) Variants.none () Set.univ := fun t => by
  rw [bigSep_W11, bigSep_W11]
  exact sound_body11 A c t

end Cert.KernelIdeal.Hand

end
-- ==== Proof.Reg11.lean ====
import proofs.«401580_j65068754534945_2_alg».proof.Proof.Mlp11

/-! A two-product region as a step from one memory of the program to the next. -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (a : (p : Fin 14) → (pcfgs (F := F) p).Adm)
variable (pdats : (p : Fin 14) → (c : Dev nD) → Dat τ (Elt F) Unit ℕ (UR sig nD τ) ℕ (Pipeline.pin (pcfgs (F := F)) a p) c)

variable (A : (c : Dev nD) → (w : Fin cfg11.W) → Buf (Elt F) ((cfg11.win w).arr.view.loc (c.tc : Thread nD τ)))
variable (Vin Vout : (c : Dev nD) → Valuation τ sig (Elt F))

set_option backward.isDefEq.respectTransparency.types false in
/-- The region as a step from the memory at Vin to the memory at Vout. -/
def reg11 (hpd : ∀ c, pdats 11 c = dat11 A c)
    (hA : ∀ c w, A c w = Vin c (Pipeline.arrRef spec11 w))
    (hF : ∀ c w, (dat11 A c).arrAt w cfg11.N = Vout c (Pipeline.arrRef spec11 w))
    (hrest : ∀ c (b : Ref sig .tc), b ∉ Finset.univ.image (Pipeline.arrRef spec11) → Vout c b = Vin c b) :
    Pipeline.RegionSeg (pcfgs (F := F)) a pdats () defs₀ Variants.none Lh lvh 11 :=
  seg (launch11 (F := F)) a pdats Vin Vout
    (fun c w => by rw [hpd c]; exact (dat11 A c).share_full (fun _ => rfl) w)
    (fun c => funext fun k => k.elim0)
    (fun c w => by rw [hpd c, A_eq11]; exact hA c w) (fun c w => by rw [hpd c]; exact hF c w) hrest
    (fun c _ => by rw [hpd c]; rfl) (fun c => by rw [hpd c]; rfl)
    (fun c => by rw [hpd c]; exact (body_obligation11 A c).loose)
    (fun c => by
      rw [hpd c, show (dat11 A c).Φ 0 = Pipeline.ΦA spec11 c from rfl]; unfold Pipeline.ΦA
      iintro ⟨Hreg, -, Hscoped⟩
      isplitl [Hscoped]; · iexact Hscoped
      iexact Hreg)
    (fun c => by
      rw [Pipeline.ownSems0_none, hpd c, show (dat11 A c).Φ (Fin.last (Pipeline.pin (pcfgs (F := F)) a 11).N) = Pipeline.ΦA spec11 c from rfl]
      unfold Pipeline.ΦA
      iintro ⟨Hscoped, Hreg⟩
      isplitl [Hreg]
      · isplitl [Hreg]; · iexact Hreg
        unfold Pipeline.prefHeld
        rw [show (Finset.univ : Finset (Fin 0)) = ∅ from rfl, BI.bigSep_empty]; iempintro
      isplitr; · iempintro
      iexact Hscoped)

theorem reg11_pre (hpd : ∀ c, pdats 11 c = dat11 A c)
    (hA : ∀ c w, A c w = Vin c (Pipeline.arrRef spec11 w))
    (hF : ∀ c w, (dat11 A c).arrAt w cfg11.N = Vout c (Pipeline.arrRef spec11 w))
    (hrest : ∀ c (b : Ref sig .tc), b ∉ Finset.univ.image (Pipeline.arrRef spec11) → Vout c b = Vin c b) (c : Dev nD) :
    (reg11 a pdats A Vin Vout hpd hA hF hrest).pre c
      = iprop(StableHlo.held (c : Thread nD τ) (Pipeline.ucRefs τ sig) (Vin c) ∗ Rst c) := rfl

theorem reg11_post (hpd : ∀ c, pdats 11 c = dat11 A c)
    (hA : ∀ c w, A c w = Vin c (Pipeline.arrRef spec11 w))
    (hF : ∀ c w, (dat11 A c).arrAt w cfg11.N = Vout c (Pipeline.arrRef spec11 w))
    (hrest : ∀ c (b : Ref sig .tc), b ∉ Finset.univ.image (Pipeline.arrRef spec11) → Vout c b = Vin c b) (c : Dev nD) :
    (reg11 a pdats A Vin Vout hpd hA hF hrest).post c
      = iprop(StableHlo.held (c : Thread nD τ) (Pipeline.ucRefs τ sig) (Vout c) ∗ Rst c) := rfl

end Cert.KernelIdeal.Hand

end
-- ==== Proof.Mlp12.lean ====
import proofs.«401580_j65068754534945_2_alg».proof.Proof.Base

/-! A two-product region on ten row tiles: each point's output block is a closed function of its four input blocks. -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

def out12 (x0 x1 : Vec F S1024x128 .f32) (x2 x3 : Vec F S128x128 .f32) : Vec F S1024x256 .f32 :=
  k12_pay1 x0 x2 x1 x3

set_option maxHeartbeats 1000000 in
theorem sound_kernel12 (c : Dev nD) (E : Set ℕ) (i : grid12.Coords)
    (arg1 : Memref sig .tc .vmem S1024x128 .f32) (harg1 : arg1.IsWhole)
    (arg2 : Memref sig .tc .vmem S1024x128 .f32) (harg2 : arg2.IsWhole)
    (arg3 : Memref sig .tc .vmem S128x128 .f32) (harg3 : arg3.IsWhole)
    (arg4 : Memref sig .tc .vmem S128x128 .f32) (harg4 : arg4.IsWhole)
    (arg5 : Memref sig .tc .vmem S1024x256 .f32) (harg5 : arg5.IsWhole)
    (x0 x1 : Vec F S1024x128 .f32) (x2 x3 : Vec F S128x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out12 x0 x1 x2 x3)) -∗ K ⟨⟩))
      ⊢ wp frame (wpE (defs₀ (F := F)) Variants.none c none) E
          (cc12_kernel i arg1 harg1 arg2 harg2 arg3 harg3 arg4 harg4 arg5 harg5) K := by
  simp only [cc12_kernel_eq_skeleton]; unfold cc12_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  simp only [readAt_whole_zero (S := S1024x128) _ _ zeros2, readAt_whole_zero (S := S128x128) _ _ zeros2]
  rw [read_store_whole_zero (S := S1024x256) _ _ zeros2]
  unfold out12
  rfl

variable (A : (c : Dev nD) → (w : Fin cfg12.W) → Buf (Elt F) ((cfg12.win w).arr.view.loc (c.tc : Thread nD τ)))

def blk12 (c : Dev nD) (w : Fin cfg12.W) (t : Fin cfg12.N) :
    ((cfg12.win w).xblock (cfg12.grid.coords t)).Idx → Elt F (cfg12.win w).elt :=
  ((cfg12.win w).blk t).view.read (Elt F) (A c w)

def dat12 (c : Dev nD) : Dat τ (Elt F) Unit ℕ (UR sig nD τ) ℕ cfg12 c where
  A w := A c w
  after w t := match w with
    | ⟨0, _⟩ => blk12 A c 0 t
    | ⟨1, _⟩ => blk12 A c 1 t
    | ⟨2, _⟩ => blk12 A c 2 t
    | ⟨3, _⟩ => blk12 A c 3 t
    | ⟨4, _⟩ => out12 (blk12 A c 0 t) (blk12 A c 1 t) (blk12 A c 2 t) (blk12 A c 3 t)
  Φ _ := Pipeline.ΦA spec12 c
  q _ := fullShare
  owed _ := 0

theorem A_eq12 (c : Dev nD) (w : Fin cfg12.W) : (dat12 A c).A w = A c w := by dsimp only [dat12]

theorem after12_0 (c : Dev nD) (t : Fin cfg12.N) : (dat12 A c).after 0 t = blk12 A c 0 t := by dsimp only [dat12]
theorem after12_1 (c : Dev nD) (t : Fin cfg12.N) : (dat12 A c).after 1 t = blk12 A c 1 t := by dsimp only [dat12]
theorem after12_2 (c : Dev nD) (t : Fin cfg12.N) : (dat12 A c).after 2 t = blk12 A c 2 t := by dsimp only [dat12]
theorem after12_3 (c : Dev nD) (t : Fin cfg12.N) : (dat12 A c).after 3 t = blk12 A c 3 t := by dsimp only [dat12]
theorem after12_4 (c : Dev nD) (t : Fin cfg12.N) :
    (dat12 A c).after 4 t = out12 (blk12 A c 0 t) (blk12 A c 1 t) (blk12 A c 2 t) (blk12 A c 3 t) := by
  dsimp only [dat12]

theorem before12_0 (c : Dev nD) (t : Fin cfg12.N) (d) : (dat12 A c).before 0 t d = blk12 A c 0 t :=
  ((dat12 A c).before_in_eq_fetched 0 rfl (fun _ => rfl) (fun _ _ _ => rfl)
    (fun t => by rw [after12_0]; unfold Dat.blockOf blk12; rw [A_eq12]) t d).trans
    (by unfold Dat.fetched Dat.blockOf blk12; rw [A_eq12]; rfl)
theorem before12_1 (c : Dev nD) (t : Fin cfg12.N) (d) : (dat12 A c).before 1 t d = blk12 A c 1 t :=
  ((dat12 A c).before_in_eq_fetched 1 rfl (fun _ => rfl) (fun _ _ _ => rfl)
    (fun t => by rw [after12_1]; unfold Dat.blockOf blk12; rw [A_eq12]) t d).trans
    (by unfold Dat.fetched Dat.blockOf blk12; rw [A_eq12]; rfl)
theorem before12_2 (c : Dev nD) (t : Fin cfg12.N) (d) : (dat12 A c).before 2 t d = blk12 A c 2 t :=
  ((dat12 A c).before_in_eq_fetched 2 rfl (fun _ => rfl) (fun _ _ _ => rfl)
    (fun t => by rw [after12_2]; unfold Dat.blockOf blk12; rw [A_eq12]) t d).trans
    (by unfold Dat.fetched Dat.blockOf blk12; rw [A_eq12]; rfl)
theorem before12_3 (c : Dev nD) (t : Fin cfg12.N) (d) : (dat12 A c).before 3 t d = blk12 A c 3 t :=
  ((dat12 A c).before_in_eq_fetched 3 rfl (fun _ => rfl) (fun _ _ _ => rfl)
    (fun t => by rw [after12_3]; unfold Dat.blockOf blk12; rw [A_eq12]) t d).trans
    (by unfold Dat.fetched Dat.blockOf blk12; rw [A_eq12]; rfl)

def bodyPre12 (c : Dev nD) (t : Fin cfg12.N) : sProp 𝕄 :=
  iprop((dat12 A c).Φ t.castSucc ∗ (dat12 A c).owesAt () t.castSucc
    ∗ (∃ d, owns (c : Thread nD τ) (st12_0 t) fullShare ((dat12 A c).before 0 t d))
    ∗ (∃ d, owns (c : Thread nD τ) (st12_1 t) fullShare ((dat12 A c).before 1 t d))
    ∗ (∃ d, owns (c : Thread nD τ) (st12_2 t) fullShare ((dat12 A c).before 2 t d))
    ∗ (∃ d, owns (c : Thread nD τ) (st12_3 t) fullShare ((dat12 A c).before 3 t d))
    ∗ (∃ d, owns (c : Thread nD τ) (st12_4 t) fullShare ((dat12 A c).before 4 t d)))

def bodyPost12 (c : Dev nD) (t : Fin cfg12.N) : sProp 𝕄 :=
  iprop((dat12 A c).Φ t.succ ∗ (dat12 A c).owesAt () t.succ
    ∗ owns (c : Thread nD τ) (st12_0 t) fullShare ((dat12 A c).after 0 t)
    ∗ owns (c : Thread nD τ) (st12_1 t) fullShare ((dat12 A c).after 1 t)
    ∗ owns (c : Thread nD τ) (st12_2 t) fullShare ((dat12 A c).after 2 t)
    ∗ owns (c : Thread nD τ) (st12_3 t) fullShare ((dat12 A c).after 3 t)
    ∗ owns (c : Thread nD τ) (st12_4 t) fullShare ((dat12 A c).after 4 t))

theorem sound_body12 (c : Dev nD) (t : Fin cfg12.N) :
    bodyPre12 A c t ⊢ wp frame (wpE (defs₀ (F := F)) Variants.none c none) Set.univ (bodyAt12 t)
      (fun _ => bodyPost12 A c t) := by
  unfold bodyPre12 bodyPost12 bodyAt12
  simp only [before12_0, before12_1, before12_2, before12_3]
  rewrite [after12_0, after12_1, after12_2, after12_3, after12_4,
    show (dat12 A c).Φ t.succ = (dat12 A c).Φ t.castSucc from rfl,
    show (dat12 A c).owesAt () t.succ = (dat12 A c).owesAt () t.castSucc from rfl]
  iintro ⟨HΦ, Ho, ⟨%d0, H0⟩, ⟨%d1, H1⟩, ⟨%d2, H2⟩, ⟨%d3, H3⟩, H4⟩
  iapply (sound_kernel12 c Set.univ (grid12.coords t) _ _ _ _ _ _ _ _ _ _
    (blk12 A c 0 t) (blk12 A c 1 t) (blk12 A c 2 t) (blk12 A c 3 t) _)
  isplitl [H0]; · iexact H0
  isplitl [H1]; · iexact H1
  isplitl [H2]; · iexact H2
  isplitl [H3]; · iexact H3
  isplitl [H4]
  · icases H4 with ⟨%d4, H4⟩; iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation12 (c : Dev nD) :
    BodyObligation (dat12 (F := F) A c) (defs₀ (F := F)) Variants.none () Set.univ := fun t => by
  rw [bigSep_W12, bigSep_W12]
  exact sound_body12 A c t

end Cert.KernelIdeal.Hand

end
-- ==== Proof.Reg12.lean ====
import proofs.«401580_j65068754534945_2_alg».proof.Proof.Mlp12

/-! The tiled two-product region as a step from one memory of the program to the next. -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (a : (p : Fin 14) → (pcfgs (F := F) p).Adm)
variable (pdats : (p : Fin 14) → (c : Dev nD) → Dat τ (Elt F) Unit ℕ (UR sig nD τ) ℕ (Pipeline.pin (pcfgs (F := F)) a p) c)

variable (A : (c : Dev nD) → (w : Fin cfg12.W) → Buf (Elt F) ((cfg12.win w).arr.view.loc (c.tc : Thread nD τ)))
variable (Vin Vout : (c : Dev nD) → Valuation τ sig (Elt F))

set_option backward.isDefEq.respectTransparency.types false in
/-- The region as a step from the memory at Vin to the memory at Vout. -/
def reg12 (hpd : ∀ c, pdats 12 c = dat12 A c)
    (hA : ∀ c w, A c w = Vin c (Pipeline.arrRef spec12 w))
    (hF : ∀ c w, (dat12 A c).arrAt w cfg12.N = Vout c (Pipeline.arrRef spec12 w))
    (hrest : ∀ c (b : Ref sig .tc), b ∉ Finset.univ.image (Pipeline.arrRef spec12) → Vout c b = Vin c b) :
    Pipeline.RegionSeg (pcfgs (F := F)) a pdats () defs₀ Variants.none Lh lvh 12 :=
  seg (launch12 (F := F)) a pdats Vin Vout
    (fun c w => by rw [hpd c]; exact (dat12 A c).share_full (fun _ => rfl) w)
    (fun c => funext fun k => k.elim0)
    (fun c w => by rw [hpd c, A_eq12]; exact hA c w) (fun c w => by rw [hpd c]; exact hF c w) hrest
    (fun c _ => by rw [hpd c]; rfl) (fun c => by rw [hpd c]; rfl)
    (fun c => by rw [hpd c]; exact (body_obligation12 A c).loose)
    (fun c => by
      rw [hpd c, show (dat12 A c).Φ 0 = Pipeline.ΦA spec12 c from rfl]; unfold Pipeline.ΦA
      iintro ⟨Hreg, -, Hscoped⟩
      isplitl [Hscoped]; · iexact Hscoped
      iexact Hreg)
    (fun c => by
      rw [Pipeline.ownSems0_none, hpd c, show (dat12 A c).Φ (Fin.last (Pipeline.pin (pcfgs (F := F)) a 12).N) = Pipeline.ΦA spec12 c from rfl]
      unfold Pipeline.ΦA
      iintro ⟨Hscoped, Hreg⟩
      isplitl [Hreg]
      · isplitl [Hreg]; · iexact Hreg
        unfold Pipeline.prefHeld
        rw [show (Finset.univ : Finset (Fin 0)) = ∅ from rfl, BI.bigSep_empty]; iempintro
      isplitr; · iempintro
      iexact Hscoped)

theorem reg12_pre (hpd : ∀ c, pdats 12 c = dat12 A c)
    (hA : ∀ c w, A c w = Vin c (Pipeline.arrRef spec12 w))
    (hF : ∀ c w, (dat12 A c).arrAt w cfg12.N = Vout c (Pipeline.arrRef spec12 w))
    (hrest : ∀ c (b : Ref sig .tc), b ∉ Finset.univ.image (Pipeline.arrRef spec12) → Vout c b = Vin c b) (c : Dev nD) :
    (reg12 a pdats A Vin Vout hpd hA hF hrest).pre c
      = iprop(StableHlo.held (c : Thread nD τ) (Pipeline.ucRefs τ sig) (Vin c) ∗ Rst c) := rfl

theorem reg12_post (hpd : ∀ c, pdats 12 c = dat12 A c)
    (hA : ∀ c w, A c w = Vin c (Pipeline.arrRef spec12 w))
    (hF : ∀ c w, (dat12 A c).arrAt w cfg12.N = Vout c (Pipeline.arrRef spec12 w))
    (hrest : ∀ c (b : Ref sig .tc), b ∉ Finset.univ.image (Pipeline.arrRef spec12) → Vout c b = Vin c b) (c : Dev nD) :
    (reg12 a pdats A Vin Vout hpd hA hF hrest).post c
      = iprop(StableHlo.held (c : Thread nD τ) (Pipeline.ucRefs τ sig) (Vout c) ∗ Rst c) := rfl

end Cert.KernelIdeal.Hand

end
-- ==== Proof.Mlp13.lean ====
import proofs.«401580_j65068754534945_2_alg».proof.Proof.Base

/-! The last two-product region, without the rectifier: the output block is a closed function of the four input blocks. -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

def out13 (x0 x1 : Vec F S1024x256 .f32) (x2 x3 : Vec F S256x128 .f32) : Vec F S1024x256 .f32 :=
  k13_pay1 x0 x2 x1 x3

set_option maxHeartbeats 1000000 in
theorem sound_kernel13 (c : Dev nD) (E : Set ℕ) (i : grid13.Coords)
    (arg1 : Memref sig .tc .vmem S1024x256 .f32) (harg1 : arg1.IsWhole)
    (arg2 : Memref sig .tc .vmem S1024x256 .f32) (harg2 : arg2.IsWhole)
    (arg3 : Memref sig .tc .vmem S256x128 .f32) (harg3 : arg3.IsWhole)
    (arg4 : Memref sig .tc .vmem S256x128 .f32) (harg4 : arg4.IsWhole)
    (arg5 : Memref sig .tc .vmem S1024x256 .f32) (harg5 : arg5.IsWhole)
    (x0 x1 : Vec F S1024x256 .f32) (x2 x3 : Vec F S256x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out13 x0 x1 x2 x3)) -∗ K ⟨⟩))
      ⊢ wp frame (wpE (defs₀ (F := F)) Variants.none c none) E
          (cc13_kernel i arg1 harg1 arg2 harg2 arg3 harg3 arg4 harg4 arg5 harg5) K := by
  simp only [cc13_kernel_eq_skeleton]; unfold cc13_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  simp only [readAt_whole_zero (S := S1024x256) _ _ zeros2, readAt_whole_zero (S := S256x128) _ _ zeros2]
  rw [read_store_whole_zero (S := S1024x256) _ _ zeros2]
  unfold out13
  rfl

variable (A : (c : Dev nD) → (w : Fin cfg13.W) → Buf (Elt F) ((cfg13.win w).arr.view.loc (c.tc : Thread nD τ)))

def blk13 (c : Dev nD) (w : Fin cfg13.W) (t : Fin cfg13.N) :
    ((cfg13.win w).xblock (cfg13.grid.coords t)).Idx → Elt F (cfg13.win w).elt :=
  ((cfg13.win w).blk t).view.read (Elt F) (A c w)

def dat13 (c : Dev nD) : Dat τ (Elt F) Unit ℕ (UR sig nD τ) ℕ cfg13 c where
  A w := A c w
  after w t := match w with
    | ⟨0, _⟩ => blk13 A c 0 t
    | ⟨1, _⟩ => blk13 A c 1 t
    | ⟨2, _⟩ => blk13 A c 2 t
    | ⟨3, _⟩ => blk13 A c 3 t
    | ⟨4, _⟩ => out13 (blk13 A c 0 t) (blk13 A c 1 t) (blk13 A c 2 t) (blk13 A c 3 t)
  Φ _ := Pipeline.ΦA spec13 c
  q _ := fullShare
  owed _ := 0

theorem A_eq13 (c : Dev nD) (w : Fin cfg13.W) : (dat13 A c).A w = A c w := by dsimp only [dat13]

theorem after13_0 (c : Dev nD) (t : Fin cfg13.N) : (dat13 A c).after 0 t = blk13 A c 0 t := by dsimp only [dat13]
theorem after13_1 (c : Dev nD) (t : Fin cfg13.N) : (dat13 A c).after 1 t = blk13 A c 1 t := by dsimp only [dat13]
theorem after13_2 (c : Dev nD) (t : Fin cfg13.N) : (dat13 A c).after 2 t = blk13 A c 2 t := by dsimp only [dat13]
theorem after13_3 (c : Dev nD) (t : Fin cfg13.N) : (dat13 A c).after 3 t = blk13 A c 3 t := by dsimp only [dat13]
theorem after13_4 (c : Dev nD) (t : Fin cfg13.N) :
    (dat13 A c).after 4 t = out13 (blk13 A c 0 t) (blk13 A c 1 t) (blk13 A c 2 t) (blk13 A c 3 t) := by
  dsimp only [dat13]

theorem before13_0 (c : Dev nD) (t : Fin cfg13.N) (d) : (dat13 A c).before 0 t d = blk13 A c 0 t :=
  ((dat13 A c).before_in_eq_fetched 0 rfl (fun _ => rfl) (fun _ _ _ => rfl)
    (fun t => by rw [after13_0]; unfold Dat.blockOf blk13; rw [A_eq13]) t d).trans
    (by unfold Dat.fetched Dat.blockOf blk13; rw [A_eq13]; rfl)
theorem before13_1 (c : Dev nD) (t : Fin cfg13.N) (d) : (dat13 A c).before 1 t d = blk13 A c 1 t :=
  ((dat13 A c).before_in_eq_fetched 1 rfl (fun _ => rfl) (fun _ _ _ => rfl)
    (fun t => by rw [after13_1]; unfold Dat.blockOf blk13; rw [A_eq13]) t d).trans
    (by unfold Dat.fetched Dat.blockOf blk13; rw [A_eq13]; rfl)
theorem before13_2 (c : Dev nD) (t : Fin cfg13.N) (d) : (dat13 A c).before 2 t d = blk13 A c 2 t :=
  ((dat13 A c).before_in_eq_fetched 2 rfl (fun _ => rfl) (fun _ _ _ => rfl)
    (fun t => by rw [after13_2]; unfold Dat.blockOf blk13; rw [A_eq13]) t d).trans
    (by unfold Dat.fetched Dat.blockOf blk13; rw [A_eq13]; rfl)
theorem before13_3 (c : Dev nD) (t : Fin cfg13.N) (d) : (dat13 A c).before 3 t d = blk13 A c 3 t :=
  ((dat13 A c).before_in_eq_fetched 3 rfl (fun _ => rfl) (fun _ _ _ => rfl)
    (fun t => by rw [after13_3]; unfold Dat.blockOf blk13; rw [A_eq13]) t d).trans
    (by unfold Dat.fetched Dat.blockOf blk13; rw [A_eq13]; rfl)

def bodyPre13 (c : Dev nD) (t : Fin cfg13.N) : sProp 𝕄 :=
  iprop((dat13 A c).Φ t.castSucc ∗ (dat13 A c).owesAt () t.castSucc
    ∗ (∃ d, owns (c : Thread nD τ) (st13_0 t) fullShare ((dat13 A c).before 0 t d))
    ∗ (∃ d, owns (c : Thread nD τ) (st13_1 t) fullShare ((dat13 A c).before 1 t d))
    ∗ (∃ d, owns (c : Thread nD τ) (st13_2 t) fullShare ((dat13 A c).before 2 t d))
    ∗ (∃ d, owns (c : Thread nD τ) (st13_3 t) fullShare ((dat13 A c).before 3 t d))
    ∗ (∃ d, owns (c : Thread nD τ) (st13_4 t) fullShare ((dat13 A c).before 4 t d)))

def bodyPost13 (c : Dev nD) (t : Fin cfg13.N) : sProp 𝕄 :=
  iprop((dat13 A c).Φ t.succ ∗ (dat13 A c).owesAt () t.succ
    ∗ owns (c : Thread nD τ) (st13_0 t) fullShare ((dat13 A c).after 0 t)
    ∗ owns (c : Thread nD τ) (st13_1 t) fullShare ((dat13 A c).after 1 t)
    ∗ owns (c : Thread nD τ) (st13_2 t) fullShare ((dat13 A c).after 2 t)
    ∗ owns (c : Thread nD τ) (st13_3 t) fullShare ((dat13 A c).after 3 t)
    ∗ owns (c : Thread nD τ) (st13_4 t) fullShare ((dat13 A c).after 4 t))

theorem sound_body13 (c : Dev nD) (t : Fin cfg13.N) :
    bodyPre13 A c t ⊢ wp frame (wpE (defs₀ (F := F)) Variants.none c none) Set.univ (bodyAt13 t)
      (fun _ => bodyPost13 A c t) := by
  unfold bodyPre13 bodyPost13 bodyAt13
  simp only [before13_0, before13_1, before13_2, before13_3]
  rewrite [after13_0, after13_1, after13_2, after13_3, after13_4,
    show (dat13 A c).Φ t.succ = (dat13 A c).Φ t.castSucc from rfl,
    show (dat13 A c).owesAt () t.succ = (dat13 A c).owesAt () t.castSucc from rfl]
  iintro ⟨HΦ, Ho, ⟨%d0, H0⟩, ⟨%d1, H1⟩, ⟨%d2, H2⟩, ⟨%d3, H3⟩, H4⟩
  iapply (sound_kernel13 c Set.univ (grid13.coords t) _ _ _ _ _ _ _ _ _ _
    (blk13 A c 0 t) (blk13 A c 1 t) (blk13 A c 2 t) (blk13 A c 3 t) _)
  isplitl [H0]; · iexact H0
  isplitl [H1]; · iexact H1
  isplitl [H2]; · iexact H2
  isplitl [H3]; · iexact H3
  isplitl [H4]
  · icases H4 with ⟨%d4, H4⟩; iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation13 (c : Dev nD) :
    BodyObligation (dat13 (F := F) A c) (defs₀ (F := F)) Variants.none () Set.univ := fun t => by
  rw [bigSep_W13, bigSep_W13]
  exact sound_body13 A c t

end Cert.KernelIdeal.Hand

end
-- ==== Proof.Reg13.lean ====
import proofs.«401580_j65068754534945_2_alg».proof.Proof.Mlp13

/-! The last two-product region as a step from one memory of the program to the next. -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (a : (p : Fin 14) → (pcfgs (F := F) p).Adm)
variable (pdats : (p : Fin 14) → (c : Dev nD) → Dat τ (Elt F) Unit ℕ (UR sig nD τ) ℕ (Pipeline.pin (pcfgs (F := F)) a p) c)

variable (A : (c : Dev nD) → (w : Fin cfg13.W) → Buf (Elt F) ((cfg13.win w).arr.view.loc (c.tc : Thread nD τ)))
variable (Vin Vout : (c : Dev nD) → Valuation τ sig (Elt F))

set_option backward.isDefEq.respectTransparency.types false in
/-- The region as a step from the memory at Vin to the memory at Vout. -/
def reg13 (hpd : ∀ c, pdats 13 c = dat13 A c)
    (hA : ∀ c w, A c w = Vin c (Pipeline.arrRef spec13 w))
    (hF : ∀ c w, (dat13 A c).arrAt w cfg13.N = Vout c (Pipeline.arrRef spec13 w))
    (hrest : ∀ c (b : Ref sig .tc), b ∉ Finset.univ.image (Pipeline.arrRef spec13) → Vout c b = Vin c b) :
    Pipeline.RegionSeg (pcfgs (F := F)) a pdats () defs₀ Variants.none Lh lvh 13 :=
  seg (launch13 (F := F)) a pdats Vin Vout
    (fun c w => by rw [hpd c]; exact (dat13 A c).share_full (fun _ => rfl) w)
    (fun c => funext fun k => k.elim0)
    (fun c w => by rw [hpd c, A_eq13]; exact hA c w) (fun c w => by rw [hpd c]; exact hF c w) hrest
    (fun c _ => by rw [hpd c]; rfl) (fun c => by rw [hpd c]; rfl)
    (fun c => by rw [hpd c]; exact (body_obligation13 A c).loose)
    (fun c => by
      rw [hpd c, show (dat13 A c).Φ 0 = Pipeline.ΦA spec13 c from rfl]; unfold Pipeline.ΦA
      iintro ⟨Hreg, -, Hscoped⟩
      isplitl [Hscoped]; · iexact Hscoped
      iexact Hreg)
    (fun c => by
      rw [Pipeline.ownSems0_none, hpd c, show (dat13 A c).Φ (Fin.last (Pipeline.pin (pcfgs (F := F)) a 13).N) = Pipeline.ΦA spec13 c from rfl]
      unfold Pipeline.ΦA
      iintro ⟨Hscoped, Hreg⟩
      isplitl [Hreg]
      · isplitl [Hreg]; · iexact Hreg
        unfold Pipeline.prefHeld
        rw [show (Finset.univ : Finset (Fin 0)) = ∅ from rfl, BI.bigSep_empty]; iempintro
      isplitr; · iempintro
      iexact Hscoped)

theorem reg13_pre (hpd : ∀ c, pdats 13 c = dat13 A c)
    (hA : ∀ c w, A c w = Vin c (Pipeline.arrRef spec13 w))
    (hF : ∀ c w, (dat13 A c).arrAt w cfg13.N = Vout c (Pipeline.arrRef spec13 w))
    (hrest : ∀ c (b : Ref sig .tc), b ∉ Finset.univ.image (Pipeline.arrRef spec13) → Vout c b = Vin c b) (c : Dev nD) :
    (reg13 a pdats A Vin Vout hpd hA hF hrest).pre c
      = iprop(StableHlo.held (c : Thread nD τ) (Pipeline.ucRefs τ sig) (Vin c) ∗ Rst c) := rfl

theorem reg13_post (hpd : ∀ c, pdats 13 c = dat13 A c)
    (hA : ∀ c w, A c w = Vin c (Pipeline.arrRef spec13 w))
    (hF : ∀ c w, (dat13 A c).arrAt w cfg13.N = Vout c (Pipeline.arrRef spec13 w))
    (hrest : ∀ c (b : Ref sig .tc), b ∉ Finset.univ.image (Pipeline.arrRef spec13) → Vout c b = Vin c b) (c : Dev nD) :
    (reg13 a pdats A Vin Vout hpd hA hF hrest).post c
      = iprop(StableHlo.held (c : Thread nD τ) (Pipeline.ucRefs τ sig) (Vout c) ∗ Rst c) := rfl

end Cert.KernelIdeal.Hand

end
-- ==== Proof.RunDefs.lean ====
import proofs.«401580_j65068754534945_2_alg».proof.Proof.ArrIndep
import proofs.«401580_j65068754534945_2_alg».proof.Proof.Gather0
import proofs.«401580_j65068754534945_2_alg».proof.Proof.Gather1
import proofs.«401580_j65068754534945_2_alg».proof.Proof.Gather2
import proofs.«401580_j65068754534945_2_alg».proof.Proof.Gather3
import proofs.«401580_j65068754534945_2_alg».proof.Proof.Gather4
import proofs.«401580_j65068754534945_2_alg».proof.Proof.Gather5
import proofs.«401580_j65068754534945_2_alg».proof.Proof.Gather6
import proofs.«401580_j65068754534945_2_alg».proof.Proof.Gather7
import proofs.«401580_j65068754534945_2_alg».proof.Proof.Gather8
import proofs.«401580_j65068754534945_2_alg».proof.Proof.Gather9
import proofs.«401580_j65068754534945_2_alg».proof.Proof.Gather10
import proofs.«401580_j65068754534945_2_alg».proof.Proof.Reg11
import proofs.«401580_j65068754534945_2_alg».proof.Proof.Reg12
import proofs.«401580_j65068754534945_2_alg».proof.Proof.Reg13

/-! The admissible tables, the entry arrays and the proof data of the fourteen regions, as functions of the launch memory. -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

structure InRange : Prop where
  h1 : ∀ (c : Dev nD) (i : S500000x128.Idx), ((m ((c.tc : Thread nD τ).loc main_arg1) : S500000x128.Idx → BitVec 32) i).toNat < 500000
  h2 : ∀ (c : Dev nD) (i : S1024.Idx), ((m ((c.tc : Thread nD τ).loc main_arg2) : S1024.Idx → BitVec 32) i).toNat < 500000
  h3 : ∀ (c : Dev nD) (i : S1024x10.Idx), ((m ((c.tc : Thread nD τ).loc main_arg3) : S1024x10.Idx → BitVec 32) i).toNat < 128
  h4 : ∀ (c : Dev nD) (i : S10240x25.Idx), ((m ((c.tc : Thread nD τ).loc main_arg4) : S10240x25.Idx → BitVec 32) i).toNat < 128

noncomputable def outsZ : Outs (F := F) := fun _ r c => m ((c : Thread nD τ).loc r)

noncomputable def tb0 : pre0.Contents (Elt F) := fun j => V5 m (0 : Dev nD) (pre0.ref j)
noncomputable def tb1 : pre1.Contents (Elt F) := fun j => V7 m (outsZ m) (0 : Dev nD) (pre1.ref j)
noncomputable def tb2 : pre2.Contents (Elt F) := fun j => V9 m (outsZ m) (0 : Dev nD) (pre2.ref j)
noncomputable def tb3 : pre3.Contents (Elt F) := fun j => V11 m (outsZ m) (0 : Dev nD) (pre3.ref j)
noncomputable def tb4 : pre4.Contents (Elt F) := fun j => V13 m (outsZ m) (0 : Dev nD) (pre4.ref j)
noncomputable def tb5 : pre5.Contents (Elt F) := fun j => V15 m (outsZ m) (0 : Dev nD) (pre5.ref j)
noncomputable def tb6 : pre6.Contents (Elt F) := fun j => V17 m (outsZ m) (0 : Dev nD) (pre6.ref j)
noncomputable def tb7 : pre7.Contents (Elt F) := fun j => V19 m (outsZ m) (0 : Dev nD) (pre7.ref j)
noncomputable def tb8 : pre8.Contents (Elt F) := fun j => V21 m (outsZ m) (0 : Dev nD) (pre8.ref j)
noncomputable def tb9 : pre9.Contents (Elt F) := fun j => V23 m (outsZ m) (0 : Dev nD) (pre9.ref j)
noncomputable def tb10 : pre10.Contents (Elt F) := fun j => V25 m (outsZ m) (0 : Dev nD) (pre10.ref j)

variable (hR : InRange m)

noncomputable def adm : (p : Fin 14) → (pcfgs (F := F) p).Adm
  | ⟨0, _⟩ => ⟨tb0 m, ok0_of_inb (tb0 m) fun k => tbl0_inb m hR.h2 0 k⟩
  | ⟨1, _⟩ => ⟨tb1 m, ok1_of_inb (tb1 m) fun k => tbl1_inb m (outsZ m) hR.h1 hR.h3 0 k⟩
  | ⟨2, _⟩ => ⟨tb2 m, ok2_of_inb (tb2 m) fun k => tbl2_inb m (outsZ m) hR.h1 hR.h3 0 k⟩
  | ⟨3, _⟩ => ⟨tb3 m, ok3_of_inb (tb3 m) fun k => tbl3_inb m (outsZ m) hR.h1 hR.h4 0 k⟩
  | ⟨4, _⟩ => ⟨tb4 m, ok4_of_inb (tb4 m) fun k => tbl4_inb m (outsZ m) hR.h1 hR.h4 0 k⟩
  | ⟨5, _⟩ => ⟨tb5 m, ok5_of_inb (tb5 m) fun k => tbl5_inb m (outsZ m) hR.h1 hR.h4 0 k⟩
  | ⟨6, _⟩ => ⟨tb6 m, ok6_of_inb (tb6 m) fun k => tbl6_inb m (outsZ m) hR.h1 hR.h4 0 k⟩
  | ⟨7, _⟩ => ⟨tb7 m, ok7_of_inb (tb7 m) fun k => tbl7_inb m (outsZ m) hR.h1 hR.h4 0 k⟩
  | ⟨8, _⟩ => ⟨tb8 m, ok8_of_inb (tb8 m) fun k => tbl8_inb m (outsZ m) hR.h1 hR.h4 0 k⟩
  | ⟨9, _⟩ => ⟨tb9 m, ok9_of_inb (tb9 m) fun k => tbl9_inb m (outsZ m) hR.h1 hR.h4 0 k⟩
  | ⟨10, _⟩ => ⟨tb10 m, ok10_of_inb (tb10 m) fun k => tbl10_inb m (outsZ m) hR.h1 hR.h4 0 k⟩
  | ⟨11, _⟩ => cfg11.toPCfg_adm
  | ⟨12, _⟩ => cfg12.toPCfg_adm
  | ⟨13, _⟩ => cfg13.toPCfg_adm
  | ⟨_ + 14, h⟩ => absurd h (Nat.not_lt.2 (Nat.le_add_left _ _))

noncomputable def A0 (c : Dev nD) (w : Fin (cfg0 (adm m hR 0)).W) : Buf (Elt F) (((cfg0 (adm m hR 0)).win w).arr.view.loc (c.tc : Thread nD τ)) :=
  V5 m c (Pipeline.arrRef spec0 w)
noncomputable def o0 (c : Dev nD) : Buf (Elt F) ((c : Thread nD τ).loc main_v21) :=
  (dat0 (adm m hR 0) (A0 m hR) c).arrAt 1 (cfg0 (adm m hR 0)).N
noncomputable def A1 (c : Dev nD) (w : Fin (cfg1 (adm m hR 1)).W) : Buf (Elt F) (((cfg1 (adm m hR 1)).win w).arr.view.loc (c.tc : Thread nD τ)) :=
  V7 m (outsZ m) c (Pipeline.arrRef spec1 w)
noncomputable def o1 (c : Dev nD) : Buf (Elt F) ((c : Thread nD τ).loc main_v26) :=
  (dat1 (adm m hR 1) (A1 m hR) c).arrAt 1 (cfg1 (adm m hR 1)).N
noncomputable def A2 (c : Dev nD) (w : Fin (cfg2 (adm m hR 2)).W) : Buf (Elt F) (((cfg2 (adm m hR 2)).win w).arr.view.loc (c.tc : Thread nD τ)) :=
  V9 m (outsZ m) c (Pipeline.arrRef spec2 w)
noncomputable def o2 (c : Dev nD) : Buf (Elt F) ((c : Thread nD τ).loc main_v31) :=
  (dat2 (adm m hR 2) (A2 m hR) c).arrAt 1 (cfg2 (adm m hR 2)).N
noncomputable def A3 (c : Dev nD) (w : Fin (cfg3 (adm m hR 3)).W) : Buf (Elt F) (((cfg3 (adm m hR 3)).win w).arr.view.loc (c.tc : Thread nD τ)) :=
  V11 m (outsZ m) c (Pipeline.arrRef spec3 w)
noncomputable def o3 (c : Dev nD) : Buf (Elt F) ((c : Thread nD τ).loc main_v37) :=
  (dat3 (adm m hR 3) (A3 m hR) c).arrAt 1 (cfg3 (adm m hR 3)).N
noncomputable def A4 (c : Dev nD) (w : Fin (cfg4 (adm m hR 4)).W) : Buf (Elt F) (((cfg4 (adm m hR 4)).win w).arr.view.loc (c.tc : Thread nD τ)) :=
  V13 m (outsZ m) c (Pipeline.arrRef spec4 w)
noncomputable def o4 (c : Dev nD) : Buf (Elt F) ((c : Thread nD τ).loc main_v41) :=
  (dat4 (adm m hR 4) (A4 m hR) c).arrAt 1 (cfg4 (adm m hR 4)).N
noncomputable def A5 (c : Dev nD) (w : Fin (cfg5 (adm m hR 5)).W) : Buf (Elt F) (((cfg5 (adm m hR 5)).win w).arr.view.loc (c.tc : Thread nD τ)) :=
  V15 m (outsZ m) c (Pipeline.arrRef spec5 w)
noncomputable def o5 (c : Dev nD) : Buf (Elt F) ((c : Thread nD τ).loc main_v45) :=
  (dat5 (adm m hR 5) (A5 m hR) c).arrAt 1 (cfg5 (adm m hR 5)).N
noncomputable def A6 (c : Dev nD) (w : Fin (cfg6 (adm m hR 6)).W) : Buf (Elt F) (((cfg6 (adm m hR 6)).win w).arr.view.loc (c.tc : Thread nD τ)) :=
  V17 m (outsZ m) c (Pipeline.arrRef spec6 w)
noncomputable def o6 (c : Dev nD) : Buf (Elt F) ((c : Thread nD τ).loc main_v49) :=
  (dat6 (adm m hR 6) (A6 m hR) c).arrAt 1 (cfg6 (adm m hR 6)).N
noncomputable def A7 (c : Dev nD) (w : Fin (cfg7 (adm m hR 7)).W) : Buf (Elt F) (((cfg7 (adm m hR 7)).win w).arr.view.loc (c.tc : Thread nD τ)) :=
  V19 m (outsZ m) c (Pipeline.arrRef spec7 w)
noncomputable def o7 (c : Dev nD) : Buf (Elt F) ((c : Thread nD τ).loc main_v53) :=
  (dat7 (adm m hR 7) (A7 m hR) c).arrAt 1 (cfg7 (adm m hR 7)).N
noncomputable def A8 (c : Dev nD) (w : Fin (cfg8 (adm m hR 8)).W) : Buf (Elt F) (((cfg8 (adm m hR 8)).win w).arr.view.loc (c.tc : Thread nD τ)) :=
  V21 m (outsZ m) c (Pipeline.arrRef spec8 w)
noncomputable def o8 (c : Dev nD) : Buf (Elt F) ((c : Thread nD τ).loc main_v57) :=
  (dat8 (adm m hR 8) (A8 m hR) c).arrAt 1 (cfg8 (adm m hR 8)).N
noncomputable def A9 (c : Dev nD) (w : Fin (cfg9 (adm m hR 9)).W) : Buf (Elt F) (((cfg9 (adm m hR 9)).win w).arr.view.loc (c.tc : Thread nD τ)) :=
  V23 m (outsZ m) c (Pipeline.arrRef spec9 w)
noncomputable def o9 (c : Dev nD) : Buf (Elt F) ((c : Thread nD τ).loc main_v61) :=
  (dat9 (adm m hR 9) (A9 m hR) c).arrAt 1 (cfg9 (adm m hR 9)).N
noncomputable def A10 (c : Dev nD) (w : Fin (cfg10 (adm m hR 10)).W) : Buf (Elt F) (((cfg10 (adm m hR 10)).win w).arr.view.loc (c.tc : Thread nD τ)) :=
  V25 m (outsZ m) c (Pipeline.arrRef spec10 w)
noncomputable def o10 (c : Dev nD) : Buf (Elt F) ((c : Thread nD τ).loc main_v65) :=
  (dat10 (adm m hR 10) (A10 m hR) c).arrAt 1 (cfg10 (adm m hR 10)).N

noncomputable def outsG : Outs (F := F) := fun j r c => match j with
  | 6 => Function.update (fun r' => m ((c : Thread nD τ).loc r')) main_v21 (o0 m hR c) r
  | 8 => Function.update (fun r' => m ((c : Thread nD τ).loc r')) main_v26 (o1 m hR c) r
  | 10 => Function.update (fun r' => m ((c : Thread nD τ).loc r')) main_v31 (o2 m hR c) r
  | 12 => Function.update (fun r' => m ((c : Thread nD τ).loc r')) main_v37 (o3 m hR c) r
  | 14 => Function.update (fun r' => m ((c : Thread nD τ).loc r')) main_v41 (o4 m hR c) r
  | 16 => Function.update (fun r' => m ((c : Thread nD τ).loc r')) main_v45 (o5 m hR c) r
  | 18 => Function.update (fun r' => m ((c : Thread nD τ).loc r')) main_v49 (o6 m hR c) r
  | 20 => Function.update (fun r' => m ((c : Thread nD τ).loc r')) main_v53 (o7 m hR c) r
  | 22 => Function.update (fun r' => m ((c : Thread nD τ).loc r')) main_v57 (o8 m hR c) r
  | 24 => Function.update (fun r' => m ((c : Thread nD τ).loc r')) main_v61 (o9 m hR c) r
  | 26 => Function.update (fun r' => m ((c : Thread nD τ).loc r')) main_v65 (o10 m hR c) r
  | _ => m ((c : Thread nD τ).loc r)

noncomputable def A11 (c : Dev nD) (w : Fin cfg11.W) : Buf (Elt F) ((cfg11.win w).arr.view.loc (c.tc : Thread nD τ)) :=
  V27 m (outsG m hR) c (Pipeline.arrRef spec11 w)
noncomputable def o11 (c : Dev nD) : Buf (Elt F) ((c : Thread nD τ).loc main_v68) := (dat11 (A11 m hR) c).arrAt 4 cfg11.N
noncomputable def A12 (c : Dev nD) (w : Fin cfg12.W) : Buf (Elt F) ((cfg12.win w).arr.view.loc (c.tc : Thread nD τ)) :=
  V27 m (outsG m hR) c (Pipeline.arrRef spec12 w)
noncomputable def o12 (c : Dev nD) : Buf (Elt F) ((c : Thread nD τ).loc main_v69) := (dat12 (A12 m hR) c).arrAt 4 cfg12.N

noncomputable def outsM : Outs (F := F) := fun j r c => match j with
  | 6 => Function.update (fun r' => m ((c : Thread nD τ).loc r')) main_v21 (o0 m hR c) r
  | 8 => Function.update (fun r' => m ((c : Thread nD τ).loc r')) main_v26 (o1 m hR c) r
  | 10 => Function.update (fun r' => m ((c : Thread nD τ).loc r')) main_v31 (o2 m hR c) r
  | 12 => Function.update (fun r' => m ((c : Thread nD τ).loc r')) main_v37 (o3 m hR c) r
  | 14 => Function.update (fun r' => m ((c : Thread nD τ).loc r')) main_v41 (o4 m hR c) r
  | 16 => Function.update (fun r' => m ((c : Thread nD τ).loc r')) main_v45 (o5 m hR c) r
  | 18 => Function.update (fun r' => m ((c : Thread nD τ).loc r')) main_v49 (o6 m hR c) r
  | 20 => Function.update (fun r' => m ((c : Thread nD τ).loc r')) main_v53 (o7 m hR c) r
  | 22 => Function.update (fun r' => m ((c : Thread nD τ).loc r')) main_v57 (o8 m hR c) r
  | 24 => Function.update (fun r' => m ((c : Thread nD τ).loc r')) main_v61 (o9 m hR c) r
  | 26 => Function.update (fun r' => m ((c : Thread nD τ).loc r')) main_v65 (o10 m hR c) r
  | 28 => Function.update (fun r' => m ((c : Thread nD τ).loc r')) main_v68 (o11 m hR c) r
  | 29 => Function.update (fun r' => m ((c : Thread nD τ).loc r')) main_v69 (o12 m hR c) r
  | _ => m ((c : Thread nD τ).loc r)

noncomputable def A13 (c : Dev nD) (w : Fin cfg13.W) : Buf (Elt F) ((cfg13.win w).arr.view.loc (c.tc : Thread nD τ)) :=
  V30 m (outsM m hR) c (Pipeline.arrRef spec13 w)
noncomputable def o13 (c : Dev nD) : Buf (Elt F) ((c : Thread nD τ).loc main_v74) := (dat13 (A13 m hR) c).arrAt 4 cfg13.N

noncomputable def outs : Outs (F := F) := fun j r c => match j with
  | 6 => Function.update (fun r' => m ((c : Thread nD τ).loc r')) main_v21 (o0 m hR c) r
  | 8 => Function.update (fun r' => m ((c : Thread nD τ).loc r')) main_v26 (o1 m hR c) r
  | 10 => Function.update (fun r' => m ((c : Thread nD τ).loc r')) main_v31 (o2 m hR c) r
  | 12 => Function.update (fun r' => m ((c : Thread nD τ).loc r')) main_v37 (o3 m hR c) r
  | 14 => Function.update (fun r' => m ((c : Thread nD τ).loc r')) main_v41 (o4 m hR c) r
  | 16 => Function.update (fun r' => m ((c : Thread nD τ).loc r')) main_v45 (o5 m hR c) r
  | 18 => Function.update (fun r' => m ((c : Thread nD τ).loc r')) main_v49 (o6 m hR c) r
  | 20 => Function.update (fun r' => m ((c : Thread nD τ).loc r')) main_v53 (o7 m hR c) r
  | 22 => Function.update (fun r' => m ((c : Thread nD τ).loc r')) main_v57 (o8 m hR c) r
  | 24 => Function.update (fun r' => m ((c : Thread nD τ).loc r')) main_v61 (o9 m hR c) r
  | 26 => Function.update (fun r' => m ((c : Thread nD τ).loc r')) main_v65 (o10 m hR c) r
  | 28 => Function.update (fun r' => m ((c : Thread nD τ).loc r')) main_v68 (o11 m hR c) r
  | 29 => Function.update (fun r' => m ((c : Thread nD τ).loc r')) main_v69 (o12 m hR c) r
  | 31 => Function.update (fun r' => m ((c : Thread nD τ).loc r')) main_v74 (o13 m hR c) r
  | _ => m ((c : Thread nD τ).loc r)

noncomputable def pdats : (p : Fin 14) → (c : Dev nD) → Dat τ (Elt F) Unit ℕ (UR sig nD τ) ℕ (Pipeline.pin (pcfgs (F := F)) (adm m hR) p) c
  | ⟨0, _⟩ => fun c => dat0 (adm m hR 0) (A0 m hR) c
  | ⟨1, _⟩ => fun c => dat1 (adm m hR 1) (A1 m hR) c
  | ⟨2, _⟩ => fun c => dat2 (adm m hR 2) (A2 m hR) c
  | ⟨3, _⟩ => fun c => dat3 (adm m hR 3) (A3 m hR) c
  | ⟨4, _⟩ => fun c => dat4 (adm m hR 4) (A4 m hR) c
  | ⟨5, _⟩ => fun c => dat5 (adm m hR 5) (A5 m hR) c
  | ⟨6, _⟩ => fun c => dat6 (adm m hR 6) (A6 m hR) c
  | ⟨7, _⟩ => fun c => dat7 (adm m hR 7) (A7 m hR) c
  | ⟨8, _⟩ => fun c => dat8 (adm m hR 8) (A8 m hR) c
  | ⟨9, _⟩ => fun c => dat9 (adm m hR 9) (A9 m hR) c
  | ⟨10, _⟩ => fun c => dat10 (adm m hR 10) (A10 m hR) c
  | ⟨11, _⟩ => fun c => dat11 (A11 m hR) c
  | ⟨12, _⟩ => fun c => dat12 (A12 m hR) c
  | ⟨13, _⟩ => fun c => dat13 (A13 m hR) c
  | ⟨_ + 14, h⟩ => absurd h (Nat.not_lt.2 (Nat.le_add_left _ _))

theorem outs_at0 (c : Dev nD) : outs m hR 6 main_v21 c = o0 m hR c := by
  show Function.update (fun r' => m ((c : Thread nD τ).loc r')) main_v21 (o0 m hR c) main_v21 = _
  exact Function.update_self _ _ _
theorem outs_at1 (c : Dev nD) : outs m hR 8 main_v26 c = o1 m hR c := by
  show Function.update (fun r' => m ((c : Thread nD τ).loc r')) main_v26 (o1 m hR c) main_v26 = _
  exact Function.update_self _ _ _
theorem outs_at2 (c : Dev nD) : outs m hR 10 main_v31 c = o2 m hR c := by
  show Function.update (fun r' => m ((c : Thread nD τ).loc r')) main_v31 (o2 m hR c) main_v31 = _
  exact Function.update_self _ _ _
theorem outs_at3 (c : Dev nD) : outs m hR 12 main_v37 c = o3 m hR c := by
  show Function.update (fun r' => m ((c : Thread nD τ).loc r')) main_v37 (o3 m hR c) main_v37 = _
  exact Function.update_self _ _ _
theorem outs_at4 (c : Dev nD) : outs m hR 14 main_v41 c = o4 m hR c := by
  show Function.update (fun r' => m ((c : Thread nD τ).loc r')) main_v41 (o4 m hR c) main_v41 = _
  exact Function.update_self _ _ _
theorem outs_at5 (c : Dev nD) : outs m hR 16 main_v45 c = o5 m hR c := by
  show Function.update (fun r' => m ((c : Thread nD τ).loc r')) main_v45 (o5 m hR c) main_v45 = _
  exact Function.update_self _ _ _
theorem outs_at6 (c : Dev nD) : outs m hR 18 main_v49 c = o6 m hR c := by
  show Function.update (fun r' => m ((c : Thread nD τ).loc r')) main_v49 (o6 m hR c) main_v49 = _
  exact Function.update_self _ _ _
theorem outs_at7 (c : Dev nD) : outs m hR 20 main_v53 c = o7 m hR c := by
  show Function.update (fun r' => m ((c : Thread nD τ).loc r')) main_v53 (o7 m hR c) main_v53 = _
  exact Function.update_self _ _ _
theorem outs_at8 (c : Dev nD) : outs m hR 22 main_v57 c = o8 m hR c := by
  show Function.update (fun r' => m ((c : Thread nD τ).loc r')) main_v57 (o8 m hR c) main_v57 = _
  exact Function.update_self _ _ _
theorem outs_at9 (c : Dev nD) : outs m hR 24 main_v61 c = o9 m hR c := by
  show Function.update (fun r' => m ((c : Thread nD τ).loc r')) main_v61 (o9 m hR c) main_v61 = _
  exact Function.update_self _ _ _
theorem outs_at10 (c : Dev nD) : outs m hR 26 main_v65 c = o10 m hR c := by
  show Function.update (fun r' => m ((c : Thread nD τ).loc r')) main_v65 (o10 m hR c) main_v65 = _
  exact Function.update_self _ _ _
theorem outs_at11 (c : Dev nD) : outs m hR 28 main_v68 c = o11 m hR c := by
  show Function.update (fun r' => m ((c : Thread nD τ).loc r')) main_v68 (o11 m hR c) main_v68 = _
  exact Function.update_self _ _ _
theorem outs_at12 (c : Dev nD) : outs m hR 29 main_v69 c = o12 m hR c := by
  show Function.update (fun r' => m ((c : Thread nD τ).loc r')) main_v69 (o12 m hR c) main_v69 = _
  exact Function.update_self _ _ _
theorem outs_at13 (c : Dev nD) : outs m hR 31 main_v74 c = o13 m hR c := by
  show Function.update (fun r' => m ((c : Thread nD τ).loc r')) main_v74 (o13 m hR c) main_v74 = _
  exact Function.update_self _ _ _

theorem Vout_at0 (c : Dev nD) : V6 m (outs m hR) c main_v21 = o0 m hR c :=
  (Function.update_self _ _ _).trans (outs_at0 m hR c)
theorem Vout_at1 (c : Dev nD) : V8 m (outs m hR) c main_v26 = o1 m hR c :=
  (Function.update_self _ _ _).trans (outs_at1 m hR c)
theorem Vout_at2 (c : Dev nD) : V10 m (outs m hR) c main_v31 = o2 m hR c :=
  (Function.update_self _ _ _).trans (outs_at2 m hR c)
theorem Vout_at3 (c : Dev nD) : V12 m (outs m hR) c main_v37 = o3 m hR c :=
  (Function.update_self _ _ _).trans (outs_at3 m hR c)
theorem Vout_at4 (c : Dev nD) : V14 m (outs m hR) c main_v41 = o4 m hR c :=
  (Function.update_self _ _ _).trans (outs_at4 m hR c)
theorem Vout_at5 (c : Dev nD) : V16 m (outs m hR) c main_v45 = o5 m hR c :=
  (Function.update_self _ _ _).trans (outs_at5 m hR c)
theorem Vout_at6 (c : Dev nD) : V18 m (outs m hR) c main_v49 = o6 m hR c :=
  (Function.update_self _ _ _).trans (outs_at6 m hR c)
theorem Vout_at7 (c : Dev nD) : V20 m (outs m hR) c main_v53 = o7 m hR c :=
  (Function.update_self _ _ _).trans (outs_at7 m hR c)
theorem Vout_at8 (c : Dev nD) : V22 m (outs m hR) c main_v57 = o8 m hR c :=
  (Function.update_self _ _ _).trans (outs_at8 m hR c)
theorem Vout_at9 (c : Dev nD) : V24 m (outs m hR) c main_v61 = o9 m hR c :=
  (Function.update_self _ _ _).trans (outs_at9 m hR c)
theorem Vout_at10 (c : Dev nD) : V26 m (outs m hR) c main_v65 = o10 m hR c :=
  (Function.update_self _ _ _).trans (outs_at10 m hR c)
theorem Vout_at11 (c : Dev nD) : V28 m (outs m hR) c main_v68 = o11 m hR c :=
  (Function.update_self _ _ _).trans (outs_at11 m hR c)
theorem Vout_at12 (c : Dev nD) : V29 m (outs m hR) c main_v69 = o12 m hR c :=
  (Function.update_self _ _ _).trans (outs_at12 m hR c)
theorem Vout_at13 (c : Dev nD) : V31 m (outs m hR) c main_v74 = o13 m hR c :=
  (Function.update_self _ _ _).trans (outs_at13 m hR c)

theorem adm_tbl0 : (adm m hR 0).1 = tb0 m := rfl
theorem adm_tbl1 : (adm m hR 1).1 = tb1 m := rfl
theorem adm_tbl2 : (adm m hR 2).1 = tb2 m := rfl
theorem adm_tbl3 : (adm m hR 3).1 = tb3 m := rfl
theorem adm_tbl4 : (adm m hR 4).1 = tb4 m := rfl
theorem adm_tbl5 : (adm m hR 5).1 = tb5 m := rfl
theorem adm_tbl6 : (adm m hR 6).1 = tb6 m := rfl
theorem adm_tbl7 : (adm m hR 7).1 = tb7 m := rfl
theorem adm_tbl8 : (adm m hR 8).1 = tb8 m := rfl
theorem adm_tbl9 : (adm m hR 9).1 = tb9 m := rfl
theorem adm_tbl10 : (adm m hR 10).1 = tb10 m := rfl

end Cert.KernelIdeal.Hand

end
-- ==== Proof.Bits.Base.lean ====
import proofs.«401580_j65068754534945_2_alg».proof.Proof.Gen.Kernel.Regions
import proofs.«401580_j65068754534945_2_alg».proof.Proof.Gen.Kernel.Skeleton
import proofs.«401580_j65068754534945_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import Idealize.ShloMosaic.PureOps.Ideal.Laws

/-! What every step of the program carries besides its arrays, and whole-block loads and stores: a store over a whole block leaves its payload, a load of a whole block reads the contents. -/

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev Rst (c : Dev nD) : sProp 𝕄 :=
  iprop((∃ r, prngReg c r) ∗ ∃ W, owes (c : Thread nD τ) (0 : CellTallies nD τ sig Unit) W)

abbrev Lh : GSem nD τ sig → Finset Unit := fun _ => ∅
abbrev lvh : GSem nD τ sig → Unit → ℕ := fun _ _ => 0

theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

theorem zero_rowBlk : (![0, 0, 0] : Fin S1x1x128.rank → Nat) = fun _ => 0 := by
  funext a; fin_cases a <;> rfl

/-- The whole one-row block. -/
abbrev rowBlk : Rect S1x1x128 := Rect.unit (s := S1x1x128) ![0, 0, 0] ![1, 1, 128] inb_S1x1x128_S1x1x128_0_0_0

theorem mem_rowBlk (y : S1x1x128.Idx) : y ∈ rowBlk.set := View.mem_set_unit_zero (S := S1x1x128) zero_rowBlk _ y
theorem ld_rowBlk (X : Vec F S1x1x128 .f32) : View.ld X rowBlk = X := View.ld_unit_zero (S := S1x1x128) zero_rowBlk _ X
/-- A store through the whole block, made last, leaves its payload; a load after it reads that payload. -/
theorem read_writes_rowBlk {sp : Space} (v : View sig .tc sp S1x1x128 .f32) (f : v.ty.Contents (Elt F)) (w : Vec F S1x1x128 .f32)
    (L : List (View.Piece (Elt F) S1x1x128 .f32)) : v.read (Elt F) (v.writes (Elt F) f (⟨rowBlk, w⟩ :: L)) = w := by
  rw [View.read_writes_eq_canon _ _ _ (fun y => ⟨⟨rowBlk, w⟩, List.mem_cons.mpr (Or.inl rfl), mem_rowBlk y⟩),
    View.canon_cons_unit_zero (S := S1x1x128) zero_rowBlk]
theorem readCov_rowBlk {sp : Space} (v : View sig .tc sp S1x1x128 .f32) (w : Vec F S1x1x128 .f32)
    (L : List (View.Piece (Elt F) S1x1x128 .f32)) : v.readCov (⟨rowBlk, w⟩ :: L) rowBlk.toLoadRect = w := by
  rw [View.readCov_eq_canon_ld _ _ _ (fun y => ⟨⟨rowBlk, w⟩, List.mem_cons.mpr (Or.inl rfl), mem_rowBlk y⟩),
    View.canon_cons_unit_zero (S := S1x1x128) zero_rowBlk, ld_rowBlk]

section WholeBlock

variable {sig' : RefSig} {κ : Kind} {sp : Space} {S : Shape} {e : EltTy}

theorem readAt_whole_zero (v : View sig' κ sp S e) (f : v.ty.Contents (Elt F)) {off : Fin S.rank → Nat}
    (h : off = fun _ => 0) (inb : ∀ a, off a + S.size a ≤ S.size a) :
    v.readAt (Elt F) (Rect.unit off S.size inb).toLoadRect f = v.read (Elt F) f := by
  subst h; funext x
  show v.read (Elt F) f ((Rect.whole S).emb x) = v.read (Elt F) f x
  rw [Rect.emb_whole_apply]

theorem read_store_whole_zero (v : View sig' κ sp S e) (f : v.ty.Contents (Elt F)) {off : Fin S.rank → Nat}
    (h : off = fun _ => 0) (inb : ∀ a, off a + S.size a ≤ S.size a) (p : S.Idx → Elt F e) :
    v.read (Elt F) (v.writes (Elt F) f [(⟨Rect.unit off S.size inb, p⟩ : View.Piece (Elt F) S e)]) = p := by
  subst h; funext y
  have hy := View.read_writes_cons_emb v f (Rect.whole S) p [] y
  rwa [Rect.emb_whole_apply] at hy

end WholeBlock

theorem zeros2 : (![0, 0] : Fin 2 → Nat) = fun _ => 0 := funext fun a => by fin_cases a <;> rfl

section Seg
variable {p : Fin 14} (L : Pipeline.PLaunchFacts (nD := nD) (τ := τ) (pcfgs (F := F)) p)
variable (a : (p : Fin 14) → (pcfgs (F := F) p).Adm)
variable (pdats : (p : Fin 14) → (c : Dev nD) → Dat τ (Elt F) Unit ℕ (UR sig nD τ) ℕ (Pipeline.pin (pcfgs (F := F)) a p) c)
variable (Vin Vout : (c : Dev nD) → Valuation τ sig (Elt F)) (c : Dev nD)
variable (hsh : ∀ w, (pdats p c).share w = fullShare)
variable (hT : (fun k => Vin c (Proc.devRef .tc ((pcfgs (F := F) p).pre.ref k))) = (a p).1)

include L hsh hT in
/-- Entering a region that owes nothing: the memory at Vin is the region's arrays, its tables at the admissible contents, the generator register and the rest. -/
theorem seg_entry (hA : ∀ w, (pdats p c).A w = Vin c (Pipeline.arrRef (Pipeline.pin (pcfgs (F := F)) a p).spec w))
    (ho : (pdats p c).owed 0 = 0) (hr : (pdats p c).recorded 0 = Set.univ) :
    iprop(iprop(StableHlo.held (c : Thread nD τ) (Pipeline.ucRefs τ sig) (Vin c) ∗ Rst c)
        ∗ Pipeline.ownSems0 (fun k : PEmpty => k.elim) c ∗ levAts Lh lvh)
      ⊢ |={Set.univ}=> iprop((pdats p c).arrays ((pdats p c).arrAt · 0)
        ∗ Pipeline.prefHeld (pcfgs (F := F) p).pre c (fun _ => fullShare) (a p).1 ∗ (pdats p c).owesAt () 0 ∗ (∃ r, prngReg c r)
        ∗ Pipeline.unscopedRestP (pcfgs (F := F) p).pre (pcfgs (F := F) p).spec c (fun b => Vin c b)) := by
  have hsplit := Pipeline.arrays_of_unscopedBufs (p := p) (pcfgs (F := F)) a pdats L.win L.arr_whole c hsh (fun b => Vin c b) hA
  rw [Pipeline.unscopedBufs_held, Pipeline.unscopedRest_split L.pre, hT] at hsplit
  iintro ⟨⟨Hbufs, Hreg, Howes⟩, -, -⟩
  ihave Hs := hsplit $$ Hbufs
  icases Hs with ⟨Harr, HT, HR⟩
  imodintro
  iframe Harr HT Hreg HR
  unfold Pipeline.Dat.owesAt Pipeline.owesWithin Pipeline.Dat.bound
  rw [ho, hr]
  icases Howes with ⟨%W, Howes⟩
  iexists W; isplitr
  · ipureintro; exact fun _ _ => Or.inl trivial
  iexact Howes

include L hsh hT in
/-- Leaving it: the arrays at their final contents, the tables and the rest are the memory at Vout. -/
theorem seg_exit (hF : ∀ w, (pdats p c).arrAt w (Pipeline.pin (pcfgs (F := F)) a p).N = Vout c (Pipeline.arrRef (Pipeline.pin (pcfgs (F := F)) a p).spec w))
    (hrest : ∀ b : Ref sig .tc, b ∉ Finset.univ.image (Pipeline.arrRef (Pipeline.pin (pcfgs (F := F)) a p).spec) → Vout c b = Vin c b)
    (ho : (pdats p c).owed (Fin.last (Pipeline.pin (pcfgs (F := F)) a p).N) = 0) :
    iprop((pdats p c).arrays ((pdats p c).arrAt · (Pipeline.pin (pcfgs (F := F)) a p).N)
        ∗ (pdats p c).owesAt () (Fin.last (Pipeline.pin (pcfgs (F := F)) a p).N)
        ∗ iprop((∃ r, prngReg c r) ∗ Pipeline.prefHeld (pcfgs (F := F) p).pre c (fun _ => fullShare) (a p).1)
        ∗ Pipeline.unscopedRestP (pcfgs (F := F) p).pre (pcfgs (F := F) p).spec c (fun b => Vin c b))
      ⊢ |={Set.univ}=> iprop(StableHlo.held (c : Thread nD τ) (Pipeline.ucRefs τ sig) (Vout c) ∗ Rst c) := by
  have hjoin := Pipeline.unscopedBufs_of_arrays (p := p) (pcfgs (F := F)) a (Ix := Unit) (Name := ℕ) (U := UR sig nD τ) (Lvl := ℕ)
    L.win L.arr_whole c pdats hsh (fun b => Vin c b) (fun b => Vout c b) ((pdats p c).arrAt · (Pipeline.pin (pcfgs (F := F)) a p).N) hF hrest
  rw [Pipeline.unscopedBufs_held, Pipeline.unscopedRest_split L.pre, hT] at hjoin
  iintro ⟨Harr, Howes, ⟨Hreg, HT⟩, HR⟩
  imodintro
  isplitl [Harr HT HR]
  · iapply hjoin; iframe Harr HT HR
  isplitl [Hreg]; · iexact Hreg
  unfold Pipeline.Dat.owesAt Pipeline.owesWithin
  rw [ho]
  icases Howes with ⟨%W, -, Howes⟩
  iexists W; iexact Howes

end Seg

section SegC
variable {p : Fin 14} (L : Pipeline.PLaunchFacts (nD := nD) (τ := τ) (pcfgs (F := F)) p)
variable (a : (p : Fin 14) → (pcfgs (F := F) p).Adm)
variable (pdats : (p : Fin 14) → (c : Dev nD) → Dat τ (Elt F) Unit ℕ (UR sig nD τ) ℕ (Pipeline.pin (pcfgs (F := F)) a p) c)
variable (Vin Vout : (c : Dev nD) → Valuation τ sig (Elt F))

set_option backward.isDefEq.respectTransparency.types false in
/-- A region that owes nothing as a step from the memory at Vin to the memory at Vout: left to show are the body at every point and the invariant at both ends. -/
def seg (hsh : ∀ c w, (pdats p c).share w = fullShare)
    (hT : ∀ c, (fun k => Vin c (Proc.devRef .tc ((pcfgs (F := F) p).pre.ref k))) = (a p).1)
    (hA : ∀ c w, (pdats p c).A w = Vin c (Pipeline.arrRef (Pipeline.pin (pcfgs (F := F)) a p).spec w))
    (hF : ∀ c w, (pdats p c).arrAt w (Pipeline.pin (pcfgs (F := F)) a p).N = Vout c (Pipeline.arrRef (Pipeline.pin (pcfgs (F := F)) a p).spec w))
    (hrest : ∀ c (b : Ref sig .tc), b ∉ Finset.univ.image (Pipeline.arrRef (Pipeline.pin (pcfgs (F := F)) a p).spec) → Vout c b = Vin c b)
    (ho : ∀ c t, (pdats p c).owed t = 0) (hr : ∀ c, (pdats p c).recorded 0 = Set.univ)
    (hbody : ∀ c, Pipeline.BodyObligationLoose (pdats p c) (defs₀ (F := F)) Variants.none () Set.univ)
    (hin : ∀ c, iprop((∃ r, prngReg c r) ∗ Pipeline.prefHeld (pcfgs (F := F) p).pre c (fun _ => fullShare) (a p).1
      ∗ Pipeline.scopedRest (Pipeline.pin (pcfgs (F := F)) a p).spec c) ⊢ (pdats p c).Φ 0)
    (hout : ∀ c, (pdats p c).Φ (Fin.last (Pipeline.pin (pcfgs (F := F)) a p).N)
      ⊢ iprop(iprop((∃ r, prngReg c r) ∗ Pipeline.prefHeld (pcfgs (F := F) p).pre c (fun _ => fullShare) (a p).1)
        ∗ Pipeline.ownSems0 (fun k : PEmpty => k.elim) c ∗ Pipeline.scopedRest (Pipeline.pin (pcfgs (F := F)) a p).spec c)) :
    Pipeline.RegionSeg (pcfgs (F := F)) a pdats () defs₀ Variants.none Lh lvh p where
  win := L.win.to₀
  block_pos := L.block_pos
  stage_whole := L.stage_whole
  K := PEmpty
  osem k := k.elim
  ho := Pipeline.OwnSemFacts.none _
  hbody := hbody
  hwaits := Pipeline.hwaits_of_owed_zero _ _ _ _ Lh lvh p ho
  pre c := iprop(StableHlo.held (c : Thread nD τ) (Pipeline.ucRefs τ sig) (Vin c) ∗ Rst c)
  post c := iprop(StableHlo.held (c : Thread nD τ) (Pipeline.ucRefs τ sig) (Vout c) ∗ Rst c)
  X c := iprop(∃ r, prngReg c r)
  Y c := iprop((∃ r, prngReg c r) ∗ Pipeline.prefHeld (pcfgs (F := F) p).pre c (fun _ => fullShare) (a p).1)
  Z c := Pipeline.unscopedRestP (pcfgs (F := F) p).pre (pcfgs (F := F) p).spec c (fun b => Vin c b)
  hentry c := seg_entry L a pdats Vin c (hsh c) (hT c) (hA c) (ho c 0) (hr c)
  hin := hin
  hout := hout
  hexit c := seg_exit L a pdats Vin Vout c (hsh c) (hT c) (hF c) (hrest c) (ho c _)

end SegC

end Cert.Kernel.Hand

end
-- ==== Proof.Bits.Tables.lean ====
import proofs.«401580_j65068754534945_2_alg».proof.Proof.Bits.Base
import Idealize.ShloMosaic.Lib.StableHlo.Run
import Idealize.ShloMosaic.Lib.StableHlo.Predicate
import Idealize.ShloMosaic.Lib.ReduceAll

/-! The eleven tables of row numbers are functions of the integer arguments alone, whatever the regions write, and under the range conditions every entry is below the feature table's height. -/

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

theorem reduce_andi_of_all {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_one x _ fun n _ => hx n

theorem toInt_of_small {x : BitVec 32} (hx : x.toNat < 2 ^ 31) : x.toInt = x.toNat :=
  BitVec.toInt_eq_toNat_of_lt (by omega)

theorem norm_of_small (x K : BitVec 32) (hx : x.toNat < 2 ^ 31) :
    Scalar.select (IntOp.cmpi .slt x 0#32) (IntOp.addi x K) x = x := by
  unfold Scalar.select
  rw [if_neg]
  intro h
  have h' : IntOp.cmpi .slt x 0#32 = 1#1 := h
  rw [IntOp.cmpi_slt, show (0#32 : BitVec 32).toInt = 0 from by decide, toInt_of_small hx] at h'
  omega

theorem inb_of_small (x : BitVec 32) (hx : x.toNat < 128) :
    IntOp.andi (IntOp.cmpi .sge x 0#32) (IntOp.cmpi .sle x 127#32) = 1#1 := by
  rw [IntOp.andi_eq_one, IntOp.cmpi_sge, IntOp.cmpi_sle, show (0#32 : BitVec 32).toInt = 0 from by decide,
    show (127#32 : BitVec 32).toInt = 127 from by decide, toInt_of_small (x := x) (by omega)]
  omega

section Pick

variable {n k : Nat} {sx : Shape} {axes : List (Fin 3)}

def pickIdx (a : IVec ⟨2, ![n, k]⟩ 32) (hc : (⟨2, ![n, k]⟩ : Shape).ShapeCasts ⟨3, ![n, k, 1]⟩)
    (b2 : S_.BroadcastsInDim ⟨2, ![n, k]⟩ (![] : Fin 0 → Fin 2)) : IVec ⟨3, ![n, k, 1]⟩ 32 :=
  shapeCast ⟨3, ![n, k, 1]⟩
    (select (cmpi .slt a (broadcastInDim ⟨2, ![n, k]⟩ ![] b2 (constantI S_ 32 0#32)))
      (addi a (broadcastInDim ⟨2, ![n, k]⟩ ![] b2 (constantI S_ 32 128#32))) a) hc

def pick (a : IVec ⟨2, ![n, k]⟩ 32) (x : IVec sx 32) (d : GatherDims sx ⟨3, ![n, k, 1]⟩ ⟨2, ![n, k]⟩)
    (hc : (⟨2, ![n, k]⟩ : Shape).ShapeCasts ⟨3, ![n, k, 1]⟩)
    (b2 : S_.BroadcastsInDim ⟨2, ![n, k]⟩ (![] : Fin 0 → Fin 2))
    (b3 : S_.BroadcastsInDim ⟨3, ![n, k, 1]⟩ (![] : Fin 0 → Fin 3))
    (b1 : S1.BroadcastsInDim S1x1x1 (![2] : Fin 1 → Fin 3))
    (b111 : S1x1x1.BroadcastsInDim ⟨3, ![n, k, 1]⟩ (![0, 1, 2] : Fin 3 → Fin 3))
    (red : (⟨3, ![n, k, 1]⟩ : Shape).ReducesTo axes ⟨2, ![n, k]⟩) (hu : 0 < S_.numel) : IVec ⟨2, ![n, k]⟩ 32 :=
  select
    (Host.reduce IntOp.andi
      (andi (cmpi .sge (pickIdx a hc b2) (broadcastInDim ⟨3, ![n, k, 1]⟩ ![] b3 (constantI S_ 32 0#32)))
        (cmpi .sle (pickIdx a hc b2)
          (broadcastInDim ⟨3, ![n, k, 1]⟩ ![0, 1, 2] b111 (broadcastInDim S1x1x1 ![2] b1 (constantI S1 32 127#32)))))
      (constantI S_ 1 1#1) red hu)
    (Host.gather d x (pickIdx a hc b2))
    (broadcastInDim ⟨2, ![n, k]⟩ ![] b2 (constantI S_ 32 2147483648#32))

theorem pick_lt {B : Nat} (a : IVec ⟨2, ![n, k]⟩ 32) (x : IVec sx 32) (d : GatherDims sx ⟨3, ![n, k, 1]⟩ ⟨2, ![n, k]⟩)
    (hc : (⟨2, ![n, k]⟩ : Shape).ShapeCasts ⟨3, ![n, k, 1]⟩)
    (b2 : S_.BroadcastsInDim ⟨2, ![n, k]⟩ (![] : Fin 0 → Fin 2))
    (b3 : S_.BroadcastsInDim ⟨3, ![n, k, 1]⟩ (![] : Fin 0 → Fin 3))
    (b1 : S1.BroadcastsInDim S1x1x1 (![2] : Fin 1 → Fin 3))
    (b111 : S1x1x1.BroadcastsInDim ⟨3, ![n, k, 1]⟩ (![0, 1, 2] : Fin 3 → Fin 3))
    (red : (⟨3, ![n, k, 1]⟩ : Shape).ReducesTo axes ⟨2, ![n, k]⟩) (hu : 0 < S_.numel)
    (ha : ∀ i, (a i).toNat < 128) (hx : ∀ i, (x i).toNat < B) (j : (⟨2, ![n, k]⟩ : Shape).Idx) :
    (pick a x d hc b2 b3 b1 b111 red hu j).toNat < B := by
  have hidx : ∀ i, (pickIdx a hc b2 i).toNat < 128 := fun i => by
    show (Scalar.select (IntOp.cmpi .slt (a (Shape.reshapeEquiv hc i)) 0#32)
      (IntOp.addi (a (Shape.reshapeEquiv hc i)) 128#32) (a (Shape.reshapeEquiv hc i))).toNat < 128
    rw [norm_of_small _ _ (by have := ha (Shape.reshapeEquiv hc i); omega)]
    exact ha _
  have hm : Host.reduce IntOp.andi
      (andi (cmpi .sge (pickIdx a hc b2) (broadcastInDim ⟨3, ![n, k, 1]⟩ ![] b3 (constantI S_ 32 0#32)))
        (cmpi .sle (pickIdx a hc b2)
          (broadcastInDim ⟨3, ![n, k, 1]⟩ ![0, 1, 2] b111 (broadcastInDim S1x1x1 ![2] b1 (constantI S1 32 127#32)))))
      (constantI S_ 1 1#1) red hu j = 1#1 :=
    reduce_andi_of_all _ _ red hu (fun i => inb_of_small _ (hidx i)) (fun _ => rfl) j
  show (Scalar.select _ (x _) _).toNat < B
  rw [hm, ValueIdx.select_one]
  exact hx _

end Pick

section Stretches

variable (W : Valuation τ sig (Elt F))

theorem ops0_4_v20 :
    (StableHlo.after hostOps0_4 W (Proc.devRef .tc main_v20) : S1024.Idx → BitVec 32) =
      shapeCast S1024 (shapeCast S1024x1 (W (Proc.devRef .tc main_arg2) : S1024.Idx → BitVec 32)
        shapeCasts_S1024_S1024x1) shapeCasts_S1024x1_S1024 := by
  after_results; rfl

theorem ops0_4_v17 :
    (StableHlo.after hostOps0_4 W (Proc.devRef .tc main_v17) : S256000.Idx → BitVec 32) =
      shapeCast S256000 (W (Proc.devRef .tc main_v16) : S10240x25.Idx → BitVec 32) shapeCasts_S10240x25_S256000 := by
  after_results; rfl

theorem ops1_v25 :
    (StableHlo.after hostOps1 W (Proc.devRef .tc main_v25) : S10240.Idx → BitVec 32) =
      shapeCast S10240 (shapeCast S10240x1 (W (Proc.devRef .tc main_v8) : S10240.Idx → BitVec 32)
        shapeCasts_S10240_S10240x1) shapeCasts_S10240x1_S10240 := by
  after_results; rfl

theorem ops2_v30 :
    (StableHlo.after hostOps2 W (Proc.devRef .tc main_v30) : S10240.Idx → BitVec 32) =
      shapeCast S10240 (shapeCast S1024x10 (W (Proc.devRef .tc main_v8) : S10240.Idx → BitVec 32)
        shapeCasts_S10240_S1024x10) shapeCasts_S1024x10_S10240 := by
  after_results; rfl

theorem ops3_v33 :
    (StableHlo.after hostOps3 W (Proc.devRef .tc main_v33) : S10240x25.Idx → BitVec 32) =
      shapeCast S10240x25 (W (Proc.devRef .tc main_v17) : S256000.Idx → BitVec 32) shapeCasts_S256000_S10240x25 := by
  after_results; rfl

theorem ops3_v36 :
    (StableHlo.after hostOps3 W (Proc.devRef .tc main_v36) : S32000.Idx → BitVec 32) =
      shapeCast S32000 (extractStridedSlice S1280x25 ![0, 0]
        (shapeCast S10240x25 (W (Proc.devRef .tc main_v17) : S256000.Idx → BitVec 32) shapeCasts_S256000_S10240x25)
        slices_S10240x25_S1280x25_0_0) shapeCasts_S1280x25_S32000 := by
  after_results; rfl

theorem ops4_v40 :
    (StableHlo.after hostOps4 W (Proc.devRef .tc main_v40) : S32000.Idx → BitVec 32) =
      shapeCast S32000 (extractStridedSlice S1280x25 ![1280, 0]
        (W (Proc.devRef .tc main_v33) : S10240x25.Idx → BitVec 32) slices_S10240x25_S1280x25_1280_0)
        shapeCasts_S1280x25_S32000 := by
  after_results; rfl
theorem ops5_v44 :
    (StableHlo.after hostOps5 W (Proc.devRef .tc main_v44) : S32000.Idx → BitVec 32) =
      shapeCast S32000 (extractStridedSlice S1280x25 ![2560, 0]
        (W (Proc.devRef .tc main_v33) : S10240x25.Idx → BitVec 32) slices_S10240x25_S1280x25_2560_0)
        shapeCasts_S1280x25_S32000 := by
  after_results; rfl
theorem ops6_v48 :
    (StableHlo.after hostOps6 W (Proc.devRef .tc main_v48) : S32000.Idx → BitVec 32) =
      shapeCast S32000 (extractStridedSlice S1280x25 ![3840, 0]
        (W (Proc.devRef .tc main_v33) : S10240x25.Idx → BitVec 32) slices_S10240x25_S1280x25_3840_0)
        shapeCasts_S1280x25_S32000 := by
  after_results; rfl
theorem ops7_v52 :
    (StableHlo.after hostOps7 W (Proc.devRef .tc main_v52) : S32000.Idx → BitVec 32) =
      shapeCast S32000 (extractStridedSlice S1280x25 ![5120, 0]
        (W (Proc.devRef .tc main_v33) : S10240x25.Idx → BitVec 32) slices_S10240x25_S1280x25_5120_0)
        shapeCasts_S1280x25_S32000 := by
  after_results; rfl
theorem ops8_v56 :
    (StableHlo.after hostOps8 W (Proc.devRef .tc main_v56) : S32000.Idx → BitVec 32) =
      shapeCast S32000 (extractStridedSlice S1280x25 ![6400, 0]
        (W (Proc.devRef .tc main_v33) : S10240x25.Idx → BitVec 32) slices_S10240x25_S1280x25_6400_0)
        shapeCasts_S1280x25_S32000 := by
  after_results; rfl
theorem ops9_v60 :
    (StableHlo.after hostOps9 W (Proc.devRef .tc main_v60) : S32000.Idx → BitVec 32) =
      shapeCast S32000 (extractStridedSlice S1280x25 ![7680, 0]
        (W (Proc.devRef .tc main_v33) : S10240x25.Idx → BitVec 32) slices_S10240x25_S1280x25_7680_0)
        shapeCasts_S1280x25_S32000 := by
  after_results; rfl
theorem ops10_v64 :
    (StableHlo.after hostOps10 W (Proc.devRef .tc main_v64) : S32000.Idx → BitVec 32) =
      shapeCast S32000 (extractStridedSlice S1280x25 ![8960, 0]
        (W (Proc.devRef .tc main_v33) : S10240x25.Idx → BitVec 32) slices_S10240x25_S1280x25_8960_0)
        shapeCasts_S1280x25_S32000 := by
  after_results; rfl

end Stretches

variable (outs outs' : Outs (F := F))

abbrev X8 (c : Dev nD) : IVec S10240 32 := V5 m c main_v8

abbrev X17 (c : Dev nD) : IVec S256000 32 := V5 m c main_v17

abbrev X33 (c : Dev nD) : IVec S10240x25 32 := shapeCast S10240x25 (X17 m c) shapeCasts_S256000_S10240x25

theorem v8_6 (c : Dev nD) : (V6 m outs c main_v8 : S10240.Idx → BitVec 32) = X8 m c :=
  V6_of m outs c main_v8 (by decide)
theorem v8_8 (c : Dev nD) : (V8 m outs c main_v8 : S10240.Idx → BitVec 32) = X8 m c :=
  (V8_of m outs c main_v8 (by decide)).trans <| (V7_of m outs c main_v8 (by decide)).trans (v8_6 m outs c)
theorem v17_10 (c : Dev nD) : (V10 m outs c main_v17 : S256000.Idx → BitVec 32) = X17 m c :=
  (V10_of m outs c main_v17 (by decide)).trans <| (V9_of m outs c main_v17 (by decide)).trans <|
  (V8_of m outs c main_v17 (by decide)).trans <| (V7_of m outs c main_v17 (by decide)).trans
  (V6_of m outs c main_v17 (by decide))
theorem v33_11 (c : Dev nD) : (V11 m outs c main_v33 : S10240x25.Idx → BitVec 32) = X33 m c :=
  (ops3_v33 (V10 m outs c)).trans (congrArg (fun x : IVec S256000 32 => shapeCast S10240x25 x shapeCasts_S256000_S10240x25) (v17_10 m outs c))
theorem v33_12 (c : Dev nD) : (V12 m outs c main_v33 : S10240x25.Idx → BitVec 32) = X33 m c :=
  (V12_of m outs c main_v33 (by decide)).trans (v33_11 m outs c)
theorem v33_14 (c : Dev nD) : (V14 m outs c main_v33 : S10240x25.Idx → BitVec 32) = X33 m c :=
  (V14_of m outs c main_v33 (by decide)).trans <| (V13_of m outs c main_v33 (by decide)).trans (v33_12 m outs c)
theorem v33_16 (c : Dev nD) : (V16 m outs c main_v33 : S10240x25.Idx → BitVec 32) = X33 m c :=
  (V16_of m outs c main_v33 (by decide)).trans <| (V15_of m outs c main_v33 (by decide)).trans (v33_14 m outs c)
theorem v33_18 (c : Dev nD) : (V18 m outs c main_v33 : S10240x25.Idx → BitVec 32) = X33 m c :=
  (V18_of m outs c main_v33 (by decide)).trans <| (V17_of m outs c main_v33 (by decide)).trans (v33_16 m outs c)
theorem v33_20 (c : Dev nD) : (V20 m outs c main_v33 : S10240x25.Idx → BitVec 32) = X33 m c :=
  (V20_of m outs c main_v33 (by decide)).trans <| (V19_of m outs c main_v33 (by decide)).trans (v33_18 m outs c)
theorem v33_22 (c : Dev nD) : (V22 m outs c main_v33 : S10240x25.Idx → BitVec 32) = X33 m c :=
  (V22_of m outs c main_v33 (by decide)).trans <| (V21_of m outs c main_v33 (by decide)).trans (v33_20 m outs c)
theorem v33_24 (c : Dev nD) : (V24 m outs c main_v33 : S10240x25.Idx → BitVec 32) = X33 m c :=
  (V24_of m outs c main_v33 (by decide)).trans <| (V23_of m outs c main_v33 (by decide)).trans (v33_22 m outs c)

theorem arg2_4 (c : Dev nD) : (V4 m c main_arg2 : S1024.Idx → BitVec 32) = m ((c.tc : Thread nD τ).loc main_arg2) :=
  (V4_of m c main_arg2 (by decide)).trans <| (V3_of m c main_arg2 (by decide)).trans <|
  (V2_of m c main_arg2 (by decide)).trans (V1_of m c main_arg2 (by decide))

theorem tbl0_eq (c : Dev nD) : (V5 m c main_v20 : S1024.Idx → BitVec 32) =
    shapeCast S1024 (shapeCast S1024x1 (m ((c.tc : Thread nD τ).loc main_arg2) : S1024.Idx → BitVec 32)
      shapeCasts_S1024_S1024x1) shapeCasts_S1024x1_S1024 :=
  (ops0_4_v20 (V4 m c)).trans
    (congrArg (fun x : IVec S1024 32 => shapeCast S1024 (shapeCast S1024x1 x shapeCasts_S1024_S1024x1) shapeCasts_S1024x1_S1024) (arg2_4 m c))
theorem tbl1_eq (c : Dev nD) : (V7 m outs c main_v25 : S10240.Idx → BitVec 32) =
    shapeCast S10240 (shapeCast S10240x1 (X8 m c) shapeCasts_S10240_S10240x1) shapeCasts_S10240x1_S10240 :=
  (ops1_v25 (V6 m outs c)).trans
    (congrArg (fun x : IVec S10240 32 => shapeCast S10240 (shapeCast S10240x1 x shapeCasts_S10240_S10240x1) shapeCasts_S10240x1_S10240) (v8_6 m outs c))
theorem tbl2_eq (c : Dev nD) : (V9 m outs c main_v30 : S10240.Idx → BitVec 32) =
    shapeCast S10240 (shapeCast S1024x10 (X8 m c) shapeCasts_S10240_S1024x10) shapeCasts_S1024x10_S10240 :=
  (ops2_v30 (V8 m outs c)).trans
    (congrArg (fun x : IVec S10240 32 => shapeCast S10240 (shapeCast S1024x10 x shapeCasts_S10240_S1024x10) shapeCasts_S1024x10_S10240) (v8_8 m outs c))
theorem tbl3_eq (c : Dev nD) : (V11 m outs c main_v36 : S32000.Idx → BitVec 32) =
    shapeCast S32000 (extractStridedSlice S1280x25 ![0, 0] (X33 m c) slices_S10240x25_S1280x25_0_0) shapeCasts_S1280x25_S32000 := by
  have e := ops3_v36 (V10 m outs c)
  rw [v17_10 m outs c] at e
  exact e
theorem tbl4_eq (c : Dev nD) : (V13 m outs c main_v40 : S32000.Idx → BitVec 32) =
    shapeCast S32000 (extractStridedSlice S1280x25 ![1280, 0] (X33 m c) slices_S10240x25_S1280x25_1280_0) shapeCasts_S1280x25_S32000 := by
  have e := ops4_v40 (V12 m outs c)
  rw [v33_12 m outs c] at e
  exact e
theorem tbl5_eq (c : Dev nD) : (V15 m outs c main_v44 : S32000.Idx → BitVec 32) =
    shapeCast S32000 (extractStridedSlice S1280x25 ![2560, 0] (X33 m c) slices_S10240x25_S1280x25_2560_0) shapeCasts_S1280x25_S32000 := by
  have e := ops5_v44 (V14 m outs c)
  rw [v33_14 m outs c] at e
  exact e
theorem tbl6_eq (c : Dev nD) : (V17 m outs c main_v48 : S32000.Idx → BitVec 32) =
    shapeCast S32000 (extractStridedSlice S1280x25 ![3840, 0] (X33 m c) slices_S10240x25_S1280x25_3840_0) shapeCasts_S1280x25_S32000 := by
  have e := ops6_v48 (V16 m outs c)
  rw [v33_16 m outs c] at e
  exact e
theorem tbl7_eq (c : Dev nD) : (V19 m outs c main_v52 : S32000.Idx → BitVec 32) =
    shapeCast S32000 (extractStridedSlice S1280x25 ![5120, 0] (X33 m c) slices_S10240x25_S1280x25_5120_0) shapeCasts_S1280x25_S32000 := by
  have e := ops7_v52 (V18 m outs c)
  rw [v33_18 m outs c] at e
  exact e
theorem tbl8_eq (c : Dev nD) : (V21 m outs c main_v56 : S32000.Idx → BitVec 32) =
    shapeCast S32000 (extractStridedSlice S1280x25 ![6400, 0] (X33 m c) slices_S10240x25_S1280x25_6400_0) shapeCasts_S1280x25_S32000 := by
  have e := ops8_v56 (V20 m outs c)
  rw [v33_20 m outs c] at e
  exact e
theorem tbl9_eq (c : Dev nD) : (V23 m outs c main_v60 : S32000.Idx → BitVec 32) =
    shapeCast S32000 (extractStridedSlice S1280x25 ![7680, 0] (X33 m c) slices_S10240x25_S1280x25_7680_0) shapeCasts_S1280x25_S32000 := by
  have e := ops9_v60 (V22 m outs c)
  rw [v33_22 m outs c] at e
  exact e
theorem tbl10_eq (c : Dev nD) : (V25 m outs c main_v64 : S32000.Idx → BitVec 32) =
    shapeCast S32000 (extractStridedSlice S1280x25 ![8960, 0] (X33 m c) slices_S10240x25_S1280x25_8960_0) shapeCasts_S1280x25_S32000 := by
  have e := ops10_v64 (V24 m outs c)
  rw [v33_24 m outs c] at e
  exact e

theorem tbl1_indep (c : Dev nD) : V7 m outs c main_v25 = V7 m outs' c main_v25 := (tbl1_eq m outs c).trans (tbl1_eq m outs' c).symm
theorem tbl2_indep (c : Dev nD) : V9 m outs c main_v30 = V9 m outs' c main_v30 := (tbl2_eq m outs c).trans (tbl2_eq m outs' c).symm
theorem tbl3_indep (c : Dev nD) : V11 m outs c main_v36 = V11 m outs' c main_v36 := (tbl3_eq m outs c).trans (tbl3_eq m outs' c).symm
theorem tbl4_indep (c : Dev nD) : V13 m outs c main_v40 = V13 m outs' c main_v40 := (tbl4_eq m outs c).trans (tbl4_eq m outs' c).symm
theorem tbl5_indep (c : Dev nD) : V15 m outs c main_v44 = V15 m outs' c main_v44 := (tbl5_eq m outs c).trans (tbl5_eq m outs' c).symm
theorem tbl6_indep (c : Dev nD) : V17 m outs c main_v48 = V17 m outs' c main_v48 := (tbl6_eq m outs c).trans (tbl6_eq m outs' c).symm
theorem tbl7_indep (c : Dev nD) : V19 m outs c main_v52 = V19 m outs' c main_v52 := (tbl7_eq m outs c).trans (tbl7_eq m outs' c).symm
theorem tbl8_indep (c : Dev nD) : V21 m outs c main_v56 = V21 m outs' c main_v56 := (tbl8_eq m outs c).trans (tbl8_eq m outs' c).symm
theorem tbl9_indep (c : Dev nD) : V23 m outs c main_v60 = V23 m outs' c main_v60 := (tbl9_eq m outs c).trans (tbl9_eq m outs' c).symm
theorem tbl10_indep (c : Dev nD) : V25 m outs c main_v64 = V25 m outs' c main_v64 := (tbl10_eq m outs c).trans (tbl10_eq m outs' c).symm

theorem shapeCast_lt {s t : Shape} {B : Nat} (x : IVec s 32) (h : s.ShapeCasts t) (hx : ∀ i, (x i).toNat < B) (j : t.Idx) :
    (shapeCast t x h j).toNat < B := hx _

theorem slice_lt {s t : Shape} {B : Nat} (off : Fin s.rank → Nat) (x : IVec s 32) (h : s.Slices off t)
    (hx : ∀ i, (x i).toNat < B) (j : t.Idx) : (extractStridedSlice t off x h j).toNat < B := hx _

theorem tbl0_inb (h2 : ∀ (c : Dev nD) i, ((m ((c.tc : Thread nD τ).loc main_arg2) : S1024.Idx → BitVec 32) i).toNat < 500000)
    (c : Dev nD) (k : S1024.Idx) : ((V5 m c main_v20 : S1024.Idx → BitVec 32) k).toNat < 500000 := by
  rw [tbl0_eq]
  exact shapeCast_lt _ _ (shapeCast_lt _ _ (h2 c)) k

section LaunchStretches

variable (W : Valuation τ sig (Elt F))

theorem ops0_v6 : ∃ idx : IVec S1024x1 32,
    (StableHlo.after hostOps0 W (Proc.devRef .tc main_v6) : S1024x128.Idx → BitVec 32) =
      Host.gather gather_S500000x128_S1024x1_S1024x128_1_0_n_n_0_1_1128
        (W (Proc.devRef .tc main_arg1) : S500000x128.Idx → BitVec 32) idx :=
  ⟨_, by after_results⟩

theorem ops0_1_v7 :
    (StableHlo.after hostOps0_1 W (Proc.devRef .tc main_v7) : S1024x10.Idx → BitVec 32) =
      pick (W (Proc.devRef .tc main_arg3) : S1024x10.Idx → BitVec 32) (W (Proc.devRef .tc main_v6) : S1024x128.Idx → BitVec 32)
        gather_S1024x128_S1024x10x1_S1024x10_n_1_0_0_1_2_11 shapeCasts_S1024x10_S1024x10x1 bcast_S_S1024x10
        bcast_S_S1024x10x1 bcast_S1_S1x1x1_2 bcast_S1x1x1_S1024x10x1_0_1_2 reducesTo_S1024x10x1_S1024x10_d2 h_S_ := by
  after_results_simp
  simp only [StableHlo.TRef.ofBuf, StableHlo.TRef.toBuf, cast_eq]
  rfl

theorem ops0_2_v8 :
    (StableHlo.after hostOps0_2 W (Proc.devRef .tc main_v8) : S10240.Idx → BitVec 32) =
      shapeCast S10240 (W (Proc.devRef .tc main_v7) : S1024x10.Idx → BitVec 32) shapeCasts_S1024x10_S10240 := by
  after_results; rfl

theorem ops0_2_v15 : ∃ idx : IVec S10240x1 32,
    (StableHlo.after hostOps0_2 W (Proc.devRef .tc main_v15) : S10240x128.Idx → BitVec 32) =
      Host.gather gather_S500000x128_S10240x1_S10240x128_1_0_n_n_0_1_1128
        (W (Proc.devRef .tc main_arg1) : S500000x128.Idx → BitVec 32) idx :=
  ⟨_, by after_results⟩

theorem ops0_3_v16 :
    (StableHlo.after hostOps0_3 W (Proc.devRef .tc main_v16) : S10240x25.Idx → BitVec 32) =
      pick (W (Proc.devRef .tc main_arg4) : S10240x25.Idx → BitVec 32) (W (Proc.devRef .tc main_v15) : S10240x128.Idx → BitVec 32)
        gather_S10240x128_S10240x25x1_S10240x25_n_1_0_0_1_2_11 shapeCasts_S10240x25_S10240x25x1 bcast_S_S10240x25
        bcast_S_S10240x25x1 bcast_S1_S1x1x1_2 bcast_S1x1x1_S10240x25x1_0_1_2 reducesTo_S10240x25x1_S10240x25_d2 h_S_ := by
  after_results_simp
  simp only [StableHlo.TRef.ofBuf, StableHlo.TRef.toBuf, cast_eq]
  rfl

end LaunchStretches

section Bounds

variable (h1 : ∀ (c : Dev nD) i, ((m ((c.tc : Thread nD τ).loc main_arg1) : S500000x128.Idx → BitVec 32) i).toNat < 500000)
  (h3 : ∀ (c : Dev nD) i, ((m ((c.tc : Thread nD τ).loc main_arg3) : S1024x10.Idx → BitVec 32) i).toNat < 128)
  (h4 : ∀ (c : Dev nD) i, ((m ((c.tc : Thread nD τ).loc main_arg4) : S10240x25.Idx → BitVec 32) i).toNat < 128)

include h1 in
theorem v6_lt (c : Dev nD) (j : S1024x128.Idx) : ((V1 m c main_v6 : S1024x128.Idx → BitVec 32) j).toNat < 500000 := by
  obtain ⟨idx, e⟩ := ops0_v6 (V0 m c)
  rw [show (V1 m c main_v6 : S1024x128.Idx → BitVec 32) = _ from e]
  exact h1 c _

include h1 h3 in
theorem v7_lt (c : Dev nD) (j : S1024x10.Idx) : ((V2 m c main_v7 : S1024x10.Idx → BitVec 32) j).toNat < 500000 := by
  rw [show (V2 m c main_v7 : S1024x10.Idx → BitVec 32) = _ from ops0_1_v7 (V1 m c)]
  refine pick_lt _ _ _ _ _ _ _ _ _ _ (fun i => ?_) (v6_lt m h1 c) j
  rw [show (V1 m c main_arg3 : S1024x10.Idx → BitVec 32) = m ((c.tc : Thread nD τ).loc main_arg3) from V1_of m c main_arg3 (by decide)]
  exact h3 c i

include h1 h3 in
theorem X8_lt (c : Dev nD) (j : S10240.Idx) : (X8 m c j).toNat < 500000 := by
  have e : X8 m c = shapeCast S10240 (V2 m c main_v7 : S1024x10.Idx → BitVec 32) shapeCasts_S1024x10_S10240 :=
    (V5_of m c main_v8 (by decide)).trans <| (V4_of m c main_v8 (by decide)).trans (ops0_2_v8 (V2 m c))
  rw [e]
  exact shapeCast_lt _ _ (v7_lt m h1 h3 c) j

include h1 in
theorem v15_lt (c : Dev nD) (j : S10240x128.Idx) : ((V3 m c main_v15 : S10240x128.Idx → BitVec 32) j).toNat < 500000 := by
  obtain ⟨idx, e⟩ := ops0_2_v15 (V2 m c)
  rw [show (V3 m c main_v15 : S10240x128.Idx → BitVec 32) = _ from e,
    show (V2 m c main_arg1 : S500000x128.Idx → BitVec 32) = m ((c.tc : Thread nD τ).loc main_arg1) from
      (V2_of m c main_arg1 (by decide)).trans (V1_of m c main_arg1 (by decide))]
  exact h1 c _

include h1 h4 in
theorem v16_lt (c : Dev nD) (j : S10240x25.Idx) : ((V4 m c main_v16 : S10240x25.Idx → BitVec 32) j).toNat < 500000 := by
  rw [show (V4 m c main_v16 : S10240x25.Idx → BitVec 32) = _ from ops0_3_v16 (V3 m c)]
  refine pick_lt _ _ _ _ _ _ _ _ _ _ (fun i => ?_) (v15_lt m h1 c) j
  rw [show (V3 m c main_arg4 : S10240x25.Idx → BitVec 32) = m ((c.tc : Thread nD τ).loc main_arg4) from
    (V3_of m c main_arg4 (by decide)).trans <| (V2_of m c main_arg4 (by decide)).trans (V1_of m c main_arg4 (by decide))]
  exact h4 c i

include h1 h4 in
theorem X33_lt (c : Dev nD) (j : S10240x25.Idx) : (X33 m c j).toNat < 500000 := by
  have e : X17 m c = shapeCast S256000 (V4 m c main_v16 : S10240x25.Idx → BitVec 32) shapeCasts_S10240x25_S256000 :=
    ops0_4_v17 (V4 m c)
  refine shapeCast_lt _ _ (fun i => ?_) j
  rw [e]
  exact shapeCast_lt _ _ (v16_lt m h1 h4 c) i

include h1 h3 in
theorem tbl1_inb (c : Dev nD) (k : S10240.Idx) : ((V7 m outs c main_v25 : S10240.Idx → BitVec 32) k).toNat < 500000 := by
  rw [tbl1_eq]; exact shapeCast_lt _ _ (shapeCast_lt _ _ (X8_lt m h1 h3 c)) k
include h1 h3 in
theorem tbl2_inb (c : Dev nD) (k : S10240.Idx) : ((V9 m outs c main_v30 : S10240.Idx → BitVec 32) k).toNat < 500000 := by
  rw [tbl2_eq]; exact shapeCast_lt _ _ (shapeCast_lt _ _ (X8_lt m h1 h3 c)) k
include h1 h4 in
theorem tbl3_inb (c : Dev nD) (k : S32000.Idx) : ((V11 m outs c main_v36 : S32000.Idx → BitVec 32) k).toNat < 500000 := by
  rw [tbl3_eq]; exact shapeCast_lt _ _ (slice_lt _ _ _ (X33_lt m h1 h4 c)) k
include h1 h4 in
theorem tbl4_inb (c : Dev nD) (k : S32000.Idx) : ((V13 m outs c main_v40 : S32000.Idx → BitVec 32) k).toNat < 500000 := by
  rw [tbl4_eq]; exact shapeCast_lt _ _ (slice_lt _ _ _ (X33_lt m h1 h4 c)) k
include h1 h4 in
theorem tbl5_inb (c : Dev nD) (k : S32000.Idx) : ((V15 m outs c main_v44 : S32000.Idx → BitVec 32) k).toNat < 500000 := by
  rw [tbl5_eq]; exact shapeCast_lt _ _ (slice_lt _ _ _ (X33_lt m h1 h4 c)) k
include h1 h4 in
theorem tbl6_inb (c : Dev nD) (k : S32000.Idx) : ((V17 m outs c main_v48 : S32000.Idx → BitVec 32) k).toNat < 500000 := by
  rw [tbl6_eq]; exact shapeCast_lt _ _ (slice_lt _ _ _ (X33_lt m h1 h4 c)) k
include h1 h4 in
theorem tbl7_inb (c : Dev nD) (k : S32000.Idx) : ((V19 m outs c main_v52 : S32000.Idx → BitVec 32) k).toNat < 500000 := by
  rw [tbl7_eq]; exact shapeCast_lt _ _ (slice_lt _ _ _ (X33_lt m h1 h4 c)) k
include h1 h4 in
theorem tbl8_inb (c : Dev nD) (k : S32000.Idx) : ((V21 m outs c main_v56 : S32000.Idx → BitVec 32) k).toNat < 500000 := by
  rw [tbl8_eq]; exact shapeCast_lt _ _ (slice_lt _ _ _ (X33_lt m h1 h4 c)) k
include h1 h4 in
theorem tbl9_inb (c : Dev nD) (k : S32000.Idx) : ((V23 m outs c main_v60 : S32000.Idx → BitVec 32) k).toNat < 500000 := by
  rw [tbl9_eq]; exact shapeCast_lt _ _ (slice_lt _ _ _ (X33_lt m h1 h4 c)) k
include h1 h4 in
theorem tbl10_inb (c : Dev nD) (k : S32000.Idx) : ((V25 m outs c main_v64 : S32000.Idx → BitVec 32) k).toNat < 500000 := by
  rw [tbl10_eq]; exact shapeCast_lt _ _ (slice_lt _ _ _ (X33_lt m h1 h4 c)) k

end Bounds

end Cert.Kernel.Hand
-- ==== Proof.Bits.ArrIndep.lean ====
import proofs.«401580_j65068754534945_2_alg».proof.Proof.Bits.Tables

/-! The two arrays a gather region works on hold, at its entry, the reshaped feature table and the output's launch contents, whatever earlier regions wrote. -/

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ)

section Stretches

variable (W : Valuation τ sig (Elt F))

theorem hostOps0_4_main_v19 :
    (StableHlo.after hostOps0_4 W (Proc.devRef .tc main_v19) : (⟨S500000x1x128, .f32⟩ : BufTy).Contents (Elt F)) =
      shapeCast S500000x1x128 (W (Proc.devRef .tc main_arg0) : (⟨S500000x128, .f32⟩ : BufTy).Contents (Elt F)) shapeCasts_S500000x128_S500000x1x128 := by
  after_results; rfl
theorem hostOps1_main_v24 :
    (StableHlo.after hostOps1 W (Proc.devRef .tc main_v24) : (⟨S500000x1x128, .f32⟩ : BufTy).Contents (Elt F)) =
      shapeCast S500000x1x128 (W (Proc.devRef .tc main_arg0) : (⟨S500000x128, .f32⟩ : BufTy).Contents (Elt F)) shapeCasts_S500000x128_S500000x1x128 := by
  after_results; rfl
theorem hostOps2_main_v29 :
    (StableHlo.after hostOps2 W (Proc.devRef .tc main_v29) : (⟨S500000x1x128, .f32⟩ : BufTy).Contents (Elt F)) =
      shapeCast S500000x1x128 (W (Proc.devRef .tc main_arg0) : (⟨S500000x128, .f32⟩ : BufTy).Contents (Elt F)) shapeCasts_S500000x128_S500000x1x128 := by
  after_results; rfl
theorem hostOps3_main_v34 :
    (StableHlo.after hostOps3 W (Proc.devRef .tc main_v34) : (⟨S500000x1x128, .f32⟩ : BufTy).Contents (Elt F)) =
      shapeCast S500000x1x128 (W (Proc.devRef .tc main_arg0) : (⟨S500000x128, .f32⟩ : BufTy).Contents (Elt F)) shapeCasts_S500000x128_S500000x1x128 := by
  after_results; rfl

end Stretches

variable (outs outs' : Outs (F := F))

abbrev XF (c : Dev nD) : (⟨S500000x1x128, .f32⟩ : BufTy).Contents (Elt F) :=
  shapeCast S500000x1x128 (m ((c.tc : Thread nD τ).loc main_arg0) : (⟨S500000x128, .f32⟩ : BufTy).Contents (Elt F)) shapeCasts_S500000x128_S500000x1x128

theorem arr0_in_eq (c : Dev nD) : (V5 m c main_v19 : (⟨S500000x1x128, .f32⟩ : BufTy).Contents (Elt F)) = XF m c := by
  have e := hostOps0_4_main_v19 (V4 m c)
  rw [show (V4 m c (Proc.devRef .tc main_arg0) : (⟨S500000x128, .f32⟩ : BufTy).Contents (Elt F)) = m ((c.tc : Thread nD τ).loc main_arg0) from
    (V4_of m c main_arg0 (by decide)).trans <| (V3_of m c main_arg0 (by decide)).trans <| (V2_of m c main_arg0 (by decide)).trans <| (V1_of m c main_arg0 (by decide))] at e
  exact e
theorem arr1_in_eq (c : Dev nD) : (V7 m outs c main_v24 : (⟨S500000x1x128, .f32⟩ : BufTy).Contents (Elt F)) = XF m c := by
  have e := hostOps1_main_v24 (V6 m outs c)
  rw [show (V6 m outs c (Proc.devRef .tc main_arg0) : (⟨S500000x128, .f32⟩ : BufTy).Contents (Elt F)) = m ((c.tc : Thread nD τ).loc main_arg0) from
    (V6_of m outs c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide))] at e
  exact e
theorem arr2_in_eq (c : Dev nD) : (V9 m outs c main_v29 : (⟨S500000x1x128, .f32⟩ : BufTy).Contents (Elt F)) = XF m c := by
  have e := hostOps2_main_v29 (V8 m outs c)
  rw [show (V8 m outs c (Proc.devRef .tc main_arg0) : (⟨S500000x128, .f32⟩ : BufTy).Contents (Elt F)) = m ((c.tc : Thread nD τ).loc main_arg0) from
    (V8_of m outs c main_arg0 (by decide)).trans <| (V7_of m outs c main_arg0 (by decide)).trans <| (V6_of m outs c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide))] at e
  exact e
theorem arr3_in_eq (c : Dev nD) : (V11 m outs c main_v34 : (⟨S500000x1x128, .f32⟩ : BufTy).Contents (Elt F)) = XF m c := by
  have e := hostOps3_main_v34 (V10 m outs c)
  rw [show (V10 m outs c (Proc.devRef .tc main_arg0) : (⟨S500000x128, .f32⟩ : BufTy).Contents (Elt F)) = m ((c.tc : Thread nD τ).loc main_arg0) from
    (V10_of m outs c main_arg0 (by decide)).trans <| (V9_of m outs c main_arg0 (by decide)).trans <| (V8_of m outs c main_arg0 (by decide)).trans <| (V7_of m outs c main_arg0 (by decide)).trans <| (V6_of m outs c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide))] at e
  exact e
theorem arr4_in_eq (c : Dev nD) : (V13 m outs c main_v34 : (⟨S500000x1x128, .f32⟩ : BufTy).Contents (Elt F)) = XF m c :=
  ((V13_of m outs c main_v34 (by decide)).trans <| (V12_of m outs c main_v34 (by decide))).trans (arr3_in_eq m outs c)
theorem arr5_in_eq (c : Dev nD) : (V15 m outs c main_v34 : (⟨S500000x1x128, .f32⟩ : BufTy).Contents (Elt F)) = XF m c :=
  ((V15_of m outs c main_v34 (by decide)).trans <| (V14_of m outs c main_v34 (by decide))).trans (arr4_in_eq m outs c)
theorem arr6_in_eq (c : Dev nD) : (V17 m outs c main_v34 : (⟨S500000x1x128, .f32⟩ : BufTy).Contents (Elt F)) = XF m c :=
  ((V17_of m outs c main_v34 (by decide)).trans <| (V16_of m outs c main_v34 (by decide))).trans (arr5_in_eq m outs c)
theorem arr7_in_eq (c : Dev nD) : (V19 m outs c main_v34 : (⟨S500000x1x128, .f32⟩ : BufTy).Contents (Elt F)) = XF m c :=
  ((V19_of m outs c main_v34 (by decide)).trans <| (V18_of m outs c main_v34 (by decide))).trans (arr6_in_eq m outs c)
theorem arr8_in_eq (c : Dev nD) : (V21 m outs c main_v34 : (⟨S500000x1x128, .f32⟩ : BufTy).Contents (Elt F)) = XF m c :=
  ((V21_of m outs c main_v34 (by decide)).trans <| (V20_of m outs c main_v34 (by decide))).trans (arr7_in_eq m outs c)
theorem arr9_in_eq (c : Dev nD) : (V23 m outs c main_v34 : (⟨S500000x1x128, .f32⟩ : BufTy).Contents (Elt F)) = XF m c :=
  ((V23_of m outs c main_v34 (by decide)).trans <| (V22_of m outs c main_v34 (by decide))).trans (arr8_in_eq m outs c)
theorem arr10_in_eq (c : Dev nD) : (V25 m outs c main_v34 : (⟨S500000x1x128, .f32⟩ : BufTy).Contents (Elt F)) = XF m c :=
  ((V25_of m outs c main_v34 (by decide)).trans <| (V24_of m outs c main_v34 (by decide))).trans (arr9_in_eq m outs c)

theorem arr0_out_eq (c : Dev nD) : V5 m c main_v21 = m ((c.tc : Thread nD τ).loc main_v21) :=
  (V5_of m c main_v21 (by decide)).trans <| (V4_of m c main_v21 (by decide)).trans <| (V3_of m c main_v21 (by decide)).trans <| (V2_of m c main_v21 (by decide)).trans <| (V1_of m c main_v21 (by decide))
theorem arr1_out_eq (c : Dev nD) : V7 m outs c main_v26 = m ((c.tc : Thread nD τ).loc main_v26) :=
  (V7_of m outs c main_v26 (by decide)).trans <| (V6_of m outs c main_v26 (by decide)).trans <| (V5_of m c main_v26 (by decide)).trans <| (V4_of m c main_v26 (by decide)).trans <| (V3_of m c main_v26 (by decide)).trans <| (V2_of m c main_v26 (by decide)).trans <| (V1_of m c main_v26 (by decide))
theorem arr2_out_eq (c : Dev nD) : V9 m outs c main_v31 = m ((c.tc : Thread nD τ).loc main_v31) :=
  (V9_of m outs c main_v31 (by decide)).trans <| (V8_of m outs c main_v31 (by decide)).trans <| (V7_of m outs c main_v31 (by decide)).trans <| (V6_of m outs c main_v31 (by decide)).trans <| (V5_of m c main_v31 (by decide)).trans <| (V4_of m c main_v31 (by decide)).trans <| (V3_of m c main_v31 (by decide)).trans <| (V2_of m c main_v31 (by decide)).trans <| (V1_of m c main_v31 (by decide))
theorem arr3_out_eq (c : Dev nD) : V11 m outs c main_v37 = m ((c.tc : Thread nD τ).loc main_v37) :=
  (V11_of m outs c main_v37 (by decide)).trans <| (V10_of m outs c main_v37 (by decide)).trans <| (V9_of m outs c main_v37 (by decide)).trans <| (V8_of m outs c main_v37 (by decide)).trans <| (V7_of m outs c main_v37 (by decide)).trans <| (V6_of m outs c main_v37 (by decide)).trans <| (V5_of m c main_v37 (by decide)).trans <| (V4_of m c main_v37 (by decide)).trans <| (V3_of m c main_v37 (by decide)).trans <| (V2_of m c main_v37 (by decide)).trans <| (V1_of m c main_v37 (by decide))
theorem arr4_out_eq (c : Dev nD) : V13 m outs c main_v41 = m ((c.tc : Thread nD τ).loc main_v41) :=
  (V13_of m outs c main_v41 (by decide)).trans <| (V12_of m outs c main_v41 (by decide)).trans <| (V11_of m outs c main_v41 (by decide)).trans <| (V10_of m outs c main_v41 (by decide)).trans <| (V9_of m outs c main_v41 (by decide)).trans <| (V8_of m outs c main_v41 (by decide)).trans <| (V7_of m outs c main_v41 (by decide)).trans <| (V6_of m outs c main_v41 (by decide)).trans <| (V5_of m c main_v41 (by decide)).trans <| (V4_of m c main_v41 (by decide)).trans <| (V3_of m c main_v41 (by decide)).trans <| (V2_of m c main_v41 (by decide)).trans <| (V1_of m c main_v41 (by decide))
theorem arr5_out_eq (c : Dev nD) : V15 m outs c main_v45 = m ((c.tc : Thread nD τ).loc main_v45) :=
  (V15_of m outs c main_v45 (by decide)).trans <| (V14_of m outs c main_v45 (by decide)).trans <| (V13_of m outs c main_v45 (by decide)).trans <| (V12_of m outs c main_v45 (by decide)).trans <| (V11_of m outs c main_v45 (by decide)).trans <| (V10_of m outs c main_v45 (by decide)).trans <| (V9_of m outs c main_v45 (by decide)).trans <| (V8_of m outs c main_v45 (by decide)).trans <| (V7_of m outs c main_v45 (by decide)).trans <| (V6_of m outs c main_v45 (by decide)).trans <| (V5_of m c main_v45 (by decide)).trans <| (V4_of m c main_v45 (by decide)).trans <| (V3_of m c main_v45 (by decide)).trans <| (V2_of m c main_v45 (by decide)).trans <| (V1_of m c main_v45 (by decide))
theorem arr6_out_eq (c : Dev nD) : V17 m outs c main_v49 = m ((c.tc : Thread nD τ).loc main_v49) :=
  (V17_of m outs c main_v49 (by decide)).trans <| (V16_of m outs c main_v49 (by decide)).trans <| (V15_of m outs c main_v49 (by decide)).trans <| (V14_of m outs c main_v49 (by decide)).trans <| (V13_of m outs c main_v49 (by decide)).trans <| (V12_of m outs c main_v49 (by decide)).trans <| (V11_of m outs c main_v49 (by decide)).trans <| (V10_of m outs c main_v49 (by decide)).trans <| (V9_of m outs c main_v49 (by decide)).trans <| (V8_of m outs c main_v49 (by decide)).trans <| (V7_of m outs c main_v49 (by decide)).trans <| (V6_of m outs c main_v49 (by decide)).trans <| (V5_of m c main_v49 (by decide)).trans <| (V4_of m c main_v49 (by decide)).trans <| (V3_of m c main_v49 (by decide)).trans <| (V2_of m c main_v49 (by decide)).trans <| (V1_of m c main_v49 (by decide))
theorem arr7_out_eq (c : Dev nD) : V19 m outs c main_v53 = m ((c.tc : Thread nD τ).loc main_v53) :=
  (V19_of m outs c main_v53 (by decide)).trans <| (V18_of m outs c main_v53 (by decide)).trans <| (V17_of m outs c main_v53 (by decide)).trans <| (V16_of m outs c main_v53 (by decide)).trans <| (V15_of m outs c main_v53 (by decide)).trans <| (V14_of m outs c main_v53 (by decide)).trans <| (V13_of m outs c main_v53 (by decide)).trans <| (V12_of m outs c main_v53 (by decide)).trans <| (V11_of m outs c main_v53 (by decide)).trans <| (V10_of m outs c main_v53 (by decide)).trans <| (V9_of m outs c main_v53 (by decide)).trans <| (V8_of m outs c main_v53 (by decide)).trans <| (V7_of m outs c main_v53 (by decide)).trans <| (V6_of m outs c main_v53 (by decide)).trans <| (V5_of m c main_v53 (by decide)).trans <| (V4_of m c main_v53 (by decide)).trans <| (V3_of m c main_v53 (by decide)).trans <| (V2_of m c main_v53 (by decide)).trans <| (V1_of m c main_v53 (by decide))
theorem arr8_out_eq (c : Dev nD) : V21 m outs c main_v57 = m ((c.tc : Thread nD τ).loc main_v57) :=
  (V21_of m outs c main_v57 (by decide)).trans <| (V20_of m outs c main_v57 (by decide)).trans <| (V19_of m outs c main_v57 (by decide)).trans <| (V18_of m outs c main_v57 (by decide)).trans <| (V17_of m outs c main_v57 (by decide)).trans <| (V16_of m outs c main_v57 (by decide)).trans <| (V15_of m outs c main_v57 (by decide)).trans <| (V14_of m outs c main_v57 (by decide)).trans <| (V13_of m outs c main_v57 (by decide)).trans <| (V12_of m outs c main_v57 (by decide)).trans <| (V11_of m outs c main_v57 (by decide)).trans <| (V10_of m outs c main_v57 (by decide)).trans <| (V9_of m outs c main_v57 (by decide)).trans <| (V8_of m outs c main_v57 (by decide)).trans <| (V7_of m outs c main_v57 (by decide)).trans <| (V6_of m outs c main_v57 (by decide)).trans <| (V5_of m c main_v57 (by decide)).trans <| (V4_of m c main_v57 (by decide)).trans <| (V3_of m c main_v57 (by decide)).trans <| (V2_of m c main_v57 (by decide)).trans <| (V1_of m c main_v57 (by decide))
theorem arr9_out_eq (c : Dev nD) : V23 m outs c main_v61 = m ((c.tc : Thread nD τ).loc main_v61) :=
  (V23_of m outs c main_v61 (by decide)).trans <| (V22_of m outs c main_v61 (by decide)).trans <| (V21_of m outs c main_v61 (by decide)).trans <| (V20_of m outs c main_v61 (by decide)).trans <| (V19_of m outs c main_v61 (by decide)).trans <| (V18_of m outs c main_v61 (by decide)).trans <| (V17_of m outs c main_v61 (by decide)).trans <| (V16_of m outs c main_v61 (by decide)).trans <| (V15_of m outs c main_v61 (by decide)).trans <| (V14_of m outs c main_v61 (by decide)).trans <| (V13_of m outs c main_v61 (by decide)).trans <| (V12_of m outs c main_v61 (by decide)).trans <| (V11_of m outs c main_v61 (by decide)).trans <| (V10_of m outs c main_v61 (by decide)).trans <| (V9_of m outs c main_v61 (by decide)).trans <| (V8_of m outs c main_v61 (by decide)).trans <| (V7_of m outs c main_v61 (by decide)).trans <| (V6_of m outs c main_v61 (by decide)).trans <| (V5_of m c main_v61 (by decide)).trans <| (V4_of m c main_v61 (by decide)).trans <| (V3_of m c main_v61 (by decide)).trans <| (V2_of m c main_v61 (by decide)).trans <| (V1_of m c main_v61 (by decide))
theorem arr10_out_eq (c : Dev nD) : V25 m outs c main_v65 = m ((c.tc : Thread nD τ).loc main_v65) :=
  (V25_of m outs c main_v65 (by decide)).trans <| (V24_of m outs c main_v65 (by decide)).trans <| (V23_of m outs c main_v65 (by decide)).trans <| (V22_of m outs c main_v65 (by decide)).trans <| (V21_of m outs c main_v65 (by decide)).trans <| (V20_of m outs c main_v65 (by decide)).trans <| (V19_of m outs c main_v65 (by decide)).trans <| (V18_of m outs c main_v65 (by decide)).trans <| (V17_of m outs c main_v65 (by decide)).trans <| (V16_of m outs c main_v65 (by decide)).trans <| (V15_of m outs c main_v65 (by decide)).trans <| (V14_of m outs c main_v65 (by decide)).trans <| (V13_of m outs c main_v65 (by decide)).trans <| (V12_of m outs c main_v65 (by decide)).trans <| (V11_of m outs c main_v65 (by decide)).trans <| (V10_of m outs c main_v65 (by decide)).trans <| (V9_of m outs c main_v65 (by decide)).trans <| (V8_of m outs c main_v65 (by decide)).trans <| (V7_of m outs c main_v65 (by decide)).trans <| (V6_of m outs c main_v65 (by decide)).trans <| (V5_of m c main_v65 (by decide)).trans <| (V4_of m c main_v65 (by decide)).trans <| (V3_of m c main_v65 (by decide)).trans <| (V2_of m c main_v65 (by decide)).trans <| (V1_of m c main_v65 (by decide))

theorem arr1_indep (c : Dev nD) (w : Fin 2) :
    V7 m outs c (Pipeline.arrRef spec1 w) = V7 m outs' c (Pipeline.arrRef spec1 w) :=
  match w with
  | ⟨0, _⟩ => (arr1_in_eq m outs c).trans (arr1_in_eq m outs' c).symm
  | ⟨1, _⟩ => (arr1_out_eq m outs c).trans (arr1_out_eq m outs' c).symm
  | ⟨_ + 2, h⟩ => absurd h (Nat.not_lt.2 (Nat.le_add_left _ _))
theorem arr2_indep (c : Dev nD) (w : Fin 2) :
    V9 m outs c (Pipeline.arrRef spec2 w) = V9 m outs' c (Pipeline.arrRef spec2 w) :=
  match w with
  | ⟨0, _⟩ => (arr2_in_eq m outs c).trans (arr2_in_eq m outs' c).symm
  | ⟨1, _⟩ => (arr2_out_eq m outs c).trans (arr2_out_eq m outs' c).symm
  | ⟨_ + 2, h⟩ => absurd h (Nat.not_lt.2 (Nat.le_add_left _ _))
theorem arr3_indep (c : Dev nD) (w : Fin 2) :
    V11 m outs c (Pipeline.arrRef spec3 w) = V11 m outs' c (Pipeline.arrRef spec3 w) :=
  match w with
  | ⟨0, _⟩ => (arr3_in_eq m outs c).trans (arr3_in_eq m outs' c).symm
  | ⟨1, _⟩ => (arr3_out_eq m outs c).trans (arr3_out_eq m outs' c).symm
  | ⟨_ + 2, h⟩ => absurd h (Nat.not_lt.2 (Nat.le_add_left _ _))
theorem arr4_indep (c : Dev nD) (w : Fin 2) :
    V13 m outs c (Pipeline.arrRef spec4 w) = V13 m outs' c (Pipeline.arrRef spec4 w) :=
  match w with
  | ⟨0, _⟩ => (arr4_in_eq m outs c).trans (arr4_in_eq m outs' c).symm
  | ⟨1, _⟩ => (arr4_out_eq m outs c).trans (arr4_out_eq m outs' c).symm
  | ⟨_ + 2, h⟩ => absurd h (Nat.not_lt.2 (Nat.le_add_left _ _))
theorem arr5_indep (c : Dev nD) (w : Fin 2) :
    V15 m outs c (Pipeline.arrRef spec5 w) = V15 m outs' c (Pipeline.arrRef spec5 w) :=
  match w with
  | ⟨0, _⟩ => (arr5_in_eq m outs c).trans (arr5_in_eq m outs' c).symm
  | ⟨1, _⟩ => (arr5_out_eq m outs c).trans (arr5_out_eq m outs' c).symm
  | ⟨_ + 2, h⟩ => absurd h (Nat.not_lt.2 (Nat.le_add_left _ _))
theorem arr6_indep (c : Dev nD) (w : Fin 2) :
    V17 m outs c (Pipeline.arrRef spec6 w) = V17 m outs' c (Pipeline.arrRef spec6 w) :=
  match w with
  | ⟨0, _⟩ => (arr6_in_eq m outs c).trans (arr6_in_eq m outs' c).symm
  | ⟨1, _⟩ => (arr6_out_eq m outs c).trans (arr6_out_eq m outs' c).symm
  | ⟨_ + 2, h⟩ => absurd h (Nat.not_lt.2 (Nat.le_add_left _ _))
theorem arr7_indep (c : Dev nD) (w : Fin 2) :
    V19 m outs c (Pipeline.arrRef spec7 w) = V19 m outs' c (Pipeline.arrRef spec7 w) :=
  match w with
  | ⟨0, _⟩ => (arr7_in_eq m outs c).trans (arr7_in_eq m outs' c).symm
  | ⟨1, _⟩ => (arr7_out_eq m outs c).trans (arr7_out_eq m outs' c).symm
  | ⟨_ + 2, h⟩ => absurd h (Nat.not_lt.2 (Nat.le_add_left _ _))
theorem arr8_indep (c : Dev nD) (w : Fin 2) :
    V21 m outs c (Pipeline.arrRef spec8 w) = V21 m outs' c (Pipeline.arrRef spec8 w) :=
  match w with
  | ⟨0, _⟩ => (arr8_in_eq m outs c).trans (arr8_in_eq m outs' c).symm
  | ⟨1, _⟩ => (arr8_out_eq m outs c).trans (arr8_out_eq m outs' c).symm
  | ⟨_ + 2, h⟩ => absurd h (Nat.not_lt.2 (Nat.le_add_left _ _))
theorem arr9_indep (c : Dev nD) (w : Fin 2) :
    V23 m outs c (Pipeline.arrRef spec9 w) = V23 m outs' c (Pipeline.arrRef spec9 w) :=
  match w with
  | ⟨0, _⟩ => (arr9_in_eq m outs c).trans (arr9_in_eq m outs' c).symm
  | ⟨1, _⟩ => (arr9_out_eq m outs c).trans (arr9_out_eq m outs' c).symm
  | ⟨_ + 2, h⟩ => absurd h (Nat.not_lt.2 (Nat.le_add_left _ _))
theorem arr10_indep (c : Dev nD) (w : Fin 2) :
    V25 m outs c (Pipeline.arrRef spec10 w) = V25 m outs' c (Pipeline.arrRef spec10 w) :=
  match w with
  | ⟨0, _⟩ => (arr10_in_eq m outs c).trans (arr10_in_eq m outs' c).symm
  | ⟨1, _⟩ => (arr10_out_eq m outs c).trans (arr10_out_eq m outs' c).symm
  | ⟨_ + 2, h⟩ => absurd h (Nat.not_lt.2 (Nat.le_add_left _ _))

end Cert.Kernel.Hand
-- ==== Proof.Bits.Gather0.lean ====
import proofs.«401580_j65068754534945_2_alg».proof.Proof.Bits.Base

/-! One gather-and-mean region: groups of feature rows named by a table, summed in an accumulator that restarts at a group's first sample and is scaled into the output at its last. -/

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The restart test of the body, read off the sample coordinate. -/
abbrev first0 (i : grid0.Coords) : BitVec 1 :=
  Scalar.cmpi .ne (Scalar.extui (Scalar.cmpi .eq (BitVec.ofNat 32 (i 1).val) 0#32)) 0#32

/-- Point t is sample t % 1 of group t / 1. -/
theorem coords0_0 (t : Fin grid0.N) : (grid0.coords t 0).val = t.val / 1 % 1024 := by
  show t.val / grid0.stride 0 % _ = _; rw [show grid0.stride 0 = 1 by decide]; rfl
theorem coords0_1 (t : Fin grid0.N) : (grid0.coords t 1).val = t.val % 1 := by
  show t.val / grid0.stride 1 % _ = _; rw [show grid0.stride 1 = 1 by decide, Nat.div_one]; rfl

theorem first0_at (t : Fin grid0.N) : first0 (grid0.coords t) = 1#1 ↔ t.val % 1 = 0 := by
  rw [← coords0_1]; unfold first0; generalize grid0.coords t 1 = s; revert s; decide
theorem last0_at (t : Fin grid0.N) : k0_cond2 (grid0.coords t) = 1#1 ↔ t.val % 1 = 0 := by
  rw [← coords0_1]; unfold k0_cond2; generalize grid0.coords t 1 = s; revert s; decide

section
variable (a : (pcfg0 (F := F)).Adm)
variable (A : (c : Dev nD) → (w : Fin (cfg0 a).W) → Buf (Elt F) (((cfg0 a).win w).arr.view.loc (c.tc : Thread nD τ)))

/-- A point whose successor lies in another group, or is past the end, is a group's last sample. -/
theorem flush0_last (t : Fin (cfg0 a).N) (h : ((cfg0 a).win 1).flush t = true) : t.val % 1 = 0 := by
  unfold Pipeline.Window.flush at h
  simp only [Bool.and_eq_true, Bool.or_eq_true, decide_eq_true_eq] at h
  obtain ⟨-, h | ⟨h', hne⟩⟩ := h
  · have := h.trans N_0; omega
  · by_contra hc
    apply hne
    show cc0_transform_1 (grid0.coords ⟨t.val + 1, h'⟩) = cc0_transform_1 (grid0.coords t)
    refine hreads0_1 _ _ fun b hb => ?_
    obtain rfl : b = 0 := by revert hb; revert b; decide
    apply Fin.ext
    rw [coords0_0, coords0_0]
    show (t.val + 1) / 1 % 1024 = t.val / 1 % 1024
    omega

/-- The feature row the table names at point t. -/
def row0 (c : Dev nD) (t : Fin (cfg0 a).N) : Vec F S1x1x128 .f32 :=
  (((cfg0 a).win 0).blk t).view.read (Elt F) (A c 0)

/-- The running sum after point n, restarted from zero at a group's first sample. -/
def acc0 (c : Dev nD) : (n : ℕ) → n < (cfg0 a).N → Vec F S1x1x128 .f32
  | 0, h => k0_pay2 (k0_pay1 (F := F)) (row0 a A c ⟨0, h⟩)
  | n + 1, h => k0_pay2 (if first0 (grid0.coords ⟨n + 1, h⟩) = 1#1 then k0_pay1 (F := F) else acc0 c n (Nat.lt_of_succ_lt h))
      (row0 a A c ⟨n + 1, h⟩)

/-- Before position k the accumulator holds the running sum of the point before (anything before the first point). -/
def Phi0 (c : Dev nD) (k : ℕ) : sProp 𝕄 :=
  iprop((∃ X : Vec F S1x1x128 .f32, ⌜∀ n (h : n < (cfg0 a).N), k = n + 1 → X = acc0 a A c n h⌝
      ∗ owns (c : Thread nD τ) (Memref.whole cc0_scratch0) fullShare X)
    ∗ Pipeline.scopedRestBut (Ix := Unit) (Name := ℕ) (U := UR sig nD τ) (Lvl := ℕ) (Val := Elt F) spec0 c [cc0_scratch0]
    ∗ (∃ r, prngReg c r)
    ∗ Pipeline.prefHeld (Ix := Unit) (Name := ℕ) (U := UR sig nD τ) (Lvl := ℕ) pre0 c (fun _ => fullShare) a.1)

/-- What each point leaves: the named row on the input side, the group's scaled sum on the output side. -/
def dat0 (c : Dev nD) : Dat τ (Elt F) Unit ℕ (UR sig nD τ) ℕ (cfg0 a) c where
  A w := A c w
  after w t := match w with
    | ⟨0, _⟩ => row0 a A c t
    | ⟨1, _⟩ => k0_pay3 (acc0 a A c t.val t.isLt)
  Φ t := Phi0 a A c t.val
  q _ := fullShare
  owed _ := 0

theorem A_eq0 (c : Dev nD) (w : Fin (cfg0 a).W) : (dat0 a A c).A w = A c w := rfl
theorem after0_0 (c : Dev nD) (t : Fin (cfg0 a).N) : (dat0 a A c).after 0 t = row0 a A c t := rfl
theorem after0_1 (c : Dev nD) (t : Fin (cfg0 a).N) : (dat0 a A c).after 1 t = k0_pay3 (acc0 a A c t.val t.isLt) := rfl

theorem Phi0_castSucc (c : Dev nD) (t : Fin (cfg0 a).N) : (dat0 a A c).Φ t.castSucc = Phi0 a A c t.val := by
  dsimp only [dat0]; simp only [Fin.coe_castSucc]
theorem Phi0_succ (c : Dev nD) (t : Fin (cfg0 a).N) : (dat0 a A c).Φ t.succ = Phi0 a A c (t.val + 1) := rfl

theorem before0_0 (c : Dev nD) (t : Fin (cfg0 a).N) (d) : (dat0 a A c).before 0 t d = row0 a A c t :=
  ((dat0 a A c).before_in_eq_fetched 0 rfl (fun _ => rfl) (fun _ _ _ => rfl) (fun t => by rw [after0_0]; rfl) t d).trans rfl

end

/-- What a point leaves in the accumulator: the row added to zero at a first sample, to what was there otherwise. -/
def step0 (i : grid0.Coords) (X row : Vec F S1x1x128 .f32) : Vec F S1x1x128 .f32 :=
  k0_pay2 (if first0 i = 1#1 then k0_pay1 (F := F) else X) row

set_option maxHeartbeats 1000000 in
/-- One run of the body: the accumulator takes the step; the output takes the scaled sum at a group's last sample and is left as found otherwise. -/
theorem body0 (c : Dev nD) (E : Set ℕ) (i : grid0.Coords)
    (arg2 : Memref sig .tc .smem S1024 .i32) (harg2 : arg2.IsWhole)
    (arg3 : Memref sig .tc .vmem S1x1x128 .f32) (harg3 : arg3.IsWhole)
    (arg4 : Memref sig .tc .vmem S1x1x128 .f32) (harg4 : arg4.IsWhole)
    (arg5 : Memref sig .tc .vmem S1x1x128 .f32) (harg5 : arg5.IsWhole)
    (row X o accN oN : Vec F S1x1x128 .f32) (hN : step0 i X row = accN)
    (hO : (if k0_cond2 i = 1#1 then k0_pay3 accN else o) = oN) (K : PUnit → sProp 𝕄) :
    iprop(owns (c : Thread nD τ) arg3 fullShare row ∗ owns (c : Thread nD τ) arg5 fullShare X ∗ owns (c : Thread nD τ) arg4 fullShare o
        ∗ (iprop(owns (c : Thread nD τ) arg3 fullShare row ∗ owns (c : Thread nD τ) arg5 fullShare accN
            ∗ owns (c : Thread nD τ) arg4 fullShare oN) -∗ K ⟨⟩))
      ⊢ wp frame (wpE (defs₀ (F := F)) Variants.none c none) E (cc0_kernel i arg2 harg2 arg3 harg3 arg4 harg4 arg5 harg5) K := by
  subst hN; subst hO
  simp only [cc0_kernel_eq_skeleton]; unfold cc0_kernel_skel
  unfold owns step0
  iintro ⟨⟨%f0, %hf0, H0⟩, ⟨%f1, %hf1, H1⟩, ⟨%f2, %hf2, H2⟩, Hk⟩
  subst hf0; subst hf1; subst hf2
  by_cases h1 : first0 i = 1#1 <;> by_cases h2 : k0_cond2 i = 1#1
  all_goals
    simp only [h1, h2, if_true, if_false, ite_true, ite_false]
    sl_exec (disch := first | exact h1 | exact h2)
    sl_step
    iapply Hk
    isplitl [H0]
    · iexists f0; isplitr; · ipureintro; rfl
      iexact H0
    isplitl [H1]
    all_goals
      iexists _; isplitr; swap; · first | iexact H1 | iexact H2
      ipureintro
      first
        | rfl
        | (sl_unfold_words
           simp only [read_writes_rowBlk, readCov_rowBlk, View.readAt_eq_ld, ld_rowBlk])

section
variable (a : (pcfg0 (F := F)).Adm)
variable (A : (c : Dev nD) → (w : Fin (cfg0 a).W) → Buf (Elt F) (((cfg0 a).win w).arr.view.loc (c.tc : Thread nD τ)))

/-- One step from what the invariant holds is the running sum at the point. -/
theorem step0_acc (c : Dev nD) (t : Fin (cfg0 a).N) (X : Vec F S1x1x128 .f32)
    (hX : ∀ n (h : n < (cfg0 a).N), t.val = n + 1 → X = acc0 a A c n h) :
    step0 (grid0.coords t) X (row0 a A c t) = acc0 a A c t.val t.isLt := by
  obtain ⟨n, hn⟩ := t
  cases n with
  | zero => unfold step0 acc0; rw [if_pos ((first0_at ⟨0, hn⟩).mpr rfl)]
  | succ n => unfold step0; rw [hX n (Nat.lt_of_succ_lt hn) rfl]; rfl

set_option maxHeartbeats 1000000 in
/-- Every point's run of the body keeps the invariant. -/
theorem body_obligation0 (c : Dev nD) : BodyObligation (dat0 a A c) (defs₀ (F := F)) Variants.none () Set.univ := fun t => by
  rw [bigSep_W0, bigSep_W0]
  rw [show (dat0 a A c).owesAt () t.succ = (dat0 a A c).owesAt () t.castSucc from rfl, Phi0_castSucc, Phi0_succ]
  show _ ⊢ wp frame _ Set.univ (cc0_kernel (grid0.coords t) (Memref.whole main_v20) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (Memref.whole cc0_scratch0) (Memref.isWhole_whole _)) _
  have hf : k0_cond2 (grid0.coords t) ≠ 1#1 → ((pcfg0 (F := F)).win a 1).flush t = false := fun hl => by
    rw [← Bool.not_eq_true]; exact fun h => hl ((last0_at t).mpr (flush0_last a t h))
  by_cases hl : k0_cond2 (grid0.coords t) = 1#1
  all_goals
    have hi : idle0 1 (((pcfg0 (F := F)).gridAt a.1).coords t) = !decide (k0_cond2 (grid0.coords t) = 1#1) := by
      show (!(k0_cond2 (grid0.coords t) == 1#1)) = _
      first | (rw [hl]; rfl) | (rw [decide_eq_false hl, Bool.not_false, Bool.not_eq_true', beq_eq_false_iff_ne]; exact hl)
    first | rw [decide_eq_true hl, Bool.not_true] at hi | rw [decide_eq_false hl, Bool.not_false] at hi
    simp only [hi, after0_0, after0_1]
    iintro ⟨HΦ, Ho, ⟨%d0, H0⟩, ⟨%d1, H1⟩⟩
    rw [before0_0 a A c t d0]
    unfold Phi0
    icases HΦ with ⟨⟨%X, %hX, Hs⟩, Hrest, Hprng, Htbl⟩
    iapply (body0 c Set.univ (grid0.coords t) _ _ _ _ _ _ _ _ (row0 a A c t) X ((dat0 a A c).before 1 t d1)
      (acc0 a A c t.val t.isLt) _ (step0_acc a A c t X hX) (by first | exact if_pos hl | exact if_neg hl) _)
    iframe H0 Hs H1
    iintro ⟨H0, Hs, H1⟩
    iframe Ho H0 Hrest Hprng Htbl
    isplitl [Hs]
    · iexists _; isplitr; swap; · iexact Hs
      ipureintro; intro n h e
      obtain rfl : n = t.val := by omega
      rfl
    first
      | iexact H1
      | (split
         · iexists d1; iexact H1
         · rename_i hft; exact absurd (hft.symm.trans (hf hl)) (by decide))

end

/-- Entries below the feature table's height name rows inside it. -/
theorem ok0_of_inb (pf : pre0.Contents (Elt F)) (h : ∀ k, ((pf 0) k).toNat < 500000) : ok0 (F := F) pf := by
  intro i
  refine ⟨fun b => ?_, Or.inl rfl⟩
  match b with
  | ⟨0, _⟩ =>
    have hh : cc0_transform_0 k0_off1_inb numel1_S1 pf i ⟨0, by decide⟩ < 500000 := h _
    show (cc0_transform_0 k0_off1_inb numel1_S1 pf i ⟨0, _⟩ + 1) * 1 ≤ 500000
    omega
  | ⟨1, _⟩ => show (0 + 1) * 1 ≤ 1; decide
  | ⟨2, _⟩ => show (0 + 1) * 128 ≤ 128; decide
  | ⟨_ + 3, hb⟩ => exact absurd hb (by omega)

section Reg
variable (a : (p : Fin 14) → (pcfgs (F := F) p).Adm)
variable (pdats : (p : Fin 14) → (c : Dev nD) → Dat τ (Elt F) Unit ℕ (UR sig nD τ) ℕ (Pipeline.pin (pcfgs (F := F)) a p) c)
variable (A : (c : Dev nD) → (w : Fin (cfg0 (a 0)).W) → Buf (Elt F) (((cfg0 (a 0)).win w).arr.view.loc (c.tc : Thread nD τ)))
variable (Vin Vout : (c : Dev nD) → Valuation τ sig (Elt F))

set_option backward.isDefEq.respectTransparency.types false in
/-- The region as a step from the memory at Vin, which holds the table at the admissible contents, to the memory at Vout. -/
def reg0 (hpd : ∀ c, pdats 0 c = dat0 (a 0) A c)
    (hA : ∀ c w, A c w = Vin c (Pipeline.arrRef spec0 w))
    (hT : ∀ c, Vin c main_v20 = (a 0).1 0)
    (hF : ∀ c w, (dat0 (a 0) A c).arrAt w (cfg0 (a 0)).N = Vout c (Pipeline.arrRef spec0 w))
    (hrest : ∀ c (b : Ref sig .tc), b ∉ Finset.univ.image (Pipeline.arrRef spec0) → Vout c b = Vin c b) :
    Pipeline.RegionSeg (pcfgs (F := F)) a pdats () defs₀ Variants.none Lh lvh 0 :=
  seg (launch0 (F := F)) a pdats Vin Vout
    (fun c w => by rw [hpd c]; exact (dat0 (a 0) A c).share_full (fun _ => rfl) w)
    (fun c => funext fun (k : Fin 1) => by obtain rfl : k = 0 := Subsingleton.elim _ _; exact hT c)
    (fun c w => by rw [hpd c, A_eq0]; exact hA c w) (fun c w => by rw [hpd c]; exact hF c w) hrest
    (fun c _ => by rw [hpd c]; rfl) (fun c => by rw [hpd c]; rfl)
    (fun c => by rw [hpd c]; exact (body_obligation0 (a 0) A c).loose)
    (fun c => by
      rw [hpd c]
      show _ ⊢ Phi0 (a 0) A c 0
      unfold Phi0
      erw [scopedRest0_split]
      iintro ⟨Hreg, Htbl, ⟨%f, Hf⟩, Hbut⟩
      iframe Hbut Hreg
      isplitr [Htbl]; swap; · iexact Htbl
      iexists f; isplitr
      · ipureintro; intro n h e; exact absurd e (Nat.succ_ne_zero n).symm
      iapply (Entails.of_eq (owns_whole (c : Thread nD τ) cc0_scratch0 fullShare f).symm); iexact Hf)
    (fun c => by
      rw [Pipeline.ownSems0_none, hpd c]
      show Phi0 (a 0) A c (cfg0 (a 0)).N ⊢ _
      unfold Phi0
      erw [scopedRest0_split]
      iintro ⟨⟨%X, -, Hs⟩, Hbut, Hreg, Htbl⟩
      isplitl [Hreg Htbl]
      · isplitl [Hreg]; · iexact Hreg
        iexact Htbl
      isplitr; · iempintro
      isplitr [Hbut]; swap; · iexact Hbut
      iexists X; iapply (Entails.of_eq (owns_whole (c : Thread nD τ) cc0_scratch0 fullShare X)); iexact Hs)

end Reg

end Cert.Kernel.Hand

end
-- ==== Proof.Bits.Gather1.lean ====
import proofs.«401580_j65068754534945_2_alg».proof.Proof.Bits.Base

/-! One gather-and-mean region: groups of feature rows named by a table, summed in an accumulator that restarts at a group's first sample and is scaled into the output at its last. -/

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The restart test of the body, read off the sample coordinate. -/
abbrev first1 (i : grid1.Coords) : BitVec 1 :=
  Scalar.cmpi .ne (Scalar.extui (Scalar.cmpi .eq (BitVec.ofNat 32 (i 1).val) 0#32)) 0#32

/-- Point t is sample t % 1 of group t / 1. -/
theorem coords1_0 (t : Fin grid1.N) : (grid1.coords t 0).val = t.val / 1 % 10240 := by
  show t.val / grid1.stride 0 % _ = _; rw [show grid1.stride 0 = 1 by decide]; rfl
theorem coords1_1 (t : Fin grid1.N) : (grid1.coords t 1).val = t.val % 1 := by
  show t.val / grid1.stride 1 % _ = _; rw [show grid1.stride 1 = 1 by decide, Nat.div_one]; rfl

theorem first1_at (t : Fin grid1.N) : first1 (grid1.coords t) = 1#1 ↔ t.val % 1 = 0 := by
  rw [← coords1_1]; unfold first1; generalize grid1.coords t 1 = s; revert s; decide
theorem last1_at (t : Fin grid1.N) : k1_cond2 (grid1.coords t) = 1#1 ↔ t.val % 1 = 0 := by
  rw [← coords1_1]; unfold k1_cond2; generalize grid1.coords t 1 = s; revert s; decide

section
variable (a : (pcfg1 (F := F)).Adm)
variable (A : (c : Dev nD) → (w : Fin (cfg1 a).W) → Buf (Elt F) (((cfg1 a).win w).arr.view.loc (c.tc : Thread nD τ)))

/-- A point whose successor lies in another group, or is past the end, is a group's last sample. -/
theorem flush1_last (t : Fin (cfg1 a).N) (h : ((cfg1 a).win 1).flush t = true) : t.val % 1 = 0 := by
  unfold Pipeline.Window.flush at h
  simp only [Bool.and_eq_true, Bool.or_eq_true, decide_eq_true_eq] at h
  obtain ⟨-, h | ⟨h', hne⟩⟩ := h
  · have := h.trans N_1; omega
  · by_contra hc
    apply hne
    show cc1_transform_1 (grid1.coords ⟨t.val + 1, h'⟩) = cc1_transform_1 (grid1.coords t)
    refine hreads1_1 _ _ fun b hb => ?_
    obtain rfl : b = 0 := by revert hb; revert b; decide
    apply Fin.ext
    rw [coords1_0, coords1_0]
    show (t.val + 1) / 1 % 10240 = t.val / 1 % 10240
    omega

/-- The feature row the table names at point t. -/
def row1 (c : Dev nD) (t : Fin (cfg1 a).N) : Vec F S1x1x128 .f32 :=
  (((cfg1 a).win 0).blk t).view.read (Elt F) (A c 0)

/-- The running sum after point n, restarted from zero at a group's first sample. -/
def acc1 (c : Dev nD) : (n : ℕ) → n < (cfg1 a).N → Vec F S1x1x128 .f32
  | 0, h => k1_pay2 (k1_pay1 (F := F)) (row1 a A c ⟨0, h⟩)
  | n + 1, h => k1_pay2 (if first1 (grid1.coords ⟨n + 1, h⟩) = 1#1 then k1_pay1 (F := F) else acc1 c n (Nat.lt_of_succ_lt h))
      (row1 a A c ⟨n + 1, h⟩)

/-- Before position k the accumulator holds the running sum of the point before (anything before the first point). -/
def Phi1 (c : Dev nD) (k : ℕ) : sProp 𝕄 :=
  iprop((∃ X : Vec F S1x1x128 .f32, ⌜∀ n (h : n < (cfg1 a).N), k = n + 1 → X = acc1 a A c n h⌝
      ∗ owns (c : Thread nD τ) (Memref.whole cc1_scratch0) fullShare X)
    ∗ Pipeline.scopedRestBut (Ix := Unit) (Name := ℕ) (U := UR sig nD τ) (Lvl := ℕ) (Val := Elt F) spec1 c [cc1_scratch0]
    ∗ (∃ r, prngReg c r)
    ∗ Pipeline.prefHeld (Ix := Unit) (Name := ℕ) (U := UR sig nD τ) (Lvl := ℕ) pre1 c (fun _ => fullShare) a.1)

/-- What each point leaves: the named row on the input side, the group's scaled sum on the output side. -/
def dat1 (c : Dev nD) : Dat τ (Elt F) Unit ℕ (UR sig nD τ) ℕ (cfg1 a) c where
  A w := A c w
  after w t := match w with
    | ⟨0, _⟩ => row1 a A c t
    | ⟨1, _⟩ => k1_pay3 (acc1 a A c t.val t.isLt)
  Φ t := Phi1 a A c t.val
  q _ := fullShare
  owed _ := 0

theorem A_eq1 (c : Dev nD) (w : Fin (cfg1 a).W) : (dat1 a A c).A w = A c w := rfl
theorem after1_0 (c : Dev nD) (t : Fin (cfg1 a).N) : (dat1 a A c).after 0 t = row1 a A c t := rfl
theorem after1_1 (c : Dev nD) (t : Fin (cfg1 a).N) : (dat1 a A c).after 1 t = k1_pay3 (acc1 a A c t.val t.isLt) := rfl

theorem Phi1_castSucc (c : Dev nD) (t : Fin (cfg1 a).N) : (dat1 a A c).Φ t.castSucc = Phi1 a A c t.val := by
  dsimp only [dat1]; simp only [Fin.coe_castSucc]
theorem Phi1_succ (c : Dev nD) (t : Fin (cfg1 a).N) : (dat1 a A c).Φ t.succ = Phi1 a A c (t.val + 1) := rfl

theorem before1_0 (c : Dev nD) (t : Fin (cfg1 a).N) (d) : (dat1 a A c).before 0 t d = row1 a A c t :=
  ((dat1 a A c).before_in_eq_fetched 0 rfl (fun _ => rfl) (fun _ _ _ => rfl) (fun t => by rw [after1_0]; rfl) t d).trans rfl

end

/-- What a point leaves in the accumulator: the row added to zero at a first sample, to what was there otherwise. -/
def step1 (i : grid1.Coords) (X row : Vec F S1x1x128 .f32) : Vec F S1x1x128 .f32 :=
  k1_pay2 (if first1 i = 1#1 then k1_pay1 (F := F) else X) row

set_option maxHeartbeats 1000000 in
/-- One run of the body: the accumulator takes the step; the output takes the scaled sum at a group's last sample and is left as found otherwise. -/
theorem body1 (c : Dev nD) (E : Set ℕ) (i : grid1.Coords)
    (arg2 : Memref sig .tc .smem S10240 .i32) (harg2 : arg2.IsWhole)
    (arg3 : Memref sig .tc .vmem S1x1x128 .f32) (harg3 : arg3.IsWhole)
    (arg4 : Memref sig .tc .vmem S1x1x128 .f32) (harg4 : arg4.IsWhole)
    (arg5 : Memref sig .tc .vmem S1x1x128 .f32) (harg5 : arg5.IsWhole)
    (row X o accN oN : Vec F S1x1x128 .f32) (hN : step1 i X row = accN)
    (hO : (if k1_cond2 i = 1#1 then k1_pay3 accN else o) = oN) (K : PUnit → sProp 𝕄) :
    iprop(owns (c : Thread nD τ) arg3 fullShare row ∗ owns (c : Thread nD τ) arg5 fullShare X ∗ owns (c : Thread nD τ) arg4 fullShare o
        ∗ (iprop(owns (c : Thread nD τ) arg3 fullShare row ∗ owns (c : Thread nD τ) arg5 fullShare accN
            ∗ owns (c : Thread nD τ) arg4 fullShare oN) -∗ K ⟨⟩))
      ⊢ wp frame (wpE (defs₀ (F := F)) Variants.none c none) E (cc1_kernel i arg2 harg2 arg3 harg3 arg4 harg4 arg5 harg5) K := by
  subst hN; subst hO
  simp only [cc1_kernel_eq_skeleton]; unfold cc1_kernel_skel
  unfold owns step1
  iintro ⟨⟨%f0, %hf0, H0⟩, ⟨%f1, %hf1, H1⟩, ⟨%f2, %hf2, H2⟩, Hk⟩
  subst hf0; subst hf1; subst hf2
  by_cases h1 : first1 i = 1#1 <;> by_cases h2 : k1_cond2 i = 1#1
  all_goals
    simp only [h1, h2, if_true, if_false, ite_true, ite_false]
    sl_exec (disch := first | exact h1 | exact h2)
    sl_step
    iapply Hk
    isplitl [H0]
    · iexists f0; isplitr; · ipureintro; rfl
      iexact H0
    isplitl [H1]
    all_goals
      iexists _; isplitr; swap; · first | iexact H1 | iexact H2
      ipureintro
      first
        | rfl
        | (sl_unfold_words
           simp only [read_writes_rowBlk, readCov_rowBlk, View.readAt_eq_ld, ld_rowBlk])

section
variable (a : (pcfg1 (F := F)).Adm)
variable (A : (c : Dev nD) → (w : Fin (cfg1 a).W) → Buf (Elt F) (((cfg1 a).win w).arr.view.loc (c.tc : Thread nD τ)))

/-- One step from what the invariant holds is the running sum at the point. -/
theorem step1_acc (c : Dev nD) (t : Fin (cfg1 a).N) (X : Vec F S1x1x128 .f32)
    (hX : ∀ n (h : n < (cfg1 a).N), t.val = n + 1 → X = acc1 a A c n h) :
    step1 (grid1.coords t) X (row1 a A c t) = acc1 a A c t.val t.isLt := by
  obtain ⟨n, hn⟩ := t
  cases n with
  | zero => unfold step1 acc1; rw [if_pos ((first1_at ⟨0, hn⟩).mpr rfl)]
  | succ n => unfold step1; rw [hX n (Nat.lt_of_succ_lt hn) rfl]; rfl

set_option maxHeartbeats 1000000 in
/-- Every point's run of the body keeps the invariant. -/
theorem body_obligation1 (c : Dev nD) : BodyObligation (dat1 a A c) (defs₀ (F := F)) Variants.none () Set.univ := fun t => by
  rw [bigSep_W1, bigSep_W1]
  rw [show (dat1 a A c).owesAt () t.succ = (dat1 a A c).owesAt () t.castSucc from rfl, Phi1_castSucc, Phi1_succ]
  show _ ⊢ wp frame _ Set.univ (cc1_kernel (grid1.coords t) (Memref.whole main_v25) (Memref.isWhole_whole _)
    (spec1_0.stage ((cfg1 a).slots t 0)) (hstage1_0 (((cfg1 a).slots t 0).cast nbuf1_0))
    (spec1_1.stage ((cfg1 a).slots t 1)) (hstage1_1 (((cfg1 a).slots t 1).cast nbuf1_1))
    (Memref.whole cc1_scratch0) (Memref.isWhole_whole _)) _
  have hf : k1_cond2 (grid1.coords t) ≠ 1#1 → ((pcfg1 (F := F)).win a 1).flush t = false := fun hl => by
    rw [← Bool.not_eq_true]; exact fun h => hl ((last1_at t).mpr (flush1_last a t h))
  by_cases hl : k1_cond2 (grid1.coords t) = 1#1
  all_goals
    have hi : idle1 1 (((pcfg1 (F := F)).gridAt a.1).coords t) = !decide (k1_cond2 (grid1.coords t) = 1#1) := by
      show (!(k1_cond2 (grid1.coords t) == 1#1)) = _
      first | (rw [hl]; rfl) | (rw [decide_eq_false hl, Bool.not_false, Bool.not_eq_true', beq_eq_false_iff_ne]; exact hl)
    first | rw [decide_eq_true hl, Bool.not_true] at hi | rw [decide_eq_false hl, Bool.not_false] at hi
    simp only [hi, after1_0, after1_1]
    iintro ⟨HΦ, Ho, ⟨%d0, H0⟩, ⟨%d1, H1⟩⟩
    rw [before1_0 a A c t d0]
    unfold Phi1
    icases HΦ with ⟨⟨%X, %hX, Hs⟩, Hrest, Hprng, Htbl⟩
    iapply (body1 c Set.univ (grid1.coords t) _ _ _ _ _ _ _ _ (row1 a A c t) X ((dat1 a A c).before 1 t d1)
      (acc1 a A c t.val t.isLt) _ (step1_acc a A c t X hX) (by first | exact if_pos hl | exact if_neg hl) _)
    iframe H0 Hs H1
    iintro ⟨H0, Hs, H1⟩
    iframe Ho H0 Hrest Hprng Htbl
    isplitl [Hs]
    · iexists _; isplitr; swap; · iexact Hs
      ipureintro; intro n h e
      obtain rfl : n = t.val := by omega
      rfl
    first
      | iexact H1
      | (split
         · iexists d1; iexact H1
         · rename_i hft; exact absurd (hft.symm.trans (hf hl)) (by decide))

end

/-- Entries below the feature table's height name rows inside it. -/
theorem ok1_of_inb (pf : pre1.Contents (Elt F)) (h : ∀ k, ((pf 0) k).toNat < 500000) : ok1 (F := F) pf := by
  intro i
  refine ⟨fun b => ?_, Or.inl rfl⟩
  match b with
  | ⟨0, _⟩ =>
    have hh : cc1_transform_0 k1_off1_inb numel1_S1 pf i ⟨0, by decide⟩ < 500000 := h _
    show (cc1_transform_0 k1_off1_inb numel1_S1 pf i ⟨0, _⟩ + 1) * 1 ≤ 500000
    omega
  | ⟨1, _⟩ => show (0 + 1) * 1 ≤ 1; decide
  | ⟨2, _⟩ => show (0 + 1) * 128 ≤ 128; decide
  | ⟨_ + 3, hb⟩ => exact absurd hb (by omega)

section Reg
variable (a : (p : Fin 14) → (pcfgs (F := F) p).Adm)
variable (pdats : (p : Fin 14) → (c : Dev nD) → Dat τ (Elt F) Unit ℕ (UR sig nD τ) ℕ (Pipeline.pin (pcfgs (F := F)) a p) c)
variable (A : (c : Dev nD) → (w : Fin (cfg1 (a 1)).W) → Buf (Elt F) (((cfg1 (a 1)).win w).arr.view.loc (c.tc : Thread nD τ)))
variable (Vin Vout : (c : Dev nD) → Valuation τ sig (Elt F))

set_option backward.isDefEq.respectTransparency.types false in
/-- The region as a step from the memory at Vin, which holds the table at the admissible contents, to the memory at Vout. -/
def reg1 (hpd : ∀ c, pdats 1 c = dat1 (a 1) A c)
    (hA : ∀ c w, A c w = Vin c (Pipeline.arrRef spec1 w))
    (hT : ∀ c, Vin c main_v25 = (a 1).1 0)
    (hF : ∀ c w, (dat1 (a 1) A c).arrAt w (cfg1 (a 1)).N = Vout c (Pipeline.arrRef spec1 w))
    (hrest : ∀ c (b : Ref sig .tc), b ∉ Finset.univ.image (Pipeline.arrRef spec1) → Vout c b = Vin c b) :
    Pipeline.RegionSeg (pcfgs (F := F)) a pdats () defs₀ Variants.none Lh lvh 1 :=
  seg (launch1 (F := F)) a pdats Vin Vout
    (fun c w => by rw [hpd c]; exact (dat1 (a 1) A c).share_full (fun _ => rfl) w)
    (fun c => funext fun (k : Fin 1) => by obtain rfl : k = 0 := Subsingleton.elim _ _; exact hT c)
    (fun c w => by rw [hpd c, A_eq1]; exact hA c w) (fun c w => by rw [hpd c]; exact hF c w) hrest
    (fun c _ => by rw [hpd c]; rfl) (fun c => by rw [hpd c]; rfl)
    (fun c => by rw [hpd c]; exact (body_obligation1 (a 1) A c).loose)
    (fun c => by
      rw [hpd c]
      show _ ⊢ Phi1 (a 1) A c 0
      unfold Phi1
      erw [scopedRest1_split]
      iintro ⟨Hreg, Htbl, ⟨%f, Hf⟩, Hbut⟩
      iframe Hbut Hreg
      isplitr [Htbl]; swap; · iexact Htbl
      iexists f; isplitr
      · ipureintro; intro n h e; exact absurd e (Nat.succ_ne_zero n).symm
      iapply (Entails.of_eq (owns_whole (c : Thread nD τ) cc1_scratch0 fullShare f).symm); iexact Hf)
    (fun c => by
      rw [Pipeline.ownSems0_none, hpd c]
      show Phi1 (a 1) A c (cfg1 (a 1)).N ⊢ _
      unfold Phi1
      erw [scopedRest1_split]
      iintro ⟨⟨%X, -, Hs⟩, Hbut, Hreg, Htbl⟩
      isplitl [Hreg Htbl]
      · isplitl [Hreg]; · iexact Hreg
        iexact Htbl
      isplitr; · iempintro
      isplitr [Hbut]; swap; · iexact Hbut
      iexists X; iapply (Entails.of_eq (owns_whole (c : Thread nD τ) cc1_scratch0 fullShare X)); iexact Hs)

end Reg

end Cert.Kernel.Hand

end
-- ==== Proof.Bits.Gather2.lean ====
import proofs.«401580_j65068754534945_2_alg».proof.Proof.Bits.Base

/-! One gather-and-mean region: groups of feature rows named by a table, summed in an accumulator that restarts at a group's first sample and is scaled into the output at its last. -/

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The restart test of the body, read off the sample coordinate. -/
abbrev first2 (i : grid2.Coords) : BitVec 1 :=
  Scalar.cmpi .ne (Scalar.extui (Scalar.cmpi .eq (BitVec.ofNat 32 (i 1).val) 0#32)) 0#32

/-- Point t is sample t % 10 of group t / 10. -/
theorem coords2_0 (t : Fin grid2.N) : (grid2.coords t 0).val = t.val / 10 % 1024 := by
  show t.val / grid2.stride 0 % _ = _; rw [show grid2.stride 0 = 10 by decide]; rfl
theorem coords2_1 (t : Fin grid2.N) : (grid2.coords t 1).val = t.val % 10 := by
  show t.val / grid2.stride 1 % _ = _; rw [show grid2.stride 1 = 1 by decide, Nat.div_one]; rfl

theorem first2_at (t : Fin grid2.N) : first2 (grid2.coords t) = 1#1 ↔ t.val % 10 = 0 := by
  rw [← coords2_1]; unfold first2; generalize grid2.coords t 1 = s; revert s; decide
theorem last2_at (t : Fin grid2.N) : k2_cond2 (grid2.coords t) = 1#1 ↔ t.val % 10 = 9 := by
  rw [← coords2_1]; unfold k2_cond2; generalize grid2.coords t 1 = s; revert s; decide

section
variable (a : (pcfg2 (F := F)).Adm)
variable (A : (c : Dev nD) → (w : Fin (cfg2 a).W) → Buf (Elt F) (((cfg2 a).win w).arr.view.loc (c.tc : Thread nD τ)))

/-- A point whose successor lies in another group, or is past the end, is a group's last sample. -/
theorem flush2_last (t : Fin (cfg2 a).N) (h : ((cfg2 a).win 1).flush t = true) : t.val % 10 = 9 := by
  unfold Pipeline.Window.flush at h
  simp only [Bool.and_eq_true, Bool.or_eq_true, decide_eq_true_eq] at h
  obtain ⟨-, h | ⟨h', hne⟩⟩ := h
  · have := h.trans N_2; omega
  · by_contra hc
    apply hne
    show cc2_transform_1 (grid2.coords ⟨t.val + 1, h'⟩) = cc2_transform_1 (grid2.coords t)
    refine hreads2_1 _ _ fun b hb => ?_
    obtain rfl : b = 0 := by revert hb; revert b; decide
    apply Fin.ext
    rw [coords2_0, coords2_0]
    show (t.val + 1) / 10 % 1024 = t.val / 10 % 1024
    omega

/-- The feature row the table names at point t. -/
def row2 (c : Dev nD) (t : Fin (cfg2 a).N) : Vec F S1x1x128 .f32 :=
  (((cfg2 a).win 0).blk t).view.read (Elt F) (A c 0)

/-- The running sum after point n, restarted from zero at a group's first sample. -/
def acc2 (c : Dev nD) : (n : ℕ) → n < (cfg2 a).N → Vec F S1x1x128 .f32
  | 0, h => k2_pay2 (k2_pay1 (F := F)) (row2 a A c ⟨0, h⟩)
  | n + 1, h => k2_pay2 (if first2 (grid2.coords ⟨n + 1, h⟩) = 1#1 then k2_pay1 (F := F) else acc2 c n (Nat.lt_of_succ_lt h))
      (row2 a A c ⟨n + 1, h⟩)

/-- Before position k the accumulator holds the running sum of the point before (anything before the first point). -/
def Phi2 (c : Dev nD) (k : ℕ) : sProp 𝕄 :=
  iprop((∃ X : Vec F S1x1x128 .f32, ⌜∀ n (h : n < (cfg2 a).N), k = n + 1 → X = acc2 a A c n h⌝
      ∗ owns (c : Thread nD τ) (Memref.whole cc2_scratch0) fullShare X)
    ∗ Pipeline.scopedRestBut (Ix := Unit) (Name := ℕ) (U := UR sig nD τ) (Lvl := ℕ) (Val := Elt F) spec2 c [cc2_scratch0]
    ∗ (∃ r, prngReg c r)
    ∗ Pipeline.prefHeld (Ix := Unit) (Name := ℕ) (U := UR sig nD τ) (Lvl := ℕ) pre2 c (fun _ => fullShare) a.1)

/-- What each point leaves: the named row on the input side, the group's scaled sum on the output side. -/
def dat2 (c : Dev nD) : Dat τ (Elt F) Unit ℕ (UR sig nD τ) ℕ (cfg2 a) c where
  A w := A c w
  after w t := match w with
    | ⟨0, _⟩ => row2 a A c t
    | ⟨1, _⟩ => k2_pay3 (acc2 a A c t.val t.isLt)
  Φ t := Phi2 a A c t.val
  q _ := fullShare
  owed _ := 0

theorem A_eq2 (c : Dev nD) (w : Fin (cfg2 a).W) : (dat2 a A c).A w = A c w := rfl
theorem after2_0 (c : Dev nD) (t : Fin (cfg2 a).N) : (dat2 a A c).after 0 t = row2 a A c t := rfl
theorem after2_1 (c : Dev nD) (t : Fin (cfg2 a).N) : (dat2 a A c).after 1 t = k2_pay3 (acc2 a A c t.val t.isLt) := rfl

theorem Phi2_castSucc (c : Dev nD) (t : Fin (cfg2 a).N) : (dat2 a A c).Φ t.castSucc = Phi2 a A c t.val := by
  dsimp only [dat2]; simp only [Fin.coe_castSucc]
theorem Phi2_succ (c : Dev nD) (t : Fin (cfg2 a).N) : (dat2 a A c).Φ t.succ = Phi2 a A c (t.val + 1) := rfl

theorem before2_0 (c : Dev nD) (t : Fin (cfg2 a).N) (d) : (dat2 a A c).before 0 t d = row2 a A c t :=
  ((dat2 a A c).before_in_eq_fetched 0 rfl (fun _ => rfl) (fun _ _ _ => rfl) (fun t => by rw [after2_0]; rfl) t d).trans rfl

end

/-- What a point leaves in the accumulator: the row added to zero at a first sample, to what was there otherwise. -/
def step2 (i : grid2.Coords) (X row : Vec F S1x1x128 .f32) : Vec F S1x1x128 .f32 :=
  k2_pay2 (if first2 i = 1#1 then k2_pay1 (F := F) else X) row

set_option maxHeartbeats 1000000 in
/-- One run of the body: the accumulator takes the step; the output takes the scaled sum at a group's last sample and is left as found otherwise. -/
theorem body2 (c : Dev nD) (E : Set ℕ) (i : grid2.Coords)
    (arg2 : Memref sig .tc .smem S10240 .i32) (harg2 : arg2.IsWhole)
    (arg3 : Memref sig .tc .vmem S1x1x128 .f32) (harg3 : arg3.IsWhole)
    (arg4 : Memref sig .tc .vmem S1x1x128 .f32) (harg4 : arg4.IsWhole)
    (arg5 : Memref sig .tc .vmem S1x1x128 .f32) (harg5 : arg5.IsWhole)
    (row X o accN oN : Vec F S1x1x128 .f32) (hN : step2 i X row = accN)
    (hO : (if k2_cond2 i = 1#1 then k2_pay3 accN else o) = oN) (K : PUnit → sProp 𝕄) :
    iprop(owns (c : Thread nD τ) arg3 fullShare row ∗ owns (c : Thread nD τ) arg5 fullShare X ∗ owns (c : Thread nD τ) arg4 fullShare o
        ∗ (iprop(owns (c : Thread nD τ) arg3 fullShare row ∗ owns (c : Thread nD τ) arg5 fullShare accN
            ∗ owns (c : Thread nD τ) arg4 fullShare oN) -∗ K ⟨⟩))
      ⊢ wp frame (wpE (defs₀ (F := F)) Variants.none c none) E (cc2_kernel i arg2 harg2 arg3 harg3 arg4 harg4 arg5 harg5) K := by
  subst hN; subst hO
  simp only [cc2_kernel_eq_skeleton]; unfold cc2_kernel_skel
  unfold owns step2
  iintro ⟨⟨%f0, %hf0, H0⟩, ⟨%f1, %hf1, H1⟩, ⟨%f2, %hf2, H2⟩, Hk⟩
  subst hf0; subst hf1; subst hf2
  by_cases h1 : first2 i = 1#1 <;> by_cases h2 : k2_cond2 i = 1#1
  all_goals
    simp only [h1, h2, if_true, if_false, ite_true, ite_false]
    sl_exec (disch := first | exact h1 | exact h2)
    sl_step
    iapply Hk
    isplitl [H0]
    · iexists f0; isplitr; · ipureintro; rfl
      iexact H0
    isplitl [H1]
    all_goals
      iexists _; isplitr; swap; · first | iexact H1 | iexact H2
      ipureintro
      first
        | rfl
        | (sl_unfold_words
           simp only [read_writes_rowBlk, readCov_rowBlk, View.readAt_eq_ld, ld_rowBlk])

section
variable (a : (pcfg2 (F := F)).Adm)
variable (A : (c : Dev nD) → (w : Fin (cfg2 a).W) → Buf (Elt F) (((cfg2 a).win w).arr.view.loc (c.tc : Thread nD τ)))

/-- One step from what the invariant holds is the running sum at the point. -/
theorem step2_acc (c : Dev nD) (t : Fin (cfg2 a).N) (X : Vec F S1x1x128 .f32)
    (hX : ∀ n (h : n < (cfg2 a).N), t.val = n + 1 → X = acc2 a A c n h) :
    step2 (grid2.coords t) X (row2 a A c t) = acc2 a A c t.val t.isLt := by
  obtain ⟨n, hn⟩ := t
  cases n with
  | zero => unfold step2 acc2; rw [if_pos ((first2_at ⟨0, hn⟩).mpr rfl)]
  | succ n => unfold step2; rw [hX n (Nat.lt_of_succ_lt hn) rfl]; rfl

set_option maxHeartbeats 1000000 in
/-- Every point's run of the body keeps the invariant. -/
theorem body_obligation2 (c : Dev nD) : BodyObligation (dat2 a A c) (defs₀ (F := F)) Variants.none () Set.univ := fun t => by
  rw [bigSep_W2, bigSep_W2]
  rw [show (dat2 a A c).owesAt () t.succ = (dat2 a A c).owesAt () t.castSucc from rfl, Phi2_castSucc, Phi2_succ]
  show _ ⊢ wp frame _ Set.univ (cc2_kernel (grid2.coords t) (Memref.whole main_v30) (Memref.isWhole_whole _)
    (spec2_0.stage ((cfg2 a).slots t 0)) (hstage2_0 (((cfg2 a).slots t 0).cast nbuf2_0))
    (spec2_1.stage ((cfg2 a).slots t 1)) (hstage2_1 (((cfg2 a).slots t 1).cast nbuf2_1))
    (Memref.whole cc2_scratch0) (Memref.isWhole_whole _)) _
  have hf : k2_cond2 (grid2.coords t) ≠ 1#1 → ((pcfg2 (F := F)).win a 1).flush t = false := fun hl => by
    rw [← Bool.not_eq_true]; exact fun h => hl ((last2_at t).mpr (flush2_last a t h))
  by_cases hl : k2_cond2 (grid2.coords t) = 1#1
  all_goals
    have hi : idle2 1 (((pcfg2 (F := F)).gridAt a.1).coords t) = !decide (k2_cond2 (grid2.coords t) = 1#1) := by
      show (!(k2_cond2 (grid2.coords t) == 1#1)) = _
      first | (rw [hl]; rfl) | (rw [decide_eq_false hl, Bool.not_false, Bool.not_eq_true', beq_eq_false_iff_ne]; exact hl)
    first | rw [decide_eq_true hl, Bool.not_true] at hi | rw [decide_eq_false hl, Bool.not_false] at hi
    simp only [hi, after2_0, after2_1]
    iintro ⟨HΦ, Ho, ⟨%d0, H0⟩, ⟨%d1, H1⟩⟩
    rw [before2_0 a A c t d0]
    unfold Phi2
    icases HΦ with ⟨⟨%X, %hX, Hs⟩, Hrest, Hprng, Htbl⟩
    iapply (body2 c Set.univ (grid2.coords t) _ _ _ _ _ _ _ _ (row2 a A c t) X ((dat2 a A c).before 1 t d1)
      (acc2 a A c t.val t.isLt) _ (step2_acc a A c t X hX) (by first | exact if_pos hl | exact if_neg hl) _)
    iframe H0 Hs H1
    iintro ⟨H0, Hs, H1⟩
    iframe Ho H0 Hrest Hprng Htbl
    isplitl [Hs]
    · iexists _; isplitr; swap; · iexact Hs
      ipureintro; intro n h e
      obtain rfl : n = t.val := by omega
      rfl
    first
      | iexact H1
      | (split
         · iexists d1; iexact H1
         · rename_i hft; exact absurd (hft.symm.trans (hf hl)) (by decide))

end

/-- Entries below the feature table's height name rows inside it. -/
theorem ok2_of_inb (pf : pre2.Contents (Elt F)) (h : ∀ k, ((pf 0) k).toNat < 500000) : ok2 (F := F) pf := by
  intro i
  refine ⟨fun b => ?_, Or.inl rfl⟩
  match b with
  | ⟨0, _⟩ =>
    have hh : cc2_transform_0 k2_off1_inb numel1_S1 pf i ⟨0, by decide⟩ < 500000 := h _
    show (cc2_transform_0 k2_off1_inb numel1_S1 pf i ⟨0, _⟩ + 1) * 1 ≤ 500000
    omega
  | ⟨1, _⟩ => show (0 + 1) * 1 ≤ 1; decide
  | ⟨2, _⟩ => show (0 + 1) * 128 ≤ 128; decide
  | ⟨_ + 3, hb⟩ => exact absurd hb (by omega)

section Reg
variable (a : (p : Fin 14) → (pcfgs (F := F) p).Adm)
variable (pdats : (p : Fin 14) → (c : Dev nD) → Dat τ (Elt F) Unit ℕ (UR sig nD τ) ℕ (Pipeline.pin (pcfgs (F := F)) a p) c)
variable (A : (c : Dev nD) → (w : Fin (cfg2 (a 2)).W) → Buf (Elt F) (((cfg2 (a 2)).win w).arr.view.loc (c.tc : Thread nD τ)))
variable (Vin Vout : (c : Dev nD) → Valuation τ sig (Elt F))

set_option backward.isDefEq.respectTransparency.types false in
/-- The region as a step from the memory at Vin, which holds the table at the admissible contents, to the memory at Vout. -/
def reg2 (hpd : ∀ c, pdats 2 c = dat2 (a 2) A c)
    (hA : ∀ c w, A c w = Vin c (Pipeline.arrRef spec2 w))
    (hT : ∀ c, Vin c main_v30 = (a 2).1 0)
    (hF : ∀ c w, (dat2 (a 2) A c).arrAt w (cfg2 (a 2)).N = Vout c (Pipeline.arrRef spec2 w))
    (hrest : ∀ c (b : Ref sig .tc), b ∉ Finset.univ.image (Pipeline.arrRef spec2) → Vout c b = Vin c b) :
    Pipeline.RegionSeg (pcfgs (F := F)) a pdats () defs₀ Variants.none Lh lvh 2 :=
  seg (launch2 (F := F)) a pdats Vin Vout
    (fun c w => by rw [hpd c]; exact (dat2 (a 2) A c).share_full (fun _ => rfl) w)
    (fun c => funext fun (k : Fin 1) => by obtain rfl : k = 0 := Subsingleton.elim _ _; exact hT c)
    (fun c w => by rw [hpd c, A_eq2]; exact hA c w) (fun c w => by rw [hpd c]; exact hF c w) hrest
    (fun c _ => by rw [hpd c]; rfl) (fun c => by rw [hpd c]; rfl)
    (fun c => by rw [hpd c]; exact (body_obligation2 (a 2) A c).loose)
    (fun c => by
      rw [hpd c]
      show _ ⊢ Phi2 (a 2) A c 0
      unfold Phi2
      erw [scopedRest2_split]
      iintro ⟨Hreg, Htbl, ⟨%f, Hf⟩, Hbut⟩
      iframe Hbut Hreg
      isplitr [Htbl]; swap; · iexact Htbl
      iexists f; isplitr
      · ipureintro; intro n h e; exact absurd e (Nat.succ_ne_zero n).symm
      iapply (Entails.of_eq (owns_whole (c : Thread nD τ) cc2_scratch0 fullShare f).symm); iexact Hf)
    (fun c => by
      rw [Pipeline.ownSems0_none, hpd c]
      show Phi2 (a 2) A c (cfg2 (a 2)).N ⊢ _
      unfold Phi2
      erw [scopedRest2_split]
      iintro ⟨⟨%X, -, Hs⟩, Hbut, Hreg, Htbl⟩
      isplitl [Hreg Htbl]
      · isplitl [Hreg]; · iexact Hreg
        iexact Htbl
      isplitr; · iempintro
      isplitr [Hbut]; swap; · iexact Hbut
      iexists X; iapply (Entails.of_eq (owns_whole (c : Thread nD τ) cc2_scratch0 fullShare X)); iexact Hs)

end Reg

end Cert.Kernel.Hand

end
-- ==== Proof.Bits.Gather3.lean ====
import proofs.«401580_j65068754534945_2_alg».proof.Proof.Bits.Base

/-! One gather-and-mean region: groups of feature rows named by a table, summed in an accumulator that restarts at a group's first sample and is scaled into the output at its last. -/

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The restart test of the body, read off the sample coordinate. -/
abbrev first3 (i : grid3.Coords) : BitVec 1 :=
  Scalar.cmpi .ne (Scalar.extui (Scalar.cmpi .eq (BitVec.ofNat 32 (i 1).val) 0#32)) 0#32

/-- Point t is sample t % 25 of group t / 25. -/
theorem coords3_0 (t : Fin grid3.N) : (grid3.coords t 0).val = t.val / 25 % 1280 := by
  show t.val / grid3.stride 0 % _ = _; rw [show grid3.stride 0 = 25 by decide]; rfl
theorem coords3_1 (t : Fin grid3.N) : (grid3.coords t 1).val = t.val % 25 := by
  show t.val / grid3.stride 1 % _ = _; rw [show grid3.stride 1 = 1 by decide, Nat.div_one]; rfl

theorem first3_at (t : Fin grid3.N) : first3 (grid3.coords t) = 1#1 ↔ t.val % 25 = 0 := by
  rw [← coords3_1]; unfold first3; generalize grid3.coords t 1 = s; revert s; decide
theorem last3_at (t : Fin grid3.N) : k3_cond2 (grid3.coords t) = 1#1 ↔ t.val % 25 = 24 := by
  rw [← coords3_1]; unfold k3_cond2; generalize grid3.coords t 1 = s; revert s; decide

section
variable (a : (pcfg3 (F := F)).Adm)
variable (A : (c : Dev nD) → (w : Fin (cfg3 a).W) → Buf (Elt F) (((cfg3 a).win w).arr.view.loc (c.tc : Thread nD τ)))

/-- A point whose successor lies in another group, or is past the end, is a group's last sample. -/
theorem flush3_last (t : Fin (cfg3 a).N) (h : ((cfg3 a).win 1).flush t = true) : t.val % 25 = 24 := by
  unfold Pipeline.Window.flush at h
  simp only [Bool.and_eq_true, Bool.or_eq_true, decide_eq_true_eq] at h
  obtain ⟨-, h | ⟨h', hne⟩⟩ := h
  · have := h.trans N_3; omega
  · by_contra hc
    apply hne
    show cc3_transform_1 (grid3.coords ⟨t.val + 1, h'⟩) = cc3_transform_1 (grid3.coords t)
    refine hreads3_1 _ _ fun b hb => ?_
    obtain rfl : b = 0 := by revert hb; revert b; decide
    apply Fin.ext
    rw [coords3_0, coords3_0]
    show (t.val + 1) / 25 % 1280 = t.val / 25 % 1280
    omega

/-- The feature row the table names at point t. -/
def row3 (c : Dev nD) (t : Fin (cfg3 a).N) : Vec F S1x1x128 .f32 :=
  (((cfg3 a).win 0).blk t).view.read (Elt F) (A c 0)

/-- The running sum after point n, restarted from zero at a group's first sample. -/
def acc3 (c : Dev nD) : (n : ℕ) → n < (cfg3 a).N → Vec F S1x1x128 .f32
  | 0, h => k3_pay2 (k3_pay1 (F := F)) (row3 a A c ⟨0, h⟩)
  | n + 1, h => k3_pay2 (if first3 (grid3.coords ⟨n + 1, h⟩) = 1#1 then k3_pay1 (F := F) else acc3 c n (Nat.lt_of_succ_lt h))
      (row3 a A c ⟨n + 1, h⟩)

/-- Before position k the accumulator holds the running sum of the point before (anything before the first point). -/
def Phi3 (c : Dev nD) (k : ℕ) : sProp 𝕄 :=
  iprop((∃ X : Vec F S1x1x128 .f32, ⌜∀ n (h : n < (cfg3 a).N), k = n + 1 → X = acc3 a A c n h⌝
      ∗ owns (c : Thread nD τ) (Memref.whole cc3_scratch0) fullShare X)
    ∗ Pipeline.scopedRestBut (Ix := Unit) (Name := ℕ) (U := UR sig nD τ) (Lvl := ℕ) (Val := Elt F) spec3 c [cc3_scratch0]
    ∗ (∃ r, prngReg c r)
    ∗ Pipeline.prefHeld (Ix := Unit) (Name := ℕ) (U := UR sig nD τ) (Lvl := ℕ) pre3 c (fun _ => fullShare) a.1)

/-- What each point leaves: the named row on the input side, the group's scaled sum on the output side. -/
def dat3 (c : Dev nD) : Dat τ (Elt F) Unit ℕ (UR sig nD τ) ℕ (cfg3 a) c where
  A w := A c w
  after w t := match w with
    | ⟨0, _⟩ => row3 a A c t
    | ⟨1, _⟩ => k3_pay3 (acc3 a A c t.val t.isLt)
  Φ t := Phi3 a A c t.val
  q _ := fullShare
  owed _ := 0

theorem A_eq3 (c : Dev nD) (w : Fin (cfg3 a).W) : (dat3 a A c).A w = A c w := rfl
theorem after3_0 (c : Dev nD) (t : Fin (cfg3 a).N) : (dat3 a A c).after 0 t = row3 a A c t := rfl
theorem after3_1 (c : Dev nD) (t : Fin (cfg3 a).N) : (dat3 a A c).after 1 t = k3_pay3 (acc3 a A c t.val t.isLt) := rfl

theorem Phi3_castSucc (c : Dev nD) (t : Fin (cfg3 a).N) : (dat3 a A c).Φ t.castSucc = Phi3 a A c t.val := by
  dsimp only [dat3]; simp only [Fin.coe_castSucc]
theorem Phi3_succ (c : Dev nD) (t : Fin (cfg3 a).N) : (dat3 a A c).Φ t.succ = Phi3 a A c (t.val + 1) := rfl

theorem before3_0 (c : Dev nD) (t : Fin (cfg3 a).N) (d) : (dat3 a A c).before 0 t d = row3 a A c t :=
  ((dat3 a A c).before_in_eq_fetched 0 rfl (fun _ => rfl) (fun _ _ _ => rfl) (fun t => by rw [after3_0]; rfl) t d).trans rfl

end

/-- What a point leaves in the accumulator: the row added to zero at a first sample, to what was there otherwise. -/
def step3 (i : grid3.Coords) (X row : Vec F S1x1x128 .f32) : Vec F S1x1x128 .f32 :=
  k3_pay2 (if first3 i = 1#1 then k3_pay1 (F := F) else X) row

set_option maxHeartbeats 1000000 in
/-- One run of the body: the accumulator takes the step; the output takes the scaled sum at a group's last sample and is left as found otherwise. -/
theorem body3 (c : Dev nD) (E : Set ℕ) (i : grid3.Coords)
    (arg2 : Memref sig .tc .smem S32000 .i32) (harg2 : arg2.IsWhole)
    (arg3 : Memref sig .tc .vmem S1x1x128 .f32) (harg3 : arg3.IsWhole)
    (arg4 : Memref sig .tc .vmem S1x1x128 .f32) (harg4 : arg4.IsWhole)
    (arg5 : Memref sig .tc .vmem S1x1x128 .f32) (harg5 : arg5.IsWhole)
    (row X o accN oN : Vec F S1x1x128 .f32) (hN : step3 i X row = accN)
    (hO : (if k3_cond2 i = 1#1 then k3_pay3 accN else o) = oN) (K : PUnit → sProp 𝕄) :
    iprop(owns (c : Thread nD τ) arg3 fullShare row ∗ owns (c : Thread nD τ) arg5 fullShare X ∗ owns (c : Thread nD τ) arg4 fullShare o
        ∗ (iprop(owns (c : Thread nD τ) arg3 fullShare row ∗ owns (c : Thread nD τ) arg5 fullShare accN
            ∗ owns (c : Thread nD τ) arg4 fullShare oN) -∗ K ⟨⟩))
      ⊢ wp frame (wpE (defs₀ (F := F)) Variants.none c none) E (cc3_kernel i arg2 harg2 arg3 harg3 arg4 harg4 arg5 harg5) K := by
  subst hN; subst hO
  simp only [cc3_kernel_eq_skeleton]; unfold cc3_kernel_skel
  unfold owns step3
  iintro ⟨⟨%f0, %hf0, H0⟩, ⟨%f1, %hf1, H1⟩, ⟨%f2, %hf2, H2⟩, Hk⟩
  subst hf0; subst hf1; subst hf2
  by_cases h1 : first3 i = 1#1 <;> by_cases h2 : k3_cond2 i = 1#1
  all_goals
    simp only [h1, h2, if_true, if_false, ite_true, ite_false]
    sl_exec (disch := first | exact h1 | exact h2)
    sl_step
    iapply Hk
    isplitl [H0]
    · iexists f0; isplitr; · ipureintro; rfl
      iexact H0
    isplitl [H1]
    all_goals
      iexists _; isplitr; swap; · first | iexact H1 | iexact H2
      ipureintro
      first
        | rfl
        | (sl_unfold_words
           simp only [read_writes_rowBlk, readCov_rowBlk, View.readAt_eq_ld, ld_rowBlk])

section
variable (a : (pcfg3 (F := F)).Adm)
variable (A : (c : Dev nD) → (w : Fin (cfg3 a).W) → Buf (Elt F) (((cfg3 a).win w).arr.view.loc (c.tc : Thread nD τ)))

/-- One step from what the invariant holds is the running sum at the point. -/
theorem step3_acc (c : Dev nD) (t : Fin (cfg3 a).N) (X : Vec F S1x1x128 .f32)
    (hX : ∀ n (h : n < (cfg3 a).N), t.val = n + 1 → X = acc3 a A c n h) :
    step3 (grid3.coords t) X (row3 a A c t) = acc3 a A c t.val t.isLt := by
  obtain ⟨n, hn⟩ := t
  cases n with
  | zero => unfold step3 acc3; rw [if_pos ((first3_at ⟨0, hn⟩).mpr rfl)]
  | succ n => unfold step3; rw [hX n (Nat.lt_of_succ_lt hn) rfl]; rfl

set_option maxHeartbeats 1000000 in
/-- Every point's run of the body keeps the invariant. -/
theorem body_obligation3 (c : Dev nD) : BodyObligation (dat3 a A c) (defs₀ (F := F)) Variants.none () Set.univ := fun t => by
  rw [bigSep_W3, bigSep_W3]
  rw [show (dat3 a A c).owesAt () t.succ = (dat3 a A c).owesAt () t.castSucc from rfl, Phi3_castSucc, Phi3_succ]
  show _ ⊢ wp frame _ Set.univ (cc3_kernel (grid3.coords t) (Memref.whole main_v36) (Memref.isWhole_whole _)
    (spec3_0.stage ((cfg3 a).slots t 0)) (hstage3_0 (((cfg3 a).slots t 0).cast nbuf3_0))
    (spec3_1.stage ((cfg3 a).slots t 1)) (hstage3_1 (((cfg3 a).slots t 1).cast nbuf3_1))
    (Memref.whole cc3_scratch0) (Memref.isWhole_whole _)) _
  have hf : k3_cond2 (grid3.coords t) ≠ 1#1 → ((pcfg3 (F := F)).win a 1).flush t = false := fun hl => by
    rw [← Bool.not_eq_true]; exact fun h => hl ((last3_at t).mpr (flush3_last a t h))
  by_cases hl : k3_cond2 (grid3.coords t) = 1#1
  all_goals
    have hi : idle3 1 (((pcfg3 (F := F)).gridAt a.1).coords t) = !decide (k3_cond2 (grid3.coords t) = 1#1) := by
      show (!(k3_cond2 (grid3.coords t) == 1#1)) = _
      first | (rw [hl]; rfl) | (rw [decide_eq_false hl, Bool.not_false, Bool.not_eq_true', beq_eq_false_iff_ne]; exact hl)
    first | rw [decide_eq_true hl, Bool.not_true] at hi | rw [decide_eq_false hl, Bool.not_false] at hi
    simp only [hi, after3_0, after3_1]
    iintro ⟨HΦ, Ho, ⟨%d0, H0⟩, ⟨%d1, H1⟩⟩
    rw [before3_0 a A c t d0]
    unfold Phi3
    icases HΦ with ⟨⟨%X, %hX, Hs⟩, Hrest, Hprng, Htbl⟩
    iapply (body3 c Set.univ (grid3.coords t) _ _ _ _ _ _ _ _ (row3 a A c t) X ((dat3 a A c).before 1 t d1)
      (acc3 a A c t.val t.isLt) _ (step3_acc a A c t X hX) (by first | exact if_pos hl | exact if_neg hl) _)
    iframe H0 Hs H1
    iintro ⟨H0, Hs, H1⟩
    iframe Ho H0 Hrest Hprng Htbl
    isplitl [Hs]
    · iexists _; isplitr; swap; · iexact Hs
      ipureintro; intro n h e
      obtain rfl : n = t.val := by omega
      rfl
    first
      | iexact H1
      | (split
         · iexists d1; iexact H1
         · rename_i hft; exact absurd (hft.symm.trans (hf hl)) (by decide))

end

/-- Entries below the feature table's height name rows inside it. -/
theorem ok3_of_inb (pf : pre3.Contents (Elt F)) (h : ∀ k, ((pf 0) k).toNat < 500000) : ok3 (F := F) pf := by
  intro i
  refine ⟨fun b => ?_, Or.inl rfl⟩
  match b with
  | ⟨0, _⟩ =>
    have hh : cc3_transform_0 k3_off1_inb numel1_S1 pf i ⟨0, by decide⟩ < 500000 := h _
    show (cc3_transform_0 k3_off1_inb numel1_S1 pf i ⟨0, _⟩ + 1) * 1 ≤ 500000
    omega
  | ⟨1, _⟩ => show (0 + 1) * 1 ≤ 1; decide
  | ⟨2, _⟩ => show (0 + 1) * 128 ≤ 128; decide
  | ⟨_ + 3, hb⟩ => exact absurd hb (by omega)

section Reg
variable (a : (p : Fin 14) → (pcfgs (F := F) p).Adm)
variable (pdats : (p : Fin 14) → (c : Dev nD) → Dat τ (Elt F) Unit ℕ (UR sig nD τ) ℕ (Pipeline.pin (pcfgs (F := F)) a p) c)
variable (A : (c : Dev nD) → (w : Fin (cfg3 (a 3)).W) → Buf (Elt F) (((cfg3 (a 3)).win w).arr.view.loc (c.tc : Thread nD τ)))
variable (Vin Vout : (c : Dev nD) → Valuation τ sig (Elt F))

set_option backward.isDefEq.respectTransparency.types false in
/-- The region as a step from the memory at Vin, which holds the table at the admissible contents, to the memory at Vout. -/
def reg3 (hpd : ∀ c, pdats 3 c = dat3 (a 3) A c)
    (hA : ∀ c w, A c w = Vin c (Pipeline.arrRef spec3 w))
    (hT : ∀ c, Vin c main_v36 = (a 3).1 0)
    (hF : ∀ c w, (dat3 (a 3) A c).arrAt w (cfg3 (a 3)).N = Vout c (Pipeline.arrRef spec3 w))
    (hrest : ∀ c (b : Ref sig .tc), b ∉ Finset.univ.image (Pipeline.arrRef spec3) → Vout c b = Vin c b) :
    Pipeline.RegionSeg (pcfgs (F := F)) a pdats () defs₀ Variants.none Lh lvh 3 :=
  seg (launch3 (F := F)) a pdats Vin Vout
    (fun c w => by rw [hpd c]; exact (dat3 (a 3) A c).share_full (fun _ => rfl) w)
    (fun c => funext fun (k : Fin 1) => by obtain rfl : k = 0 := Subsingleton.elim _ _; exact hT c)
    (fun c w => by rw [hpd c, A_eq3]; exact hA c w) (fun c w => by rw [hpd c]; exact hF c w) hrest
    (fun c _ => by rw [hpd c]; rfl) (fun c => by rw [hpd c]; rfl)
    (fun c => by rw [hpd c]; exact (body_obligation3 (a 3) A c).loose)
    (fun c => by
      rw [hpd c]
      show _ ⊢ Phi3 (a 3) A c 0
      unfold Phi3
      erw [scopedRest3_split]
      iintro ⟨Hreg, Htbl, ⟨%f, Hf⟩, Hbut⟩
      iframe Hbut Hreg
      isplitr [Htbl]; swap; · iexact Htbl
      iexists f; isplitr
      · ipureintro; intro n h e; exact absurd e (Nat.succ_ne_zero n).symm
      iapply (Entails.of_eq (owns_whole (c : Thread nD τ) cc3_scratch0 fullShare f).symm); iexact Hf)
    (fun c => by
      rw [Pipeline.ownSems0_none, hpd c]
      show Phi3 (a 3) A c (cfg3 (a 3)).N ⊢ _
      unfold Phi3
      erw [scopedRest3_split]
      iintro ⟨⟨%X, -, Hs⟩, Hbut, Hreg, Htbl⟩
      isplitl [Hreg Htbl]
      · isplitl [Hreg]; · iexact Hreg
        iexact Htbl
      isplitr; · iempintro
      isplitr [Hbut]; swap; · iexact Hbut
      iexists X; iapply (Entails.of_eq (owns_whole (c : Thread nD τ) cc3_scratch0 fullShare X)); iexact Hs)

end Reg

end Cert.Kernel.Hand

end
-- ==== Proof.Bits.Gather4.lean ====
import proofs.«401580_j65068754534945_2_alg».proof.Proof.Bits.Gather3

/-! One gather-and-mean region: groups of feature rows named by a table, summed in an accumulator that restarts at a group's first sample and is scaled into the output at its last. -/

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The restart test of the body, read off the sample coordinate. -/
abbrev first4 (i : grid4.Coords) : BitVec 1 :=
  Scalar.cmpi .ne (Scalar.extui (Scalar.cmpi .eq (BitVec.ofNat 32 (i 1).val) 0#32)) 0#32

/-- Point t is sample t % 25 of group t / 25. -/
theorem coords4_0 (t : Fin grid4.N) : (grid4.coords t 0).val = t.val / 25 % 1280 := by
  show t.val / grid4.stride 0 % _ = _; rw [show grid4.stride 0 = 25 by decide]; rfl
theorem coords4_1 (t : Fin grid4.N) : (grid4.coords t 1).val = t.val % 25 := by
  show t.val / grid4.stride 1 % _ = _; rw [show grid4.stride 1 = 1 by decide, Nat.div_one]; rfl

theorem first4_at (t : Fin grid4.N) : first4 (grid4.coords t) = 1#1 ↔ t.val % 25 = 0 := by
  rw [← coords4_1]; unfold first4; generalize grid4.coords t 1 = s; revert s; decide
theorem last4_at (t : Fin grid4.N) : k4_cond2 (grid4.coords t) = 1#1 ↔ t.val % 25 = 24 := by
  rw [← coords4_1]; unfold k4_cond2; generalize grid4.coords t 1 = s; revert s; decide

section
variable (a : (pcfg4 (F := F)).Adm)
variable (A : (c : Dev nD) → (w : Fin (cfg4 a).W) → Buf (Elt F) (((cfg4 a).win w).arr.view.loc (c.tc : Thread nD τ)))

/-- A point whose successor lies in another group, or is past the end, is a group's last sample. -/
theorem flush4_last (t : Fin (cfg4 a).N) (h : ((cfg4 a).win 1).flush t = true) : t.val % 25 = 24 := by
  unfold Pipeline.Window.flush at h
  simp only [Bool.and_eq_true, Bool.or_eq_true, decide_eq_true_eq] at h
  obtain ⟨-, h | ⟨h', hne⟩⟩ := h
  · have := h.trans N_4; omega
  · by_contra hc
    apply hne
    show cc4_transform_1 (grid4.coords ⟨t.val + 1, h'⟩) = cc4_transform_1 (grid4.coords t)
    refine hreads4_1 _ _ fun b hb => ?_
    obtain rfl : b = 0 := by revert hb; revert b; decide
    apply Fin.ext
    rw [coords4_0, coords4_0]
    show (t.val + 1) / 25 % 1280 = t.val / 25 % 1280
    omega

/-- The feature row the table names at point t. -/
def row4 (c : Dev nD) (t : Fin (cfg4 a).N) : Vec F S1x1x128 .f32 :=
  (((cfg4 a).win 0).blk t).view.read (Elt F) (A c 0)

/-- The running sum after point n, restarted from zero at a group's first sample. -/
def acc4 (c : Dev nD) : (n : ℕ) → n < (cfg4 a).N → Vec F S1x1x128 .f32
  | 0, h => k4_pay2 (k4_pay1 (F := F)) (row4 a A c ⟨0, h⟩)
  | n + 1, h => k4_pay2 (if first4 (grid4.coords ⟨n + 1, h⟩) = 1#1 then k4_pay1 (F := F) else acc4 c n (Nat.lt_of_succ_lt h))
      (row4 a A c ⟨n + 1, h⟩)

/-- Before position k the accumulator holds the running sum of the point before (anything before the first point). -/
def Phi4 (c : Dev nD) (k : ℕ) : sProp 𝕄 :=
  iprop((∃ X : Vec F S1x1x128 .f32, ⌜∀ n (h : n < (cfg4 a).N), k = n + 1 → X = acc4 a A c n h⌝
      ∗ owns (c : Thread nD τ) (Memref.whole cc4_scratch0) fullShare X)
    ∗ Pipeline.scopedRestBut (Ix := Unit) (Name := ℕ) (U := UR sig nD τ) (Lvl := ℕ) (Val := Elt F) spec4 c [cc4_scratch0]
    ∗ (∃ r, prngReg c r)
    ∗ Pipeline.prefHeld (Ix := Unit) (Name := ℕ) (U := UR sig nD τ) (Lvl := ℕ) pre4 c (fun _ => fullShare) a.1)

/-- What each point leaves: the named row on the input side, the group's scaled sum on the output side. -/
def dat4 (c : Dev nD) : Dat τ (Elt F) Unit ℕ (UR sig nD τ) ℕ (cfg4 a) c where
  A w := A c w
  after w t := match w with
    | ⟨0, _⟩ => row4 a A c t
    | ⟨1, _⟩ => k4_pay3 (acc4 a A c t.val t.isLt)
  Φ t := Phi4 a A c t.val
  q _ := fullShare
  owed _ := 0

theorem A_eq4 (c : Dev nD) (w : Fin (cfg4 a).W) : (dat4 a A c).A w = A c w := rfl
theorem after4_0 (c : Dev nD) (t : Fin (cfg4 a).N) : (dat4 a A c).after 0 t = row4 a A c t := rfl
theorem after4_1 (c : Dev nD) (t : Fin (cfg4 a).N) : (dat4 a A c).after 1 t = k4_pay3 (acc4 a A c t.val t.isLt) := rfl

theorem Phi4_castSucc (c : Dev nD) (t : Fin (cfg4 a).N) : (dat4 a A c).Φ t.castSucc = Phi4 a A c t.val := by
  dsimp only [dat4]; simp only [Fin.coe_castSucc]
theorem Phi4_succ (c : Dev nD) (t : Fin (cfg4 a).N) : (dat4 a A c).Φ t.succ = Phi4 a A c (t.val + 1) := rfl

theorem before4_0 (c : Dev nD) (t : Fin (cfg4 a).N) (d) : (dat4 a A c).before 0 t d = row4 a A c t :=
  ((dat4 a A c).before_in_eq_fetched 0 rfl (fun _ => rfl) (fun _ _ _ => rfl) (fun t => by rw [after4_0]; rfl) t d).trans rfl

end

/-- What a point leaves in the accumulator: the row added to zero at a first sample, to what was there otherwise. -/
def step4 (i : grid4.Coords) (X row : Vec F S1x1x128 .f32) : Vec F S1x1x128 .f32 :=
  k4_pay2 (if first4 i = 1#1 then k4_pay1 (F := F) else X) row

section
variable (a : (pcfg4 (F := F)).Adm)
variable (A : (c : Dev nD) → (w : Fin (cfg4 a).W) → Buf (Elt F) (((cfg4 a).win w).arr.view.loc (c.tc : Thread nD τ)))

/-- One step from what the invariant holds is the running sum at the point. -/
theorem step4_acc (c : Dev nD) (t : Fin (cfg4 a).N) (X : Vec F S1x1x128 .f32)
    (hX : ∀ n (h : n < (cfg4 a).N), t.val = n + 1 → X = acc4 a A c n h) :
    step4 (grid4.coords t) X (row4 a A c t) = acc4 a A c t.val t.isLt := by
  obtain ⟨n, hn⟩ := t
  cases n with
  | zero => unfold step4 acc4; rw [if_pos ((first4_at ⟨0, hn⟩).mpr rfl)]
  | succ n => unfold step4; rw [hX n (Nat.lt_of_succ_lt hn) rfl]; rfl

set_option maxHeartbeats 1000000 in
/-- Every point's run of the body keeps the invariant. -/
theorem body_obligation4 (c : Dev nD) : BodyObligation (dat4 a A c) (defs₀ (F := F)) Variants.none () Set.univ := fun t => by
  rw [bigSep_W4, bigSep_W4]
  rw [show (dat4 a A c).owesAt () t.succ = (dat4 a A c).owesAt () t.castSucc from rfl, Phi4_castSucc, Phi4_succ]
  show _ ⊢ wp frame _ Set.univ (cc3_kernel (grid4.coords t) (Memref.whole main_v40) (Memref.isWhole_whole _)
    (spec4_0.stage ((cfg4 a).slots t 0)) (hstage4_0 (((cfg4 a).slots t 0).cast nbuf4_0))
    (spec4_1.stage ((cfg4 a).slots t 1)) (hstage4_1 (((cfg4 a).slots t 1).cast nbuf4_1))
    (Memref.whole cc4_scratch0) (Memref.isWhole_whole _)) _
  have hf : k4_cond2 (grid4.coords t) ≠ 1#1 → ((pcfg4 (F := F)).win a 1).flush t = false := fun hl => by
    rw [← Bool.not_eq_true]; exact fun h => hl ((last4_at t).mpr (flush4_last a t h))
  by_cases hl : k4_cond2 (grid4.coords t) = 1#1
  all_goals
    have hi : idle4 1 (((pcfg4 (F := F)).gridAt a.1).coords t) = !decide (k4_cond2 (grid4.coords t) = 1#1) := by
      show (!(k4_cond2 (grid4.coords t) == 1#1)) = _
      first | (rw [hl]; rfl) | (rw [decide_eq_false hl, Bool.not_false, Bool.not_eq_true', beq_eq_false_iff_ne]; exact hl)
    first | rw [decide_eq_true hl, Bool.not_true] at hi | rw [decide_eq_false hl, Bool.not_false] at hi
    simp only [hi, after4_0, after4_1]
    iintro ⟨HΦ, Ho, ⟨%d0, H0⟩, ⟨%d1, H1⟩⟩
    rw [before4_0 a A c t d0]
    unfold Phi4
    icases HΦ with ⟨⟨%X, %hX, Hs⟩, Hrest, Hprng, Htbl⟩
    iapply (body3 c Set.univ (grid4.coords t) _ _ _ _ _ _ _ _ (row4 a A c t) X ((dat4 a A c).before 1 t d1)
      (acc4 a A c t.val t.isLt) _ (step4_acc a A c t X hX) (by first | exact if_pos hl | exact if_neg hl) _)
    iframe H0 Hs H1
    iintro ⟨H0, Hs, H1⟩
    iframe Ho H0 Hrest Hprng Htbl
    isplitl [Hs]
    · iexists _; isplitr; swap; · iexact Hs
      ipureintro; intro n h e
      obtain rfl : n = t.val := by omega
      rfl
    first
      | iexact H1
      | (split
         · iexists d1; iexact H1
         · rename_i hft; exact absurd (hft.symm.trans (hf hl)) (by decide))

end

/-- Entries below the feature table's height name rows inside it. -/
theorem ok4_of_inb (pf : pre4.Contents (Elt F)) (h : ∀ k, ((pf 0) k).toNat < 500000) : ok4 (F := F) pf := by
  intro i
  refine ⟨fun b => ?_, Or.inl rfl⟩
  match b with
  | ⟨0, _⟩ =>
    have hh : cc4_transform_0 k4_off1_inb numel1_S1 pf i ⟨0, by decide⟩ < 500000 := h _
    show (cc4_transform_0 k4_off1_inb numel1_S1 pf i ⟨0, _⟩ + 1) * 1 ≤ 500000
    omega
  | ⟨1, _⟩ => show (0 + 1) * 1 ≤ 1; decide
  | ⟨2, _⟩ => show (0 + 1) * 128 ≤ 128; decide
  | ⟨_ + 3, hb⟩ => exact absurd hb (by omega)

section Reg
variable (a : (p : Fin 14) → (pcfgs (F := F) p).Adm)
variable (pdats : (p : Fin 14) → (c : Dev nD) → Dat τ (Elt F) Unit ℕ (UR sig nD τ) ℕ (Pipeline.pin (pcfgs (F := F)) a p) c)
variable (A : (c : Dev nD) → (w : Fin (cfg4 (a 4)).W) → Buf (Elt F) (((cfg4 (a 4)).win w).arr.view.loc (c.tc : Thread nD τ)))
variable (Vin Vout : (c : Dev nD) → Valuation τ sig (Elt F))

set_option backward.isDefEq.respectTransparency.types false in
/-- The region as a step from the memory at Vin, which holds the table at the admissible contents, to the memory at Vout. -/
def reg4 (hpd : ∀ c, pdats 4 c = dat4 (a 4) A c)
    (hA : ∀ c w, A c w = Vin c (Pipeline.arrRef spec4 w))
    (hT : ∀ c, Vin c main_v40 = (a 4).1 0)
    (hF : ∀ c w, (dat4 (a 4) A c).arrAt w (cfg4 (a 4)).N = Vout c (Pipeline.arrRef spec4 w))
    (hrest : ∀ c (b : Ref sig .tc), b ∉ Finset.univ.image (Pipeline.arrRef spec4) → Vout c b = Vin c b) :
    Pipeline.RegionSeg (pcfgs (F := F)) a pdats () defs₀ Variants.none Lh lvh 4 :=
  seg (launch4 (F := F)) a pdats Vin Vout
    (fun c w => by rw [hpd c]; exact (dat4 (a 4) A c).share_full (fun _ => rfl) w)
    (fun c => funext fun (k : Fin 1) => by obtain rfl : k = 0 := Subsingleton.elim _ _; exact hT c)
    (fun c w => by rw [hpd c, A_eq4]; exact hA c w) (fun c w => by rw [hpd c]; exact hF c w) hrest
    (fun c _ => by rw [hpd c]; rfl) (fun c => by rw [hpd c]; rfl)
    (fun c => by rw [hpd c]; exact (body_obligation4 (a 4) A c).loose)
    (fun c => by
      rw [hpd c]
      show _ ⊢ Phi4 (a 4) A c 0
      unfold Phi4
      erw [scopedRest4_split]
      iintro ⟨Hreg, Htbl, ⟨%f, Hf⟩, Hbut⟩
      iframe Hbut Hreg
      isplitr [Htbl]; swap; · iexact Htbl
      iexists f; isplitr
      · ipureintro; intro n h e; exact absurd e (Nat.succ_ne_zero n).symm
      iapply (Entails.of_eq (owns_whole (c : Thread nD τ) cc4_scratch0 fullShare f).symm); iexact Hf)
    (fun c => by
      rw [Pipeline.ownSems0_none, hpd c]
      show Phi4 (a 4) A c (cfg4 (a 4)).N ⊢ _
      unfold Phi4
      erw [scopedRest4_split]
      iintro ⟨⟨%X, -, Hs⟩, Hbut, Hreg, Htbl⟩
      isplitl [Hreg Htbl]
      · isplitl [Hreg]; · iexact Hreg
        iexact Htbl
      isplitr; · iempintro
      isplitr [Hbut]; swap; · iexact Hbut
      iexists X; iapply (Entails.of_eq (owns_whole (c : Thread nD τ) cc4_scratch0 fullShare X)); iexact Hs)

end Reg

end Cert.Kernel.Hand

end
-- ==== Proof.Bits.Gather5.lean ====
import proofs.«401580_j65068754534945_2_alg».proof.Proof.Bits.Gather3

/-! One gather-and-mean region: groups of feature rows named by a table, summed in an accumulator that restarts at a group's first sample and is scaled into the output at its last. -/

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The restart test of the body, read off the sample coordinate. -/
abbrev first5 (i : grid5.Coords) : BitVec 1 :=
  Scalar.cmpi .ne (Scalar.extui (Scalar.cmpi .eq (BitVec.ofNat 32 (i 1).val) 0#32)) 0#32

/-- Point t is sample t % 25 of group t / 25. -/
theorem coords5_0 (t : Fin grid5.N) : (grid5.coords t 0).val = t.val / 25 % 1280 := by
  show t.val / grid5.stride 0 % _ = _; rw [show grid5.stride 0 = 25 by decide]; rfl
theorem coords5_1 (t : Fin grid5.N) : (grid5.coords t 1).val = t.val % 25 := by
  show t.val / grid5.stride 1 % _ = _; rw [show grid5.stride 1 = 1 by decide, Nat.div_one]; rfl

theorem first5_at (t : Fin grid5.N) : first5 (grid5.coords t) = 1#1 ↔ t.val % 25 = 0 := by
  rw [← coords5_1]; unfold first5; generalize grid5.coords t 1 = s; revert s; decide
theorem last5_at (t : Fin grid5.N) : k5_cond2 (grid5.coords t) = 1#1 ↔ t.val % 25 = 24 := by
  rw [← coords5_1]; unfold k5_cond2; generalize grid5.coords t 1 = s; revert s; decide

section
variable (a : (pcfg5 (F := F)).Adm)
variable (A : (c : Dev nD) → (w : Fin (cfg5 a).W) → Buf (Elt F) (((cfg5 a).win w).arr.view.loc (c.tc : Thread nD τ)))

/-- A point whose successor lies in another group, or is past the end, is a group's last sample. -/
theorem flush5_last (t : Fin (cfg5 a).N) (h : ((cfg5 a).win 1).flush t = true) : t.val % 25 = 24 := by
  unfold Pipeline.Window.flush at h
  simp only [Bool.and_eq_true, Bool.or_eq_true, decide_eq_true_eq] at h
  obtain ⟨-, h | ⟨h', hne⟩⟩ := h
  · have := h.trans N_5; omega
  · by_contra hc
    apply hne
    show cc5_transform_1 (grid5.coords ⟨t.val + 1, h'⟩) = cc5_transform_1 (grid5.coords t)
    refine hreads5_1 _ _ fun b hb => ?_
    obtain rfl : b = 0 := by revert hb; revert b; decide
    apply Fin.ext
    rw [coords5_0, coords5_0]
    show (t.val + 1) / 25 % 1280 = t.val / 25 % 1280
    omega

/-- The feature row the table names at point t. -/
def row5 (c : Dev nD) (t : Fin (cfg5 a).N) : Vec F S1x1x128 .f32 :=
  (((cfg5 a).win 0).blk t).view.read (Elt F) (A c 0)

/-- The running sum after point n, restarted from zero at a group's first sample. -/
def acc5 (c : Dev nD) : (n : ℕ) → n < (cfg5 a).N → Vec F S1x1x128 .f32
  | 0, h => k5_pay2 (k5_pay1 (F := F)) (row5 a A c ⟨0, h⟩)
  | n + 1, h => k5_pay2 (if first5 (grid5.coords ⟨n + 1, h⟩) = 1#1 then k5_pay1 (F := F) else acc5 c n (Nat.lt_of_succ_lt h))
      (row5 a A c ⟨n + 1, h⟩)

/-- Before position k the accumulator holds the running sum of the point before (anything before the first point). -/
def Phi5 (c : Dev nD) (k : ℕ) : sProp 𝕄 :=
  iprop((∃ X : Vec F S1x1x128 .f32, ⌜∀ n (h : n < (cfg5 a).N), k = n + 1 → X = acc5 a A c n h⌝
      ∗ owns (c : Thread nD τ) (Memref.whole cc5_scratch0) fullShare X)
    ∗ Pipeline.scopedRestBut (Ix := Unit) (Name := ℕ) (U := UR sig nD τ) (Lvl := ℕ) (Val := Elt F) spec5 c [cc5_scratch0]
    ∗ (∃ r, prngReg c r)
    ∗ Pipeline.prefHeld (Ix := Unit) (Name := ℕ) (U := UR sig nD τ) (Lvl := ℕ) pre5 c (fun _ => fullShare) a.1)

/-- What each point leaves: the named row on the input side, the group's scaled sum on the output side. -/
def dat5 (c : Dev nD) : Dat τ (Elt F) Unit ℕ (UR sig nD τ) ℕ (cfg5 a) c where
  A w := A c w
  after w t := match w with
    | ⟨0, _⟩ => row5 a A c t
    | ⟨1, _⟩ => k5_pay3 (acc5 a A c t.val t.isLt)
  Φ t := Phi5 a A c t.val
  q _ := fullShare
  owed _ := 0

theorem A_eq5 (c : Dev nD) (w : Fin (cfg5 a).W) : (dat5 a A c).A w = A c w := rfl
theorem after5_0 (c : Dev nD) (t : Fin (cfg5 a).N) : (dat5 a A c).after 0 t = row5 a A c t := rfl
theorem after5_1 (c : Dev nD) (t : Fin (cfg5 a).N) : (dat5 a A c).after 1 t = k5_pay3 (acc5 a A c t.val t.isLt) := rfl

theorem Phi5_castSucc (c : Dev nD) (t : Fin (cfg5 a).N) : (dat5 a A c).Φ t.castSucc = Phi5 a A c t.val := by
  dsimp only [dat5]; simp only [Fin.coe_castSucc]
theorem Phi5_succ (c : Dev nD) (t : Fin (cfg5 a).N) : (dat5 a A c).Φ t.succ = Phi5 a A c (t.val + 1) := rfl

theorem before5_0 (c : Dev nD) (t : Fin (cfg5 a).N) (d) : (dat5 a A c).before 0 t d = row5 a A c t :=
  ((dat5 a A c).before_in_eq_fetched 0 rfl (fun _ => rfl) (fun _ _ _ => rfl) (fun t => by rw [after5_0]; rfl) t d).trans rfl

end

/-- What a point leaves in the accumulator: the row added to zero at a first sample, to what was there otherwise. -/
def step5 (i : grid5.Coords) (X row : Vec F S1x1x128 .f32) : Vec F S1x1x128 .f32 :=
  k5_pay2 (if first5 i = 1#1 then k5_pay1 (F := F) else X) row

section
variable (a : (pcfg5 (F := F)).Adm)
variable (A : (c : Dev nD) → (w : Fin (cfg5 a).W) → Buf (Elt F) (((cfg5 a).win w).arr.view.loc (c.tc : Thread nD τ)))

/-- One step from what the invariant holds is the running sum at the point. -/
theorem step5_acc (c : Dev nD) (t : Fin (cfg5 a).N) (X : Vec F S1x1x128 .f32)
    (hX : ∀ n (h : n < (cfg5 a).N), t.val = n + 1 → X = acc5 a A c n h) :
    step5 (grid5.coords t) X (row5 a A c t) = acc5 a A c t.val t.isLt := by
  obtain ⟨n, hn⟩ := t
  cases n with
  | zero => unfold step5 acc5; rw [if_pos ((first5_at ⟨0, hn⟩).mpr rfl)]
  | succ n => unfold step5; rw [hX n (Nat.lt_of_succ_lt hn) rfl]; rfl

set_option maxHeartbeats 1000000 in
/-- Every point's run of the body keeps the invariant. -/
theorem body_obligation5 (c : Dev nD) : BodyObligation (dat5 a A c) (defs₀ (F := F)) Variants.none () Set.univ := fun t => by
  rw [bigSep_W5, bigSep_W5]
  rw [show (dat5 a A c).owesAt () t.succ = (dat5 a A c).owesAt () t.castSucc from rfl, Phi5_castSucc, Phi5_succ]
  show _ ⊢ wp frame _ Set.univ (cc3_kernel (grid5.coords t) (Memref.whole main_v44) (Memref.isWhole_whole _)
    (spec5_0.stage ((cfg5 a).slots t 0)) (hstage5_0 (((cfg5 a).slots t 0).cast nbuf5_0))
    (spec5_1.stage ((cfg5 a).slots t 1)) (hstage5_1 (((cfg5 a).slots t 1).cast nbuf5_1))
    (Memref.whole cc5_scratch0) (Memref.isWhole_whole _)) _
  have hf : k5_cond2 (grid5.coords t) ≠ 1#1 → ((pcfg5 (F := F)).win a 1).flush t = false := fun hl => by
    rw [← Bool.not_eq_true]; exact fun h => hl ((last5_at t).mpr (flush5_last a t h))
  by_cases hl : k5_cond2 (grid5.coords t) = 1#1
  all_goals
    have hi : idle5 1 (((pcfg5 (F := F)).gridAt a.1).coords t) = !decide (k5_cond2 (grid5.coords t) = 1#1) := by
      show (!(k5_cond2 (grid5.coords t) == 1#1)) = _
      first | (rw [hl]; rfl) | (rw [decide_eq_false hl, Bool.not_false, Bool.not_eq_true', beq_eq_false_iff_ne]; exact hl)
    first | rw [decide_eq_true hl, Bool.not_true] at hi | rw [decide_eq_false hl, Bool.not_false] at hi
    simp only [hi, after5_0, after5_1]
    iintro ⟨HΦ, Ho, ⟨%d0, H0⟩, ⟨%d1, H1⟩⟩
    rw [before5_0 a A c t d0]
    unfold Phi5
    icases HΦ with ⟨⟨%X, %hX, Hs⟩, Hrest, Hprng, Htbl⟩
    iapply (body3 c Set.univ (grid5.coords t) _ _ _ _ _ _ _ _ (row5 a A c t) X ((dat5 a A c).before 1 t d1)
      (acc5 a A c t.val t.isLt) _ (step5_acc a A c t X hX) (by first | exact if_pos hl | exact if_neg hl) _)
    iframe H0 Hs H1
    iintro ⟨H0, Hs, H1⟩
    iframe Ho H0 Hrest Hprng Htbl
    isplitl [Hs]
    · iexists _; isplitr; swap; · iexact Hs
      ipureintro; intro n h e
      obtain rfl : n = t.val := by omega
      rfl
    first
      | iexact H1
      | (split
         · iexists d1; iexact H1
         · rename_i hft; exact absurd (hft.symm.trans (hf hl)) (by decide))

end

/-- Entries below the feature table's height name rows inside it. -/
theorem ok5_of_inb (pf : pre5.Contents (Elt F)) (h : ∀ k, ((pf 0) k).toNat < 500000) : ok5 (F := F) pf := by
  intro i
  refine ⟨fun b => ?_, Or.inl rfl⟩
  match b with
  | ⟨0, _⟩ =>
    have hh : cc5_transform_0 k5_off1_inb numel1_S1 pf i ⟨0, by decide⟩ < 500000 := h _
    show (cc5_transform_0 k5_off1_inb numel1_S1 pf i ⟨0, _⟩ + 1) * 1 ≤ 500000
    omega
  | ⟨1, _⟩ => show (0 + 1) * 1 ≤ 1; decide
  | ⟨2, _⟩ => show (0 + 1) * 128 ≤ 128; decide
  | ⟨_ + 3, hb⟩ => exact absurd hb (by omega)

section Reg
variable (a : (p : Fin 14) → (pcfgs (F := F) p).Adm)
variable (pdats : (p : Fin 14) → (c : Dev nD) → Dat τ (Elt F) Unit ℕ (UR sig nD τ) ℕ (Pipeline.pin (pcfgs (F := F)) a p) c)
variable (A : (c : Dev nD) → (w : Fin (cfg5 (a 5)).W) → Buf (Elt F) (((cfg5 (a 5)).win w).arr.view.loc (c.tc : Thread nD τ)))
variable (Vin Vout : (c : Dev nD) → Valuation τ sig (Elt F))

set_option backward.isDefEq.respectTransparency.types false in
/-- The region as a step from the memory at Vin, which holds the table at the admissible contents, to the memory at Vout. -/
def reg5 (hpd : ∀ c, pdats 5 c = dat5 (a 5) A c)
    (hA : ∀ c w, A c w = Vin c (Pipeline.arrRef spec5 w))
    (hT : ∀ c, Vin c main_v44 = (a 5).1 0)
    (hF : ∀ c w, (dat5 (a 5) A c).arrAt w (cfg5 (a 5)).N = Vout c (Pipeline.arrRef spec5 w))
    (hrest : ∀ c (b : Ref sig .tc), b ∉ Finset.univ.image (Pipeline.arrRef spec5) → Vout c b = Vin c b) :
    Pipeline.RegionSeg (pcfgs (F := F)) a pdats () defs₀ Variants.none Lh lvh 5 :=
  seg (launch5 (F := F)) a pdats Vin Vout
    (fun c w => by rw [hpd c]; exact (dat5 (a 5) A c).share_full (fun _ => rfl) w)
    (fun c => funext fun (k : Fin 1) => by obtain rfl : k = 0 := Subsingleton.elim _ _; exact hT c)
    (fun c w => by rw [hpd c, A_eq5]; exact hA c w) (fun c w => by rw [hpd c]; exact hF c w) hrest
    (fun c _ => by rw [hpd c]; rfl) (fun c => by rw [hpd c]; rfl)
    (fun c => by rw [hpd c]; exact (body_obligation5 (a 5) A c).loose)
    (fun c => by
      rw [hpd c]
      show _ ⊢ Phi5 (a 5) A c 0
      unfold Phi5
      erw [scopedRest5_split]
      iintro ⟨Hreg, Htbl, ⟨%f, Hf⟩, Hbut⟩
      iframe Hbut Hreg
      isplitr [Htbl]; swap; · iexact Htbl
      iexists f; isplitr
      · ipureintro; intro n h e; exact absurd e (Nat.succ_ne_zero n).symm
      iapply (Entails.of_eq (owns_whole (c : Thread nD τ) cc5_scratch0 fullShare f).symm); iexact Hf)
    (fun c => by
      rw [Pipeline.ownSems0_none, hpd c]
      show Phi5 (a 5) A c (cfg5 (a 5)).N ⊢ _
      unfold Phi5
      erw [scopedRest5_split]
      iintro ⟨⟨%X, -, Hs⟩, Hbut, Hreg, Htbl⟩
      isplitl [Hreg Htbl]
      · isplitl [Hreg]; · iexact Hreg
        iexact Htbl
      isplitr; · iempintro
      isplitr [Hbut]; swap; · iexact Hbut
      iexists X; iapply (Entails.of_eq (owns_whole (c : Thread nD τ) cc5_scratch0 fullShare X)); iexact Hs)

end Reg

end Cert.Kernel.Hand

end
-- ==== Proof.Bits.Gather6.lean ====
import proofs.«401580_j65068754534945_2_alg».proof.Proof.Bits.Gather3

/-! One gather-and-mean region: groups of feature rows named by a table, summed in an accumulator that restarts at a group's first sample and is scaled into the output at its last. -/

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The restart test of the body, read off the sample coordinate. -/
abbrev first6 (i : grid6.Coords) : BitVec 1 :=
  Scalar.cmpi .ne (Scalar.extui (Scalar.cmpi .eq (BitVec.ofNat 32 (i 1).val) 0#32)) 0#32

/-- Point t is sample t % 25 of group t / 25. -/
theorem coords6_0 (t : Fin grid6.N) : (grid6.coords t 0).val = t.val / 25 % 1280 := by
  show t.val / grid6.stride 0 % _ = _; rw [show grid6.stride 0 = 25 by decide]; rfl
theorem coords6_1 (t : Fin grid6.N) : (grid6.coords t 1).val = t.val % 25 := by
  show t.val / grid6.stride 1 % _ = _; rw [show grid6.stride 1 = 1 by decide, Nat.div_one]; rfl

theorem first6_at (t : Fin grid6.N) : first6 (grid6.coords t) = 1#1 ↔ t.val % 25 = 0 := by
  rw [← coords6_1]; unfold first6; generalize grid6.coords t 1 = s; revert s; decide
theorem last6_at (t : Fin grid6.N) : k6_cond2 (grid6.coords t) = 1#1 ↔ t.val % 25 = 24 := by
  rw [← coords6_1]; unfold k6_cond2; generalize grid6.coords t 1 = s; revert s; decide

section
variable (a : (pcfg6 (F := F)).Adm)
variable (A : (c : Dev nD) → (w : Fin (cfg6 a).W) → Buf (Elt F) (((cfg6 a).win w).arr.view.loc (c.tc : Thread nD τ)))

/-- A point whose successor lies in another group, or is past the end, is a group's last sample. -/
theorem flush6_last (t : Fin (cfg6 a).N) (h : ((cfg6 a).win 1).flush t = true) : t.val % 25 = 24 := by
  unfold Pipeline.Window.flush at h
  simp only [Bool.and_eq_true, Bool.or_eq_true, decide_eq_true_eq] at h
  obtain ⟨-, h | ⟨h', hne⟩⟩ := h
  · have := h.trans N_6; omega
  · by_contra hc
    apply hne
    show cc6_transform_1 (grid6.coords ⟨t.val + 1, h'⟩) = cc6_transform_1 (grid6.coords t)
    refine hreads6_1 _ _ fun b hb => ?_
    obtain rfl : b = 0 := by revert hb; revert b; decide
    apply Fin.ext
    rw [coords6_0, coords6_0]
    show (t.val + 1) / 25 % 1280 = t.val / 25 % 1280
    omega

/-- The feature row the table names at point t. -/
def row6 (c : Dev nD) (t : Fin (cfg6 a).N) : Vec F S1x1x128 .f32 :=
  (((cfg6 a).win 0).blk t).view.read (Elt F) (A c 0)

/-- The running sum after point n, restarted from zero at a group's first sample. -/
def acc6 (c : Dev nD) : (n : ℕ) → n < (cfg6 a).N → Vec F S1x1x128 .f32
  | 0, h => k6_pay2 (k6_pay1 (F := F)) (row6 a A c ⟨0, h⟩)
  | n + 1, h => k6_pay2 (if first6 (grid6.coords ⟨n + 1, h⟩) = 1#1 then k6_pay1 (F := F) else acc6 c n (Nat.lt_of_succ_lt h))
      (row6 a A c ⟨n + 1, h⟩)

/-- Before position k the accumulator holds the running sum of the point before (anything before the first point). -/
def Phi6 (c : Dev nD) (k : ℕ) : sProp 𝕄 :=
  iprop((∃ X : Vec F S1x1x128 .f32, ⌜∀ n (h : n < (cfg6 a).N), k = n + 1 → X = acc6 a A c n h⌝
      ∗ owns (c : Thread nD τ) (Memref.whole cc6_scratch0) fullShare X)
    ∗ Pipeline.scopedRestBut (Ix := Unit) (Name := ℕ) (U := UR sig nD τ) (Lvl := ℕ) (Val := Elt F) spec6 c [cc6_scratch0]
    ∗ (∃ r, prngReg c r)
    ∗ Pipeline.prefHeld (Ix := Unit) (Name := ℕ) (U := UR sig nD τ) (Lvl := ℕ) pre6 c (fun _ => fullShare) a.1)

/-- What each point leaves: the named row on the input side, the group's scaled sum on the output side. -/
def dat6 (c : Dev nD) : Dat τ (Elt F) Unit ℕ (UR sig nD τ) ℕ (cfg6 a) c where
  A w := A c w
  after w t := match w with
    | ⟨0, _⟩ => row6 a A c t
    | ⟨1, _⟩ => k6_pay3 (acc6 a A c t.val t.isLt)
  Φ t := Phi6 a A c t.val
  q _ := fullShare
  owed _ := 0

theorem A_eq6 (c : Dev nD) (w : Fin (cfg6 a).W) : (dat6 a A c).A w = A c w := rfl
theorem after6_0 (c : Dev nD) (t : Fin (cfg6 a).N) : (dat6 a A c).after 0 t = row6 a A c t := rfl
theorem after6_1 (c : Dev nD) (t : Fin (cfg6 a).N) : (dat6 a A c).after 1 t = k6_pay3 (acc6 a A c t.val t.isLt) := rfl

theorem Phi6_castSucc (c : Dev nD) (t : Fin (cfg6 a).N) : (dat6 a A c).Φ t.castSucc = Phi6 a A c t.val := by
  dsimp only [dat6]; simp only [Fin.coe_castSucc]
theorem Phi6_succ (c : Dev nD) (t : Fin (cfg6 a).N) : (dat6 a A c).Φ t.succ = Phi6 a A c (t.val + 1) := rfl

theorem before6_0 (c : Dev nD) (t : Fin (cfg6 a).N) (d) : (dat6 a A c).before 0 t d = row6 a A c t :=
  ((dat6 a A c).before_in_eq_fetched 0 rfl (fun _ => rfl) (fun _ _ _ => rfl) (fun t => by rw [after6_0]; rfl) t d).trans rfl

end

/-- What a point leaves in the accumulator: the row added to zero at a first sample, to what was there otherwise. -/
def step6 (i : grid6.Coords) (X row : Vec F S1x1x128 .f32) : Vec F S1x1x128 .f32 :=
  k6_pay2 (if first6 i = 1#1 then k6_pay1 (F := F) else X) row

section
variable (a : (pcfg6 (F := F)).Adm)
variable (A : (c : Dev nD) → (w : Fin (cfg6 a).W) → Buf (Elt F) (((cfg6 a).win w).arr.view.loc (c.tc : Thread nD τ)))

/-- One step from what the invariant holds is the running sum at the point. -/
theorem step6_acc (c : Dev nD) (t : Fin (cfg6 a).N) (X : Vec F S1x1x128 .f32)
    (hX : ∀ n (h : n < (cfg6 a).N), t.val = n + 1 → X = acc6 a A c n h) :
    step6 (grid6.coords t) X (row6 a A c t) = acc6 a A c t.val t.isLt := by
  obtain ⟨n, hn⟩ := t
  cases n with
  | zero => unfold step6 acc6; rw [if_pos ((first6_at ⟨0, hn⟩).mpr rfl)]
  | succ n => unfold step6; rw [hX n (Nat.lt_of_succ_lt hn) rfl]; rfl

set_option maxHeartbeats 1000000 in
/-- Every point's run of the body keeps the invariant. -/
theorem body_obligation6 (c : Dev nD) : BodyObligation (dat6 a A c) (defs₀ (F := F)) Variants.none () Set.univ := fun t => by
  rw [bigSep_W6, bigSep_W6]
  rw [show (dat6 a A c).owesAt () t.succ = (dat6 a A c).owesAt () t.castSucc from rfl, Phi6_castSucc, Phi6_succ]
  show _ ⊢ wp frame _ Set.univ (cc3_kernel (grid6.coords t) (Memref.whole main_v48) (Memref.isWhole_whole _)
    (spec6_0.stage ((cfg6 a).slots t 0)) (hstage6_0 (((cfg6 a).slots t 0).cast nbuf6_0))
    (spec6_1.stage ((cfg6 a).slots t 1)) (hstage6_1 (((cfg6 a).slots t 1).cast nbuf6_1))
    (Memref.whole cc6_scratch0) (Memref.isWhole_whole _)) _
  have hf : k6_cond2 (grid6.coords t) ≠ 1#1 → ((pcfg6 (F := F)).win a 1).flush t = false := fun hl => by
    rw [← Bool.not_eq_true]; exact fun h => hl ((last6_at t).mpr (flush6_last a t h))
  by_cases hl : k6_cond2 (grid6.coords t) = 1#1
  all_goals
    have hi : idle6 1 (((pcfg6 (F := F)).gridAt a.1).coords t) = !decide (k6_cond2 (grid6.coords t) = 1#1) := by
      show (!(k6_cond2 (grid6.coords t) == 1#1)) = _
      first | (rw [hl]; rfl) | (rw [decide_eq_false hl, Bool.not_false, Bool.not_eq_true', beq_eq_false_iff_ne]; exact hl)
    first | rw [decide_eq_true hl, Bool.not_true] at hi | rw [decide_eq_false hl, Bool.not_false] at hi
    simp only [hi, after6_0, after6_1]
    iintro ⟨HΦ, Ho, ⟨%d0, H0⟩, ⟨%d1, H1⟩⟩
    rw [before6_0 a A c t d0]
    unfold Phi6
    icases HΦ with ⟨⟨%X, %hX, Hs⟩, Hrest, Hprng, Htbl⟩
    iapply (body3 c Set.univ (grid6.coords t) _ _ _ _ _ _ _ _ (row6 a A c t) X ((dat6 a A c).before 1 t d1)
      (acc6 a A c t.val t.isLt) _ (step6_acc a A c t X hX) (by first | exact if_pos hl | exact if_neg hl) _)
    iframe H0 Hs H1
    iintro ⟨H0, Hs, H1⟩
    iframe Ho H0 Hrest Hprng Htbl
    isplitl [Hs]
    · iexists _; isplitr; swap; · iexact Hs
      ipureintro; intro n h e
      obtain rfl : n = t.val := by omega
      rfl
    first
      | iexact H1
      | (split
         · iexists d1; iexact H1
         · rename_i hft; exact absurd (hft.symm.trans (hf hl)) (by decide))

end

/-- Entries below the feature table's height name rows inside it. -/
theorem ok6_of_inb (pf : pre6.Contents (Elt F)) (h : ∀ k, ((pf 0) k).toNat < 500000) : ok6 (F := F) pf := by
  intro i
  refine ⟨fun b => ?_, Or.inl rfl⟩
  match b with
  | ⟨0, _⟩ =>
    have hh : cc6_transform_0 k6_off1_inb numel1_S1 pf i ⟨0, by decide⟩ < 500000 := h _
    show (cc6_transform_0 k6_off1_inb numel1_S1 pf i ⟨0, _⟩ + 1) * 1 ≤ 500000
    omega
  | ⟨1, _⟩ => show (0 + 1) * 1 ≤ 1; decide
  | ⟨2, _⟩ => show (0 + 1) * 128 ≤ 128; decide
  | ⟨_ + 3, hb⟩ => exact absurd hb (by omega)

section Reg
variable (a : (p : Fin 14) → (pcfgs (F := F) p).Adm)
variable (pdats : (p : Fin 14) → (c : Dev nD) → Dat τ (Elt F) Unit ℕ (UR sig nD τ) ℕ (Pipeline.pin (pcfgs (F := F)) a p) c)
variable (A : (c : Dev nD) → (w : Fin (cfg6 (a 6)).W) → Buf (Elt F) (((cfg6 (a 6)).win w).arr.view.loc (c.tc : Thread nD τ)))
variable (Vin Vout : (c : Dev nD) → Valuation τ sig (Elt F))

set_option backward.isDefEq.respectTransparency.types false in
/-- The region as a step from the memory at Vin, which holds the table at the admissible contents, to the memory at Vout. -/
def reg6 (hpd : ∀ c, pdats 6 c = dat6 (a 6) A c)
    (hA : ∀ c w, A c w = Vin c (Pipeline.arrRef spec6 w))
    (hT : ∀ c, Vin c main_v48 = (a 6).1 0)
    (hF : ∀ c w, (dat6 (a 6) A c).arrAt w (cfg6 (a 6)).N = Vout c (Pipeline.arrRef spec6 w))
    (hrest : ∀ c (b : Ref sig .tc), b ∉ Finset.univ.image (Pipeline.arrRef spec6) → Vout c b = Vin c b) :
    Pipeline.RegionSeg (pcfgs (F := F)) a pdats () defs₀ Variants.none Lh lvh 6 :=
  seg (launch6 (F := F)) a pdats Vin Vout
    (fun c w => by rw [hpd c]; exact (dat6 (a 6) A c).share_full (fun _ => rfl) w)
    (fun c => funext fun (k : Fin 1) => by obtain rfl : k = 0 := Subsingleton.elim _ _; exact hT c)
    (fun c w => by rw [hpd c, A_eq6]; exact hA c w) (fun c w => by rw [hpd c]; exact hF c w) hrest
    (fun c _ => by rw [hpd c]; rfl) (fun c => by rw [hpd c]; rfl)
    (fun c => by rw [hpd c]; exact (body_obligation6 (a 6) A c).loose)
    (fun c => by
      rw [hpd c]
      show _ ⊢ Phi6 (a 6) A c 0
      unfold Phi6
      erw [scopedRest6_split]
      iintro ⟨Hreg, Htbl, ⟨%f, Hf⟩, Hbut⟩
      iframe Hbut Hreg
      isplitr [Htbl]; swap; · iexact Htbl
      iexists f; isplitr
      · ipureintro; intro n h e; exact absurd e (Nat.succ_ne_zero n).symm
      iapply (Entails.of_eq (owns_whole (c : Thread nD τ) cc6_scratch0 fullShare f).symm); iexact Hf)
    (fun c => by
      rw [Pipeline.ownSems0_none, hpd c]
      show Phi6 (a 6) A c (cfg6 (a 6)).N ⊢ _
      unfold Phi6
      erw [scopedRest6_split]
      iintro ⟨⟨%X, -, Hs⟩, Hbut, Hreg, Htbl⟩
      isplitl [Hreg Htbl]
      · isplitl [Hreg]; · iexact Hreg
        iexact Htbl
      isplitr; · iempintro
      isplitr [Hbut]; swap; · iexact Hbut
      iexists X; iapply (Entails.of_eq (owns_whole (c : Thread nD τ) cc6_scratch0 fullShare X)); iexact Hs)

end Reg

end Cert.Kernel.Hand

end
-- ==== Proof.Bits.Gather7.lean ====
import proofs.«401580_j65068754534945_2_alg».proof.Proof.Bits.Gather3

/-! One gather-and-mean region: groups of feature rows named by a table, summed in an accumulator that restarts at a group's first sample and is scaled into the output at its last. -/

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The restart test of the body, read off the sample coordinate. -/
abbrev first7 (i : grid7.Coords) : BitVec 1 :=
  Scalar.cmpi .ne (Scalar.extui (Scalar.cmpi .eq (BitVec.ofNat 32 (i 1).val) 0#32)) 0#32

/-- Point t is sample t % 25 of group t / 25. -/
theorem coords7_0 (t : Fin grid7.N) : (grid7.coords t 0).val = t.val / 25 % 1280 := by
  show t.val / grid7.stride 0 % _ = _; rw [show grid7.stride 0 = 25 by decide]; rfl
theorem coords7_1 (t : Fin grid7.N) : (grid7.coords t 1).val = t.val % 25 := by
  show t.val / grid7.stride 1 % _ = _; rw [show grid7.stride 1 = 1 by decide, Nat.div_one]; rfl

theorem first7_at (t : Fin grid7.N) : first7 (grid7.coords t) = 1#1 ↔ t.val % 25 = 0 := by
  rw [← coords7_1]; unfold first7; generalize grid7.coords t 1 = s; revert s; decide
theorem last7_at (t : Fin grid7.N) : k7_cond2 (grid7.coords t) = 1#1 ↔ t.val % 25 = 24 := by
  rw [← coords7_1]; unfold k7_cond2; generalize grid7.coords t 1 = s; revert s; decide

section
variable (a : (pcfg7 (F := F)).Adm)
variable (A : (c : Dev nD) → (w : Fin (cfg7 a).W) → Buf (Elt F) (((cfg7 a).win w).arr.view.loc (c.tc : Thread nD τ)))

/-- A point whose successor lies in another group, or is past the end, is a group's last sample. -/
theorem flush7_last (t : Fin (cfg7 a).N) (h : ((cfg7 a).win 1).flush t = true) : t.val % 25 = 24 := by
  unfold Pipeline.Window.flush at h
  simp only [Bool.and_eq_true, Bool.or_eq_true, decide_eq_true_eq] at h
  obtain ⟨-, h | ⟨h', hne⟩⟩ := h
  · have := h.trans N_7; omega
  · by_contra hc
    apply hne
    show cc7_transform_1 (grid7.coords ⟨t.val + 1, h'⟩) = cc7_transform_1 (grid7.coords t)
    refine hreads7_1 _ _ fun b hb => ?_
    obtain rfl : b = 0 := by revert hb; revert b; decide
    apply Fin.ext
    rw [coords7_0, coords7_0]
    show (t.val + 1) / 25 % 1280 = t.val / 25 % 1280
    omega

/-- The feature row the table names at point t. -/
def row7 (c : Dev nD) (t : Fin (cfg7 a).N) : Vec F S1x1x128 .f32 :=
  (((cfg7 a).win 0).blk t).view.read (Elt F) (A c 0)

/-- The running sum after point n, restarted from zero at a group's first sample. -/
def acc7 (c : Dev nD) : (n : ℕ) → n < (cfg7 a).N → Vec F S1x1x128 .f32
  | 0, h => k7_pay2 (k7_pay1 (F := F)) (row7 a A c ⟨0, h⟩)
  | n + 1, h => k7_pay2 (if first7 (grid7.coords ⟨n + 1, h⟩) = 1#1 then k7_pay1 (F := F) else acc7 c n (Nat.lt_of_succ_lt h))
      (row7 a A c ⟨n + 1, h⟩)

/-- Before position k the accumulator holds the running sum of the point before (anything before the first point). -/
def Phi7 (c : Dev nD) (k : ℕ) : sProp 𝕄 :=
  iprop((∃ X : Vec F S1x1x128 .f32, ⌜∀ n (h : n < (cfg7 a).N), k = n + 1 → X = acc7 a A c n h⌝
      ∗ owns (c : Thread nD τ) (Memref.whole cc7_scratch0) fullShare X)
    ∗ Pipeline.scopedRestBut (Ix := Unit) (Name := ℕ) (U := UR sig nD τ) (Lvl := ℕ) (Val := Elt F) spec7 c [cc7_scratch0]
    ∗ (∃ r, prngReg c r)
    ∗ Pipeline.prefHeld (Ix := Unit) (Name := ℕ) (U := UR sig nD τ) (Lvl := ℕ) pre7 c (fun _ => fullShare) a.1)

/-- What each point leaves: the named row on the input side, the group's scaled sum on the output side. -/
def dat7 (c : Dev nD) : Dat τ (Elt F) Unit ℕ (UR sig nD τ) ℕ (cfg7 a) c where
  A w := A c w
  after w t := match w with
    | ⟨0, _⟩ => row7 a A c t
    | ⟨1, _⟩ => k7_pay3 (acc7 a A c t.val t.isLt)
  Φ t := Phi7 a A c t.val
  q _ := fullShare
  owed _ := 0

theorem A_eq7 (c : Dev nD) (w : Fin (cfg7 a).W) : (dat7 a A c).A w = A c w := rfl
theorem after7_0 (c : Dev nD) (t : Fin (cfg7 a).N) : (dat7 a A c).after 0 t = row7 a A c t := rfl
theorem after7_1 (c : Dev nD) (t : Fin (cfg7 a).N) : (dat7 a A c).after 1 t = k7_pay3 (acc7 a A c t.val t.isLt) := rfl

theorem Phi7_castSucc (c : Dev nD) (t : Fin (cfg7 a).N) : (dat7 a A c).Φ t.castSucc = Phi7 a A c t.val := by
  dsimp only [dat7]; simp only [Fin.coe_castSucc]
theorem Phi7_succ (c : Dev nD) (t : Fin (cfg7 a).N) : (dat7 a A c).Φ t.succ = Phi7 a A c (t.val + 1) := rfl

theorem before7_0 (c : Dev nD) (t : Fin (cfg7 a).N) (d) : (dat7 a A c).before 0 t d = row7 a A c t :=
  ((dat7 a A c).before_in_eq_fetched 0 rfl (fun _ => rfl) (fun _ _ _ => rfl) (fun t => by rw [after7_0]; rfl) t d).trans rfl

end

/-- What a point leaves in the accumulator: the row added to zero at a first sample, to what was there otherwise. -/
def step7 (i : grid7.Coords) (X row : Vec F S1x1x128 .f32) : Vec F S1x1x128 .f32 :=
  k7_pay2 (if first7 i = 1#1 then k7_pay1 (F := F) else X) row

section
variable (a : (pcfg7 (F := F)).Adm)
variable (A : (c : Dev nD) → (w : Fin (cfg7 a).W) → Buf (Elt F) (((cfg7 a).win w).arr.view.loc (c.tc : Thread nD τ)))

/-- One step from what the invariant holds is the running sum at the point. -/
theorem step7_acc (c : Dev nD) (t : Fin (cfg7 a).N) (X : Vec F S1x1x128 .f32)
    (hX : ∀ n (h : n < (cfg7 a).N), t.val = n + 1 → X = acc7 a A c n h) :
    step7 (grid7.coords t) X (row7 a A c t) = acc7 a A c t.val t.isLt := by
  obtain ⟨n, hn⟩ := t
  cases n with
  | zero => unfold step7 acc7; rw [if_pos ((first7_at ⟨0, hn⟩).mpr rfl)]
  | succ n => unfold step7; rw [hX n (Nat.lt_of_succ_lt hn) rfl]; rfl

set_option maxHeartbeats 1000000 in
/-- Every point's run of the body keeps the invariant. -/
theorem body_obligation7 (c : Dev nD) : BodyObligation (dat7 a A c) (defs₀ (F := F)) Variants.none () Set.univ := fun t => by
  rw [bigSep_W7, bigSep_W7]
  rw [show (dat7 a A c).owesAt () t.succ = (dat7 a A c).owesAt () t.castSucc from rfl, Phi7_castSucc, Phi7_succ]
  show _ ⊢ wp frame _ Set.univ (cc3_kernel (grid7.coords t) (Memref.whole main_v52) (Memref.isWhole_whole _)
    (spec7_0.stage ((cfg7 a).slots t 0)) (hstage7_0 (((cfg7 a).slots t 0).cast nbuf7_0))
    (spec7_1.stage ((cfg7 a).slots t 1)) (hstage7_1 (((cfg7 a).slots t 1).cast nbuf7_1))
    (Memref.whole cc7_scratch0) (Memref.isWhole_whole _)) _
  have hf : k7_cond2 (grid7.coords t) ≠ 1#1 → ((pcfg7 (F := F)).win a 1).flush t = false := fun hl => by
    rw [← Bool.not_eq_true]; exact fun h => hl ((last7_at t).mpr (flush7_last a t h))
  by_cases hl : k7_cond2 (grid7.coords t) = 1#1
  all_goals
    have hi : idle7 1 (((pcfg7 (F := F)).gridAt a.1).coords t) = !decide (k7_cond2 (grid7.coords t) = 1#1) := by
      show (!(k7_cond2 (grid7.coords t) == 1#1)) = _
      first | (rw [hl]; rfl) | (rw [decide_eq_false hl, Bool.not_false, Bool.not_eq_true', beq_eq_false_iff_ne]; exact hl)
    first | rw [decide_eq_true hl, Bool.not_true] at hi | rw [decide_eq_false hl, Bool.not_false] at hi
    simp only [hi, after7_0, after7_1]
    iintro ⟨HΦ, Ho, ⟨%d0, H0⟩, ⟨%d1, H1⟩⟩
    rw [before7_0 a A c t d0]
    unfold Phi7
    icases HΦ with ⟨⟨%X, %hX, Hs⟩, Hrest, Hprng, Htbl⟩
    iapply (body3 c Set.univ (grid7.coords t) _ _ _ _ _ _ _ _ (row7 a A c t) X ((dat7 a A c).before 1 t d1)
      (acc7 a A c t.val t.isLt) _ (step7_acc a A c t X hX) (by first | exact if_pos hl | exact if_neg hl) _)
    iframe H0 Hs H1
    iintro ⟨H0, Hs, H1⟩
    iframe Ho H0 Hrest Hprng Htbl
    isplitl [Hs]
    · iexists _; isplitr; swap; · iexact Hs
      ipureintro; intro n h e
      obtain rfl : n = t.val := by omega
      rfl
    first
      | iexact H1
      | (split
         · iexists d1; iexact H1
         · rename_i hft; exact absurd (hft.symm.trans (hf hl)) (by decide))

end

/-- Entries below the feature table's height name rows inside it. -/
theorem ok7_of_inb (pf : pre7.Contents (Elt F)) (h : ∀ k, ((pf 0) k).toNat < 500000) : ok7 (F := F) pf := by
  intro i
  refine ⟨fun b => ?_, Or.inl rfl⟩
  match b with
  | ⟨0, _⟩ =>
    have hh : cc7_transform_0 k7_off1_inb numel1_S1 pf i ⟨0, by decide⟩ < 500000 := h _
    show (cc7_transform_0 k7_off1_inb numel1_S1 pf i ⟨0, _⟩ + 1) * 1 ≤ 500000
    omega
  | ⟨1, _⟩ => show (0 + 1) * 1 ≤ 1; decide
  | ⟨2, _⟩ => show (0 + 1) * 128 ≤ 128; decide
  | ⟨_ + 3, hb⟩ => exact absurd hb (by omega)

section Reg
variable (a : (p : Fin 14) → (pcfgs (F := F) p).Adm)
variable (pdats : (p : Fin 14) → (c : Dev nD) → Dat τ (Elt F) Unit ℕ (UR sig nD τ) ℕ (Pipeline.pin (pcfgs (F := F)) a p) c)
variable (A : (c : Dev nD) → (w : Fin (cfg7 (a 7)).W) → Buf (Elt F) (((cfg7 (a 7)).win w).arr.view.loc (c.tc : Thread nD τ)))
variable (Vin Vout : (c : Dev nD) → Valuation τ sig (Elt F))

set_option backward.isDefEq.respectTransparency.types false in
/-- The region as a step from the memory at Vin, which holds the table at the admissible contents, to the memory at Vout. -/
def reg7 (hpd : ∀ c, pdats 7 c = dat7 (a 7) A c)
    (hA : ∀ c w, A c w = Vin c (Pipeline.arrRef spec7 w))
    (hT : ∀ c, Vin c main_v52 = (a 7).1 0)
    (hF : ∀ c w, (dat7 (a 7) A c).arrAt w (cfg7 (a 7)).N = Vout c (Pipeline.arrRef spec7 w))
    (hrest : ∀ c (b : Ref sig .tc), b ∉ Finset.univ.image (Pipeline.arrRef spec7) → Vout c b = Vin c b) :
    Pipeline.RegionSeg (pcfgs (F := F)) a pdats () defs₀ Variants.none Lh lvh 7 :=
  seg (launch7 (F := F)) a pdats Vin Vout
    (fun c w => by rw [hpd c]; exact (dat7 (a 7) A c).share_full (fun _ => rfl) w)
    (fun c => funext fun (k : Fin 1) => by obtain rfl : k = 0 := Subsingleton.elim _ _; exact hT c)
    (fun c w => by rw [hpd c, A_eq7]; exact hA c w) (fun c w => by rw [hpd c]; exact hF c w) hrest
    (fun c _ => by rw [hpd c]; rfl) (fun c => by rw [hpd c]; rfl)
    (fun c => by rw [hpd c]; exact (body_obligation7 (a 7) A c).loose)
    (fun c => by
      rw [hpd c]
      show _ ⊢ Phi7 (a 7) A c 0
      unfold Phi7
      erw [scopedRest7_split]
      iintro ⟨Hreg, Htbl, ⟨%f, Hf⟩, Hbut⟩
      iframe Hbut Hreg
      isplitr [Htbl]; swap; · iexact Htbl
      iexists f; isplitr
      · ipureintro; intro n h e; exact absurd e (Nat.succ_ne_zero n).symm
      iapply (Entails.of_eq (owns_whole (c : Thread nD τ) cc7_scratch0 fullShare f).symm); iexact Hf)
    (fun c => by
      rw [Pipeline.ownSems0_none, hpd c]
      show Phi7 (a 7) A c (cfg7 (a 7)).N ⊢ _
      unfold Phi7
      erw [scopedRest7_split]
      iintro ⟨⟨%X, -, Hs⟩, Hbut, Hreg, Htbl⟩
      isplitl [Hreg Htbl]
      · isplitl [Hreg]; · iexact Hreg
        iexact Htbl
      isplitr; · iempintro
      isplitr [Hbut]; swap; · iexact Hbut
      iexists X; iapply (Entails.of_eq (owns_whole (c : Thread nD τ) cc7_scratch0 fullShare X)); iexact Hs)

end Reg

end Cert.Kernel.Hand

end
-- ==== Proof.Bits.Gather8.lean ====
import proofs.«401580_j65068754534945_2_alg».proof.Proof.Bits.Gather3

/-! One gather-and-mean region: groups of feature rows named by a table, summed in an accumulator that restarts at a group's first sample and is scaled into the output at its last. -/

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The restart test of the body, read off the sample coordinate. -/
abbrev first8 (i : grid8.Coords) : BitVec 1 :=
  Scalar.cmpi .ne (Scalar.extui (Scalar.cmpi .eq (BitVec.ofNat 32 (i 1).val) 0#32)) 0#32

/-- Point t is sample t % 25 of group t / 25. -/
theorem coords8_0 (t : Fin grid8.N) : (grid8.coords t 0).val = t.val / 25 % 1280 := by
  show t.val / grid8.stride 0 % _ = _; rw [show grid8.stride 0 = 25 by decide]; rfl
theorem coords8_1 (t : Fin grid8.N) : (grid8.coords t 1).val = t.val % 25 := by
  show t.val / grid8.stride 1 % _ = _; rw [show grid8.stride 1 = 1 by decide, Nat.div_one]; rfl

theorem first8_at (t : Fin grid8.N) : first8 (grid8.coords t) = 1#1 ↔ t.val % 25 = 0 := by
  rw [← coords8_1]; unfold first8; generalize grid8.coords t 1 = s; revert s; decide
theorem last8_at (t : Fin grid8.N) : k8_cond2 (grid8.coords t) = 1#1 ↔ t.val % 25 = 24 := by
  rw [← coords8_1]; unfold k8_cond2; generalize grid8.coords t 1 = s; revert s; decide

section
variable (a : (pcfg8 (F := F)).Adm)
variable (A : (c : Dev nD) → (w : Fin (cfg8 a).W) → Buf (Elt F) (((cfg8 a).win w).arr.view.loc (c.tc : Thread nD τ)))

/-- A point whose successor lies in another group, or is past the end, is a group's last sample. -/
theorem flush8_last (t : Fin (cfg8 a).N) (h : ((cfg8 a).win 1).flush t = true) : t.val % 25 = 24 := by
  unfold Pipeline.Window.flush at h
  simp only [Bool.and_eq_true, Bool.or_eq_true, decide_eq_true_eq] at h
  obtain ⟨-, h | ⟨h', hne⟩⟩ := h
  · have := h.trans N_8; omega
  · by_contra hc
    apply hne
    show cc8_transform_1 (grid8.coords ⟨t.val + 1, h'⟩) = cc8_transform_1 (grid8.coords t)
    refine hreads8_1 _ _ fun b hb => ?_
    obtain rfl : b = 0 := by revert hb; revert b; decide
    apply Fin.ext
    rw [coords8_0, coords8_0]
    show (t.val + 1) / 25 % 1280 = t.val / 25 % 1280
    omega

/-- The feature row the table names at point t. -/
def row8 (c : Dev nD) (t : Fin (cfg8 a).N) : Vec F S1x1x128 .f32 :=
  (((cfg8 a).win 0).blk t).view.read (Elt F) (A c 0)

/-- The running sum after point n, restarted from zero at a group's first sample. -/
def acc8 (c : Dev nD) : (n : ℕ) → n < (cfg8 a).N → Vec F S1x1x128 .f32
  | 0, h => k8_pay2 (k8_pay1 (F := F)) (row8 a A c ⟨0, h⟩)
  | n + 1, h => k8_pay2 (if first8 (grid8.coords ⟨n + 1, h⟩) = 1#1 then k8_pay1 (F := F) else acc8 c n (Nat.lt_of_succ_lt h))
      (row8 a A c ⟨n + 1, h⟩)

/-- Before position k the accumulator holds the running sum of the point before (anything before the first point). -/
def Phi8 (c : Dev nD) (k : ℕ) : sProp 𝕄 :=
  iprop((∃ X : Vec F S1x1x128 .f32, ⌜∀ n (h : n < (cfg8 a).N), k = n + 1 → X = acc8 a A c n h⌝
      ∗ owns (c : Thread nD τ) (Memref.whole cc8_scratch0) fullShare X)
    ∗ Pipeline.scopedRestBut (Ix := Unit) (Name := ℕ) (U := UR sig nD τ) (Lvl := ℕ) (Val := Elt F) spec8 c [cc8_scratch0]
    ∗ (∃ r, prngReg c r)
    ∗ Pipeline.prefHeld (Ix := Unit) (Name := ℕ) (U := UR sig nD τ) (Lvl := ℕ) pre8 c (fun _ => fullShare) a.1)

/-- What each point leaves: the named row on the input side, the group's scaled sum on the output side. -/
def dat8 (c : Dev nD) : Dat τ (Elt F) Unit ℕ (UR sig nD τ) ℕ (cfg8 a) c where
  A w := A c w
  after w t := match w with
    | ⟨0, _⟩ => row8 a A c t
    | ⟨1, _⟩ => k8_pay3 (acc8 a A c t.val t.isLt)
  Φ t := Phi8 a A c t.val
  q _ := fullShare
  owed _ := 0

theorem A_eq8 (c : Dev nD) (w : Fin (cfg8 a).W) : (dat8 a A c).A w = A c w := rfl
theorem after8_0 (c : Dev nD) (t : Fin (cfg8 a).N) : (dat8 a A c).after 0 t = row8 a A c t := rfl
theorem after8_1 (c : Dev nD) (t : Fin (cfg8 a).N) : (dat8 a A c).after 1 t = k8_pay3 (acc8 a A c t.val t.isLt) := rfl

theorem Phi8_castSucc (c : Dev nD) (t : Fin (cfg8 a).N) : (dat8 a A c).Φ t.castSucc = Phi8 a A c t.val := by
  dsimp only [dat8]; simp only [Fin.coe_castSucc]
theorem Phi8_succ (c : Dev nD) (t : Fin (cfg8 a).N) : (dat8 a A c).Φ t.succ = Phi8 a A c (t.val + 1) := rfl

theorem before8_0 (c : Dev nD) (t : Fin (cfg8 a).N) (d) : (dat8 a A c).before 0 t d = row8 a A c t :=
  ((dat8 a A c).before_in_eq_fetched 0 rfl (fun _ => rfl) (fun _ _ _ => rfl) (fun t => by rw [after8_0]; rfl) t d).trans rfl

end

/-- What a point leaves in the accumulator: the row added to zero at a first sample, to what was there otherwise. -/
def step8 (i : grid8.Coords) (X row : Vec F S1x1x128 .f32) : Vec F S1x1x128 .f32 :=
  k8_pay2 (if first8 i = 1#1 then k8_pay1 (F := F) else X) row

section
variable (a : (pcfg8 (F := F)).Adm)
variable (A : (c : Dev nD) → (w : Fin (cfg8 a).W) → Buf (Elt F) (((cfg8 a).win w).arr.view.loc (c.tc : Thread nD τ)))

/-- One step from what the invariant holds is the running sum at the point. -/
theorem step8_acc (c : Dev nD) (t : Fin (cfg8 a).N) (X : Vec F S1x1x128 .f32)
    (hX : ∀ n (h : n < (cfg8 a).N), t.val = n + 1 → X = acc8 a A c n h) :
    step8 (grid8.coords t) X (row8 a A c t) = acc8 a A c t.val t.isLt := by
  obtain ⟨n, hn⟩ := t
  cases n with
  | zero => unfold step8 acc8; rw [if_pos ((first8_at ⟨0, hn⟩).mpr rfl)]
  | succ n => unfold step8; rw [hX n (Nat.lt_of_succ_lt hn) rfl]; rfl

set_option maxHeartbeats 1000000 in
/-- Every point's run of the body keeps the invariant. -/
theorem body_obligation8 (c : Dev nD) : BodyObligation (dat8 a A c) (defs₀ (F := F)) Variants.none () Set.univ := fun t => by
  rw [bigSep_W8, bigSep_W8]
  rw [show (dat8 a A c).owesAt () t.succ = (dat8 a A c).owesAt () t.castSucc from rfl, Phi8_castSucc, Phi8_succ]
  show _ ⊢ wp frame _ Set.univ (cc3_kernel (grid8.coords t) (Memref.whole main_v56) (Memref.isWhole_whole _)
    (spec8_0.stage ((cfg8 a).slots t 0)) (hstage8_0 (((cfg8 a).slots t 0).cast nbuf8_0))
    (spec8_1.stage ((cfg8 a).slots t 1)) (hstage8_1 (((cfg8 a).slots t 1).cast nbuf8_1))
    (Memref.whole cc8_scratch0) (Memref.isWhole_whole _)) _
  have hf : k8_cond2 (grid8.coords t) ≠ 1#1 → ((pcfg8 (F := F)).win a 1).flush t = false := fun hl => by
    rw [← Bool.not_eq_true]; exact fun h => hl ((last8_at t).mpr (flush8_last a t h))
  by_cases hl : k8_cond2 (grid8.coords t) = 1#1
  all_goals
    have hi : idle8 1 (((pcfg8 (F := F)).gridAt a.1).coords t) = !decide (k8_cond2 (grid8.coords t) = 1#1) := by
      show (!(k8_cond2 (grid8.coords t) == 1#1)) = _
      first | (rw [hl]; rfl) | (rw [decide_eq_false hl, Bool.not_false, Bool.not_eq_true', beq_eq_false_iff_ne]; exact hl)
    first | rw [decide_eq_true hl, Bool.not_true] at hi | rw [decide_eq_false hl, Bool.not_false] at hi
    simp only [hi, after8_0, after8_1]
    iintro ⟨HΦ, Ho, ⟨%d0, H0⟩, ⟨%d1, H1⟩⟩
    rw [before8_0 a A c t d0]
    unfold Phi8
    icases HΦ with ⟨⟨%X, %hX, Hs⟩, Hrest, Hprng, Htbl⟩
    iapply (body3 c Set.univ (grid8.coords t) _ _ _ _ _ _ _ _ (row8 a A c t) X ((dat8 a A c).before 1 t d1)
      (acc8 a A c t.val t.isLt) _ (step8_acc a A c t X hX) (by first | exact if_pos hl | exact if_neg hl) _)
    iframe H0 Hs H1
    iintro ⟨H0, Hs, H1⟩
    iframe Ho H0 Hrest Hprng Htbl
    isplitl [Hs]
    · iexists _; isplitr; swap; · iexact Hs
      ipureintro; intro n h e
      obtain rfl : n = t.val := by omega
      rfl
    first
      | iexact H1
      | (split
         · iexists d1; iexact H1
         · rename_i hft; exact absurd (hft.symm.trans (hf hl)) (by decide))

end

/-- Entries below the feature table's height name rows inside it. -/
theorem ok8_of_inb (pf : pre8.Contents (Elt F)) (h : ∀ k, ((pf 0) k).toNat < 500000) : ok8 (F := F) pf := by
  intro i
  refine ⟨fun b => ?_, Or.inl rfl⟩
  match b with
  | ⟨0, _⟩ =>
    have hh : cc8_transform_0 k8_off1_inb numel1_S1 pf i ⟨0, by decide⟩ < 500000 := h _
    show (cc8_transform_0 k8_off1_inb numel1_S1 pf i ⟨0, _⟩ + 1) * 1 ≤ 500000
    omega
  | ⟨1, _⟩ => show (0 + 1) * 1 ≤ 1; decide
  | ⟨2, _⟩ => show (0 + 1) * 128 ≤ 128; decide
  | ⟨_ + 3, hb⟩ => exact absurd hb (by omega)

section Reg
variable (a : (p : Fin 14) → (pcfgs (F := F) p).Adm)
variable (pdats : (p : Fin 14) → (c : Dev nD) → Dat τ (Elt F) Unit ℕ (UR sig nD τ) ℕ (Pipeline.pin (pcfgs (F := F)) a p) c)
variable (A : (c : Dev nD) → (w : Fin (cfg8 (a 8)).W) → Buf (Elt F) (((cfg8 (a 8)).win w).arr.view.loc (c.tc : Thread nD τ)))
variable (Vin Vout : (c : Dev nD) → Valuation τ sig (Elt F))

set_option backward.isDefEq.respectTransparency.types false in
/-- The region as a step from the memory at Vin, which holds the table at the admissible contents, to the memory at Vout. -/
def reg8 (hpd : ∀ c, pdats 8 c = dat8 (a 8) A c)
    (hA : ∀ c w, A c w = Vin c (Pipeline.arrRef spec8 w))
    (hT : ∀ c, Vin c main_v56 = (a 8).1 0)
    (hF : ∀ c w, (dat8 (a 8) A c).arrAt w (cfg8 (a 8)).N = Vout c (Pipeline.arrRef spec8 w))
    (hrest : ∀ c (b : Ref sig .tc), b ∉ Finset.univ.image (Pipeline.arrRef spec8) → Vout c b = Vin c b) :
    Pipeline.RegionSeg (pcfgs (F := F)) a pdats () defs₀ Variants.none Lh lvh 8 :=
  seg (launch8 (F := F)) a pdats Vin Vout
    (fun c w => by rw [hpd c]; exact (dat8 (a 8) A c).share_full (fun _ => rfl) w)
    (fun c => funext fun (k : Fin 1) => by obtain rfl : k = 0 := Subsingleton.elim _ _; exact hT c)
    (fun c w => by rw [hpd c, A_eq8]; exact hA c w) (fun c w => by rw [hpd c]; exact hF c w) hrest
    (fun c _ => by rw [hpd c]; rfl) (fun c => by rw [hpd c]; rfl)
    (fun c => by rw [hpd c]; exact (body_obligation8 (a 8) A c).loose)
    (fun c => by
      rw [hpd c]
      show _ ⊢ Phi8 (a 8) A c 0
      unfold Phi8
      erw [scopedRest8_split]
      iintro ⟨Hreg, Htbl, ⟨%f, Hf⟩, Hbut⟩
      iframe Hbut Hreg
      isplitr [Htbl]; swap; · iexact Htbl
      iexists f; isplitr
      · ipureintro; intro n h e; exact absurd e (Nat.succ_ne_zero n).symm
      iapply (Entails.of_eq (owns_whole (c : Thread nD τ) cc8_scratch0 fullShare f).symm); iexact Hf)
    (fun c => by
      rw [Pipeline.ownSems0_none, hpd c]
      show Phi8 (a 8) A c (cfg8 (a 8)).N ⊢ _
      unfold Phi8
      erw [scopedRest8_split]
      iintro ⟨⟨%X, -, Hs⟩, Hbut, Hreg, Htbl⟩
      isplitl [Hreg Htbl]
      · isplitl [Hreg]; · iexact Hreg
        iexact Htbl
      isplitr; · iempintro
      isplitr [Hbut]; swap; · iexact Hbut
      iexists X; iapply (Entails.of_eq (owns_whole (c : Thread nD τ) cc8_scratch0 fullShare X)); iexact Hs)

end Reg

end Cert.Kernel.Hand

end
-- ==== Proof.Bits.Gather9.lean ====
import proofs.«401580_j65068754534945_2_alg».proof.Proof.Bits.Gather3

/-! One gather-and-mean region: groups of feature rows named by a table, summed in an accumulator that restarts at a group's first sample and is scaled into the output at its last. -/

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The restart test of the body, read off the sample coordinate. -/
abbrev first9 (i : grid9.Coords) : BitVec 1 :=
  Scalar.cmpi .ne (Scalar.extui (Scalar.cmpi .eq (BitVec.ofNat 32 (i 1).val) 0#32)) 0#32

/-- Point t is sample t % 25 of group t / 25. -/
theorem coords9_0 (t : Fin grid9.N) : (grid9.coords t 0).val = t.val / 25 % 1280 := by
  show t.val / grid9.stride 0 % _ = _; rw [show grid9.stride 0 = 25 by decide]; rfl
theorem coords9_1 (t : Fin grid9.N) : (grid9.coords t 1).val = t.val % 25 := by
  show t.val / grid9.stride 1 % _ = _; rw [show grid9.stride 1 = 1 by decide, Nat.div_one]; rfl

theorem first9_at (t : Fin grid9.N) : first9 (grid9.coords t) = 1#1 ↔ t.val % 25 = 0 := by
  rw [← coords9_1]; unfold first9; generalize grid9.coords t 1 = s; revert s; decide
theorem last9_at (t : Fin grid9.N) : k9_cond2 (grid9.coords t) = 1#1 ↔ t.val % 25 = 24 := by
  rw [← coords9_1]; unfold k9_cond2; generalize grid9.coords t 1 = s; revert s; decide

section
variable (a : (pcfg9 (F := F)).Adm)
variable (A : (c : Dev nD) → (w : Fin (cfg9 a).W) → Buf (Elt F) (((cfg9 a).win w).arr.view.loc (c.tc : Thread nD τ)))

/-- A point whose successor lies in another group, or is past the end, is a group's last sample. -/
theorem flush9_last (t : Fin (cfg9 a).N) (h : ((cfg9 a).win 1).flush t = true) : t.val % 25 = 24 := by
  unfold Pipeline.Window.flush at h
  simp only [Bool.and_eq_true, Bool.or_eq_true, decide_eq_true_eq] at h
  obtain ⟨-, h | ⟨h', hne⟩⟩ := h
  · have := h.trans N_9; omega
  · by_contra hc
    apply hne
    show cc9_transform_1 (grid9.coords ⟨t.val + 1, h'⟩) = cc9_transform_1 (grid9.coords t)
    refine hreads9_1 _ _ fun b hb => ?_
    obtain rfl : b = 0 := by revert hb; revert b; decide
    apply Fin.ext
    rw [coords9_0, coords9_0]
    show (t.val + 1) / 25 % 1280 = t.val / 25 % 1280
    omega

/-- The feature row the table names at point t. -/
def row9 (c : Dev nD) (t : Fin (cfg9 a).N) : Vec F S1x1x128 .f32 :=
  (((cfg9 a).win 0).blk t).view.read (Elt F) (A c 0)

/-- The running sum after point n, restarted from zero at a group's first sample. -/
def acc9 (c : Dev nD) : (n : ℕ) → n < (cfg9 a).N → Vec F S1x1x128 .f32
  | 0, h => k9_pay2 (k9_pay1 (F := F)) (row9 a A c ⟨0, h⟩)
  | n + 1, h => k9_pay2 (if first9 (grid9.coords ⟨n + 1, h⟩) = 1#1 then k9_pay1 (F := F) else acc9 c n (Nat.lt_of_succ_lt h))
      (row9 a A c ⟨n + 1, h⟩)

/-- Before position k the accumulator holds the running sum of the point before (anything before the first point). -/
def Phi9 (c : Dev nD) (k : ℕ) : sProp 𝕄 :=
  iprop((∃ X : Vec F S1x1x128 .f32, ⌜∀ n (h : n < (cfg9 a).N), k = n + 1 → X = acc9 a A c n h⌝
      ∗ owns (c : Thread nD τ) (Memref.whole cc9_scratch0) fullShare X)
    ∗ Pipeline.scopedRestBut (Ix := Unit) (Name := ℕ) (U := UR sig nD τ) (Lvl := ℕ) (Val := Elt F) spec9 c [cc9_scratch0]
    ∗ (∃ r, prngReg c r)
    ∗ Pipeline.prefHeld (Ix := Unit) (Name := ℕ) (U := UR sig nD τ) (Lvl := ℕ) pre9 c (fun _ => fullShare) a.1)

/-- What each point leaves: the named row on the input side, the group's scaled sum on the output side. -/
def dat9 (c : Dev nD) : Dat τ (Elt F) Unit ℕ (UR sig nD τ) ℕ (cfg9 a) c where
  A w := A c w
  after w t := match w with
    | ⟨0, _⟩ => row9 a A c t
    | ⟨1, _⟩ => k9_pay3 (acc9 a A c t.val t.isLt)
  Φ t := Phi9 a A c t.val
  q _ := fullShare
  owed _ := 0

theorem A_eq9 (c : Dev nD) (w : Fin (cfg9 a).W) : (dat9 a A c).A w = A c w := rfl
theorem after9_0 (c : Dev nD) (t : Fin (cfg9 a).N) : (dat9 a A c).after 0 t = row9 a A c t := rfl
theorem after9_1 (c : Dev nD) (t : Fin (cfg9 a).N) : (dat9 a A c).after 1 t = k9_pay3 (acc9 a A c t.val t.isLt) := rfl

theorem Phi9_castSucc (c : Dev nD) (t : Fin (cfg9 a).N) : (dat9 a A c).Φ t.castSucc = Phi9 a A c t.val := by
  dsimp only [dat9]; simp only [Fin.coe_castSucc]
theorem Phi9_succ (c : Dev nD) (t : Fin (cfg9 a).N) : (dat9 a A c).Φ t.succ = Phi9 a A c (t.val + 1) := rfl

theorem before9_0 (c : Dev nD) (t : Fin (cfg9 a).N) (d) : (dat9 a A c).before 0 t d = row9 a A c t :=
  ((dat9 a A c).before_in_eq_fetched 0 rfl (fun _ => rfl) (fun _ _ _ => rfl) (fun t => by rw [after9_0]; rfl) t d).trans rfl

end

/-- What a point leaves in the accumulator: the row added to zero at a first sample, to what was there otherwise. -/
def step9 (i : grid9.Coords) (X row : Vec F S1x1x128 .f32) : Vec F S1x1x128 .f32 :=
  k9_pay2 (if first9 i = 1#1 then k9_pay1 (F := F) else X) row

section
variable (a : (pcfg9 (F := F)).Adm)
variable (A : (c : Dev nD) → (w : Fin (cfg9 a).W) → Buf (Elt F) (((cfg9 a).win w).arr.view.loc (c.tc : Thread nD τ)))

/-- One step from what the invariant holds is the running sum at the point. -/
theorem step9_acc (c : Dev nD) (t : Fin (cfg9 a).N) (X : Vec F S1x1x128 .f32)
    (hX : ∀ n (h : n < (cfg9 a).N), t.val = n + 1 → X = acc9 a A c n h) :
    step9 (grid9.coords t) X (row9 a A c t) = acc9 a A c t.val t.isLt := by
  obtain ⟨n, hn⟩ := t
  cases n with
  | zero => unfold step9 acc9; rw [if_pos ((first9_at ⟨0, hn⟩).mpr rfl)]
  | succ n => unfold step9; rw [hX n (Nat.lt_of_succ_lt hn) rfl]; rfl

set_option maxHeartbeats 1000000 in
/-- Every point's run of the body keeps the invariant. -/
theorem body_obligation9 (c : Dev nD) : BodyObligation (dat9 a A c) (defs₀ (F := F)) Variants.none () Set.univ := fun t => by
  rw [bigSep_W9, bigSep_W9]
  rw [show (dat9 a A c).owesAt () t.succ = (dat9 a A c).owesAt () t.castSucc from rfl, Phi9_castSucc, Phi9_succ]
  show _ ⊢ wp frame _ Set.univ (cc3_kernel (grid9.coords t) (Memref.whole main_v60) (Memref.isWhole_whole _)
    (spec9_0.stage ((cfg9 a).slots t 0)) (hstage9_0 (((cfg9 a).slots t 0).cast nbuf9_0))
    (spec9_1.stage ((cfg9 a).slots t 1)) (hstage9_1 (((cfg9 a).slots t 1).cast nbuf9_1))
    (Memref.whole cc9_scratch0) (Memref.isWhole_whole _)) _
  have hf : k9_cond2 (grid9.coords t) ≠ 1#1 → ((pcfg9 (F := F)).win a 1).flush t = false := fun hl => by
    rw [← Bool.not_eq_true]; exact fun h => hl ((last9_at t).mpr (flush9_last a t h))
  by_cases hl : k9_cond2 (grid9.coords t) = 1#1
  all_goals
    have hi : idle9 1 (((pcfg9 (F := F)).gridAt a.1).coords t) = !decide (k9_cond2 (grid9.coords t) = 1#1) := by
      show (!(k9_cond2 (grid9.coords t) == 1#1)) = _
      first | (rw [hl]; rfl) | (rw [decide_eq_false hl, Bool.not_false, Bool.not_eq_true', beq_eq_false_iff_ne]; exact hl)
    first | rw [decide_eq_true hl, Bool.not_true] at hi | rw [decide_eq_false hl, Bool.not_false] at hi
    simp only [hi, after9_0, after9_1]
    iintro ⟨HΦ, Ho, ⟨%d0, H0⟩, ⟨%d1, H1⟩⟩
    rw [before9_0 a A c t d0]
    unfold Phi9
    icases HΦ with ⟨⟨%X, %hX, Hs⟩, Hrest, Hprng, Htbl⟩
    iapply (body3 c Set.univ (grid9.coords t) _ _ _ _ _ _ _ _ (row9 a A c t) X ((dat9 a A c).before 1 t d1)
      (acc9 a A c t.val t.isLt) _ (step9_acc a A c t X hX) (by first | exact if_pos hl | exact if_neg hl) _)
    iframe H0 Hs H1
    iintro ⟨H0, Hs, H1⟩
    iframe Ho H0 Hrest Hprng Htbl
    isplitl [Hs]
    · iexists _; isplitr; swap; · iexact Hs
      ipureintro; intro n h e
      obtain rfl : n = t.val := by omega
      rfl
    first
      | iexact H1
      | (split
         · iexists d1; iexact H1
         · rename_i hft; exact absurd (hft.symm.trans (hf hl)) (by decide))

end

/-- Entries below the feature table's height name rows inside it. -/
theorem ok9_of_inb (pf : pre9.Contents (Elt F)) (h : ∀ k, ((pf 0) k).toNat < 500000) : ok9 (F := F) pf := by
  intro i
  refine ⟨fun b => ?_, Or.inl rfl⟩
  match b with
  | ⟨0, _⟩ =>
    have hh : cc9_transform_0 k9_off1_inb numel1_S1 pf i ⟨0, by decide⟩ < 500000 := h _
    show (cc9_transform_0 k9_off1_inb numel1_S1 pf i ⟨0, _⟩ + 1) * 1 ≤ 500000
    omega
  | ⟨1, _⟩ => show (0 + 1) * 1 ≤ 1; decide
  | ⟨2, _⟩ => show (0 + 1) * 128 ≤ 128; decide
  | ⟨_ + 3, hb⟩ => exact absurd hb (by omega)

section Reg
variable (a : (p : Fin 14) → (pcfgs (F := F) p).Adm)
variable (pdats : (p : Fin 14) → (c : Dev nD) → Dat τ (Elt F) Unit ℕ (UR sig nD τ) ℕ (Pipeline.pin (pcfgs (F := F)) a p) c)
variable (A : (c : Dev nD) → (w : Fin (cfg9 (a 9)).W) → Buf (Elt F) (((cfg9 (a 9)).win w).arr.view.loc (c.tc : Thread nD τ)))
variable (Vin Vout : (c : Dev nD) → Valuation τ sig (Elt F))

set_option backward.isDefEq.respectTransparency.types false in
/-- The region as a step from the memory at Vin, which holds the table at the admissible contents, to the memory at Vout. -/
def reg9 (hpd : ∀ c, pdats 9 c = dat9 (a 9) A c)
    (hA : ∀ c w, A c w = Vin c (Pipeline.arrRef spec9 w))
    (hT : ∀ c, Vin c main_v60 = (a 9).1 0)
    (hF : ∀ c w, (dat9 (a 9) A c).arrAt w (cfg9 (a 9)).N = Vout c (Pipeline.arrRef spec9 w))
    (hrest : ∀ c (b : Ref sig .tc), b ∉ Finset.univ.image (Pipeline.arrRef spec9) → Vout c b = Vin c b) :
    Pipeline.RegionSeg (pcfgs (F := F)) a pdats () defs₀ Variants.none Lh lvh 9 :=
  seg (launch9 (F := F)) a pdats Vin Vout
    (fun c w => by rw [hpd c]; exact (dat9 (a 9) A c).share_full (fun _ => rfl) w)
    (fun c => funext fun (k : Fin 1) => by obtain rfl : k = 0 := Subsingleton.elim _ _; exact hT c)
    (fun c w => by rw [hpd c, A_eq9]; exact hA c w) (fun c w => by rw [hpd c]; exact hF c w) hrest
    (fun c _ => by rw [hpd c]; rfl) (fun c => by rw [hpd c]; rfl)
    (fun c => by rw [hpd c]; exact (body_obligation9 (a 9) A c).loose)
    (fun c => by
      rw [hpd c]
      show _ ⊢ Phi9 (a 9) A c 0
      unfold Phi9
      erw [scopedRest9_split]
      iintro ⟨Hreg, Htbl, ⟨%f, Hf⟩, Hbut⟩
      iframe Hbut Hreg
      isplitr [Htbl]; swap; · iexact Htbl
      iexists f; isplitr
      · ipureintro; intro n h e; exact absurd e (Nat.succ_ne_zero n).symm
      iapply (Entails.of_eq (owns_whole (c : Thread nD τ) cc9_scratch0 fullShare f).symm); iexact Hf)
    (fun c => by
      rw [Pipeline.ownSems0_none, hpd c]
      show Phi9 (a 9) A c (cfg9 (a 9)).N ⊢ _
      unfold Phi9
      erw [scopedRest9_split]
      iintro ⟨⟨%X, -, Hs⟩, Hbut, Hreg, Htbl⟩
      isplitl [Hreg Htbl]
      · isplitl [Hreg]; · iexact Hreg
        iexact Htbl
      isplitr; · iempintro
      isplitr [Hbut]; swap; · iexact Hbut
      iexists X; iapply (Entails.of_eq (owns_whole (c : Thread nD τ) cc9_scratch0 fullShare X)); iexact Hs)

end Reg

end Cert.Kernel.Hand

end
-- ==== Proof.Bits.Gather10.lean ====
import proofs.«401580_j65068754534945_2_alg».proof.Proof.Bits.Gather3

/-! One gather-and-mean region: groups of feature rows named by a table, summed in an accumulator that restarts at a group's first sample and is scaled into the output at its last. -/

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The restart test of the body, read off the sample coordinate. -/
abbrev first10 (i : grid10.Coords) : BitVec 1 :=
  Scalar.cmpi .ne (Scalar.extui (Scalar.cmpi .eq (BitVec.ofNat 32 (i 1).val) 0#32)) 0#32

/-- Point t is sample t % 25 of group t / 25. -/
theorem coords10_0 (t : Fin grid10.N) : (grid10.coords t 0).val = t.val / 25 % 1280 := by
  show t.val / grid10.stride 0 % _ = _; rw [show grid10.stride 0 = 25 by decide]; rfl
theorem coords10_1 (t : Fin grid10.N) : (grid10.coords t 1).val = t.val % 25 := by
  show t.val / grid10.stride 1 % _ = _; rw [show grid10.stride 1 = 1 by decide, Nat.div_one]; rfl

theorem first10_at (t : Fin grid10.N) : first10 (grid10.coords t) = 1#1 ↔ t.val % 25 = 0 := by
  rw [← coords10_1]; unfold first10; generalize grid10.coords t 1 = s; revert s; decide
theorem last10_at (t : Fin grid10.N) : k10_cond2 (grid10.coords t) = 1#1 ↔ t.val % 25 = 24 := by
  rw [← coords10_1]; unfold k10_cond2; generalize grid10.coords t 1 = s; revert s; decide

section
variable (a : (pcfg10 (F := F)).Adm)
variable (A : (c : Dev nD) → (w : Fin (cfg10 a).W) → Buf (Elt F) (((cfg10 a).win w).arr.view.loc (c.tc : Thread nD τ)))

/-- A point whose successor lies in another group, or is past the end, is a group's last sample. -/
theorem flush10_last (t : Fin (cfg10 a).N) (h : ((cfg10 a).win 1).flush t = true) : t.val % 25 = 24 := by
  unfold Pipeline.Window.flush at h
  simp only [Bool.and_eq_true, Bool.or_eq_true, decide_eq_true_eq] at h
  obtain ⟨-, h | ⟨h', hne⟩⟩ := h
  · have := h.trans N_10; omega
  · by_contra hc
    apply hne
    show cc10_transform_1 (grid10.coords ⟨t.val + 1, h'⟩) = cc10_transform_1 (grid10.coords t)
    refine hreads10_1 _ _ fun b hb => ?_
    obtain rfl : b = 0 := by revert hb; revert b; decide
    apply Fin.ext
    rw [coords10_0, coords10_0]
    show (t.val + 1) / 25 % 1280 = t.val / 25 % 1280
    omega

/-- The feature row the table names at point t. -/
def row10 (c : Dev nD) (t : Fin (cfg10 a).N) : Vec F S1x1x128 .f32 :=
  (((cfg10 a).win 0).blk t).view.read (Elt F) (A c 0)

/-- The running sum after point n, restarted from zero at a group's first sample. -/
def acc10 (c : Dev nD) : (n : ℕ) → n < (cfg10 a).N → Vec F S1x1x128 .f32
  | 0, h => k10_pay2 (k10_pay1 (F := F)) (row10 a A c ⟨0, h⟩)
  | n + 1, h => k10_pay2 (if first10 (grid10.coords ⟨n + 1, h⟩) = 1#1 then k10_pay1 (F := F) else acc10 c n (Nat.lt_of_succ_lt h))
      (row10 a A c ⟨n + 1, h⟩)

/-- Before position k the accumulator holds the running sum of the point before (anything before the first point). -/
def Phi10 (c : Dev nD) (k : ℕ) : sProp 𝕄 :=
  iprop((∃ X : Vec F S1x1x128 .f32, ⌜∀ n (h : n < (cfg10 a).N), k = n + 1 → X = acc10 a A c n h⌝
      ∗ owns (c : Thread nD τ) (Memref.whole cc10_scratch0) fullShare X)
    ∗ Pipeline.scopedRestBut (Ix := Unit) (Name := ℕ) (U := UR sig nD τ) (Lvl := ℕ) (Val := Elt F) spec10 c [cc10_scratch0]
    ∗ (∃ r, prngReg c r)
    ∗ Pipeline.prefHeld (Ix := Unit) (Name := ℕ) (U := UR sig nD τ) (Lvl := ℕ) pre10 c (fun _ => fullShare) a.1)

/-- What each point leaves: the named row on the input side, the group's scaled sum on the output side. -/
def dat10 (c : Dev nD) : Dat τ (Elt F) Unit ℕ (UR sig nD τ) ℕ (cfg10 a) c where
  A w := A c w
  after w t := match w with
    | ⟨0, _⟩ => row10 a A c t
    | ⟨1, _⟩ => k10_pay3 (acc10 a A c t.val t.isLt)
  Φ t := Phi10 a A c t.val
  q _ := fullShare
  owed _ := 0

theorem A_eq10 (c : Dev nD) (w : Fin (cfg10 a).W) : (dat10 a A c).A w = A c w := rfl
theorem after10_0 (c : Dev nD) (t : Fin (cfg10 a).N) : (dat10 a A c).after 0 t = row10 a A c t := rfl
theorem after10_1 (c : Dev nD) (t : Fin (cfg10 a).N) : (dat10 a A c).after 1 t = k10_pay3 (acc10 a A c t.val t.isLt) := rfl

theorem Phi10_castSucc (c : Dev nD) (t : Fin (cfg10 a).N) : (dat10 a A c).Φ t.castSucc = Phi10 a A c t.val := by
  dsimp only [dat10]; simp only [Fin.coe_castSucc]
theorem Phi10_succ (c : Dev nD) (t : Fin (cfg10 a).N) : (dat10 a A c).Φ t.succ = Phi10 a A c (t.val + 1) := rfl

theorem before10_0 (c : Dev nD) (t : Fin (cfg10 a).N) (d) : (dat10 a A c).before 0 t d = row10 a A c t :=
  ((dat10 a A c).before_in_eq_fetched 0 rfl (fun _ => rfl) (fun _ _ _ => rfl) (fun t => by rw [after10_0]; rfl) t d).trans rfl

end

/-- What a point leaves in the accumulator: the row added to zero at a first sample, to what was there otherwise. -/
def step10 (i : grid10.Coords) (X row : Vec F S1x1x128 .f32) : Vec F S1x1x128 .f32 :=
  k10_pay2 (if first10 i = 1#1 then k10_pay1 (F := F) else X) row

section
variable (a : (pcfg10 (F := F)).Adm)
variable (A : (c : Dev nD) → (w : Fin (cfg10 a).W) → Buf (Elt F) (((cfg10 a).win w).arr.view.loc (c.tc : Thread nD τ)))

/-- One step from what the invariant holds is the running sum at the point. -/
theorem step10_acc (c : Dev nD) (t : Fin (cfg10 a).N) (X : Vec F S1x1x128 .f32)
    (hX : ∀ n (h : n < (cfg10 a).N), t.val = n + 1 → X = acc10 a A c n h) :
    step10 (grid10.coords t) X (row10 a A c t) = acc10 a A c t.val t.isLt := by
  obtain ⟨n, hn⟩ := t
  cases n with
  | zero => unfold step10 acc10; rw [if_pos ((first10_at ⟨0, hn⟩).mpr rfl)]
  | succ n => unfold step10; rw [hX n (Nat.lt_of_succ_lt hn) rfl]; rfl

set_option maxHeartbeats 1000000 in
/-- Every point's run of the body keeps the invariant. -/
theorem body_obligation10 (c : Dev nD) : BodyObligation (dat10 a A c) (defs₀ (F := F)) Variants.none () Set.univ := fun t => by
  rw [bigSep_W10, bigSep_W10]
  rw [show (dat10 a A c).owesAt () t.succ = (dat10 a A c).owesAt () t.castSucc from rfl, Phi10_castSucc, Phi10_succ]
  show _ ⊢ wp frame _ Set.univ (cc3_kernel (grid10.coords t) (Memref.whole main_v64) (Memref.isWhole_whole _)
    (spec10_0.stage ((cfg10 a).slots t 0)) (hstage10_0 (((cfg10 a).slots t 0).cast nbuf10_0))
    (spec10_1.stage ((cfg10 a).slots t 1)) (hstage10_1 (((cfg10 a).slots t 1).cast nbuf10_1))
    (Memref.whole cc10_scratch0) (Memref.isWhole_whole _)) _
  have hf : k10_cond2 (grid10.coords t) ≠ 1#1 → ((pcfg10 (F := F)).win a 1).flush t = false := fun hl => by
    rw [← Bool.not_eq_true]; exact fun h => hl ((last10_at t).mpr (flush10_last a t h))
  by_cases hl : k10_cond2 (grid10.coords t) = 1#1
  all_goals
    have hi : idle10 1 (((pcfg10 (F := F)).gridAt a.1).coords t) = !decide (k10_cond2 (grid10.coords t) = 1#1) := by
      show (!(k10_cond2 (grid10.coords t) == 1#1)) = _
      first | (rw [hl]; rfl) | (rw [decide_eq_false hl, Bool.not_false, Bool.not_eq_true', beq_eq_false_iff_ne]; exact hl)
    first | rw [decide_eq_true hl, Bool.not_true] at hi | rw [decide_eq_false hl, Bool.not_false] at hi
    simp only [hi, after10_0, after10_1]
    iintro ⟨HΦ, Ho, ⟨%d0, H0⟩, ⟨%d1, H1⟩⟩
    rw [before10_0 a A c t d0]
    unfold Phi10
    icases HΦ with ⟨⟨%X, %hX, Hs⟩, Hrest, Hprng, Htbl⟩
    iapply (body3 c Set.univ (grid10.coords t) _ _ _ _ _ _ _ _ (row10 a A c t) X ((dat10 a A c).before 1 t d1)
      (acc10 a A c t.val t.isLt) _ (step10_acc a A c t X hX) (by first | exact if_pos hl | exact if_neg hl) _)
    iframe H0 Hs H1
    iintro ⟨H0, Hs, H1⟩
    iframe Ho H0 Hrest Hprng Htbl
    isplitl [Hs]
    · iexists _; isplitr; swap; · iexact Hs
      ipureintro; intro n h e
      obtain rfl : n = t.val := by omega
      rfl
    first
      | iexact H1
      | (split
         · iexists d1; iexact H1
         · rename_i hft; exact absurd (hft.symm.trans (hf hl)) (by decide))

end

/-- Entries below the feature table's height name rows inside it. -/
theorem ok10_of_inb (pf : pre10.Contents (Elt F)) (h : ∀ k, ((pf 0) k).toNat < 500000) : ok10 (F := F) pf := by
  intro i
  refine ⟨fun b => ?_, Or.inl rfl⟩
  match b with
  | ⟨0, _⟩ =>
    have hh : cc10_transform_0 k10_off1_inb numel1_S1 pf i ⟨0, by decide⟩ < 500000 := h _
    show (cc10_transform_0 k10_off1_inb numel1_S1 pf i ⟨0, _⟩ + 1) * 1 ≤ 500000
    omega
  | ⟨1, _⟩ => show (0 + 1) * 1 ≤ 1; decide
  | ⟨2, _⟩ => show (0 + 1) * 128 ≤ 128; decide
  | ⟨_ + 3, hb⟩ => exact absurd hb (by omega)

section Reg
variable (a : (p : Fin 14) → (pcfgs (F := F) p).Adm)
variable (pdats : (p : Fin 14) → (c : Dev nD) → Dat τ (Elt F) Unit ℕ (UR sig nD τ) ℕ (Pipeline.pin (pcfgs (F := F)) a p) c)
variable (A : (c : Dev nD) → (w : Fin (cfg10 (a 10)).W) → Buf (Elt F) (((cfg10 (a 10)).win w).arr.view.loc (c.tc : Thread nD τ)))
variable (Vin Vout : (c : Dev nD) → Valuation τ sig (Elt F))

set_option backward.isDefEq.respectTransparency.types false in
/-- The region as a step from the memory at Vin, which holds the table at the admissible contents, to the memory at Vout. -/
def reg10 (hpd : ∀ c, pdats 10 c = dat10 (a 10) A c)
    (hA : ∀ c w, A c w = Vin c (Pipeline.arrRef spec10 w))
    (hT : ∀ c, Vin c main_v64 = (a 10).1 0)
    (hF : ∀ c w, (dat10 (a 10) A c).arrAt w (cfg10 (a 10)).N = Vout c (Pipeline.arrRef spec10 w))
    (hrest : ∀ c (b : Ref sig .tc), b ∉ Finset.univ.image (Pipeline.arrRef spec10) → Vout c b = Vin c b) :
    Pipeline.RegionSeg (pcfgs (F := F)) a pdats () defs₀ Variants.none Lh lvh 10 :=
  seg (launch10 (F := F)) a pdats Vin Vout
    (fun c w => by rw [hpd c]; exact (dat10 (a 10) A c).share_full (fun _ => rfl) w)
    (fun c => funext fun (k : Fin 1) => by obtain rfl : k = 0 := Subsingleton.elim _ _; exact hT c)
    (fun c w => by rw [hpd c, A_eq10]; exact hA c w) (fun c w => by rw [hpd c]; exact hF c w) hrest
    (fun c _ => by rw [hpd c]; rfl) (fun c => by rw [hpd c]; rfl)
    (fun c => by rw [hpd c]; exact (body_obligation10 (a 10) A c).loose)
    (fun c => by
      rw [hpd c]
      show _ ⊢ Phi10 (a 10) A c 0
      unfold Phi10
      erw [scopedRest10_split]
      iintro ⟨Hreg, Htbl, ⟨%f, Hf⟩, Hbut⟩
      iframe Hbut Hreg
      isplitr [Htbl]; swap; · iexact Htbl
      iexists f; isplitr
      · ipureintro; intro n h e; exact absurd e (Nat.succ_ne_zero n).symm
      iapply (Entails.of_eq (owns_whole (c : Thread nD τ) cc10_scratch0 fullShare f).symm); iexact Hf)
    (fun c => by
      rw [Pipeline.ownSems0_none, hpd c]
      show Phi10 (a 10) A c (cfg10 (a 10)).N ⊢ _
      unfold Phi10
      erw [scopedRest10_split]
      iintro ⟨⟨%X, -, Hs⟩, Hbut, Hreg, Htbl⟩
      isplitl [Hreg Htbl]
      · isplitl [Hreg]; · iexact Hreg
        iexact Htbl
      isplitr; · iempintro
      isplitr [Hbut]; swap; · iexact Hbut
      iexists X; iapply (Entails.of_eq (owns_whole (c : Thread nD τ) cc10_scratch0 fullShare X)); iexact Hs)

end Reg

end Cert.Kernel.Hand

end
-- ==== Proof.Bits.Mlp11.lean ====
import proofs.«401580_j65068754534945_2_alg».proof.Proof.Bits.Base

/-! A two-product region: each point reads four blocks whole, forms two matrix products over zero, sets them side by side, rectifies, and stores the block in one piece, so the output block is a closed function of the four input blocks. -/

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

def out11 (x0 x1 : Vec F S1024x128 .f32) (x2 x3 : Vec F S128x128 .f32) : Vec F S1024x256 .f32 :=
  k11_pay1 x0 x2 x1 x3

set_option maxHeartbeats 1000000 in
theorem sound_kernel11 (c : Dev nD) (E : Set ℕ) (i : grid11.Coords)
    (arg1 : Memref sig .tc .vmem S1024x128 .f32) (harg1 : arg1.IsWhole)
    (arg2 : Memref sig .tc .vmem S1024x128 .f32) (harg2 : arg2.IsWhole)
    (arg3 : Memref sig .tc .vmem S128x128 .f32) (harg3 : arg3.IsWhole)
    (arg4 : Memref sig .tc .vmem S128x128 .f32) (harg4 : arg4.IsWhole)
    (arg5 : Memref sig .tc .vmem S1024x256 .f32) (harg5 : arg5.IsWhole)
    (x0 x1 : Vec F S1024x128 .f32) (x2 x3 : Vec F S128x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out11 x0 x1 x2 x3)) -∗ K ⟨⟩))
      ⊢ wp frame (wpE (defs₀ (F := F)) Variants.none c none) E
          (cc11_kernel i arg1 harg1 arg2 harg2 arg3 harg3 arg4 harg4 arg5 harg5) K := by
  simp only [cc11_kernel_eq_skeleton]; unfold cc11_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  simp only [readAt_whole_zero (S := S1024x128) _ _ zeros2, readAt_whole_zero (S := S128x128) _ _ zeros2]
  rw [read_store_whole_zero (S := S1024x256) _ _ zeros2]
  unfold out11
  rfl

variable (A : (c : Dev nD) → (w : Fin cfg11.W) → Buf (Elt F) ((cfg11.win w).arr.view.loc (c.tc : Thread nD τ)))

def blk11 (c : Dev nD) (w : Fin cfg11.W) (t : Fin cfg11.N) :
    ((cfg11.win w).xblock (cfg11.grid.coords t)).Idx → Elt F (cfg11.win w).elt :=
  ((cfg11.win w).blk t).view.read (Elt F) (A c w)

def dat11 (c : Dev nD) : Dat τ (Elt F) Unit ℕ (UR sig nD τ) ℕ cfg11 c where
  A w := A c w
  after w t := match w with
    | ⟨0, _⟩ => blk11 A c 0 t
    | ⟨1, _⟩ => blk11 A c 1 t
    | ⟨2, _⟩ => blk11 A c 2 t
    | ⟨3, _⟩ => blk11 A c 3 t
    | ⟨4, _⟩ => out11 (blk11 A c 0 t) (blk11 A c 1 t) (blk11 A c 2 t) (blk11 A c 3 t)
  Φ _ := Pipeline.ΦA spec11 c
  q _ := fullShare
  owed _ := 0

theorem A_eq11 (c : Dev nD) (w : Fin cfg11.W) : (dat11 A c).A w = A c w := by dsimp only [dat11]

theorem after11_0 (c : Dev nD) (t : Fin cfg11.N) : (dat11 A c).after 0 t = blk11 A c 0 t := by dsimp only [dat11]
theorem after11_1 (c : Dev nD) (t : Fin cfg11.N) : (dat11 A c).after 1 t = blk11 A c 1 t := by dsimp only [dat11]
theorem after11_2 (c : Dev nD) (t : Fin cfg11.N) : (dat11 A c).after 2 t = blk11 A c 2 t := by dsimp only [dat11]
theorem after11_3 (c : Dev nD) (t : Fin cfg11.N) : (dat11 A c).after 3 t = blk11 A c 3 t := by dsimp only [dat11]
theorem after11_4 (c : Dev nD) (t : Fin cfg11.N) :
    (dat11 A c).after 4 t = out11 (blk11 A c 0 t) (blk11 A c 1 t) (blk11 A c 2 t) (blk11 A c 3 t) := by
  dsimp only [dat11]

theorem before11_0 (c : Dev nD) (t : Fin cfg11.N) (d) : (dat11 A c).before 0 t d = blk11 A c 0 t :=
  ((dat11 A c).before_in_eq_fetched 0 rfl (fun _ => rfl) (fun _ _ _ => rfl)
    (fun t => by rw [after11_0]; unfold Dat.blockOf blk11; rw [A_eq11]) t d).trans
    (by unfold Dat.fetched Dat.blockOf blk11; rw [A_eq11]; rfl)
theorem before11_1 (c : Dev nD) (t : Fin cfg11.N) (d) : (dat11 A c).before 1 t d = blk11 A c 1 t :=
  ((dat11 A c).before_in_eq_fetched 1 rfl (fun _ => rfl) (fun _ _ _ => rfl)
    (fun t => by rw [after11_1]; unfold Dat.blockOf blk11; rw [A_eq11]) t d).trans
    (by unfold Dat.fetched Dat.blockOf blk11; rw [A_eq11]; rfl)
theorem before11_2 (c : Dev nD) (t : Fin cfg11.N) (d) : (dat11 A c).before 2 t d = blk11 A c 2 t :=
  ((dat11 A c).before_in_eq_fetched 2 rfl (fun _ => rfl) (fun _ _ _ => rfl)
    (fun t => by rw [after11_2]; unfold Dat.blockOf blk11; rw [A_eq11]) t d).trans
    (by unfold Dat.fetched Dat.blockOf blk11; rw [A_eq11]; rfl)
theorem before11_3 (c : Dev nD) (t : Fin cfg11.N) (d) : (dat11 A c).before 3 t d = blk11 A c 3 t :=
  ((dat11 A c).before_in_eq_fetched 3 rfl (fun _ => rfl) (fun _ _ _ => rfl)
    (fun t => by rw [after11_3]; unfold Dat.blockOf blk11; rw [A_eq11]) t d).trans
    (by unfold Dat.fetched Dat.blockOf blk11; rw [A_eq11]; rfl)

def bodyPre11 (c : Dev nD) (t : Fin cfg11.N) : sProp 𝕄 :=
  iprop((dat11 A c).Φ t.castSucc ∗ (dat11 A c).owesAt () t.castSucc
    ∗ (∃ d, owns (c : Thread nD τ) (st11_0 t) fullShare ((dat11 A c).before 0 t d))
    ∗ (∃ d, owns (c : Thread nD τ) (st11_1 t) fullShare ((dat11 A c).before 1 t d))
    ∗ (∃ d, owns (c : Thread nD τ) (st11_2 t) fullShare ((dat11 A c).before 2 t d))
    ∗ (∃ d, owns (c : Thread nD τ) (st11_3 t) fullShare ((dat11 A c).before 3 t d))
    ∗ (∃ d, owns (c : Thread nD τ) (st11_4 t) fullShare ((dat11 A c).before 4 t d)))

def bodyPost11 (c : Dev nD) (t : Fin cfg11.N) : sProp 𝕄 :=
  iprop((dat11 A c).Φ t.succ ∗ (dat11 A c).owesAt () t.succ
    ∗ owns (c : Thread nD τ) (st11_0 t) fullShare ((dat11 A c).after 0 t)
    ∗ owns (c : Thread nD τ) (st11_1 t) fullShare ((dat11 A c).after 1 t)
    ∗ owns (c : Thread nD τ) (st11_2 t) fullShare ((dat11 A c).after 2 t)
    ∗ owns (c : Thread nD τ) (st11_3 t) fullShare ((dat11 A c).after 3 t)
    ∗ owns (c : Thread nD τ) (st11_4 t) fullShare ((dat11 A c).after 4 t))

theorem sound_body11 (c : Dev nD) (t : Fin cfg11.N) :
    bodyPre11 A c t ⊢ wp frame (wpE (defs₀ (F := F)) Variants.none c none) Set.univ (bodyAt11 t)
      (fun _ => bodyPost11 A c t) := by
  unfold bodyPre11 bodyPost11 bodyAt11
  simp only [before11_0, before11_1, before11_2, before11_3]
  rewrite [after11_0, after11_1, after11_2, after11_3, after11_4,
    show (dat11 A c).Φ t.succ = (dat11 A c).Φ t.castSucc from rfl,
    show (dat11 A c).owesAt () t.succ = (dat11 A c).owesAt () t.castSucc from rfl]
  iintro ⟨HΦ, Ho, ⟨%d0, H0⟩, ⟨%d1, H1⟩, ⟨%d2, H2⟩, ⟨%d3, H3⟩, H4⟩
  iapply (sound_kernel11 c Set.univ (grid11.coords t) _ _ _ _ _ _ _ _ _ _
    (blk11 A c 0 t) (blk11 A c 1 t) (blk11 A c 2 t) (blk11 A c 3 t) _)
  isplitl [H0]; · iexact H0
  isplitl [H1]; · iexact H1
  isplitl [H2]; · iexact H2
  isplitl [H3]; · iexact H3
  isplitl [H4]
  · icases H4 with ⟨%d4, H4⟩; iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation11 (c : Dev nD) :
    BodyObligation (dat11 (F := F) A c) (defs₀ (F := F)) Variants.none () Set.univ := fun t => by
  rw [bigSep_W11, bigSep_W11]
  exact sound_body11 A c t

end Cert.Kernel.Hand

end
-- ==== Proof.Bits.Reg11.lean ====
import proofs.«401580_j65068754534945_2_alg».proof.Proof.Bits.Mlp11

/-! A two-product region as a step from one memory of the program to the next. -/

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (a : (p : Fin 14) → (pcfgs (F := F) p).Adm)
variable (pdats : (p : Fin 14) → (c : Dev nD) → Dat τ (Elt F) Unit ℕ (UR sig nD τ) ℕ (Pipeline.pin (pcfgs (F := F)) a p) c)

variable (A : (c : Dev nD) → (w : Fin cfg11.W) → Buf (Elt F) ((cfg11.win w).arr.view.loc (c.tc : Thread nD τ)))
variable (Vin Vout : (c : Dev nD) → Valuation τ sig (Elt F))

set_option backward.isDefEq.respectTransparency.types false in
/-- The region as a step from the memory at Vin to the memory at Vout. -/
def reg11 (hpd : ∀ c, pdats 11 c = dat11 A c)
    (hA : ∀ c w, A c w = Vin c (Pipeline.arrRef spec11 w))
    (hF : ∀ c w, (dat11 A c).arrAt w cfg11.N = Vout c (Pipeline.arrRef spec11 w))
    (hrest : ∀ c (b : Ref sig .tc), b ∉ Finset.univ.image (Pipeline.arrRef spec11) → Vout c b = Vin c b) :
    Pipeline.RegionSeg (pcfgs (F := F)) a pdats () defs₀ Variants.none Lh lvh 11 :=
  seg (launch11 (F := F)) a pdats Vin Vout
    (fun c w => by rw [hpd c]; exact (dat11 A c).share_full (fun _ => rfl) w)
    (fun c => funext fun k => k.elim0)
    (fun c w => by rw [hpd c, A_eq11]; exact hA c w) (fun c w => by rw [hpd c]; exact hF c w) hrest
    (fun c _ => by rw [hpd c]; rfl) (fun c => by rw [hpd c]; rfl)
    (fun c => by rw [hpd c]; exact (body_obligation11 A c).loose)
    (fun c => by
      rw [hpd c, show (dat11 A c).Φ 0 = Pipeline.ΦA spec11 c from rfl]; unfold Pipeline.ΦA
      iintro ⟨Hreg, -, Hscoped⟩
      isplitl [Hscoped]; · iexact Hscoped
      iexact Hreg)
    (fun c => by
      rw [Pipeline.ownSems0_none, hpd c, show (dat11 A c).Φ (Fin.last (Pipeline.pin (pcfgs (F := F)) a 11).N) = Pipeline.ΦA spec11 c from rfl]
      unfold Pipeline.ΦA
      iintro ⟨Hscoped, Hreg⟩
      isplitl [Hreg]
      · isplitl [Hreg]; · iexact Hreg
        unfold Pipeline.prefHeld
        rw [show (Finset.univ : Finset (Fin 0)) = ∅ from rfl, BI.bigSep_empty]; iempintro
      isplitr; · iempintro
      iexact Hscoped)

theorem reg11_pre (hpd : ∀ c, pdats 11 c = dat11 A c)
    (hA : ∀ c w, A c w = Vin c (Pipeline.arrRef spec11 w))
    (hF : ∀ c w, (dat11 A c).arrAt w cfg11.N = Vout c (Pipeline.arrRef spec11 w))
    (hrest : ∀ c (b : Ref sig .tc), b ∉ Finset.univ.image (Pipeline.arrRef spec11) → Vout c b = Vin c b) (c : Dev nD) :
    (reg11 a pdats A Vin Vout hpd hA hF hrest).pre c
      = iprop(StableHlo.held (c : Thread nD τ) (Pipeline.ucRefs τ sig) (Vin c) ∗ Rst c) := rfl

theorem reg11_post (hpd : ∀ c, pdats 11 c = dat11 A c)
    (hA : ∀ c w, A c w = Vin c (Pipeline.arrRef spec11 w))
    (hF : ∀ c w, (dat11 A c).arrAt w cfg11.N = Vout c (Pipeline.arrRef spec11 w))
    (hrest : ∀ c (b : Ref sig .tc), b ∉ Finset.univ.image (Pipeline.arrRef spec11) → Vout c b = Vin c b) (c : Dev nD) :
    (reg11 a pdats A Vin Vout hpd hA hF hrest).post c
      = iprop(StableHlo.held (c : Thread nD τ) (Pipeline.ucRefs τ sig) (Vout c) ∗ Rst c) := rfl

end Cert.Kernel.Hand

end
-- ==== Proof.Bits.Mlp12.lean ====
import proofs.«401580_j65068754534945_2_alg».proof.Proof.Bits.Base

/-! A two-product region on ten row tiles: each point's output block is a closed function of its four input blocks. -/

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

def out12 (x0 x1 : Vec F S1024x128 .f32) (x2 x3 : Vec F S128x128 .f32) : Vec F S1024x256 .f32 :=
  k12_pay1 x0 x2 x1 x3

set_option maxHeartbeats 1000000 in
theorem sound_kernel12 (c : Dev nD) (E : Set ℕ) (i : grid12.Coords)
    (arg1 : Memref sig .tc .vmem S1024x128 .f32) (harg1 : arg1.IsWhole)
    (arg2 : Memref sig .tc .vmem S1024x128 .f32) (harg2 : arg2.IsWhole)
    (arg3 : Memref sig .tc .vmem S128x128 .f32) (harg3 : arg3.IsWhole)
    (arg4 : Memref sig .tc .vmem S128x128 .f32) (harg4 : arg4.IsWhole)
    (arg5 : Memref sig .tc .vmem S1024x256 .f32) (harg5 : arg5.IsWhole)
    (x0 x1 : Vec F S1024x128 .f32) (x2 x3 : Vec F S128x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out12 x0 x1 x2 x3)) -∗ K ⟨⟩))
      ⊢ wp frame (wpE (defs₀ (F := F)) Variants.none c none) E
          (cc12_kernel i arg1 harg1 arg2 harg2 arg3 harg3 arg4 harg4 arg5 harg5) K := by
  simp only [cc12_kernel_eq_skeleton]; unfold cc12_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  simp only [readAt_whole_zero (S := S1024x128) _ _ zeros2, readAt_whole_zero (S := S128x128) _ _ zeros2]
  rw [read_store_whole_zero (S := S1024x256) _ _ zeros2]
  unfold out12
  rfl

variable (A : (c : Dev nD) → (w : Fin cfg12.W) → Buf (Elt F) ((cfg12.win w).arr.view.loc (c.tc : Thread nD τ)))

def blk12 (c : Dev nD) (w : Fin cfg12.W) (t : Fin cfg12.N) :
    ((cfg12.win w).xblock (cfg12.grid.coords t)).Idx → Elt F (cfg12.win w).elt :=
  ((cfg12.win w).blk t).view.read (Elt F) (A c w)

def dat12 (c : Dev nD) : Dat τ (Elt F) Unit ℕ (UR sig nD τ) ℕ cfg12 c where
  A w := A c w
  after w t := match w with
    | ⟨0, _⟩ => blk12 A c 0 t
    | ⟨1, _⟩ => blk12 A c 1 t
    | ⟨2, _⟩ => blk12 A c 2 t
    | ⟨3, _⟩ => blk12 A c 3 t
    | ⟨4, _⟩ => out12 (blk12 A c 0 t) (blk12 A c 1 t) (blk12 A c 2 t) (blk12 A c 3 t)
  Φ _ := Pipeline.ΦA spec12 c
  q _ := fullShare
  owed _ := 0

theorem A_eq12 (c : Dev nD) (w : Fin cfg12.W) : (dat12 A c).A w = A c w := by dsimp only [dat12]

theorem after12_0 (c : Dev nD) (t : Fin cfg12.N) : (dat12 A c).after 0 t = blk12 A c 0 t := by dsimp only [dat12]
theorem after12_1 (c : Dev nD) (t : Fin cfg12.N) : (dat12 A c).after 1 t = blk12 A c 1 t := by dsimp only [dat12]
theorem after12_2 (c : Dev nD) (t : Fin cfg12.N) : (dat12 A c).after 2 t = blk12 A c 2 t := by dsimp only [dat12]
theorem after12_3 (c : Dev nD) (t : Fin cfg12.N) : (dat12 A c).after 3 t = blk12 A c 3 t := by dsimp only [dat12]
theorem after12_4 (c : Dev nD) (t : Fin cfg12.N) :
    (dat12 A c).after 4 t = out12 (blk12 A c 0 t) (blk12 A c 1 t) (blk12 A c 2 t) (blk12 A c 3 t) := by
  dsimp only [dat12]

theorem before12_0 (c : Dev nD) (t : Fin cfg12.N) (d) : (dat12 A c).before 0 t d = blk12 A c 0 t :=
  ((dat12 A c).before_in_eq_fetched 0 rfl (fun _ => rfl) (fun _ _ _ => rfl)
    (fun t => by rw [after12_0]; unfold Dat.blockOf blk12; rw [A_eq12]) t d).trans
    (by unfold Dat.fetched Dat.blockOf blk12; rw [A_eq12]; rfl)
theorem before12_1 (c : Dev nD) (t : Fin cfg12.N) (d) : (dat12 A c).before 1 t d = blk12 A c 1 t :=
  ((dat12 A c).before_in_eq_fetched 1 rfl (fun _ => rfl) (fun _ _ _ => rfl)
    (fun t => by rw [after12_1]; unfold Dat.blockOf blk12; rw [A_eq12]) t d).trans
    (by unfold Dat.fetched Dat.blockOf blk12; rw [A_eq12]; rfl)
theorem before12_2 (c : Dev nD) (t : Fin cfg12.N) (d) : (dat12 A c).before 2 t d = blk12 A c 2 t :=
  ((dat12 A c).before_in_eq_fetched 2 rfl (fun _ => rfl) (fun _ _ _ => rfl)
    (fun t => by rw [after12_2]; unfold Dat.blockOf blk12; rw [A_eq12]) t d).trans
    (by unfold Dat.fetched Dat.blockOf blk12; rw [A_eq12]; rfl)
theorem before12_3 (c : Dev nD) (t : Fin cfg12.N) (d) : (dat12 A c).before 3 t d = blk12 A c 3 t :=
  ((dat12 A c).before_in_eq_fetched 3 rfl (fun _ => rfl) (fun _ _ _ => rfl)
    (fun t => by rw [after12_3]; unfold Dat.blockOf blk12; rw [A_eq12]) t d).trans
    (by unfold Dat.fetched Dat.blockOf blk12; rw [A_eq12]; rfl)

def bodyPre12 (c : Dev nD) (t : Fin cfg12.N) : sProp 𝕄 :=
  iprop((dat12 A c).Φ t.castSucc ∗ (dat12 A c).owesAt () t.castSucc
    ∗ (∃ d, owns (c : Thread nD τ) (st12_0 t) fullShare ((dat12 A c).before 0 t d))
    ∗ (∃ d, owns (c : Thread nD τ) (st12_1 t) fullShare ((dat12 A c).before 1 t d))
    ∗ (∃ d, owns (c : Thread nD τ) (st12_2 t) fullShare ((dat12 A c).before 2 t d))
    ∗ (∃ d, owns (c : Thread nD τ) (st12_3 t) fullShare ((dat12 A c).before 3 t d))
    ∗ (∃ d, owns (c : Thread nD τ) (st12_4 t) fullShare ((dat12 A c).before 4 t d)))

def bodyPost12 (c : Dev nD) (t : Fin cfg12.N) : sProp 𝕄 :=
  iprop((dat12 A c).Φ t.succ ∗ (dat12 A c).owesAt () t.succ
    ∗ owns (c : Thread nD τ) (st12_0 t) fullShare ((dat12 A c).after 0 t)
    ∗ owns (c : Thread nD τ) (st12_1 t) fullShare ((dat12 A c).after 1 t)
    ∗ owns (c : Thread nD τ) (st12_2 t) fullShare ((dat12 A c).after 2 t)
    ∗ owns (c : Thread nD τ) (st12_3 t) fullShare ((dat12 A c).after 3 t)
    ∗ owns (c : Thread nD τ) (st12_4 t) fullShare ((dat12 A c).after 4 t))

theorem sound_body12 (c : Dev nD) (t : Fin cfg12.N) :
    bodyPre12 A c t ⊢ wp frame (wpE (defs₀ (F := F)) Variants.none c none) Set.univ (bodyAt12 t)
      (fun _ => bodyPost12 A c t) := by
  unfold bodyPre12 bodyPost12 bodyAt12
  simp only [before12_0, before12_1, before12_2, before12_3]
  rewrite [after12_0, after12_1, after12_2, after12_3, after12_4,
    show (dat12 A c).Φ t.succ = (dat12 A c).Φ t.castSucc from rfl,
    show (dat12 A c).owesAt () t.succ = (dat12 A c).owesAt () t.castSucc from rfl]
  iintro ⟨HΦ, Ho, ⟨%d0, H0⟩, ⟨%d1, H1⟩, ⟨%d2, H2⟩, ⟨%d3, H3⟩, H4⟩
  iapply (sound_kernel12 c Set.univ (grid12.coords t) _ _ _ _ _ _ _ _ _ _
    (blk12 A c 0 t) (blk12 A c 1 t) (blk12 A c 2 t) (blk12 A c 3 t) _)
  isplitl [H0]; · iexact H0
  isplitl [H1]; · iexact H1
  isplitl [H2]; · iexact H2
  isplitl [H3]; · iexact H3
  isplitl [H4]
  · icases H4 with ⟨%d4, H4⟩; iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation12 (c : Dev nD) :
    BodyObligation (dat12 (F := F) A c) (defs₀ (F := F)) Variants.none () Set.univ := fun t => by
  rw [bigSep_W12, bigSep_W12]
  exact sound_body12 A c t

end Cert.Kernel.Hand

end
-- ==== Proof.Bits.Reg12.lean ====
import proofs.«401580_j65068754534945_2_alg».proof.Proof.Bits.Mlp12

/-! The tiled two-product region as a step from one memory of the program to the next. -/

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (a : (p : Fin 14) → (pcfgs (F := F) p).Adm)
variable (pdats : (p : Fin 14) → (c : Dev nD) → Dat τ (Elt F) Unit ℕ (UR sig nD τ) ℕ (Pipeline.pin (pcfgs (F := F)) a p) c)

variable (A : (c : Dev nD) → (w : Fin cfg12.W) → Buf (Elt F) ((cfg12.win w).arr.view.loc (c.tc : Thread nD τ)))
variable (Vin Vout : (c : Dev nD) → Valuation τ sig (Elt F))

set_option backward.isDefEq.respectTransparency.types false in
/-- The region as a step from the memory at Vin to the memory at Vout. -/
def reg12 (hpd : ∀ c, pdats 12 c = dat12 A c)
    (hA : ∀ c w, A c w = Vin c (Pipeline.arrRef spec12 w))
    (hF : ∀ c w, (dat12 A c).arrAt w cfg12.N = Vout c (Pipeline.arrRef spec12 w))
    (hrest : ∀ c (b : Ref sig .tc), b ∉ Finset.univ.image (Pipeline.arrRef spec12) → Vout c b = Vin c b) :
    Pipeline.RegionSeg (pcfgs (F := F)) a pdats () defs₀ Variants.none Lh lvh 12 :=
  seg (launch12 (F := F)) a pdats Vin Vout
    (fun c w => by rw [hpd c]; exact (dat12 A c).share_full (fun _ => rfl) w)
    (fun c => funext fun k => k.elim0)
    (fun c w => by rw [hpd c, A_eq12]; exact hA c w) (fun c w => by rw [hpd c]; exact hF c w) hrest
    (fun c _ => by rw [hpd c]; rfl) (fun c => by rw [hpd c]; rfl)
    (fun c => by rw [hpd c]; exact (body_obligation12 A c).loose)
    (fun c => by
      rw [hpd c, show (dat12 A c).Φ 0 = Pipeline.ΦA spec12 c from rfl]; unfold Pipeline.ΦA
      iintro ⟨Hreg, -, Hscoped⟩
      isplitl [Hscoped]; · iexact Hscoped
      iexact Hreg)
    (fun c => by
      rw [Pipeline.ownSems0_none, hpd c, show (dat12 A c).Φ (Fin.last (Pipeline.pin (pcfgs (F := F)) a 12).N) = Pipeline.ΦA spec12 c from rfl]
      unfold Pipeline.ΦA
      iintro ⟨Hscoped, Hreg⟩
      isplitl [Hreg]
      · isplitl [Hreg]; · iexact Hreg
        unfold Pipeline.prefHeld
        rw [show (Finset.univ : Finset (Fin 0)) = ∅ from rfl, BI.bigSep_empty]; iempintro
      isplitr; · iempintro
      iexact Hscoped)

theorem reg12_pre (hpd : ∀ c, pdats 12 c = dat12 A c)
    (hA : ∀ c w, A c w = Vin c (Pipeline.arrRef spec12 w))
    (hF : ∀ c w, (dat12 A c).arrAt w cfg12.N = Vout c (Pipeline.arrRef spec12 w))
    (hrest : ∀ c (b : Ref sig .tc), b ∉ Finset.univ.image (Pipeline.arrRef spec12) → Vout c b = Vin c b) (c : Dev nD) :
    (reg12 a pdats A Vin Vout hpd hA hF hrest).pre c
      = iprop(StableHlo.held (c : Thread nD τ) (Pipeline.ucRefs τ sig) (Vin c) ∗ Rst c) := rfl

theorem reg12_post (hpd : ∀ c, pdats 12 c = dat12 A c)
    (hA : ∀ c w, A c w = Vin c (Pipeline.arrRef spec12 w))
    (hF : ∀ c w, (dat12 A c).arrAt w cfg12.N = Vout c (Pipeline.arrRef spec12 w))
    (hrest : ∀ c (b : Ref sig .tc), b ∉ Finset.univ.image (Pipeline.arrRef spec12) → Vout c b = Vin c b) (c : Dev nD) :
    (reg12 a pdats A Vin Vout hpd hA hF hrest).post c
      = iprop(StableHlo.held (c : Thread nD τ) (Pipeline.ucRefs τ sig) (Vout c) ∗ Rst c) := rfl

end Cert.Kernel.Hand

end
-- ==== Proof.Bits.Mlp13.lean ====
import proofs.«401580_j65068754534945_2_alg».proof.Proof.Bits.Base

/-! The last two-product region, without the rectifier: the output block is a closed function of the four input blocks. -/

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

def out13 (x0 x1 : Vec F S1024x256 .f32) (x2 x3 : Vec F S256x128 .f32) : Vec F S1024x256 .f32 :=
  k13_pay1 x0 x2 x1 x3

set_option maxHeartbeats 1000000 in
theorem sound_kernel13 (c : Dev nD) (E : Set ℕ) (i : grid13.Coords)
    (arg1 : Memref sig .tc .vmem S1024x256 .f32) (harg1 : arg1.IsWhole)
    (arg2 : Memref sig .tc .vmem S1024x256 .f32) (harg2 : arg2.IsWhole)
    (arg3 : Memref sig .tc .vmem S256x128 .f32) (harg3 : arg3.IsWhole)
    (arg4 : Memref sig .tc .vmem S256x128 .f32) (harg4 : arg4.IsWhole)
    (arg5 : Memref sig .tc .vmem S1024x256 .f32) (harg5 : arg5.IsWhole)
    (x0 x1 : Vec F S1024x256 .f32) (x2 x3 : Vec F S256x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out13 x0 x1 x2 x3)) -∗ K ⟨⟩))
      ⊢ wp frame (wpE (defs₀ (F := F)) Variants.none c none) E
          (cc13_kernel i arg1 harg1 arg2 harg2 arg3 harg3 arg4 harg4 arg5 harg5) K := by
  simp only [cc13_kernel_eq_skeleton]; unfold cc13_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  simp only [readAt_whole_zero (S := S1024x256) _ _ zeros2, readAt_whole_zero (S := S256x128) _ _ zeros2]
  rw [read_store_whole_zero (S := S1024x256) _ _ zeros2]
  unfold out13
  rfl

variable (A : (c : Dev nD) → (w : Fin cfg13.W) → Buf (Elt F) ((cfg13.win w).arr.view.loc (c.tc : Thread nD τ)))

def blk13 (c : Dev nD) (w : Fin cfg13.W) (t : Fin cfg13.N) :
    ((cfg13.win w).xblock (cfg13.grid.coords t)).Idx → Elt F (cfg13.win w).elt :=
  ((cfg13.win w).blk t).view.read (Elt F) (A c w)

def dat13 (c : Dev nD) : Dat τ (Elt F) Unit ℕ (UR sig nD τ) ℕ cfg13 c where
  A w := A c w
  after w t := match w with
    | ⟨0, _⟩ => blk13 A c 0 t
    | ⟨1, _⟩ => blk13 A c 1 t
    | ⟨2, _⟩ => blk13 A c 2 t
    | ⟨3, _⟩ => blk13 A c 3 t
    | ⟨4, _⟩ => out13 (blk13 A c 0 t) (blk13 A c 1 t) (blk13 A c 2 t) (blk13 A c 3 t)
  Φ _ := Pipeline.ΦA spec13 c
  q _ := fullShare
  owed _ := 0

theorem A_eq13 (c : Dev nD) (w : Fin cfg13.W) : (dat13 A c).A w = A c w := by dsimp only [dat13]

theorem after13_0 (c : Dev nD) (t : Fin cfg13.N) : (dat13 A c).after 0 t = blk13 A c 0 t := by dsimp only [dat13]
theorem after13_1 (c : Dev nD) (t : Fin cfg13.N) : (dat13 A c).after 1 t = blk13 A c 1 t := by dsimp only [dat13]
theorem after13_2 (c : Dev nD) (t : Fin cfg13.N) : (dat13 A c).after 2 t = blk13 A c 2 t := by dsimp only [dat13]
theorem after13_3 (c : Dev nD) (t : Fin cfg13.N) : (dat13 A c).after 3 t = blk13 A c 3 t := by dsimp only [dat13]
theorem after13_4 (c : Dev nD) (t : Fin cfg13.N) :
    (dat13 A c).after 4 t = out13 (blk13 A c 0 t) (blk13 A c 1 t) (blk13 A c 2 t) (blk13 A c 3 t) := by
  dsimp only [dat13]

theorem before13_0 (c : Dev nD) (t : Fin cfg13.N) (d) : (dat13 A c).before 0 t d = blk13 A c 0 t :=
  ((dat13 A c).before_in_eq_fetched 0 rfl (fun _ => rfl) (fun _ _ _ => rfl)
    (fun t => by rw [after13_0]; unfold Dat.blockOf blk13; rw [A_eq13]) t d).trans
    (by unfold Dat.fetched Dat.blockOf blk13; rw [A_eq13]; rfl)
theorem before13_1 (c : Dev nD) (t : Fin cfg13.N) (d) : (dat13 A c).before 1 t d = blk13 A c 1 t :=
  ((dat13 A c).before_in_eq_fetched 1 rfl (fun _ => rfl) (fun _ _ _ => rfl)
    (fun t => by rw [after13_1]; unfold Dat.blockOf blk13; rw [A_eq13]) t d).trans
    (by unfold Dat.fetched Dat.blockOf blk13; rw [A_eq13]; rfl)
theorem before13_2 (c : Dev nD) (t : Fin cfg13.N) (d) : (dat13 A c).before 2 t d = blk13 A c 2 t :=
  ((dat13 A c).before_in_eq_fetched 2 rfl (fun _ => rfl) (fun _ _ _ => rfl)
    (fun t => by rw [after13_2]; unfold Dat.blockOf blk13; rw [A_eq13]) t d).trans
    (by unfold Dat.fetched Dat.blockOf blk13; rw [A_eq13]; rfl)
theorem before13_3 (c : Dev nD) (t : Fin cfg13.N) (d) : (dat13 A c).before 3 t d = blk13 A c 3 t :=
  ((dat13 A c).before_in_eq_fetched 3 rfl (fun _ => rfl) (fun _ _ _ => rfl)
    (fun t => by rw [after13_3]; unfold Dat.blockOf blk13; rw [A_eq13]) t d).trans
    (by unfold Dat.fetched Dat.blockOf blk13; rw [A_eq13]; rfl)

def bodyPre13 (c : Dev nD) (t : Fin cfg13.N) : sProp 𝕄 :=
  iprop((dat13 A c).Φ t.castSucc ∗ (dat13 A c).owesAt () t.castSucc
    ∗ (∃ d, owns (c : Thread nD τ) (st13_0 t) fullShare ((dat13 A c).before 0 t d))
    ∗ (∃ d, owns (c : Thread nD τ) (st13_1 t) fullShare ((dat13 A c).before 1 t d))
    ∗ (∃ d, owns (c : Thread nD τ) (st13_2 t) fullShare ((dat13 A c).before 2 t d))
    ∗ (∃ d, owns (c : Thread nD τ) (st13_3 t) fullShare ((dat13 A c).before 3 t d))
    ∗ (∃ d, owns (c : Thread nD τ) (st13_4 t) fullShare ((dat13 A c).before 4 t d)))

def bodyPost13 (c : Dev nD) (t : Fin cfg13.N) : sProp 𝕄 :=
  iprop((dat13 A c).Φ t.succ ∗ (dat13 A c).owesAt () t.succ
    ∗ owns (c : Thread nD τ) (st13_0 t) fullShare ((dat13 A c).after 0 t)
    ∗ owns (c : Thread nD τ) (st13_1 t) fullShare ((dat13 A c).after 1 t)
    ∗ owns (c : Thread nD τ) (st13_2 t) fullShare ((dat13 A c).after 2 t)
    ∗ owns (c : Thread nD τ) (st13_3 t) fullShare ((dat13 A c).after 3 t)
    ∗ owns (c : Thread nD τ) (st13_4 t) fullShare ((dat13 A c).after 4 t))

theorem sound_body13 (c : Dev nD) (t : Fin cfg13.N) :
    bodyPre13 A c t ⊢ wp frame (wpE (defs₀ (F := F)) Variants.none c none) Set.univ (bodyAt13 t)
      (fun _ => bodyPost13 A c t) := by
  unfold bodyPre13 bodyPost13 bodyAt13
  simp only [before13_0, before13_1, before13_2, before13_3]
  rewrite [after13_0, after13_1, after13_2, after13_3, after13_4,
    show (dat13 A c).Φ t.succ = (dat13 A c).Φ t.castSucc from rfl,
    show (dat13 A c).owesAt () t.succ = (dat13 A c).owesAt () t.castSucc from rfl]
  iintro ⟨HΦ, Ho, ⟨%d0, H0⟩, ⟨%d1, H1⟩, ⟨%d2, H2⟩, ⟨%d3, H3⟩, H4⟩
  iapply (sound_kernel13 c Set.univ (grid13.coords t) _ _ _ _ _ _ _ _ _ _
    (blk13 A c 0 t) (blk13 A c 1 t) (blk13 A c 2 t) (blk13 A c 3 t) _)
  isplitl [H0]; · iexact H0
  isplitl [H1]; · iexact H1
  isplitl [H2]; · iexact H2
  isplitl [H3]; · iexact H3
  isplitl [H4]
  · icases H4 with ⟨%d4, H4⟩; iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation13 (c : Dev nD) :
    BodyObligation (dat13 (F := F) A c) (defs₀ (F := F)) Variants.none () Set.univ := fun t => by
  rw [bigSep_W13, bigSep_W13]
  exact sound_body13 A c t

end Cert.Kernel.Hand

end
-- ==== Proof.Bits.Reg13.lean ====
import proofs.«401580_j65068754534945_2_alg».proof.Proof.Bits.Mlp13

/-! The last two-product region as a step from one memory of the program to the next. -/

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (a : (p : Fin 14) → (pcfgs (F := F) p).Adm)
variable (pdats : (p : Fin 14) → (c : Dev nD) → Dat τ (Elt F) Unit ℕ (UR sig nD τ) ℕ (Pipeline.pin (pcfgs (F := F)) a p) c)

variable (A : (c : Dev nD) → (w : Fin cfg13.W) → Buf (Elt F) ((cfg13.win w).arr.view.loc (c.tc : Thread nD τ)))
variable (Vin Vout : (c : Dev nD) → Valuation τ sig (Elt F))

set_option backward.isDefEq.respectTransparency.types false in
/-- The region as a step from the memory at Vin to the memory at Vout. -/
def reg13 (hpd : ∀ c, pdats 13 c = dat13 A c)
    (hA : ∀ c w, A c w = Vin c (Pipeline.arrRef spec13 w))
    (hF : ∀ c w, (dat13 A c).arrAt w cfg13.N = Vout c (Pipeline.arrRef spec13 w))
    (hrest : ∀ c (b : Ref sig .tc), b ∉ Finset.univ.image (Pipeline.arrRef spec13) → Vout c b = Vin c b) :
    Pipeline.RegionSeg (pcfgs (F := F)) a pdats () defs₀ Variants.none Lh lvh 13 :=
  seg (launch13 (F := F)) a pdats Vin Vout
    (fun c w => by rw [hpd c]; exact (dat13 A c).share_full (fun _ => rfl) w)
    (fun c => funext fun k => k.elim0)
    (fun c w => by rw [hpd c, A_eq13]; exact hA c w) (fun c w => by rw [hpd c]; exact hF c w) hrest
    (fun c _ => by rw [hpd c]; rfl) (fun c => by rw [hpd c]; rfl)
    (fun c => by rw [hpd c]; exact (body_obligation13 A c).loose)
    (fun c => by
      rw [hpd c, show (dat13 A c).Φ 0 = Pipeline.ΦA spec13 c from rfl]; unfold Pipeline.ΦA
      iintro ⟨Hreg, -, Hscoped⟩
      isplitl [Hscoped]; · iexact Hscoped
      iexact Hreg)
    (fun c => by
      rw [Pipeline.ownSems0_none, hpd c, show (dat13 A c).Φ (Fin.last (Pipeline.pin (pcfgs (F := F)) a 13).N) = Pipeline.ΦA spec13 c from rfl]
      unfold Pipeline.ΦA
      iintro ⟨Hscoped, Hreg⟩
      isplitl [Hreg]
      · isplitl [Hreg]; · iexact Hreg
        unfold Pipeline.prefHeld
        rw [show (Finset.univ : Finset (Fin 0)) = ∅ from rfl, BI.bigSep_empty]; iempintro
      isplitr; · iempintro
      iexact Hscoped)

theorem reg13_pre (hpd : ∀ c, pdats 13 c = dat13 A c)
    (hA : ∀ c w, A c w = Vin c (Pipeline.arrRef spec13 w))
    (hF : ∀ c w, (dat13 A c).arrAt w cfg13.N = Vout c (Pipeline.arrRef spec13 w))
    (hrest : ∀ c (b : Ref sig .tc), b ∉ Finset.univ.image (Pipeline.arrRef spec13) → Vout c b = Vin c b) (c : Dev nD) :
    (reg13 a pdats A Vin Vout hpd hA hF hrest).pre c
      = iprop(StableHlo.held (c : Thread nD τ) (Pipeline.ucRefs τ sig) (Vin c) ∗ Rst c) := rfl

theorem reg13_post (hpd : ∀ c, pdats 13 c = dat13 A c)
    (hA : ∀ c w, A c w = Vin c (Pipeline.arrRef spec13 w))
    (hF : ∀ c w, (dat13 A c).arrAt w cfg13.N = Vout c (Pipeline.arrRef spec13 w))
    (hrest : ∀ c (b : Ref sig .tc), b ∉ Finset.univ.image (Pipeline.arrRef spec13) → Vout c b = Vin c b) (c : Dev nD) :
    (reg13 a pdats A Vin Vout hpd hA hF hrest).post c
      = iprop(StableHlo.held (c : Thread nD τ) (Pipeline.ucRefs τ sig) (Vout c) ∗ Rst c) := rfl

end Cert.Kernel.Hand

end
-- ==== Proof.Bits.RunDefs.lean ====
import proofs.«401580_j65068754534945_2_alg».proof.Proof.Bits.ArrIndep
import proofs.«401580_j65068754534945_2_alg».proof.Proof.Bits.Gather0
import proofs.«401580_j65068754534945_2_alg».proof.Proof.Bits.Gather1
import proofs.«401580_j65068754534945_2_alg».proof.Proof.Bits.Gather2
import proofs.«401580_j65068754534945_2_alg».proof.Proof.Bits.Gather3
import proofs.«401580_j65068754534945_2_alg».proof.Proof.Bits.Gather4
import proofs.«401580_j65068754534945_2_alg».proof.Proof.Bits.Gather5
import proofs.«401580_j65068754534945_2_alg».proof.Proof.Bits.Gather6
import proofs.«401580_j65068754534945_2_alg».proof.Proof.Bits.Gather7
import proofs.«401580_j65068754534945_2_alg».proof.Proof.Bits.Gather8
import proofs.«401580_j65068754534945_2_alg».proof.Proof.Bits.Gather9
import proofs.«401580_j65068754534945_2_alg».proof.Proof.Bits.Gather10
import proofs.«401580_j65068754534945_2_alg».proof.Proof.Bits.Reg11
import proofs.«401580_j65068754534945_2_alg».proof.Proof.Bits.Reg12
import proofs.«401580_j65068754534945_2_alg».proof.Proof.Bits.Reg13

/-! The admissible tables, the entry arrays and the proof data of the fourteen regions, as functions of the launch memory. -/

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

structure InRange : Prop where
  h1 : ∀ (c : Dev nD) (i : S500000x128.Idx), ((m ((c.tc : Thread nD τ).loc main_arg1) : S500000x128.Idx → BitVec 32) i).toNat < 500000
  h2 : ∀ (c : Dev nD) (i : S1024.Idx), ((m ((c.tc : Thread nD τ).loc main_arg2) : S1024.Idx → BitVec 32) i).toNat < 500000
  h3 : ∀ (c : Dev nD) (i : S1024x10.Idx), ((m ((c.tc : Thread nD τ).loc main_arg3) : S1024x10.Idx → BitVec 32) i).toNat < 128
  h4 : ∀ (c : Dev nD) (i : S10240x25.Idx), ((m ((c.tc : Thread nD τ).loc main_arg4) : S10240x25.Idx → BitVec 32) i).toNat < 128

noncomputable def outsZ : Outs (F := F) := fun _ r c => m ((c : Thread nD τ).loc r)

noncomputable def tb0 : pre0.Contents (Elt F) := fun j => V5 m (0 : Dev nD) (pre0.ref j)
noncomputable def tb1 : pre1.Contents (Elt F) := fun j => V7 m (outsZ m) (0 : Dev nD) (pre1.ref j)
noncomputable def tb2 : pre2.Contents (Elt F) := fun j => V9 m (outsZ m) (0 : Dev nD) (pre2.ref j)
noncomputable def tb3 : pre3.Contents (Elt F) := fun j => V11 m (outsZ m) (0 : Dev nD) (pre3.ref j)
noncomputable def tb4 : pre4.Contents (Elt F) := fun j => V13 m (outsZ m) (0 : Dev nD) (pre4.ref j)
noncomputable def tb5 : pre5.Contents (Elt F) := fun j => V15 m (outsZ m) (0 : Dev nD) (pre5.ref j)
noncomputable def tb6 : pre6.Contents (Elt F) := fun j => V17 m (outsZ m) (0 : Dev nD) (pre6.ref j)
noncomputable def tb7 : pre7.Contents (Elt F) := fun j => V19 m (outsZ m) (0 : Dev nD) (pre7.ref j)
noncomputable def tb8 : pre8.Contents (Elt F) := fun j => V21 m (outsZ m) (0 : Dev nD) (pre8.ref j)
noncomputable def tb9 : pre9.Contents (Elt F) := fun j => V23 m (outsZ m) (0 : Dev nD) (pre9.ref j)
noncomputable def tb10 : pre10.Contents (Elt F) := fun j => V25 m (outsZ m) (0 : Dev nD) (pre10.ref j)

variable (hR : InRange m)

noncomputable def adm : (p : Fin 14) → (pcfgs (F := F) p).Adm
  | ⟨0, _⟩ => ⟨tb0 m, ok0_of_inb (tb0 m) fun k => tbl0_inb m hR.h2 0 k⟩
  | ⟨1, _⟩ => ⟨tb1 m, ok1_of_inb (tb1 m) fun k => tbl1_inb m (outsZ m) hR.h1 hR.h3 0 k⟩
  | ⟨2, _⟩ => ⟨tb2 m, ok2_of_inb (tb2 m) fun k => tbl2_inb m (outsZ m) hR.h1 hR.h3 0 k⟩
  | ⟨3, _⟩ => ⟨tb3 m, ok3_of_inb (tb3 m) fun k => tbl3_inb m (outsZ m) hR.h1 hR.h4 0 k⟩
  | ⟨4, _⟩ => ⟨tb4 m, ok4_of_inb (tb4 m) fun k => tbl4_inb m (outsZ m) hR.h1 hR.h4 0 k⟩
  | ⟨5, _⟩ => ⟨tb5 m, ok5_of_inb (tb5 m) fun k => tbl5_inb m (outsZ m) hR.h1 hR.h4 0 k⟩
  | ⟨6, _⟩ => ⟨tb6 m, ok6_of_inb (tb6 m) fun k => tbl6_inb m (outsZ m) hR.h1 hR.h4 0 k⟩
  | ⟨7, _⟩ => ⟨tb7 m, ok7_of_inb (tb7 m) fun k => tbl7_inb m (outsZ m) hR.h1 hR.h4 0 k⟩
  | ⟨8, _⟩ => ⟨tb8 m, ok8_of_inb (tb8 m) fun k => tbl8_inb m (outsZ m) hR.h1 hR.h4 0 k⟩
  | ⟨9, _⟩ => ⟨tb9 m, ok9_of_inb (tb9 m) fun k => tbl9_inb m (outsZ m) hR.h1 hR.h4 0 k⟩
  | ⟨10, _⟩ => ⟨tb10 m, ok10_of_inb (tb10 m) fun k => tbl10_inb m (outsZ m) hR.h1 hR.h4 0 k⟩
  | ⟨11, _⟩ => cfg11.toPCfg_adm
  | ⟨12, _⟩ => cfg12.toPCfg_adm
  | ⟨13, _⟩ => cfg13.toPCfg_adm
  | ⟨_ + 14, h⟩ => absurd h (Nat.not_lt.2 (Nat.le_add_left _ _))

noncomputable def A0 (c : Dev nD) (w : Fin (cfg0 (adm m hR 0)).W) : Buf (Elt F) (((cfg0 (adm m hR 0)).win w).arr.view.loc (c.tc : Thread nD τ)) :=
  V5 m c (Pipeline.arrRef spec0 w)
noncomputable def o0 (c : Dev nD) : Buf (Elt F) ((c : Thread nD τ).loc main_v21) :=
  (dat0 (adm m hR 0) (A0 m hR) c).arrAt 1 (cfg0 (adm m hR 0)).N
noncomputable def A1 (c : Dev nD) (w : Fin (cfg1 (adm m hR 1)).W) : Buf (Elt F) (((cfg1 (adm m hR 1)).win w).arr.view.loc (c.tc : Thread nD τ)) :=
  V7 m (outsZ m) c (Pipeline.arrRef spec1 w)
noncomputable def o1 (c : Dev nD) : Buf (Elt F) ((c : Thread nD τ).loc main_v26) :=
  (dat1 (adm m hR 1) (A1 m hR) c).arrAt 1 (cfg1 (adm m hR 1)).N
noncomputable def A2 (c : Dev nD) (w : Fin (cfg2 (adm m hR 2)).W) : Buf (Elt F) (((cfg2 (adm m hR 2)).win w).arr.view.loc (c.tc : Thread nD τ)) :=
  V9 m (outsZ m) c (Pipeline.arrRef spec2 w)
noncomputable def o2 (c : Dev nD) : Buf (Elt F) ((c : Thread nD τ).loc main_v31) :=
  (dat2 (adm m hR 2) (A2 m hR) c).arrAt 1 (cfg2 (adm m hR 2)).N
noncomputable def A3 (c : Dev nD) (w : Fin (cfg3 (adm m hR 3)).W) : Buf (Elt F) (((cfg3 (adm m hR 3)).win w).arr.view.loc (c.tc : Thread nD τ)) :=
  V11 m (outsZ m) c (Pipeline.arrRef spec3 w)
noncomputable def o3 (c : Dev nD) : Buf (Elt F) ((c : Thread nD τ).loc main_v37) :=
  (dat3 (adm m hR 3) (A3 m hR) c).arrAt 1 (cfg3 (adm m hR 3)).N
noncomputable def A4 (c : Dev nD) (w : Fin (cfg4 (adm m hR 4)).W) : Buf (Elt F) (((cfg4 (adm m hR 4)).win w).arr.view.loc (c.tc : Thread nD τ)) :=
  V13 m (outsZ m) c (Pipeline.arrRef spec4 w)
noncomputable def o4 (c : Dev nD) : Buf (Elt F) ((c : Thread nD τ).loc main_v41) :=
  (dat4 (adm m hR 4) (A4 m hR) c).arrAt 1 (cfg4 (adm m hR 4)).N
noncomputable def A5 (c : Dev nD) (w : Fin (cfg5 (adm m hR 5)).W) : Buf (Elt F) (((cfg5 (adm m hR 5)).win w).arr.view.loc (c.tc : Thread nD τ)) :=
  V15 m (outsZ m) c (Pipeline.arrRef spec5 w)
noncomputable def o5 (c : Dev nD) : Buf (Elt F) ((c : Thread nD τ).loc main_v45) :=
  (dat5 (adm m hR 5) (A5 m hR) c).arrAt 1 (cfg5 (adm m hR 5)).N
noncomputable def A6 (c : Dev nD) (w : Fin (cfg6 (adm m hR 6)).W) : Buf (Elt F) (((cfg6 (adm m hR 6)).win w).arr.view.loc (c.tc : Thread nD τ)) :=
  V17 m (outsZ m) c (Pipeline.arrRef spec6 w)
noncomputable def o6 (c : Dev nD) : Buf (Elt F) ((c : Thread nD τ).loc main_v49) :=
  (dat6 (adm m hR 6) (A6 m hR) c).arrAt 1 (cfg6 (adm m hR 6)).N
noncomputable def A7 (c : Dev nD) (w : Fin (cfg7 (adm m hR 7)).W) : Buf (Elt F) (((cfg7 (adm m hR 7)).win w).arr.view.loc (c.tc : Thread nD τ)) :=
  V19 m (outsZ m) c (Pipeline.arrRef spec7 w)
noncomputable def o7 (c : Dev nD) : Buf (Elt F) ((c : Thread nD τ).loc main_v53) :=
  (dat7 (adm m hR 7) (A7 m hR) c).arrAt 1 (cfg7 (adm m hR 7)).N
noncomputable def A8 (c : Dev nD) (w : Fin (cfg8 (adm m hR 8)).W) : Buf (Elt F) (((cfg8 (adm m hR 8)).win w).arr.view.loc (c.tc : Thread nD τ)) :=
  V21 m (outsZ m) c (Pipeline.arrRef spec8 w)
noncomputable def o8 (c : Dev nD) : Buf (Elt F) ((c : Thread nD τ).loc main_v57) :=
  (dat8 (adm m hR 8) (A8 m hR) c).arrAt 1 (cfg8 (adm m hR 8)).N
noncomputable def A9 (c : Dev nD) (w : Fin (cfg9 (adm m hR 9)).W) : Buf (Elt F) (((cfg9 (adm m hR 9)).win w).arr.view.loc (c.tc : Thread nD τ)) :=
  V23 m (outsZ m) c (Pipeline.arrRef spec9 w)
noncomputable def o9 (c : Dev nD) : Buf (Elt F) ((c : Thread nD τ).loc main_v61) :=
  (dat9 (adm m hR 9) (A9 m hR) c).arrAt 1 (cfg9 (adm m hR 9)).N
noncomputable def A10 (c : Dev nD) (w : Fin (cfg10 (adm m hR 10)).W) : Buf (Elt F) (((cfg10 (adm m hR 10)).win w).arr.view.loc (c.tc : Thread nD τ)) :=
  V25 m (outsZ m) c (Pipeline.arrRef spec10 w)
noncomputable def o10 (c : Dev nD) : Buf (Elt F) ((c : Thread nD τ).loc main_v65) :=
  (dat10 (adm m hR 10) (A10 m hR) c).arrAt 1 (cfg10 (adm m hR 10)).N

noncomputable def outsG : Outs (F := F) := fun j r c => match j with
  | 6 => Function.update (fun r' => m ((c : Thread nD τ).loc r')) main_v21 (o0 m hR c) r
  | 8 => Function.update (fun r' => m ((c : Thread nD τ).loc r')) main_v26 (o1 m hR c) r
  | 10 => Function.update (fun r' => m ((c : Thread nD τ).loc r')) main_v31 (o2 m hR c) r
  | 12 => Function.update (fun r' => m ((c : Thread nD τ).loc r')) main_v37 (o3 m hR c) r
  | 14 => Function.update (fun r' => m ((c : Thread nD τ).loc r')) main_v41 (o4 m hR c) r
  | 16 => Function.update (fun r' => m ((c : Thread nD τ).loc r')) main_v45 (o5 m hR c) r
  | 18 => Function.update (fun r' => m ((c : Thread nD τ).loc r')) main_v49 (o6 m hR c) r
  | 20 => Function.update (fun r' => m ((c : Thread nD τ).loc r')) main_v53 (o7 m hR c) r
  | 22 => Function.update (fun r' => m ((c : Thread nD τ).loc r')) main_v57 (o8 m hR c) r
  | 24 => Function.update (fun r' => m ((c : Thread nD τ).loc r')) main_v61 (o9 m hR c) r
  | 26 => Function.update (fun r' => m ((c : Thread nD τ).loc r')) main_v65 (o10 m hR c) r
  | _ => m ((c : Thread nD τ).loc r)

noncomputable def A11 (c : Dev nD) (w : Fin cfg11.W) : Buf (Elt F) ((cfg11.win w).arr.view.loc (c.tc : Thread nD τ)) :=
  V27 m (outsG m hR) c (Pipeline.arrRef spec11 w)
noncomputable def o11 (c : Dev nD) : Buf (Elt F) ((c : Thread nD τ).loc main_v68) := (dat11 (A11 m hR) c).arrAt 4 cfg11.N
noncomputable def A12 (c : Dev nD) (w : Fin cfg12.W) : Buf (Elt F) ((cfg12.win w).arr.view.loc (c.tc : Thread nD τ)) :=
  V27 m (outsG m hR) c (Pipeline.arrRef spec12 w)
noncomputable def o12 (c : Dev nD) : Buf (Elt F) ((c : Thread nD τ).loc main_v69) := (dat12 (A12 m hR) c).arrAt 4 cfg12.N

noncomputable def outsM : Outs (F := F) := fun j r c => match j with
  | 6 => Function.update (fun r' => m ((c : Thread nD τ).loc r')) main_v21 (o0 m hR c) r
  | 8 => Function.update (fun r' => m ((c : Thread nD τ).loc r')) main_v26 (o1 m hR c) r
  | 10 => Function.update (fun r' => m ((c : Thread nD τ).loc r')) main_v31 (o2 m hR c) r
  | 12 => Function.update (fun r' => m ((c : Thread nD τ).loc r')) main_v37 (o3 m hR c) r
  | 14 => Function.update (fun r' => m ((c : Thread nD τ).loc r')) main_v41 (o4 m hR c) r
  | 16 => Function.update (fun r' => m ((c : Thread nD τ).loc r')) main_v45 (o5 m hR c) r
  | 18 => Function.update (fun r' => m ((c : Thread nD τ).loc r')) main_v49 (o6 m hR c) r
  | 20 => Function.update (fun r' => m ((c : Thread nD τ).loc r')) main_v53 (o7 m hR c) r
  | 22 => Function.update (fun r' => m ((c : Thread nD τ).loc r')) main_v57 (o8 m hR c) r
  | 24 => Function.update (fun r' => m ((c : Thread nD τ).loc r')) main_v61 (o9 m hR c) r
  | 26 => Function.update (fun r' => m ((c : Thread nD τ).loc r')) main_v65 (o10 m hR c) r
  | 28 => Function.update (fun r' => m ((c : Thread nD τ).loc r')) main_v68 (o11 m hR c) r
  | 29 => Function.update (fun r' => m ((c : Thread nD τ).loc r')) main_v69 (o12 m hR c) r
  | _ => m ((c : Thread nD τ).loc r)

noncomputable def A13 (c : Dev nD) (w : Fin cfg13.W) : Buf (Elt F) ((cfg13.win w).arr.view.loc (c.tc : Thread nD τ)) :=
  V30 m (outsM m hR) c (Pipeline.arrRef spec13 w)
noncomputable def o13 (c : Dev nD) : Buf (Elt F) ((c : Thread nD τ).loc main_v74) := (dat13 (A13 m hR) c).arrAt 4 cfg13.N

noncomputable def outs : Outs (F := F) := fun j r c => match j with
  | 6 => Function.update (fun r' => m ((c : Thread nD τ).loc r')) main_v21 (o0 m hR c) r
  | 8 => Function.update (fun r' => m ((c : Thread nD τ).loc r')) main_v26 (o1 m hR c) r
  | 10 => Function.update (fun r' => m ((c : Thread nD τ).loc r')) main_v31 (o2 m hR c) r
  | 12 => Function.update (fun r' => m ((c : Thread nD τ).loc r')) main_v37 (o3 m hR c) r
  | 14 => Function.update (fun r' => m ((c : Thread nD τ).loc r')) main_v41 (o4 m hR c) r
  | 16 => Function.update (fun r' => m ((c : Thread nD τ).loc r')) main_v45 (o5 m hR c) r
  | 18 => Function.update (fun r' => m ((c : Thread nD τ).loc r')) main_v49 (o6 m hR c) r
  | 20 => Function.update (fun r' => m ((c : Thread nD τ).loc r')) main_v53 (o7 m hR c) r
  | 22 => Function.update (fun r' => m ((c : Thread nD τ).loc r')) main_v57 (o8 m hR c) r
  | 24 => Function.update (fun r' => m ((c : Thread nD τ).loc r')) main_v61 (o9 m hR c) r
  | 26 => Function.update (fun r' => m ((c : Thread nD τ).loc r')) main_v65 (o10 m hR c) r
  | 28 => Function.update (fun r' => m ((c : Thread nD τ).loc r')) main_v68 (o11 m hR c) r
  | 29 => Function.update (fun r' => m ((c : Thread nD τ).loc r')) main_v69 (o12 m hR c) r
  | 31 => Function.update (fun r' => m ((c : Thread nD τ).loc r')) main_v74 (o13 m hR c) r
  | _ => m ((c : Thread nD τ).loc r)

noncomputable def pdats : (p : Fin 14) → (c : Dev nD) → Dat τ (Elt F) Unit ℕ (UR sig nD τ) ℕ (Pipeline.pin (pcfgs (F := F)) (adm m hR) p) c
  | ⟨0, _⟩ => fun c => dat0 (adm m hR 0) (A0 m hR) c
  | ⟨1, _⟩ => fun c => dat1 (adm m hR 1) (A1 m hR) c
  | ⟨2, _⟩ => fun c => dat2 (adm m hR 2) (A2 m hR) c
  | ⟨3, _⟩ => fun c => dat3 (adm m hR 3) (A3 m hR) c
  | ⟨4, _⟩ => fun c => dat4 (adm m hR 4) (A4 m hR) c
  | ⟨5, _⟩ => fun c => dat5 (adm m hR 5) (A5 m hR) c
  | ⟨6, _⟩ => fun c => dat6 (adm m hR 6) (A6 m hR) c
  | ⟨7, _⟩ => fun c => dat7 (adm m hR 7) (A7 m hR) c
  | ⟨8, _⟩ => fun c => dat8 (adm m hR 8) (A8 m hR) c
  | ⟨9, _⟩ => fun c => dat9 (adm m hR 9) (A9 m hR) c
  | ⟨10, _⟩ => fun c => dat10 (adm m hR 10) (A10 m hR) c
  | ⟨11, _⟩ => fun c => dat11 (A11 m hR) c
  | ⟨12, _⟩ => fun c => dat12 (A12 m hR) c
  | ⟨13, _⟩ => fun c => dat13 (A13 m hR) c
  | ⟨_ + 14, h⟩ => absurd h (Nat.not_lt.2 (Nat.le_add_left _ _))

theorem outs_at0 (c : Dev nD) : outs m hR 6 main_v21 c = o0 m hR c := by
  show Function.update (fun r' => m ((c : Thread nD τ).loc r')) main_v21 (o0 m hR c) main_v21 = _
  exact Function.update_self _ _ _
theorem outs_at1 (c : Dev nD) : outs m hR 8 main_v26 c = o1 m hR c := by
  show Function.update (fun r' => m ((c : Thread nD τ).loc r')) main_v26 (o1 m hR c) main_v26 = _
  exact Function.update_self _ _ _
theorem outs_at2 (c : Dev nD) : outs m hR 10 main_v31 c = o2 m hR c := by
  show Function.update (fun r' => m ((c : Thread nD τ).loc r')) main_v31 (o2 m hR c) main_v31 = _
  exact Function.update_self _ _ _
theorem outs_at3 (c : Dev nD) : outs m hR 12 main_v37 c = o3 m hR c := by
  show Function.update (fun r' => m ((c : Thread nD τ).loc r')) main_v37 (o3 m hR c) main_v37 = _
  exact Function.update_self _ _ _
theorem outs_at4 (c : Dev nD) : outs m hR 14 main_v41 c = o4 m hR c := by
  show Function.update (fun r' => m ((c : Thread nD τ).loc r')) main_v41 (o4 m hR c) main_v41 = _
  exact Function.update_self _ _ _
theorem outs_at5 (c : Dev nD) : outs m hR 16 main_v45 c = o5 m hR c := by
  show Function.update (fun r' => m ((c : Thread nD τ).loc r')) main_v45 (o5 m hR c) main_v45 = _
  exact Function.update_self _ _ _
theorem outs_at6 (c : Dev nD) : outs m hR 18 main_v49 c = o6 m hR c := by
  show Function.update (fun r' => m ((c : Thread nD τ).loc r')) main_v49 (o6 m hR c) main_v49 = _
  exact Function.update_self _ _ _
theorem outs_at7 (c : Dev nD) : outs m hR 20 main_v53 c = o7 m hR c := by
  show Function.update (fun r' => m ((c : Thread nD τ).loc r')) main_v53 (o7 m hR c) main_v53 = _
  exact Function.update_self _ _ _
theorem outs_at8 (c : Dev nD) : outs m hR 22 main_v57 c = o8 m hR c := by
  show Function.update (fun r' => m ((c : Thread nD τ).loc r')) main_v57 (o8 m hR c) main_v57 = _
  exact Function.update_self _ _ _
theorem outs_at9 (c : Dev nD) : outs m hR 24 main_v61 c = o9 m hR c := by
  show Function.update (fun r' => m ((c : Thread nD τ).loc r')) main_v61 (o9 m hR c) main_v61 = _
  exact Function.update_self _ _ _
theorem outs_at10 (c : Dev nD) : outs m hR 26 main_v65 c = o10 m hR c := by
  show Function.update (fun r' => m ((c : Thread nD τ).loc r')) main_v65 (o10 m hR c) main_v65 = _
  exact Function.update_self _ _ _
theorem outs_at11 (c : Dev nD) : outs m hR 28 main_v68 c = o11 m hR c := by
  show Function.update (fun r' => m ((c : Thread nD τ).loc r')) main_v68 (o11 m hR c) main_v68 = _
  exact Function.update_self _ _ _
theorem outs_at12 (c : Dev nD) : outs m hR 29 main_v69 c = o12 m hR c := by
  show Function.update (fun r' => m ((c : Thread nD τ).loc r')) main_v69 (o12 m hR c) main_v69 = _
  exact Function.update_self _ _ _
theorem outs_at13 (c : Dev nD) : outs m hR 31 main_v74 c = o13 m hR c := by
  show Function.update (fun r' => m ((c : Thread nD τ).loc r')) main_v74 (o13 m hR c) main_v74 = _
  exact Function.update_self _ _ _

theorem Vout_at0 (c : Dev nD) : V6 m (outs m hR) c main_v21 = o0 m hR c :=
  (Function.update_self _ _ _).trans (outs_at0 m hR c)
theorem Vout_at1 (c : Dev nD) : V8 m (outs m hR) c main_v26 = o1 m hR c :=
  (Function.update_self _ _ _).trans (outs_at1 m hR c)
theorem Vout_at2 (c : Dev nD) : V10 m (outs m hR) c main_v31 = o2 m hR c :=
  (Function.update_self _ _ _).trans (outs_at2 m hR c)
theorem Vout_at3 (c : Dev nD) : V12 m (outs m hR) c main_v37 = o3 m hR c :=
  (Function.update_self _ _ _).trans (outs_at3 m hR c)
theorem Vout_at4 (c : Dev nD) : V14 m (outs m hR) c main_v41 = o4 m hR c :=
  (Function.update_self _ _ _).trans (outs_at4 m hR c)
theorem Vout_at5 (c : Dev nD) : V16 m (outs m hR) c main_v45 = o5 m hR c :=
  (Function.update_self _ _ _).trans (outs_at5 m hR c)
theorem Vout_at6 (c : Dev nD) : V18 m (outs m hR) c main_v49 = o6 m hR c :=
  (Function.update_self _ _ _).trans (outs_at6 m hR c)
theorem Vout_at7 (c : Dev nD) : V20 m (outs m hR) c main_v53 = o7 m hR c :=
  (Function.update_self _ _ _).trans (outs_at7 m hR c)
theorem Vout_at8 (c : Dev nD) : V22 m (outs m hR) c main_v57 = o8 m hR c :=
  (Function.update_self _ _ _).trans (outs_at8 m hR c)
theorem Vout_at9 (c : Dev nD) : V24 m (outs m hR) c main_v61 = o9 m hR c :=
  (Function.update_self _ _ _).trans (outs_at9 m hR c)
theorem Vout_at10 (c : Dev nD) : V26 m (outs m hR) c main_v65 = o10 m hR c :=
  (Function.update_self _ _ _).trans (outs_at10 m hR c)
theorem Vout_at11 (c : Dev nD) : V28 m (outs m hR) c main_v68 = o11 m hR c :=
  (Function.update_self _ _ _).trans (outs_at11 m hR c)
theorem Vout_at12 (c : Dev nD) : V29 m (outs m hR) c main_v69 = o12 m hR c :=
  (Function.update_self _ _ _).trans (outs_at12 m hR c)
theorem Vout_at13 (c : Dev nD) : V31 m (outs m hR) c main_v74 = o13 m hR c :=
  (Function.update_self _ _ _).trans (outs_at13 m hR c)

theorem adm_tbl0 : (adm m hR 0).1 = tb0 m := rfl
theorem adm_tbl1 : (adm m hR 1).1 = tb1 m := rfl
theorem adm_tbl2 : (adm m hR 2).1 = tb2 m := rfl
theorem adm_tbl3 : (adm m hR 3).1 = tb3 m := rfl
theorem adm_tbl4 : (adm m hR 4).1 = tb4 m := rfl
theorem adm_tbl5 : (adm m hR 5).1 = tb5 m := rfl
theorem adm_tbl6 : (adm m hR 6).1 = tb6 m := rfl
theorem adm_tbl7 : (adm m hR 7).1 = tb7 m := rfl
theorem adm_tbl8 : (adm m hR 8).1 = tb8 m := rfl
theorem adm_tbl9 : (adm m hR 9).1 = tb9 m := rfl
theorem adm_tbl10 : (adm m hR 10).1 = tb10 m := rfl

end Cert.Kernel.Hand

end
-- ==== Proof.Ranges.lean ====
import proofs.«401580_j65068754534945_2_alg».proof.Proof.PreRange
import proofs.«401580_j65068754534945_2_alg».proof.Proof.RunDefs
import proofs.«401580_j65068754534945_2_alg».proof.Proof.Bits.RunDefs
import proofs.«401580_j65068754534945_2_alg».proof.Defs

/-! The range conditions hold of both kernel programs' launch memories. -/

noncomputable section

namespace Cert.Proof

open Idealize.ShloMosaic Idealize.SL.Sem

theorem inRange_K (m : (ℓ : Loc Cert.Kernel.nD Cert.Kernel.τ Cert.Kernel.sig) → Buf (Elt Bits) ℓ)
    (h : Cert.Pre_Kernel (hPre_finite_inputs := Cert.Pre_finite_inputs.Gen.facts) m) : Cert.Kernel.Hand.InRange m :=
  ⟨fun c => (Cert.Hand.PreRange.ranges _ _ _ _ _ _ _ _ _ (h c)).2.1, fun c => (Cert.Hand.PreRange.ranges _ _ _ _ _ _ _ _ _ (h c)).1,
   fun c => (Cert.Hand.PreRange.ranges _ _ _ _ _ _ _ _ _ (h c)).2.2.1, fun c => (Cert.Hand.PreRange.ranges _ _ _ _ _ _ _ _ _ (h c)).2.2.2⟩

theorem inRange_KI (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) : Cert.KernelIdeal.Hand.InRange m :=
  ⟨fun c => (Cert.Hand.PreRange.ranges _ _ _ _ _ _ _ _ _ (h c)).2.1, fun c => (Cert.Hand.PreRange.ranges _ _ _ _ _ _ _ _ _ (h c)).1,
   fun c => (Cert.Hand.PreRange.ranges _ _ _ _ _ _ _ _ _ (h c)).2.2.1, fun c => (Cert.Hand.PreRange.ranges _ _ _ _ _ _ _ _ _ (h c)).2.2.2⟩

end Cert.Proof

end
-- ==== Proof.RunRegsA.lean ====
import proofs.«401580_j65068754534945_2_alg».proof.Proof.RunDefs

/-! Gather regions 0 to 5 as steps between consecutive memories of the program. -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (hR : InRange m)

theorem hA0 (c : Dev nD) (w : Fin 2) : A0 m hR c w = V5 m c (Pipeline.arrRef spec0 w) := by
  unfold A0; rfl

theorem hT0 (c : Dev nD) : V5 m c main_v20 = (adm m hR 0).1 0 := by
  rw [adm_tbl0]
  obtain rfl : c = 0 := Subsingleton.elim _ _
  rfl

theorem in_ne0 : Pipeline.arrRef spec0 (0 : Fin 2) ∉ ([main_v21] : List (Ref sig .tc)) := by decide

theorem hF0 (c : Dev nD) (w : Fin 2) :
    (dat0 (adm m hR 0) (A0 m hR) c).arrAt w (cfg0 (adm m hR 0)).N = V6 m (outs m hR) c (Pipeline.arrRef spec0 w) := by
  fin_cases w
  · show (dat0 (adm m hR 0) (A0 m hR) c).arrAt 0 (cfg0 (adm m hR 0)).N = V6 m (outs m hR) c (Pipeline.arrRef spec0 0)
    rw [(dat0 (adm m hR 0) (A0 m hR) c).arrAt_in 0 rfl, A_eq0, hA0]
    exact (V6_of m (outs m hR) c _ in_ne0).symm
  · show (dat0 (adm m hR 0) (A0 m hR) c).arrAt 1 (cfg0 (adm m hR 0)).N = V6 m (outs m hR) c (Pipeline.arrRef spec0 1)
    exact (Vout_at0 m hR c).symm

theorem hrest0 (c : Dev nD) (b : Ref sig .tc) (hb : b ∉ Finset.univ.image (Pipeline.arrRef spec0)) :
    V6 m (outs m hR) c b = V5 m c b :=
  V6_of m (outs m hR) c b fun hm => hb (by
    rw [List.mem_singleton.mp hm]; exact Finset.mem_image.mpr ⟨1, Finset.mem_univ _, rfl⟩)

noncomputable def R0 : Pipeline.RegionSeg (pcfgs (F := F)) (adm m hR) (pdats m hR) () defs₀ Variants.none Lh lvh 0 :=
  reg0 (adm m hR) (pdats m hR) (A0 m hR) (fun c => V5 m c) (fun c => V6 m (outs m hR) c) (fun _ => rfl)
    (hA0 m hR) (hT0 m hR) (hF0 m hR) (hrest0 m hR)

theorem hA1 (c : Dev nD) (w : Fin 2) : A1 m hR c w = V7 m (outs m hR) c (Pipeline.arrRef spec1 w) := by
  unfold A1
  exact (arr1_indep m (outs m hR) (outsZ m) c w).symm

theorem hT1 (c : Dev nD) : V7 m (outs m hR) c main_v25 = (adm m hR 1).1 0 := by
  rw [adm_tbl1]
  obtain rfl : c = 0 := Subsingleton.elim _ _
  exact tbl1_indep m (outs m hR) (outsZ m) 0

theorem in_ne1 : Pipeline.arrRef spec1 (0 : Fin 2) ∉ ([main_v26] : List (Ref sig .tc)) := by decide

theorem hF1 (c : Dev nD) (w : Fin 2) :
    (dat1 (adm m hR 1) (A1 m hR) c).arrAt w (cfg1 (adm m hR 1)).N = V8 m (outs m hR) c (Pipeline.arrRef spec1 w) := by
  fin_cases w
  · show (dat1 (adm m hR 1) (A1 m hR) c).arrAt 0 (cfg1 (adm m hR 1)).N = V8 m (outs m hR) c (Pipeline.arrRef spec1 0)
    rw [(dat1 (adm m hR 1) (A1 m hR) c).arrAt_in 0 rfl, A_eq1, hA1]
    exact (V8_of m (outs m hR) c _ in_ne1).symm
  · show (dat1 (adm m hR 1) (A1 m hR) c).arrAt 1 (cfg1 (adm m hR 1)).N = V8 m (outs m hR) c (Pipeline.arrRef spec1 1)
    exact (Vout_at1 m hR c).symm

theorem hrest1 (c : Dev nD) (b : Ref sig .tc) (hb : b ∉ Finset.univ.image (Pipeline.arrRef spec1)) :
    V8 m (outs m hR) c b = V7 m (outs m hR) c b :=
  V8_of m (outs m hR) c b fun hm => hb (by
    rw [List.mem_singleton.mp hm]; exact Finset.mem_image.mpr ⟨1, Finset.mem_univ _, rfl⟩)

noncomputable def R1 : Pipeline.RegionSeg (pcfgs (F := F)) (adm m hR) (pdats m hR) () defs₀ Variants.none Lh lvh 1 :=
  reg1 (adm m hR) (pdats m hR) (A1 m hR) (fun c => V7 m (outs m hR) c) (fun c => V8 m (outs m hR) c) (fun _ => rfl)
    (hA1 m hR) (hT1 m hR) (hF1 m hR) (hrest1 m hR)

theorem hA2 (c : Dev nD) (w : Fin 2) : A2 m hR c w = V9 m (outs m hR) c (Pipeline.arrRef spec2 w) := by
  unfold A2
  exact (arr2_indep m (outs m hR) (outsZ m) c w).symm

theorem hT2 (c : Dev nD) : V9 m (outs m hR) c main_v30 = (adm m hR 2).1 0 := by
  rw [adm_tbl2]
  obtain rfl : c = 0 := Subsingleton.elim _ _
  exact tbl2_indep m (outs m hR) (outsZ m) 0

theorem in_ne2 : Pipeline.arrRef spec2 (0 : Fin 2) ∉ ([main_v31] : List (Ref sig .tc)) := by decide

theorem hF2 (c : Dev nD) (w : Fin 2) :
    (dat2 (adm m hR 2) (A2 m hR) c).arrAt w (cfg2 (adm m hR 2)).N = V10 m (outs m hR) c (Pipeline.arrRef spec2 w) := by
  fin_cases w
  · show (dat2 (adm m hR 2) (A2 m hR) c).arrAt 0 (cfg2 (adm m hR 2)).N = V10 m (outs m hR) c (Pipeline.arrRef spec2 0)
    rw [(dat2 (adm m hR 2) (A2 m hR) c).arrAt_in 0 rfl, A_eq2, hA2]
    exact (V10_of m (outs m hR) c _ in_ne2).symm
  · show (dat2 (adm m hR 2) (A2 m hR) c).arrAt 1 (cfg2 (adm m hR 2)).N = V10 m (outs m hR) c (Pipeline.arrRef spec2 1)
    exact (Vout_at2 m hR c).symm

theorem hrest2 (c : Dev nD) (b : Ref sig .tc) (hb : b ∉ Finset.univ.image (Pipeline.arrRef spec2)) :
    V10 m (outs m hR) c b = V9 m (outs m hR) c b :=
  V10_of m (outs m hR) c b fun hm => hb (by
    rw [List.mem_singleton.mp hm]; exact Finset.mem_image.mpr ⟨1, Finset.mem_univ _, rfl⟩)

noncomputable def R2 : Pipeline.RegionSeg (pcfgs (F := F)) (adm m hR) (pdats m hR) () defs₀ Variants.none Lh lvh 2 :=
  reg2 (adm m hR) (pdats m hR) (A2 m hR) (fun c => V9 m (outs m hR) c) (fun c => V10 m (outs m hR) c) (fun _ => rfl)
    (hA2 m hR) (hT2 m hR) (hF2 m hR) (hrest2 m hR)

theorem hA3 (c : Dev nD) (w : Fin 2) : A3 m hR c w = V11 m (outs m hR) c (Pipeline.arrRef spec3 w) := by
  unfold A3
  exact (arr3_indep m (outs m hR) (outsZ m) c w).symm

theorem hT3 (c : Dev nD) : V11 m (outs m hR) c main_v36 = (adm m hR 3).1 0 := by
  rw [adm_tbl3]
  obtain rfl : c = 0 := Subsingleton.elim _ _
  exact tbl3_indep m (outs m hR) (outsZ m) 0

theorem in_ne3 : Pipeline.arrRef spec3 (0 : Fin 2) ∉ ([main_v37] : List (Ref sig .tc)) := by decide

theorem hF3 (c : Dev nD) (w : Fin 2) :
    (dat3 (adm m hR 3) (A3 m hR) c).arrAt w (cfg3 (adm m hR 3)).N = V12 m (outs m hR) c (Pipeline.arrRef spec3 w) := by
  fin_cases w
  · show (dat3 (adm m hR 3) (A3 m hR) c).arrAt 0 (cfg3 (adm m hR 3)).N = V12 m (outs m hR) c (Pipeline.arrRef spec3 0)
    rw [(dat3 (adm m hR 3) (A3 m hR) c).arrAt_in 0 rfl, A_eq3, hA3]
    exact (V12_of m (outs m hR) c _ in_ne3).symm
  · show (dat3 (adm m hR 3) (A3 m hR) c).arrAt 1 (cfg3 (adm m hR 3)).N = V12 m (outs m hR) c (Pipeline.arrRef spec3 1)
    exact (Vout_at3 m hR c).symm

theorem hrest3 (c : Dev nD) (b : Ref sig .tc) (hb : b ∉ Finset.univ.image (Pipeline.arrRef spec3)) :
    V12 m (outs m hR) c b = V11 m (outs m hR) c b :=
  V12_of m (outs m hR) c b fun hm => hb (by
    rw [List.mem_singleton.mp hm]; exact Finset.mem_image.mpr ⟨1, Finset.mem_univ _, rfl⟩)

noncomputable def R3 : Pipeline.RegionSeg (pcfgs (F := F)) (adm m hR) (pdats m hR) () defs₀ Variants.none Lh lvh 3 :=
  reg3 (adm m hR) (pdats m hR) (A3 m hR) (fun c => V11 m (outs m hR) c) (fun c => V12 m (outs m hR) c) (fun _ => rfl)
    (hA3 m hR) (hT3 m hR) (hF3 m hR) (hrest3 m hR)

theorem hA4 (c : Dev nD) (w : Fin 2) : A4 m hR c w = V13 m (outs m hR) c (Pipeline.arrRef spec4 w) := by
  unfold A4
  exact (arr4_indep m (outs m hR) (outsZ m) c w).symm

theorem hT4 (c : Dev nD) : V13 m (outs m hR) c main_v40 = (adm m hR 4).1 0 := by
  rw [adm_tbl4]
  obtain rfl : c = 0 := Subsingleton.elim _ _
  exact tbl4_indep m (outs m hR) (outsZ m) 0

theorem in_ne4 : Pipeline.arrRef spec4 (0 : Fin 2) ∉ ([main_v41] : List (Ref sig .tc)) := by decide

theorem hF4 (c : Dev nD) (w : Fin 2) :
    (dat4 (adm m hR 4) (A4 m hR) c).arrAt w (cfg4 (adm m hR 4)).N = V14 m (outs m hR) c (Pipeline.arrRef spec4 w) := by
  fin_cases w
  · show (dat4 (adm m hR 4) (A4 m hR) c).arrAt 0 (cfg4 (adm m hR 4)).N = V14 m (outs m hR) c (Pipeline.arrRef spec4 0)
    rw [(dat4 (adm m hR 4) (A4 m hR) c).arrAt_in 0 rfl, A_eq4, hA4]
    exact (V14_of m (outs m hR) c _ in_ne4).symm
  · show (dat4 (adm m hR 4) (A4 m hR) c).arrAt 1 (cfg4 (adm m hR 4)).N = V14 m (outs m hR) c (Pipeline.arrRef spec4 1)
    exact (Vout_at4 m hR c).symm

theorem hrest4 (c : Dev nD) (b : Ref sig .tc) (hb : b ∉ Finset.univ.image (Pipeline.arrRef spec4)) :
    V14 m (outs m hR) c b = V13 m (outs m hR) c b :=
  V14_of m (outs m hR) c b fun hm => hb (by
    rw [List.mem_singleton.mp hm]; exact Finset.mem_image.mpr ⟨1, Finset.mem_univ _, rfl⟩)

noncomputable def R4 : Pipeline.RegionSeg (pcfgs (F := F)) (adm m hR) (pdats m hR) () defs₀ Variants.none Lh lvh 4 :=
  reg4 (adm m hR) (pdats m hR) (A4 m hR) (fun c => V13 m (outs m hR) c) (fun c => V14 m (outs m hR) c) (fun _ => rfl)
    (hA4 m hR) (hT4 m hR) (hF4 m hR) (hrest4 m hR)

theorem hA5 (c : Dev nD) (w : Fin 2) : A5 m hR c w = V15 m (outs m hR) c (Pipeline.arrRef spec5 w) := by
  unfold A5
  exact (arr5_indep m (outs m hR) (outsZ m) c w).symm

theorem hT5 (c : Dev nD) : V15 m (outs m hR) c main_v44 = (adm m hR 5).1 0 := by
  rw [adm_tbl5]
  obtain rfl : c = 0 := Subsingleton.elim _ _
  exact tbl5_indep m (outs m hR) (outsZ m) 0

theorem in_ne5 : Pipeline.arrRef spec5 (0 : Fin 2) ∉ ([main_v45] : List (Ref sig .tc)) := by decide

theorem hF5 (c : Dev nD) (w : Fin 2) :
    (dat5 (adm m hR 5) (A5 m hR) c).arrAt w (cfg5 (adm m hR 5)).N = V16 m (outs m hR) c (Pipeline.arrRef spec5 w) := by
  fin_cases w
  · show (dat5 (adm m hR 5) (A5 m hR) c).arrAt 0 (cfg5 (adm m hR 5)).N = V16 m (outs m hR) c (Pipeline.arrRef spec5 0)
    rw [(dat5 (adm m hR 5) (A5 m hR) c).arrAt_in 0 rfl, A_eq5, hA5]
    exact (V16_of m (outs m hR) c _ in_ne5).symm
  · show (dat5 (adm m hR 5) (A5 m hR) c).arrAt 1 (cfg5 (adm m hR 5)).N = V16 m (outs m hR) c (Pipeline.arrRef spec5 1)
    exact (Vout_at5 m hR c).symm

theorem hrest5 (c : Dev nD) (b : Ref sig .tc) (hb : b ∉ Finset.univ.image (Pipeline.arrRef spec5)) :
    V16 m (outs m hR) c b = V15 m (outs m hR) c b :=
  V16_of m (outs m hR) c b fun hm => hb (by
    rw [List.mem_singleton.mp hm]; exact Finset.mem_image.mpr ⟨1, Finset.mem_univ _, rfl⟩)

noncomputable def R5 : Pipeline.RegionSeg (pcfgs (F := F)) (adm m hR) (pdats m hR) () defs₀ Variants.none Lh lvh 5 :=
  reg5 (adm m hR) (pdats m hR) (A5 m hR) (fun c => V15 m (outs m hR) c) (fun c => V16 m (outs m hR) c) (fun _ => rfl)
    (hA5 m hR) (hT5 m hR) (hF5 m hR) (hrest5 m hR)

end Cert.KernelIdeal.Hand

end
-- ==== Proof.RunRegsB.lean ====
import proofs.«401580_j65068754534945_2_alg».proof.Proof.RunDefs

/-! Gather regions 6 to 10 as steps between consecutive memories of the program. -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (hR : InRange m)

theorem hA6 (c : Dev nD) (w : Fin 2) : A6 m hR c w = V17 m (outs m hR) c (Pipeline.arrRef spec6 w) := by
  unfold A6
  exact (arr6_indep m (outs m hR) (outsZ m) c w).symm

theorem hT6 (c : Dev nD) : V17 m (outs m hR) c main_v48 = (adm m hR 6).1 0 := by
  rw [adm_tbl6]
  obtain rfl : c = 0 := Subsingleton.elim _ _
  exact tbl6_indep m (outs m hR) (outsZ m) 0

theorem in_ne6 : Pipeline.arrRef spec6 (0 : Fin 2) ∉ ([main_v49] : List (Ref sig .tc)) := by decide

theorem hF6 (c : Dev nD) (w : Fin 2) :
    (dat6 (adm m hR 6) (A6 m hR) c).arrAt w (cfg6 (adm m hR 6)).N = V18 m (outs m hR) c (Pipeline.arrRef spec6 w) := by
  fin_cases w
  · show (dat6 (adm m hR 6) (A6 m hR) c).arrAt 0 (cfg6 (adm m hR 6)).N = V18 m (outs m hR) c (Pipeline.arrRef spec6 0)
    rw [(dat6 (adm m hR 6) (A6 m hR) c).arrAt_in 0 rfl, A_eq6, hA6]
    exact (V18_of m (outs m hR) c _ in_ne6).symm
  · show (dat6 (adm m hR 6) (A6 m hR) c).arrAt 1 (cfg6 (adm m hR 6)).N = V18 m (outs m hR) c (Pipeline.arrRef spec6 1)
    exact (Vout_at6 m hR c).symm

theorem hrest6 (c : Dev nD) (b : Ref sig .tc) (hb : b ∉ Finset.univ.image (Pipeline.arrRef spec6)) :
    V18 m (outs m hR) c b = V17 m (outs m hR) c b :=
  V18_of m (outs m hR) c b fun hm => hb (by
    rw [List.mem_singleton.mp hm]; exact Finset.mem_image.mpr ⟨1, Finset.mem_univ _, rfl⟩)

noncomputable def R6 : Pipeline.RegionSeg (pcfgs (F := F)) (adm m hR) (pdats m hR) () defs₀ Variants.none Lh lvh 6 :=
  reg6 (adm m hR) (pdats m hR) (A6 m hR) (fun c => V17 m (outs m hR) c) (fun c => V18 m (outs m hR) c) (fun _ => rfl)
    (hA6 m hR) (hT6 m hR) (hF6 m hR) (hrest6 m hR)

theorem hA7 (c : Dev nD) (w : Fin 2) : A7 m hR c w = V19 m (outs m hR) c (Pipeline.arrRef spec7 w) := by
  unfold A7
  exact (arr7_indep m (outs m hR) (outsZ m) c w).symm

theorem hT7 (c : Dev nD) : V19 m (outs m hR) c main_v52 = (adm m hR 7).1 0 := by
  rw [adm_tbl7]
  obtain rfl : c = 0 := Subsingleton.elim _ _
  exact tbl7_indep m (outs m hR) (outsZ m) 0

theorem in_ne7 : Pipeline.arrRef spec7 (0 : Fin 2) ∉ ([main_v53] : List (Ref sig .tc)) := by decide

theorem hF7 (c : Dev nD) (w : Fin 2) :
    (dat7 (adm m hR 7) (A7 m hR) c).arrAt w (cfg7 (adm m hR 7)).N = V20 m (outs m hR) c (Pipeline.arrRef spec7 w) := by
  fin_cases w
  · show (dat7 (adm m hR 7) (A7 m hR) c).arrAt 0 (cfg7 (adm m hR 7)).N = V20 m (outs m hR) c (Pipeline.arrRef spec7 0)
    rw [(dat7 (adm m hR 7) (A7 m hR) c).arrAt_in 0 rfl, A_eq7, hA7]
    exact (V20_of m (outs m hR) c _ in_ne7).symm
  · show (dat7 (adm m hR 7) (A7 m hR) c).arrAt 1 (cfg7 (adm m hR 7)).N = V20 m (outs m hR) c (Pipeline.arrRef spec7 1)
    exact (Vout_at7 m hR c).symm

theorem hrest7 (c : Dev nD) (b : Ref sig .tc) (hb : b ∉ Finset.univ.image (Pipeline.arrRef spec7)) :
    V20 m (outs m hR) c b = V19 m (outs m hR) c b :=
  V20_of m (outs m hR) c b fun hm => hb (by
    rw [List.mem_singleton.mp hm]; exact Finset.mem_image.mpr ⟨1, Finset.mem_univ _, rfl⟩)

noncomputable def R7 : Pipeline.RegionSeg (pcfgs (F := F)) (adm m hR) (pdats m hR) () defs₀ Variants.none Lh lvh 7 :=
  reg7 (adm m hR) (pdats m hR) (A7 m hR) (fun c => V19 m (outs m hR) c) (fun c => V20 m (outs m hR) c) (fun _ => rfl)
    (hA7 m hR) (hT7 m hR) (hF7 m hR) (hrest7 m hR)

theorem hA8 (c : Dev nD) (w : Fin 2) : A8 m hR c w = V21 m (outs m hR) c (Pipeline.arrRef spec8 w) := by
  unfold A8
  exact (arr8_indep m (outs m hR) (outsZ m) c w).symm

theorem hT8 (c : Dev nD) : V21 m (outs m hR) c main_v56 = (adm m hR 8).1 0 := by
  rw [adm_tbl8]
  obtain rfl : c = 0 := Subsingleton.elim _ _
  exact tbl8_indep m (outs m hR) (outsZ m) 0

theorem in_ne8 : Pipeline.arrRef spec8 (0 : Fin 2) ∉ ([main_v57] : List (Ref sig .tc)) := by decide

theorem hF8 (c : Dev nD) (w : Fin 2) :
    (dat8 (adm m hR 8) (A8 m hR) c).arrAt w (cfg8 (adm m hR 8)).N = V22 m (outs m hR) c (Pipeline.arrRef spec8 w) := by
  fin_cases w
  · show (dat8 (adm m hR 8) (A8 m hR) c).arrAt 0 (cfg8 (adm m hR 8)).N = V22 m (outs m hR) c (Pipeline.arrRef spec8 0)
    rw [(dat8 (adm m hR 8) (A8 m hR) c).arrAt_in 0 rfl, A_eq8, hA8]
    exact (V22_of m (outs m hR) c _ in_ne8).symm
  · show (dat8 (adm m hR 8) (A8 m hR) c).arrAt 1 (cfg8 (adm m hR 8)).N = V22 m (outs m hR) c (Pipeline.arrRef spec8 1)
    exact (Vout_at8 m hR c).symm

theorem hrest8 (c : Dev nD) (b : Ref sig .tc) (hb : b ∉ Finset.univ.image (Pipeline.arrRef spec8)) :
    V22 m (outs m hR) c b = V21 m (outs m hR) c b :=
  V22_of m (outs m hR) c b fun hm => hb (by
    rw [List.mem_singleton.mp hm]; exact Finset.mem_image.mpr ⟨1, Finset.mem_univ _, rfl⟩)

noncomputable def R8 : Pipeline.RegionSeg (pcfgs (F := F)) (adm m hR) (pdats m hR) () defs₀ Variants.none Lh lvh 8 :=
  reg8 (adm m hR) (pdats m hR) (A8 m hR) (fun c => V21 m (outs m hR) c) (fun c => V22 m (outs m hR) c) (fun _ => rfl)
    (hA8 m hR) (hT8 m hR) (hF8 m hR) (hrest8 m hR)

theorem hA9 (c : Dev nD) (w : Fin 2) : A9 m hR c w = V23 m (outs m hR) c (Pipeline.arrRef spec9 w) := by
  unfold A9
  exact (arr9_indep m (outs m hR) (outsZ m) c w).symm

theorem hT9 (c : Dev nD) : V23 m (outs m hR) c main_v60 = (adm m hR 9).1 0 := by
  rw [adm_tbl9]
  obtain rfl : c = 0 := Subsingleton.elim _ _
  exact tbl9_indep m (outs m hR) (outsZ m) 0

theorem in_ne9 : Pipeline.arrRef spec9 (0 : Fin 2) ∉ ([main_v61] : List (Ref sig .tc)) := by decide

theorem hF9 (c : Dev nD) (w : Fin 2) :
    (dat9 (adm m hR 9) (A9 m hR) c).arrAt w (cfg9 (adm m hR 9)).N = V24 m (outs m hR) c (Pipeline.arrRef spec9 w) := by
  fin_cases w
  · show (dat9 (adm m hR 9) (A9 m hR) c).arrAt 0 (cfg9 (adm m hR 9)).N = V24 m (outs m hR) c (Pipeline.arrRef spec9 0)
    rw [(dat9 (adm m hR 9) (A9 m hR) c).arrAt_in 0 rfl, A_eq9, hA9]
    exact (V24_of m (outs m hR) c _ in_ne9).symm
  · show (dat9 (adm m hR 9) (A9 m hR) c).arrAt 1 (cfg9 (adm m hR 9)).N = V24 m (outs m hR) c (Pipeline.arrRef spec9 1)
    exact (Vout_at9 m hR c).symm

theorem hrest9 (c : Dev nD) (b : Ref sig .tc) (hb : b ∉ Finset.univ.image (Pipeline.arrRef spec9)) :
    V24 m (outs m hR) c b = V23 m (outs m hR) c b :=
  V24_of m (outs m hR) c b fun hm => hb (by
    rw [List.mem_singleton.mp hm]; exact Finset.mem_image.mpr ⟨1, Finset.mem_univ _, rfl⟩)

noncomputable def R9 : Pipeline.RegionSeg (pcfgs (F := F)) (adm m hR) (pdats m hR) () defs₀ Variants.none Lh lvh 9 :=
  reg9 (adm m hR) (pdats m hR) (A9 m hR) (fun c => V23 m (outs m hR) c) (fun c => V24 m (outs m hR) c) (fun _ => rfl)
    (hA9 m hR) (hT9 m hR) (hF9 m hR) (hrest9 m hR)

theorem hA10 (c : Dev nD) (w : Fin 2) : A10 m hR c w = V25 m (outs m hR) c (Pipeline.arrRef spec10 w) := by
  unfold A10
  exact (arr10_indep m (outs m hR) (outsZ m) c w).symm

theorem hT10 (c : Dev nD) : V25 m (outs m hR) c main_v64 = (adm m hR 10).1 0 := by
  rw [adm_tbl10]
  obtain rfl : c = 0 := Subsingleton.elim _ _
  exact tbl10_indep m (outs m hR) (outsZ m) 0

theorem in_ne10 : Pipeline.arrRef spec10 (0 : Fin 2) ∉ ([main_v65] : List (Ref sig .tc)) := by decide

theorem hF10 (c : Dev nD) (w : Fin 2) :
    (dat10 (adm m hR 10) (A10 m hR) c).arrAt w (cfg10 (adm m hR 10)).N = V26 m (outs m hR) c (Pipeline.arrRef spec10 w) := by
  fin_cases w
  · show (dat10 (adm m hR 10) (A10 m hR) c).arrAt 0 (cfg10 (adm m hR 10)).N = V26 m (outs m hR) c (Pipeline.arrRef spec10 0)
    rw [(dat10 (adm m hR 10) (A10 m hR) c).arrAt_in 0 rfl, A_eq10, hA10]
    exact (V26_of m (outs m hR) c _ in_ne10).symm
  · show (dat10 (adm m hR 10) (A10 m hR) c).arrAt 1 (cfg10 (adm m hR 10)).N = V26 m (outs m hR) c (Pipeline.arrRef spec10 1)
    exact (Vout_at10 m hR c).symm

theorem hrest10 (c : Dev nD) (b : Ref sig .tc) (hb : b ∉ Finset.univ.image (Pipeline.arrRef spec10)) :
    V26 m (outs m hR) c b = V25 m (outs m hR) c b :=
  V26_of m (outs m hR) c b fun hm => hb (by
    rw [List.mem_singleton.mp hm]; exact Finset.mem_image.mpr ⟨1, Finset.mem_univ _, rfl⟩)

noncomputable def R10 : Pipeline.RegionSeg (pcfgs (F := F)) (adm m hR) (pdats m hR) () defs₀ Variants.none Lh lvh 10 :=
  reg10 (adm m hR) (pdats m hR) (A10 m hR) (fun c => V25 m (outs m hR) c) (fun c => V26 m (outs m hR) c) (fun _ => rfl)
    (hA10 m hR) (hT10 m hR) (hF10 m hR) (hrest10 m hR)

end Cert.KernelIdeal.Hand

end
-- ==== Proof.RunStage.lean ====
import proofs.«401580_j65068754534945_2_alg».proof.Proof.RunDefs

/-! Before each matrix region the memory depends only on what the earlier regions left in their outputs. -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

theorem V27_congr (X Y : Outs (F := F)) (c : Dev nD) (h6 : X 6 main_v21 c = Y 6 main_v21 c) (h8 : X 8 main_v26 c = Y 8 main_v26 c) (h10 : X 10 main_v31 c = Y 10 main_v31 c) (h12 : X 12 main_v37 c = Y 12 main_v37 c) (h14 : X 14 main_v41 c = Y 14 main_v41 c) (h16 : X 16 main_v45 c = Y 16 main_v45 c) (h18 : X 18 main_v49 c = Y 18 main_v49 c) (h20 : X 20 main_v53 c = Y 20 main_v53 c) (h22 : X 22 main_v57 c = Y 22 main_v57 c) (h24 : X 24 main_v61 c = Y 24 main_v61 c) (h26 : X 26 main_v65 c = Y 26 main_v65 c) :
    V27 m X c = V27 m Y c := by
  have e6 : V6 m X c = V6 m Y c := by
    show Function.update (V5 m c) _ (X 6 main_v21 c) = Function.update (V5 m c) _ (Y 6 main_v21 c)
    rw [h6]
  have e7 : V7 m X c = V7 m Y c := congrArg (StableHlo.after hostOps1) e6
  have e8 : V8 m X c = V8 m Y c := by
    show Function.update (V7 m X c) _ (X 8 main_v26 c) = Function.update (V7 m Y c) _ (Y 8 main_v26 c)
    rw [e7, h8]
  have e9 : V9 m X c = V9 m Y c := congrArg (StableHlo.after hostOps2) e8
  have e10 : V10 m X c = V10 m Y c := by
    show Function.update (V9 m X c) _ (X 10 main_v31 c) = Function.update (V9 m Y c) _ (Y 10 main_v31 c)
    rw [e9, h10]
  have e11 : V11 m X c = V11 m Y c := congrArg (StableHlo.after hostOps3) e10
  have e12 : V12 m X c = V12 m Y c := by
    show Function.update (V11 m X c) _ (X 12 main_v37 c) = Function.update (V11 m Y c) _ (Y 12 main_v37 c)
    rw [e11, h12]
  have e13 : V13 m X c = V13 m Y c := congrArg (StableHlo.after hostOps4) e12
  have e14 : V14 m X c = V14 m Y c := by
    show Function.update (V13 m X c) _ (X 14 main_v41 c) = Function.update (V13 m Y c) _ (Y 14 main_v41 c)
    rw [e13, h14]
  have e15 : V15 m X c = V15 m Y c := congrArg (StableHlo.after hostOps5) e14
  have e16 : V16 m X c = V16 m Y c := by
    show Function.update (V15 m X c) _ (X 16 main_v45 c) = Function.update (V15 m Y c) _ (Y 16 main_v45 c)
    rw [e15, h16]
  have e17 : V17 m X c = V17 m Y c := congrArg (StableHlo.after hostOps6) e16
  have e18 : V18 m X c = V18 m Y c := by
    show Function.update (V17 m X c) _ (X 18 main_v49 c) = Function.update (V17 m Y c) _ (Y 18 main_v49 c)
    rw [e17, h18]
  have e19 : V19 m X c = V19 m Y c := congrArg (StableHlo.after hostOps7) e18
  have e20 : V20 m X c = V20 m Y c := by
    show Function.update (V19 m X c) _ (X 20 main_v53 c) = Function.update (V19 m Y c) _ (Y 20 main_v53 c)
    rw [e19, h20]
  have e21 : V21 m X c = V21 m Y c := congrArg (StableHlo.after hostOps8) e20
  have e22 : V22 m X c = V22 m Y c := by
    show Function.update (V21 m X c) _ (X 22 main_v57 c) = Function.update (V21 m Y c) _ (Y 22 main_v57 c)
    rw [e21, h22]
  have e23 : V23 m X c = V23 m Y c := congrArg (StableHlo.after hostOps9) e22
  have e24 : V24 m X c = V24 m Y c := by
    show Function.update (V23 m X c) _ (X 24 main_v61 c) = Function.update (V23 m Y c) _ (Y 24 main_v61 c)
    rw [e23, h24]
  have e25 : V25 m X c = V25 m Y c := congrArg (StableHlo.after hostOps10) e24
  have e26 : V26 m X c = V26 m Y c := by
    show Function.update (V25 m X c) _ (X 26 main_v65 c) = Function.update (V25 m Y c) _ (Y 26 main_v65 c)
    rw [e25, h26]
  have e27 : V27 m X c = V27 m Y c := congrArg (StableHlo.after hostOps11) e26
  exact e27

theorem V30_congr (X Y : Outs (F := F)) (c : Dev nD) (h6 : X 6 main_v21 c = Y 6 main_v21 c) (h8 : X 8 main_v26 c = Y 8 main_v26 c) (h10 : X 10 main_v31 c = Y 10 main_v31 c) (h12 : X 12 main_v37 c = Y 12 main_v37 c) (h14 : X 14 main_v41 c = Y 14 main_v41 c) (h16 : X 16 main_v45 c = Y 16 main_v45 c) (h18 : X 18 main_v49 c = Y 18 main_v49 c) (h20 : X 20 main_v53 c = Y 20 main_v53 c) (h22 : X 22 main_v57 c = Y 22 main_v57 c) (h24 : X 24 main_v61 c = Y 24 main_v61 c) (h26 : X 26 main_v65 c = Y 26 main_v65 c) (h28 : X 28 main_v68 c = Y 28 main_v68 c) (h29 : X 29 main_v69 c = Y 29 main_v69 c) :
    V30 m X c = V30 m Y c := by
  have e6 : V6 m X c = V6 m Y c := by
    show Function.update (V5 m c) _ (X 6 main_v21 c) = Function.update (V5 m c) _ (Y 6 main_v21 c)
    rw [h6]
  have e7 : V7 m X c = V7 m Y c := congrArg (StableHlo.after hostOps1) e6
  have e8 : V8 m X c = V8 m Y c := by
    show Function.update (V7 m X c) _ (X 8 main_v26 c) = Function.update (V7 m Y c) _ (Y 8 main_v26 c)
    rw [e7, h8]
  have e9 : V9 m X c = V9 m Y c := congrArg (StableHlo.after hostOps2) e8
  have e10 : V10 m X c = V10 m Y c := by
    show Function.update (V9 m X c) _ (X 10 main_v31 c) = Function.update (V9 m Y c) _ (Y 10 main_v31 c)
    rw [e9, h10]
  have e11 : V11 m X c = V11 m Y c := congrArg (StableHlo.after hostOps3) e10
  have e12 : V12 m X c = V12 m Y c := by
    show Function.update (V11 m X c) _ (X 12 main_v37 c) = Function.update (V11 m Y c) _ (Y 12 main_v37 c)
    rw [e11, h12]
  have e13 : V13 m X c = V13 m Y c := congrArg (StableHlo.after hostOps4) e12
  have e14 : V14 m X c = V14 m Y c := by
    show Function.update (V13 m X c) _ (X 14 main_v41 c) = Function.update (V13 m Y c) _ (Y 14 main_v41 c)
    rw [e13, h14]
  have e15 : V15 m X c = V15 m Y c := congrArg (StableHlo.after hostOps5) e14
  have e16 : V16 m X c = V16 m Y c := by
    show Function.update (V15 m X c) _ (X 16 main_v45 c) = Function.update (V15 m Y c) _ (Y 16 main_v45 c)
    rw [e15, h16]
  have e17 : V17 m X c = V17 m Y c := congrArg (StableHlo.after hostOps6) e16
  have e18 : V18 m X c = V18 m Y c := by
    show Function.update (V17 m X c) _ (X 18 main_v49 c) = Function.update (V17 m Y c) _ (Y 18 main_v49 c)
    rw [e17, h18]
  have e19 : V19 m X c = V19 m Y c := congrArg (StableHlo.after hostOps7) e18
  have e20 : V20 m X c = V20 m Y c := by
    show Function.update (V19 m X c) _ (X 20 main_v53 c) = Function.update (V19 m Y c) _ (Y 20 main_v53 c)
    rw [e19, h20]
  have e21 : V21 m X c = V21 m Y c := congrArg (StableHlo.after hostOps8) e20
  have e22 : V22 m X c = V22 m Y c := by
    show Function.update (V21 m X c) _ (X 22 main_v57 c) = Function.update (V21 m Y c) _ (Y 22 main_v57 c)
    rw [e21, h22]
  have e23 : V23 m X c = V23 m Y c := congrArg (StableHlo.after hostOps9) e22
  have e24 : V24 m X c = V24 m Y c := by
    show Function.update (V23 m X c) _ (X 24 main_v61 c) = Function.update (V23 m Y c) _ (Y 24 main_v61 c)
    rw [e23, h24]
  have e25 : V25 m X c = V25 m Y c := congrArg (StableHlo.after hostOps10) e24
  have e26 : V26 m X c = V26 m Y c := by
    show Function.update (V25 m X c) _ (X 26 main_v65 c) = Function.update (V25 m Y c) _ (Y 26 main_v65 c)
    rw [e25, h26]
  have e27 : V27 m X c = V27 m Y c := congrArg (StableHlo.after hostOps11) e26
  have e28 : V28 m X c = V28 m Y c := by
    show Function.update (V27 m X c) _ (X 28 main_v68 c) = Function.update (V27 m Y c) _ (Y 28 main_v68 c)
    rw [e27, h28]
  have e29 : V29 m X c = V29 m Y c := by
    show Function.update (V28 m X c) _ (X 29 main_v69 c) = Function.update (V28 m Y c) _ (Y 29 main_v69 c)
    rw [e28, h29]
  have e30 : V30 m X c = V30 m Y c := congrArg (StableHlo.after hostOps13) e29
  exact e30

variable (hR : InRange m)

theorem outsG_at0 (c : Dev nD) : outsG m hR 6 main_v21 c = o0 m hR c := by
  show Function.update (fun r' => m ((c : Thread nD τ).loc r')) main_v21 (o0 m hR c) main_v21 = _
  exact Function.update_self _ _ _
theorem outsM_at0 (c : Dev nD) : outsM m hR 6 main_v21 c = o0 m hR c := by
  show Function.update (fun r' => m ((c : Thread nD τ).loc r')) main_v21 (o0 m hR c) main_v21 = _
  exact Function.update_self _ _ _
theorem outsG_at1 (c : Dev nD) : outsG m hR 8 main_v26 c = o1 m hR c := by
  show Function.update (fun r' => m ((c : Thread nD τ).loc r')) main_v26 (o1 m hR c) main_v26 = _
  exact Function.update_self _ _ _
theorem outsM_at1 (c : Dev nD) : outsM m hR 8 main_v26 c = o1 m hR c := by
  show Function.update (fun r' => m ((c : Thread nD τ).loc r')) main_v26 (o1 m hR c) main_v26 = _
  exact Function.update_self _ _ _
theorem outsG_at2 (c : Dev nD) : outsG m hR 10 main_v31 c = o2 m hR c := by
  show Function.update (fun r' => m ((c : Thread nD τ).loc r')) main_v31 (o2 m hR c) main_v31 = _
  exact Function.update_self _ _ _
theorem outsM_at2 (c : Dev nD) : outsM m hR 10 main_v31 c = o2 m hR c := by
  show Function.update (fun r' => m ((c : Thread nD τ).loc r')) main_v31 (o2 m hR c) main_v31 = _
  exact Function.update_self _ _ _
theorem outsG_at3 (c : Dev nD) : outsG m hR 12 main_v37 c = o3 m hR c := by
  show Function.update (fun r' => m ((c : Thread nD τ).loc r')) main_v37 (o3 m hR c) main_v37 = _
  exact Function.update_self _ _ _
theorem outsM_at3 (c : Dev nD) : outsM m hR 12 main_v37 c = o3 m hR c := by
  show Function.update (fun r' => m ((c : Thread nD τ).loc r')) main_v37 (o3 m hR c) main_v37 = _
  exact Function.update_self _ _ _
theorem outsG_at4 (c : Dev nD) : outsG m hR 14 main_v41 c = o4 m hR c := by
  show Function.update (fun r' => m ((c : Thread nD τ).loc r')) main_v41 (o4 m hR c) main_v41 = _
  exact Function.update_self _ _ _
theorem outsM_at4 (c : Dev nD) : outsM m hR 14 main_v41 c = o4 m hR c := by
  show Function.update (fun r' => m ((c : Thread nD τ).loc r')) main_v41 (o4 m hR c) main_v41 = _
  exact Function.update_self _ _ _
theorem outsG_at5 (c : Dev nD) : outsG m hR 16 main_v45 c = o5 m hR c := by
  show Function.update (fun r' => m ((c : Thread nD τ).loc r')) main_v45 (o5 m hR c) main_v45 = _
  exact Function.update_self _ _ _
theorem outsM_at5 (c : Dev nD) : outsM m hR 16 main_v45 c = o5 m hR c := by
  show Function.update (fun r' => m ((c : Thread nD τ).loc r')) main_v45 (o5 m hR c) main_v45 = _
  exact Function.update_self _ _ _
theorem outsG_at6 (c : Dev nD) : outsG m hR 18 main_v49 c = o6 m hR c := by
  show Function.update (fun r' => m ((c : Thread nD τ).loc r')) main_v49 (o6 m hR c) main_v49 = _
  exact Function.update_self _ _ _
theorem outsM_at6 (c : Dev nD) : outsM m hR 18 main_v49 c = o6 m hR c := by
  show Function.update (fun r' => m ((c : Thread nD τ).loc r')) main_v49 (o6 m hR c) main_v49 = _
  exact Function.update_self _ _ _
theorem outsG_at7 (c : Dev nD) : outsG m hR 20 main_v53 c = o7 m hR c := by
  show Function.update (fun r' => m ((c : Thread nD τ).loc r')) main_v53 (o7 m hR c) main_v53 = _
  exact Function.update_self _ _ _
theorem outsM_at7 (c : Dev nD) : outsM m hR 20 main_v53 c = o7 m hR c := by
  show Function.update (fun r' => m ((c : Thread nD τ).loc r')) main_v53 (o7 m hR c) main_v53 = _
  exact Function.update_self _ _ _
theorem outsG_at8 (c : Dev nD) : outsG m hR 22 main_v57 c = o8 m hR c := by
  show Function.update (fun r' => m ((c : Thread nD τ).loc r')) main_v57 (o8 m hR c) main_v57 = _
  exact Function.update_self _ _ _
theorem outsM_at8 (c : Dev nD) : outsM m hR 22 main_v57 c = o8 m hR c := by
  show Function.update (fun r' => m ((c : Thread nD τ).loc r')) main_v57 (o8 m hR c) main_v57 = _
  exact Function.update_self _ _ _
theorem outsG_at9 (c : Dev nD) : outsG m hR 24 main_v61 c = o9 m hR c := by
  show Function.update (fun r' => m ((c : Thread nD τ).loc r')) main_v61 (o9 m hR c) main_v61 = _
  exact Function.update_self _ _ _
theorem outsM_at9 (c : Dev nD) : outsM m hR 24 main_v61 c = o9 m hR c := by
  show Function.update (fun r' => m ((c : Thread nD τ).loc r')) main_v61 (o9 m hR c) main_v61 = _
  exact Function.update_self _ _ _
theorem outsG_at10 (c : Dev nD) : outsG m hR 26 main_v65 c = o10 m hR c := by
  show Function.update (fun r' => m ((c : Thread nD τ).loc r')) main_v65 (o10 m hR c) main_v65 = _
  exact Function.update_self _ _ _
theorem outsM_at10 (c : Dev nD) : outsM m hR 26 main_v65 c = o10 m hR c := by
  show Function.update (fun r' => m ((c : Thread nD τ).loc r')) main_v65 (o10 m hR c) main_v65 = _
  exact Function.update_self _ _ _
theorem outsM_at11 (c : Dev nD) : outsM m hR 28 main_v68 c = o11 m hR c := by
  show Function.update (fun r' => m ((c : Thread nD τ).loc r')) main_v68 (o11 m hR c) main_v68 = _
  exact Function.update_self _ _ _
theorem outsM_at12 (c : Dev nD) : outsM m hR 29 main_v69 c = o12 m hR c := by
  show Function.update (fun r' => m ((c : Thread nD τ).loc r')) main_v69 (o12 m hR c) main_v69 = _
  exact Function.update_self _ _ _

theorem V27_stage (c : Dev nD) : V27 m (outsG m hR) c = V27 m (outs m hR) c :=
  V27_congr m _ _ c ((outsG_at0 m hR c).trans (outs_at0 m hR c).symm) ((outsG_at1 m hR c).trans (outs_at1 m hR c).symm) ((outsG_at2 m hR c).trans (outs_at2 m hR c).symm) ((outsG_at3 m hR c).trans (outs_at3 m hR c).symm) ((outsG_at4 m hR c).trans (outs_at4 m hR c).symm) ((outsG_at5 m hR c).trans (outs_at5 m hR c).symm) ((outsG_at6 m hR c).trans (outs_at6 m hR c).symm) ((outsG_at7 m hR c).trans (outs_at7 m hR c).symm) ((outsG_at8 m hR c).trans (outs_at8 m hR c).symm) ((outsG_at9 m hR c).trans (outs_at9 m hR c).symm) ((outsG_at10 m hR c).trans (outs_at10 m hR c).symm)

theorem V30_stage (c : Dev nD) : V30 m (outsM m hR) c = V30 m (outs m hR) c :=
  V30_congr m _ _ c ((outsM_at0 m hR c).trans (outs_at0 m hR c).symm) ((outsM_at1 m hR c).trans (outs_at1 m hR c).symm) ((outsM_at2 m hR c).trans (outs_at2 m hR c).symm) ((outsM_at3 m hR c).trans (outs_at3 m hR c).symm) ((outsM_at4 m hR c).trans (outs_at4 m hR c).symm) ((outsM_at5 m hR c).trans (outs_at5 m hR c).symm) ((outsM_at6 m hR c).trans (outs_at6 m hR c).symm) ((outsM_at7 m hR c).trans (outs_at7 m hR c).symm) ((outsM_at8 m hR c).trans (outs_at8 m hR c).symm) ((outsM_at9 m hR c).trans (outs_at9 m hR c).symm) ((outsM_at10 m hR c).trans (outs_at10 m hR c).symm) ((outsM_at11 m hR c).trans (outs_at11 m hR c).symm) ((outsM_at12 m hR c).trans (outs_at12 m hR c).symm)

end Cert.KernelIdeal.Hand

end
-- ==== Proof.RunRegsC.lean ====
import proofs.«401580_j65068754534945_2_alg».proof.Proof.RunStage

/-! The three matrix regions as steps between consecutive memories of the program. -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (hR : InRange m)

theorem hA11 (c : Dev nD) (w : Fin 5) : A11 m hR c w = V27 m (outs m hR) c (Pipeline.arrRef spec11 w) := by
  unfold A11; rw [V27_stage]

set_option maxHeartbeats 1000000 in
theorem hF11_out (c : Dev nD) : (dat11 (A11 m hR) c).arrAt 4 cfg11.N = V28 m (outs m hR) c (Pipeline.arrRef spec11 4) :=
  (Vout_at11 m hR c).symm

set_option maxHeartbeats 1000000 in
theorem hF11 (c : Dev nD) (w : Fin 5) :
    (dat11 (A11 m hR) c).arrAt w cfg11.N = V28 m (outs m hR) c (Pipeline.arrRef spec11 w) := by
  fin_cases w
  · show (dat11 (A11 m hR) c).arrAt 0 cfg11.N = V28 m (outs m hR) c (Pipeline.arrRef spec11 0)
    rw [(dat11 (A11 m hR) c).arrAt_in 0 rfl, A_eq11, hA11]
    exact (V28_of m (outs m hR) c _ (by decide)).symm
  · show (dat11 (A11 m hR) c).arrAt 1 cfg11.N = V28 m (outs m hR) c (Pipeline.arrRef spec11 1)
    rw [(dat11 (A11 m hR) c).arrAt_in 1 rfl, A_eq11, hA11]
    exact (V28_of m (outs m hR) c _ (by decide)).symm
  · show (dat11 (A11 m hR) c).arrAt 2 cfg11.N = V28 m (outs m hR) c (Pipeline.arrRef spec11 2)
    rw [(dat11 (A11 m hR) c).arrAt_in 2 rfl, A_eq11, hA11]
    exact (V28_of m (outs m hR) c _ (by decide)).symm
  · show (dat11 (A11 m hR) c).arrAt 3 cfg11.N = V28 m (outs m hR) c (Pipeline.arrRef spec11 3)
    rw [(dat11 (A11 m hR) c).arrAt_in 3 rfl, A_eq11, hA11]
    exact (V28_of m (outs m hR) c _ (by decide)).symm
  · exact hF11_out m hR c

theorem hrest11 (c : Dev nD) (b : Ref sig .tc) (hb : b ∉ Finset.univ.image (Pipeline.arrRef spec11)) :
    V28 m (outs m hR) c b = V27 m (outs m hR) c b :=
  V28_of m (outs m hR) c b fun hm => hb (by
    rw [List.mem_singleton.mp hm]; exact Finset.mem_image.mpr ⟨4, Finset.mem_univ _, rfl⟩)

noncomputable def R11 : Pipeline.RegionSeg (pcfgs (F := F)) (adm m hR) (pdats m hR) () defs₀ Variants.none Lh lvh 11 :=
  reg11 (adm m hR) (pdats m hR) (A11 m hR) (fun c => V27 m (outs m hR) c) (fun c => V28 m (outs m hR) c) (fun _ => rfl)
    (hA11 m hR) (hF11 m hR) (hrest11 m hR)

theorem arr12_ne (w : Fin 5) : Pipeline.arrRef spec12 w ∉ ([main_v68] : List (Ref sig .tc)) := by
  revert w; decide

theorem hA12 (c : Dev nD) (w : Fin 5) : A12 m hR c w = V28 m (outs m hR) c (Pipeline.arrRef spec12 w) := by
  unfold A12; rw [V27_stage]
  exact (V28_of m (outs m hR) c _ (arr12_ne w)).symm

set_option maxHeartbeats 1000000 in
theorem hF12_out (c : Dev nD) : (dat12 (A12 m hR) c).arrAt 4 cfg12.N = V29 m (outs m hR) c (Pipeline.arrRef spec12 4) :=
  (Vout_at12 m hR c).symm

set_option maxHeartbeats 1000000 in
theorem hF12 (c : Dev nD) (w : Fin 5) :
    (dat12 (A12 m hR) c).arrAt w cfg12.N = V29 m (outs m hR) c (Pipeline.arrRef spec12 w) := by
  fin_cases w
  · show (dat12 (A12 m hR) c).arrAt 0 cfg12.N = V29 m (outs m hR) c (Pipeline.arrRef spec12 0)
    rw [(dat12 (A12 m hR) c).arrAt_in 0 rfl, A_eq12, hA12]
    exact (V29_of m (outs m hR) c _ (by decide)).symm
  · show (dat12 (A12 m hR) c).arrAt 1 cfg12.N = V29 m (outs m hR) c (Pipeline.arrRef spec12 1)
    rw [(dat12 (A12 m hR) c).arrAt_in 1 rfl, A_eq12, hA12]
    exact (V29_of m (outs m hR) c _ (by decide)).symm
  · show (dat12 (A12 m hR) c).arrAt 2 cfg12.N = V29 m (outs m hR) c (Pipeline.arrRef spec12 2)
    rw [(dat12 (A12 m hR) c).arrAt_in 2 rfl, A_eq12, hA12]
    exact (V29_of m (outs m hR) c _ (by decide)).symm
  · show (dat12 (A12 m hR) c).arrAt 3 cfg12.N = V29 m (outs m hR) c (Pipeline.arrRef spec12 3)
    rw [(dat12 (A12 m hR) c).arrAt_in 3 rfl, A_eq12, hA12]
    exact (V29_of m (outs m hR) c _ (by decide)).symm
  · exact hF12_out m hR c

theorem hrest12 (c : Dev nD) (b : Ref sig .tc) (hb : b ∉ Finset.univ.image (Pipeline.arrRef spec12)) :
    V29 m (outs m hR) c b = V28 m (outs m hR) c b :=
  V29_of m (outs m hR) c b fun hm => hb (by
    rw [List.mem_singleton.mp hm]; exact Finset.mem_image.mpr ⟨4, Finset.mem_univ _, rfl⟩)

noncomputable def R12 : Pipeline.RegionSeg (pcfgs (F := F)) (adm m hR) (pdats m hR) () defs₀ Variants.none Lh lvh 12 :=
  reg12 (adm m hR) (pdats m hR) (A12 m hR) (fun c => V28 m (outs m hR) c) (fun c => V29 m (outs m hR) c) (fun _ => rfl)
    (hA12 m hR) (hF12 m hR) (hrest12 m hR)

theorem hA13 (c : Dev nD) (w : Fin 5) : A13 m hR c w = V30 m (outs m hR) c (Pipeline.arrRef spec13 w) := by
  unfold A13; rw [V30_stage]

set_option maxHeartbeats 1000000 in
theorem hF13_out (c : Dev nD) : (dat13 (A13 m hR) c).arrAt 4 cfg13.N = V31 m (outs m hR) c (Pipeline.arrRef spec13 4) :=
  (Vout_at13 m hR c).symm

set_option maxHeartbeats 1000000 in
theorem hF13 (c : Dev nD) (w : Fin 5) :
    (dat13 (A13 m hR) c).arrAt w cfg13.N = V31 m (outs m hR) c (Pipeline.arrRef spec13 w) := by
  fin_cases w
  · show (dat13 (A13 m hR) c).arrAt 0 cfg13.N = V31 m (outs m hR) c (Pipeline.arrRef spec13 0)
    rw [(dat13 (A13 m hR) c).arrAt_in 0 rfl, A_eq13, hA13]
    exact (V31_of m (outs m hR) c _ (by decide)).symm
  · show (dat13 (A13 m hR) c).arrAt 1 cfg13.N = V31 m (outs m hR) c (Pipeline.arrRef spec13 1)
    rw [(dat13 (A13 m hR) c).arrAt_in 1 rfl, A_eq13, hA13]
    exact (V31_of m (outs m hR) c _ (by decide)).symm
  · show (dat13 (A13 m hR) c).arrAt 2 cfg13.N = V31 m (outs m hR) c (Pipeline.arrRef spec13 2)
    rw [(dat13 (A13 m hR) c).arrAt_in 2 rfl, A_eq13, hA13]
    exact (V31_of m (outs m hR) c _ (by decide)).symm
  · show (dat13 (A13 m hR) c).arrAt 3 cfg13.N = V31 m (outs m hR) c (Pipeline.arrRef spec13 3)
    rw [(dat13 (A13 m hR) c).arrAt_in 3 rfl, A_eq13, hA13]
    exact (V31_of m (outs m hR) c _ (by decide)).symm
  · exact hF13_out m hR c

theorem hrest13 (c : Dev nD) (b : Ref sig .tc) (hb : b ∉ Finset.univ.image (Pipeline.arrRef spec13)) :
    V31 m (outs m hR) c b = V30 m (outs m hR) c b :=
  V31_of m (outs m hR) c b fun hm => hb (by
    rw [List.mem_singleton.mp hm]; exact Finset.mem_image.mpr ⟨4, Finset.mem_univ _, rfl⟩)

noncomputable def R13 : Pipeline.RegionSeg (pcfgs (F := F)) (adm m hR) (pdats m hR) () defs₀ Variants.none Lh lvh 13 :=
  reg13 (adm m hR) (pdats m hR) (A13 m hR) (fun c => V30 m (outs m hR) c) (fun c => V31 m (outs m hR) c) (fun _ => rfl)
    (hA13 m hR) (hF13 m hR) (hrest13 m hR)

end Cert.KernelIdeal.Hand

end
-- ==== Proof.RunFrame.lean ====
import proofs.«401580_j65068754534945_2_alg».proof.Proof.RunRegsA
import proofs.«401580_j65068754534945_2_alg».proof.Proof.RunRegsB
import proofs.«401580_j65068754534945_2_alg».proof.Proof.RunRegsC

/-! Every fair execution of the kernel program ends, faults nowhere and leaves its arguments unchanged. -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

theorem fund (a : (p : Fin 14) → (pcfgs (F := F) p).Adm) :
    (ownU (initOf (Pipeline.cells (Pipeline.pin (pcfgs (F := F)) a) (cellOf_inj a)) (Pipeline.launchToks (Pipeline.pin (pcfgs (F := F)) a) (cellOf_inj a))) : sProp 𝕄)
      ⊢ |={Set.univ}=> iprop(BI.own (emb₁ (initOf (Pipeline.cells (Pipeline.pin (pcfgs (F := F)) a) (cellOf_inj a)) (Pipeline.launchToks (Pipeline.pin (pcfgs (F := F)) a) (cellOf_inj a))))
          ∗ bigSep Finset.univ fun _ : Dev nD => (BI.emp : sProp 𝕄)) := by
  iintro Hu
  imodintro
  isplitl [Hu]
  · iapply (show (ownU _ : sProp 𝕄) ⊢ BI.own (emb₁ (initOf (Pipeline.cells (Pipeline.pin (pcfgs (F := F)) a) (cellOf_inj a)) (Pipeline.launchToks (Pipeline.pin (pcfgs (F := F)) a) (cellOf_inj a)))) from .rfl)
    iexact Hu
  iapply (show (BI.emp : sProp 𝕄) ⊢ bigSep Finset.univ (fun _ : Dev nD => (BI.emp : sProp 𝕄)) from by rw [BI.bigSep_emp_const])
  iempintro

set_option maxHeartbeats 4000000 in
theorem frame_hand (hR : InRange m) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_cond m (emb₁ (A := UR sig nD τ)) () Variants.none Lh lvh (fun _ _ => rfl) ρ (outs m hR) (adm m hR) (pdats m hR)
    (fun _ => 0) (fun _ => (BI.emp : sProp 𝕄)) _ (fund (adm m hR))
    (fun _ c => Rst c)
    (Pipeline.initEach Lh lvh fun c => by
      iintro ⟨⟨-, HO, -, Hp, -⟩, -⟩
      imodintro
      isplitl [Hp]; · iexists _; iexact Hp
      iexists ∅; iexact HO)
    (fun c => by iintro ⟨-, H⟩; iexact H)
    (R0 m hR) (fun _ => .rfl) (fun _ => .rfl)
    (R1 m hR) (fun _ => .rfl) (fun _ => .rfl)
    (R2 m hR) (fun _ => .rfl) (fun _ => .rfl)
    (R3 m hR) (fun _ => .rfl) (fun _ => .rfl)
    (R4 m hR) (fun _ => .rfl) (fun _ => .rfl)
    (R5 m hR) (fun _ => .rfl) (fun _ => .rfl)
    (R6 m hR) (fun _ => .rfl) (fun _ => .rfl)
    (R7 m hR) (fun _ => .rfl) (fun _ => .rfl)
    (R8 m hR) (fun _ => .rfl) (fun _ => .rfl)
    (R9 m hR) (fun _ => .rfl) (fun _ => .rfl)
    (R10 m hR) (fun _ => .rfl) (fun _ => .rfl)
    (R11 m hR) (fun _ => .rfl) (fun _ => .rfl)
    (R12 m hR) (fun _ => .rfl) (fun _ => .rfl)
    (R13 m hR) (fun _ => .rfl) (fun _ => .rfl)

end Cert.KernelIdeal.Hand

end
-- ==== Proof.Bits.RunRegsA.lean ====
import proofs.«401580_j65068754534945_2_alg».proof.Proof.Bits.RunDefs

/-! Gather regions 0 to 5 as steps between consecutive memories of the program. -/

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (hR : InRange m)

theorem hA0 (c : Dev nD) (w : Fin 2) : A0 m hR c w = V5 m c (Pipeline.arrRef spec0 w) := by
  unfold A0; rfl

theorem hT0 (c : Dev nD) : V5 m c main_v20 = (adm m hR 0).1 0 := by
  rw [adm_tbl0]
  obtain rfl : c = 0 := Subsingleton.elim _ _
  rfl

theorem in_ne0 : Pipeline.arrRef spec0 (0 : Fin 2) ∉ ([main_v21] : List (Ref sig .tc)) := by decide

theorem hF0 (c : Dev nD) (w : Fin 2) :
    (dat0 (adm m hR 0) (A0 m hR) c).arrAt w (cfg0 (adm m hR 0)).N = V6 m (outs m hR) c (Pipeline.arrRef spec0 w) := by
  fin_cases w
  · show (dat0 (adm m hR 0) (A0 m hR) c).arrAt 0 (cfg0 (adm m hR 0)).N = V6 m (outs m hR) c (Pipeline.arrRef spec0 0)
    rw [(dat0 (adm m hR 0) (A0 m hR) c).arrAt_in 0 rfl, A_eq0, hA0]
    exact (V6_of m (outs m hR) c _ in_ne0).symm
  · show (dat0 (adm m hR 0) (A0 m hR) c).arrAt 1 (cfg0 (adm m hR 0)).N = V6 m (outs m hR) c (Pipeline.arrRef spec0 1)
    exact (Vout_at0 m hR c).symm

theorem hrest0 (c : Dev nD) (b : Ref sig .tc) (hb : b ∉ Finset.univ.image (Pipeline.arrRef spec0)) :
    V6 m (outs m hR) c b = V5 m c b :=
  V6_of m (outs m hR) c b fun hm => hb (by
    rw [List.mem_singleton.mp hm]; exact Finset.mem_image.mpr ⟨1, Finset.mem_univ _, rfl⟩)

noncomputable def R0 : Pipeline.RegionSeg (pcfgs (F := F)) (adm m hR) (pdats m hR) () defs₀ Variants.none Lh lvh 0 :=
  reg0 (adm m hR) (pdats m hR) (A0 m hR) (fun c => V5 m c) (fun c => V6 m (outs m hR) c) (fun _ => rfl)
    (hA0 m hR) (hT0 m hR) (hF0 m hR) (hrest0 m hR)

theorem hA1 (c : Dev nD) (w : Fin 2) : A1 m hR c w = V7 m (outs m hR) c (Pipeline.arrRef spec1 w) := by
  unfold A1
  exact (arr1_indep m (outs m hR) (outsZ m) c w).symm

theorem hT1 (c : Dev nD) : V7 m (outs m hR) c main_v25 = (adm m hR 1).1 0 := by
  rw [adm_tbl1]
  obtain rfl : c = 0 := Subsingleton.elim _ _
  exact tbl1_indep m (outs m hR) (outsZ m) 0

theorem in_ne1 : Pipeline.arrRef spec1 (0 : Fin 2) ∉ ([main_v26] : List (Ref sig .tc)) := by decide

theorem hF1 (c : Dev nD) (w : Fin 2) :
    (dat1 (adm m hR 1) (A1 m hR) c).arrAt w (cfg1 (adm m hR 1)).N = V8 m (outs m hR) c (Pipeline.arrRef spec1 w) := by
  fin_cases w
  · show (dat1 (adm m hR 1) (A1 m hR) c).arrAt 0 (cfg1 (adm m hR 1)).N = V8 m (outs m hR) c (Pipeline.arrRef spec1 0)
    rw [(dat1 (adm m hR 1) (A1 m hR) c).arrAt_in 0 rfl, A_eq1, hA1]
    exact (V8_of m (outs m hR) c _ in_ne1).symm
  · show (dat1 (adm m hR 1) (A1 m hR) c).arrAt 1 (cfg1 (adm m hR 1)).N = V8 m (outs m hR) c (Pipeline.arrRef spec1 1)
    exact (Vout_at1 m hR c).symm

theorem hrest1 (c : Dev nD) (b : Ref sig .tc) (hb : b ∉ Finset.univ.image (Pipeline.arrRef spec1)) :
    V8 m (outs m hR) c b = V7 m (outs m hR) c b :=
  V8_of m (outs m hR) c b fun hm => hb (by
    rw [List.mem_singleton.mp hm]; exact Finset.mem_image.mpr ⟨1, Finset.mem_univ _, rfl⟩)

noncomputable def R1 : Pipeline.RegionSeg (pcfgs (F := F)) (adm m hR) (pdats m hR) () defs₀ Variants.none Lh lvh 1 :=
  reg1 (adm m hR) (pdats m hR) (A1 m hR) (fun c => V7 m (outs m hR) c) (fun c => V8 m (outs m hR) c) (fun _ => rfl)
    (hA1 m hR) (hT1 m hR) (hF1 m hR) (hrest1 m hR)

theorem hA2 (c : Dev nD) (w : Fin 2) : A2 m hR c w = V9 m (outs m hR) c (Pipeline.arrRef spec2 w) := by
  unfold A2
  exact (arr2_indep m (outs m hR) (outsZ m) c w).symm

theorem hT2 (c : Dev nD) : V9 m (outs m hR) c main_v30 = (adm m hR 2).1 0 := by
  rw [adm_tbl2]
  obtain rfl : c = 0 := Subsingleton.elim _ _
  exact tbl2_indep m (outs m hR) (outsZ m) 0

theorem in_ne2 : Pipeline.arrRef spec2 (0 : Fin 2) ∉ ([main_v31] : List (Ref sig .tc)) := by decide

theorem hF2 (c : Dev nD) (w : Fin 2) :
    (dat2 (adm m hR 2) (A2 m hR) c).arrAt w (cfg2 (adm m hR 2)).N = V10 m (outs m hR) c (Pipeline.arrRef spec2 w) := by
  fin_cases w
  · show (dat2 (adm m hR 2) (A2 m hR) c).arrAt 0 (cfg2 (adm m hR 2)).N = V10 m (outs m hR) c (Pipeline.arrRef spec2 0)
    rw [(dat2 (adm m hR 2) (A2 m hR) c).arrAt_in 0 rfl, A_eq2, hA2]
    exact (V10_of m (outs m hR) c _ in_ne2).symm
  · show (dat2 (adm m hR 2) (A2 m hR) c).arrAt 1 (cfg2 (adm m hR 2)).N = V10 m (outs m hR) c (Pipeline.arrRef spec2 1)
    exact (Vout_at2 m hR c).symm

theorem hrest2 (c : Dev nD) (b : Ref sig .tc) (hb : b ∉ Finset.univ.image (Pipeline.arrRef spec2)) :
    V10 m (outs m hR) c b = V9 m (outs m hR) c b :=
  V10_of m (outs m hR) c b fun hm => hb (by
    rw [List.mem_singleton.mp hm]; exact Finset.mem_image.mpr ⟨1, Finset.mem_univ _, rfl⟩)

noncomputable def R2 : Pipeline.RegionSeg (pcfgs (F := F)) (adm m hR) (pdats m hR) () defs₀ Variants.none Lh lvh 2 :=
  reg2 (adm m hR) (pdats m hR) (A2 m hR) (fun c => V9 m (outs m hR) c) (fun c => V10 m (outs m hR) c) (fun _ => rfl)
    (hA2 m hR) (hT2 m hR) (hF2 m hR) (hrest2 m hR)

theorem hA3 (c : Dev nD) (w : Fin 2) : A3 m hR c w = V11 m (outs m hR) c (Pipeline.arrRef spec3 w) := by
  unfold A3
  exact (arr3_indep m (outs m hR) (outsZ m) c w).symm

theorem hT3 (c : Dev nD) : V11 m (outs m hR) c main_v36 = (adm m hR 3).1 0 := by
  rw [adm_tbl3]
  obtain rfl : c = 0 := Subsingleton.elim _ _
  exact tbl3_indep m (outs m hR) (outsZ m) 0

theorem in_ne3 : Pipeline.arrRef spec3 (0 : Fin 2) ∉ ([main_v37] : List (Ref sig .tc)) := by decide

theorem hF3 (c : Dev nD) (w : Fin 2) :
    (dat3 (adm m hR 3) (A3 m hR) c).arrAt w (cfg3 (adm m hR 3)).N = V12 m (outs m hR) c (Pipeline.arrRef spec3 w) := by
  fin_cases w
  · show (dat3 (adm m hR 3) (A3 m hR) c).arrAt 0 (cfg3 (adm m hR 3)).N = V12 m (outs m hR) c (Pipeline.arrRef spec3 0)
    rw [(dat3 (adm m hR 3) (A3 m hR) c).arrAt_in 0 rfl, A_eq3, hA3]
    exact (V12_of m (outs m hR) c _ in_ne3).symm
  · show (dat3 (adm m hR 3) (A3 m hR) c).arrAt 1 (cfg3 (adm m hR 3)).N = V12 m (outs m hR) c (Pipeline.arrRef spec3 1)
    exact (Vout_at3 m hR c).symm

theorem hrest3 (c : Dev nD) (b : Ref sig .tc) (hb : b ∉ Finset.univ.image (Pipeline.arrRef spec3)) :
    V12 m (outs m hR) c b = V11 m (outs m hR) c b :=
  V12_of m (outs m hR) c b fun hm => hb (by
    rw [List.mem_singleton.mp hm]; exact Finset.mem_image.mpr ⟨1, Finset.mem_univ _, rfl⟩)

noncomputable def R3 : Pipeline.RegionSeg (pcfgs (F := F)) (adm m hR) (pdats m hR) () defs₀ Variants.none Lh lvh 3 :=
  reg3 (adm m hR) (pdats m hR) (A3 m hR) (fun c => V11 m (outs m hR) c) (fun c => V12 m (outs m hR) c) (fun _ => rfl)
    (hA3 m hR) (hT3 m hR) (hF3 m hR) (hrest3 m hR)

theorem hA4 (c : Dev nD) (w : Fin 2) : A4 m hR c w = V13 m (outs m hR) c (Pipeline.arrRef spec4 w) := by
  unfold A4
  exact (arr4_indep m (outs m hR) (outsZ m) c w).symm

theorem hT4 (c : Dev nD) : V13 m (outs m hR) c main_v40 = (adm m hR 4).1 0 := by
  rw [adm_tbl4]
  obtain rfl : c = 0 := Subsingleton.elim _ _
  exact tbl4_indep m (outs m hR) (outsZ m) 0

theorem in_ne4 : Pipeline.arrRef spec4 (0 : Fin 2) ∉ ([main_v41] : List (Ref sig .tc)) := by decide

theorem hF4 (c : Dev nD) (w : Fin 2) :
    (dat4 (adm m hR 4) (A4 m hR) c).arrAt w (cfg4 (adm m hR 4)).N = V14 m (outs m hR) c (Pipeline.arrRef spec4 w) := by
  fin_cases w
  · show (dat4 (adm m hR 4) (A4 m hR) c).arrAt 0 (cfg4 (adm m hR 4)).N = V14 m (outs m hR) c (Pipeline.arrRef spec4 0)
    rw [(dat4 (adm m hR 4) (A4 m hR) c).arrAt_in 0 rfl, A_eq4, hA4]
    exact (V14_of m (outs m hR) c _ in_ne4).symm
  · show (dat4 (adm m hR 4) (A4 m hR) c).arrAt 1 (cfg4 (adm m hR 4)).N = V14 m (outs m hR) c (Pipeline.arrRef spec4 1)
    exact (Vout_at4 m hR c).symm

theorem hrest4 (c : Dev nD) (b : Ref sig .tc) (hb : b ∉ Finset.univ.image (Pipeline.arrRef spec4)) :
    V14 m (outs m hR) c b = V13 m (outs m hR) c b :=
  V14_of m (outs m hR) c b fun hm => hb (by
    rw [List.mem_singleton.mp hm]; exact Finset.mem_image.mpr ⟨1, Finset.mem_univ _, rfl⟩)

noncomputable def R4 : Pipeline.RegionSeg (pcfgs (F := F)) (adm m hR) (pdats m hR) () defs₀ Variants.none Lh lvh 4 :=
  reg4 (adm m hR) (pdats m hR) (A4 m hR) (fun c => V13 m (outs m hR) c) (fun c => V14 m (outs m hR) c) (fun _ => rfl)
    (hA4 m hR) (hT4 m hR) (hF4 m hR) (hrest4 m hR)

theorem hA5 (c : Dev nD) (w : Fin 2) : A5 m hR c w = V15 m (outs m hR) c (Pipeline.arrRef spec5 w) := by
  unfold A5
  exact (arr5_indep m (outs m hR) (outsZ m) c w).symm

theorem hT5 (c : Dev nD) : V15 m (outs m hR) c main_v44 = (adm m hR 5).1 0 := by
  rw [adm_tbl5]
  obtain rfl : c = 0 := Subsingleton.elim _ _
  exact tbl5_indep m (outs m hR) (outsZ m) 0

theorem in_ne5 : Pipeline.arrRef spec5 (0 : Fin 2) ∉ ([main_v45] : List (Ref sig .tc)) := by decide

theorem hF5 (c : Dev nD) (w : Fin 2) :
    (dat5 (adm m hR 5) (A5 m hR) c).arrAt w (cfg5 (adm m hR 5)).N = V16 m (outs m hR) c (Pipeline.arrRef spec5 w) := by
  fin_cases w
  · show (dat5 (adm m hR 5) (A5 m hR) c).arrAt 0 (cfg5 (adm m hR 5)).N = V16 m (outs m hR) c (Pipeline.arrRef spec5 0)
    rw [(dat5 (adm m hR 5) (A5 m hR) c).arrAt_in 0 rfl, A_eq5, hA5]
    exact (V16_of m (outs m hR) c _ in_ne5).symm
  · show (dat5 (adm m hR 5) (A5 m hR) c).arrAt 1 (cfg5 (adm m hR 5)).N = V16 m (outs m hR) c (Pipeline.arrRef spec5 1)
    exact (Vout_at5 m hR c).symm

theorem hrest5 (c : Dev nD) (b : Ref sig .tc) (hb : b ∉ Finset.univ.image (Pipeline.arrRef spec5)) :
    V16 m (outs m hR) c b = V15 m (outs m hR) c b :=
  V16_of m (outs m hR) c b fun hm => hb (by
    rw [List.mem_singleton.mp hm]; exact Finset.mem_image.mpr ⟨1, Finset.mem_univ _, rfl⟩)

noncomputable def R5 : Pipeline.RegionSeg (pcfgs (F := F)) (adm m hR) (pdats m hR) () defs₀ Variants.none Lh lvh 5 :=
  reg5 (adm m hR) (pdats m hR) (A5 m hR) (fun c => V15 m (outs m hR) c) (fun c => V16 m (outs m hR) c) (fun _ => rfl)
    (hA5 m hR) (hT5 m hR) (hF5 m hR) (hrest5 m hR)

end Cert.Kernel.Hand

end
-- ==== Proof.Bits.RunRegsB.lean ====
import proofs.«401580_j65068754534945_2_alg».proof.Proof.Bits.RunDefs

/-! Gather regions 6 to 10 as steps between consecutive memories of the program. -/

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (hR : InRange m)

theorem hA6 (c : Dev nD) (w : Fin 2) : A6 m hR c w = V17 m (outs m hR) c (Pipeline.arrRef spec6 w) := by
  unfold A6
  exact (arr6_indep m (outs m hR) (outsZ m) c w).symm

theorem hT6 (c : Dev nD) : V17 m (outs m hR) c main_v48 = (adm m hR 6).1 0 := by
  rw [adm_tbl6]
  obtain rfl : c = 0 := Subsingleton.elim _ _
  exact tbl6_indep m (outs m hR) (outsZ m) 0

theorem in_ne6 : Pipeline.arrRef spec6 (0 : Fin 2) ∉ ([main_v49] : List (Ref sig .tc)) := by decide

theorem hF6 (c : Dev nD) (w : Fin 2) :
    (dat6 (adm m hR 6) (A6 m hR) c).arrAt w (cfg6 (adm m hR 6)).N = V18 m (outs m hR) c (Pipeline.arrRef spec6 w) := by
  fin_cases w
  · show (dat6 (adm m hR 6) (A6 m hR) c).arrAt 0 (cfg6 (adm m hR 6)).N = V18 m (outs m hR) c (Pipeline.arrRef spec6 0)
    rw [(dat6 (adm m hR 6) (A6 m hR) c).arrAt_in 0 rfl, A_eq6, hA6]
    exact (V18_of m (outs m hR) c _ in_ne6).symm
  · show (dat6 (adm m hR 6) (A6 m hR) c).arrAt 1 (cfg6 (adm m hR 6)).N = V18 m (outs m hR) c (Pipeline.arrRef spec6 1)
    exact (Vout_at6 m hR c).symm

theorem hrest6 (c : Dev nD) (b : Ref sig .tc) (hb : b ∉ Finset.univ.image (Pipeline.arrRef spec6)) :
    V18 m (outs m hR) c b = V17 m (outs m hR) c b :=
  V18_of m (outs m hR) c b fun hm => hb (by
    rw [List.mem_singleton.mp hm]; exact Finset.mem_image.mpr ⟨1, Finset.mem_univ _, rfl⟩)

noncomputable def R6 : Pipeline.RegionSeg (pcfgs (F := F)) (adm m hR) (pdats m hR) () defs₀ Variants.none Lh lvh 6 :=
  reg6 (adm m hR) (pdats m hR) (A6 m hR) (fun c => V17 m (outs m hR) c) (fun c => V18 m (outs m hR) c) (fun _ => rfl)
    (hA6 m hR) (hT6 m hR) (hF6 m hR) (hrest6 m hR)

theorem hA7 (c : Dev nD) (w : Fin 2) : A7 m hR c w = V19 m (outs m hR) c (Pipeline.arrRef spec7 w) := by
  unfold A7
  exact (arr7_indep m (outs m hR) (outsZ m) c w).symm

theorem hT7 (c : Dev nD) : V19 m (outs m hR) c main_v52 = (adm m hR 7).1 0 := by
  rw [adm_tbl7]
  obtain rfl : c = 0 := Subsingleton.elim _ _
  exact tbl7_indep m (outs m hR) (outsZ m) 0

theorem in_ne7 : Pipeline.arrRef spec7 (0 : Fin 2) ∉ ([main_v53] : List (Ref sig .tc)) := by decide

theorem hF7 (c : Dev nD) (w : Fin 2) :
    (dat7 (adm m hR 7) (A7 m hR) c).arrAt w (cfg7 (adm m hR 7)).N = V20 m (outs m hR) c (Pipeline.arrRef spec7 w) := by
  fin_cases w
  · show (dat7 (adm m hR 7) (A7 m hR) c).arrAt 0 (cfg7 (adm m hR 7)).N = V20 m (outs m hR) c (Pipeline.arrRef spec7 0)
    rw [(dat7 (adm m hR 7) (A7 m hR) c).arrAt_in 0 rfl, A_eq7, hA7]
    exact (V20_of m (outs m hR) c _ in_ne7).symm
  · show (dat7 (adm m hR 7) (A7 m hR) c).arrAt 1 (cfg7 (adm m hR 7)).N = V20 m (outs m hR) c (Pipeline.arrRef spec7 1)
    exact (Vout_at7 m hR c).symm

theorem hrest7 (c : Dev nD) (b : Ref sig .tc) (hb : b ∉ Finset.univ.image (Pipeline.arrRef spec7)) :
    V20 m (outs m hR) c b = V19 m (outs m hR) c b :=
  V20_of m (outs m hR) c b fun hm => hb (by
    rw [List.mem_singleton.mp hm]; exact Finset.mem_image.mpr ⟨1, Finset.mem_univ _, rfl⟩)

noncomputable def R7 : Pipeline.RegionSeg (pcfgs (F := F)) (adm m hR) (pdats m hR) () defs₀ Variants.none Lh lvh 7 :=
  reg7 (adm m hR) (pdats m hR) (A7 m hR) (fun c => V19 m (outs m hR) c) (fun c => V20 m (outs m hR) c) (fun _ => rfl)
    (hA7 m hR) (hT7 m hR) (hF7 m hR) (hrest7 m hR)

theorem hA8 (c : Dev nD) (w : Fin 2) : A8 m hR c w = V21 m (outs m hR) c (Pipeline.arrRef spec8 w) := by
  unfold A8
  exact (arr8_indep m (outs m hR) (outsZ m) c w).symm

theorem hT8 (c : Dev nD) : V21 m (outs m hR) c main_v56 = (adm m hR 8).1 0 := by
  rw [adm_tbl8]
  obtain rfl : c = 0 := Subsingleton.elim _ _
  exact tbl8_indep m (outs m hR) (outsZ m) 0

theorem in_ne8 : Pipeline.arrRef spec8 (0 : Fin 2) ∉ ([main_v57] : List (Ref sig .tc)) := by decide

theorem hF8 (c : Dev nD) (w : Fin 2) :
    (dat8 (adm m hR 8) (A8 m hR) c).arrAt w (cfg8 (adm m hR 8)).N = V22 m (outs m hR) c (Pipeline.arrRef spec8 w) := by
  fin_cases w
  · show (dat8 (adm m hR 8) (A8 m hR) c).arrAt 0 (cfg8 (adm m hR 8)).N = V22 m (outs m hR) c (Pipeline.arrRef spec8 0)
    rw [(dat8 (adm m hR 8) (A8 m hR) c).arrAt_in 0 rfl, A_eq8, hA8]
    exact (V22_of m (outs m hR) c _ in_ne8).symm
  · show (dat8 (adm m hR 8) (A8 m hR) c).arrAt 1 (cfg8 (adm m hR 8)).N = V22 m (outs m hR) c (Pipeline.arrRef spec8 1)
    exact (Vout_at8 m hR c).symm

theorem hrest8 (c : Dev nD) (b : Ref sig .tc) (hb : b ∉ Finset.univ.image (Pipeline.arrRef spec8)) :
    V22 m (outs m hR) c b = V21 m (outs m hR) c b :=
  V22_of m (outs m hR) c b fun hm => hb (by
    rw [List.mem_singleton.mp hm]; exact Finset.mem_image.mpr ⟨1, Finset.mem_univ _, rfl⟩)

noncomputable def R8 : Pipeline.RegionSeg (pcfgs (F := F)) (adm m hR) (pdats m hR) () defs₀ Variants.none Lh lvh 8 :=
  reg8 (adm m hR) (pdats m hR) (A8 m hR) (fun c => V21 m (outs m hR) c) (fun c => V22 m (outs m hR) c) (fun _ => rfl)
    (hA8 m hR) (hT8 m hR) (hF8 m hR) (hrest8 m hR)

theorem hA9 (c : Dev nD) (w : Fin 2) : A9 m hR c w = V23 m (outs m hR) c (Pipeline.arrRef spec9 w) := by
  unfold A9
  exact (arr9_indep m (outs m hR) (outsZ m) c w).symm

theorem hT9 (c : Dev nD) : V23 m (outs m hR) c main_v60 = (adm m hR 9).1 0 := by
  rw [adm_tbl9]
  obtain rfl : c = 0 := Subsingleton.elim _ _
  exact tbl9_indep m (outs m hR) (outsZ m) 0

theorem in_ne9 : Pipeline.arrRef spec9 (0 : Fin 2) ∉ ([main_v61] : List (Ref sig .tc)) := by decide

theorem hF9 (c : Dev nD) (w : Fin 2) :
    (dat9 (adm m hR 9) (A9 m hR) c).arrAt w (cfg9 (adm m hR 9)).N = V24 m (outs m hR) c (Pipeline.arrRef spec9 w) := by
  fin_cases w
  · show (dat9 (adm m hR 9) (A9 m hR) c).arrAt 0 (cfg9 (adm m hR 9)).N = V24 m (outs m hR) c (Pipeline.arrRef spec9 0)
    rw [(dat9 (adm m hR 9) (A9 m hR) c).arrAt_in 0 rfl, A_eq9, hA9]
    exact (V24_of m (outs m hR) c _ in_ne9).symm
  · show (dat9 (adm m hR 9) (A9 m hR) c).arrAt 1 (cfg9 (adm m hR 9)).N = V24 m (outs m hR) c (Pipeline.arrRef spec9 1)
    exact (Vout_at9 m hR c).symm

theorem hrest9 (c : Dev nD) (b : Ref sig .tc) (hb : b ∉ Finset.univ.image (Pipeline.arrRef spec9)) :
    V24 m (outs m hR) c b = V23 m (outs m hR) c b :=
  V24_of m (outs m hR) c b fun hm => hb (by
    rw [List.mem_singleton.mp hm]; exact Finset.mem_image.mpr ⟨1, Finset.mem_univ _, rfl⟩)

noncomputable def R9 : Pipeline.RegionSeg (pcfgs (F := F)) (adm m hR) (pdats m hR) () defs₀ Variants.none Lh lvh 9 :=
  reg9 (adm m hR) (pdats m hR) (A9 m hR) (fun c => V23 m (outs m hR) c) (fun c => V24 m (outs m hR) c) (fun _ => rfl)
    (hA9 m hR) (hT9 m hR) (hF9 m hR) (hrest9 m hR)

theorem hA10 (c : Dev nD) (w : Fin 2) : A10 m hR c w = V25 m (outs m hR) c (Pipeline.arrRef spec10 w) := by
  unfold A10
  exact (arr10_indep m (outs m hR) (outsZ m) c w).symm

theorem hT10 (c : Dev nD) : V25 m (outs m hR) c main_v64 = (adm m hR 10).1 0 := by
  rw [adm_tbl10]
  obtain rfl : c = 0 := Subsingleton.elim _ _
  exact tbl10_indep m (outs m hR) (outsZ m) 0

theorem in_ne10 : Pipeline.arrRef spec10 (0 : Fin 2) ∉ ([main_v65] : List (Ref sig .tc)) := by decide

theorem hF10 (c : Dev nD) (w : Fin 2) :
    (dat10 (adm m hR 10) (A10 m hR) c).arrAt w (cfg10 (adm m hR 10)).N = V26 m (outs m hR) c (Pipeline.arrRef spec10 w) := by
  fin_cases w
  · show (dat10 (adm m hR 10) (A10 m hR) c).arrAt 0 (cfg10 (adm m hR 10)).N = V26 m (outs m hR) c (Pipeline.arrRef spec10 0)
    rw [(dat10 (adm m hR 10) (A10 m hR) c).arrAt_in 0 rfl, A_eq10, hA10]
    exact (V26_of m (outs m hR) c _ in_ne10).symm
  · show (dat10 (adm m hR 10) (A10 m hR) c).arrAt 1 (cfg10 (adm m hR 10)).N = V26 m (outs m hR) c (Pipeline.arrRef spec10 1)
    exact (Vout_at10 m hR c).symm

theorem hrest10 (c : Dev nD) (b : Ref sig .tc) (hb : b ∉ Finset.univ.image (Pipeline.arrRef spec10)) :
    V26 m (outs m hR) c b = V25 m (outs m hR) c b :=
  V26_of m (outs m hR) c b fun hm => hb (by
    rw [List.mem_singleton.mp hm]; exact Finset.mem_image.mpr ⟨1, Finset.mem_univ _, rfl⟩)

noncomputable def R10 : Pipeline.RegionSeg (pcfgs (F := F)) (adm m hR) (pdats m hR) () defs₀ Variants.none Lh lvh 10 :=
  reg10 (adm m hR) (pdats m hR) (A10 m hR) (fun c => V25 m (outs m hR) c) (fun c => V26 m (outs m hR) c) (fun _ => rfl)
    (hA10 m hR) (hT10 m hR) (hF10 m hR) (hrest10 m hR)

end Cert.Kernel.Hand

end
-- ==== Proof.Bits.RunStage.lean ====
import proofs.«401580_j65068754534945_2_alg».proof.Proof.Bits.RunDefs

/-! Before each matrix region the memory depends only on what the earlier regions left in their outputs. -/

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

theorem V27_congr (X Y : Outs (F := F)) (c : Dev nD) (h6 : X 6 main_v21 c = Y 6 main_v21 c) (h8 : X 8 main_v26 c = Y 8 main_v26 c) (h10 : X 10 main_v31 c = Y 10 main_v31 c) (h12 : X 12 main_v37 c = Y 12 main_v37 c) (h14 : X 14 main_v41 c = Y 14 main_v41 c) (h16 : X 16 main_v45 c = Y 16 main_v45 c) (h18 : X 18 main_v49 c = Y 18 main_v49 c) (h20 : X 20 main_v53 c = Y 20 main_v53 c) (h22 : X 22 main_v57 c = Y 22 main_v57 c) (h24 : X 24 main_v61 c = Y 24 main_v61 c) (h26 : X 26 main_v65 c = Y 26 main_v65 c) :
    V27 m X c = V27 m Y c := by
  have e6 : V6 m X c = V6 m Y c := by
    show Function.update (V5 m c) _ (X 6 main_v21 c) = Function.update (V5 m c) _ (Y 6 main_v21 c)
    rw [h6]
  have e7 : V7 m X c = V7 m Y c := congrArg (StableHlo.after hostOps1) e6
  have e8 : V8 m X c = V8 m Y c := by
    show Function.update (V7 m X c) _ (X 8 main_v26 c) = Function.update (V7 m Y c) _ (Y 8 main_v26 c)
    rw [e7, h8]
  have e9 : V9 m X c = V9 m Y c := congrArg (StableHlo.after hostOps2) e8
  have e10 : V10 m X c = V10 m Y c := by
    show Function.update (V9 m X c) _ (X 10 main_v31 c) = Function.update (V9 m Y c) _ (Y 10 main_v31 c)
    rw [e9, h10]
  have e11 : V11 m X c = V11 m Y c := congrArg (StableHlo.after hostOps3) e10
  have e12 : V12 m X c = V12 m Y c := by
    show Function.update (V11 m X c) _ (X 12 main_v37 c) = Function.update (V11 m Y c) _ (Y 12 main_v37 c)
    rw [e11, h12]
  have e13 : V13 m X c = V13 m Y c := congrArg (StableHlo.after hostOps4) e12
  have e14 : V14 m X c = V14 m Y c := by
    show Function.update (V13 m X c) _ (X 14 main_v41 c) = Function.update (V13 m Y c) _ (Y 14 main_v41 c)
    rw [e13, h14]
  have e15 : V15 m X c = V15 m Y c := congrArg (StableHlo.after hostOps5) e14
  have e16 : V16 m X c = V16 m Y c := by
    show Function.update (V15 m X c) _ (X 16 main_v45 c) = Function.update (V15 m Y c) _ (Y 16 main_v45 c)
    rw [e15, h16]
  have e17 : V17 m X c = V17 m Y c := congrArg (StableHlo.after hostOps6) e16
  have e18 : V18 m X c = V18 m Y c := by
    show Function.update (V17 m X c) _ (X 18 main_v49 c) = Function.update (V17 m Y c) _ (Y 18 main_v49 c)
    rw [e17, h18]
  have e19 : V19 m X c = V19 m Y c := congrArg (StableHlo.after hostOps7) e18
  have e20 : V20 m X c = V20 m Y c := by
    show Function.update (V19 m X c) _ (X 20 main_v53 c) = Function.update (V19 m Y c) _ (Y 20 main_v53 c)
    rw [e19, h20]
  have e21 : V21 m X c = V21 m Y c := congrArg (StableHlo.after hostOps8) e20
  have e22 : V22 m X c = V22 m Y c := by
    show Function.update (V21 m X c) _ (X 22 main_v57 c) = Function.update (V21 m Y c) _ (Y 22 main_v57 c)
    rw [e21, h22]
  have e23 : V23 m X c = V23 m Y c := congrArg (StableHlo.after hostOps9) e22
  have e24 : V24 m X c = V24 m Y c := by
    show Function.update (V23 m X c) _ (X 24 main_v61 c) = Function.update (V23 m Y c) _ (Y 24 main_v61 c)
    rw [e23, h24]
  have e25 : V25 m X c = V25 m Y c := congrArg (StableHlo.after hostOps10) e24
  have e26 : V26 m X c = V26 m Y c := by
    show Function.update (V25 m X c) _ (X 26 main_v65 c) = Function.update (V25 m Y c) _ (Y 26 main_v65 c)
    rw [e25, h26]
  have e27 : V27 m X c = V27 m Y c := congrArg (StableHlo.after hostOps11) e26
  exact e27

theorem V30_congr (X Y : Outs (F := F)) (c : Dev nD) (h6 : X 6 main_v21 c = Y 6 main_v21 c) (h8 : X 8 main_v26 c = Y 8 main_v26 c) (h10 : X 10 main_v31 c = Y 10 main_v31 c) (h12 : X 12 main_v37 c = Y 12 main_v37 c) (h14 : X 14 main_v41 c = Y 14 main_v41 c) (h16 : X 16 main_v45 c = Y 16 main_v45 c) (h18 : X 18 main_v49 c = Y 18 main_v49 c) (h20 : X 20 main_v53 c = Y 20 main_v53 c) (h22 : X 22 main_v57 c = Y 22 main_v57 c) (h24 : X 24 main_v61 c = Y 24 main_v61 c) (h26 : X 26 main_v65 c = Y 26 main_v65 c) (h28 : X 28 main_v68 c = Y 28 main_v68 c) (h29 : X 29 main_v69 c = Y 29 main_v69 c) :
    V30 m X c = V30 m Y c := by
  have e6 : V6 m X c = V6 m Y c := by
    show Function.update (V5 m c) _ (X 6 main_v21 c) = Function.update (V5 m c) _ (Y 6 main_v21 c)
    rw [h6]
  have e7 : V7 m X c = V7 m Y c := congrArg (StableHlo.after hostOps1) e6
  have e8 : V8 m X c = V8 m Y c := by
    show Function.update (V7 m X c) _ (X 8 main_v26 c) = Function.update (V7 m Y c) _ (Y 8 main_v26 c)
    rw [e7, h8]
  have e9 : V9 m X c = V9 m Y c := congrArg (StableHlo.after hostOps2) e8
  have e10 : V10 m X c = V10 m Y c := by
    show Function.update (V9 m X c) _ (X 10 main_v31 c) = Function.update (V9 m Y c) _ (Y 10 main_v31 c)
    rw [e9, h10]
  have e11 : V11 m X c = V11 m Y c := congrArg (StableHlo.after hostOps3) e10
  have e12 : V12 m X c = V12 m Y c := by
    show Function.update (V11 m X c) _ (X 12 main_v37 c) = Function.update (V11 m Y c) _ (Y 12 main_v37 c)
    rw [e11, h12]
  have e13 : V13 m X c = V13 m Y c := congrArg (StableHlo.after hostOps4) e12
  have e14 : V14 m X c = V14 m Y c := by
    show Function.update (V13 m X c) _ (X 14 main_v41 c) = Function.update (V13 m Y c) _ (Y 14 main_v41 c)
    rw [e13, h14]
  have e15 : V15 m X c = V15 m Y c := congrArg (StableHlo.after hostOps5) e14
  have e16 : V16 m X c = V16 m Y c := by
    show Function.update (V15 m X c) _ (X 16 main_v45 c) = Function.update (V15 m Y c) _ (Y 16 main_v45 c)
    rw [e15, h16]
  have e17 : V17 m X c = V17 m Y c := congrArg (StableHlo.after hostOps6) e16
  have e18 : V18 m X c = V18 m Y c := by
    show Function.update (V17 m X c) _ (X 18 main_v49 c) = Function.update (V17 m Y c) _ (Y 18 main_v49 c)
    rw [e17, h18]
  have e19 : V19 m X c = V19 m Y c := congrArg (StableHlo.after hostOps7) e18
  have e20 : V20 m X c = V20 m Y c := by
    show Function.update (V19 m X c) _ (X 20 main_v53 c) = Function.update (V19 m Y c) _ (Y 20 main_v53 c)
    rw [e19, h20]
  have e21 : V21 m X c = V21 m Y c := congrArg (StableHlo.after hostOps8) e20
  have e22 : V22 m X c = V22 m Y c := by
    show Function.update (V21 m X c) _ (X 22 main_v57 c) = Function.update (V21 m Y c) _ (Y 22 main_v57 c)
    rw [e21, h22]
  have e23 : V23 m X c = V23 m Y c := congrArg (StableHlo.after hostOps9) e22
  have e24 : V24 m X c = V24 m Y c := by
    show Function.update (V23 m X c) _ (X 24 main_v61 c) = Function.update (V23 m Y c) _ (Y 24 main_v61 c)
    rw [e23, h24]
  have e25 : V25 m X c = V25 m Y c := congrArg (StableHlo.after hostOps10) e24
  have e26 : V26 m X c = V26 m Y c := by
    show Function.update (V25 m X c) _ (X 26 main_v65 c) = Function.update (V25 m Y c) _ (Y 26 main_v65 c)
    rw [e25, h26]
  have e27 : V27 m X c = V27 m Y c := congrArg (StableHlo.after hostOps11) e26
  have e28 : V28 m X c = V28 m Y c := by
    show Function.update (V27 m X c) _ (X 28 main_v68 c) = Function.update (V27 m Y c) _ (Y 28 main_v68 c)
    rw [e27, h28]
  have e29 : V29 m X c = V29 m Y c := by
    show Function.update (V28 m X c) _ (X 29 main_v69 c) = Function.update (V28 m Y c) _ (Y 29 main_v69 c)
    rw [e28, h29]
  have e30 : V30 m X c = V30 m Y c := congrArg (StableHlo.after hostOps13) e29
  exact e30

variable (hR : InRange m)

theorem outsG_at0 (c : Dev nD) : outsG m hR 6 main_v21 c = o0 m hR c := by
  show Function.update (fun r' => m ((c : Thread nD τ).loc r')) main_v21 (o0 m hR c) main_v21 = _
  exact Function.update_self _ _ _
theorem outsM_at0 (c : Dev nD) : outsM m hR 6 main_v21 c = o0 m hR c := by
  show Function.update (fun r' => m ((c : Thread nD τ).loc r')) main_v21 (o0 m hR c) main_v21 = _
  exact Function.update_self _ _ _
theorem outsG_at1 (c : Dev nD) : outsG m hR 8 main_v26 c = o1 m hR c := by
  show Function.update (fun r' => m ((c : Thread nD τ).loc r')) main_v26 (o1 m hR c) main_v26 = _
  exact Function.update_self _ _ _
theorem outsM_at1 (c : Dev nD) : outsM m hR 8 main_v26 c = o1 m hR c := by
  show Function.update (fun r' => m ((c : Thread nD τ).loc r')) main_v26 (o1 m hR c) main_v26 = _
  exact Function.update_self _ _ _
theorem outsG_at2 (c : Dev nD) : outsG m hR 10 main_v31 c = o2 m hR c := by
  show Function.update (fun r' => m ((c : Thread nD τ).loc r')) main_v31 (o2 m hR c) main_v31 = _
  exact Function.update_self _ _ _
theorem outsM_at2 (c : Dev nD) : outsM m hR 10 main_v31 c = o2 m hR c := by
  show Function.update (fun r' => m ((c : Thread nD τ).loc r')) main_v31 (o2 m hR c) main_v31 = _
  exact Function.update_self _ _ _
theorem outsG_at3 (c : Dev nD) : outsG m hR 12 main_v37 c = o3 m hR c := by
  show Function.update (fun r' => m ((c : Thread nD τ).loc r')) main_v37 (o3 m hR c) main_v37 = _
  exact Function.update_self _ _ _
theorem outsM_at3 (c : Dev nD) : outsM m hR 12 main_v37 c = o3 m hR c := by
  show Function.update (fun r' => m ((c : Thread nD τ).loc r')) main_v37 (o3 m hR c) main_v37 = _
  exact Function.update_self _ _ _
theorem outsG_at4 (c : Dev nD) : outsG m hR 14 main_v41 c = o4 m hR c := by
  show Function.update (fun r' => m ((c : Thread nD τ).loc r')) main_v41 (o4 m hR c) main_v41 = _
  exact Function.update_self _ _ _
theorem outsM_at4 (c : Dev nD) : outsM m hR 14 main_v41 c = o4 m hR c := by
  show Function.update (fun r' => m ((c : Thread nD τ).loc r')) main_v41 (o4 m hR c) main_v41 = _
  exact Function.update_self _ _ _
theorem outsG_at5 (c : Dev nD) : outsG m hR 16 main_v45 c = o5 m hR c := by
  show Function.update (fun r' => m ((c : Thread nD τ).loc r')) main_v45 (o5 m hR c) main_v45 = _
  exact Function.update_self _ _ _
theorem outsM_at5 (c : Dev nD) : outsM m hR 16 main_v45 c = o5 m hR c := by
  show Function.update (fun r' => m ((c : Thread nD τ).loc r')) main_v45 (o5 m hR c) main_v45 = _
  exact Function.update_self _ _ _
theorem outsG_at6 (c : Dev nD) : outsG m hR 18 main_v49 c = o6 m hR c := by
  show Function.update (fun r' => m ((c : Thread nD τ).loc r')) main_v49 (o6 m hR c) main_v49 = _
  exact Function.update_self _ _ _
theorem outsM_at6 (c : Dev nD) : outsM m hR 18 main_v49 c = o6 m hR c := by
  show Function.update (fun r' => m ((c : Thread nD τ).loc r')) main_v49 (o6 m hR c) main_v49 = _
  exact Function.update_self _ _ _
theorem outsG_at7 (c : Dev nD) : outsG m hR 20 main_v53 c = o7 m hR c := by
  show Function.update (fun r' => m ((c : Thread nD τ).loc r')) main_v53 (o7 m hR c) main_v53 = _
  exact Function.update_self _ _ _
theorem outsM_at7 (c : Dev nD) : outsM m hR 20 main_v53 c = o7 m hR c := by
  show Function.update (fun r' => m ((c : Thread nD τ).loc r')) main_v53 (o7 m hR c) main_v53 = _
  exact Function.update_self _ _ _
theorem outsG_at8 (c : Dev nD) : outsG m hR 22 main_v57 c = o8 m hR c := by
  show Function.update (fun r' => m ((c : Thread nD τ).loc r')) main_v57 (o8 m hR c) main_v57 = _
  exact Function.update_self _ _ _
theorem outsM_at8 (c : Dev nD) : outsM m hR 22 main_v57 c = o8 m hR c := by
  show Function.update (fun r' => m ((c : Thread nD τ).loc r')) main_v57 (o8 m hR c) main_v57 = _
  exact Function.update_self _ _ _
theorem outsG_at9 (c : Dev nD) : outsG m hR 24 main_v61 c = o9 m hR c := by
  show Function.update (fun r' => m ((c : Thread nD τ).loc r')) main_v61 (o9 m hR c) main_v61 = _
  exact Function.update_self _ _ _
theorem outsM_at9 (c : Dev nD) : outsM m hR 24 main_v61 c = o9 m hR c := by
  show Function.update (fun r' => m ((c : Thread nD τ).loc r')) main_v61 (o9 m hR c) main_v61 = _
  exact Function.update_self _ _ _
theorem outsG_at10 (c : Dev nD) : outsG m hR 26 main_v65 c = o10 m hR c := by
  show Function.update (fun r' => m ((c : Thread nD τ).loc r')) main_v65 (o10 m hR c) main_v65 = _
  exact Function.update_self _ _ _
theorem outsM_at10 (c : Dev nD) : outsM m hR 26 main_v65 c = o10 m hR c := by
  show Function.update (fun r' => m ((c : Thread nD τ).loc r')) main_v65 (o10 m hR c) main_v65 = _
  exact Function.update_self _ _ _
theorem outsM_at11 (c : Dev nD) : outsM m hR 28 main_v68 c = o11 m hR c := by
  show Function.update (fun r' => m ((c : Thread nD τ).loc r')) main_v68 (o11 m hR c) main_v68 = _
  exact Function.update_self _ _ _
theorem outsM_at12 (c : Dev nD) : outsM m hR 29 main_v69 c = o12 m hR c := by
  show Function.update (fun r' => m ((c : Thread nD τ).loc r')) main_v69 (o12 m hR c) main_v69 = _
  exact Function.update_self _ _ _

theorem V27_stage (c : Dev nD) : V27 m (outsG m hR) c = V27 m (outs m hR) c :=
  V27_congr m _ _ c ((outsG_at0 m hR c).trans (outs_at0 m hR c).symm) ((outsG_at1 m hR c).trans (outs_at1 m hR c).symm) ((outsG_at2 m hR c).trans (outs_at2 m hR c).symm) ((outsG_at3 m hR c).trans (outs_at3 m hR c).symm) ((outsG_at4 m hR c).trans (outs_at4 m hR c).symm) ((outsG_at5 m hR c).trans (outs_at5 m hR c).symm) ((outsG_at6 m hR c).trans (outs_at6 m hR c).symm) ((outsG_at7 m hR c).trans (outs_at7 m hR c).symm) ((outsG_at8 m hR c).trans (outs_at8 m hR c).symm) ((outsG_at9 m hR c).trans (outs_at9 m hR c).symm) ((outsG_at10 m hR c).trans (outs_at10 m hR c).symm)

theorem V30_stage (c : Dev nD) : V30 m (outsM m hR) c = V30 m (outs m hR) c :=
  V30_congr m _ _ c ((outsM_at0 m hR c).trans (outs_at0 m hR c).symm) ((outsM_at1 m hR c).trans (outs_at1 m hR c).symm) ((outsM_at2 m hR c).trans (outs_at2 m hR c).symm) ((outsM_at3 m hR c).trans (outs_at3 m hR c).symm) ((outsM_at4 m hR c).trans (outs_at4 m hR c).symm) ((outsM_at5 m hR c).trans (outs_at5 m hR c).symm) ((outsM_at6 m hR c).trans (outs_at6 m hR c).symm) ((outsM_at7 m hR c).trans (outs_at7 m hR c).symm) ((outsM_at8 m hR c).trans (outs_at8 m hR c).symm) ((outsM_at9 m hR c).trans (outs_at9 m hR c).symm) ((outsM_at10 m hR c).trans (outs_at10 m hR c).symm) ((outsM_at11 m hR c).trans (outs_at11 m hR c).symm) ((outsM_at12 m hR c).trans (outs_at12 m hR c).symm)

end Cert.Kernel.Hand

end
-- ==== Proof.Bits.RunRegsC.lean ====
import proofs.«401580_j65068754534945_2_alg».proof.Proof.Bits.RunStage

/-! The three matrix regions as steps between consecutive memories of the program. -/

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (hR : InRange m)

theorem hA11 (c : Dev nD) (w : Fin 5) : A11 m hR c w = V27 m (outs m hR) c (Pipeline.arrRef spec11 w) := by
  unfold A11; rw [V27_stage]

set_option maxHeartbeats 1000000 in
theorem hF11_out (c : Dev nD) : (dat11 (A11 m hR) c).arrAt 4 cfg11.N = V28 m (outs m hR) c (Pipeline.arrRef spec11 4) :=
  (Vout_at11 m hR c).symm

set_option maxHeartbeats 1000000 in
theorem hF11 (c : Dev nD) (w : Fin 5) :
    (dat11 (A11 m hR) c).arrAt w cfg11.N = V28 m (outs m hR) c (Pipeline.arrRef spec11 w) := by
  fin_cases w
  · show (dat11 (A11 m hR) c).arrAt 0 cfg11.N = V28 m (outs m hR) c (Pipeline.arrRef spec11 0)
    rw [(dat11 (A11 m hR) c).arrAt_in 0 rfl, A_eq11, hA11]
    exact (V28_of m (outs m hR) c _ (by decide)).symm
  · show (dat11 (A11 m hR) c).arrAt 1 cfg11.N = V28 m (outs m hR) c (Pipeline.arrRef spec11 1)
    rw [(dat11 (A11 m hR) c).arrAt_in 1 rfl, A_eq11, hA11]
    exact (V28_of m (outs m hR) c _ (by decide)).symm
  · show (dat11 (A11 m hR) c).arrAt 2 cfg11.N = V28 m (outs m hR) c (Pipeline.arrRef spec11 2)
    rw [(dat11 (A11 m hR) c).arrAt_in 2 rfl, A_eq11, hA11]
    exact (V28_of m (outs m hR) c _ (by decide)).symm
  · show (dat11 (A11 m hR) c).arrAt 3 cfg11.N = V28 m (outs m hR) c (Pipeline.arrRef spec11 3)
    rw [(dat11 (A11 m hR) c).arrAt_in 3 rfl, A_eq11, hA11]
    exact (V28_of m (outs m hR) c _ (by decide)).symm
  · exact hF11_out m hR c

theorem hrest11 (c : Dev nD) (b : Ref sig .tc) (hb : b ∉ Finset.univ.image (Pipeline.arrRef spec11)) :
    V28 m (outs m hR) c b = V27 m (outs m hR) c b :=
  V28_of m (outs m hR) c b fun hm => hb (by
    rw [List.mem_singleton.mp hm]; exact Finset.mem_image.mpr ⟨4, Finset.mem_univ _, rfl⟩)

noncomputable def R11 : Pipeline.RegionSeg (pcfgs (F := F)) (adm m hR) (pdats m hR) () defs₀ Variants.none Lh lvh 11 :=
  reg11 (adm m hR) (pdats m hR) (A11 m hR) (fun c => V27 m (outs m hR) c) (fun c => V28 m (outs m hR) c) (fun _ => rfl)
    (hA11 m hR) (hF11 m hR) (hrest11 m hR)

theorem arr12_ne (w : Fin 5) : Pipeline.arrRef spec12 w ∉ ([main_v68] : List (Ref sig .tc)) := by
  revert w; decide

theorem hA12 (c : Dev nD) (w : Fin 5) : A12 m hR c w = V28 m (outs m hR) c (Pipeline.arrRef spec12 w) := by
  unfold A12; rw [V27_stage]
  exact (V28_of m (outs m hR) c _ (arr12_ne w)).symm

set_option maxHeartbeats 1000000 in
theorem hF12_out (c : Dev nD) : (dat12 (A12 m hR) c).arrAt 4 cfg12.N = V29 m (outs m hR) c (Pipeline.arrRef spec12 4) :=
  (Vout_at12 m hR c).symm

set_option maxHeartbeats 1000000 in
theorem hF12 (c : Dev nD) (w : Fin 5) :
    (dat12 (A12 m hR) c).arrAt w cfg12.N = V29 m (outs m hR) c (Pipeline.arrRef spec12 w) := by
  fin_cases w
  · show (dat12 (A12 m hR) c).arrAt 0 cfg12.N = V29 m (outs m hR) c (Pipeline.arrRef spec12 0)
    rw [(dat12 (A12 m hR) c).arrAt_in 0 rfl, A_eq12, hA12]
    exact (V29_of m (outs m hR) c _ (by decide)).symm
  · show (dat12 (A12 m hR) c).arrAt 1 cfg12.N = V29 m (outs m hR) c (Pipeline.arrRef spec12 1)
    rw [(dat12 (A12 m hR) c).arrAt_in 1 rfl, A_eq12, hA12]
    exact (V29_of m (outs m hR) c _ (by decide)).symm
  · show (dat12 (A12 m hR) c).arrAt 2 cfg12.N = V29 m (outs m hR) c (Pipeline.arrRef spec12 2)
    rw [(dat12 (A12 m hR) c).arrAt_in 2 rfl, A_eq12, hA12]
    exact (V29_of m (outs m hR) c _ (by decide)).symm
  · show (dat12 (A12 m hR) c).arrAt 3 cfg12.N = V29 m (outs m hR) c (Pipeline.arrRef spec12 3)
    rw [(dat12 (A12 m hR) c).arrAt_in 3 rfl, A_eq12, hA12]
    exact (V29_of m (outs m hR) c _ (by decide)).symm
  · exact hF12_out m hR c

theorem hrest12 (c : Dev nD) (b : Ref sig .tc) (hb : b ∉ Finset.univ.image (Pipeline.arrRef spec12)) :
    V29 m (outs m hR) c b = V28 m (outs m hR) c b :=
  V29_of m (outs m hR) c b fun hm => hb (by
    rw [List.mem_singleton.mp hm]; exact Finset.mem_image.mpr ⟨4, Finset.mem_univ _, rfl⟩)

noncomputable def R12 : Pipeline.RegionSeg (pcfgs (F := F)) (adm m hR) (pdats m hR) () defs₀ Variants.none Lh lvh 12 :=
  reg12 (adm m hR) (pdats m hR) (A12 m hR) (fun c => V28 m (outs m hR) c) (fun c => V29 m (outs m hR) c) (fun _ => rfl)
    (hA12 m hR) (hF12 m hR) (hrest12 m hR)

theorem hA13 (c : Dev nD) (w : Fin 5) : A13 m hR c w = V30 m (outs m hR) c (Pipeline.arrRef spec13 w) := by
  unfold A13; rw [V30_stage]

set_option maxHeartbeats 1000000 in
theorem hF13_out (c : Dev nD) : (dat13 (A13 m hR) c).arrAt 4 cfg13.N = V31 m (outs m hR) c (Pipeline.arrRef spec13 4) :=
  (Vout_at13 m hR c).symm

set_option maxHeartbeats 1000000 in
theorem hF13 (c : Dev nD) (w : Fin 5) :
    (dat13 (A13 m hR) c).arrAt w cfg13.N = V31 m (outs m hR) c (Pipeline.arrRef spec13 w) := by
  fin_cases w
  · show (dat13 (A13 m hR) c).arrAt 0 cfg13.N = V31 m (outs m hR) c (Pipeline.arrRef spec13 0)
    rw [(dat13 (A13 m hR) c).arrAt_in 0 rfl, A_eq13, hA13]
    exact (V31_of m (outs m hR) c _ (by decide)).symm
  · show (dat13 (A13 m hR) c).arrAt 1 cfg13.N = V31 m (outs m hR) c (Pipeline.arrRef spec13 1)
    rw [(dat13 (A13 m hR) c).arrAt_in 1 rfl, A_eq13, hA13]
    exact (V31_of m (outs m hR) c _ (by decide)).symm
  · show (dat13 (A13 m hR) c).arrAt 2 cfg13.N = V31 m (outs m hR) c (Pipeline.arrRef spec13 2)
    rw [(dat13 (A13 m hR) c).arrAt_in 2 rfl, A_eq13, hA13]
    exact (V31_of m (outs m hR) c _ (by decide)).symm
  · show (dat13 (A13 m hR) c).arrAt 3 cfg13.N = V31 m (outs m hR) c (Pipeline.arrRef spec13 3)
    rw [(dat13 (A13 m hR) c).arrAt_in 3 rfl, A_eq13, hA13]
    exact (V31_of m (outs m hR) c _ (by decide)).symm
  · exact hF13_out m hR c

theorem hrest13 (c : Dev nD) (b : Ref sig .tc) (hb : b ∉ Finset.univ.image (Pipeline.arrRef spec13)) :
    V31 m (outs m hR) c b = V30 m (outs m hR) c b :=
  V31_of m (outs m hR) c b fun hm => hb (by
    rw [List.mem_singleton.mp hm]; exact Finset.mem_image.mpr ⟨4, Finset.mem_univ _, rfl⟩)

noncomputable def R13 : Pipeline.RegionSeg (pcfgs (F := F)) (adm m hR) (pdats m hR) () defs₀ Variants.none Lh lvh 13 :=
  reg13 (adm m hR) (pdats m hR) (A13 m hR) (fun c => V30 m (outs m hR) c) (fun c => V31 m (outs m hR) c) (fun _ => rfl)
    (hA13 m hR) (hF13 m hR) (hrest13 m hR)

end Cert.Kernel.Hand

end
-- ==== Proof.Bits.RunFrame.lean ====
import proofs.«401580_j65068754534945_2_alg».proof.Proof.Bits.RunRegsA
import proofs.«401580_j65068754534945_2_alg».proof.Proof.Bits.RunRegsB
import proofs.«401580_j65068754534945_2_alg».proof.Proof.Bits.RunRegsC

/-! Every fair execution of the kernel program ends, faults nowhere and leaves its arguments unchanged. -/

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

theorem fund (a : (p : Fin 14) → (pcfgs (F := F) p).Adm) :
    (ownU (initOf (Pipeline.cells (Pipeline.pin (pcfgs (F := F)) a) (cellOf_inj a)) (Pipeline.launchToks (Pipeline.pin (pcfgs (F := F)) a) (cellOf_inj a))) : sProp 𝕄)
      ⊢ |={Set.univ}=> iprop(BI.own (emb₁ (initOf (Pipeline.cells (Pipeline.pin (pcfgs (F := F)) a) (cellOf_inj a)) (Pipeline.launchToks (Pipeline.pin (pcfgs (F := F)) a) (cellOf_inj a))))
          ∗ bigSep Finset.univ fun _ : Dev nD => (BI.emp : sProp 𝕄)) := by
  iintro Hu
  imodintro
  isplitl [Hu]
  · iapply (show (ownU _ : sProp 𝕄) ⊢ BI.own (emb₁ (initOf (Pipeline.cells (Pipeline.pin (pcfgs (F := F)) a) (cellOf_inj a)) (Pipeline.launchToks (Pipeline.pin (pcfgs (F := F)) a) (cellOf_inj a)))) from .rfl)
    iexact Hu
  iapply (show (BI.emp : sProp 𝕄) ⊢ bigSep Finset.univ (fun _ : Dev nD => (BI.emp : sProp 𝕄)) from by rw [BI.bigSep_emp_const])
  iempintro

set_option maxHeartbeats 4000000 in
theorem frame_hand (hR : InRange m) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_cond m (emb₁ (A := UR sig nD τ)) () Variants.none Lh lvh (fun _ _ => rfl) ρ (outs m hR) (adm m hR) (pdats m hR)
    (fun _ => 0) (fun _ => (BI.emp : sProp 𝕄)) _ (fund (adm m hR))
    (fun _ c => Rst c)
    (Pipeline.initEach Lh lvh fun c => by
      iintro ⟨⟨-, HO, -, Hp, -⟩, -⟩
      imodintro
      isplitl [Hp]; · iexists _; iexact Hp
      iexists ∅; iexact HO)
    (fun c => by iintro ⟨-, H⟩; iexact H)
    (R0 m hR) (fun _ => .rfl) (fun _ => .rfl)
    (R1 m hR) (fun _ => .rfl) (fun _ => .rfl)
    (R2 m hR) (fun _ => .rfl) (fun _ => .rfl)
    (R3 m hR) (fun _ => .rfl) (fun _ => .rfl)
    (R4 m hR) (fun _ => .rfl) (fun _ => .rfl)
    (R5 m hR) (fun _ => .rfl) (fun _ => .rfl)
    (R6 m hR) (fun _ => .rfl) (fun _ => .rfl)
    (R7 m hR) (fun _ => .rfl) (fun _ => .rfl)
    (R8 m hR) (fun _ => .rfl) (fun _ => .rfl)
    (R9 m hR) (fun _ => .rfl) (fun _ => .rfl)
    (R10 m hR) (fun _ => .rfl) (fun _ => .rfl)
    (R11 m hR) (fun _ => .rfl) (fun _ => .rfl)
    (R12 m hR) (fun _ => .rfl) (fun _ => .rfl)
    (R13 m hR) (fun _ => .rfl) (fun _ => .rfl)

end Cert.Kernel.Hand

end
-- ==== Proof.RefSide.lean ====
import proofs.«401580_j65068754534945_2_alg».proof.Proof.RefRun
import proofs.«401580_j65068754534945_2_alg».proof.Defs
import proofs.«401580_j65068754534945_2_alg».proof.Proof.Gen.Pre_finite_inputs
import Idealize.ShloMosaic.PureOps.Ideal.Laws

/-! Every fair execution of the reference ends with its arguments unchanged. -/

noncomputable section

namespace Cert.ReferenceIdeal.RefValue

open Idealize.ShloMosaic Idealize.SL.Sem

theorem frame_ri : Cert.frame_ReferenceIdeal (hReferenceIdeal := Cert.ReferenceIdeal.Gen.facts)
    (hPre_finite_inputs := Cert.Pre_finite_inputs.Gen.facts) :=
  fun m g _ => Cert.ReferenceIdeal.Value.run_frame (F := Ideal) m g

end Cert.ReferenceIdeal.RefValue

end
-- ==== Proof.RunValue.lean ====
import proofs.«401580_j65068754534945_2_alg».proof.Proof.RunFrame
import proofs.«401580_j65068754534945_2_alg».proof.Proof.RunCond

/-! The kernel program's run with its result: the array the last matrix region leaves. -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

theorem run_hand (hR : InRange m) (ρ : Dev nD → PrngReg) :
    θ_run defs (onTc (τ := τ) (main (F := F))) ⟨m, fun _ => 0, ρ⟩ (fun r => ∀ c : Dev nD,
      r.2.mem ((c.tc : Thread nD τ).loc main_v74) = o13 m hR c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans (outs_at13 m hR c), (h c).2⟩)
  (run_cond m (emb₁ (A := UR sig nD τ)) () Variants.none Lh lvh (fun _ _ => rfl) ρ (outs m hR) (adm m hR) (pdats m hR)
    (fun _ => 0) (fun _ => (BI.emp : sProp 𝕄)) _ (fund (adm m hR))
    (fun _ c => Rst c)
    (Pipeline.initEach Lh lvh fun c => by
      iintro ⟨⟨-, HO, -, Hp, -⟩, -⟩
      imodintro
      isplitl [Hp]; · iexists _; iexact Hp
      iexists ∅; iexact HO)
    (fun c => by iintro ⟨-, H⟩; iexact H)
    (R0 m hR) (fun _ => .rfl) (fun _ => .rfl)
    (R1 m hR) (fun _ => .rfl) (fun _ => .rfl)
    (R2 m hR) (fun _ => .rfl) (fun _ => .rfl)
    (R3 m hR) (fun _ => .rfl) (fun _ => .rfl)
    (R4 m hR) (fun _ => .rfl) (fun _ => .rfl)
    (R5 m hR) (fun _ => .rfl) (fun _ => .rfl)
    (R6 m hR) (fun _ => .rfl) (fun _ => .rfl)
    (R7 m hR) (fun _ => .rfl) (fun _ => .rfl)
    (R8 m hR) (fun _ => .rfl) (fun _ => .rfl)
    (R9 m hR) (fun _ => .rfl) (fun _ => .rfl)
    (R10 m hR) (fun _ => .rfl) (fun _ => .rfl)
    (R11 m hR) (fun _ => .rfl) (fun _ => .rfl)
    (R12 m hR) (fun _ => .rfl) (fun _ => .rfl)
    (R13 m hR) (fun _ => .rfl) (fun _ => .rfl))

end Cert.KernelIdeal.Hand

end
-- ==== Proof.SpecIdx.lean ====
import Idealize.ShloMosaic.Lib.StableHlo
import Idealize.ShloMosaic.PureOps

/-! The two neighbour lists as pure functions of the integer inputs. -/

noncomputable section

namespace Cert.Hand.Spec

open Idealize.ShloMosaic

namespace Idx

abbrev S500000x128 : Shape := ⟨2, ![500000, 128]⟩
abbrev S1024 : Shape := ⟨1, ![1024]⟩
abbrev S1024x10 : Shape := ⟨2, ![1024, 10]⟩
abbrev S10240x25 : Shape := ⟨2, ![10240, 25]⟩
abbrev S_ : Shape := ⟨0, ![]⟩
abbrev S1 : Shape := ⟨1, ![1]⟩
abbrev S1x1x1 : Shape := ⟨3, ![1, 1, 1]⟩
abbrev S1024x1 : Shape := ⟨2, ![1024, 1]⟩
abbrev S1024x128 : Shape := ⟨2, ![1024, 128]⟩
abbrev S1024x10x1 : Shape := ⟨3, ![1024, 10, 1]⟩
abbrev S10240 : Shape := ⟨1, ![10240]⟩
abbrev S10240x1 : Shape := ⟨2, ![10240, 1]⟩
abbrev S10240x128 : Shape := ⟨2, ![10240, 128]⟩
abbrev S10240x25x1 : Shape := ⟨3, ![10240, 25, 1]⟩
abbrev S256000 : Shape := ⟨1, ![256000]⟩

theorem h_S_ : 0 < S_.numel := by decide
theorem bcast_S_S1024 : S_.BroadcastsInDim S1024 (![] : Fin 0 → Fin S1024.rank) := by decide
theorem bcast_S1024_S1024x1_0 : S1024.BroadcastsInDim S1024x1 (![0] : Fin 1 → Fin S1024x1.rank) := by decide
theorem bcast_S_S1024x10 : S_.BroadcastsInDim S1024x10 (![] : Fin 0 → Fin S1024x10.rank) := by decide
theorem shapeCasts_S1024x10_S1024x10x1 : S1024x10.ShapeCasts S1024x10x1 := by decide
theorem bcast_S_S1024x10x1 : S_.BroadcastsInDim S1024x10x1 (![] : Fin 0 → Fin S1024x10x1.rank) := by decide
theorem bcast_S1_S1x1x1_2 : S1.BroadcastsInDim S1x1x1 (![2] : Fin 1 → Fin S1x1x1.rank) := by decide
theorem bcast_S1x1x1_S1024x10x1_0_1_2 : S1x1x1.BroadcastsInDim S1024x10x1 (![0, 1, 2] : Fin 3 → Fin S1024x10x1.rank) := by decide
theorem reducesTo_S1024x10x1_S1024x10_d2 : S1024x10x1.ReducesTo [2] S1024x10 := by decide
theorem shapeCasts_S1024x10_S10240 : S1024x10.ShapeCasts S10240 := by decide
theorem bcast_S_S10240 : S_.BroadcastsInDim S10240 (![] : Fin 0 → Fin S10240.rank) := by decide
theorem bcast_S10240_S10240x1_0 : S10240.BroadcastsInDim S10240x1 (![0] : Fin 1 → Fin S10240x1.rank) := by decide
theorem bcast_S_S10240x25 : S_.BroadcastsInDim S10240x25 (![] : Fin 0 → Fin S10240x25.rank) := by decide
theorem shapeCasts_S10240x25_S10240x25x1 : S10240x25.ShapeCasts S10240x25x1 := by decide
theorem bcast_S_S10240x25x1 : S_.BroadcastsInDim S10240x25x1 (![] : Fin 0 → Fin S10240x25x1.rank) := by decide
theorem bcast_S1x1x1_S10240x25x1_0_1_2 : S1x1x1.BroadcastsInDim S10240x25x1 (![0, 1, 2] : Fin 3 → Fin S10240x25x1.rank) := by decide
theorem reducesTo_S10240x25x1_S10240x25_d2 : S10240x25x1.ReducesTo [2] S10240x25 := by decide
theorem shapeCasts_S10240x25_S256000 : S10240x25.ShapeCasts S256000 := by decide

end Idx

open Idx

def gatherRows1024 : GatherDims S500000x128 S1024x1 S1024x128 where
  offsetDims := [1]
  collapsedSliceDims := [0]
  operandBatchingDims := []
  startIndicesBatchingDims := []
  startIndexMap := [0]
  indexVectorDim := 1
  sliceSizes := ![1, 128]

def gatherRows10240 : GatherDims S500000x128 S10240x1 S10240x128 where
  offsetDims := [1]
  collapsedSliceDims := [0]
  operandBatchingDims := []
  startIndicesBatchingDims := []
  startIndexMap := [0]
  indexVectorDim := 1
  sliceSizes := ![1, 128]

def gatherPick1024 : GatherDims S1024x128 S1024x10x1 S1024x10 where
  offsetDims := []
  collapsedSliceDims := [1]
  operandBatchingDims := [0]
  startIndicesBatchingDims := [0]
  startIndexMap := [1]
  indexVectorDim := 2
  sliceSizes := ![1, 1]

def gatherPick10240 : GatherDims S10240x128 S10240x25x1 S10240x25 where
  offsetDims := []
  collapsedSliceDims := [1]
  operandBatchingDims := [0]
  startIndicesBatchingDims := [0]
  startIndexMap := [1]
  indexVectorDim := 2
  sliceSizes := ![1, 1]

def wrap {s : Shape} (K : BitVec 32) (b : S_.BroadcastsInDim s (![] : Fin 0 → Fin s.rank)) (x : IVec s 32) : IVec s 32 :=
  select (cmpi .slt x (broadcastInDim s ![] b (constantI S_ 32 0#32)))
    (addi x (broadcastInDim s ![] b (constantI S_ 32 K))) x

section Pick

variable {n k : Nat} {sx : Shape} {axes : List (Fin 3)}

def pickIdx (a : IVec ⟨2, ![n, k]⟩ 32) (hc : (⟨2, ![n, k]⟩ : Shape).ShapeCasts ⟨3, ![n, k, 1]⟩)
    (b2 : S_.BroadcastsInDim ⟨2, ![n, k]⟩ (![] : Fin 0 → Fin 2)) : IVec ⟨3, ![n, k, 1]⟩ 32 :=
  shapeCast ⟨3, ![n, k, 1]⟩ (wrap 128#32 b2 a) hc

def pick (a : IVec ⟨2, ![n, k]⟩ 32) (x : IVec sx 32) (d : GatherDims sx ⟨3, ![n, k, 1]⟩ ⟨2, ![n, k]⟩)
    (hc : (⟨2, ![n, k]⟩ : Shape).ShapeCasts ⟨3, ![n, k, 1]⟩)
    (b2 : S_.BroadcastsInDim ⟨2, ![n, k]⟩ (![] : Fin 0 → Fin 2))
    (b3 : S_.BroadcastsInDim ⟨3, ![n, k, 1]⟩ (![] : Fin 0 → Fin 3))
    (b1 : S1.BroadcastsInDim S1x1x1 (![2] : Fin 1 → Fin 3))
    (b111 : S1x1x1.BroadcastsInDim ⟨3, ![n, k, 1]⟩ (![0, 1, 2] : Fin 3 → Fin 3))
    (red : (⟨3, ![n, k, 1]⟩ : Shape).ReducesTo axes ⟨2, ![n, k]⟩) (hu : 0 < S_.numel) : IVec ⟨2, ![n, k]⟩ 32 :=
  select
    (Host.reduce IntOp.andi
      (andi (cmpi .sge (pickIdx a hc b2) (broadcastInDim ⟨3, ![n, k, 1]⟩ ![] b3 (constantI S_ 32 0#32)))
        (cmpi .sle (pickIdx a hc b2)
          (broadcastInDim ⟨3, ![n, k, 1]⟩ ![0, 1, 2] b111 (broadcastInDim S1x1x1 ![2] b1 (constantI S1 32 127#32)))))
      (constantI S_ 1 1#1) red hu)
    (Host.gather d x (pickIdx a hc b2))
    (broadcastInDim ⟨2, ![n, k]⟩ ![] b2 (constantI S_ 32 2147483648#32))

end Pick

def rows1 (adj : IVec S500000x128 32) (bn : IVec S1024 32) : IVec S1024x128 32 :=
  Host.gather gatherRows1024 adj (broadcastInDim S1024x1 ![0] bcast_S1024_S1024x1_0 (wrap 500000#32 bcast_S_S1024 bn))

def hop1 (adj : IVec S500000x128 32) (bn : IVec S1024 32) (c1 : IVec S1024x10 32) : IVec S1024x10 32 :=
  pick c1 (rows1 adj bn) gatherPick1024 shapeCasts_S1024x10_S1024x10x1 bcast_S_S1024x10 bcast_S_S1024x10x1
    bcast_S1_S1x1x1_2 bcast_S1x1x1_S1024x10x1_0_1_2 reducesTo_S1024x10x1_S1024x10_d2 h_S_

def s1 (adj : IVec S500000x128 32) (bn : IVec S1024 32) (c1 : IVec S1024x10 32) : IVec S10240 32 :=
  shapeCast S10240 (hop1 adj bn c1) shapeCasts_S1024x10_S10240

def rows2 (adj : IVec S500000x128 32) (s : IVec S10240 32) : IVec S10240x128 32 :=
  Host.gather gatherRows10240 adj (broadcastInDim S10240x1 ![0] bcast_S10240_S10240x1_0 (wrap 500000#32 bcast_S_S10240 s))

def hop2 (adj : IVec S500000x128 32) (bn : IVec S1024 32) (c1 : IVec S1024x10 32) (c2 : IVec S10240x25 32) :
    IVec S10240x25 32 :=
  pick c2 (rows2 adj (s1 adj bn c1)) gatherPick10240 shapeCasts_S10240x25_S10240x25x1 bcast_S_S10240x25
    bcast_S_S10240x25x1 bcast_S1_S1x1x1_2 bcast_S1x1x1_S10240x25x1_0_1_2 reducesTo_S10240x25x1_S10240x25_d2 h_S_

def s2 (adj : IVec S500000x128 32) (bn : IVec S1024 32) (c1 : IVec S1024x10 32) (c2 : IVec S10240x25 32) :
    IVec S256000 32 :=
  shapeCast S256000 (hop2 adj bn c1 c2) shapeCasts_S10240x25_S256000

end Cert.Hand.Spec

end
-- ==== Proof.IdxKernel.lean ====
import proofs.«401580_j65068754534945_2_alg».proof.Proof.Tables
import proofs.«401580_j65068754534945_2_alg».proof.Proof.SpecIdx

/-! The two neighbour lists the kernel program computes are the specification's lists of the adjacency table, the node ids and the two column tables. -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

variable (m : (ℓ : Loc nD τ sig) → Buf (Elt F) ℓ)

section Gathers

variable (W : Valuation τ sig (Elt F))

theorem ops0_v6_eq :
    (StableHlo.after hostOps0 W (Proc.devRef .tc main_v6) : S1024x128.Idx → BitVec 32) =
      Cert.Hand.Spec.rows1 (W (Proc.devRef .tc main_arg1) : S500000x128.Idx → BitVec 32)
        (W (Proc.devRef .tc main_arg2) : S1024.Idx → BitVec 32) := by
  after_results; rfl

theorem ops0_2_v15_eq :
    (StableHlo.after hostOps0_2 W (Proc.devRef .tc main_v15) : S10240x128.Idx → BitVec 32) =
      Cert.Hand.Spec.rows2 (W (Proc.devRef .tc main_arg1) : S500000x128.Idx → BitVec 32)
        (shapeCast S10240 (W (Proc.devRef .tc main_v7) : S1024x10.Idx → BitVec 32) shapeCasts_S1024x10_S10240) := by
  after_results; rfl

end Gathers

abbrev ArgAdj (c : Dev nD) : IVec S500000x128 32 := m ((c.tc : Thread nD τ).loc main_arg1)
abbrev ArgBn (c : Dev nD) : IVec S1024 32 := m ((c.tc : Thread nD τ).loc main_arg2)
abbrev ArgC1 (c : Dev nD) : IVec S1024x10 32 := m ((c.tc : Thread nD τ).loc main_arg3)
abbrev ArgC2 (c : Dev nD) : IVec S10240x25 32 := m ((c.tc : Thread nD τ).loc main_arg4)

theorem v6_eq (c : Dev nD) : (V1 m c main_v6 : S1024x128.Idx → BitVec 32) = Cert.Hand.Spec.rows1 (ArgAdj m c) (ArgBn m c) :=
  ops0_v6_eq (V0 m c)

theorem v7_eq (c : Dev nD) : (V2 m c main_v7 : S1024x10.Idx → BitVec 32) = Cert.Hand.Spec.hop1 (ArgAdj m c) (ArgBn m c) (ArgC1 m c) := by
  have e := ops0_1_v7 (V1 m c)
  rw [show (V1 m c (Proc.devRef .tc main_v6) : S1024x128.Idx → BitVec 32) = _ from v6_eq m c,
    show (V1 m c (Proc.devRef .tc main_arg3) : S1024x10.Idx → BitVec 32) = ArgC1 m c from V1_of m c main_arg3 (by decide)] at e
  exact e

theorem X8_eq (c : Dev nD) : X8 m c = Cert.Hand.Spec.s1 (ArgAdj m c) (ArgBn m c) (ArgC1 m c) := by
  have e : X8 m c = shapeCast S10240 (V2 m c main_v7 : S1024x10.Idx → BitVec 32) shapeCasts_S1024x10_S10240 :=
    (V5_of m c main_v8 (by decide)).trans <| (V4_of m c main_v8 (by decide)).trans (ops0_2_v8 (V2 m c))
  rw [e, v7_eq]
  rfl

theorem v15_eq (c : Dev nD) : (V3 m c main_v15 : S10240x128.Idx → BitVec 32) =
    Cert.Hand.Spec.rows2 (ArgAdj m c) (Cert.Hand.Spec.s1 (ArgAdj m c) (ArgBn m c) (ArgC1 m c)) := by
  have e := ops0_2_v15_eq (V2 m c)
  rw [show (V2 m c (Proc.devRef .tc main_v7) : S1024x10.Idx → BitVec 32) = _ from v7_eq m c,
    show (V2 m c (Proc.devRef .tc main_arg1) : S500000x128.Idx → BitVec 32) = ArgAdj m c from
      (V2_of m c main_arg1 (by decide)).trans (V1_of m c main_arg1 (by decide))] at e
  exact e

theorem v16_eq (c : Dev nD) : (V4 m c main_v16 : S10240x25.Idx → BitVec 32) =
    Cert.Hand.Spec.hop2 (ArgAdj m c) (ArgBn m c) (ArgC1 m c) (ArgC2 m c) := by
  have e := ops0_3_v16 (V3 m c)
  rw [show (V3 m c (Proc.devRef .tc main_v15) : S10240x128.Idx → BitVec 32) = _ from v15_eq m c,
    show (V3 m c (Proc.devRef .tc main_arg4) : S10240x25.Idx → BitVec 32) = ArgC2 m c from
      (V3_of m c main_arg4 (by decide)).trans <| (V2_of m c main_arg4 (by decide)).trans (V1_of m c main_arg4 (by decide))] at e
  exact e

theorem X17_eq (c : Dev nD) : X17 m c = Cert.Hand.Spec.s2 (ArgAdj m c) (ArgBn m c) (ArgC1 m c) (ArgC2 m c) := by
  have e : X17 m c = shapeCast S256000 (V4 m c main_v16 : S10240x25.Idx → BitVec 32) shapeCasts_S10240x25_S256000 :=
    ops0_4_v17 (V4 m c)
  rw [e, v16_eq]
  rfl

end Cert.KernelIdeal.Hand
-- ==== Proof.SpecVal.lean ====
import Idealize.ShloMosaic.PureOps.Ideal
import Idealize.ShloMosaic.Lib.ValueIdx

/-! The result index by index over the extended reals: gathers of feature rows, means over groups of 10 and 25, two aggregator layers. -/

noncomputable section

open scoped BigOperators

namespace Cert.Hand.Spec

open Idealize.ShloMosaic Idealize.ShloMosaic.ValueIdx

abbrev S500000x128 : Shape := ⟨2, ![500000, 128]⟩
abbrev S1024 : Shape := ⟨1, ![1024]⟩
abbrev S10240 : Shape := ⟨1, ![10240]⟩
abbrev S256000 : Shape := ⟨1, ![256000]⟩
abbrev S1024x128 : Shape := ⟨2, ![1024, 128]⟩
abbrev S10240x128 : Shape := ⟨2, ![10240, 128]⟩
abbrev S128x128 : Shape := ⟨2, ![128, 128]⟩
abbrev S256x128 : Shape := ⟨2, ![256, 128]⟩
abbrev S1024x256 : Shape := ⟨2, ![1024, 256]⟩
abbrev S10240x256 : Shape := ⟨2, ![10240, 256]⟩

def rowOf (w : BitVec 32) : Fin 500000 := ⟨min w.toNat 499999, by omega⟩

theorem rowOf_val_of_lt {w : BitVec 32} (h : w.toNat < 500000) : (rowOf w).val = w.toNat := by
  show min w.toNat 499999 = w.toNat; omega

abbrev at10 (r : Fin 1024) (s : Fin 10) : Fin 10240 := ⟨10 * r.val + s.val, by omega⟩

abbrev at25 (r : Fin 10240) (s : Fin 25) : Fin 256000 := ⟨25 * r.val + s.val, by omega⟩

def gath1024 (feat : FVec Ideal S500000x128 .f32) (t : IVec S1024 32) : FVec Ideal S1024x128 .f32 :=
  fun i => feat (ix2 (rowOf (t (ix1 (i 0 : Fin 1024)))) (i 1 : Fin 128))

def gath10240 (feat : FVec Ideal S500000x128 .f32) (t : IVec S10240 32) : FVec Ideal S10240x128 .f32 :=
  fun i => feat (ix2 (rowOf (t (ix1 (i 0 : Fin 10240)))) (i 1 : Fin 128))

def gmean10 (feat : FVec Ideal S500000x128 .f32) (t : IVec S10240 32) : FVec Ideal S1024x128 .f32 :=
  fun i => (∑ s : Fin 10, feat (ix2 (rowOf (t (ix1 (at10 (i 0) s)))) (i 1 : Fin 128))) * ((1 / 10 : ℝ) : EReal)

def gmean25 (feat : FVec Ideal S500000x128 .f32) (t : IVec S256000 32) : FVec Ideal S10240x128 .f32 :=
  fun i => (∑ s : Fin 25, feat (ix2 (rowOf (t (ix1 (at25 (i 0) s)))) (i 1 : Fin 128))) * ((1 / 25 : ℝ) : EReal)

def mlpRelu1024 (x0 x1 : FVec Ideal S1024x128 .f32) (w0 w1 : FVec Ideal S128x128 .f32) : FVec Ideal S1024x256 .f32 :=
  fun i => max
    (if h : (i 1).val < 128 then ∑ k : Fin 128, x0 (ix2 (i 0 : Fin 1024) k) * w0 (ix2 k (⟨(i 1).val, h⟩ : Fin 128))
     else ∑ k : Fin 128, x1 (ix2 (i 0 : Fin 1024) k) * w1 (ix2 k (⟨(i 1).val - 128, by have := idx2_lt1 i; omega⟩ : Fin 128)))
    0

def mlpRelu10240 (x0 x1 : FVec Ideal S10240x128 .f32) (w0 w1 : FVec Ideal S128x128 .f32) : FVec Ideal S10240x256 .f32 :=
  fun i => max
    (if h : (i 1).val < 128 then ∑ k : Fin 128, x0 (ix2 (i 0 : Fin 10240) k) * w0 (ix2 k (⟨(i 1).val, h⟩ : Fin 128))
     else ∑ k : Fin 128, x1 (ix2 (i 0 : Fin 10240) k) * w1 (ix2 k (⟨(i 1).val - 128, by have := idx2_lt1 i; omega⟩ : Fin 128)))
    0

def mean10of (h : FVec Ideal S10240x256 .f32) : FVec Ideal S1024x256 .f32 :=
  fun i => Ideal.div (∑ s : Fin 10, h (ix2 (at10 (i 0) s) (i 1 : Fin 256))) (Ideal.ofBits .f32 0x41200000#32)

def mlpId (x0 x1 : FVec Ideal S1024x256 .f32) (w0 w1 : FVec Ideal S256x128 .f32) : FVec Ideal S1024x256 .f32 :=
  fun i =>
    if h : (i 1).val < 128 then ∑ k : Fin 256, x0 (ix2 (i 0 : Fin 1024) k) * w0 (ix2 k (⟨(i 1).val, h⟩ : Fin 128))
    else ∑ k : Fin 256, x1 (ix2 (i 0 : Fin 1024) k) * w1 (ix2 k (⟨(i 1).val - 128, by have := idx2_lt1 i; omega⟩ : Fin 128))

def OUT (feat : FVec Ideal S500000x128 .f32) (tb : IVec S1024 32) (t1 : IVec S10240 32) (t2 : IVec S256000 32)
    (wn0 ws0 : FVec Ideal S128x128 .f32) (wn1 ws1 : FVec Ideal S256x128 .f32) : FVec Ideal S1024x256 .f32 :=
  mlpId (mlpRelu1024 (gath1024 feat tb) (gmean10 feat t1) ws0 wn0)
    (mean10of (mlpRelu10240 (gath10240 feat t1) (gmean25 feat t2) ws0 wn0)) ws1 wn1

end Cert.Hand.Spec

end
-- ==== Proof.KvMid.lean ====
import proofs.«401580_j65068754534945_2_alg».proof.Proof.SpecVal
import Idealize.ShloMosaic.Lib.Pipeline.Value
import Idealize.ShloMosaic.PureOps.Ideal.Laws

/-! The layout steps between the regions read at an index: a unit axis dropped, eight blocks of 1280 rows stacked, the mean over groups of ten rows. -/

noncomputable section

open scoped BigOperators

namespace Cert.Hand.Spec

open Idealize.ShloMosaic Idealize.ShloMosaic.ValueIdx

theorem dropMid_apply {α : Type} {n : Nat} (x : (⟨3, ![n, 1, 128]⟩ : Shape).Idx → α)
    (h : (⟨3, ![n, 1, 128]⟩ : Shape).ShapeCasts ⟨2, ![n, 128]⟩) (r : Fin n) (l : Fin 128) :
    shapeCast ⟨2, ![n, 128]⟩ x h (ix2 r l) = x (ix3 r (0 : Fin 1) l) :=
  shapeCast_apply x h _ _ (by
    rw [Shape.rowMajor_val_three, Shape.rowMajor_val_two]
    show (r.val * 1 + 0) * 128 + l.val = r.val * 128 + l.val
    omega)

theorem addMid_apply {α : Type} {n : Nat} (x : (⟨2, ![n, 128]⟩ : Shape).Idx → α)
    (h : (⟨2, ![n, 128]⟩ : Shape).ShapeCasts ⟨3, ![n, 1, 128]⟩) (r : Fin n) (l : Fin 128) :
    shapeCast ⟨3, ![n, 1, 128]⟩ x h (ix3 r (0 : Fin 1) l) = x (ix2 r l) :=
  shapeCast_apply x h _ _ (by
    rw [Shape.rowMajor_val_three, Shape.rowMajor_val_two]
    show r.val * 128 + l.val = (r.val * 1 + 0) * 128 + l.val
    omega)

theorem dropMid_eq {α : Type} {n : Nat} (x : (⟨3, ![n, 1, 128]⟩ : Shape).Idx → α)
    (h : (⟨3, ![n, 1, 128]⟩ : Shape).ShapeCasts ⟨2, ![n, 128]⟩) (G : (⟨2, ![n, 128]⟩ : Shape).Idx → α)
    (hx : ∀ (r : Fin n) (l : Fin 128), x (ix3 r (0 : Fin 1) l) = G (ix2 r l)) :
    shapeCast ⟨2, ![n, 128]⟩ x h = G := by
  funext i
  obtain ⟨r, l, rfl⟩ : ∃ (r : Fin n) (l : Fin 128), i = ix2 r l := ⟨i 0, i 1, eq_ix2 i⟩
  rw [dropMid_apply, hx]

theorem rowOf_eq_mk {w : BitVec 32} (h : w.toNat < 500000) : rowOf w = (⟨w.toNat, h⟩ : Fin 500000) :=
  Fin.ext (rowOf_val_of_lt h)

theorem concat8_apply {α : Type} (u : Fin 8 → ((⟨2, ![1280, 128]⟩ : Shape).Idx → α))
    (h : Shape.Concatenates ((List.ofFn fun n : Fin 8 => (⟨⟨2, ![1280, 128]⟩, u n⟩ : (s : Shape) × (s.Idx → α))).map (·.1)) S10240x128 (0 : Fin 2))
    (k : Fin 8) (g : Fin 1280) (l : Fin 128) :
    concatenate S10240x128 (0 : Fin 2) (List.ofFn fun n : Fin 8 => (⟨⟨2, ![1280, 128]⟩, u n⟩ : (s : Shape) × (s.Idx → α))) h
        (ix2 (⟨1280 * k.val + g.val, by omega⟩ : Fin 10240) l)
      = u k (ix2 g l) :=
  concatenate_ofFn_apply (t := S10240x128) (0 : Fin 2) u h rfl 1280 rfl (ix2 (⟨1280 * k.val + g.val, by omega⟩ : Fin 10240) l) k
    (by show (1280 * k.val + g.val) / 1280 = k.val; omega) (ix2 g l)
    (by show g.val = (1280 * k.val + g.val) % 1280; omega)
    (fun b hb => by match b with | ⟨0, _⟩ => exact absurd rfl hb | ⟨1, _⟩ => rfl)

theorem mean10of_host (x : FVec Ideal S10240x256 .f32)
    (hc : S10240x256.ShapeCasts ⟨3, ![1024, 10, 256]⟩)
    (red : (⟨3, ![1024, 10, 256]⟩ : Shape).ReducesTo [1] S1024x256) (hS : 0 < (⟨0, ![]⟩ : Shape).numel)
    (hb : (⟨0, ![]⟩ : Shape).BroadcastsInDim S1024x256 (![] : Fin 0 → Fin 2)) :
    Host.divf (Host.reduceAdd (shapeCast ⟨3, ![1024, 10, 256]⟩ x hc) (constant (F := Ideal) ⟨0, ![]⟩ .f32 0x00000000#32) red hS)
        (broadcastInDim S1024x256 ![] hb (constant (F := Ideal) ⟨0, ![]⟩ .f32 0x41200000#32))
      = mean10of x := by
  funext i
  obtain ⟨r, q, rfl⟩ : ∃ (r : Fin 1024) (q : Fin 256), i = ix2 r q := ⟨i 0, i 1, eq_ix2 i⟩
  show Ideal.div (Host.reduceAdd (shapeCast ⟨3, ![1024, 10, 256]⟩ x hc) (constant (F := Ideal) ⟨0, ![]⟩ .f32 0x00000000#32) red hS (ix2 r q))
      (broadcastInDim S1024x256 ![] hb (constant (F := Ideal) ⟨0, ![]⟩ .f32 0x41200000#32) (ix2 r q))
    = Ideal.div (∑ s : Fin 10, x (ix2 (at10 r s) q)) (Ideal.ofBits .f32 0x41200000#32)
  have hden : broadcastInDim S1024x256 ![] hb (constant (F := Ideal) ⟨0, ![]⟩ .f32 0x41200000#32) (ix2 r q)
      = Ideal.ofBits .f32 0x41200000#32 :=
    broadcastInDim_apply _ hb _ (ix2 r q) (fun a => a.elim0) (fun a => a.elim0)
  have hnum : Host.reduceAdd (shapeCast ⟨3, ![1024, 10, 256]⟩ x hc) (constant (F := Ideal) ⟨0, ![]⟩ .f32 0x00000000#32) red hS (ix2 r q)
      = ∑ s : Fin 10, x (ix2 (at10 r s) q) := by
    simp only [Host.reduceAdd, Ideal.hostReduceAdd_def]
    rw [Ideal.hostReduceAdd_single red (by decide)]
    show Ideal.ofBits .f32 0x00000000#32 + _ = _
    rw [Ideal.ofBits_zero_f32, zero_add]
    refine Finset.sum_congr rfl fun s _ => ?_
    refine shapeCast_apply x hc _ _ ?_
    rw [Shape.rowMajor_val_two, Shape.rowMajor_val_three]
    show (10 * r.val + s.val) * 256 + q.val = (r.val * 10 + s.val) * 256 + q.val
    omega
  rw [hden, hnum]

abbrev S500000x1x128 : Shape := ⟨3, ![500000, 1, 128]⟩
abbrev S1024x1x128 : Shape := ⟨3, ![1024, 1, 128]⟩
abbrev S10240x1x128 : Shape := ⟨3, ![10240, 1, 128]⟩
abbrev S1280x1x128 : Shape := ⟨3, ![1280, 1, 128]⟩
abbrev S1280x128 : Shape := ⟨2, ![1280, 128]⟩
abbrev S32000 : Shape := ⟨1, ![32000]⟩

theorem gathRow_eq (feat : FVec Ideal S500000x128 .f32) (hc : S500000x128.ShapeCasts S500000x1x128)
    (w : BitVec 32) (hw : w.toNat < 500000) (l : Fin 128) :
    shapeCast S500000x1x128 feat hc (ix3 (⟨w.toNat, hw⟩ : Fin 500000) (0 : Fin 1) l) = feat (ix2 (rowOf w) l) := by
  rw [addMid_apply, rowOf_eq_mk hw]

section Gathers

variable (feat : FVec Ideal S500000x128 .f32) (hc : S500000x128.ShapeCasts S500000x1x128)

theorem gath1024_of (tb : IVec S1024 32) (hin : ∀ k, (tb k).toNat < 500000) (o : S1024x1x128.Idx → EReal)
    (h : S1024x1x128.ShapeCasts S1024x128)
    (ho : ∀ i : S1024x1x128.Idx, o i
      = shapeCast S500000x1x128 feat hc (ix3 (⟨(tb (ix1 (⟨(i 0).val, (i 0).isLt⟩ : Fin 1024))).toNat, hin _⟩ : Fin 500000) (0 : Fin 1) (i 2))) :
    shapeCast S1024x128 o h = gath1024 feat tb :=
  dropMid_eq o h _ fun r l => (ho (ix3 r (0 : Fin 1) l)).trans (gathRow_eq feat hc _ _ l)

theorem gath10240_of (tb : IVec S10240 32) (hin : ∀ k, (tb k).toNat < 500000) (o : S10240x1x128.Idx → EReal)
    (h : S10240x1x128.ShapeCasts S10240x128)
    (ho : ∀ i : S10240x1x128.Idx, o i
      = shapeCast S500000x1x128 feat hc (ix3 (⟨(tb (ix1 (⟨(i 0).val, (i 0).isLt⟩ : Fin 10240))).toNat, hin _⟩ : Fin 500000) (0 : Fin 1) (i 2))) :
    shapeCast S10240x128 o h = gath10240 feat tb :=
  dropMid_eq o h _ fun r l => (ho (ix3 r (0 : Fin 1) l)).trans (gathRow_eq feat hc _ _ l)

theorem gmean10_of (tb : IVec S10240 32) (hin : ∀ k, (tb k).toNat < 500000) (o : S1024x1x128.Idx → EReal)
    (h : S1024x1x128.ShapeCasts S1024x128)
    (ho : ∀ i : S1024x1x128.Idx, o i
      = (∑ s : Fin 10, shapeCast S500000x1x128 feat hc (ix3 (⟨(tb (ix1 (⟨10 * (i 0).val + s.val, by
            have h0 : (i 0).val < 1024 := (i 0).isLt; have := s.isLt; omega⟩ : Fin 10240))).toNat, hin _⟩ : Fin 500000) (0 : Fin 1) (i 2)))
          * ((1 / 10 : ℝ) : EReal)) :
    shapeCast S1024x128 o h = gmean10 feat tb :=
  dropMid_eq o h _ fun r l => (ho (ix3 r (0 : Fin 1) l)).trans
    (congrArg (· * ((1 / 10 : ℝ) : EReal)) (Finset.sum_congr rfl fun s _ => gathRow_eq feat hc _ _ l))

end Gathers

theorem concat8_eq {α : Type} (p0 p1 p2 p3 p4 p5 p6 p7 : S1280x128.Idx → α)
    (h : Shape.Concatenates [S1280x128, S1280x128, S1280x128, S1280x128, S1280x128, S1280x128, S1280x128, S1280x128] S10240x128 (0 : Fin 2))
    (G : S10240x128.Idx → α)
    (hp : ∀ (k : Fin 8) (g : Fin 1280) (l : Fin 128),
      (![p0, p1, p2, p3, p4, p5, p6, p7] k) (ix2 g l) = G (ix2 (⟨1280 * k.val + g.val, by omega⟩ : Fin 10240) l)) :
    concatenate S10240x128 (0 : Fin 2)
      [⟨S1280x128, p0⟩, ⟨S1280x128, p1⟩, ⟨S1280x128, p2⟩, ⟨S1280x128, p3⟩, ⟨S1280x128, p4⟩, ⟨S1280x128, p5⟩, ⟨S1280x128, p6⟩, ⟨S1280x128, p7⟩] h
      = G := by
  funext i
  obtain ⟨r, l, rfl⟩ : ∃ (r : Fin 10240) (l : Fin 128), i = ix2 r l := ⟨i 0, i 1, eq_ix2 i⟩
  have hr : r.val < 10240 := r.isLt
  have e : r = (⟨1280 * (⟨r.val / 1280, by omega⟩ : Fin 8).val + (⟨r.val % 1280, by omega⟩ : Fin 1280).val, by
      show 1280 * (r.val / 1280) + r.val % 1280 < 10240; omega⟩ : Fin 10240) :=
    Fin.ext (by show r.val = 1280 * (r.val / 1280) + r.val % 1280; omega)
  rw [e]
  exact (concat8_apply ![p0, p1, p2, p3, p4, p5, p6, p7] h _ _ l).trans (hp _ _ l)

theorem gmean25_of (feat : FVec Ideal S500000x128 .f32) (hc : S500000x128.ShapeCasts S500000x1x128)
    (t2 : IVec S256000 32) (tb : Fin 8 → IVec S32000 32) (hin : ∀ k j, (tb k j).toNat < 500000)
    (htb : ∀ (k : Fin 8) (g : Fin 1280) (s : Fin 25),
      tb k (ix1 (⟨25 * g.val + s.val, by omega⟩ : Fin 32000)) = t2 (ix1 (at25 (⟨1280 * k.val + g.val, by omega⟩ : Fin 10240) s)))
    (o : Fin 8 → (S1280x1x128.Idx → EReal)) (h : S1280x1x128.ShapeCasts S1280x128)
    (ho : ∀ (k : Fin 8) (i : S1280x1x128.Idx), o k i
      = (∑ s : Fin 25, shapeCast S500000x1x128 feat hc (ix3 (⟨(tb k (ix1 (⟨25 * (i 0).val + s.val, by
            have h0 : (i 0).val < 1280 := (i 0).isLt; have := s.isLt; omega⟩ : Fin 32000))).toNat, hin k _⟩ : Fin 500000) (0 : Fin 1) (i 2)))
          * ((1 / 25 : ℝ) : EReal))
    (hcat : Shape.Concatenates [S1280x128, S1280x128, S1280x128, S1280x128, S1280x128, S1280x128, S1280x128, S1280x128] S10240x128 (0 : Fin 2)) :
    concatenate S10240x128 (0 : Fin 2)
      [⟨S1280x128, shapeCast S1280x128 (o 0) h⟩, ⟨S1280x128, shapeCast S1280x128 (o 1) h⟩, ⟨S1280x128, shapeCast S1280x128 (o 2) h⟩,
       ⟨S1280x128, shapeCast S1280x128 (o 3) h⟩, ⟨S1280x128, shapeCast S1280x128 (o 4) h⟩, ⟨S1280x128, shapeCast S1280x128 (o 5) h⟩,
       ⟨S1280x128, shapeCast S1280x128 (o 6) h⟩, ⟨S1280x128, shapeCast S1280x128 (o 7) h⟩] hcat
      = gmean25 feat t2 := by
  refine concat8_eq _ _ _ _ _ _ _ _ hcat _ fun k g l => ?_
  have hk : (![shapeCast S1280x128 (o 0) h, shapeCast S1280x128 (o 1) h, shapeCast S1280x128 (o 2) h, shapeCast S1280x128 (o 3) h,
      shapeCast S1280x128 (o 4) h, shapeCast S1280x128 (o 5) h, shapeCast S1280x128 (o 6) h, shapeCast S1280x128 (o 7) h] k)
      = shapeCast S1280x128 (o k) h := by
    match k with
    | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl
  rw [hk, dropMid_apply, ho k (ix3 g (0 : Fin 1) l)]
  show (∑ s : Fin 25, shapeCast S500000x1x128 feat hc (ix3 (⟨(tb k (ix1 (⟨25 * g.val + s.val, _⟩ : Fin 32000))).toNat, hin k _⟩ : Fin 500000) (0 : Fin 1) l))
      * ((1 / 25 : ℝ) : EReal)
    = (∑ s : Fin 25, feat (ix2 (rowOf (t2 (ix1 (at25 (⟨1280 * k.val + g.val, _⟩ : Fin 10240) s)))) l)) * ((1 / 25 : ℝ) : EReal)
  refine congrArg (· * ((1 / 25 : ℝ) : EReal)) (Finset.sum_congr rfl fun s _ => ?_)
  rw [gathRow_eq, htb k g s]

abbrev S10240x25 : Shape := ⟨2, ![10240, 25]⟩
abbrev S1280x25 : Shape := ⟨2, ![1280, 25]⟩

theorem slice25_apply (t2 : IVec S256000 32) (hc1 : S256000.ShapeCasts S10240x25) (off : Nat) (hoff : off + 1280 ≤ 10240)
    (hs : S10240x25.Slices ![off, 0] S1280x25) (hc2 : S1280x25.ShapeCasts S32000) (g : Fin 1280) (s : Fin 25) :
    shapeCast S32000 (extractStridedSlice S1280x25 ![off, 0] (shapeCast S10240x25 t2 hc1) hs) hc2
        (ix1 (⟨25 * g.val + s.val, by omega⟩ : Fin 32000))
      = t2 (ix1 (⟨25 * (off + g.val) + s.val, by omega⟩ : Fin 256000)) := by
  rw [shapeCast_apply _ hc2 _ (ix2 g s) (by
      rw [Shape.rowMajor_val_two, Shape.rowMajor_val_one]
      show g.val * 25 + s.val = 25 * g.val + s.val; omega),
    extractStridedSlice_apply _ _ hs _ (ix2 (⟨off + g.val, by omega⟩ : Fin 10240) s) (fun a => by
      match a with
      | ⟨0, _⟩ => rfl
      | ⟨1, _⟩ => show s.val = 0 + s.val; omega),
    shapeCast_apply _ hc1 _ (ix1 (⟨25 * (off + g.val) + s.val, by omega⟩ : Fin 256000)) (by
      rw [Shape.rowMajor_val_two, Shape.rowMajor_val_one]
      show 25 * (off + g.val) + s.val = (off + g.val) * 25 + s.val; omega)]

theorem there_and_back {α : Type} {s t : Shape} (x : s.Idx → α) (h : s.ShapeCasts t) (h' : t.ShapeCasts s) :
    shapeCast s (shapeCast t x h) h' = x := shapeCast_shapeCast x h h'

end Cert.Hand.Spec

end
-- ==== Proof.GatherValue0.lean ====
import proofs.«401580_j65068754534945_2_alg».proof.Proof.Gather0
import Idealize.ShloMosaic.Lib.IdealHost

/-! The value of a gather region with one sample per group over the extended reals: row g of its output is the feature row that entry g of the table names. -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

theorem zpay0 (y : S1x1x128.Idx) : (k0_pay1 (F := Ideal)) y = 0 := by
  unfold k0_pay1
  rw [shapeCast_self]
  exact Ideal.ofBits_zero_f32

theorem apay0 (x v : Vec Ideal S1x1x128 .f32) (y : S1x1x128.Idx) : k0_pay2 x v y = x y + v y := by
  unfold k0_pay2
  rw [shapeCast_self, shapeCast_self]
  rfl

theorem mpay0 (x : Vec Ideal S1x1x128 .f32) (y : S1x1x128.Idx) : k0_pay3 x y = x y := by
  unfold k0_pay3
  rw [ValueIdx.mulf_apply, ValueIdx.broadcast_apply]
  show x y * Ideal.ofBits .f32 0x3F800000#32 = x y
  rw [Ideal.ofBits_one_f32, mul_one]

section
variable {F : FTy → Type} [FloatOps F] [Named F]

theorem tr0_1_0 (i : grid0.Coords) : cc0_transform_1 i 0 = (i 0).val := by
  have h : (i 0).val < 1024 := (i 0).isLt
  show (BitVec.ofNat 32 (i 0).val).toNat = (i 0).val
  rw [BitVec.toNat_ofNat]
  exact Nat.mod_eq_of_lt (by omega)
theorem tr0_1_1 (i : grid0.Coords) : cc0_transform_1 i 1 = 0 := rfl
theorem tr0_1_2 (i : grid0.Coords) : cc0_transform_1 i 2 = 0 := rfl

theorem tr0_0_0 (pf : pre0.Contents (Elt F)) (i : grid0.Coords) (h : (i 0).val + (i 1).val < 1024) :
    cc0_transform_0 k0_off1_inb numel1_S1 pf i 0
      = ((pf 0 : S1024.Idx → BitVec 32) (ValueIdx.ix1 ⟨(i 0).val + (i 1).val, h⟩)).toNat := by
  show ((pf 0 : S1024.Idx → BitVec 32) ((Rect.unit (s := S1024) (k0_off1 i) S1.size (k0_off1_inb i)).emb (Shape.Idx.first _))).toNat = _
  refine congrArg (fun k => ((pf 0 : S1024.Idx → BitVec 32) k).toNat) ?_
  funext d
  match d with
  | ⟨0, _⟩ =>
    apply Fin.ext
    show (k0_off1 i) 0 + 1 * 0 = (i 0).val + (i 1).val
    have e := congrFun (k0_off1_eq i) 0
    simp only [Matrix.cons_val_zero] at e
    omega
theorem tr0_0_1 (pf : pre0.Contents (Elt F)) (i : grid0.Coords) : cc0_transform_0 k0_off1_inb numel1_S1 pf i 1 = 0 := rfl
theorem tr0_0_2 (pf : pre0.Contents (Elt F)) (i : grid0.Coords) : cc0_transform_0 k0_off1_inb numel1_S1 pf i 2 = 0 := rfl

end

section
variable (a : (pcfg0 (F := Ideal)).Adm)
variable (A : (c : Dev nD) → (w : Fin (cfg0 a).W) → Buf (Elt Ideal) (((cfg0 a).win w).arr.view.loc (c.tc : Thread nD τ)))

theorem N0_eq : (cfg0 a).N = 1024 := N_0

theorem tbl0_congr (n n' : ℕ) (h : n < 1024) (h' : n' < 1024) (e : n = n') :
    (a.1 0 : S1024.Idx → BitVec 32) (ValueIdx.ix1 ⟨n, h⟩) = (a.1 0 : S1024.Idx → BitVec 32) (ValueIdx.ix1 ⟨n', h'⟩) := by
  subst e; rfl

theorem index0_0_0 (t : Fin (cfg0 a).N) (h : t.val < 1024) :
    ((cfg0 a).win 0).index t (0 : Fin 3) = ((a.1 0 : S1024.Idx → BitVec 32) (ValueIdx.ix1 ⟨t.val, h⟩)).toNat := by
  have h0 := coords0_0 t
  have h1 := coords0_1 t
  have hh : (grid0.coords t 0).val + (grid0.coords t 1).val < 1024 := by rw [h0, h1]; omega
  show cc0_transform_0 k0_off1_inb numel1_S1 a.1 (grid0.coords t) 0 = _
  rw [tr0_0_0 a.1 (grid0.coords t) hh]
  refine congrArg BitVec.toNat (tbl0_congr a _ _ hh h ?_)
  rw [h0, h1]; omega
theorem index0_0_1 (t : Fin (cfg0 a).N) : ((cfg0 a).win 0).index t (1 : Fin 3) = 0 := rfl
theorem index0_0_2 (t : Fin (cfg0 a).N) : ((cfg0 a).win 0).index t (2 : Fin 3) = 0 := rfl

theorem index0_1_0 (t : Fin (cfg0 a).N) : ((cfg0 a).win 1).index t (0 : Fin 3) = t.val := by
  have h0 := coords0_0 t
  have hN : t.val < 1024 := (N0_eq a) ▸ t.isLt
  show cc0_transform_1 (grid0.coords t) 0 = _
  rw [tr0_1_0, h0]; omega
theorem index0_1_1 (t : Fin (cfg0 a).N) : ((cfg0 a).win 1).index t (1 : Fin 3) = 0 := rfl
theorem index0_1_2 (t : Fin (cfg0 a).N) : ((cfg0 a).win 1).index t (2 : Fin 3) = 0 := rfl

theorem row0_apply (c : Dev nD) (t : Fin (cfg0 a).N) (h : t.val < 1024) (y : S1x1x128.Idx) (k : S500000x1x128.Idx)
    (hk0 : (k 0).val = ((a.1 0 : S1024.Idx → BitVec 32) (ValueIdx.ix1 ⟨t.val, h⟩)).toNat) (hk1 : (k 1).val = 0)
    (hk2 : (k 2).val = (y 2).val) :
    row0 a A c t y = (A c 0 : S500000x1x128.Idx → EReal) k := by
  have hy0 : (y 0).val = 0 := by have : (y 0).val < 1 := (y 0).isLt; omega
  have hy1 : (y 1).val = 0 := by have : (y 1).val < 1 := (y 1).isLt; omega
  unfold row0
  show (A c 0 : S500000x1x128.Idx → EReal) ((((cfg0 a).win 0).blk t).view.emb y) = (A c 0 : S500000x1x128.Idx → EReal) k
  refine congrArg (A c 0 : S500000x1x128.Idx → EReal) ?_
  funext b
  apply Fin.ext
  match b with
  | ⟨0, _⟩ =>
    show ((cfg0 a).win 0).index t (0 : Fin 3) * 1 + 1 * (y 0).val = (k 0).val
    rw [index0_0_0 a t h, hk0, hy0]; omega
  | ⟨1, _⟩ =>
    show ((cfg0 a).win 0).index t (1 : Fin 3) * 1 + 1 * (y 1).val = (k 1).val
    rw [index0_0_1, hk1, hy1]
  | ⟨2, _⟩ =>
    show ((cfg0 a).win 0).index t (2 : Fin 3) * 128 + 1 * (y 2).val = (k 2).val
    rw [index0_0_2, hk2]; omega

theorem acc0_first (c : Dev nD) (n : ℕ) (h : n < (cfg0 a).N) :
    acc0 a A c n h = k0_pay2 (k0_pay1 (F := Ideal)) (row0 a A c ⟨n, h⟩) := by
  cases n with
  | zero => rfl
  | succ n =>
    show k0_pay2 (if first0 (grid0.coords ⟨n + 1, h⟩) = 1#1 then k0_pay1 (F := Ideal) else acc0 a A c n (Nat.lt_of_succ_lt h))
      (row0 a A c ⟨n + 1, h⟩) = _
    rw [if_pos ((first0_at ⟨n + 1, h⟩).mpr (Nat.mod_one _))]

end

section
variable (a : (pcfg0 (F := Ideal)).Adm)
variable (A : (c : Dev nD) → (w : Fin (cfg0 a).W) → Buf (Elt Ideal) (((cfg0 a).win w).arr.view.loc (c.tc : Thread nD τ)))
variable (T : S500000x1x128.Idx → EReal) (tb : S1024.Idx → BitVec 32) (hin : ∀ k, (tb k).toNat < 500000)

def mean0 : S1024x1x128.Idx → EReal := fun i =>
  T (ValueIdx.ix3 ⟨(tb (ValueIdx.ix1 ⟨(i 0).val, (i 0).isLt⟩)).toNat, hin _⟩ (0 : Fin 1) (i 2))

theorem flushed0_at (c : Dev nD) (hT : T = A c 0) (htb : tb = a.1 0) (t : Fin (cfg0 a).N)
    (y : S1x1x128.Idx) (i : S1024x1x128.Idx) (hi0 : (i 0).val = t.val) (hi2 : (i 2).val = (y 2).val) :
    k0_pay3 (acc0 a A c t.val t.isLt) y = mean0 T tb hin i := by
  subst hT htb
  have hN : (cfg0 a).N = 1024 := N0_eq a
  have ht : t.val < 1024 := hN ▸ t.isLt
  rw [mpay0, acc0_first a A c t.val t.isLt, apay0, zpay0, zero_add]
  unfold mean0
  refine row0_apply a A c t ht y _ ?_ rfl hi2
  exact congrArg BitVec.toNat (tbl0_congr a _ _ _ _ hi0)

theorem flushed0_eq (c : Dev nD) (hT : T = A c 0) (htb : tb = a.1 0) (t : Fin (cfg0 a).N)
    (hf : ((cfg0 a).win 1).flush t = true) :
    (dat0 a A c).flushed 1 t = (((cfg0 a).win 1).blk t).view.read (Elt Ideal) (mean0 T tb hin) := by
  show ((cfg0 a).win 1).cut (grid0.coords t) ((dat0 a A c).after 1 t) = _
  rw [after0_1]
  refine funext fun (y : S1x1x128.Idx) => ?_
  show k0_pay3 (acc0 a A c t.val t.isLt) y = mean0 T tb hin ((((cfg0 a).win 1).blk t).view.emb y)
  refine flushed0_at a A T tb hin c hT htb t y _ ?_ ?_
  · show ((cfg0 a).win 1).index t (0 : Fin 3) * 1 + 1 * (y 0).val = t.val
    have : (y 0).val < 1 := (y 0).isLt
    rw [index0_1_0]; omega
  · show ((cfg0 a).win 1).index t (2 : Fin 3) * 128 + 1 * (y 2).val = (y 2).val
    rw [index0_1_2]; omega

theorem flush0_at_last (g : ℕ) (hg : g < 1024) (h : g < (cfg0 a).N) :
    ((cfg0 a).win 1).flush ⟨g, h⟩ = true := by
  unfold Pipeline.Window.flush
  simp only [Bool.and_eq_true, Bool.or_eq_true, decide_eq_true_eq]
  refine ⟨rfl, ?_⟩
  by_cases hlast : g + 1 = 1024
  · left
    show g + 1 = grid0.N
    rw [N_0]; omega
  · right
    have h' : g + 1 < (cfg0 a).N := lt_of_lt_of_eq (by omega : g + 1 < 1024) (N0_eq a).symm
    refine ⟨h', fun e => ?_⟩
    have e0 := congrFun e (0 : Fin 3)
    rw [index0_1_0, index0_1_0] at e0
    dsimp only at e0
    omega

set_option backward.isDefEq.respectTransparency.types false in
theorem mem_blk0 (t : Fin (cfg0 a).N) (i : S1024x1x128.Idx) (h0 : (i 0).val = t.val) :
    i ∈ (((cfg0 a).win 1).blk t).view.set := by
  show i ∈ ((View.whole (Pipeline.arrRef spec0 (1 : Fin 2))).slice (((cfg0 a).win 1).rect t)).set
  rw [View.set_slice_whole]
  refine Rect.mem_set_unit.mpr ?_
  intro b
  have h1 : (i 1).val < 1 := (i 1).isLt
  have h2 : (i 2).val < 128 := (i 2).isLt
  match b with
  | ⟨0, _⟩ =>
    show ((cfg0 a).win 1).index t (0 : Fin 3) * 1 ≤ (i 0).val ∧ (i 0).val < ((cfg0 a).win 1).index t (0 : Fin 3) * 1 + 1
    rw [index0_1_0]; omega
  | ⟨1, _⟩ =>
    show ((cfg0 a).win 1).index t (1 : Fin 3) * 1 ≤ (i 1).val ∧ (i 1).val < ((cfg0 a).win 1).index t (1 : Fin 3) * 1 + 1
    rw [index0_1_1]; omega
  | ⟨2, _⟩ =>
    show ((cfg0 a).win 1).index t (2 : Fin 3) * 128 ≤ (i 2).val ∧ (i 2).val < ((cfg0 a).win 1).index t (2 : Fin 3) * 128 + 128
    rw [index0_1_2]; omega

theorem cover0 (i : S1024x1x128.Idx) :
    ∃ t : Fin (cfg0 a).N, ((cfg0 a).win 1).flush t = true ∧ i ∈ (((cfg0 a).win 1).blk t).view.set := by
  have h0 : (i 0).val < 1024 := (i 0).isLt
  have h : (i 0).val < (cfg0 a).N := lt_of_lt_of_eq h0 (N0_eq a).symm
  exact ⟨⟨(i 0).val, h⟩, flush0_at_last a (i 0).val h0 h, mem_blk0 a _ i rfl⟩

theorem gval0_of (c : Dev nD) (hT : T = A c 0) (htb : tb = a.1 0) :
    (dat0 (F := Ideal) a A c).arrAt 1 (cfg0 a).N = mean0 T tb hin :=
  (dat0 a A c).arrAt_eq_of_cover 1 (mean0 T tb hin) (flushed0_eq a A T tb hin c hT htb) (cover0 a)

end

theorem mean0_apply (T : S500000x1x128.Idx → EReal) (tb : S1024.Idx → BitVec 32) (hin : ∀ k, (tb k).toNat < 500000)
    (i : S1024x1x128.Idx) :
    mean0 T tb hin i = T (ValueIdx.ix3 ⟨(tb (ValueIdx.ix1 ⟨(i 0).val, (i 0).isLt⟩)).toNat, hin _⟩ (0 : Fin 1) (i 2)) := rfl

theorem gval0 (a : (pcfg0 (F := Ideal)).Adm)
    (A : (c : Dev nD) → (w : Fin (cfg0 a).W) → Buf (Elt Ideal) (((cfg0 a).win w).arr.view.loc (c.tc : Thread nD τ))) (c : Dev nD)
    (hin : ∀ k, ((a.1 0 : S1024.Idx → BitVec 32) k).toNat < 500000) :
    (dat0 (F := Ideal) a A c).arrAt 1 (cfg0 a).N = mean0 (A c 0) (a.1 0) hin :=
  gval0_of a A (A c 0) (a.1 0) hin c rfl rfl

end Cert.KernelIdeal.Hand

end
-- ==== Proof.GatherValue1.lean ====
import proofs.«401580_j65068754534945_2_alg».proof.Proof.Gather1
import Idealize.ShloMosaic.Lib.IdealHost

/-! The value of a gather region with one sample per group over the extended reals: row g of its output is the feature row that entry g of the table names. -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

theorem zpay1 (y : S1x1x128.Idx) : (k1_pay1 (F := Ideal)) y = 0 := by
  unfold k1_pay1
  rw [shapeCast_self]
  exact Ideal.ofBits_zero_f32

theorem apay1 (x v : Vec Ideal S1x1x128 .f32) (y : S1x1x128.Idx) : k1_pay2 x v y = x y + v y := by
  unfold k1_pay2
  rw [shapeCast_self, shapeCast_self]
  rfl

theorem mpay1 (x : Vec Ideal S1x1x128 .f32) (y : S1x1x128.Idx) : k1_pay3 x y = x y := by
  unfold k1_pay3
  rw [ValueIdx.mulf_apply, ValueIdx.broadcast_apply]
  show x y * Ideal.ofBits .f32 0x3F800000#32 = x y
  rw [Ideal.ofBits_one_f32, mul_one]

section
variable {F : FTy → Type} [FloatOps F] [Named F]

theorem tr1_1_0 (i : grid1.Coords) : cc1_transform_1 i 0 = (i 0).val := by
  have h : (i 0).val < 10240 := (i 0).isLt
  show (BitVec.ofNat 32 (i 0).val).toNat = (i 0).val
  rw [BitVec.toNat_ofNat]
  exact Nat.mod_eq_of_lt (by omega)
theorem tr1_1_1 (i : grid1.Coords) : cc1_transform_1 i 1 = 0 := rfl
theorem tr1_1_2 (i : grid1.Coords) : cc1_transform_1 i 2 = 0 := rfl

theorem tr1_0_0 (pf : pre1.Contents (Elt F)) (i : grid1.Coords) (h : (i 0).val + (i 1).val < 10240) :
    cc1_transform_0 k1_off1_inb numel1_S1 pf i 0
      = ((pf 0 : S10240.Idx → BitVec 32) (ValueIdx.ix1 ⟨(i 0).val + (i 1).val, h⟩)).toNat := by
  show ((pf 0 : S10240.Idx → BitVec 32) ((Rect.unit (s := S10240) (k1_off1 i) S1.size (k1_off1_inb i)).emb (Shape.Idx.first _))).toNat = _
  refine congrArg (fun k => ((pf 0 : S10240.Idx → BitVec 32) k).toNat) ?_
  funext d
  match d with
  | ⟨0, _⟩ =>
    apply Fin.ext
    show (k1_off1 i) 0 + 1 * 0 = (i 0).val + (i 1).val
    have e := congrFun (k1_off1_eq i) 0
    simp only [Matrix.cons_val_zero] at e
    omega
theorem tr1_0_1 (pf : pre1.Contents (Elt F)) (i : grid1.Coords) : cc1_transform_0 k1_off1_inb numel1_S1 pf i 1 = 0 := rfl
theorem tr1_0_2 (pf : pre1.Contents (Elt F)) (i : grid1.Coords) : cc1_transform_0 k1_off1_inb numel1_S1 pf i 2 = 0 := rfl

end

section
variable (a : (pcfg1 (F := Ideal)).Adm)
variable (A : (c : Dev nD) → (w : Fin (cfg1 a).W) → Buf (Elt Ideal) (((cfg1 a).win w).arr.view.loc (c.tc : Thread nD τ)))

theorem N1_eq : (cfg1 a).N = 10240 := N_1

theorem tbl1_congr (n n' : ℕ) (h : n < 10240) (h' : n' < 10240) (e : n = n') :
    (a.1 0 : S10240.Idx → BitVec 32) (ValueIdx.ix1 ⟨n, h⟩) = (a.1 0 : S10240.Idx → BitVec 32) (ValueIdx.ix1 ⟨n', h'⟩) := by
  subst e; rfl

theorem index1_0_0 (t : Fin (cfg1 a).N) (h : t.val < 10240) :
    ((cfg1 a).win 0).index t (0 : Fin 3) = ((a.1 0 : S10240.Idx → BitVec 32) (ValueIdx.ix1 ⟨t.val, h⟩)).toNat := by
  have h0 := coords1_0 t
  have h1 := coords1_1 t
  have hh : (grid1.coords t 0).val + (grid1.coords t 1).val < 10240 := by rw [h0, h1]; omega
  show cc1_transform_0 k1_off1_inb numel1_S1 a.1 (grid1.coords t) 0 = _
  rw [tr1_0_0 a.1 (grid1.coords t) hh]
  refine congrArg BitVec.toNat (tbl1_congr a _ _ hh h ?_)
  rw [h0, h1]; omega
theorem index1_0_1 (t : Fin (cfg1 a).N) : ((cfg1 a).win 0).index t (1 : Fin 3) = 0 := rfl
theorem index1_0_2 (t : Fin (cfg1 a).N) : ((cfg1 a).win 0).index t (2 : Fin 3) = 0 := rfl

theorem index1_1_0 (t : Fin (cfg1 a).N) : ((cfg1 a).win 1).index t (0 : Fin 3) = t.val := by
  have h0 := coords1_0 t
  have hN : t.val < 10240 := (N1_eq a) ▸ t.isLt
  show cc1_transform_1 (grid1.coords t) 0 = _
  rw [tr1_1_0, h0]; omega
theorem index1_1_1 (t : Fin (cfg1 a).N) : ((cfg1 a).win 1).index t (1 : Fin 3) = 0 := rfl
theorem index1_1_2 (t : Fin (cfg1 a).N) : ((cfg1 a).win 1).index t (2 : Fin 3) = 0 := rfl

theorem row1_apply (c : Dev nD) (t : Fin (cfg1 a).N) (h : t.val < 10240) (y : S1x1x128.Idx) (k : S500000x1x128.Idx)
    (hk0 : (k 0).val = ((a.1 0 : S10240.Idx → BitVec 32) (ValueIdx.ix1 ⟨t.val, h⟩)).toNat) (hk1 : (k 1).val = 0)
    (hk2 : (k 2).val = (y 2).val) :
    row1 a A c t y = (A c 0 : S500000x1x128.Idx → EReal) k := by
  have hy0 : (y 0).val = 0 := by have : (y 0).val < 1 := (y 0).isLt; omega
  have hy1 : (y 1).val = 0 := by have : (y 1).val < 1 := (y 1).isLt; omega
  unfold row1
  show (A c 0 : S500000x1x128.Idx → EReal) ((((cfg1 a).win 0).blk t).view.emb y) = (A c 0 : S500000x1x128.Idx → EReal) k
  refine congrArg (A c 0 : S500000x1x128.Idx → EReal) ?_
  funext b
  apply Fin.ext
  match b with
  | ⟨0, _⟩ =>
    show ((cfg1 a).win 0).index t (0 : Fin 3) * 1 + 1 * (y 0).val = (k 0).val
    rw [index1_0_0 a t h, hk0, hy0]; omega
  | ⟨1, _⟩ =>
    show ((cfg1 a).win 0).index t (1 : Fin 3) * 1 + 1 * (y 1).val = (k 1).val
    rw [index1_0_1, hk1, hy1]
  | ⟨2, _⟩ =>
    show ((cfg1 a).win 0).index t (2 : Fin 3) * 128 + 1 * (y 2).val = (k 2).val
    rw [index1_0_2, hk2]; omega

theorem acc1_first (c : Dev nD) (n : ℕ) (h : n < (cfg1 a).N) :
    acc1 a A c n h = k1_pay2 (k1_pay1 (F := Ideal)) (row1 a A c ⟨n, h⟩) := by
  cases n with
  | zero => rfl
  | succ n =>
    show k1_pay2 (if first1 (grid1.coords ⟨n + 1, h⟩) = 1#1 then k1_pay1 (F := Ideal) else acc1 a A c n (Nat.lt_of_succ_lt h))
      (row1 a A c ⟨n + 1, h⟩) = _
    rw [if_pos ((first1_at ⟨n + 1, h⟩).mpr (Nat.mod_one _))]

end

section
variable (a : (pcfg1 (F := Ideal)).Adm)
variable (A : (c : Dev nD) → (w : Fin (cfg1 a).W) → Buf (Elt Ideal) (((cfg1 a).win w).arr.view.loc (c.tc : Thread nD τ)))
variable (T : S500000x1x128.Idx → EReal) (tb : S10240.Idx → BitVec 32) (hin : ∀ k, (tb k).toNat < 500000)

def mean1 : S10240x1x128.Idx → EReal := fun i =>
  T (ValueIdx.ix3 ⟨(tb (ValueIdx.ix1 ⟨(i 0).val, (i 0).isLt⟩)).toNat, hin _⟩ (0 : Fin 1) (i 2))

theorem flushed1_at (c : Dev nD) (hT : T = A c 0) (htb : tb = a.1 0) (t : Fin (cfg1 a).N)
    (y : S1x1x128.Idx) (i : S10240x1x128.Idx) (hi0 : (i 0).val = t.val) (hi2 : (i 2).val = (y 2).val) :
    k1_pay3 (acc1 a A c t.val t.isLt) y = mean1 T tb hin i := by
  subst hT htb
  have hN : (cfg1 a).N = 10240 := N1_eq a
  have ht : t.val < 10240 := hN ▸ t.isLt
  rw [mpay1, acc1_first a A c t.val t.isLt, apay1, zpay1, zero_add]
  unfold mean1
  refine row1_apply a A c t ht y _ ?_ rfl hi2
  exact congrArg BitVec.toNat (tbl1_congr a _ _ _ _ hi0)

theorem flushed1_eq (c : Dev nD) (hT : T = A c 0) (htb : tb = a.1 0) (t : Fin (cfg1 a).N)
    (hf : ((cfg1 a).win 1).flush t = true) :
    (dat1 a A c).flushed 1 t = (((cfg1 a).win 1).blk t).view.read (Elt Ideal) (mean1 T tb hin) := by
  show ((cfg1 a).win 1).cut (grid1.coords t) ((dat1 a A c).after 1 t) = _
  rw [after1_1]
  refine funext fun (y : S1x1x128.Idx) => ?_
  show k1_pay3 (acc1 a A c t.val t.isLt) y = mean1 T tb hin ((((cfg1 a).win 1).blk t).view.emb y)
  refine flushed1_at a A T tb hin c hT htb t y _ ?_ ?_
  · show ((cfg1 a).win 1).index t (0 : Fin 3) * 1 + 1 * (y 0).val = t.val
    have : (y 0).val < 1 := (y 0).isLt
    rw [index1_1_0]; omega
  · show ((cfg1 a).win 1).index t (2 : Fin 3) * 128 + 1 * (y 2).val = (y 2).val
    rw [index1_1_2]; omega

theorem flush1_at_last (g : ℕ) (hg : g < 10240) (h : g < (cfg1 a).N) :
    ((cfg1 a).win 1).flush ⟨g, h⟩ = true := by
  unfold Pipeline.Window.flush
  simp only [Bool.and_eq_true, Bool.or_eq_true, decide_eq_true_eq]
  refine ⟨rfl, ?_⟩
  by_cases hlast : g + 1 = 10240
  · left
    show g + 1 = grid1.N
    rw [N_1]; omega
  · right
    have h' : g + 1 < (cfg1 a).N := lt_of_lt_of_eq (by omega : g + 1 < 10240) (N1_eq a).symm
    refine ⟨h', fun e => ?_⟩
    have e0 := congrFun e (0 : Fin 3)
    rw [index1_1_0, index1_1_0] at e0
    dsimp only at e0
    omega

set_option backward.isDefEq.respectTransparency.types false in
theorem mem_blk1 (t : Fin (cfg1 a).N) (i : S10240x1x128.Idx) (h0 : (i 0).val = t.val) :
    i ∈ (((cfg1 a).win 1).blk t).view.set := by
  show i ∈ ((View.whole (Pipeline.arrRef spec1 (1 : Fin 2))).slice (((cfg1 a).win 1).rect t)).set
  rw [View.set_slice_whole]
  refine Rect.mem_set_unit.mpr ?_
  intro b
  have h1 : (i 1).val < 1 := (i 1).isLt
  have h2 : (i 2).val < 128 := (i 2).isLt
  match b with
  | ⟨0, _⟩ =>
    show ((cfg1 a).win 1).index t (0 : Fin 3) * 1 ≤ (i 0).val ∧ (i 0).val < ((cfg1 a).win 1).index t (0 : Fin 3) * 1 + 1
    rw [index1_1_0]; omega
  | ⟨1, _⟩ =>
    show ((cfg1 a).win 1).index t (1 : Fin 3) * 1 ≤ (i 1).val ∧ (i 1).val < ((cfg1 a).win 1).index t (1 : Fin 3) * 1 + 1
    rw [index1_1_1]; omega
  | ⟨2, _⟩ =>
    show ((cfg1 a).win 1).index t (2 : Fin 3) * 128 ≤ (i 2).val ∧ (i 2).val < ((cfg1 a).win 1).index t (2 : Fin 3) * 128 + 128
    rw [index1_1_2]; omega

theorem cover1 (i : S10240x1x128.Idx) :
    ∃ t : Fin (cfg1 a).N, ((cfg1 a).win 1).flush t = true ∧ i ∈ (((cfg1 a).win 1).blk t).view.set := by
  have h0 : (i 0).val < 10240 := (i 0).isLt
  have h : (i 0).val < (cfg1 a).N := lt_of_lt_of_eq h0 (N1_eq a).symm
  exact ⟨⟨(i 0).val, h⟩, flush1_at_last a (i 0).val h0 h, mem_blk1 a _ i rfl⟩

theorem gval1_of (c : Dev nD) (hT : T = A c 0) (htb : tb = a.1 0) :
    (dat1 (F := Ideal) a A c).arrAt 1 (cfg1 a).N = mean1 T tb hin :=
  (dat1 a A c).arrAt_eq_of_cover 1 (mean1 T tb hin) (flushed1_eq a A T tb hin c hT htb) (cover1 a)

end

theorem mean1_apply (T : S500000x1x128.Idx → EReal) (tb : S10240.Idx → BitVec 32) (hin : ∀ k, (tb k).toNat < 500000)
    (i : S10240x1x128.Idx) :
    mean1 T tb hin i = T (ValueIdx.ix3 ⟨(tb (ValueIdx.ix1 ⟨(i 0).val, (i 0).isLt⟩)).toNat, hin _⟩ (0 : Fin 1) (i 2)) := rfl

theorem gval1 (a : (pcfg1 (F := Ideal)).Adm)
    (A : (c : Dev nD) → (w : Fin (cfg1 a).W) → Buf (Elt Ideal) (((cfg1 a).win w).arr.view.loc (c.tc : Thread nD τ))) (c : Dev nD)
    (hin : ∀ k, ((a.1 0 : S10240.Idx → BitVec 32) k).toNat < 500000) :
    (dat1 (F := Ideal) a A c).arrAt 1 (cfg1 a).N = mean1 (A c 0) (a.1 0) hin :=
  gval1_of a A (A c 0) (a.1 0) hin c rfl rfl

end Cert.KernelIdeal.Hand

end
-- ==== Proof.GatherValue2.lean ====
import proofs.«401580_j65068754534945_2_alg».proof.Proof.Gather2

/-! The value of a gather-and-mean region over the extended reals: row g of its output is the sum of the 10 feature rows that entries 10 g … 10 g + 9 of the table name, times 1/10 (a sum in a commutative monoid: no finiteness is used). -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

theorem inv2 : Named.named (F := Ideal) κ "inv_10" (φ := .f32) 0x3DCCCCCD#32 = ((1 / 10 : ℝ) : EReal) :=
  IdealRules.named_const.ideal_named_scalar _ _ _ _ rfl

theorem zpay2 (y : S1x1x128.Idx) : (k2_pay1 (F := Ideal)) y = 0 := by
  unfold k2_pay1
  rw [shapeCast_self]
  exact Ideal.ofBits_zero_f32

theorem apay2 (x v : Vec Ideal S1x1x128 .f32) (y : S1x1x128.Idx) : k2_pay2 x v y = x y + v y := by
  unfold k2_pay2
  rw [shapeCast_self, shapeCast_self]
  rfl

theorem mpay2 (x : Vec Ideal S1x1x128 .f32) (y : S1x1x128.Idx) : k2_pay3 x y = x y * ((1 / 10 : ℝ) : EReal) := by
  unfold k2_pay3
  rw [ValueIdx.mulf_apply, ValueIdx.broadcast_apply, inv2]

section
variable {F : FTy → Type} [FloatOps F] [Named F]

theorem tr2_1_0 (i : grid2.Coords) : cc2_transform_1 i 0 = (i 0).val := by
  have h : (i 0).val < 1024 := (i 0).isLt
  show (BitVec.ofNat 32 (i 0).val).toNat = (i 0).val
  rw [BitVec.toNat_ofNat]
  exact Nat.mod_eq_of_lt (by omega)
theorem tr2_1_1 (i : grid2.Coords) : cc2_transform_1 i 1 = 0 := rfl
theorem tr2_1_2 (i : grid2.Coords) : cc2_transform_1 i 2 = 0 := rfl

theorem tr2_0_0 (pf : pre2.Contents (Elt F)) (i : grid2.Coords) (h : 10 * (i 0).val + (i 1).val < 10240) :
    cc2_transform_0 k2_off1_inb numel1_S1 pf i 0
      = ((pf 0 : S10240.Idx → BitVec 32) (ValueIdx.ix1 ⟨10 * (i 0).val + (i 1).val, h⟩)).toNat := by
  show ((pf 0 : S10240.Idx → BitVec 32) ((Rect.unit (s := S10240) (k2_off1 i) S1.size (k2_off1_inb i)).emb (Shape.Idx.first _))).toNat = _
  refine congrArg (fun k => ((pf 0 : S10240.Idx → BitVec 32) k).toNat) ?_
  funext d
  match d with
  | ⟨0, _⟩ =>
    apply Fin.ext
    show (k2_off1 i) 0 + 1 * 0 = 10 * (i 0).val + (i 1).val
    have e := congrFun (k2_off1_eq i) 0
    simp only [Matrix.cons_val_zero] at e
    omega
theorem tr2_0_1 (pf : pre2.Contents (Elt F)) (i : grid2.Coords) : cc2_transform_0 k2_off1_inb numel1_S1 pf i 1 = 0 := rfl
theorem tr2_0_2 (pf : pre2.Contents (Elt F)) (i : grid2.Coords) : cc2_transform_0 k2_off1_inb numel1_S1 pf i 2 = 0 := rfl

end

section
variable (a : (pcfg2 (F := Ideal)).Adm)
variable (A : (c : Dev nD) → (w : Fin (cfg2 a).W) → Buf (Elt Ideal) (((cfg2 a).win w).arr.view.loc (c.tc : Thread nD τ)))

theorem N2_eq : (cfg2 a).N = 10240 := N_2

theorem tbl2_congr (n n' : ℕ) (h : n < 10240) (h' : n' < 10240) (e : n = n') :
    (a.1 0 : S10240.Idx → BitVec 32) (ValueIdx.ix1 ⟨n, h⟩) = (a.1 0 : S10240.Idx → BitVec 32) (ValueIdx.ix1 ⟨n', h'⟩) := by
  subst e; rfl

theorem index2_0_0 (t : Fin (cfg2 a).N) (h : t.val < 10240) :
    ((cfg2 a).win 0).index t (0 : Fin 3) = ((a.1 0 : S10240.Idx → BitVec 32) (ValueIdx.ix1 ⟨t.val, h⟩)).toNat := by
  have h0 := coords2_0 t
  have h1 := coords2_1 t
  have hh : 10 * (grid2.coords t 0).val + (grid2.coords t 1).val < 10240 := by rw [h0, h1]; omega
  show cc2_transform_0 k2_off1_inb numel1_S1 a.1 (grid2.coords t) 0 = _
  rw [tr2_0_0 a.1 (grid2.coords t) hh]
  refine congrArg BitVec.toNat (tbl2_congr a _ _ hh h ?_)
  rw [h0, h1]; omega
theorem index2_0_1 (t : Fin (cfg2 a).N) : ((cfg2 a).win 0).index t (1 : Fin 3) = 0 := rfl
theorem index2_0_2 (t : Fin (cfg2 a).N) : ((cfg2 a).win 0).index t (2 : Fin 3) = 0 := rfl

theorem index2_1_0 (t : Fin (cfg2 a).N) : ((cfg2 a).win 1).index t (0 : Fin 3) = t.val / 10 := by
  have h0 := coords2_0 t
  have hN : t.val < 10240 := (N2_eq a) ▸ t.isLt
  show cc2_transform_1 (grid2.coords t) 0 = _
  rw [tr2_1_0, h0]; omega
theorem index2_1_1 (t : Fin (cfg2 a).N) : ((cfg2 a).win 1).index t (1 : Fin 3) = 0 := rfl
theorem index2_1_2 (t : Fin (cfg2 a).N) : ((cfg2 a).win 1).index t (2 : Fin 3) = 0 := rfl

theorem row2_apply (c : Dev nD) (t : Fin (cfg2 a).N) (h : t.val < 10240) (y : S1x1x128.Idx) (k : S500000x1x128.Idx)
    (hk0 : (k 0).val = ((a.1 0 : S10240.Idx → BitVec 32) (ValueIdx.ix1 ⟨t.val, h⟩)).toNat) (hk1 : (k 1).val = 0)
    (hk2 : (k 2).val = (y 2).val) :
    row2 a A c t y = (A c 0 : S500000x1x128.Idx → EReal) k := by
  have hy0 : (y 0).val = 0 := by have : (y 0).val < 1 := (y 0).isLt; omega
  have hy1 : (y 1).val = 0 := by have : (y 1).val < 1 := (y 1).isLt; omega
  unfold row2
  show (A c 0 : S500000x1x128.Idx → EReal) ((((cfg2 a).win 0).blk t).view.emb y) = (A c 0 : S500000x1x128.Idx → EReal) k
  refine congrArg (A c 0 : S500000x1x128.Idx → EReal) ?_
  funext b
  apply Fin.ext
  match b with
  | ⟨0, _⟩ =>
    show ((cfg2 a).win 0).index t (0 : Fin 3) * 1 + 1 * (y 0).val = (k 0).val
    rw [index2_0_0 a t h, hk0, hy0]; omega
  | ⟨1, _⟩ =>
    show ((cfg2 a).win 0).index t (1 : Fin 3) * 1 + 1 * (y 1).val = (k 1).val
    rw [index2_0_1, hk1, hy1]
  | ⟨2, _⟩ =>
    show ((cfg2 a).win 0).index t (2 : Fin 3) * 128 + 1 * (y 2).val = (k 2).val
    rw [index2_0_2, hk2]; omega

end

section
variable (a : (pcfg2 (F := Ideal)).Adm)
variable (A : (c : Dev nD) → (w : Fin (cfg2 a).W) → Buf (Elt Ideal) (((cfg2 a).win w).arr.view.loc (c.tc : Thread nD τ)))

theorem acc2_congr (c : Dev nD) (n n' : ℕ) (h : n < (cfg2 a).N) (h' : n' < (cfg2 a).N) (e : n = n') :
    acc2 a A c n h = acc2 a A c n' h' := by
  subst e; rfl

theorem acc2_first (c : Dev nD) (n : ℕ) (h : n < (cfg2 a).N) (h0 : n % 10 = 0) :
    acc2 a A c n h = k2_pay2 (k2_pay1 (F := Ideal)) (row2 a A c ⟨n, h⟩) := by
  cases n with
  | zero => rfl
  | succ n =>
    show k2_pay2 (if first2 (grid2.coords ⟨n + 1, h⟩) = 1#1 then k2_pay1 (F := Ideal) else acc2 a A c n (Nat.lt_of_succ_lt h))
      (row2 a A c ⟨n + 1, h⟩) = _
    rw [if_pos ((first2_at ⟨n + 1, h⟩).mpr h0)]

theorem acc2_next (c : Dev nD) (n : ℕ) (h : n + 1 < (cfg2 a).N) (h0 : ¬ (n + 1) % 10 = 0) :
    acc2 a A c (n + 1) h = k2_pay2 (acc2 a A c n (Nat.lt_of_succ_lt h)) (row2 a A c ⟨n + 1, h⟩) := by
  show k2_pay2 (if first2 (grid2.coords ⟨n + 1, h⟩) = 1#1 then k2_pay1 (F := Ideal) else acc2 a A c n (Nat.lt_of_succ_lt h))
    (row2 a A c ⟨n + 1, h⟩) = _
  rw [if_neg (fun e => h0 ((first2_at ⟨n + 1, h⟩).mp e))]

def src2 (c : Dev nD) (n : ℕ) (y : S1x1x128.Idx) : EReal :=
  if h : n < (cfg2 a).N then row2 a A c ⟨n, h⟩ y else 0

theorem src2_of_lt (c : Dev nD) (n : ℕ) (h : n < (cfg2 a).N) (y : S1x1x128.Idx) :
    src2 a A c n y = row2 a A c ⟨n, h⟩ y := dif_pos h

theorem acc2_sum (c : Dev nD) (g : ℕ) (y : S1x1x128.Idx) : ∀ (s : ℕ) (hs : s < 10) (h : 10 * g + s < (cfg2 a).N),
    acc2 a A c (10 * g + s) h y = ∑ k ∈ Finset.range (s + 1), src2 a A c (10 * g + k) y
  | 0, _, h => by
    rw [Finset.sum_range_one, acc2_first a A c (10 * g + 0) h (by omega), apay2, zpay2, zero_add, src2_of_lt a A c _ h]
  | s + 1, hs, h => by
    have ih := acc2_sum c g y s (by omega) (Nat.lt_of_succ_lt h)
    show acc2 a A c ((10 * g + s) + 1) h y = _
    rw [acc2_next a A c (10 * g + s) h (by omega), apay2, ih, Finset.sum_range_succ _ (s + 1), src2_of_lt a A c _ h]
    rfl

end

section
variable (a : (pcfg2 (F := Ideal)).Adm)
variable (A : (c : Dev nD) → (w : Fin (cfg2 a).W) → Buf (Elt Ideal) (((cfg2 a).win w).arr.view.loc (c.tc : Thread nD τ)))
variable (T : S500000x1x128.Idx → EReal) (tb : S10240.Idx → BitVec 32) (hin : ∀ k, (tb k).toNat < 500000)

def mean2 : S1024x1x128.Idx → EReal := fun i =>
  (∑ s : Fin 10, T (ValueIdx.ix3 ⟨(tb (ValueIdx.ix1 ⟨10 * (i 0).val + s.val, by have h0 : (i 0).val < 1024 := (i 0).isLt; have := s.isLt; omega⟩)).toNat, hin _⟩ (0 : Fin 1) (i 2))) * ((1 / 10 : ℝ) : EReal)

theorem flushed2_at (c : Dev nD) (hT : T = A c 0) (htb : tb = a.1 0) (t : Fin (cfg2 a).N) (hl : t.val % 10 = 9)
    (y : S1x1x128.Idx) (i : S1024x1x128.Idx) (hi0 : (i 0).val = t.val / 10) (hi2 : (i 2).val = (y 2).val) :
    k2_pay3 (acc2 a A c t.val t.isLt) y = mean2 T tb hin i := by
  subst hT htb
  have hN : (cfg2 a).N = 10240 := N2_eq a
  have ht : t.val < 10240 := hN ▸ t.isLt
  have hg : 10 * (t.val / 10) + 9 < (cfg2 a).N := lt_of_lt_of_eq (by omega : 10 * (t.val / 10) + 9 < 10240) hN.symm
  rw [mpay2, acc2_congr a A c t.val (10 * (t.val / 10) + 9) t.isLt hg (by omega),
    acc2_sum a A c (t.val / 10) y 9 (by omega) hg]
  unfold mean2
  refine congrArg (· * ((1 / 10 : ℝ) : EReal)) ?_
  show ∑ k ∈ Finset.range 10, src2 a A c (10 * (t.val / 10) + k) y = _
  rw [Finset.sum_range]
  refine Finset.sum_congr rfl fun s _ => ?_
  have hs : s.val < 10 := s.isLt
  have hn' : 10 * (t.val / 10) + s.val < 10240 := by omega
  have hn : 10 * (t.val / 10) + s.val < (cfg2 a).N := lt_of_lt_of_eq hn' hN.symm
  rw [src2_of_lt a A c _ hn]
  refine row2_apply a A c ⟨_, hn⟩ hn' y _ ?_ rfl hi2
  refine congrArg BitVec.toNat (tbl2_congr a _ _ _ _ ?_)
  rw [hi0]

theorem flushed2_eq (c : Dev nD) (hT : T = A c 0) (htb : tb = a.1 0) (t : Fin (cfg2 a).N)
    (hf : ((cfg2 a).win 1).flush t = true) :
    (dat2 a A c).flushed 1 t = (((cfg2 a).win 1).blk t).view.read (Elt Ideal) (mean2 T tb hin) := by
  have hl := flush2_last a t hf
  show ((cfg2 a).win 1).cut (grid2.coords t) ((dat2 a A c).after 1 t) = _
  rw [after2_1]
  refine funext fun (y : S1x1x128.Idx) => ?_
  show k2_pay3 (acc2 a A c t.val t.isLt) y = mean2 T tb hin ((((cfg2 a).win 1).blk t).view.emb y)
  refine flushed2_at a A T tb hin c hT htb t hl y _ ?_ ?_
  · show ((cfg2 a).win 1).index t (0 : Fin 3) * 1 + 1 * (y 0).val = t.val / 10
    have : (y 0).val < 1 := (y 0).isLt
    rw [index2_1_0]; omega
  · show ((cfg2 a).win 1).index t (2 : Fin 3) * 128 + 1 * (y 2).val = (y 2).val
    rw [index2_1_2]; omega

theorem flush2_at_last (g : ℕ) (hg : g < 1024) (h : 10 * g + 9 < (cfg2 a).N) :
    ((cfg2 a).win 1).flush ⟨10 * g + 9, h⟩ = true := by
  unfold Pipeline.Window.flush
  simp only [Bool.and_eq_true, Bool.or_eq_true, decide_eq_true_eq]
  refine ⟨rfl, ?_⟩
  by_cases hlast : g + 1 = 1024
  · left
    show 10 * g + 9 + 1 = grid2.N
    rw [N_2]; omega
  · right
    have h' : 10 * g + 9 + 1 < (cfg2 a).N := lt_of_lt_of_eq (by omega : 10 * g + 9 + 1 < 10240) (N2_eq a).symm
    refine ⟨h', fun e => ?_⟩
    have e0 := congrFun e (0 : Fin 3)
    rw [index2_1_0, index2_1_0] at e0
    dsimp only at e0
    omega

set_option backward.isDefEq.respectTransparency.types false in
theorem mem_blk2 (t : Fin (cfg2 a).N) (i : S1024x1x128.Idx) (h0 : (i 0).val = t.val / 10) :
    i ∈ (((cfg2 a).win 1).blk t).view.set := by
  show i ∈ ((View.whole (Pipeline.arrRef spec2 (1 : Fin 2))).slice (((cfg2 a).win 1).rect t)).set
  rw [View.set_slice_whole]
  refine Rect.mem_set_unit.mpr ?_
  intro b
  have h1 : (i 1).val < 1 := (i 1).isLt
  have h2 : (i 2).val < 128 := (i 2).isLt
  match b with
  | ⟨0, _⟩ =>
    show ((cfg2 a).win 1).index t (0 : Fin 3) * 1 ≤ (i 0).val ∧ (i 0).val < ((cfg2 a).win 1).index t (0 : Fin 3) * 1 + 1
    rw [index2_1_0]; omega
  | ⟨1, _⟩ =>
    show ((cfg2 a).win 1).index t (1 : Fin 3) * 1 ≤ (i 1).val ∧ (i 1).val < ((cfg2 a).win 1).index t (1 : Fin 3) * 1 + 1
    rw [index2_1_1]; omega
  | ⟨2, _⟩ =>
    show ((cfg2 a).win 1).index t (2 : Fin 3) * 128 ≤ (i 2).val ∧ (i 2).val < ((cfg2 a).win 1).index t (2 : Fin 3) * 128 + 128
    rw [index2_1_2]; omega

theorem cover2 (i : S1024x1x128.Idx) :
    ∃ t : Fin (cfg2 a).N, ((cfg2 a).win 1).flush t = true ∧ i ∈ (((cfg2 a).win 1).blk t).view.set := by
  have h0 : (i 0).val < 1024 := (i 0).isLt
  have h : 10 * (i 0).val + 9 < (cfg2 a).N := lt_of_lt_of_eq (by omega : 10 * (i 0).val + 9 < 10240) (N2_eq a).symm
  refine ⟨⟨10 * (i 0).val + 9, h⟩, flush2_at_last a (i 0).val h0 h, mem_blk2 a _ i ?_⟩
  show (i 0).val = (10 * (i 0).val + 9) / 10
  omega

theorem gval2_of (c : Dev nD) (hT : T = A c 0) (htb : tb = a.1 0) :
    (dat2 (F := Ideal) a A c).arrAt 1 (cfg2 a).N = mean2 T tb hin :=
  (dat2 a A c).arrAt_eq_of_cover 1 (mean2 T tb hin) (flushed2_eq a A T tb hin c hT htb) (cover2 a)

end

theorem mean2_apply (T : S500000x1x128.Idx → EReal) (tb : S10240.Idx → BitVec 32) (hin : ∀ k, (tb k).toNat < 500000)
    (i : S1024x1x128.Idx) :
    mean2 T tb hin i = (∑ s : Fin 10, T (ValueIdx.ix3 ⟨(tb (ValueIdx.ix1 ⟨10 * (i 0).val + s.val, by have h0 : (i 0).val < 1024 := (i 0).isLt; have := s.isLt; omega⟩)).toNat, hin _⟩ (0 : Fin 1) (i 2))) * ((1 / 10 : ℝ) : EReal) := rfl

theorem gval2 (a : (pcfg2 (F := Ideal)).Adm)
    (A : (c : Dev nD) → (w : Fin (cfg2 a).W) → Buf (Elt Ideal) (((cfg2 a).win w).arr.view.loc (c.tc : Thread nD τ))) (c : Dev nD)
    (hin : ∀ k, ((a.1 0 : S10240.Idx → BitVec 32) k).toNat < 500000) :
    (dat2 (F := Ideal) a A c).arrAt 1 (cfg2 a).N = mean2 (A c 0) (a.1 0) hin :=
  gval2_of a A (A c 0) (a.1 0) hin c rfl rfl

end Cert.KernelIdeal.Hand

end
-- ==== Proof.GatherValue3.lean ====
import proofs.«401580_j65068754534945_2_alg».proof.Proof.Gather3

/-! The value of a gather-and-mean region over the extended reals: row g of its output is the sum of the 25 feature rows that entries 25 g … 25 g + 24 of the table name, times 1/25 (a sum in a commutative monoid: no finiteness is used). -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

theorem inv3 : Named.named (F := Ideal) κ "inv_25" (φ := .f32) 0x3D23D70A#32 = ((1 / 25 : ℝ) : EReal) :=
  IdealRules.named_const.ideal_named_scalar _ _ _ _ rfl

theorem zpay3 (y : S1x1x128.Idx) : (k3_pay1 (F := Ideal)) y = 0 := by
  unfold k3_pay1
  rw [shapeCast_self]
  exact Ideal.ofBits_zero_f32

theorem apay3 (x v : Vec Ideal S1x1x128 .f32) (y : S1x1x128.Idx) : k3_pay2 x v y = x y + v y := by
  unfold k3_pay2
  rw [shapeCast_self, shapeCast_self]
  rfl

theorem mpay3 (x : Vec Ideal S1x1x128 .f32) (y : S1x1x128.Idx) : k3_pay3 x y = x y * ((1 / 25 : ℝ) : EReal) := by
  unfold k3_pay3
  rw [ValueIdx.mulf_apply, ValueIdx.broadcast_apply, inv3]

section
variable {F : FTy → Type} [FloatOps F] [Named F]

theorem tr3_1_0 (i : grid3.Coords) : cc3_transform_1 i 0 = (i 0).val := by
  have h : (i 0).val < 1280 := (i 0).isLt
  show (BitVec.ofNat 32 (i 0).val).toNat = (i 0).val
  rw [BitVec.toNat_ofNat]
  exact Nat.mod_eq_of_lt (by omega)
theorem tr3_1_1 (i : grid3.Coords) : cc3_transform_1 i 1 = 0 := rfl
theorem tr3_1_2 (i : grid3.Coords) : cc3_transform_1 i 2 = 0 := rfl

theorem tr3_0_0 (pf : pre3.Contents (Elt F)) (i : grid3.Coords) (h : 25 * (i 0).val + (i 1).val < 32000) :
    cc3_transform_0 k3_off1_inb numel1_S1 pf i 0
      = ((pf 0 : S32000.Idx → BitVec 32) (ValueIdx.ix1 ⟨25 * (i 0).val + (i 1).val, h⟩)).toNat := by
  show ((pf 0 : S32000.Idx → BitVec 32) ((Rect.unit (s := S32000) (k3_off1 i) S1.size (k3_off1_inb i)).emb (Shape.Idx.first _))).toNat = _
  refine congrArg (fun k => ((pf 0 : S32000.Idx → BitVec 32) k).toNat) ?_
  funext d
  match d with
  | ⟨0, _⟩ =>
    apply Fin.ext
    show (k3_off1 i) 0 + 1 * 0 = 25 * (i 0).val + (i 1).val
    have e := congrFun (k3_off1_eq i) 0
    simp only [Matrix.cons_val_zero] at e
    omega
theorem tr3_0_1 (pf : pre3.Contents (Elt F)) (i : grid3.Coords) : cc3_transform_0 k3_off1_inb numel1_S1 pf i 1 = 0 := rfl
theorem tr3_0_2 (pf : pre3.Contents (Elt F)) (i : grid3.Coords) : cc3_transform_0 k3_off1_inb numel1_S1 pf i 2 = 0 := rfl

end

section
variable (a : (pcfg3 (F := Ideal)).Adm)
variable (A : (c : Dev nD) → (w : Fin (cfg3 a).W) → Buf (Elt Ideal) (((cfg3 a).win w).arr.view.loc (c.tc : Thread nD τ)))

theorem N3_eq : (cfg3 a).N = 32000 := N_3

theorem tbl3_congr (n n' : ℕ) (h : n < 32000) (h' : n' < 32000) (e : n = n') :
    (a.1 0 : S32000.Idx → BitVec 32) (ValueIdx.ix1 ⟨n, h⟩) = (a.1 0 : S32000.Idx → BitVec 32) (ValueIdx.ix1 ⟨n', h'⟩) := by
  subst e; rfl

theorem index3_0_0 (t : Fin (cfg3 a).N) (h : t.val < 32000) :
    ((cfg3 a).win 0).index t (0 : Fin 3) = ((a.1 0 : S32000.Idx → BitVec 32) (ValueIdx.ix1 ⟨t.val, h⟩)).toNat := by
  have h0 := coords3_0 t
  have h1 := coords3_1 t
  have hh : 25 * (grid3.coords t 0).val + (grid3.coords t 1).val < 32000 := by rw [h0, h1]; omega
  show cc3_transform_0 k3_off1_inb numel1_S1 a.1 (grid3.coords t) 0 = _
  rw [tr3_0_0 a.1 (grid3.coords t) hh]
  refine congrArg BitVec.toNat (tbl3_congr a _ _ hh h ?_)
  rw [h0, h1]; omega
theorem index3_0_1 (t : Fin (cfg3 a).N) : ((cfg3 a).win 0).index t (1 : Fin 3) = 0 := rfl
theorem index3_0_2 (t : Fin (cfg3 a).N) : ((cfg3 a).win 0).index t (2 : Fin 3) = 0 := rfl

theorem index3_1_0 (t : Fin (cfg3 a).N) : ((cfg3 a).win 1).index t (0 : Fin 3) = t.val / 25 := by
  have h0 := coords3_0 t
  have hN : t.val < 32000 := (N3_eq a) ▸ t.isLt
  show cc3_transform_1 (grid3.coords t) 0 = _
  rw [tr3_1_0, h0]; omega
theorem index3_1_1 (t : Fin (cfg3 a).N) : ((cfg3 a).win 1).index t (1 : Fin 3) = 0 := rfl
theorem index3_1_2 (t : Fin (cfg3 a).N) : ((cfg3 a).win 1).index t (2 : Fin 3) = 0 := rfl

theorem row3_apply (c : Dev nD) (t : Fin (cfg3 a).N) (h : t.val < 32000) (y : S1x1x128.Idx) (k : S500000x1x128.Idx)
    (hk0 : (k 0).val = ((a.1 0 : S32000.Idx → BitVec 32) (ValueIdx.ix1 ⟨t.val, h⟩)).toNat) (hk1 : (k 1).val = 0)
    (hk2 : (k 2).val = (y 2).val) :
    row3 a A c t y = (A c 0 : S500000x1x128.Idx → EReal) k := by
  have hy0 : (y 0).val = 0 := by have : (y 0).val < 1 := (y 0).isLt; omega
  have hy1 : (y 1).val = 0 := by have : (y 1).val < 1 := (y 1).isLt; omega
  unfold row3
  show (A c 0 : S500000x1x128.Idx → EReal) ((((cfg3 a).win 0).blk t).view.emb y) = (A c 0 : S500000x1x128.Idx → EReal) k
  refine congrArg (A c 0 : S500000x1x128.Idx → EReal) ?_
  funext b
  apply Fin.ext
  match b with
  | ⟨0, _⟩ =>
    show ((cfg3 a).win 0).index t (0 : Fin 3) * 1 + 1 * (y 0).val = (k 0).val
    rw [index3_0_0 a t h, hk0, hy0]; omega
  | ⟨1, _⟩ =>
    show ((cfg3 a).win 0).index t (1 : Fin 3) * 1 + 1 * (y 1).val = (k 1).val
    rw [index3_0_1, hk1, hy1]
  | ⟨2, _⟩ =>
    show ((cfg3 a).win 0).index t (2 : Fin 3) * 128 + 1 * (y 2).val = (k 2).val
    rw [index3_0_2, hk2]; omega

end

section
variable (a : (pcfg3 (F := Ideal)).Adm)
variable (A : (c : Dev nD) → (w : Fin (cfg3 a).W) → Buf (Elt Ideal) (((cfg3 a).win w).arr.view.loc (c.tc : Thread nD τ)))

theorem acc3_congr (c : Dev nD) (n n' : ℕ) (h : n < (cfg3 a).N) (h' : n' < (cfg3 a).N) (e : n = n') :
    acc3 a A c n h = acc3 a A c n' h' := by
  subst e; rfl

theorem acc3_first (c : Dev nD) (n : ℕ) (h : n < (cfg3 a).N) (h0 : n % 25 = 0) :
    acc3 a A c n h = k3_pay2 (k3_pay1 (F := Ideal)) (row3 a A c ⟨n, h⟩) := by
  cases n with
  | zero => rfl
  | succ n =>
    show k3_pay2 (if first3 (grid3.coords ⟨n + 1, h⟩) = 1#1 then k3_pay1 (F := Ideal) else acc3 a A c n (Nat.lt_of_succ_lt h))
      (row3 a A c ⟨n + 1, h⟩) = _
    rw [if_pos ((first3_at ⟨n + 1, h⟩).mpr h0)]

theorem acc3_next (c : Dev nD) (n : ℕ) (h : n + 1 < (cfg3 a).N) (h0 : ¬ (n + 1) % 25 = 0) :
    acc3 a A c (n + 1) h = k3_pay2 (acc3 a A c n (Nat.lt_of_succ_lt h)) (row3 a A c ⟨n + 1, h⟩) := by
  show k3_pay2 (if first3 (grid3.coords ⟨n + 1, h⟩) = 1#1 then k3_pay1 (F := Ideal) else acc3 a A c n (Nat.lt_of_succ_lt h))
    (row3 a A c ⟨n + 1, h⟩) = _
  rw [if_neg (fun e => h0 ((first3_at ⟨n + 1, h⟩).mp e))]

def src3 (c : Dev nD) (n : ℕ) (y : S1x1x128.Idx) : EReal :=
  if h : n < (cfg3 a).N then row3 a A c ⟨n, h⟩ y else 0

theorem src3_of_lt (c : Dev nD) (n : ℕ) (h : n < (cfg3 a).N) (y : S1x1x128.Idx) :
    src3 a A c n y = row3 a A c ⟨n, h⟩ y := dif_pos h

theorem acc3_sum (c : Dev nD) (g : ℕ) (y : S1x1x128.Idx) : ∀ (s : ℕ) (hs : s < 25) (h : 25 * g + s < (cfg3 a).N),
    acc3 a A c (25 * g + s) h y = ∑ k ∈ Finset.range (s + 1), src3 a A c (25 * g + k) y
  | 0, _, h => by
    rw [Finset.sum_range_one, acc3_first a A c (25 * g + 0) h (by omega), apay3, zpay3, zero_add, src3_of_lt a A c _ h]
  | s + 1, hs, h => by
    have ih := acc3_sum c g y s (by omega) (Nat.lt_of_succ_lt h)
    show acc3 a A c ((25 * g + s) + 1) h y = _
    rw [acc3_next a A c (25 * g + s) h (by omega), apay3, ih, Finset.sum_range_succ _ (s + 1), src3_of_lt a A c _ h]
    rfl

end

section
variable (a : (pcfg3 (F := Ideal)).Adm)
variable (A : (c : Dev nD) → (w : Fin (cfg3 a).W) → Buf (Elt Ideal) (((cfg3 a).win w).arr.view.loc (c.tc : Thread nD τ)))
variable (T : S500000x1x128.Idx → EReal) (tb : S32000.Idx → BitVec 32) (hin : ∀ k, (tb k).toNat < 500000)

def mean3 : S1280x1x128.Idx → EReal := fun i =>
  (∑ s : Fin 25, T (ValueIdx.ix3 ⟨(tb (ValueIdx.ix1 ⟨25 * (i 0).val + s.val, by have h0 : (i 0).val < 1280 := (i 0).isLt; have := s.isLt; omega⟩)).toNat, hin _⟩ (0 : Fin 1) (i 2))) * ((1 / 25 : ℝ) : EReal)

theorem flushed3_at (c : Dev nD) (hT : T = A c 0) (htb : tb = a.1 0) (t : Fin (cfg3 a).N) (hl : t.val % 25 = 24)
    (y : S1x1x128.Idx) (i : S1280x1x128.Idx) (hi0 : (i 0).val = t.val / 25) (hi2 : (i 2).val = (y 2).val) :
    k3_pay3 (acc3 a A c t.val t.isLt) y = mean3 T tb hin i := by
  subst hT htb
  have hN : (cfg3 a).N = 32000 := N3_eq a
  have ht : t.val < 32000 := hN ▸ t.isLt
  have hg : 25 * (t.val / 25) + 24 < (cfg3 a).N := lt_of_lt_of_eq (by omega : 25 * (t.val / 25) + 24 < 32000) hN.symm
  rw [mpay3, acc3_congr a A c t.val (25 * (t.val / 25) + 24) t.isLt hg (by omega),
    acc3_sum a A c (t.val / 25) y 24 (by omega) hg]
  unfold mean3
  refine congrArg (· * ((1 / 25 : ℝ) : EReal)) ?_
  show ∑ k ∈ Finset.range 25, src3 a A c (25 * (t.val / 25) + k) y = _
  rw [Finset.sum_range]
  refine Finset.sum_congr rfl fun s _ => ?_
  have hs : s.val < 25 := s.isLt
  have hn' : 25 * (t.val / 25) + s.val < 32000 := by omega
  have hn : 25 * (t.val / 25) + s.val < (cfg3 a).N := lt_of_lt_of_eq hn' hN.symm
  rw [src3_of_lt a A c _ hn]
  refine row3_apply a A c ⟨_, hn⟩ hn' y _ ?_ rfl hi2
  refine congrArg BitVec.toNat (tbl3_congr a _ _ _ _ ?_)
  rw [hi0]

theorem flushed3_eq (c : Dev nD) (hT : T = A c 0) (htb : tb = a.1 0) (t : Fin (cfg3 a).N)
    (hf : ((cfg3 a).win 1).flush t = true) :
    (dat3 a A c).flushed 1 t = (((cfg3 a).win 1).blk t).view.read (Elt Ideal) (mean3 T tb hin) := by
  have hl := flush3_last a t hf
  show ((cfg3 a).win 1).cut (grid3.coords t) ((dat3 a A c).after 1 t) = _
  rw [after3_1]
  refine funext fun (y : S1x1x128.Idx) => ?_
  show k3_pay3 (acc3 a A c t.val t.isLt) y = mean3 T tb hin ((((cfg3 a).win 1).blk t).view.emb y)
  refine flushed3_at a A T tb hin c hT htb t hl y _ ?_ ?_
  · show ((cfg3 a).win 1).index t (0 : Fin 3) * 1 + 1 * (y 0).val = t.val / 25
    have : (y 0).val < 1 := (y 0).isLt
    rw [index3_1_0]; omega
  · show ((cfg3 a).win 1).index t (2 : Fin 3) * 128 + 1 * (y 2).val = (y 2).val
    rw [index3_1_2]; omega

theorem flush3_at_last (g : ℕ) (hg : g < 1280) (h : 25 * g + 24 < (cfg3 a).N) :
    ((cfg3 a).win 1).flush ⟨25 * g + 24, h⟩ = true := by
  unfold Pipeline.Window.flush
  simp only [Bool.and_eq_true, Bool.or_eq_true, decide_eq_true_eq]
  refine ⟨rfl, ?_⟩
  by_cases hlast : g + 1 = 1280
  · left
    show 25 * g + 24 + 1 = grid3.N
    rw [N_3]; omega
  · right
    have h' : 25 * g + 24 + 1 < (cfg3 a).N := lt_of_lt_of_eq (by omega : 25 * g + 24 + 1 < 32000) (N3_eq a).symm
    refine ⟨h', fun e => ?_⟩
    have e0 := congrFun e (0 : Fin 3)
    rw [index3_1_0, index3_1_0] at e0
    dsimp only at e0
    omega

set_option backward.isDefEq.respectTransparency.types false in
theorem mem_blk3 (t : Fin (cfg3 a).N) (i : S1280x1x128.Idx) (h0 : (i 0).val = t.val / 25) :
    i ∈ (((cfg3 a).win 1).blk t).view.set := by
  show i ∈ ((View.whole (Pipeline.arrRef spec3 (1 : Fin 2))).slice (((cfg3 a).win 1).rect t)).set
  rw [View.set_slice_whole]
  refine Rect.mem_set_unit.mpr ?_
  intro b
  have h1 : (i 1).val < 1 := (i 1).isLt
  have h2 : (i 2).val < 128 := (i 2).isLt
  match b with
  | ⟨0, _⟩ =>
    show ((cfg3 a).win 1).index t (0 : Fin 3) * 1 ≤ (i 0).val ∧ (i 0).val < ((cfg3 a).win 1).index t (0 : Fin 3) * 1 + 1
    rw [index3_1_0]; omega
  | ⟨1, _⟩ =>
    show ((cfg3 a).win 1).index t (1 : Fin 3) * 1 ≤ (i 1).val ∧ (i 1).val < ((cfg3 a).win 1).index t (1 : Fin 3) * 1 + 1
    rw [index3_1_1]; omega
  | ⟨2, _⟩ =>
    show ((cfg3 a).win 1).index t (2 : Fin 3) * 128 ≤ (i 2).val ∧ (i 2).val < ((cfg3 a).win 1).index t (2 : Fin 3) * 128 + 128
    rw [index3_1_2]; omega

theorem cover3 (i : S1280x1x128.Idx) :
    ∃ t : Fin (cfg3 a).N, ((cfg3 a).win 1).flush t = true ∧ i ∈ (((cfg3 a).win 1).blk t).view.set := by
  have h0 : (i 0).val < 1280 := (i 0).isLt
  have h : 25 * (i 0).val + 24 < (cfg3 a).N := lt_of_lt_of_eq (by omega : 25 * (i 0).val + 24 < 32000) (N3_eq a).symm
  refine ⟨⟨25 * (i 0).val + 24, h⟩, flush3_at_last a (i 0).val h0 h, mem_blk3 a _ i ?_⟩
  show (i 0).val = (25 * (i 0).val + 24) / 25
  omega

theorem gval3_of (c : Dev nD) (hT : T = A c 0) (htb : tb = a.1 0) :
    (dat3 (F := Ideal) a A c).arrAt 1 (cfg3 a).N = mean3 T tb hin :=
  (dat3 a A c).arrAt_eq_of_cover 1 (mean3 T tb hin) (flushed3_eq a A T tb hin c hT htb) (cover3 a)

end

theorem mean3_apply (T : S500000x1x128.Idx → EReal) (tb : S32000.Idx → BitVec 32) (hin : ∀ k, (tb k).toNat < 500000)
    (i : S1280x1x128.Idx) :
    mean3 T tb hin i = (∑ s : Fin 25, T (ValueIdx.ix3 ⟨(tb (ValueIdx.ix1 ⟨25 * (i 0).val + s.val, by have h0 : (i 0).val < 1280 := (i 0).isLt; have := s.isLt; omega⟩)).toNat, hin _⟩ (0 : Fin 1) (i 2))) * ((1 / 25 : ℝ) : EReal) := rfl

theorem gval3 (a : (pcfg3 (F := Ideal)).Adm)
    (A : (c : Dev nD) → (w : Fin (cfg3 a).W) → Buf (Elt Ideal) (((cfg3 a).win w).arr.view.loc (c.tc : Thread nD τ))) (c : Dev nD)
    (hin : ∀ k, ((a.1 0 : S32000.Idx → BitVec 32) k).toNat < 500000) :
    (dat3 (F := Ideal) a A c).arrAt 1 (cfg3 a).N = mean3 (A c 0) (a.1 0) hin :=
  gval3_of a A (A c 0) (a.1 0) hin c rfl rfl

end Cert.KernelIdeal.Hand

end
-- ==== Proof.GatherValue4.lean ====
import proofs.«401580_j65068754534945_2_alg».proof.Proof.Gather4

/-! The value of a gather-and-mean region over the extended reals: row g of its output is the sum of the 25 feature rows that entries 25 g … 25 g + 24 of the table name, times 1/25 (a sum in a commutative monoid: no finiteness is used). -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

theorem inv4 : Named.named (F := Ideal) κ "inv_25" (φ := .f32) 0x3D23D70A#32 = ((1 / 25 : ℝ) : EReal) :=
  IdealRules.named_const.ideal_named_scalar _ _ _ _ rfl

theorem zpay4 (y : S1x1x128.Idx) : (k4_pay1 (F := Ideal)) y = 0 := by
  unfold k4_pay1
  rw [shapeCast_self]
  exact Ideal.ofBits_zero_f32

theorem apay4 (x v : Vec Ideal S1x1x128 .f32) (y : S1x1x128.Idx) : k4_pay2 x v y = x y + v y := by
  unfold k4_pay2
  rw [shapeCast_self, shapeCast_self]
  rfl

theorem mpay4 (x : Vec Ideal S1x1x128 .f32) (y : S1x1x128.Idx) : k4_pay3 x y = x y * ((1 / 25 : ℝ) : EReal) := by
  unfold k4_pay3
  rw [ValueIdx.mulf_apply, ValueIdx.broadcast_apply, inv4]

section
variable {F : FTy → Type} [FloatOps F] [Named F]

theorem tr4_1_0 (i : grid4.Coords) : cc4_transform_1 i 0 = (i 0).val := by
  have h : (i 0).val < 1280 := (i 0).isLt
  show (BitVec.ofNat 32 (i 0).val).toNat = (i 0).val
  rw [BitVec.toNat_ofNat]
  exact Nat.mod_eq_of_lt (by omega)
theorem tr4_1_1 (i : grid4.Coords) : cc4_transform_1 i 1 = 0 := rfl
theorem tr4_1_2 (i : grid4.Coords) : cc4_transform_1 i 2 = 0 := rfl

theorem tr4_0_0 (pf : pre4.Contents (Elt F)) (i : grid4.Coords) (h : 25 * (i 0).val + (i 1).val < 32000) :
    cc4_transform_0 k4_off1_inb numel1_S1 pf i 0
      = ((pf 0 : S32000.Idx → BitVec 32) (ValueIdx.ix1 ⟨25 * (i 0).val + (i 1).val, h⟩)).toNat := by
  show ((pf 0 : S32000.Idx → BitVec 32) ((Rect.unit (s := S32000) (k4_off1 i) S1.size (k4_off1_inb i)).emb (Shape.Idx.first _))).toNat = _
  refine congrArg (fun k => ((pf 0 : S32000.Idx → BitVec 32) k).toNat) ?_
  funext d
  match d with
  | ⟨0, _⟩ =>
    apply Fin.ext
    show (k4_off1 i) 0 + 1 * 0 = 25 * (i 0).val + (i 1).val
    have e := congrFun (k4_off1_eq i) 0
    simp only [Matrix.cons_val_zero] at e
    omega
theorem tr4_0_1 (pf : pre4.Contents (Elt F)) (i : grid4.Coords) : cc4_transform_0 k4_off1_inb numel1_S1 pf i 1 = 0 := rfl
theorem tr4_0_2 (pf : pre4.Contents (Elt F)) (i : grid4.Coords) : cc4_transform_0 k4_off1_inb numel1_S1 pf i 2 = 0 := rfl

end

section
variable (a : (pcfg4 (F := Ideal)).Adm)
variable (A : (c : Dev nD) → (w : Fin (cfg4 a).W) → Buf (Elt Ideal) (((cfg4 a).win w).arr.view.loc (c.tc : Thread nD τ)))

theorem N4_eq : (cfg4 a).N = 32000 := N_4

theorem tbl4_congr (n n' : ℕ) (h : n < 32000) (h' : n' < 32000) (e : n = n') :
    (a.1 0 : S32000.Idx → BitVec 32) (ValueIdx.ix1 ⟨n, h⟩) = (a.1 0 : S32000.Idx → BitVec 32) (ValueIdx.ix1 ⟨n', h'⟩) := by
  subst e; rfl

theorem index4_0_0 (t : Fin (cfg4 a).N) (h : t.val < 32000) :
    ((cfg4 a).win 0).index t (0 : Fin 3) = ((a.1 0 : S32000.Idx → BitVec 32) (ValueIdx.ix1 ⟨t.val, h⟩)).toNat := by
  have h0 := coords4_0 t
  have h1 := coords4_1 t
  have hh : 25 * (grid4.coords t 0).val + (grid4.coords t 1).val < 32000 := by rw [h0, h1]; omega
  show cc4_transform_0 k4_off1_inb numel1_S1 a.1 (grid4.coords t) 0 = _
  rw [tr4_0_0 a.1 (grid4.coords t) hh]
  refine congrArg BitVec.toNat (tbl4_congr a _ _ hh h ?_)
  rw [h0, h1]; omega
theorem index4_0_1 (t : Fin (cfg4 a).N) : ((cfg4 a).win 0).index t (1 : Fin 3) = 0 := rfl
theorem index4_0_2 (t : Fin (cfg4 a).N) : ((cfg4 a).win 0).index t (2 : Fin 3) = 0 := rfl

theorem index4_1_0 (t : Fin (cfg4 a).N) : ((cfg4 a).win 1).index t (0 : Fin 3) = t.val / 25 := by
  have h0 := coords4_0 t
  have hN : t.val < 32000 := (N4_eq a) ▸ t.isLt
  show cc4_transform_1 (grid4.coords t) 0 = _
  rw [tr4_1_0, h0]; omega
theorem index4_1_1 (t : Fin (cfg4 a).N) : ((cfg4 a).win 1).index t (1 : Fin 3) = 0 := rfl
theorem index4_1_2 (t : Fin (cfg4 a).N) : ((cfg4 a).win 1).index t (2 : Fin 3) = 0 := rfl

theorem row4_apply (c : Dev nD) (t : Fin (cfg4 a).N) (h : t.val < 32000) (y : S1x1x128.Idx) (k : S500000x1x128.Idx)
    (hk0 : (k 0).val = ((a.1 0 : S32000.Idx → BitVec 32) (ValueIdx.ix1 ⟨t.val, h⟩)).toNat) (hk1 : (k 1).val = 0)
    (hk2 : (k 2).val = (y 2).val) :
    row4 a A c t y = (A c 0 : S500000x1x128.Idx → EReal) k := by
  have hy0 : (y 0).val = 0 := by have : (y 0).val < 1 := (y 0).isLt; omega
  have hy1 : (y 1).val = 0 := by have : (y 1).val < 1 := (y 1).isLt; omega
  unfold row4
  show (A c 0 : S500000x1x128.Idx → EReal) ((((cfg4 a).win 0).blk t).view.emb y) = (A c 0 : S500000x1x128.Idx → EReal) k
  refine congrArg (A c 0 : S500000x1x128.Idx → EReal) ?_
  funext b
  apply Fin.ext
  match b with
  | ⟨0, _⟩ =>
    show ((cfg4 a).win 0).index t (0 : Fin 3) * 1 + 1 * (y 0).val = (k 0).val
    rw [index4_0_0 a t h, hk0, hy0]; omega
  | ⟨1, _⟩ =>
    show ((cfg4 a).win 0).index t (1 : Fin 3) * 1 + 1 * (y 1).val = (k 1).val
    rw [index4_0_1, hk1, hy1]
  | ⟨2, _⟩ =>
    show ((cfg4 a).win 0).index t (2 : Fin 3) * 128 + 1 * (y 2).val = (k 2).val
    rw [index4_0_2, hk2]; omega

end

section
variable (a : (pcfg4 (F := Ideal)).Adm)
variable (A : (c : Dev nD) → (w : Fin (cfg4 a).W) → Buf (Elt Ideal) (((cfg4 a).win w).arr.view.loc (c.tc : Thread nD τ)))

theorem acc4_congr (c : Dev nD) (n n' : ℕ) (h : n < (cfg4 a).N) (h' : n' < (cfg4 a).N) (e : n = n') :
    acc4 a A c n h = acc4 a A c n' h' := by
  subst e; rfl

theorem acc4_first (c : Dev nD) (n : ℕ) (h : n < (cfg4 a).N) (h0 : n % 25 = 0) :
    acc4 a A c n h = k4_pay2 (k4_pay1 (F := Ideal)) (row4 a A c ⟨n, h⟩) := by
  cases n with
  | zero => rfl
  | succ n =>
    show k4_pay2 (if first4 (grid4.coords ⟨n + 1, h⟩) = 1#1 then k4_pay1 (F := Ideal) else acc4 a A c n (Nat.lt_of_succ_lt h))
      (row4 a A c ⟨n + 1, h⟩) = _
    rw [if_pos ((first4_at ⟨n + 1, h⟩).mpr h0)]

theorem acc4_next (c : Dev nD) (n : ℕ) (h : n + 1 < (cfg4 a).N) (h0 : ¬ (n + 1) % 25 = 0) :
    acc4 a A c (n + 1) h = k4_pay2 (acc4 a A c n (Nat.lt_of_succ_lt h)) (row4 a A c ⟨n + 1, h⟩) := by
  show k4_pay2 (if first4 (grid4.coords ⟨n + 1, h⟩) = 1#1 then k4_pay1 (F := Ideal) else acc4 a A c n (Nat.lt_of_succ_lt h))
    (row4 a A c ⟨n + 1, h⟩) = _
  rw [if_neg (fun e => h0 ((first4_at ⟨n + 1, h⟩).mp e))]

def src4 (c : Dev nD) (n : ℕ) (y : S1x1x128.Idx) : EReal :=
  if h : n < (cfg4 a).N then row4 a A c ⟨n, h⟩ y else 0

theorem src4_of_lt (c : Dev nD) (n : ℕ) (h : n < (cfg4 a).N) (y : S1x1x128.Idx) :
    src4 a A c n y = row4 a A c ⟨n, h⟩ y := dif_pos h

theorem acc4_sum (c : Dev nD) (g : ℕ) (y : S1x1x128.Idx) : ∀ (s : ℕ) (hs : s < 25) (h : 25 * g + s < (cfg4 a).N),
    acc4 a A c (25 * g + s) h y = ∑ k ∈ Finset.range (s + 1), src4 a A c (25 * g + k) y
  | 0, _, h => by
    rw [Finset.sum_range_one, acc4_first a A c (25 * g + 0) h (by omega), apay4, zpay4, zero_add, src4_of_lt a A c _ h]
  | s + 1, hs, h => by
    have ih := acc4_sum c g y s (by omega) (Nat.lt_of_succ_lt h)
    show acc4 a A c ((25 * g + s) + 1) h y = _
    rw [acc4_next a A c (25 * g + s) h (by omega), apay4, ih, Finset.sum_range_succ _ (s + 1), src4_of_lt a A c _ h]
    rfl

end

section
variable (a : (pcfg4 (F := Ideal)).Adm)
variable (A : (c : Dev nD) → (w : Fin (cfg4 a).W) → Buf (Elt Ideal) (((cfg4 a).win w).arr.view.loc (c.tc : Thread nD τ)))
variable (T : S500000x1x128.Idx → EReal) (tb : S32000.Idx → BitVec 32) (hin : ∀ k, (tb k).toNat < 500000)

def mean4 : S1280x1x128.Idx → EReal := fun i =>
  (∑ s : Fin 25, T (ValueIdx.ix3 ⟨(tb (ValueIdx.ix1 ⟨25 * (i 0).val + s.val, by have h0 : (i 0).val < 1280 := (i 0).isLt; have := s.isLt; omega⟩)).toNat, hin _⟩ (0 : Fin 1) (i 2))) * ((1 / 25 : ℝ) : EReal)

theorem flushed4_at (c : Dev nD) (hT : T = A c 0) (htb : tb = a.1 0) (t : Fin (cfg4 a).N) (hl : t.val % 25 = 24)
    (y : S1x1x128.Idx) (i : S1280x1x128.Idx) (hi0 : (i 0).val = t.val / 25) (hi2 : (i 2).val = (y 2).val) :
    k4_pay3 (acc4 a A c t.val t.isLt) y = mean4 T tb hin i := by
  subst hT htb
  have hN : (cfg4 a).N = 32000 := N4_eq a
  have ht : t.val < 32000 := hN ▸ t.isLt
  have hg : 25 * (t.val / 25) + 24 < (cfg4 a).N := lt_of_lt_of_eq (by omega : 25 * (t.val / 25) + 24 < 32000) hN.symm
  rw [mpay4, acc4_congr a A c t.val (25 * (t.val / 25) + 24) t.isLt hg (by omega),
    acc4_sum a A c (t.val / 25) y 24 (by omega) hg]
  unfold mean4
  refine congrArg (· * ((1 / 25 : ℝ) : EReal)) ?_
  show ∑ k ∈ Finset.range 25, src4 a A c (25 * (t.val / 25) + k) y = _
  rw [Finset.sum_range]
  refine Finset.sum_congr rfl fun s _ => ?_
  have hs : s.val < 25 := s.isLt
  have hn' : 25 * (t.val / 25) + s.val < 32000 := by omega
  have hn : 25 * (t.val / 25) + s.val < (cfg4 a).N := lt_of_lt_of_eq hn' hN.symm
  rw [src4_of_lt a A c _ hn]
  refine row4_apply a A c ⟨_, hn⟩ hn' y _ ?_ rfl hi2
  refine congrArg BitVec.toNat (tbl4_congr a _ _ _ _ ?_)
  rw [hi0]

theorem flushed4_eq (c : Dev nD) (hT : T = A c 0) (htb : tb = a.1 0) (t : Fin (cfg4 a).N)
    (hf : ((cfg4 a).win 1).flush t = true) :
    (dat4 a A c).flushed 1 t = (((cfg4 a).win 1).blk t).view.read (Elt Ideal) (mean4 T tb hin) := by
  have hl := flush4_last a t hf
  show ((cfg4 a).win 1).cut (grid4.coords t) ((dat4 a A c).after 1 t) = _
  rw [after4_1]
  refine funext fun (y : S1x1x128.Idx) => ?_
  show k4_pay3 (acc4 a A c t.val t.isLt) y = mean4 T tb hin ((((cfg4 a).win 1).blk t).view.emb y)
  refine flushed4_at a A T tb hin c hT htb t hl y _ ?_ ?_
  · show ((cfg4 a).win 1).index t (0 : Fin 3) * 1 + 1 * (y 0).val = t.val / 25
    have : (y 0).val < 1 := (y 0).isLt
    rw [index4_1_0]; omega
  · show ((cfg4 a).win 1).index t (2 : Fin 3) * 128 + 1 * (y 2).val = (y 2).val
    rw [index4_1_2]; omega

theorem flush4_at_last (g : ℕ) (hg : g < 1280) (h : 25 * g + 24 < (cfg4 a).N) :
    ((cfg4 a).win 1).flush ⟨25 * g + 24, h⟩ = true := by
  unfold Pipeline.Window.flush
  simp only [Bool.and_eq_true, Bool.or_eq_true, decide_eq_true_eq]
  refine ⟨rfl, ?_⟩
  by_cases hlast : g + 1 = 1280
  · left
    show 25 * g + 24 + 1 = grid4.N
    rw [N_4]; omega
  · right
    have h' : 25 * g + 24 + 1 < (cfg4 a).N := lt_of_lt_of_eq (by omega : 25 * g + 24 + 1 < 32000) (N4_eq a).symm
    refine ⟨h', fun e => ?_⟩
    have e0 := congrFun e (0 : Fin 3)
    rw [index4_1_0, index4_1_0] at e0
    dsimp only at e0
    omega

set_option backward.isDefEq.respectTransparency.types false in
theorem mem_blk4 (t : Fin (cfg4 a).N) (i : S1280x1x128.Idx) (h0 : (i 0).val = t.val / 25) :
    i ∈ (((cfg4 a).win 1).blk t).view.set := by
  show i ∈ ((View.whole (Pipeline.arrRef spec4 (1 : Fin 2))).slice (((cfg4 a).win 1).rect t)).set
  rw [View.set_slice_whole]
  refine Rect.mem_set_unit.mpr ?_
  intro b
  have h1 : (i 1).val < 1 := (i 1).isLt
  have h2 : (i 2).val < 128 := (i 2).isLt
  match b with
  | ⟨0, _⟩ =>
    show ((cfg4 a).win 1).index t (0 : Fin 3) * 1 ≤ (i 0).val ∧ (i 0).val < ((cfg4 a).win 1).index t (0 : Fin 3) * 1 + 1
    rw [index4_1_0]; omega
  | ⟨1, _⟩ =>
    show ((cfg4 a).win 1).index t (1 : Fin 3) * 1 ≤ (i 1).val ∧ (i 1).val < ((cfg4 a).win 1).index t (1 : Fin 3) * 1 + 1
    rw [index4_1_1]; omega
  | ⟨2, _⟩ =>
    show ((cfg4 a).win 1).index t (2 : Fin 3) * 128 ≤ (i 2).val ∧ (i 2).val < ((cfg4 a).win 1).index t (2 : Fin 3) * 128 + 128
    rw [index4_1_2]; omega

theorem cover4 (i : S1280x1x128.Idx) :
    ∃ t : Fin (cfg4 a).N, ((cfg4 a).win 1).flush t = true ∧ i ∈ (((cfg4 a).win 1).blk t).view.set := by
  have h0 : (i 0).val < 1280 := (i 0).isLt
  have h : 25 * (i 0).val + 24 < (cfg4 a).N := lt_of_lt_of_eq (by omega : 25 * (i 0).val + 24 < 32000) (N4_eq a).symm
  refine ⟨⟨25 * (i 0).val + 24, h⟩, flush4_at_last a (i 0).val h0 h, mem_blk4 a _ i ?_⟩
  show (i 0).val = (25 * (i 0).val + 24) / 25
  omega

theorem gval4_of (c : Dev nD) (hT : T = A c 0) (htb : tb = a.1 0) :
    (dat4 (F := Ideal) a A c).arrAt 1 (cfg4 a).N = mean4 T tb hin :=
  (dat4 a A c).arrAt_eq_of_cover 1 (mean4 T tb hin) (flushed4_eq a A T tb hin c hT htb) (cover4 a)

end

theorem mean4_apply (T : S500000x1x128.Idx → EReal) (tb : S32000.Idx → BitVec 32) (hin : ∀ k, (tb k).toNat < 500000)
    (i : S1280x1x128.Idx) :
    mean4 T tb hin i = (∑ s : Fin 25, T (ValueIdx.ix3 ⟨(tb (ValueIdx.ix1 ⟨25 * (i 0).val + s.val, by have h0 : (i 0).val < 1280 := (i 0).isLt; have := s.isLt; omega⟩)).toNat, hin _⟩ (0 : Fin 1) (i 2))) * ((1 / 25 : ℝ) : EReal) := rfl

theorem gval4 (a : (pcfg4 (F := Ideal)).Adm)
    (A : (c : Dev nD) → (w : Fin (cfg4 a).W) → Buf (Elt Ideal) (((cfg4 a).win w).arr.view.loc (c.tc : Thread nD τ))) (c : Dev nD)
    (hin : ∀ k, ((a.1 0 : S32000.Idx → BitVec 32) k).toNat < 500000) :
    (dat4 (F := Ideal) a A c).arrAt 1 (cfg4 a).N = mean4 (A c 0) (a.1 0) hin :=
  gval4_of a A (A c 0) (a.1 0) hin c rfl rfl

end Cert.KernelIdeal.Hand

end
-- ==== Proof.GatherValue5.lean ====
import proofs.«401580_j65068754534945_2_alg».proof.Proof.Gather5

/-! The value of a gather-and-mean region over the extended reals: row g of its output is the sum of the 25 feature rows that entries 25 g … 25 g + 24 of the table name, times 1/25 (a sum in a commutative monoid: no finiteness is used). -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

theorem inv5 : Named.named (F := Ideal) κ "inv_25" (φ := .f32) 0x3D23D70A#32 = ((1 / 25 : ℝ) : EReal) :=
  IdealRules.named_const.ideal_named_scalar _ _ _ _ rfl

theorem zpay5 (y : S1x1x128.Idx) : (k5_pay1 (F := Ideal)) y = 0 := by
  unfold k5_pay1
  rw [shapeCast_self]
  exact Ideal.ofBits_zero_f32

theorem apay5 (x v : Vec Ideal S1x1x128 .f32) (y : S1x1x128.Idx) : k5_pay2 x v y = x y + v y := by
  unfold k5_pay2
  rw [shapeCast_self, shapeCast_self]
  rfl

theorem mpay5 (x : Vec Ideal S1x1x128 .f32) (y : S1x1x128.Idx) : k5_pay3 x y = x y * ((1 / 25 : ℝ) : EReal) := by
  unfold k5_pay3
  rw [ValueIdx.mulf_apply, ValueIdx.broadcast_apply, inv5]

section
variable {F : FTy → Type} [FloatOps F] [Named F]

theorem tr5_1_0 (i : grid5.Coords) : cc5_transform_1 i 0 = (i 0).val := by
  have h : (i 0).val < 1280 := (i 0).isLt
  show (BitVec.ofNat 32 (i 0).val).toNat = (i 0).val
  rw [BitVec.toNat_ofNat]
  exact Nat.mod_eq_of_lt (by omega)
theorem tr5_1_1 (i : grid5.Coords) : cc5_transform_1 i 1 = 0 := rfl
theorem tr5_1_2 (i : grid5.Coords) : cc5_transform_1 i 2 = 0 := rfl

theorem tr5_0_0 (pf : pre5.Contents (Elt F)) (i : grid5.Coords) (h : 25 * (i 0).val + (i 1).val < 32000) :
    cc5_transform_0 k5_off1_inb numel1_S1 pf i 0
      = ((pf 0 : S32000.Idx → BitVec 32) (ValueIdx.ix1 ⟨25 * (i 0).val + (i 1).val, h⟩)).toNat := by
  show ((pf 0 : S32000.Idx → BitVec 32) ((Rect.unit (s := S32000) (k5_off1 i) S1.size (k5_off1_inb i)).emb (Shape.Idx.first _))).toNat = _
  refine congrArg (fun k => ((pf 0 : S32000.Idx → BitVec 32) k).toNat) ?_
  funext d
  match d with
  | ⟨0, _⟩ =>
    apply Fin.ext
    show (k5_off1 i) 0 + 1 * 0 = 25 * (i 0).val + (i 1).val
    have e := congrFun (k5_off1_eq i) 0
    simp only [Matrix.cons_val_zero] at e
    omega
theorem tr5_0_1 (pf : pre5.Contents (Elt F)) (i : grid5.Coords) : cc5_transform_0 k5_off1_inb numel1_S1 pf i 1 = 0 := rfl
theorem tr5_0_2 (pf : pre5.Contents (Elt F)) (i : grid5.Coords) : cc5_transform_0 k5_off1_inb numel1_S1 pf i 2 = 0 := rfl

end

section
variable (a : (pcfg5 (F := Ideal)).Adm)
variable (A : (c : Dev nD) → (w : Fin (cfg5 a).W) → Buf (Elt Ideal) (((cfg5 a).win w).arr.view.loc (c.tc : Thread nD τ)))

theorem N5_eq : (cfg5 a).N = 32000 := N_5

theorem tbl5_congr (n n' : ℕ) (h : n < 32000) (h' : n' < 32000) (e : n = n') :
    (a.1 0 : S32000.Idx → BitVec 32) (ValueIdx.ix1 ⟨n, h⟩) = (a.1 0 : S32000.Idx → BitVec 32) (ValueIdx.ix1 ⟨n', h'⟩) := by
  subst e; rfl

theorem index5_0_0 (t : Fin (cfg5 a).N) (h : t.val < 32000) :
    ((cfg5 a).win 0).index t (0 : Fin 3) = ((a.1 0 : S32000.Idx → BitVec 32) (ValueIdx.ix1 ⟨t.val, h⟩)).toNat := by
  have h0 := coords5_0 t
  have h1 := coords5_1 t
  have hh : 25 * (grid5.coords t 0).val + (grid5.coords t 1).val < 32000 := by rw [h0, h1]; omega
  show cc5_transform_0 k5_off1_inb numel1_S1 a.1 (grid5.coords t) 0 = _
  rw [tr5_0_0 a.1 (grid5.coords t) hh]
  refine congrArg BitVec.toNat (tbl5_congr a _ _ hh h ?_)
  rw [h0, h1]; omega
theorem index5_0_1 (t : Fin (cfg5 a).N) : ((cfg5 a).win 0).index t (1 : Fin 3) = 0 := rfl
theorem index5_0_2 (t : Fin (cfg5 a).N) : ((cfg5 a).win 0).index t (2 : Fin 3) = 0 := rfl

theorem index5_1_0 (t : Fin (cfg5 a).N) : ((cfg5 a).win 1).index t (0 : Fin 3) = t.val / 25 := by
  have h0 := coords5_0 t
  have hN : t.val < 32000 := (N5_eq a) ▸ t.isLt
  show cc5_transform_1 (grid5.coords t) 0 = _
  rw [tr5_1_0, h0]; omega
theorem index5_1_1 (t : Fin (cfg5 a).N) : ((cfg5 a).win 1).index t (1 : Fin 3) = 0 := rfl
theorem index5_1_2 (t : Fin (cfg5 a).N) : ((cfg5 a).win 1).index t (2 : Fin 3) = 0 := rfl

theorem row5_apply (c : Dev nD) (t : Fin (cfg5 a).N) (h : t.val < 32000) (y : S1x1x128.Idx) (k : S500000x1x128.Idx)
    (hk0 : (k 0).val = ((a.1 0 : S32000.Idx → BitVec 32) (ValueIdx.ix1 ⟨t.val, h⟩)).toNat) (hk1 : (k 1).val = 0)
    (hk2 : (k 2).val = (y 2).val) :
    row5 a A c t y = (A c 0 : S500000x1x128.Idx → EReal) k := by
  have hy0 : (y 0).val = 0 := by have : (y 0).val < 1 := (y 0).isLt; omega
  have hy1 : (y 1).val = 0 := by have : (y 1).val < 1 := (y 1).isLt; omega
  unfold row5
  show (A c 0 : S500000x1x128.Idx → EReal) ((((cfg5 a).win 0).blk t).view.emb y) = (A c 0 : S500000x1x128.Idx → EReal) k
  refine congrArg (A c 0 : S500000x1x128.Idx → EReal) ?_
  funext b
  apply Fin.ext
  match b with
  | ⟨0, _⟩ =>
    show ((cfg5 a).win 0).index t (0 : Fin 3) * 1 + 1 * (y 0).val = (k 0).val
    rw [index5_0_0 a t h, hk0, hy0]; omega
  | ⟨1, _⟩ =>
    show ((cfg5 a).win 0).index t (1 : Fin 3) * 1 + 1 * (y 1).val = (k 1).val
    rw [index5_0_1, hk1, hy1]
  | ⟨2, _⟩ =>
    show ((cfg5 a).win 0).index t (2 : Fin 3) * 128 + 1 * (y 2).val = (k 2).val
    rw [index5_0_2, hk2]; omega

end

section
variable (a : (pcfg5 (F := Ideal)).Adm)
variable (A : (c : Dev nD) → (w : Fin (cfg5 a).W) → Buf (Elt Ideal) (((cfg5 a).win w).arr.view.loc (c.tc : Thread nD τ)))

theorem acc5_congr (c : Dev nD) (n n' : ℕ) (h : n < (cfg5 a).N) (h' : n' < (cfg5 a).N) (e : n = n') :
    acc5 a A c n h = acc5 a A c n' h' := by
  subst e; rfl

theorem acc5_first (c : Dev nD) (n : ℕ) (h : n < (cfg5 a).N) (h0 : n % 25 = 0) :
    acc5 a A c n h = k5_pay2 (k5_pay1 (F := Ideal)) (row5 a A c ⟨n, h⟩) := by
  cases n with
  | zero => rfl
  | succ n =>
    show k5_pay2 (if first5 (grid5.coords ⟨n + 1, h⟩) = 1#1 then k5_pay1 (F := Ideal) else acc5 a A c n (Nat.lt_of_succ_lt h))
      (row5 a A c ⟨n + 1, h⟩) = _
    rw [if_pos ((first5_at ⟨n + 1, h⟩).mpr h0)]

theorem acc5_next (c : Dev nD) (n : ℕ) (h : n + 1 < (cfg5 a).N) (h0 : ¬ (n + 1) % 25 = 0) :
    acc5 a A c (n + 1) h = k5_pay2 (acc5 a A c n (Nat.lt_of_succ_lt h)) (row5 a A c ⟨n + 1, h⟩) := by
  show k5_pay2 (if first5 (grid5.coords ⟨n + 1, h⟩) = 1#1 then k5_pay1 (F := Ideal) else acc5 a A c n (Nat.lt_of_succ_lt h))
    (row5 a A c ⟨n + 1, h⟩) = _
  rw [if_neg (fun e => h0 ((first5_at ⟨n + 1, h⟩).mp e))]

def src5 (c : Dev nD) (n : ℕ) (y : S1x1x128.Idx) : EReal :=
  if h : n < (cfg5 a).N then row5 a A c ⟨n, h⟩ y else 0

theorem src5_of_lt (c : Dev nD) (n : ℕ) (h : n < (cfg5 a).N) (y : S1x1x128.Idx) :
    src5 a A c n y = row5 a A c ⟨n, h⟩ y := dif_pos h

theorem acc5_sum (c : Dev nD) (g : ℕ) (y : S1x1x128.Idx) : ∀ (s : ℕ) (hs : s < 25) (h : 25 * g + s < (cfg5 a).N),
    acc5 a A c (25 * g + s) h y = ∑ k ∈ Finset.range (s + 1), src5 a A c (25 * g + k) y
  | 0, _, h => by
    rw [Finset.sum_range_one, acc5_first a A c (25 * g + 0) h (by omega), apay5, zpay5, zero_add, src5_of_lt a A c _ h]
  | s + 1, hs, h => by
    have ih := acc5_sum c g y s (by omega) (Nat.lt_of_succ_lt h)
    show acc5 a A c ((25 * g + s) + 1) h y = _
    rw [acc5_next a A c (25 * g + s) h (by omega), apay5, ih, Finset.sum_range_succ _ (s + 1), src5_of_lt a A c _ h]
    rfl

end

section
variable (a : (pcfg5 (F := Ideal)).Adm)
variable (A : (c : Dev nD) → (w : Fin (cfg5 a).W) → Buf (Elt Ideal) (((cfg5 a).win w).arr.view.loc (c.tc : Thread nD τ)))
variable (T : S500000x1x128.Idx → EReal) (tb : S32000.Idx → BitVec 32) (hin : ∀ k, (tb k).toNat < 500000)

def mean5 : S1280x1x128.Idx → EReal := fun i =>
  (∑ s : Fin 25, T (ValueIdx.ix3 ⟨(tb (ValueIdx.ix1 ⟨25 * (i 0).val + s.val, by have h0 : (i 0).val < 1280 := (i 0).isLt; have := s.isLt; omega⟩)).toNat, hin _⟩ (0 : Fin 1) (i 2))) * ((1 / 25 : ℝ) : EReal)

theorem flushed5_at (c : Dev nD) (hT : T = A c 0) (htb : tb = a.1 0) (t : Fin (cfg5 a).N) (hl : t.val % 25 = 24)
    (y : S1x1x128.Idx) (i : S1280x1x128.Idx) (hi0 : (i 0).val = t.val / 25) (hi2 : (i 2).val = (y 2).val) :
    k5_pay3 (acc5 a A c t.val t.isLt) y = mean5 T tb hin i := by
  subst hT htb
  have hN : (cfg5 a).N = 32000 := N5_eq a
  have ht : t.val < 32000 := hN ▸ t.isLt
  have hg : 25 * (t.val / 25) + 24 < (cfg5 a).N := lt_of_lt_of_eq (by omega : 25 * (t.val / 25) + 24 < 32000) hN.symm
  rw [mpay5, acc5_congr a A c t.val (25 * (t.val / 25) + 24) t.isLt hg (by omega),
    acc5_sum a A c (t.val / 25) y 24 (by omega) hg]
  unfold mean5
  refine congrArg (· * ((1 / 25 : ℝ) : EReal)) ?_
  show ∑ k ∈ Finset.range 25, src5 a A c (25 * (t.val / 25) + k) y = _
  rw [Finset.sum_range]
  refine Finset.sum_congr rfl fun s _ => ?_
  have hs : s.val < 25 := s.isLt
  have hn' : 25 * (t.val / 25) + s.val < 32000 := by omega
  have hn : 25 * (t.val / 25) + s.val < (cfg5 a).N := lt_of_lt_of_eq hn' hN.symm
  rw [src5_of_lt a A c _ hn]
  refine row5_apply a A c ⟨_, hn⟩ hn' y _ ?_ rfl hi2
  refine congrArg BitVec.toNat (tbl5_congr a _ _ _ _ ?_)
  rw [hi0]

theorem flushed5_eq (c : Dev nD) (hT : T = A c 0) (htb : tb = a.1 0) (t : Fin (cfg5 a).N)
    (hf : ((cfg5 a).win 1).flush t = true) :
    (dat5 a A c).flushed 1 t = (((cfg5 a).win 1).blk t).view.read (Elt Ideal) (mean5 T tb hin) := by
  have hl := flush5_last a t hf
  show ((cfg5 a).win 1).cut (grid5.coords t) ((dat5 a A c).after 1 t) = _
  rw [after5_1]
  refine funext fun (y : S1x1x128.Idx) => ?_
  show k5_pay3 (acc5 a A c t.val t.isLt) y = mean5 T tb hin ((((cfg5 a).win 1).blk t).view.emb y)
  refine flushed5_at a A T tb hin c hT htb t hl y _ ?_ ?_
  · show ((cfg5 a).win 1).index t (0 : Fin 3) * 1 + 1 * (y 0).val = t.val / 25
    have : (y 0).val < 1 := (y 0).isLt
    rw [index5_1_0]; omega
  · show ((cfg5 a).win 1).index t (2 : Fin 3) * 128 + 1 * (y 2).val = (y 2).val
    rw [index5_1_2]; omega

theorem flush5_at_last (g : ℕ) (hg : g < 1280) (h : 25 * g + 24 < (cfg5 a).N) :
    ((cfg5 a).win 1).flush ⟨25 * g + 24, h⟩ = true := by
  unfold Pipeline.Window.flush
  simp only [Bool.and_eq_true, Bool.or_eq_true, decide_eq_true_eq]
  refine ⟨rfl, ?_⟩
  by_cases hlast : g + 1 = 1280
  · left
    show 25 * g + 24 + 1 = grid5.N
    rw [N_5]; omega
  · right
    have h' : 25 * g + 24 + 1 < (cfg5 a).N := lt_of_lt_of_eq (by omega : 25 * g + 24 + 1 < 32000) (N5_eq a).symm
    refine ⟨h', fun e => ?_⟩
    have e0 := congrFun e (0 : Fin 3)
    rw [index5_1_0, index5_1_0] at e0
    dsimp only at e0
    omega

set_option backward.isDefEq.respectTransparency.types false in
theorem mem_blk5 (t : Fin (cfg5 a).N) (i : S1280x1x128.Idx) (h0 : (i 0).val = t.val / 25) :
    i ∈ (((cfg5 a).win 1).blk t).view.set := by
  show i ∈ ((View.whole (Pipeline.arrRef spec5 (1 : Fin 2))).slice (((cfg5 a).win 1).rect t)).set
  rw [View.set_slice_whole]
  refine Rect.mem_set_unit.mpr ?_
  intro b
  have h1 : (i 1).val < 1 := (i 1).isLt
  have h2 : (i 2).val < 128 := (i 2).isLt
  match b with
  | ⟨0, _⟩ =>
    show ((cfg5 a).win 1).index t (0 : Fin 3) * 1 ≤ (i 0).val ∧ (i 0).val < ((cfg5 a).win 1).index t (0 : Fin 3) * 1 + 1
    rw [index5_1_0]; omega
  | ⟨1, _⟩ =>
    show ((cfg5 a).win 1).index t (1 : Fin 3) * 1 ≤ (i 1).val ∧ (i 1).val < ((cfg5 a).win 1).index t (1 : Fin 3) * 1 + 1
    rw [index5_1_1]; omega
  | ⟨2, _⟩ =>
    show ((cfg5 a).win 1).index t (2 : Fin 3) * 128 ≤ (i 2).val ∧ (i 2).val < ((cfg5 a).win 1).index t (2 : Fin 3) * 128 + 128
    rw [index5_1_2]; omega

theorem cover5 (i : S1280x1x128.Idx) :
    ∃ t : Fin (cfg5 a).N, ((cfg5 a).win 1).flush t = true ∧ i ∈ (((cfg5 a).win 1).blk t).view.set := by
  have h0 : (i 0).val < 1280 := (i 0).isLt
  have h : 25 * (i 0).val + 24 < (cfg5 a).N := lt_of_lt_of_eq (by omega : 25 * (i 0).val + 24 < 32000) (N5_eq a).symm
  refine ⟨⟨25 * (i 0).val + 24, h⟩, flush5_at_last a (i 0).val h0 h, mem_blk5 a _ i ?_⟩
  show (i 0).val = (25 * (i 0).val + 24) / 25
  omega

theorem gval5_of (c : Dev nD) (hT : T = A c 0) (htb : tb = a.1 0) :
    (dat5 (F := Ideal) a A c).arrAt 1 (cfg5 a).N = mean5 T tb hin :=
  (dat5 a A c).arrAt_eq_of_cover 1 (mean5 T tb hin) (flushed5_eq a A T tb hin c hT htb) (cover5 a)

end

theorem mean5_apply (T : S500000x1x128.Idx → EReal) (tb : S32000.Idx → BitVec 32) (hin : ∀ k, (tb k).toNat < 500000)
    (i : S1280x1x128.Idx) :
    mean5 T tb hin i = (∑ s : Fin 25, T (ValueIdx.ix3 ⟨(tb (ValueIdx.ix1 ⟨25 * (i 0).val + s.val, by have h0 : (i 0).val < 1280 := (i 0).isLt; have := s.isLt; omega⟩)).toNat, hin _⟩ (0 : Fin 1) (i 2))) * ((1 / 25 : ℝ) : EReal) := rfl

theorem gval5 (a : (pcfg5 (F := Ideal)).Adm)
    (A : (c : Dev nD) → (w : Fin (cfg5 a).W) → Buf (Elt Ideal) (((cfg5 a).win w).arr.view.loc (c.tc : Thread nD τ))) (c : Dev nD)
    (hin : ∀ k, ((a.1 0 : S32000.Idx → BitVec 32) k).toNat < 500000) :
    (dat5 (F := Ideal) a A c).arrAt 1 (cfg5 a).N = mean5 (A c 0) (a.1 0) hin :=
  gval5_of a A (A c 0) (a.1 0) hin c rfl rfl

end Cert.KernelIdeal.Hand

end
-- ==== Proof.GatherValue6.lean ====
import proofs.«401580_j65068754534945_2_alg».proof.Proof.Gather6

/-! The value of a gather-and-mean region over the extended reals: row g of its output is the sum of the 25 feature rows that entries 25 g … 25 g + 24 of the table name, times 1/25 (a sum in a commutative monoid: no finiteness is used). -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

theorem inv6 : Named.named (F := Ideal) κ "inv_25" (φ := .f32) 0x3D23D70A#32 = ((1 / 25 : ℝ) : EReal) :=
  IdealRules.named_const.ideal_named_scalar _ _ _ _ rfl

theorem zpay6 (y : S1x1x128.Idx) : (k6_pay1 (F := Ideal)) y = 0 := by
  unfold k6_pay1
  rw [shapeCast_self]
  exact Ideal.ofBits_zero_f32

theorem apay6 (x v : Vec Ideal S1x1x128 .f32) (y : S1x1x128.Idx) : k6_pay2 x v y = x y + v y := by
  unfold k6_pay2
  rw [shapeCast_self, shapeCast_self]
  rfl

theorem mpay6 (x : Vec Ideal S1x1x128 .f32) (y : S1x1x128.Idx) : k6_pay3 x y = x y * ((1 / 25 : ℝ) : EReal) := by
  unfold k6_pay3
  rw [ValueIdx.mulf_apply, ValueIdx.broadcast_apply, inv6]

section
variable {F : FTy → Type} [FloatOps F] [Named F]

theorem tr6_1_0 (i : grid6.Coords) : cc6_transform_1 i 0 = (i 0).val := by
  have h : (i 0).val < 1280 := (i 0).isLt
  show (BitVec.ofNat 32 (i 0).val).toNat = (i 0).val
  rw [BitVec.toNat_ofNat]
  exact Nat.mod_eq_of_lt (by omega)
theorem tr6_1_1 (i : grid6.Coords) : cc6_transform_1 i 1 = 0 := rfl
theorem tr6_1_2 (i : grid6.Coords) : cc6_transform_1 i 2 = 0 := rfl

theorem tr6_0_0 (pf : pre6.Contents (Elt F)) (i : grid6.Coords) (h : 25 * (i 0).val + (i 1).val < 32000) :
    cc6_transform_0 k6_off1_inb numel1_S1 pf i 0
      = ((pf 0 : S32000.Idx → BitVec 32) (ValueIdx.ix1 ⟨25 * (i 0).val + (i 1).val, h⟩)).toNat := by
  show ((pf 0 : S32000.Idx → BitVec 32) ((Rect.unit (s := S32000) (k6_off1 i) S1.size (k6_off1_inb i)).emb (Shape.Idx.first _))).toNat = _
  refine congrArg (fun k => ((pf 0 : S32000.Idx → BitVec 32) k).toNat) ?_
  funext d
  match d with
  | ⟨0, _⟩ =>
    apply Fin.ext
    show (k6_off1 i) 0 + 1 * 0 = 25 * (i 0).val + (i 1).val
    have e := congrFun (k6_off1_eq i) 0
    simp only [Matrix.cons_val_zero] at e
    omega
theorem tr6_0_1 (pf : pre6.Contents (Elt F)) (i : grid6.Coords) : cc6_transform_0 k6_off1_inb numel1_S1 pf i 1 = 0 := rfl
theorem tr6_0_2 (pf : pre6.Contents (Elt F)) (i : grid6.Coords) : cc6_transform_0 k6_off1_inb numel1_S1 pf i 2 = 0 := rfl

end

section
variable (a : (pcfg6 (F := Ideal)).Adm)
variable (A : (c : Dev nD) → (w : Fin (cfg6 a).W) → Buf (Elt Ideal) (((cfg6 a).win w).arr.view.loc (c.tc : Thread nD τ)))

theorem N6_eq : (cfg6 a).N = 32000 := N_6

theorem tbl6_congr (n n' : ℕ) (h : n < 32000) (h' : n' < 32000) (e : n = n') :
    (a.1 0 : S32000.Idx → BitVec 32) (ValueIdx.ix1 ⟨n, h⟩) = (a.1 0 : S32000.Idx → BitVec 32) (ValueIdx.ix1 ⟨n', h'⟩) := by
  subst e; rfl

theorem index6_0_0 (t : Fin (cfg6 a).N) (h : t.val < 32000) :
    ((cfg6 a).win 0).index t (0 : Fin 3) = ((a.1 0 : S32000.Idx → BitVec 32) (ValueIdx.ix1 ⟨t.val, h⟩)).toNat := by
  have h0 := coords6_0 t
  have h1 := coords6_1 t
  have hh : 25 * (grid6.coords t 0).val + (grid6.coords t 1).val < 32000 := by rw [h0, h1]; omega
  show cc6_transform_0 k6_off1_inb numel1_S1 a.1 (grid6.coords t) 0 = _
  rw [tr6_0_0 a.1 (grid6.coords t) hh]
  refine congrArg BitVec.toNat (tbl6_congr a _ _ hh h ?_)
  rw [h0, h1]; omega
theorem index6_0_1 (t : Fin (cfg6 a).N) : ((cfg6 a).win 0).index t (1 : Fin 3) = 0 := rfl
theorem index6_0_2 (t : Fin (cfg6 a).N) : ((cfg6 a).win 0).index t (2 : Fin 3) = 0 := rfl

theorem index6_1_0 (t : Fin (cfg6 a).N) : ((cfg6 a).win 1).index t (0 : Fin 3) = t.val / 25 := by
  have h0 := coords6_0 t
  have hN : t.val < 32000 := (N6_eq a) ▸ t.isLt
  show cc6_transform_1 (grid6.coords t) 0 = _
  rw [tr6_1_0, h0]; omega
theorem index6_1_1 (t : Fin (cfg6 a).N) : ((cfg6 a).win 1).index t (1 : Fin 3) = 0 := rfl
theorem index6_1_2 (t : Fin (cfg6 a).N) : ((cfg6 a).win 1).index t (2 : Fin 3) = 0 := rfl

theorem row6_apply (c : Dev nD) (t : Fin (cfg6 a).N) (h : t.val < 32000) (y : S1x1x128.Idx) (k : S500000x1x128.Idx)
    (hk0 : (k 0).val = ((a.1 0 : S32000.Idx → BitVec 32) (ValueIdx.ix1 ⟨t.val, h⟩)).toNat) (hk1 : (k 1).val = 0)
    (hk2 : (k 2).val = (y 2).val) :
    row6 a A c t y = (A c 0 : S500000x1x128.Idx → EReal) k := by
  have hy0 : (y 0).val = 0 := by have : (y 0).val < 1 := (y 0).isLt; omega
  have hy1 : (y 1).val = 0 := by have : (y 1).val < 1 := (y 1).isLt; omega
  unfold row6
  show (A c 0 : S500000x1x128.Idx → EReal) ((((cfg6 a).win 0).blk t).view.emb y) = (A c 0 : S500000x1x128.Idx → EReal) k
  refine congrArg (A c 0 : S500000x1x128.Idx → EReal) ?_
  funext b
  apply Fin.ext
  match b with
  | ⟨0, _⟩ =>
    show ((cfg6 a).win 0).index t (0 : Fin 3) * 1 + 1 * (y 0).val = (k 0).val
    rw [index6_0_0 a t h, hk0, hy0]; omega
  | ⟨1, _⟩ =>
    show ((cfg6 a).win 0).index t (1 : Fin 3) * 1 + 1 * (y 1).val = (k 1).val
    rw [index6_0_1, hk1, hy1]
  | ⟨2, _⟩ =>
    show ((cfg6 a).win 0).index t (2 : Fin 3) * 128 + 1 * (y 2).val = (k 2).val
    rw [index6_0_2, hk2]; omega

end

section
variable (a : (pcfg6 (F := Ideal)).Adm)
variable (A : (c : Dev nD) → (w : Fin (cfg6 a).W) → Buf (Elt Ideal) (((cfg6 a).win w).arr.view.loc (c.tc : Thread nD τ)))

theorem acc6_congr (c : Dev nD) (n n' : ℕ) (h : n < (cfg6 a).N) (h' : n' < (cfg6 a).N) (e : n = n') :
    acc6 a A c n h = acc6 a A c n' h' := by
  subst e; rfl

theorem acc6_first (c : Dev nD) (n : ℕ) (h : n < (cfg6 a).N) (h0 : n % 25 = 0) :
    acc6 a A c n h = k6_pay2 (k6_pay1 (F := Ideal)) (row6 a A c ⟨n, h⟩) := by
  cases n with
  | zero => rfl
  | succ n =>
    show k6_pay2 (if first6 (grid6.coords ⟨n + 1, h⟩) = 1#1 then k6_pay1 (F := Ideal) else acc6 a A c n (Nat.lt_of_succ_lt h))
      (row6 a A c ⟨n + 1, h⟩) = _
    rw [if_pos ((first6_at ⟨n + 1, h⟩).mpr h0)]

theorem acc6_next (c : Dev nD) (n : ℕ) (h : n + 1 < (cfg6 a).N) (h0 : ¬ (n + 1) % 25 = 0) :
    acc6 a A c (n + 1) h = k6_pay2 (acc6 a A c n (Nat.lt_of_succ_lt h)) (row6 a A c ⟨n + 1, h⟩) := by
  show k6_pay2 (if first6 (grid6.coords ⟨n + 1, h⟩) = 1#1 then k6_pay1 (F := Ideal) else acc6 a A c n (Nat.lt_of_succ_lt h))
    (row6 a A c ⟨n + 1, h⟩) = _
  rw [if_neg (fun e => h0 ((first6_at ⟨n + 1, h⟩).mp e))]

def src6 (c : Dev nD) (n : ℕ) (y : S1x1x128.Idx) : EReal :=
  if h : n < (cfg6 a).N then row6 a A c ⟨n, h⟩ y else 0

theorem src6_of_lt (c : Dev nD) (n : ℕ) (h : n < (cfg6 a).N) (y : S1x1x128.Idx) :
    src6 a A c n y = row6 a A c ⟨n, h⟩ y := dif_pos h

theorem acc6_sum (c : Dev nD) (g : ℕ) (y : S1x1x128.Idx) : ∀ (s : ℕ) (hs : s < 25) (h : 25 * g + s < (cfg6 a).N),
    acc6 a A c (25 * g + s) h y = ∑ k ∈ Finset.range (s + 1), src6 a A c (25 * g + k) y
  | 0, _, h => by
    rw [Finset.sum_range_one, acc6_first a A c (25 * g + 0) h (by omega), apay6, zpay6, zero_add, src6_of_lt a A c _ h]
  | s + 1, hs, h => by
    have ih := acc6_sum c g y s (by omega) (Nat.lt_of_succ_lt h)
    show acc6 a A c ((25 * g + s) + 1) h y = _
    rw [acc6_next a A c (25 * g + s) h (by omega), apay6, ih, Finset.sum_range_succ _ (s + 1), src6_of_lt a A c _ h]
    rfl

end

section
variable (a : (pcfg6 (F := Ideal)).Adm)
variable (A : (c : Dev nD) → (w : Fin (cfg6 a).W) → Buf (Elt Ideal) (((cfg6 a).win w).arr.view.loc (c.tc : Thread nD τ)))
variable (T : S500000x1x128.Idx → EReal) (tb : S32000.Idx → BitVec 32) (hin : ∀ k, (tb k).toNat < 500000)

def mean6 : S1280x1x128.Idx → EReal := fun i =>
  (∑ s : Fin 25, T (ValueIdx.ix3 ⟨(tb (ValueIdx.ix1 ⟨25 * (i 0).val + s.val, by have h0 : (i 0).val < 1280 := (i 0).isLt; have := s.isLt; omega⟩)).toNat, hin _⟩ (0 : Fin 1) (i 2))) * ((1 / 25 : ℝ) : EReal)

theorem flushed6_at (c : Dev nD) (hT : T = A c 0) (htb : tb = a.1 0) (t : Fin (cfg6 a).N) (hl : t.val % 25 = 24)
    (y : S1x1x128.Idx) (i : S1280x1x128.Idx) (hi0 : (i 0).val = t.val / 25) (hi2 : (i 2).val = (y 2).val) :
    k6_pay3 (acc6 a A c t.val t.isLt) y = mean6 T tb hin i := by
  subst hT htb
  have hN : (cfg6 a).N = 32000 := N6_eq a
  have ht : t.val < 32000 := hN ▸ t.isLt
  have hg : 25 * (t.val / 25) + 24 < (cfg6 a).N := lt_of_lt_of_eq (by omega : 25 * (t.val / 25) + 24 < 32000) hN.symm
  rw [mpay6, acc6_congr a A c t.val (25 * (t.val / 25) + 24) t.isLt hg (by omega),
    acc6_sum a A c (t.val / 25) y 24 (by omega) hg]
  unfold mean6
  refine congrArg (· * ((1 / 25 : ℝ) : EReal)) ?_
  show ∑ k ∈ Finset.range 25, src6 a A c (25 * (t.val / 25) + k) y = _
  rw [Finset.sum_range]
  refine Finset.sum_congr rfl fun s _ => ?_
  have hs : s.val < 25 := s.isLt
  have hn' : 25 * (t.val / 25) + s.val < 32000 := by omega
  have hn : 25 * (t.val / 25) + s.val < (cfg6 a).N := lt_of_lt_of_eq hn' hN.symm
  rw [src6_of_lt a A c _ hn]
  refine row6_apply a A c ⟨_, hn⟩ hn' y _ ?_ rfl hi2
  refine congrArg BitVec.toNat (tbl6_congr a _ _ _ _ ?_)
  rw [hi0]

theorem flushed6_eq (c : Dev nD) (hT : T = A c 0) (htb : tb = a.1 0) (t : Fin (cfg6 a).N)
    (hf : ((cfg6 a).win 1).flush t = true) :
    (dat6 a A c).flushed 1 t = (((cfg6 a).win 1).blk t).view.read (Elt Ideal) (mean6 T tb hin) := by
  have hl := flush6_last a t hf
  show ((cfg6 a).win 1).cut (grid6.coords t) ((dat6 a A c).after 1 t) = _
  rw [after6_1]
  refine funext fun (y : S1x1x128.Idx) => ?_
  show k6_pay3 (acc6 a A c t.val t.isLt) y = mean6 T tb hin ((((cfg6 a).win 1).blk t).view.emb y)
  refine flushed6_at a A T tb hin c hT htb t hl y _ ?_ ?_
  · show ((cfg6 a).win 1).index t (0 : Fin 3) * 1 + 1 * (y 0).val = t.val / 25
    have : (y 0).val < 1 := (y 0).isLt
    rw [index6_1_0]; omega
  · show ((cfg6 a).win 1).index t (2 : Fin 3) * 128 + 1 * (y 2).val = (y 2).val
    rw [index6_1_2]; omega

theorem flush6_at_last (g : ℕ) (hg : g < 1280) (h : 25 * g + 24 < (cfg6 a).N) :
    ((cfg6 a).win 1).flush ⟨25 * g + 24, h⟩ = true := by
  unfold Pipeline.Window.flush
  simp only [Bool.and_eq_true, Bool.or_eq_true, decide_eq_true_eq]
  refine ⟨rfl, ?_⟩
  by_cases hlast : g + 1 = 1280
  · left
    show 25 * g + 24 + 1 = grid6.N
    rw [N_6]; omega
  · right
    have h' : 25 * g + 24 + 1 < (cfg6 a).N := lt_of_lt_of_eq (by omega : 25 * g + 24 + 1 < 32000) (N6_eq a).symm
    refine ⟨h', fun e => ?_⟩
    have e0 := congrFun e (0 : Fin 3)
    rw [index6_1_0, index6_1_0] at e0
    dsimp only at e0
    omega

set_option backward.isDefEq.respectTransparency.types false in
theorem mem_blk6 (t : Fin (cfg6 a).N) (i : S1280x1x128.Idx) (h0 : (i 0).val = t.val / 25) :
    i ∈ (((cfg6 a).win 1).blk t).view.set := by
  show i ∈ ((View.whole (Pipeline.arrRef spec6 (1 : Fin 2))).slice (((cfg6 a).win 1).rect t)).set
  rw [View.set_slice_whole]
  refine Rect.mem_set_unit.mpr ?_
  intro b
  have h1 : (i 1).val < 1 := (i 1).isLt
  have h2 : (i 2).val < 128 := (i 2).isLt
  match b with
  | ⟨0, _⟩ =>
    show ((cfg6 a).win 1).index t (0 : Fin 3) * 1 ≤ (i 0).val ∧ (i 0).val < ((cfg6 a).win 1).index t (0 : Fin 3) * 1 + 1
    rw [index6_1_0]; omega
  | ⟨1, _⟩ =>
    show ((cfg6 a).win 1).index t (1 : Fin 3) * 1 ≤ (i 1).val ∧ (i 1).val < ((cfg6 a).win 1).index t (1 : Fin 3) * 1 + 1
    rw [index6_1_1]; omega
  | ⟨2, _⟩ =>
    show ((cfg6 a).win 1).index t (2 : Fin 3) * 128 ≤ (i 2).val ∧ (i 2).val < ((cfg6 a).win 1).index t (2 : Fin 3) * 128 + 128
    rw [index6_1_2]; omega

theorem cover6 (i : S1280x1x128.Idx) :
    ∃ t : Fin (cfg6 a).N, ((cfg6 a).win 1).flush t = true ∧ i ∈ (((cfg6 a).win 1).blk t).view.set := by
  have h0 : (i 0).val < 1280 := (i 0).isLt
  have h : 25 * (i 0).val + 24 < (cfg6 a).N := lt_of_lt_of_eq (by omega : 25 * (i 0).val + 24 < 32000) (N6_eq a).symm
  refine ⟨⟨25 * (i 0).val + 24, h⟩, flush6_at_last a (i 0).val h0 h, mem_blk6 a _ i ?_⟩
  show (i 0).val = (25 * (i 0).val + 24) / 25
  omega

theorem gval6_of (c : Dev nD) (hT : T = A c 0) (htb : tb = a.1 0) :
    (dat6 (F := Ideal) a A c).arrAt 1 (cfg6 a).N = mean6 T tb hin :=
  (dat6 a A c).arrAt_eq_of_cover 1 (mean6 T tb hin) (flushed6_eq a A T tb hin c hT htb) (cover6 a)

end

theorem mean6_apply (T : S500000x1x128.Idx → EReal) (tb : S32000.Idx → BitVec 32) (hin : ∀ k, (tb k).toNat < 500000)
    (i : S1280x1x128.Idx) :
    mean6 T tb hin i = (∑ s : Fin 25, T (ValueIdx.ix3 ⟨(tb (ValueIdx.ix1 ⟨25 * (i 0).val + s.val, by have h0 : (i 0).val < 1280 := (i 0).isLt; have := s.isLt; omega⟩)).toNat, hin _⟩ (0 : Fin 1) (i 2))) * ((1 / 25 : ℝ) : EReal) := rfl

theorem gval6 (a : (pcfg6 (F := Ideal)).Adm)
    (A : (c : Dev nD) → (w : Fin (cfg6 a).W) → Buf (Elt Ideal) (((cfg6 a).win w).arr.view.loc (c.tc : Thread nD τ))) (c : Dev nD)
    (hin : ∀ k, ((a.1 0 : S32000.Idx → BitVec 32) k).toNat < 500000) :
    (dat6 (F := Ideal) a A c).arrAt 1 (cfg6 a).N = mean6 (A c 0) (a.1 0) hin :=
  gval6_of a A (A c 0) (a.1 0) hin c rfl rfl

end Cert.KernelIdeal.Hand

end
-- ==== Proof.GatherValue7.lean ====
import proofs.«401580_j65068754534945_2_alg».proof.Proof.Gather7

/-! The value of a gather-and-mean region over the extended reals: row g of its output is the sum of the 25 feature rows that entries 25 g … 25 g + 24 of the table name, times 1/25 (a sum in a commutative monoid: no finiteness is used). -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

theorem inv7 : Named.named (F := Ideal) κ "inv_25" (φ := .f32) 0x3D23D70A#32 = ((1 / 25 : ℝ) : EReal) :=
  IdealRules.named_const.ideal_named_scalar _ _ _ _ rfl

theorem zpay7 (y : S1x1x128.Idx) : (k7_pay1 (F := Ideal)) y = 0 := by
  unfold k7_pay1
  rw [shapeCast_self]
  exact Ideal.ofBits_zero_f32

theorem apay7 (x v : Vec Ideal S1x1x128 .f32) (y : S1x1x128.Idx) : k7_pay2 x v y = x y + v y := by
  unfold k7_pay2
  rw [shapeCast_self, shapeCast_self]
  rfl

theorem mpay7 (x : Vec Ideal S1x1x128 .f32) (y : S1x1x128.Idx) : k7_pay3 x y = x y * ((1 / 25 : ℝ) : EReal) := by
  unfold k7_pay3
  rw [ValueIdx.mulf_apply, ValueIdx.broadcast_apply, inv7]

section
variable {F : FTy → Type} [FloatOps F] [Named F]

theorem tr7_1_0 (i : grid7.Coords) : cc7_transform_1 i 0 = (i 0).val := by
  have h : (i 0).val < 1280 := (i 0).isLt
  show (BitVec.ofNat 32 (i 0).val).toNat = (i 0).val
  rw [BitVec.toNat_ofNat]
  exact Nat.mod_eq_of_lt (by omega)
theorem tr7_1_1 (i : grid7.Coords) : cc7_transform_1 i 1 = 0 := rfl
theorem tr7_1_2 (i : grid7.Coords) : cc7_transform_1 i 2 = 0 := rfl

theorem tr7_0_0 (pf : pre7.Contents (Elt F)) (i : grid7.Coords) (h : 25 * (i 0).val + (i 1).val < 32000) :
    cc7_transform_0 k7_off1_inb numel1_S1 pf i 0
      = ((pf 0 : S32000.Idx → BitVec 32) (ValueIdx.ix1 ⟨25 * (i 0).val + (i 1).val, h⟩)).toNat := by
  show ((pf 0 : S32000.Idx → BitVec 32) ((Rect.unit (s := S32000) (k7_off1 i) S1.size (k7_off1_inb i)).emb (Shape.Idx.first _))).toNat = _
  refine congrArg (fun k => ((pf 0 : S32000.Idx → BitVec 32) k).toNat) ?_
  funext d
  match d with
  | ⟨0, _⟩ =>
    apply Fin.ext
    show (k7_off1 i) 0 + 1 * 0 = 25 * (i 0).val + (i 1).val
    have e := congrFun (k7_off1_eq i) 0
    simp only [Matrix.cons_val_zero] at e
    omega
theorem tr7_0_1 (pf : pre7.Contents (Elt F)) (i : grid7.Coords) : cc7_transform_0 k7_off1_inb numel1_S1 pf i 1 = 0 := rfl
theorem tr7_0_2 (pf : pre7.Contents (Elt F)) (i : grid7.Coords) : cc7_transform_0 k7_off1_inb numel1_S1 pf i 2 = 0 := rfl

end

section
variable (a : (pcfg7 (F := Ideal)).Adm)
variable (A : (c : Dev nD) → (w : Fin (cfg7 a).W) → Buf (Elt Ideal) (((cfg7 a).win w).arr.view.loc (c.tc : Thread nD τ)))

theorem N7_eq : (cfg7 a).N = 32000 := N_7

theorem tbl7_congr (n n' : ℕ) (h : n < 32000) (h' : n' < 32000) (e : n = n') :
    (a.1 0 : S32000.Idx → BitVec 32) (ValueIdx.ix1 ⟨n, h⟩) = (a.1 0 : S32000.Idx → BitVec 32) (ValueIdx.ix1 ⟨n', h'⟩) := by
  subst e; rfl

theorem index7_0_0 (t : Fin (cfg7 a).N) (h : t.val < 32000) :
    ((cfg7 a).win 0).index t (0 : Fin 3) = ((a.1 0 : S32000.Idx → BitVec 32) (ValueIdx.ix1 ⟨t.val, h⟩)).toNat := by
  have h0 := coords7_0 t
  have h1 := coords7_1 t
  have hh : 25 * (grid7.coords t 0).val + (grid7.coords t 1).val < 32000 := by rw [h0, h1]; omega
  show cc7_transform_0 k7_off1_inb numel1_S1 a.1 (grid7.coords t) 0 = _
  rw [tr7_0_0 a.1 (grid7.coords t) hh]
  refine congrArg BitVec.toNat (tbl7_congr a _ _ hh h ?_)
  rw [h0, h1]; omega
theorem index7_0_1 (t : Fin (cfg7 a).N) : ((cfg7 a).win 0).index t (1 : Fin 3) = 0 := rfl
theorem index7_0_2 (t : Fin (cfg7 a).N) : ((cfg7 a).win 0).index t (2 : Fin 3) = 0 := rfl

theorem index7_1_0 (t : Fin (cfg7 a).N) : ((cfg7 a).win 1).index t (0 : Fin 3) = t.val / 25 := by
  have h0 := coords7_0 t
  have hN : t.val < 32000 := (N7_eq a) ▸ t.isLt
  show cc7_transform_1 (grid7.coords t) 0 = _
  rw [tr7_1_0, h0]; omega
theorem index7_1_1 (t : Fin (cfg7 a).N) : ((cfg7 a).win 1).index t (1 : Fin 3) = 0 := rfl
theorem index7_1_2 (t : Fin (cfg7 a).N) : ((cfg7 a).win 1).index t (2 : Fin 3) = 0 := rfl

theorem row7_apply (c : Dev nD) (t : Fin (cfg7 a).N) (h : t.val < 32000) (y : S1x1x128.Idx) (k : S500000x1x128.Idx)
    (hk0 : (k 0).val = ((a.1 0 : S32000.Idx → BitVec 32) (ValueIdx.ix1 ⟨t.val, h⟩)).toNat) (hk1 : (k 1).val = 0)
    (hk2 : (k 2).val = (y 2).val) :
    row7 a A c t y = (A c 0 : S500000x1x128.Idx → EReal) k := by
  have hy0 : (y 0).val = 0 := by have : (y 0).val < 1 := (y 0).isLt; omega
  have hy1 : (y 1).val = 0 := by have : (y 1).val < 1 := (y 1).isLt; omega
  unfold row7
  show (A c 0 : S500000x1x128.Idx → EReal) ((((cfg7 a).win 0).blk t).view.emb y) = (A c 0 : S500000x1x128.Idx → EReal) k
  refine congrArg (A c 0 : S500000x1x128.Idx → EReal) ?_
  funext b
  apply Fin.ext
  match b with
  | ⟨0, _⟩ =>
    show ((cfg7 a).win 0).index t (0 : Fin 3) * 1 + 1 * (y 0).val = (k 0).val
    rw [index7_0_0 a t h, hk0, hy0]; omega
  | ⟨1, _⟩ =>
    show ((cfg7 a).win 0).index t (1 : Fin 3) * 1 + 1 * (y 1).val = (k 1).val
    rw [index7_0_1, hk1, hy1]
  | ⟨2, _⟩ =>
    show ((cfg7 a).win 0).index t (2 : Fin 3) * 128 + 1 * (y 2).val = (k 2).val
    rw [index7_0_2, hk2]; omega

end

section
variable (a : (pcfg7 (F := Ideal)).Adm)
variable (A : (c : Dev nD) → (w : Fin (cfg7 a).W) → Buf (Elt Ideal) (((cfg7 a).win w).arr.view.loc (c.tc : Thread nD τ)))

theorem acc7_congr (c : Dev nD) (n n' : ℕ) (h : n < (cfg7 a).N) (h' : n' < (cfg7 a).N) (e : n = n') :
    acc7 a A c n h = acc7 a A c n' h' := by
  subst e; rfl

theorem acc7_first (c : Dev nD) (n : ℕ) (h : n < (cfg7 a).N) (h0 : n % 25 = 0) :
    acc7 a A c n h = k7_pay2 (k7_pay1 (F := Ideal)) (row7 a A c ⟨n, h⟩) := by
  cases n with
  | zero => rfl
  | succ n =>
    show k7_pay2 (if first7 (grid7.coords ⟨n + 1, h⟩) = 1#1 then k7_pay1 (F := Ideal) else acc7 a A c n (Nat.lt_of_succ_lt h))
      (row7 a A c ⟨n + 1, h⟩) = _
    rw [if_pos ((first7_at ⟨n + 1, h⟩).mpr h0)]

theorem acc7_next (c : Dev nD) (n : ℕ) (h : n + 1 < (cfg7 a).N) (h0 : ¬ (n + 1) % 25 = 0) :
    acc7 a A c (n + 1) h = k7_pay2 (acc7 a A c n (Nat.lt_of_succ_lt h)) (row7 a A c ⟨n + 1, h⟩) := by
  show k7_pay2 (if first7 (grid7.coords ⟨n + 1, h⟩) = 1#1 then k7_pay1 (F := Ideal) else acc7 a A c n (Nat.lt_of_succ_lt h))
    (row7 a A c ⟨n + 1, h⟩) = _
  rw [if_neg (fun e => h0 ((first7_at ⟨n + 1, h⟩).mp e))]

def src7 (c : Dev nD) (n : ℕ) (y : S1x1x128.Idx) : EReal :=
  if h : n < (cfg7 a).N then row7 a A c ⟨n, h⟩ y else 0

theorem src7_of_lt (c : Dev nD) (n : ℕ) (h : n < (cfg7 a).N) (y : S1x1x128.Idx) :
    src7 a A c n y = row7 a A c ⟨n, h⟩ y := dif_pos h

theorem acc7_sum (c : Dev nD) (g : ℕ) (y : S1x1x128.Idx) : ∀ (s : ℕ) (hs : s < 25) (h : 25 * g + s < (cfg7 a).N),
    acc7 a A c (25 * g + s) h y = ∑ k ∈ Finset.range (s + 1), src7 a A c (25 * g + k) y
  | 0, _, h => by
    rw [Finset.sum_range_one, acc7_first a A c (25 * g + 0) h (by omega), apay7, zpay7, zero_add, src7_of_lt a A c _ h]
  | s + 1, hs, h => by
    have ih := acc7_sum c g y s (by omega) (Nat.lt_of_succ_lt h)
    show acc7 a A c ((25 * g + s) + 1) h y = _
    rw [acc7_next a A c (25 * g + s) h (by omega), apay7, ih, Finset.sum_range_succ _ (s + 1), src7_of_lt a A c _ h]
    rfl

end

section
variable (a : (pcfg7 (F := Ideal)).Adm)
variable (A : (c : Dev nD) → (w : Fin (cfg7 a).W) → Buf (Elt Ideal) (((cfg7 a).win w).arr.view.loc (c.tc : Thread nD τ)))
variable (T : S500000x1x128.Idx → EReal) (tb : S32000.Idx → BitVec 32) (hin : ∀ k, (tb k).toNat < 500000)

def mean7 : S1280x1x128.Idx → EReal := fun i =>
  (∑ s : Fin 25, T (ValueIdx.ix3 ⟨(tb (ValueIdx.ix1 ⟨25 * (i 0).val + s.val, by have h0 : (i 0).val < 1280 := (i 0).isLt; have := s.isLt; omega⟩)).toNat, hin _⟩ (0 : Fin 1) (i 2))) * ((1 / 25 : ℝ) : EReal)

theorem flushed7_at (c : Dev nD) (hT : T = A c 0) (htb : tb = a.1 0) (t : Fin (cfg7 a).N) (hl : t.val % 25 = 24)
    (y : S1x1x128.Idx) (i : S1280x1x128.Idx) (hi0 : (i 0).val = t.val / 25) (hi2 : (i 2).val = (y 2).val) :
    k7_pay3 (acc7 a A c t.val t.isLt) y = mean7 T tb hin i := by
  subst hT htb
  have hN : (cfg7 a).N = 32000 := N7_eq a
  have ht : t.val < 32000 := hN ▸ t.isLt
  have hg : 25 * (t.val / 25) + 24 < (cfg7 a).N := lt_of_lt_of_eq (by omega : 25 * (t.val / 25) + 24 < 32000) hN.symm
  rw [mpay7, acc7_congr a A c t.val (25 * (t.val / 25) + 24) t.isLt hg (by omega),
    acc7_sum a A c (t.val / 25) y 24 (by omega) hg]
  unfold mean7
  refine congrArg (· * ((1 / 25 : ℝ) : EReal)) ?_
  show ∑ k ∈ Finset.range 25, src7 a A c (25 * (t.val / 25) + k) y = _
  rw [Finset.sum_range]
  refine Finset.sum_congr rfl fun s _ => ?_
  have hs : s.val < 25 := s.isLt
  have hn' : 25 * (t.val / 25) + s.val < 32000 := by omega
  have hn : 25 * (t.val / 25) + s.val < (cfg7 a).N := lt_of_lt_of_eq hn' hN.symm
  rw [src7_of_lt a A c _ hn]
  refine row7_apply a A c ⟨_, hn⟩ hn' y _ ?_ rfl hi2
  refine congrArg BitVec.toNat (tbl7_congr a _ _ _ _ ?_)
  rw [hi0]

theorem flushed7_eq (c : Dev nD) (hT : T = A c 0) (htb : tb = a.1 0) (t : Fin (cfg7 a).N)
    (hf : ((cfg7 a).win 1).flush t = true) :
    (dat7 a A c).flushed 1 t = (((cfg7 a).win 1).blk t).view.read (Elt Ideal) (mean7 T tb hin) := by
  have hl := flush7_last a t hf
  show ((cfg7 a).win 1).cut (grid7.coords t) ((dat7 a A c).after 1 t) = _
  rw [after7_1]
  refine funext fun (y : S1x1x128.Idx) => ?_
  show k7_pay3 (acc7 a A c t.val t.isLt) y = mean7 T tb hin ((((cfg7 a).win 1).blk t).view.emb y)
  refine flushed7_at a A T tb hin c hT htb t hl y _ ?_ ?_
  · show ((cfg7 a).win 1).index t (0 : Fin 3) * 1 + 1 * (y 0).val = t.val / 25
    have : (y 0).val < 1 := (y 0).isLt
    rw [index7_1_0]; omega
  · show ((cfg7 a).win 1).index t (2 : Fin 3) * 128 + 1 * (y 2).val = (y 2).val
    rw [index7_1_2]; omega

theorem flush7_at_last (g : ℕ) (hg : g < 1280) (h : 25 * g + 24 < (cfg7 a).N) :
    ((cfg7 a).win 1).flush ⟨25 * g + 24, h⟩ = true := by
  unfold Pipeline.Window.flush
  simp only [Bool.and_eq_true, Bool.or_eq_true, decide_eq_true_eq]
  refine ⟨rfl, ?_⟩
  by_cases hlast : g + 1 = 1280
  · left
    show 25 * g + 24 + 1 = grid7.N
    rw [N_7]; omega
  · right
    have h' : 25 * g + 24 + 1 < (cfg7 a).N := lt_of_lt_of_eq (by omega : 25 * g + 24 + 1 < 32000) (N7_eq a).symm
    refine ⟨h', fun e => ?_⟩
    have e0 := congrFun e (0 : Fin 3)
    rw [index7_1_0, index7_1_0] at e0
    dsimp only at e0
    omega

set_option backward.isDefEq.respectTransparency.types false in
theorem mem_blk7 (t : Fin (cfg7 a).N) (i : S1280x1x128.Idx) (h0 : (i 0).val = t.val / 25) :
    i ∈ (((cfg7 a).win 1).blk t).view.set := by
  show i ∈ ((View.whole (Pipeline.arrRef spec7 (1 : Fin 2))).slice (((cfg7 a).win 1).rect t)).set
  rw [View.set_slice_whole]
  refine Rect.mem_set_unit.mpr ?_
  intro b
  have h1 : (i 1).val < 1 := (i 1).isLt
  have h2 : (i 2).val < 128 := (i 2).isLt
  match b with
  | ⟨0, _⟩ =>
    show ((cfg7 a).win 1).index t (0 : Fin 3) * 1 ≤ (i 0).val ∧ (i 0).val < ((cfg7 a).win 1).index t (0 : Fin 3) * 1 + 1
    rw [index7_1_0]; omega
  | ⟨1, _⟩ =>
    show ((cfg7 a).win 1).index t (1 : Fin 3) * 1 ≤ (i 1).val ∧ (i 1).val < ((cfg7 a).win 1).index t (1 : Fin 3) * 1 + 1
    rw [index7_1_1]; omega
  | ⟨2, _⟩ =>
    show ((cfg7 a).win 1).index t (2 : Fin 3) * 128 ≤ (i 2).val ∧ (i 2).val < ((cfg7 a).win 1).index t (2 : Fin 3) * 128 + 128
    rw [index7_1_2]; omega

theorem cover7 (i : S1280x1x128.Idx) :
    ∃ t : Fin (cfg7 a).N, ((cfg7 a).win 1).flush t = true ∧ i ∈ (((cfg7 a).win 1).blk t).view.set := by
  have h0 : (i 0).val < 1280 := (i 0).isLt
  have h : 25 * (i 0).val + 24 < (cfg7 a).N := lt_of_lt_of_eq (by omega : 25 * (i 0).val + 24 < 32000) (N7_eq a).symm
  refine ⟨⟨25 * (i 0).val + 24, h⟩, flush7_at_last a (i 0).val h0 h, mem_blk7 a _ i ?_⟩
  show (i 0).val = (25 * (i 0).val + 24) / 25
  omega

theorem gval7_of (c : Dev nD) (hT : T = A c 0) (htb : tb = a.1 0) :
    (dat7 (F := Ideal) a A c).arrAt 1 (cfg7 a).N = mean7 T tb hin :=
  (dat7 a A c).arrAt_eq_of_cover 1 (mean7 T tb hin) (flushed7_eq a A T tb hin c hT htb) (cover7 a)

end

theorem mean7_apply (T : S500000x1x128.Idx → EReal) (tb : S32000.Idx → BitVec 32) (hin : ∀ k, (tb k).toNat < 500000)
    (i : S1280x1x128.Idx) :
    mean7 T tb hin i = (∑ s : Fin 25, T (ValueIdx.ix3 ⟨(tb (ValueIdx.ix1 ⟨25 * (i 0).val + s.val, by have h0 : (i 0).val < 1280 := (i 0).isLt; have := s.isLt; omega⟩)).toNat, hin _⟩ (0 : Fin 1) (i 2))) * ((1 / 25 : ℝ) : EReal) := rfl

theorem gval7 (a : (pcfg7 (F := Ideal)).Adm)
    (A : (c : Dev nD) → (w : Fin (cfg7 a).W) → Buf (Elt Ideal) (((cfg7 a).win w).arr.view.loc (c.tc : Thread nD τ))) (c : Dev nD)
    (hin : ∀ k, ((a.1 0 : S32000.Idx → BitVec 32) k).toNat < 500000) :
    (dat7 (F := Ideal) a A c).arrAt 1 (cfg7 a).N = mean7 (A c 0) (a.1 0) hin :=
  gval7_of a A (A c 0) (a.1 0) hin c rfl rfl

end Cert.KernelIdeal.Hand

end
-- ==== Proof.GatherValue8.lean ====
import proofs.«401580_j65068754534945_2_alg».proof.Proof.Gather8

/-! The value of a gather-and-mean region over the extended reals: row g of its output is the sum of the 25 feature rows that entries 25 g … 25 g + 24 of the table name, times 1/25 (a sum in a commutative monoid: no finiteness is used). -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

theorem inv8 : Named.named (F := Ideal) κ "inv_25" (φ := .f32) 0x3D23D70A#32 = ((1 / 25 : ℝ) : EReal) :=
  IdealRules.named_const.ideal_named_scalar _ _ _ _ rfl

theorem zpay8 (y : S1x1x128.Idx) : (k8_pay1 (F := Ideal)) y = 0 := by
  unfold k8_pay1
  rw [shapeCast_self]
  exact Ideal.ofBits_zero_f32

theorem apay8 (x v : Vec Ideal S1x1x128 .f32) (y : S1x1x128.Idx) : k8_pay2 x v y = x y + v y := by
  unfold k8_pay2
  rw [shapeCast_self, shapeCast_self]
  rfl

theorem mpay8 (x : Vec Ideal S1x1x128 .f32) (y : S1x1x128.Idx) : k8_pay3 x y = x y * ((1 / 25 : ℝ) : EReal) := by
  unfold k8_pay3
  rw [ValueIdx.mulf_apply, ValueIdx.broadcast_apply, inv8]

section
variable {F : FTy → Type} [FloatOps F] [Named F]

theorem tr8_1_0 (i : grid8.Coords) : cc8_transform_1 i 0 = (i 0).val := by
  have h : (i 0).val < 1280 := (i 0).isLt
  show (BitVec.ofNat 32 (i 0).val).toNat = (i 0).val
  rw [BitVec.toNat_ofNat]
  exact Nat.mod_eq_of_lt (by omega)
theorem tr8_1_1 (i : grid8.Coords) : cc8_transform_1 i 1 = 0 := rfl
theorem tr8_1_2 (i : grid8.Coords) : cc8_transform_1 i 2 = 0 := rfl

theorem tr8_0_0 (pf : pre8.Contents (Elt F)) (i : grid8.Coords) (h : 25 * (i 0).val + (i 1).val < 32000) :
    cc8_transform_0 k8_off1_inb numel1_S1 pf i 0
      = ((pf 0 : S32000.Idx → BitVec 32) (ValueIdx.ix1 ⟨25 * (i 0).val + (i 1).val, h⟩)).toNat := by
  show ((pf 0 : S32000.Idx → BitVec 32) ((Rect.unit (s := S32000) (k8_off1 i) S1.size (k8_off1_inb i)).emb (Shape.Idx.first _))).toNat = _
  refine congrArg (fun k => ((pf 0 : S32000.Idx → BitVec 32) k).toNat) ?_
  funext d
  match d with
  | ⟨0, _⟩ =>
    apply Fin.ext
    show (k8_off1 i) 0 + 1 * 0 = 25 * (i 0).val + (i 1).val
    have e := congrFun (k8_off1_eq i) 0
    simp only [Matrix.cons_val_zero] at e
    omega
theorem tr8_0_1 (pf : pre8.Contents (Elt F)) (i : grid8.Coords) : cc8_transform_0 k8_off1_inb numel1_S1 pf i 1 = 0 := rfl
theorem tr8_0_2 (pf : pre8.Contents (Elt F)) (i : grid8.Coords) : cc8_transform_0 k8_off1_inb numel1_S1 pf i 2 = 0 := rfl

end

section
variable (a : (pcfg8 (F := Ideal)).Adm)
variable (A : (c : Dev nD) → (w : Fin (cfg8 a).W) → Buf (Elt Ideal) (((cfg8 a).win w).arr.view.loc (c.tc : Thread nD τ)))

theorem N8_eq : (cfg8 a).N = 32000 := N_8

theorem tbl8_congr (n n' : ℕ) (h : n < 32000) (h' : n' < 32000) (e : n = n') :
    (a.1 0 : S32000.Idx → BitVec 32) (ValueIdx.ix1 ⟨n, h⟩) = (a.1 0 : S32000.Idx → BitVec 32) (ValueIdx.ix1 ⟨n', h'⟩) := by
  subst e; rfl

theorem index8_0_0 (t : Fin (cfg8 a).N) (h : t.val < 32000) :
    ((cfg8 a).win 0).index t (0 : Fin 3) = ((a.1 0 : S32000.Idx → BitVec 32) (ValueIdx.ix1 ⟨t.val, h⟩)).toNat := by
  have h0 := coords8_0 t
  have h1 := coords8_1 t
  have hh : 25 * (grid8.coords t 0).val + (grid8.coords t 1).val < 32000 := by rw [h0, h1]; omega
  show cc8_transform_0 k8_off1_inb numel1_S1 a.1 (grid8.coords t) 0 = _
  rw [tr8_0_0 a.1 (grid8.coords t) hh]
  refine congrArg BitVec.toNat (tbl8_congr a _ _ hh h ?_)
  rw [h0, h1]; omega
theorem index8_0_1 (t : Fin (cfg8 a).N) : ((cfg8 a).win 0).index t (1 : Fin 3) = 0 := rfl
theorem index8_0_2 (t : Fin (cfg8 a).N) : ((cfg8 a).win 0).index t (2 : Fin 3) = 0 := rfl

theorem index8_1_0 (t : Fin (cfg8 a).N) : ((cfg8 a).win 1).index t (0 : Fin 3) = t.val / 25 := by
  have h0 := coords8_0 t
  have hN : t.val < 32000 := (N8_eq a) ▸ t.isLt
  show cc8_transform_1 (grid8.coords t) 0 = _
  rw [tr8_1_0, h0]; omega
theorem index8_1_1 (t : Fin (cfg8 a).N) : ((cfg8 a).win 1).index t (1 : Fin 3) = 0 := rfl
theorem index8_1_2 (t : Fin (cfg8 a).N) : ((cfg8 a).win 1).index t (2 : Fin 3) = 0 := rfl

theorem row8_apply (c : Dev nD) (t : Fin (cfg8 a).N) (h : t.val < 32000) (y : S1x1x128.Idx) (k : S500000x1x128.Idx)
    (hk0 : (k 0).val = ((a.1 0 : S32000.Idx → BitVec 32) (ValueIdx.ix1 ⟨t.val, h⟩)).toNat) (hk1 : (k 1).val = 0)
    (hk2 : (k 2).val = (y 2).val) :
    row8 a A c t y = (A c 0 : S500000x1x128.Idx → EReal) k := by
  have hy0 : (y 0).val = 0 := by have : (y 0).val < 1 := (y 0).isLt; omega
  have hy1 : (y 1).val = 0 := by have : (y 1).val < 1 := (y 1).isLt; omega
  unfold row8
  show (A c 0 : S500000x1x128.Idx → EReal) ((((cfg8 a).win 0).blk t).view.emb y) = (A c 0 : S500000x1x128.Idx → EReal) k
  refine congrArg (A c 0 : S500000x1x128.Idx → EReal) ?_
  funext b
  apply Fin.ext
  match b with
  | ⟨0, _⟩ =>
    show ((cfg8 a).win 0).index t (0 : Fin 3) * 1 + 1 * (y 0).val = (k 0).val
    rw [index8_0_0 a t h, hk0, hy0]; omega
  | ⟨1, _⟩ =>
    show ((cfg8 a).win 0).index t (1 : Fin 3) * 1 + 1 * (y 1).val = (k 1).val
    rw [index8_0_1, hk1, hy1]
  | ⟨2, _⟩ =>
    show ((cfg8 a).win 0).index t (2 : Fin 3) * 128 + 1 * (y 2).val = (k 2).val
    rw [index8_0_2, hk2]; omega

end

section
variable (a : (pcfg8 (F := Ideal)).Adm)
variable (A : (c : Dev nD) → (w : Fin (cfg8 a).W) → Buf (Elt Ideal) (((cfg8 a).win w).arr.view.loc (c.tc : Thread nD τ)))

theorem acc8_congr (c : Dev nD) (n n' : ℕ) (h : n < (cfg8 a).N) (h' : n' < (cfg8 a).N) (e : n = n') :
    acc8 a A c n h = acc8 a A c n' h' := by
  subst e; rfl

theorem acc8_first (c : Dev nD) (n : ℕ) (h : n < (cfg8 a).N) (h0 : n % 25 = 0) :
    acc8 a A c n h = k8_pay2 (k8_pay1 (F := Ideal)) (row8 a A c ⟨n, h⟩) := by
  cases n with
  | zero => rfl
  | succ n =>
    show k8_pay2 (if first8 (grid8.coords ⟨n + 1, h⟩) = 1#1 then k8_pay1 (F := Ideal) else acc8 a A c n (Nat.lt_of_succ_lt h))
      (row8 a A c ⟨n + 1, h⟩) = _
    rw [if_pos ((first8_at ⟨n + 1, h⟩).mpr h0)]

theorem acc8_next (c : Dev nD) (n : ℕ) (h : n + 1 < (cfg8 a).N) (h0 : ¬ (n + 1) % 25 = 0) :
    acc8 a A c (n + 1) h = k8_pay2 (acc8 a A c n (Nat.lt_of_succ_lt h)) (row8 a A c ⟨n + 1, h⟩) := by
  show k8_pay2 (if first8 (grid8.coords ⟨n + 1, h⟩) = 1#1 then k8_pay1 (F := Ideal) else acc8 a A c n (Nat.lt_of_succ_lt h))
    (row8 a A c ⟨n + 1, h⟩) = _
  rw [if_neg (fun e => h0 ((first8_at ⟨n + 1, h⟩).mp e))]

def src8 (c : Dev nD) (n : ℕ) (y : S1x1x128.Idx) : EReal :=
  if h : n < (cfg8 a).N then row8 a A c ⟨n, h⟩ y else 0

theorem src8_of_lt (c : Dev nD) (n : ℕ) (h : n < (cfg8 a).N) (y : S1x1x128.Idx) :
    src8 a A c n y = row8 a A c ⟨n, h⟩ y := dif_pos h

theorem acc8_sum (c : Dev nD) (g : ℕ) (y : S1x1x128.Idx) : ∀ (s : ℕ) (hs : s < 25) (h : 25 * g + s < (cfg8 a).N),
    acc8 a A c (25 * g + s) h y = ∑ k ∈ Finset.range (s + 1), src8 a A c (25 * g + k) y
  | 0, _, h => by
    rw [Finset.sum_range_one, acc8_first a A c (25 * g + 0) h (by omega), apay8, zpay8, zero_add, src8_of_lt a A c _ h]
  | s + 1, hs, h => by
    have ih := acc8_sum c g y s (by omega) (Nat.lt_of_succ_lt h)
    show acc8 a A c ((25 * g + s) + 1) h y = _
    rw [acc8_next a A c (25 * g + s) h (by omega), apay8, ih, Finset.sum_range_succ _ (s + 1), src8_of_lt a A c _ h]
    rfl

end

section
variable (a : (pcfg8 (F := Ideal)).Adm)
variable (A : (c : Dev nD) → (w : Fin (cfg8 a).W) → Buf (Elt Ideal) (((cfg8 a).win w).arr.view.loc (c.tc : Thread nD τ)))
variable (T : S500000x1x128.Idx → EReal) (tb : S32000.Idx → BitVec 32) (hin : ∀ k, (tb k).toNat < 500000)

def mean8 : S1280x1x128.Idx → EReal := fun i =>
  (∑ s : Fin 25, T (ValueIdx.ix3 ⟨(tb (ValueIdx.ix1 ⟨25 * (i 0).val + s.val, by have h0 : (i 0).val < 1280 := (i 0).isLt; have := s.isLt; omega⟩)).toNat, hin _⟩ (0 : Fin 1) (i 2))) * ((1 / 25 : ℝ) : EReal)

theorem flushed8_at (c : Dev nD) (hT : T = A c 0) (htb : tb = a.1 0) (t : Fin (cfg8 a).N) (hl : t.val % 25 = 24)
    (y : S1x1x128.Idx) (i : S1280x1x128.Idx) (hi0 : (i 0).val = t.val / 25) (hi2 : (i 2).val = (y 2).val) :
    k8_pay3 (acc8 a A c t.val t.isLt) y = mean8 T tb hin i := by
  subst hT htb
  have hN : (cfg8 a).N = 32000 := N8_eq a
  have ht : t.val < 32000 := hN ▸ t.isLt
  have hg : 25 * (t.val / 25) + 24 < (cfg8 a).N := lt_of_lt_of_eq (by omega : 25 * (t.val / 25) + 24 < 32000) hN.symm
  rw [mpay8, acc8_congr a A c t.val (25 * (t.val / 25) + 24) t.isLt hg (by omega),
    acc8_sum a A c (t.val / 25) y 24 (by omega) hg]
  unfold mean8
  refine congrArg (· * ((1 / 25 : ℝ) : EReal)) ?_
  show ∑ k ∈ Finset.range 25, src8 a A c (25 * (t.val / 25) + k) y = _
  rw [Finset.sum_range]
  refine Finset.sum_congr rfl fun s _ => ?_
  have hs : s.val < 25 := s.isLt
  have hn' : 25 * (t.val / 25) + s.val < 32000 := by omega
  have hn : 25 * (t.val / 25) + s.val < (cfg8 a).N := lt_of_lt_of_eq hn' hN.symm
  rw [src8_of_lt a A c _ hn]
  refine row8_apply a A c ⟨_, hn⟩ hn' y _ ?_ rfl hi2
  refine congrArg BitVec.toNat (tbl8_congr a _ _ _ _ ?_)
  rw [hi0]

theorem flushed8_eq (c : Dev nD) (hT : T = A c 0) (htb : tb = a.1 0) (t : Fin (cfg8 a).N)
    (hf : ((cfg8 a).win 1).flush t = true) :
    (dat8 a A c).flushed 1 t = (((cfg8 a).win 1).blk t).view.read (Elt Ideal) (mean8 T tb hin) := by
  have hl := flush8_last a t hf
  show ((cfg8 a).win 1).cut (grid8.coords t) ((dat8 a A c).after 1 t) = _
  rw [after8_1]
  refine funext fun (y : S1x1x128.Idx) => ?_
  show k8_pay3 (acc8 a A c t.val t.isLt) y = mean8 T tb hin ((((cfg8 a).win 1).blk t).view.emb y)
  refine flushed8_at a A T tb hin c hT htb t hl y _ ?_ ?_
  · show ((cfg8 a).win 1).index t (0 : Fin 3) * 1 + 1 * (y 0).val = t.val / 25
    have : (y 0).val < 1 := (y 0).isLt
    rw [index8_1_0]; omega
  · show ((cfg8 a).win 1).index t (2 : Fin 3) * 128 + 1 * (y 2).val = (y 2).val
    rw [index8_1_2]; omega

theorem flush8_at_last (g : ℕ) (hg : g < 1280) (h : 25 * g + 24 < (cfg8 a).N) :
    ((cfg8 a).win 1).flush ⟨25 * g + 24, h⟩ = true := by
  unfold Pipeline.Window.flush
  simp only [Bool.and_eq_true, Bool.or_eq_true, decide_eq_true_eq]
  refine ⟨rfl, ?_⟩
  by_cases hlast : g + 1 = 1280
  · left
    show 25 * g + 24 + 1 = grid8.N
    rw [N_8]; omega
  · right
    have h' : 25 * g + 24 + 1 < (cfg8 a).N := lt_of_lt_of_eq (by omega : 25 * g + 24 + 1 < 32000) (N8_eq a).symm
    refine ⟨h', fun e => ?_⟩
    have e0 := congrFun e (0 : Fin 3)
    rw [index8_1_0, index8_1_0] at e0
    dsimp only at e0
    omega

set_option backward.isDefEq.respectTransparency.types false in
theorem mem_blk8 (t : Fin (cfg8 a).N) (i : S1280x1x128.Idx) (h0 : (i 0).val = t.val / 25) :
    i ∈ (((cfg8 a).win 1).blk t).view.set := by
  show i ∈ ((View.whole (Pipeline.arrRef spec8 (1 : Fin 2))).slice (((cfg8 a).win 1).rect t)).set
  rw [View.set_slice_whole]
  refine Rect.mem_set_unit.mpr ?_
  intro b
  have h1 : (i 1).val < 1 := (i 1).isLt
  have h2 : (i 2).val < 128 := (i 2).isLt
  match b with
  | ⟨0, _⟩ =>
    show ((cfg8 a).win 1).index t (0 : Fin 3) * 1 ≤ (i 0).val ∧ (i 0).val < ((cfg8 a).win 1).index t (0 : Fin 3) * 1 + 1
    rw [index8_1_0]; omega
  | ⟨1, _⟩ =>
    show ((cfg8 a).win 1).index t (1 : Fin 3) * 1 ≤ (i 1).val ∧ (i 1).val < ((cfg8 a).win 1).index t (1 : Fin 3) * 1 + 1
    rw [index8_1_1]; omega
  | ⟨2, _⟩ =>
    show ((cfg8 a).win 1).index t (2 : Fin 3) * 128 ≤ (i 2).val ∧ (i 2).val < ((cfg8 a).win 1).index t (2 : Fin 3) * 128 + 128
    rw [index8_1_2]; omega

theorem cover8 (i : S1280x1x128.Idx) :
    ∃ t : Fin (cfg8 a).N, ((cfg8 a).win 1).flush t = true ∧ i ∈ (((cfg8 a).win 1).blk t).view.set := by
  have h0 : (i 0).val < 1280 := (i 0).isLt
  have h : 25 * (i 0).val + 24 < (cfg8 a).N := lt_of_lt_of_eq (by omega : 25 * (i 0).val + 24 < 32000) (N8_eq a).symm
  refine ⟨⟨25 * (i 0).val + 24, h⟩, flush8_at_last a (i 0).val h0 h, mem_blk8 a _ i ?_⟩
  show (i 0).val = (25 * (i 0).val + 24) / 25
  omega

theorem gval8_of (c : Dev nD) (hT : T = A c 0) (htb : tb = a.1 0) :
    (dat8 (F := Ideal) a A c).arrAt 1 (cfg8 a).N = mean8 T tb hin :=
  (dat8 a A c).arrAt_eq_of_cover 1 (mean8 T tb hin) (flushed8_eq a A T tb hin c hT htb) (cover8 a)

end

theorem mean8_apply (T : S500000x1x128.Idx → EReal) (tb : S32000.Idx → BitVec 32) (hin : ∀ k, (tb k).toNat < 500000)
    (i : S1280x1x128.Idx) :
    mean8 T tb hin i = (∑ s : Fin 25, T (ValueIdx.ix3 ⟨(tb (ValueIdx.ix1 ⟨25 * (i 0).val + s.val, by have h0 : (i 0).val < 1280 := (i 0).isLt; have := s.isLt; omega⟩)).toNat, hin _⟩ (0 : Fin 1) (i 2))) * ((1 / 25 : ℝ) : EReal) := rfl

theorem gval8 (a : (pcfg8 (F := Ideal)).Adm)
    (A : (c : Dev nD) → (w : Fin (cfg8 a).W) → Buf (Elt Ideal) (((cfg8 a).win w).arr.view.loc (c.tc : Thread nD τ))) (c : Dev nD)
    (hin : ∀ k, ((a.1 0 : S32000.Idx → BitVec 32) k).toNat < 500000) :
    (dat8 (F := Ideal) a A c).arrAt 1 (cfg8 a).N = mean8 (A c 0) (a.1 0) hin :=
  gval8_of a A (A c 0) (a.1 0) hin c rfl rfl

end Cert.KernelIdeal.Hand

end
-- ==== Proof.GatherValue9.lean ====
import proofs.«401580_j65068754534945_2_alg».proof.Proof.Gather9

/-! The value of a gather-and-mean region over the extended reals: row g of its output is the sum of the 25 feature rows that entries 25 g … 25 g + 24 of the table name, times 1/25 (a sum in a commutative monoid: no finiteness is used). -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

theorem inv9 : Named.named (F := Ideal) κ "inv_25" (φ := .f32) 0x3D23D70A#32 = ((1 / 25 : ℝ) : EReal) :=
  IdealRules.named_const.ideal_named_scalar _ _ _ _ rfl

theorem zpay9 (y : S1x1x128.Idx) : (k9_pay1 (F := Ideal)) y = 0 := by
  unfold k9_pay1
  rw [shapeCast_self]
  exact Ideal.ofBits_zero_f32

theorem apay9 (x v : Vec Ideal S1x1x128 .f32) (y : S1x1x128.Idx) : k9_pay2 x v y = x y + v y := by
  unfold k9_pay2
  rw [shapeCast_self, shapeCast_self]
  rfl

theorem mpay9 (x : Vec Ideal S1x1x128 .f32) (y : S1x1x128.Idx) : k9_pay3 x y = x y * ((1 / 25 : ℝ) : EReal) := by
  unfold k9_pay3
  rw [ValueIdx.mulf_apply, ValueIdx.broadcast_apply, inv9]

section
variable {F : FTy → Type} [FloatOps F] [Named F]

theorem tr9_1_0 (i : grid9.Coords) : cc9_transform_1 i 0 = (i 0).val := by
  have h : (i 0).val < 1280 := (i 0).isLt
  show (BitVec.ofNat 32 (i 0).val).toNat = (i 0).val
  rw [BitVec.toNat_ofNat]
  exact Nat.mod_eq_of_lt (by omega)
theorem tr9_1_1 (i : grid9.Coords) : cc9_transform_1 i 1 = 0 := rfl
theorem tr9_1_2 (i : grid9.Coords) : cc9_transform_1 i 2 = 0 := rfl

theorem tr9_0_0 (pf : pre9.Contents (Elt F)) (i : grid9.Coords) (h : 25 * (i 0).val + (i 1).val < 32000) :
    cc9_transform_0 k9_off1_inb numel1_S1 pf i 0
      = ((pf 0 : S32000.Idx → BitVec 32) (ValueIdx.ix1 ⟨25 * (i 0).val + (i 1).val, h⟩)).toNat := by
  show ((pf 0 : S32000.Idx → BitVec 32) ((Rect.unit (s := S32000) (k9_off1 i) S1.size (k9_off1_inb i)).emb (Shape.Idx.first _))).toNat = _
  refine congrArg (fun k => ((pf 0 : S32000.Idx → BitVec 32) k).toNat) ?_
  funext d
  match d with
  | ⟨0, _⟩ =>
    apply Fin.ext
    show (k9_off1 i) 0 + 1 * 0 = 25 * (i 0).val + (i 1).val
    have e := congrFun (k9_off1_eq i) 0
    simp only [Matrix.cons_val_zero] at e
    omega
theorem tr9_0_1 (pf : pre9.Contents (Elt F)) (i : grid9.Coords) : cc9_transform_0 k9_off1_inb numel1_S1 pf i 1 = 0 := rfl
theorem tr9_0_2 (pf : pre9.Contents (Elt F)) (i : grid9.Coords) : cc9_transform_0 k9_off1_inb numel1_S1 pf i 2 = 0 := rfl

end

section
variable (a : (pcfg9 (F := Ideal)).Adm)
variable (A : (c : Dev nD) → (w : Fin (cfg9 a).W) → Buf (Elt Ideal) (((cfg9 a).win w).arr.view.loc (c.tc : Thread nD τ)))

theorem N9_eq : (cfg9 a).N = 32000 := N_9

theorem tbl9_congr (n n' : ℕ) (h : n < 32000) (h' : n' < 32000) (e : n = n') :
    (a.1 0 : S32000.Idx → BitVec 32) (ValueIdx.ix1 ⟨n, h⟩) = (a.1 0 : S32000.Idx → BitVec 32) (ValueIdx.ix1 ⟨n', h'⟩) := by
  subst e; rfl

theorem index9_0_0 (t : Fin (cfg9 a).N) (h : t.val < 32000) :
    ((cfg9 a).win 0).index t (0 : Fin 3) = ((a.1 0 : S32000.Idx → BitVec 32) (ValueIdx.ix1 ⟨t.val, h⟩)).toNat := by
  have h0 := coords9_0 t
  have h1 := coords9_1 t
  have hh : 25 * (grid9.coords t 0).val + (grid9.coords t 1).val < 32000 := by rw [h0, h1]; omega
  show cc9_transform_0 k9_off1_inb numel1_S1 a.1 (grid9.coords t) 0 = _
  rw [tr9_0_0 a.1 (grid9.coords t) hh]
  refine congrArg BitVec.toNat (tbl9_congr a _ _ hh h ?_)
  rw [h0, h1]; omega
theorem index9_0_1 (t : Fin (cfg9 a).N) : ((cfg9 a).win 0).index t (1 : Fin 3) = 0 := rfl
theorem index9_0_2 (t : Fin (cfg9 a).N) : ((cfg9 a).win 0).index t (2 : Fin 3) = 0 := rfl

theorem index9_1_0 (t : Fin (cfg9 a).N) : ((cfg9 a).win 1).index t (0 : Fin 3) = t.val / 25 := by
  have h0 := coords9_0 t
  have hN : t.val < 32000 := (N9_eq a) ▸ t.isLt
  show cc9_transform_1 (grid9.coords t) 0 = _
  rw [tr9_1_0, h0]; omega
theorem index9_1_1 (t : Fin (cfg9 a).N) : ((cfg9 a).win 1).index t (1 : Fin 3) = 0 := rfl
theorem index9_1_2 (t : Fin (cfg9 a).N) : ((cfg9 a).win 1).index t (2 : Fin 3) = 0 := rfl

theorem row9_apply (c : Dev nD) (t : Fin (cfg9 a).N) (h : t.val < 32000) (y : S1x1x128.Idx) (k : S500000x1x128.Idx)
    (hk0 : (k 0).val = ((a.1 0 : S32000.Idx → BitVec 32) (ValueIdx.ix1 ⟨t.val, h⟩)).toNat) (hk1 : (k 1).val = 0)
    (hk2 : (k 2).val = (y 2).val) :
    row9 a A c t y = (A c 0 : S500000x1x128.Idx → EReal) k := by
  have hy0 : (y 0).val = 0 := by have : (y 0).val < 1 := (y 0).isLt; omega
  have hy1 : (y 1).val = 0 := by have : (y 1).val < 1 := (y 1).isLt; omega
  unfold row9
  show (A c 0 : S500000x1x128.Idx → EReal) ((((cfg9 a).win 0).blk t).view.emb y) = (A c 0 : S500000x1x128.Idx → EReal) k
  refine congrArg (A c 0 : S500000x1x128.Idx → EReal) ?_
  funext b
  apply Fin.ext
  match b with
  | ⟨0, _⟩ =>
    show ((cfg9 a).win 0).index t (0 : Fin 3) * 1 + 1 * (y 0).val = (k 0).val
    rw [index9_0_0 a t h, hk0, hy0]; omega
  | ⟨1, _⟩ =>
    show ((cfg9 a).win 0).index t (1 : Fin 3) * 1 + 1 * (y 1).val = (k 1).val
    rw [index9_0_1, hk1, hy1]
  | ⟨2, _⟩ =>
    show ((cfg9 a).win 0).index t (2 : Fin 3) * 128 + 1 * (y 2).val = (k 2).val
    rw [index9_0_2, hk2]; omega

end

section
variable (a : (pcfg9 (F := Ideal)).Adm)
variable (A : (c : Dev nD) → (w : Fin (cfg9 a).W) → Buf (Elt Ideal) (((cfg9 a).win w).arr.view.loc (c.tc : Thread nD τ)))

theorem acc9_congr (c : Dev nD) (n n' : ℕ) (h : n < (cfg9 a).N) (h' : n' < (cfg9 a).N) (e : n = n') :
    acc9 a A c n h = acc9 a A c n' h' := by
  subst e; rfl

theorem acc9_first (c : Dev nD) (n : ℕ) (h : n < (cfg9 a).N) (h0 : n % 25 = 0) :
    acc9 a A c n h = k9_pay2 (k9_pay1 (F := Ideal)) (row9 a A c ⟨n, h⟩) := by
  cases n with
  | zero => rfl
  | succ n =>
    show k9_pay2 (if first9 (grid9.coords ⟨n + 1, h⟩) = 1#1 then k9_pay1 (F := Ideal) else acc9 a A c n (Nat.lt_of_succ_lt h))
      (row9 a A c ⟨n + 1, h⟩) = _
    rw [if_pos ((first9_at ⟨n + 1, h⟩).mpr h0)]

theorem acc9_next (c : Dev nD) (n : ℕ) (h : n + 1 < (cfg9 a).N) (h0 : ¬ (n + 1) % 25 = 0) :
    acc9 a A c (n + 1) h = k9_pay2 (acc9 a A c n (Nat.lt_of_succ_lt h)) (row9 a A c ⟨n + 1, h⟩) := by
  show k9_pay2 (if first9 (grid9.coords ⟨n + 1, h⟩) = 1#1 then k9_pay1 (F := Ideal) else acc9 a A c n (Nat.lt_of_succ_lt h))
    (row9 a A c ⟨n + 1, h⟩) = _
  rw [if_neg (fun e => h0 ((first9_at ⟨n + 1, h⟩).mp e))]

def src9 (c : Dev nD) (n : ℕ) (y : S1x1x128.Idx) : EReal :=
  if h : n < (cfg9 a).N then row9 a A c ⟨n, h⟩ y else 0

theorem src9_of_lt (c : Dev nD) (n : ℕ) (h : n < (cfg9 a).N) (y : S1x1x128.Idx) :
    src9 a A c n y = row9 a A c ⟨n, h⟩ y := dif_pos h

theorem acc9_sum (c : Dev nD) (g : ℕ) (y : S1x1x128.Idx) : ∀ (s : ℕ) (hs : s < 25) (h : 25 * g + s < (cfg9 a).N),
    acc9 a A c (25 * g + s) h y = ∑ k ∈ Finset.range (s + 1), src9 a A c (25 * g + k) y
  | 0, _, h => by
    rw [Finset.sum_range_one, acc9_first a A c (25 * g + 0) h (by omega), apay9, zpay9, zero_add, src9_of_lt a A c _ h]
  | s + 1, hs, h => by
    have ih := acc9_sum c g y s (by omega) (Nat.lt_of_succ_lt h)
    show acc9 a A c ((25 * g + s) + 1) h y = _
    rw [acc9_next a A c (25 * g + s) h (by omega), apay9, ih, Finset.sum_range_succ _ (s + 1), src9_of_lt a A c _ h]
    rfl

end

section
variable (a : (pcfg9 (F := Ideal)).Adm)
variable (A : (c : Dev nD) → (w : Fin (cfg9 a).W) → Buf (Elt Ideal) (((cfg9 a).win w).arr.view.loc (c.tc : Thread nD τ)))
variable (T : S500000x1x128.Idx → EReal) (tb : S32000.Idx → BitVec 32) (hin : ∀ k, (tb k).toNat < 500000)

def mean9 : S1280x1x128.Idx → EReal := fun i =>
  (∑ s : Fin 25, T (ValueIdx.ix3 ⟨(tb (ValueIdx.ix1 ⟨25 * (i 0).val + s.val, by have h0 : (i 0).val < 1280 := (i 0).isLt; have := s.isLt; omega⟩)).toNat, hin _⟩ (0 : Fin 1) (i 2))) * ((1 / 25 : ℝ) : EReal)

theorem flushed9_at (c : Dev nD) (hT : T = A c 0) (htb : tb = a.1 0) (t : Fin (cfg9 a).N) (hl : t.val % 25 = 24)
    (y : S1x1x128.Idx) (i : S1280x1x128.Idx) (hi0 : (i 0).val = t.val / 25) (hi2 : (i 2).val = (y 2).val) :
    k9_pay3 (acc9 a A c t.val t.isLt) y = mean9 T tb hin i := by
  subst hT htb
  have hN : (cfg9 a).N = 32000 := N9_eq a
  have ht : t.val < 32000 := hN ▸ t.isLt
  have hg : 25 * (t.val / 25) + 24 < (cfg9 a).N := lt_of_lt_of_eq (by omega : 25 * (t.val / 25) + 24 < 32000) hN.symm
  rw [mpay9, acc9_congr a A c t.val (25 * (t.val / 25) + 24) t.isLt hg (by omega),
    acc9_sum a A c (t.val / 25) y 24 (by omega) hg]
  unfold mean9
  refine congrArg (· * ((1 / 25 : ℝ) : EReal)) ?_
  show ∑ k ∈ Finset.range 25, src9 a A c (25 * (t.val / 25) + k) y = _
  rw [Finset.sum_range]
  refine Finset.sum_congr rfl fun s _ => ?_
  have hs : s.val < 25 := s.isLt
  have hn' : 25 * (t.val / 25) + s.val < 32000 := by omega
  have hn : 25 * (t.val / 25) + s.val < (cfg9 a).N := lt_of_lt_of_eq hn' hN.symm
  rw [src9_of_lt a A c _ hn]
  refine row9_apply a A c ⟨_, hn⟩ hn' y _ ?_ rfl hi2
  refine congrArg BitVec.toNat (tbl9_congr a _ _ _ _ ?_)
  rw [hi0]

theorem flushed9_eq (c : Dev nD) (hT : T = A c 0) (htb : tb = a.1 0) (t : Fin (cfg9 a).N)
    (hf : ((cfg9 a).win 1).flush t = true) :
    (dat9 a A c).flushed 1 t = (((cfg9 a).win 1).blk t).view.read (Elt Ideal) (mean9 T tb hin) := by
  have hl := flush9_last a t hf
  show ((cfg9 a).win 1).cut (grid9.coords t) ((dat9 a A c).after 1 t) = _
  rw [after9_1]
  refine funext fun (y : S1x1x128.Idx) => ?_
  show k9_pay3 (acc9 a A c t.val t.isLt) y = mean9 T tb hin ((((cfg9 a).win 1).blk t).view.emb y)
  refine flushed9_at a A T tb hin c hT htb t hl y _ ?_ ?_
  · show ((cfg9 a).win 1).index t (0 : Fin 3) * 1 + 1 * (y 0).val = t.val / 25
    have : (y 0).val < 1 := (y 0).isLt
    rw [index9_1_0]; omega
  · show ((cfg9 a).win 1).index t (2 : Fin 3) * 128 + 1 * (y 2).val = (y 2).val
    rw [index9_1_2]; omega

theorem flush9_at_last (g : ℕ) (hg : g < 1280) (h : 25 * g + 24 < (cfg9 a).N) :
    ((cfg9 a).win 1).flush ⟨25 * g + 24, h⟩ = true := by
  unfold Pipeline.Window.flush
  simp only [Bool.and_eq_true, Bool.or_eq_true, decide_eq_true_eq]
  refine ⟨rfl, ?_⟩
  by_cases hlast : g + 1 = 1280
  · left
    show 25 * g + 24 + 1 = grid9.N
    rw [N_9]; omega
  · right
    have h' : 25 * g + 24 + 1 < (cfg9 a).N := lt_of_lt_of_eq (by omega : 25 * g + 24 + 1 < 32000) (N9_eq a).symm
    refine ⟨h', fun e => ?_⟩
    have e0 := congrFun e (0 : Fin 3)
    rw [index9_1_0, index9_1_0] at e0
    dsimp only at e0
    omega

set_option backward.isDefEq.respectTransparency.types false in
theorem mem_blk9 (t : Fin (cfg9 a).N) (i : S1280x1x128.Idx) (h0 : (i 0).val = t.val / 25) :
    i ∈ (((cfg9 a).win 1).blk t).view.set := by
  show i ∈ ((View.whole (Pipeline.arrRef spec9 (1 : Fin 2))).slice (((cfg9 a).win 1).rect t)).set
  rw [View.set_slice_whole]
  refine Rect.mem_set_unit.mpr ?_
  intro b
  have h1 : (i 1).val < 1 := (i 1).isLt
  have h2 : (i 2).val < 128 := (i 2).isLt
  match b with
  | ⟨0, _⟩ =>
    show ((cfg9 a).win 1).index t (0 : Fin 3) * 1 ≤ (i 0).val ∧ (i 0).val < ((cfg9 a).win 1).index t (0 : Fin 3) * 1 + 1
    rw [index9_1_0]; omega
  | ⟨1, _⟩ =>
    show ((cfg9 a).win 1).index t (1 : Fin 3) * 1 ≤ (i 1).val ∧ (i 1).val < ((cfg9 a).win 1).index t (1 : Fin 3) * 1 + 1
    rw [index9_1_1]; omega
  | ⟨2, _⟩ =>
    show ((cfg9 a).win 1).index t (2 : Fin 3) * 128 ≤ (i 2).val ∧ (i 2).val < ((cfg9 a).win 1).index t (2 : Fin 3) * 128 + 128
    rw [index9_1_2]; omega

theorem cover9 (i : S1280x1x128.Idx) :
    ∃ t : Fin (cfg9 a).N, ((cfg9 a).win 1).flush t = true ∧ i ∈ (((cfg9 a).win 1).blk t).view.set := by
  have h0 : (i 0).val < 1280 := (i 0).isLt
  have h : 25 * (i 0).val + 24 < (cfg9 a).N := lt_of_lt_of_eq (by omega : 25 * (i 0).val + 24 < 32000) (N9_eq a).symm
  refine ⟨⟨25 * (i 0).val + 24, h⟩, flush9_at_last a (i 0).val h0 h, mem_blk9 a _ i ?_⟩
  show (i 0).val = (25 * (i 0).val + 24) / 25
  omega

theorem gval9_of (c : Dev nD) (hT : T = A c 0) (htb : tb = a.1 0) :
    (dat9 (F := Ideal) a A c).arrAt 1 (cfg9 a).N = mean9 T tb hin :=
  (dat9 a A c).arrAt_eq_of_cover 1 (mean9 T tb hin) (flushed9_eq a A T tb hin c hT htb) (cover9 a)

end

theorem mean9_apply (T : S500000x1x128.Idx → EReal) (tb : S32000.Idx → BitVec 32) (hin : ∀ k, (tb k).toNat < 500000)
    (i : S1280x1x128.Idx) :
    mean9 T tb hin i = (∑ s : Fin 25, T (ValueIdx.ix3 ⟨(tb (ValueIdx.ix1 ⟨25 * (i 0).val + s.val, by have h0 : (i 0).val < 1280 := (i 0).isLt; have := s.isLt; omega⟩)).toNat, hin _⟩ (0 : Fin 1) (i 2))) * ((1 / 25 : ℝ) : EReal) := rfl

theorem gval9 (a : (pcfg9 (F := Ideal)).Adm)
    (A : (c : Dev nD) → (w : Fin (cfg9 a).W) → Buf (Elt Ideal) (((cfg9 a).win w).arr.view.loc (c.tc : Thread nD τ))) (c : Dev nD)
    (hin : ∀ k, ((a.1 0 : S32000.Idx → BitVec 32) k).toNat < 500000) :
    (dat9 (F := Ideal) a A c).arrAt 1 (cfg9 a).N = mean9 (A c 0) (a.1 0) hin :=
  gval9_of a A (A c 0) (a.1 0) hin c rfl rfl

end Cert.KernelIdeal.Hand

end
-- ==== Proof.GatherValue10.lean ====
import proofs.«401580_j65068754534945_2_alg».proof.Proof.Gather10

/-! The value of a gather-and-mean region over the extended reals: row g of its output is the sum of the 25 feature rows that entries 25 g … 25 g + 24 of the table name, times 1/25 (a sum in a commutative monoid: no finiteness is used). -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

theorem inv10 : Named.named (F := Ideal) κ "inv_25" (φ := .f32) 0x3D23D70A#32 = ((1 / 25 : ℝ) : EReal) :=
  IdealRules.named_const.ideal_named_scalar _ _ _ _ rfl

theorem zpay10 (y : S1x1x128.Idx) : (k10_pay1 (F := Ideal)) y = 0 := by
  unfold k10_pay1
  rw [shapeCast_self]
  exact Ideal.ofBits_zero_f32

theorem apay10 (x v : Vec Ideal S1x1x128 .f32) (y : S1x1x128.Idx) : k10_pay2 x v y = x y + v y := by
  unfold k10_pay2
  rw [shapeCast_self, shapeCast_self]
  rfl

theorem mpay10 (x : Vec Ideal S1x1x128 .f32) (y : S1x1x128.Idx) : k10_pay3 x y = x y * ((1 / 25 : ℝ) : EReal) := by
  unfold k10_pay3
  rw [ValueIdx.mulf_apply, ValueIdx.broadcast_apply, inv10]

section
variable {F : FTy → Type} [FloatOps F] [Named F]

theorem tr10_1_0 (i : grid10.Coords) : cc10_transform_1 i 0 = (i 0).val := by
  have h : (i 0).val < 1280 := (i 0).isLt
  show (BitVec.ofNat 32 (i 0).val).toNat = (i 0).val
  rw [BitVec.toNat_ofNat]
  exact Nat.mod_eq_of_lt (by omega)
theorem tr10_1_1 (i : grid10.Coords) : cc10_transform_1 i 1 = 0 := rfl
theorem tr10_1_2 (i : grid10.Coords) : cc10_transform_1 i 2 = 0 := rfl

theorem tr10_0_0 (pf : pre10.Contents (Elt F)) (i : grid10.Coords) (h : 25 * (i 0).val + (i 1).val < 32000) :
    cc10_transform_0 k10_off1_inb numel1_S1 pf i 0
      = ((pf 0 : S32000.Idx → BitVec 32) (ValueIdx.ix1 ⟨25 * (i 0).val + (i 1).val, h⟩)).toNat := by
  show ((pf 0 : S32000.Idx → BitVec 32) ((Rect.unit (s := S32000) (k10_off1 i) S1.size (k10_off1_inb i)).emb (Shape.Idx.first _))).toNat = _
  refine congrArg (fun k => ((pf 0 : S32000.Idx → BitVec 32) k).toNat) ?_
  funext d
  match d with
  | ⟨0, _⟩ =>
    apply Fin.ext
    show (k10_off1 i) 0 + 1 * 0 = 25 * (i 0).val + (i 1).val
    have e := congrFun (k10_off1_eq i) 0
    simp only [Matrix.cons_val_zero] at e
    omega
theorem tr10_0_1 (pf : pre10.Contents (Elt F)) (i : grid10.Coords) : cc10_transform_0 k10_off1_inb numel1_S1 pf i 1 = 0 := rfl
theorem tr10_0_2 (pf : pre10.Contents (Elt F)) (i : grid10.Coords) : cc10_transform_0 k10_off1_inb numel1_S1 pf i 2 = 0 := rfl

end

section
variable (a : (pcfg10 (F := Ideal)).Adm)
variable (A : (c : Dev nD) → (w : Fin (cfg10 a).W) → Buf (Elt Ideal) (((cfg10 a).win w).arr.view.loc (c.tc : Thread nD τ)))

theorem N10_eq : (cfg10 a).N = 32000 := N_10

theorem tbl10_congr (n n' : ℕ) (h : n < 32000) (h' : n' < 32000) (e : n = n') :
    (a.1 0 : S32000.Idx → BitVec 32) (ValueIdx.ix1 ⟨n, h⟩) = (a.1 0 : S32000.Idx → BitVec 32) (ValueIdx.ix1 ⟨n', h'⟩) := by
  subst e; rfl

theorem index10_0_0 (t : Fin (cfg10 a).N) (h : t.val < 32000) :
    ((cfg10 a).win 0).index t (0 : Fin 3) = ((a.1 0 : S32000.Idx → BitVec 32) (ValueIdx.ix1 ⟨t.val, h⟩)).toNat := by
  have h0 := coords10_0 t
  have h1 := coords10_1 t
  have hh : 25 * (grid10.coords t 0).val + (grid10.coords t 1).val < 32000 := by rw [h0, h1]; omega
  show cc10_transform_0 k10_off1_inb numel1_S1 a.1 (grid10.coords t) 0 = _
  rw [tr10_0_0 a.1 (grid10.coords t) hh]
  refine congrArg BitVec.toNat (tbl10_congr a _ _ hh h ?_)
  rw [h0, h1]; omega
theorem index10_0_1 (t : Fin (cfg10 a).N) : ((cfg10 a).win 0).index t (1 : Fin 3) = 0 := rfl
theorem index10_0_2 (t : Fin (cfg10 a).N) : ((cfg10 a).win 0).index t (2 : Fin 3) = 0 := rfl

theorem index10_1_0 (t : Fin (cfg10 a).N) : ((cfg10 a).win 1).index t (0 : Fin 3) = t.val / 25 := by
  have h0 := coords10_0 t
  have hN : t.val < 32000 := (N10_eq a) ▸ t.isLt
  show cc10_transform_1 (grid10.coords t) 0 = _
  rw [tr10_1_0, h0]; omega
theorem index10_1_1 (t : Fin (cfg10 a).N) : ((cfg10 a).win 1).index t (1 : Fin 3) = 0 := rfl
theorem index10_1_2 (t : Fin (cfg10 a).N) : ((cfg10 a).win 1).index t (2 : Fin 3) = 0 := rfl

theorem row10_apply (c : Dev nD) (t : Fin (cfg10 a).N) (h : t.val < 32000) (y : S1x1x128.Idx) (k : S500000x1x128.Idx)
    (hk0 : (k 0).val = ((a.1 0 : S32000.Idx → BitVec 32) (ValueIdx.ix1 ⟨t.val, h⟩)).toNat) (hk1 : (k 1).val = 0)
    (hk2 : (k 2).val = (y 2).val) :
    row10 a A c t y = (A c 0 : S500000x1x128.Idx → EReal) k := by
  have hy0 : (y 0).val = 0 := by have : (y 0).val < 1 := (y 0).isLt; omega
  have hy1 : (y 1).val = 0 := by have : (y 1).val < 1 := (y 1).isLt; omega
  unfold row10
  show (A c 0 : S500000x1x128.Idx → EReal) ((((cfg10 a).win 0).blk t).view.emb y) = (A c 0 : S500000x1x128.Idx → EReal) k
  refine congrArg (A c 0 : S500000x1x128.Idx → EReal) ?_
  funext b
  apply Fin.ext
  match b with
  | ⟨0, _⟩ =>
    show ((cfg10 a).win 0).index t (0 : Fin 3) * 1 + 1 * (y 0).val = (k 0).val
    rw [index10_0_0 a t h, hk0, hy0]; omega
  | ⟨1, _⟩ =>
    show ((cfg10 a).win 0).index t (1 : Fin 3) * 1 + 1 * (y 1).val = (k 1).val
    rw [index10_0_1, hk1, hy1]
  | ⟨2, _⟩ =>
    show ((cfg10 a).win 0).index t (2 : Fin 3) * 128 + 1 * (y 2).val = (k 2).val
    rw [index10_0_2, hk2]; omega

end

section
variable (a : (pcfg10 (F := Ideal)).Adm)
variable (A : (c : Dev nD) → (w : Fin (cfg10 a).W) → Buf (Elt Ideal) (((cfg10 a).win w).arr.view.loc (c.tc : Thread nD τ)))

theorem acc10_congr (c : Dev nD) (n n' : ℕ) (h : n < (cfg10 a).N) (h' : n' < (cfg10 a).N) (e : n = n') :
    acc10 a A c n h = acc10 a A c n' h' := by
  subst e; rfl

theorem acc10_first (c : Dev nD) (n : ℕ) (h : n < (cfg10 a).N) (h0 : n % 25 = 0) :
    acc10 a A c n h = k10_pay2 (k10_pay1 (F := Ideal)) (row10 a A c ⟨n, h⟩) := by
  cases n with
  | zero => rfl
  | succ n =>
    show k10_pay2 (if first10 (grid10.coords ⟨n + 1, h⟩) = 1#1 then k10_pay1 (F := Ideal) else acc10 a A c n (Nat.lt_of_succ_lt h))
      (row10 a A c ⟨n + 1, h⟩) = _
    rw [if_pos ((first10_at ⟨n + 1, h⟩).mpr h0)]

theorem acc10_next (c : Dev nD) (n : ℕ) (h : n + 1 < (cfg10 a).N) (h0 : ¬ (n + 1) % 25 = 0) :
    acc10 a A c (n + 1) h = k10_pay2 (acc10 a A c n (Nat.lt_of_succ_lt h)) (row10 a A c ⟨n + 1, h⟩) := by
  show k10_pay2 (if first10 (grid10.coords ⟨n + 1, h⟩) = 1#1 then k10_pay1 (F := Ideal) else acc10 a A c n (Nat.lt_of_succ_lt h))
    (row10 a A c ⟨n + 1, h⟩) = _
  rw [if_neg (fun e => h0 ((first10_at ⟨n + 1, h⟩).mp e))]

def src10 (c : Dev nD) (n : ℕ) (y : S1x1x128.Idx) : EReal :=
  if h : n < (cfg10 a).N then row10 a A c ⟨n, h⟩ y else 0

theorem src10_of_lt (c : Dev nD) (n : ℕ) (h : n < (cfg10 a).N) (y : S1x1x128.Idx) :
    src10 a A c n y = row10 a A c ⟨n, h⟩ y := dif_pos h

theorem acc10_sum (c : Dev nD) (g : ℕ) (y : S1x1x128.Idx) : ∀ (s : ℕ) (hs : s < 25) (h : 25 * g + s < (cfg10 a).N),
    acc10 a A c (25 * g + s) h y = ∑ k ∈ Finset.range (s + 1), src10 a A c (25 * g + k) y
  | 0, _, h => by
    rw [Finset.sum_range_one, acc10_first a A c (25 * g + 0) h (by omega), apay10, zpay10, zero_add, src10_of_lt a A c _ h]
  | s + 1, hs, h => by
    have ih := acc10_sum c g y s (by omega) (Nat.lt_of_succ_lt h)
    show acc10 a A c ((25 * g + s) + 1) h y = _
    rw [acc10_next a A c (25 * g + s) h (by omega), apay10, ih, Finset.sum_range_succ _ (s + 1), src10_of_lt a A c _ h]
    rfl

end

section
variable (a : (pcfg10 (F := Ideal)).Adm)
variable (A : (c : Dev nD) → (w : Fin (cfg10 a).W) → Buf (Elt Ideal) (((cfg10 a).win w).arr.view.loc (c.tc : Thread nD τ)))
variable (T : S500000x1x128.Idx → EReal) (tb : S32000.Idx → BitVec 32) (hin : ∀ k, (tb k).toNat < 500000)

def mean10 : S1280x1x128.Idx → EReal := fun i =>
  (∑ s : Fin 25, T (ValueIdx.ix3 ⟨(tb (ValueIdx.ix1 ⟨25 * (i 0).val + s.val, by have h0 : (i 0).val < 1280 := (i 0).isLt; have := s.isLt; omega⟩)).toNat, hin _⟩ (0 : Fin 1) (i 2))) * ((1 / 25 : ℝ) : EReal)

theorem flushed10_at (c : Dev nD) (hT : T = A c 0) (htb : tb = a.1 0) (t : Fin (cfg10 a).N) (hl : t.val % 25 = 24)
    (y : S1x1x128.Idx) (i : S1280x1x128.Idx) (hi0 : (i 0).val = t.val / 25) (hi2 : (i 2).val = (y 2).val) :
    k10_pay3 (acc10 a A c t.val t.isLt) y = mean10 T tb hin i := by
  subst hT htb
  have hN : (cfg10 a).N = 32000 := N10_eq a
  have ht : t.val < 32000 := hN ▸ t.isLt
  have hg : 25 * (t.val / 25) + 24 < (cfg10 a).N := lt_of_lt_of_eq (by omega : 25 * (t.val / 25) + 24 < 32000) hN.symm
  rw [mpay10, acc10_congr a A c t.val (25 * (t.val / 25) + 24) t.isLt hg (by omega),
    acc10_sum a A c (t.val / 25) y 24 (by omega) hg]
  unfold mean10
  refine congrArg (· * ((1 / 25 : ℝ) : EReal)) ?_
  show ∑ k ∈ Finset.range 25, src10 a A c (25 * (t.val / 25) + k) y = _
  rw [Finset.sum_range]
  refine Finset.sum_congr rfl fun s _ => ?_
  have hs : s.val < 25 := s.isLt
  have hn' : 25 * (t.val / 25) + s.val < 32000 := by omega
  have hn : 25 * (t.val / 25) + s.val < (cfg10 a).N := lt_of_lt_of_eq hn' hN.symm
  rw [src10_of_lt a A c _ hn]
  refine row10_apply a A c ⟨_, hn⟩ hn' y _ ?_ rfl hi2
  refine congrArg BitVec.toNat (tbl10_congr a _ _ _ _ ?_)
  rw [hi0]

theorem flushed10_eq (c : Dev nD) (hT : T = A c 0) (htb : tb = a.1 0) (t : Fin (cfg10 a).N)
    (hf : ((cfg10 a).win 1).flush t = true) :
    (dat10 a A c).flushed 1 t = (((cfg10 a).win 1).blk t).view.read (Elt Ideal) (mean10 T tb hin) := by
  have hl := flush10_last a t hf
  show ((cfg10 a).win 1).cut (grid10.coords t) ((dat10 a A c).after 1 t) = _
  rw [after10_1]
  refine funext fun (y : S1x1x128.Idx) => ?_
  show k10_pay3 (acc10 a A c t.val t.isLt) y = mean10 T tb hin ((((cfg10 a).win 1).blk t).view.emb y)
  refine flushed10_at a A T tb hin c hT htb t hl y _ ?_ ?_
  · show ((cfg10 a).win 1).index t (0 : Fin 3) * 1 + 1 * (y 0).val = t.val / 25
    have : (y 0).val < 1 := (y 0).isLt
    rw [index10_1_0]; omega
  · show ((cfg10 a).win 1).index t (2 : Fin 3) * 128 + 1 * (y 2).val = (y 2).val
    rw [index10_1_2]; omega

theorem flush10_at_last (g : ℕ) (hg : g < 1280) (h : 25 * g + 24 < (cfg10 a).N) :
    ((cfg10 a).win 1).flush ⟨25 * g + 24, h⟩ = true := by
  unfold Pipeline.Window.flush
  simp only [Bool.and_eq_true, Bool.or_eq_true, decide_eq_true_eq]
  refine ⟨rfl, ?_⟩
  by_cases hlast : g + 1 = 1280
  · left
    show 25 * g + 24 + 1 = grid10.N
    rw [N_10]; omega
  · right
    have h' : 25 * g + 24 + 1 < (cfg10 a).N := lt_of_lt_of_eq (by omega : 25 * g + 24 + 1 < 32000) (N10_eq a).symm
    refine ⟨h', fun e => ?_⟩
    have e0 := congrFun e (0 : Fin 3)
    rw [index10_1_0, index10_1_0] at e0
    dsimp only at e0
    omega

set_option backward.isDefEq.respectTransparency.types false in
theorem mem_blk10 (t : Fin (cfg10 a).N) (i : S1280x1x128.Idx) (h0 : (i 0).val = t.val / 25) :
    i ∈ (((cfg10 a).win 1).blk t).view.set := by
  show i ∈ ((View.whole (Pipeline.arrRef spec10 (1 : Fin 2))).slice (((cfg10 a).win 1).rect t)).set
  rw [View.set_slice_whole]
  refine Rect.mem_set_unit.mpr ?_
  intro b
  have h1 : (i 1).val < 1 := (i 1).isLt
  have h2 : (i 2).val < 128 := (i 2).isLt
  match b with
  | ⟨0, _⟩ =>
    show ((cfg10 a).win 1).index t (0 : Fin 3) * 1 ≤ (i 0).val ∧ (i 0).val < ((cfg10 a).win 1).index t (0 : Fin 3) * 1 + 1
    rw [index10_1_0]; omega
  | ⟨1, _⟩ =>
    show ((cfg10 a).win 1).index t (1 : Fin 3) * 1 ≤ (i 1).val ∧ (i 1).val < ((cfg10 a).win 1).index t (1 : Fin 3) * 1 + 1
    rw [index10_1_1]; omega
  | ⟨2, _⟩ =>
    show ((cfg10 a).win 1).index t (2 : Fin 3) * 128 ≤ (i 2).val ∧ (i 2).val < ((cfg10 a).win 1).index t (2 : Fin 3) * 128 + 128
    rw [index10_1_2]; omega

theorem cover10 (i : S1280x1x128.Idx) :
    ∃ t : Fin (cfg10 a).N, ((cfg10 a).win 1).flush t = true ∧ i ∈ (((cfg10 a).win 1).blk t).view.set := by
  have h0 : (i 0).val < 1280 := (i 0).isLt
  have h : 25 * (i 0).val + 24 < (cfg10 a).N := lt_of_lt_of_eq (by omega : 25 * (i 0).val + 24 < 32000) (N10_eq a).symm
  refine ⟨⟨25 * (i 0).val + 24, h⟩, flush10_at_last a (i 0).val h0 h, mem_blk10 a _ i ?_⟩
  show (i 0).val = (25 * (i 0).val + 24) / 25
  omega

theorem gval10_of (c : Dev nD) (hT : T = A c 0) (htb : tb = a.1 0) :
    (dat10 (F := Ideal) a A c).arrAt 1 (cfg10 a).N = mean10 T tb hin :=
  (dat10 a A c).arrAt_eq_of_cover 1 (mean10 T tb hin) (flushed10_eq a A T tb hin c hT htb) (cover10 a)

end

theorem mean10_apply (T : S500000x1x128.Idx → EReal) (tb : S32000.Idx → BitVec 32) (hin : ∀ k, (tb k).toNat < 500000)
    (i : S1280x1x128.Idx) :
    mean10 T tb hin i = (∑ s : Fin 25, T (ValueIdx.ix3 ⟨(tb (ValueIdx.ix1 ⟨25 * (i 0).val + s.val, by have h0 : (i 0).val < 1280 := (i 0).isLt; have := s.isLt; omega⟩)).toNat, hin _⟩ (0 : Fin 1) (i 2))) * ((1 / 25 : ℝ) : EReal) := rfl

theorem gval10 (a : (pcfg10 (F := Ideal)).Adm)
    (A : (c : Dev nD) → (w : Fin (cfg10 a).W) → Buf (Elt Ideal) (((cfg10 a).win w).arr.view.loc (c.tc : Thread nD τ))) (c : Dev nD)
    (hin : ∀ k, ((a.1 0 : S32000.Idx → BitVec 32) k).toNat < 500000) :
    (dat10 (F := Ideal) a A c).arrAt 1 (cfg10 a).N = mean10 (A c 0) (a.1 0) hin :=
  gval10_of a A (A c 0) (a.1 0) hin c rfl rfl

end Cert.KernelIdeal.Hand

end
-- ==== Proof.KvGather.lean ====
import proofs.«401580_j65068754534945_2_alg».proof.Proof.RunDefs
import proofs.«401580_j65068754534945_2_alg».proof.Proof.IdxKernel
import proofs.«401580_j65068754534945_2_alg».proof.Proof.KvMid
import proofs.«401580_j65068754534945_2_alg».proof.Proof.GatherValue0
import proofs.«401580_j65068754534945_2_alg».proof.Proof.GatherValue1
import proofs.«401580_j65068754534945_2_alg».proof.Proof.GatherValue2
import proofs.«401580_j65068754534945_2_alg».proof.Proof.GatherValue3
import proofs.«401580_j65068754534945_2_alg».proof.Proof.GatherValue4
import proofs.«401580_j65068754534945_2_alg».proof.Proof.GatherValue5
import proofs.«401580_j65068754534945_2_alg».proof.Proof.GatherValue6
import proofs.«401580_j65068754534945_2_alg».proof.Proof.GatherValue7
import proofs.«401580_j65068754534945_2_alg».proof.Proof.GatherValue8
import proofs.«401580_j65068754534945_2_alg».proof.Proof.GatherValue9
import proofs.«401580_j65068754534945_2_alg».proof.Proof.GatherValue10

/-! The gather regions' outputs are the specification's gathers and group means of the launch memory's feature table along the two neighbour lists. -/

noncomputable section

open scoped BigOperators

namespace Cert.KernelIdeal.Hand

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen
open Cert.Hand

variable (m : (ℓ : Loc nD τ sig) → Buf (Elt Ideal) ℓ) (hR : InRange m)

theorem kvOutsG_at0 (c : Dev nD) : outsG m hR 6 main_v21 c = o0 m hR c := by
  show Function.update (fun r' => m ((c : Thread nD τ).loc r')) main_v21 (o0 m hR c) main_v21 = _
  exact Function.update_self _ _ _
theorem kvOutsG_at1 (c : Dev nD) : outsG m hR 8 main_v26 c = o1 m hR c := by
  show Function.update (fun r' => m ((c : Thread nD τ).loc r')) main_v26 (o1 m hR c) main_v26 = _
  exact Function.update_self _ _ _
theorem kvOutsG_at2 (c : Dev nD) : outsG m hR 10 main_v31 c = o2 m hR c := by
  show Function.update (fun r' => m ((c : Thread nD τ).loc r')) main_v31 (o2 m hR c) main_v31 = _
  exact Function.update_self _ _ _
theorem kvOutsG_at3 (c : Dev nD) : outsG m hR 12 main_v37 c = o3 m hR c := by
  show Function.update (fun r' => m ((c : Thread nD τ).loc r')) main_v37 (o3 m hR c) main_v37 = _
  exact Function.update_self _ _ _
theorem kvOutsG_at4 (c : Dev nD) : outsG m hR 14 main_v41 c = o4 m hR c := by
  show Function.update (fun r' => m ((c : Thread nD τ).loc r')) main_v41 (o4 m hR c) main_v41 = _
  exact Function.update_self _ _ _
theorem kvOutsG_at5 (c : Dev nD) : outsG m hR 16 main_v45 c = o5 m hR c := by
  show Function.update (fun r' => m ((c : Thread nD τ).loc r')) main_v45 (o5 m hR c) main_v45 = _
  exact Function.update_self _ _ _
theorem kvOutsG_at6 (c : Dev nD) : outsG m hR 18 main_v49 c = o6 m hR c := by
  show Function.update (fun r' => m ((c : Thread nD τ).loc r')) main_v49 (o6 m hR c) main_v49 = _
  exact Function.update_self _ _ _
theorem kvOutsG_at7 (c : Dev nD) : outsG m hR 20 main_v53 c = o7 m hR c := by
  show Function.update (fun r' => m ((c : Thread nD τ).loc r')) main_v53 (o7 m hR c) main_v53 = _
  exact Function.update_self _ _ _
theorem kvOutsG_at8 (c : Dev nD) : outsG m hR 22 main_v57 c = o8 m hR c := by
  show Function.update (fun r' => m ((c : Thread nD τ).loc r')) main_v57 (o8 m hR c) main_v57 = _
  exact Function.update_self _ _ _
theorem kvOutsG_at9 (c : Dev nD) : outsG m hR 24 main_v61 c = o9 m hR c := by
  show Function.update (fun r' => m ((c : Thread nD τ).loc r')) main_v61 (o9 m hR c) main_v61 = _
  exact Function.update_self _ _ _
theorem kvOutsG_at10 (c : Dev nD) : outsG m hR 26 main_v65 c = o10 m hR c := by
  show Function.update (fun r' => m ((c : Thread nD τ).loc r')) main_v65 (o10 m hR c) main_v65 = _
  exact Function.update_self _ _ _
theorem kvOutsM_at11 (c : Dev nD) : outsM m hR 28 main_v68 c = o11 m hR c := by
  show Function.update (fun r' => m ((c : Thread nD τ).loc r')) main_v68 (o11 m hR c) main_v68 = _
  exact Function.update_self _ _ _
theorem kvOutsM_at12 (c : Dev nD) : outsM m hR 29 main_v69 c = o12 m hR c := by
  show Function.update (fun r' => m ((c : Thread nD τ).loc r')) main_v69 (o12 m hR c) main_v69 = _
  exact Function.update_self _ _ _

include hR in
theorem kvS1_lt (c : Dev nD) (k : S10240.Idx) : ((Spec.s1 (ArgAdj m c) (ArgBn m c) (ArgC1 m c)) k).toNat < 500000 := by
  rw [← X8_eq]; exact X8_lt m hR.h1 hR.h3 c k

include hR in
theorem kvS2_lt (c : Dev nD) (k : S256000.Idx) : ((Spec.s2 (ArgAdj m c) (ArgBn m c) (ArgC1 m c) (ArgC2 m c)) k).toNat < 500000 := by
  rw [← X17_eq, show X17 m c = shapeCast S256000 (X33 m c) shapeCasts_S10240x25_S256000 from (shapeCast_shapeCast _ _ _).symm]
  exact shapeCast_lt _ _ (X33_lt m hR.h1 hR.h4 c) k

abbrev kvRect (c : Dev nD) : IVec S10240x25 32 := shapeCast S10240x25 (Spec.s2 (ArgAdj m c) (ArgBn m c) (ArgC1 m c) (ArgC2 m c)) shapeCasts_S256000_S10240x25

theorem kvRect_eq (c : Dev nD) : X33 m c = kvRect m c := by
  show shapeCast S10240x25 (X17 m c) shapeCasts_S256000_S10240x25 = _
  rw [X17_eq]

def kvTb3 (c : Dev nD) : IVec S32000 32 :=
  shapeCast S32000 (extractStridedSlice S1280x25 ![0, 0] (kvRect m c) slices_S10240x25_S1280x25_0_0) shapeCasts_S1280x25_S32000
include hR in
theorem kvTb3_lt (c : Dev nD) (j : S32000.Idx) : (kvTb3 m c j).toNat < 500000 :=
  shapeCast_lt _ _ (slice_lt _ _ _ (shapeCast_lt _ _ (kvS2_lt m hR c))) j
theorem kvTb3_eq (outs : Outs (F := Ideal)) (c : Dev nD) : (V11 m outs c main_v36 : S32000.Idx → BitVec 32) = kvTb3 m c := by
  rw [tbl3_eq, kvRect_eq]; rfl
theorem kvAdmTb3 : ((adm m hR 3).1 0 : S32000.Idx → BitVec 32) = kvTb3 m 0 :=
  (congrFun (adm_tbl3 m hR) 0).trans
    ((rfl : (tb3 m 0 : S32000.Idx → BitVec 32) = V11 m (outsZ m) 0 main_v36).trans (kvTb3_eq m (outsZ m) 0))

theorem kvP3 (c : Dev nD) : (o3 m hR c : (⟨S1280x1x128, .f32⟩ : BufTy).Contents (Elt Ideal)) = mean3 (XF m c) (kvTb3 m c) (kvTb3_lt m hR c) := by
  obtain rfl : c = 0 := Subsingleton.elim _ _
  exact gval3_of (adm m hR 3) (A3 m hR) (XF m 0) (kvTb3 m 0) (kvTb3_lt m hR 0) 0
    (arr3_in_eq m (outsZ m) 0).symm (kvAdmTb3 m hR).symm

def kvTb4 (c : Dev nD) : IVec S32000 32 :=
  shapeCast S32000 (extractStridedSlice S1280x25 ![1280, 0] (kvRect m c) slices_S10240x25_S1280x25_1280_0) shapeCasts_S1280x25_S32000
include hR in
theorem kvTb4_lt (c : Dev nD) (j : S32000.Idx) : (kvTb4 m c j).toNat < 500000 :=
  shapeCast_lt _ _ (slice_lt _ _ _ (shapeCast_lt _ _ (kvS2_lt m hR c))) j
theorem kvTb4_eq (outs : Outs (F := Ideal)) (c : Dev nD) : (V13 m outs c main_v40 : S32000.Idx → BitVec 32) = kvTb4 m c := by
  rw [tbl4_eq, kvRect_eq]; rfl
theorem kvAdmTb4 : ((adm m hR 4).1 0 : S32000.Idx → BitVec 32) = kvTb4 m 0 :=
  (congrFun (adm_tbl4 m hR) 0).trans
    ((rfl : (tb4 m 0 : S32000.Idx → BitVec 32) = V13 m (outsZ m) 0 main_v40).trans (kvTb4_eq m (outsZ m) 0))

theorem kvP4 (c : Dev nD) : (o4 m hR c : (⟨S1280x1x128, .f32⟩ : BufTy).Contents (Elt Ideal)) = mean4 (XF m c) (kvTb4 m c) (kvTb4_lt m hR c) := by
  obtain rfl : c = 0 := Subsingleton.elim _ _
  exact gval4_of (adm m hR 4) (A4 m hR) (XF m 0) (kvTb4 m 0) (kvTb4_lt m hR 0) 0
    (arr4_in_eq m (outsZ m) 0).symm (kvAdmTb4 m hR).symm

def kvTb5 (c : Dev nD) : IVec S32000 32 :=
  shapeCast S32000 (extractStridedSlice S1280x25 ![2560, 0] (kvRect m c) slices_S10240x25_S1280x25_2560_0) shapeCasts_S1280x25_S32000
include hR in
theorem kvTb5_lt (c : Dev nD) (j : S32000.Idx) : (kvTb5 m c j).toNat < 500000 :=
  shapeCast_lt _ _ (slice_lt _ _ _ (shapeCast_lt _ _ (kvS2_lt m hR c))) j
theorem kvTb5_eq (outs : Outs (F := Ideal)) (c : Dev nD) : (V15 m outs c main_v44 : S32000.Idx → BitVec 32) = kvTb5 m c := by
  rw [tbl5_eq, kvRect_eq]; rfl
theorem kvAdmTb5 : ((adm m hR 5).1 0 : S32000.Idx → BitVec 32) = kvTb5 m 0 :=
  (congrFun (adm_tbl5 m hR) 0).trans
    ((rfl : (tb5 m 0 : S32000.Idx → BitVec 32) = V15 m (outsZ m) 0 main_v44).trans (kvTb5_eq m (outsZ m) 0))

theorem kvP5 (c : Dev nD) : (o5 m hR c : (⟨S1280x1x128, .f32⟩ : BufTy).Contents (Elt Ideal)) = mean5 (XF m c) (kvTb5 m c) (kvTb5_lt m hR c) := by
  obtain rfl : c = 0 := Subsingleton.elim _ _
  exact gval5_of (adm m hR 5) (A5 m hR) (XF m 0) (kvTb5 m 0) (kvTb5_lt m hR 0) 0
    (arr5_in_eq m (outsZ m) 0).symm (kvAdmTb5 m hR).symm

def kvTb6 (c : Dev nD) : IVec S32000 32 :=
  shapeCast S32000 (extractStridedSlice S1280x25 ![3840, 0] (kvRect m c) slices_S10240x25_S1280x25_3840_0) shapeCasts_S1280x25_S32000
include hR in
theorem kvTb6_lt (c : Dev nD) (j : S32000.Idx) : (kvTb6 m c j).toNat < 500000 :=
  shapeCast_lt _ _ (slice_lt _ _ _ (shapeCast_lt _ _ (kvS2_lt m hR c))) j
theorem kvTb6_eq (outs : Outs (F := Ideal)) (c : Dev nD) : (V17 m outs c main_v48 : S32000.Idx → BitVec 32) = kvTb6 m c := by
  rw [tbl6_eq, kvRect_eq]; rfl
theorem kvAdmTb6 : ((adm m hR 6).1 0 : S32000.Idx → BitVec 32) = kvTb6 m 0 :=
  (congrFun (adm_tbl6 m hR) 0).trans
    ((rfl : (tb6 m 0 : S32000.Idx → BitVec 32) = V17 m (outsZ m) 0 main_v48).trans (kvTb6_eq m (outsZ m) 0))

theorem kvP6 (c : Dev nD) : (o6 m hR c : (⟨S1280x1x128, .f32⟩ : BufTy).Contents (Elt Ideal)) = mean6 (XF m c) (kvTb6 m c) (kvTb6_lt m hR c) := by
  obtain rfl : c = 0 := Subsingleton.elim _ _
  exact gval6_of (adm m hR 6) (A6 m hR) (XF m 0) (kvTb6 m 0) (kvTb6_lt m hR 0) 0
    (arr6_in_eq m (outsZ m) 0).symm (kvAdmTb6 m hR).symm

def kvTb7 (c : Dev nD) : IVec S32000 32 :=
  shapeCast S32000 (extractStridedSlice S1280x25 ![5120, 0] (kvRect m c) slices_S10240x25_S1280x25_5120_0) shapeCasts_S1280x25_S32000
include hR in
theorem kvTb7_lt (c : Dev nD) (j : S32000.Idx) : (kvTb7 m c j).toNat < 500000 :=
  shapeCast_lt _ _ (slice_lt _ _ _ (shapeCast_lt _ _ (kvS2_lt m hR c))) j
theorem kvTb7_eq (outs : Outs (F := Ideal)) (c : Dev nD) : (V19 m outs c main_v52 : S32000.Idx → BitVec 32) = kvTb7 m c := by
  rw [tbl7_eq, kvRect_eq]; rfl
theorem kvAdmTb7 : ((adm m hR 7).1 0 : S32000.Idx → BitVec 32) = kvTb7 m 0 :=
  (congrFun (adm_tbl7 m hR) 0).trans
    ((rfl : (tb7 m 0 : S32000.Idx → BitVec 32) = V19 m (outsZ m) 0 main_v52).trans (kvTb7_eq m (outsZ m) 0))

theorem kvP7 (c : Dev nD) : (o7 m hR c : (⟨S1280x1x128, .f32⟩ : BufTy).Contents (Elt Ideal)) = mean7 (XF m c) (kvTb7 m c) (kvTb7_lt m hR c) := by
  obtain rfl : c = 0 := Subsingleton.elim _ _
  exact gval7_of (adm m hR 7) (A7 m hR) (XF m 0) (kvTb7 m 0) (kvTb7_lt m hR 0) 0
    (arr7_in_eq m (outsZ m) 0).symm (kvAdmTb7 m hR).symm

def kvTb8 (c : Dev nD) : IVec S32000 32 :=
  shapeCast S32000 (extractStridedSlice S1280x25 ![6400, 0] (kvRect m c) slices_S10240x25_S1280x25_6400_0) shapeCasts_S1280x25_S32000
include hR in
theorem kvTb8_lt (c : Dev nD) (j : S32000.Idx) : (kvTb8 m c j).toNat < 500000 :=
  shapeCast_lt _ _ (slice_lt _ _ _ (shapeCast_lt _ _ (kvS2_lt m hR c))) j
theorem kvTb8_eq (outs : Outs (F := Ideal)) (c : Dev nD) : (V21 m outs c main_v56 : S32000.Idx → BitVec 32) = kvTb8 m c := by
  rw [tbl8_eq, kvRect_eq]; rfl
theorem kvAdmTb8 : ((adm m hR 8).1 0 : S32000.Idx → BitVec 32) = kvTb8 m 0 :=
  (congrFun (adm_tbl8 m hR) 0).trans
    ((rfl : (tb8 m 0 : S32000.Idx → BitVec 32) = V21 m (outsZ m) 0 main_v56).trans (kvTb8_eq m (outsZ m) 0))

theorem kvP8 (c : Dev nD) : (o8 m hR c : (⟨S1280x1x128, .f32⟩ : BufTy).Contents (Elt Ideal)) = mean8 (XF m c) (kvTb8 m c) (kvTb8_lt m hR c) := by
  obtain rfl : c = 0 := Subsingleton.elim _ _
  exact gval8_of (adm m hR 8) (A8 m hR) (XF m 0) (kvTb8 m 0) (kvTb8_lt m hR 0) 0
    (arr8_in_eq m (outsZ m) 0).symm (kvAdmTb8 m hR).symm

def kvTb9 (c : Dev nD) : IVec S32000 32 :=
  shapeCast S32000 (extractStridedSlice S1280x25 ![7680, 0] (kvRect m c) slices_S10240x25_S1280x25_7680_0) shapeCasts_S1280x25_S32000
include hR in
theorem kvTb9_lt (c : Dev nD) (j : S32000.Idx) : (kvTb9 m c j).toNat < 500000 :=
  shapeCast_lt _ _ (slice_lt _ _ _ (shapeCast_lt _ _ (kvS2_lt m hR c))) j
theorem kvTb9_eq (outs : Outs (F := Ideal)) (c : Dev nD) : (V23 m outs c main_v60 : S32000.Idx → BitVec 32) = kvTb9 m c := by
  rw [tbl9_eq, kvRect_eq]; rfl
theorem kvAdmTb9 : ((adm m hR 9).1 0 : S32000.Idx → BitVec 32) = kvTb9 m 0 :=
  (congrFun (adm_tbl9 m hR) 0).trans
    ((rfl : (tb9 m 0 : S32000.Idx → BitVec 32) = V23 m (outsZ m) 0 main_v60).trans (kvTb9_eq m (outsZ m) 0))

theorem kvP9 (c : Dev nD) : (o9 m hR c : (⟨S1280x1x128, .f32⟩ : BufTy).Contents (Elt Ideal)) = mean9 (XF m c) (kvTb9 m c) (kvTb9_lt m hR c) := by
  obtain rfl : c = 0 := Subsingleton.elim _ _
  exact gval9_of (adm m hR 9) (A9 m hR) (XF m 0) (kvTb9 m 0) (kvTb9_lt m hR 0) 0
    (arr9_in_eq m (outsZ m) 0).symm (kvAdmTb9 m hR).symm

def kvTb10 (c : Dev nD) : IVec S32000 32 :=
  shapeCast S32000 (extractStridedSlice S1280x25 ![8960, 0] (kvRect m c) slices_S10240x25_S1280x25_8960_0) shapeCasts_S1280x25_S32000
include hR in
theorem kvTb10_lt (c : Dev nD) (j : S32000.Idx) : (kvTb10 m c j).toNat < 500000 :=
  shapeCast_lt _ _ (slice_lt _ _ _ (shapeCast_lt _ _ (kvS2_lt m hR c))) j
theorem kvTb10_eq (outs : Outs (F := Ideal)) (c : Dev nD) : (V25 m outs c main_v64 : S32000.Idx → BitVec 32) = kvTb10 m c := by
  rw [tbl10_eq, kvRect_eq]; rfl
theorem kvAdmTb10 : ((adm m hR 10).1 0 : S32000.Idx → BitVec 32) = kvTb10 m 0 :=
  (congrFun (adm_tbl10 m hR) 0).trans
    ((rfl : (tb10 m 0 : S32000.Idx → BitVec 32) = V25 m (outsZ m) 0 main_v64).trans (kvTb10_eq m (outsZ m) 0))

theorem kvP10 (c : Dev nD) : (o10 m hR c : (⟨S1280x1x128, .f32⟩ : BufTy).Contents (Elt Ideal)) = mean10 (XF m c) (kvTb10 m c) (kvTb10_lt m hR c) := by
  obtain rfl : c = 0 := Subsingleton.elim _ _
  exact gval10_of (adm m hR 10) (A10 m hR) (XF m 0) (kvTb10 m 0) (kvTb10_lt m hR 0) 0
    (arr10_in_eq m (outsZ m) 0).symm (kvAdmTb10 m hR).symm

theorem kvG0 (c : Dev nD) :
    shapeCast S1024x128 (o0 m hR c : (⟨S1024x1x128, .f32⟩ : BufTy).Contents (Elt Ideal)) shapeCasts_S1024x1x128_S1024x128
      = Spec.gath1024 (m (((c : Dev nD).tc : Thread nD τ).loc main_arg0)) (m (((c : Dev nD).tc : Thread nD τ).loc main_arg2)) := by
  obtain rfl : c = 0 := Subsingleton.elim _ _
  have hv := gval0_of (adm m hR 0) (A0 m hR) (XF m 0) (m (((0 : Dev nD).tc : Thread nD τ).loc main_arg2) : S1024.Idx → BitVec 32) (hR.h2 0) 0
    (arr0_in_eq m 0).symm (((tbl0_eq m 0).trans (shapeCast_shapeCast _ _ _)).symm)
  exact Spec.gath1024_of _ shapeCasts_S500000x128_S500000x1x128 _ (hR.h2 0) _ _ fun i => (congrFun hv i).trans (mean0_apply _ _ _ i)

theorem kvG1 (c : Dev nD) :
    shapeCast S10240x128 (o1 m hR c : (⟨S10240x1x128, .f32⟩ : BufTy).Contents (Elt Ideal)) shapeCasts_S10240x1x128_S10240x128
      = Spec.gath10240 (m (((c : Dev nD).tc : Thread nD τ).loc main_arg0)) (Spec.s1 (ArgAdj m c) (ArgBn m c) (ArgC1 m c)) := by
  obtain rfl : c = 0 := Subsingleton.elim _ _
  have hv := gval1_of (adm m hR 1) (A1 m hR) (XF m 0) (Spec.s1 (ArgAdj m 0) (ArgBn m 0) (ArgC1 m 0)) (kvS1_lt m hR 0) 0
    (arr1_in_eq m (outsZ m) 0).symm (((tbl1_eq m (outsZ m) 0).trans ((shapeCast_shapeCast _ _ _).trans (X8_eq m 0))).symm)
  exact Spec.gath10240_of _ shapeCasts_S500000x128_S500000x1x128 _ (kvS1_lt m hR 0) _ _ fun i => (congrFun hv i).trans (mean1_apply _ _ _ i)

theorem kvG2 (c : Dev nD) :
    shapeCast S1024x128 (o2 m hR c : (⟨S1024x1x128, .f32⟩ : BufTy).Contents (Elt Ideal)) shapeCasts_S1024x1x128_S1024x128
      = Spec.gmean10 (m (((c : Dev nD).tc : Thread nD τ).loc main_arg0)) (Spec.s1 (ArgAdj m c) (ArgBn m c) (ArgC1 m c)) := by
  obtain rfl : c = 0 := Subsingleton.elim _ _
  have hv := gval2_of (adm m hR 2) (A2 m hR) (XF m 0) (Spec.s1 (ArgAdj m 0) (ArgBn m 0) (ArgC1 m 0)) (kvS1_lt m hR 0) 0
    (arr2_in_eq m (outsZ m) 0).symm (((tbl2_eq m (outsZ m) 0).trans ((shapeCast_shapeCast _ _ _).trans (X8_eq m 0))).symm)
  exact Spec.gmean10_of _ shapeCasts_S500000x128_S500000x1x128 _ (kvS1_lt m hR 0) _ _ fun i => (congrFun hv i).trans (mean2_apply _ _ _ i)

def kvTbs (c : Dev nD) : Fin 8 → IVec S32000 32
  | ⟨0, _⟩ => kvTb3 m c
  | ⟨1, _⟩ => kvTb4 m c
  | ⟨2, _⟩ => kvTb5 m c
  | ⟨3, _⟩ => kvTb6 m c
  | ⟨4, _⟩ => kvTb7 m c
  | ⟨5, _⟩ => kvTb8 m c
  | ⟨6, _⟩ => kvTb9 m c
  | ⟨7, _⟩ => kvTb10 m c
def kvOs (c : Dev nD) : Fin 8 → (S1280x1x128.Idx → EReal)
  | ⟨0, _⟩ => o3 m hR c
  | ⟨1, _⟩ => o4 m hR c
  | ⟨2, _⟩ => o5 m hR c
  | ⟨3, _⟩ => o6 m hR c
  | ⟨4, _⟩ => o7 m hR c
  | ⟨5, _⟩ => o8 m hR c
  | ⟨6, _⟩ => o9 m hR c
  | ⟨7, _⟩ => o10 m hR c

include hR in
theorem kvTbs_lt (c : Dev nD) (k : Fin 8) (j : S32000.Idx) : (kvTbs m c k j).toNat < 500000 := by
  match k with
  | ⟨0, _⟩ => exact kvTb3_lt m hR c j
  | ⟨1, _⟩ => exact kvTb4_lt m hR c j
  | ⟨2, _⟩ => exact kvTb5_lt m hR c j
  | ⟨3, _⟩ => exact kvTb6_lt m hR c j
  | ⟨4, _⟩ => exact kvTb7_lt m hR c j
  | ⟨5, _⟩ => exact kvTb8_lt m hR c j
  | ⟨6, _⟩ => exact kvTb9_lt m hR c j
  | ⟨7, _⟩ => exact kvTb10_lt m hR c j

theorem kvTbs_at (c : Dev nD) (k : Fin 8) (g : Fin 1280) (s : Fin 25) :
    kvTbs m c k (ValueIdx.ix1 (⟨25 * g.val + s.val, by omega⟩ : Fin 32000))
      = (Spec.s2 (ArgAdj m c) (ArgBn m c) (ArgC1 m c) (ArgC2 m c)) (ValueIdx.ix1 (Spec.at25 (⟨1280 * k.val + g.val, by omega⟩ : Fin 10240) s)) := by
  match k with
  | ⟨0, _⟩ =>
    show kvTb3 m c (ValueIdx.ix1 (⟨25 * g.val + s.val, _⟩ : Fin 32000)) = _
    unfold kvTb3 kvRect
    exact (Spec.slice25_apply (Spec.s2 (ArgAdj m c) (ArgBn m c) (ArgC1 m c) (ArgC2 m c)) shapeCasts_S256000_S10240x25 0 (by omega) slices_S10240x25_S1280x25_0_0 shapeCasts_S1280x25_S32000 g s).trans
      (congrArg (fun j : Fin 256000 => (Spec.s2 (ArgAdj m c) (ArgBn m c) (ArgC1 m c) (ArgC2 m c)) (ValueIdx.ix1 j)) (Fin.ext (by show 25 * (0 + g.val) + s.val = 25 * (1280 * 0 + g.val) + s.val; omega)))
  | ⟨1, _⟩ =>
    show kvTb4 m c (ValueIdx.ix1 (⟨25 * g.val + s.val, _⟩ : Fin 32000)) = _
    unfold kvTb4 kvRect
    exact (Spec.slice25_apply (Spec.s2 (ArgAdj m c) (ArgBn m c) (ArgC1 m c) (ArgC2 m c)) shapeCasts_S256000_S10240x25 1280 (by omega) slices_S10240x25_S1280x25_1280_0 shapeCasts_S1280x25_S32000 g s).trans
      (congrArg (fun j : Fin 256000 => (Spec.s2 (ArgAdj m c) (ArgBn m c) (ArgC1 m c) (ArgC2 m c)) (ValueIdx.ix1 j)) (Fin.ext (by show 25 * (1280 + g.val) + s.val = 25 * (1280 * 1 + g.val) + s.val; omega)))
  | ⟨2, _⟩ =>
    show kvTb5 m c (ValueIdx.ix1 (⟨25 * g.val + s.val, _⟩ : Fin 32000)) = _
    unfold kvTb5 kvRect
    exact (Spec.slice25_apply (Spec.s2 (ArgAdj m c) (ArgBn m c) (ArgC1 m c) (ArgC2 m c)) shapeCasts_S256000_S10240x25 2560 (by omega) slices_S10240x25_S1280x25_2560_0 shapeCasts_S1280x25_S32000 g s).trans
      (congrArg (fun j : Fin 256000 => (Spec.s2 (ArgAdj m c) (ArgBn m c) (ArgC1 m c) (ArgC2 m c)) (ValueIdx.ix1 j)) (Fin.ext (by show 25 * (2560 + g.val) + s.val = 25 * (1280 * 2 + g.val) + s.val; omega)))
  | ⟨3, _⟩ =>
    show kvTb6 m c (ValueIdx.ix1 (⟨25 * g.val + s.val, _⟩ : Fin 32000)) = _
    unfold kvTb6 kvRect
    exact (Spec.slice25_apply (Spec.s2 (ArgAdj m c) (ArgBn m c) (ArgC1 m c) (ArgC2 m c)) shapeCasts_S256000_S10240x25 3840 (by omega) slices_S10240x25_S1280x25_3840_0 shapeCasts_S1280x25_S32000 g s).trans
      (congrArg (fun j : Fin 256000 => (Spec.s2 (ArgAdj m c) (ArgBn m c) (ArgC1 m c) (ArgC2 m c)) (ValueIdx.ix1 j)) (Fin.ext (by show 25 * (3840 + g.val) + s.val = 25 * (1280 * 3 + g.val) + s.val; omega)))
  | ⟨4, _⟩ =>
    show kvTb7 m c (ValueIdx.ix1 (⟨25 * g.val + s.val, _⟩ : Fin 32000)) = _
    unfold kvTb7 kvRect
    exact (Spec.slice25_apply (Spec.s2 (ArgAdj m c) (ArgBn m c) (ArgC1 m c) (ArgC2 m c)) shapeCasts_S256000_S10240x25 5120 (by omega) slices_S10240x25_S1280x25_5120_0 shapeCasts_S1280x25_S32000 g s).trans
      (congrArg (fun j : Fin 256000 => (Spec.s2 (ArgAdj m c) (ArgBn m c) (ArgC1 m c) (ArgC2 m c)) (ValueIdx.ix1 j)) (Fin.ext (by show 25 * (5120 + g.val) + s.val = 25 * (1280 * 4 + g.val) + s.val; omega)))
  | ⟨5, _⟩ =>
    show kvTb8 m c (ValueIdx.ix1 (⟨25 * g.val + s.val, _⟩ : Fin 32000)) = _
    unfold kvTb8 kvRect
    exact (Spec.slice25_apply (Spec.s2 (ArgAdj m c) (ArgBn m c) (ArgC1 m c) (ArgC2 m c)) shapeCasts_S256000_S10240x25 6400 (by omega) slices_S10240x25_S1280x25_6400_0 shapeCasts_S1280x25_S32000 g s).trans
      (congrArg (fun j : Fin 256000 => (Spec.s2 (ArgAdj m c) (ArgBn m c) (ArgC1 m c) (ArgC2 m c)) (ValueIdx.ix1 j)) (Fin.ext (by show 25 * (6400 + g.val) + s.val = 25 * (1280 * 5 + g.val) + s.val; omega)))
  | ⟨6, _⟩ =>
    show kvTb9 m c (ValueIdx.ix1 (⟨25 * g.val + s.val, _⟩ : Fin 32000)) = _
    unfold kvTb9 kvRect
    exact (Spec.slice25_apply (Spec.s2 (ArgAdj m c) (ArgBn m c) (ArgC1 m c) (ArgC2 m c)) shapeCasts_S256000_S10240x25 7680 (by omega) slices_S10240x25_S1280x25_7680_0 shapeCasts_S1280x25_S32000 g s).trans
      (congrArg (fun j : Fin 256000 => (Spec.s2 (ArgAdj m c) (ArgBn m c) (ArgC1 m c) (ArgC2 m c)) (ValueIdx.ix1 j)) (Fin.ext (by show 25 * (7680 + g.val) + s.val = 25 * (1280 * 6 + g.val) + s.val; omega)))
  | ⟨7, _⟩ =>
    show kvTb10 m c (ValueIdx.ix1 (⟨25 * g.val + s.val, _⟩ : Fin 32000)) = _
    unfold kvTb10 kvRect
    exact (Spec.slice25_apply (Spec.s2 (ArgAdj m c) (ArgBn m c) (ArgC1 m c) (ArgC2 m c)) shapeCasts_S256000_S10240x25 8960 (by omega) slices_S10240x25_S1280x25_8960_0 shapeCasts_S1280x25_S32000 g s).trans
      (congrArg (fun j : Fin 256000 => (Spec.s2 (ArgAdj m c) (ArgBn m c) (ArgC1 m c) (ArgC2 m c)) (ValueIdx.ix1 j)) (Fin.ext (by show 25 * (8960 + g.val) + s.val = 25 * (1280 * 7 + g.val) + s.val; omega)))

theorem kvOs_eq (c : Dev nD) (k : Fin 8) (i : S1280x1x128.Idx) : kvOs m hR c k i
    = (∑ s : Fin 25, (XF m c) (ValueIdx.ix3 (⟨(kvTbs m c k (ValueIdx.ix1 (⟨25 * (i 0).val + s.val, by
          have h0 : (i 0).val < 1280 := (i 0).isLt; have := s.isLt; omega⟩ : Fin 32000))).toNat, kvTbs_lt m hR c k _⟩ : Fin 500000) (0 : Fin 1) (i 2)))
        * ((1 / 25 : ℝ) : EReal) := by
  match k with
  | ⟨0, _⟩ => exact (congrFun (kvP3 m hR c) i).trans (mean3_apply _ _ _ i)
  | ⟨1, _⟩ => exact (congrFun (kvP4 m hR c) i).trans (mean4_apply _ _ _ i)
  | ⟨2, _⟩ => exact (congrFun (kvP5 m hR c) i).trans (mean5_apply _ _ _ i)
  | ⟨3, _⟩ => exact (congrFun (kvP6 m hR c) i).trans (mean6_apply _ _ _ i)
  | ⟨4, _⟩ => exact (congrFun (kvP7 m hR c) i).trans (mean7_apply _ _ _ i)
  | ⟨5, _⟩ => exact (congrFun (kvP8 m hR c) i).trans (mean8_apply _ _ _ i)
  | ⟨6, _⟩ => exact (congrFun (kvP9 m hR c) i).trans (mean9_apply _ _ _ i)
  | ⟨7, _⟩ => exact (congrFun (kvP10 m hR c) i).trans (mean10_apply _ _ _ i)

theorem kvG25 (c : Dev nD) :
    concatenate S10240x128 0 [⟨S1280x128, shapeCast S1280x128 (o3 m hR c : (⟨S1280x1x128, .f32⟩ : BufTy).Contents (Elt Ideal)) shapeCasts_S1280x1x128_S1280x128⟩,
      ⟨S1280x128, shapeCast S1280x128 (o4 m hR c : (⟨S1280x1x128, .f32⟩ : BufTy).Contents (Elt Ideal)) shapeCasts_S1280x1x128_S1280x128⟩,
      ⟨S1280x128, shapeCast S1280x128 (o5 m hR c : (⟨S1280x1x128, .f32⟩ : BufTy).Contents (Elt Ideal)) shapeCasts_S1280x1x128_S1280x128⟩,
      ⟨S1280x128, shapeCast S1280x128 (o6 m hR c : (⟨S1280x1x128, .f32⟩ : BufTy).Contents (Elt Ideal)) shapeCasts_S1280x1x128_S1280x128⟩,
      ⟨S1280x128, shapeCast S1280x128 (o7 m hR c : (⟨S1280x1x128, .f32⟩ : BufTy).Contents (Elt Ideal)) shapeCasts_S1280x1x128_S1280x128⟩,
      ⟨S1280x128, shapeCast S1280x128 (o8 m hR c : (⟨S1280x1x128, .f32⟩ : BufTy).Contents (Elt Ideal)) shapeCasts_S1280x1x128_S1280x128⟩,
      ⟨S1280x128, shapeCast S1280x128 (o9 m hR c : (⟨S1280x1x128, .f32⟩ : BufTy).Contents (Elt Ideal)) shapeCasts_S1280x1x128_S1280x128⟩,
      ⟨S1280x128, shapeCast S1280x128 (o10 m hR c : (⟨S1280x1x128, .f32⟩ : BufTy).Contents (Elt Ideal)) shapeCasts_S1280x1x128_S1280x128⟩]
      concatenates_S1280x128_S1280x128_S1280x128_S1280x128_S1280x128_S1280x128_S1280x128_S1280x128_S10240x128_d0
      = Spec.gmean25 (m (((c : Dev nD).tc : Thread nD τ).loc main_arg0)) (Spec.s2 (ArgAdj m c) (ArgBn m c) (ArgC1 m c) (ArgC2 m c)) :=
  Spec.gmean25_of (m (((c : Dev nD).tc : Thread nD τ).loc main_arg0)) shapeCasts_S500000x128_S500000x1x128 (Spec.s2 (ArgAdj m c) (ArgBn m c) (ArgC1 m c) (ArgC2 m c))
    (kvTbs m c) (kvTbs_lt m hR c) (kvTbs_at m c) (kvOs m hR c) shapeCasts_S1280x1x128_S1280x128 (kvOs_eq m hR c) _

end Cert.KernelIdeal.Hand

end
-- ==== Proof.KvHost.lean ====
import proofs.«401580_j65068754534945_2_alg».proof.Proof.Base
import Idealize.ShloMosaic.Lib.StableHlo

/-! Between the regions the program only reshapes, joins blocks of rows and averages groups of ten: each matrix region's entry array is an explicit function of earlier outputs and arguments. -/

noncomputable section

open scoped BigOperators

namespace Cert.KernelIdeal.Hand

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

variable {F : FTy → Type} [FloatOps F] [Named F]

section Stretches
variable (W : Valuation τ sig (Elt F))

theorem kvOps1_v22 :
    (StableHlo.after hostOps1 W (Proc.devRef .tc main_v22) : (⟨S1024x128, .f32⟩ : BufTy).Contents (Elt F)) =
      shapeCast S1024x128 (W (Proc.devRef .tc main_v21) : (⟨S1024x1x128, .f32⟩ : BufTy).Contents (Elt F)) shapeCasts_S1024x1x128_S1024x128 := by
  after_results; rfl
theorem kvOps2_v27 :
    (StableHlo.after hostOps2 W (Proc.devRef .tc main_v27) : (⟨S10240x128, .f32⟩ : BufTy).Contents (Elt F)) =
      shapeCast S10240x128 (W (Proc.devRef .tc main_v26) : (⟨S10240x1x128, .f32⟩ : BufTy).Contents (Elt F)) shapeCasts_S10240x1x128_S10240x128 := by
  after_results; rfl
theorem kvOps3_v32 :
    (StableHlo.after hostOps3 W (Proc.devRef .tc main_v32) : (⟨S1024x128, .f32⟩ : BufTy).Contents (Elt F)) =
      shapeCast S1024x128 (W (Proc.devRef .tc main_v31) : (⟨S1024x1x128, .f32⟩ : BufTy).Contents (Elt F)) shapeCasts_S1024x1x128_S1024x128 := by
  after_results; rfl
theorem kvOps4_v38 :
    (StableHlo.after hostOps4 W (Proc.devRef .tc main_v38) : (⟨S1280x128, .f32⟩ : BufTy).Contents (Elt F)) =
      shapeCast S1280x128 (W (Proc.devRef .tc main_v37) : (⟨S1280x1x128, .f32⟩ : BufTy).Contents (Elt F)) shapeCasts_S1280x1x128_S1280x128 := by
  after_results; rfl
theorem kvOps5_v42 :
    (StableHlo.after hostOps5 W (Proc.devRef .tc main_v42) : (⟨S1280x128, .f32⟩ : BufTy).Contents (Elt F)) =
      shapeCast S1280x128 (W (Proc.devRef .tc main_v41) : (⟨S1280x1x128, .f32⟩ : BufTy).Contents (Elt F)) shapeCasts_S1280x1x128_S1280x128 := by
  after_results; rfl
theorem kvOps6_v46 :
    (StableHlo.after hostOps6 W (Proc.devRef .tc main_v46) : (⟨S1280x128, .f32⟩ : BufTy).Contents (Elt F)) =
      shapeCast S1280x128 (W (Proc.devRef .tc main_v45) : (⟨S1280x1x128, .f32⟩ : BufTy).Contents (Elt F)) shapeCasts_S1280x1x128_S1280x128 := by
  after_results; rfl
theorem kvOps7_v50 :
    (StableHlo.after hostOps7 W (Proc.devRef .tc main_v50) : (⟨S1280x128, .f32⟩ : BufTy).Contents (Elt F)) =
      shapeCast S1280x128 (W (Proc.devRef .tc main_v49) : (⟨S1280x1x128, .f32⟩ : BufTy).Contents (Elt F)) shapeCasts_S1280x1x128_S1280x128 := by
  after_results; rfl
theorem kvOps8_v54 :
    (StableHlo.after hostOps8 W (Proc.devRef .tc main_v54) : (⟨S1280x128, .f32⟩ : BufTy).Contents (Elt F)) =
      shapeCast S1280x128 (W (Proc.devRef .tc main_v53) : (⟨S1280x1x128, .f32⟩ : BufTy).Contents (Elt F)) shapeCasts_S1280x1x128_S1280x128 := by
  after_results; rfl
theorem kvOps9_v58 :
    (StableHlo.after hostOps9 W (Proc.devRef .tc main_v58) : (⟨S1280x128, .f32⟩ : BufTy).Contents (Elt F)) =
      shapeCast S1280x128 (W (Proc.devRef .tc main_v57) : (⟨S1280x1x128, .f32⟩ : BufTy).Contents (Elt F)) shapeCasts_S1280x1x128_S1280x128 := by
  after_results; rfl
theorem kvOps10_v62 :
    (StableHlo.after hostOps10 W (Proc.devRef .tc main_v62) : (⟨S1280x128, .f32⟩ : BufTy).Contents (Elt F)) =
      shapeCast S1280x128 (W (Proc.devRef .tc main_v61) : (⟨S1280x1x128, .f32⟩ : BufTy).Contents (Elt F)) shapeCasts_S1280x1x128_S1280x128 := by
  after_results; rfl

theorem kvOps11_v67 :
    (StableHlo.after hostOps11 W (Proc.devRef .tc main_v67) : (⟨S10240x128, .f32⟩ : BufTy).Contents (Elt F)) =
      concatenate S10240x128 0 [⟨S1280x128, (W (Proc.devRef .tc main_v38) : (⟨S1280x128, .f32⟩ : BufTy).Contents (Elt F))⟩,
        ⟨S1280x128, (W (Proc.devRef .tc main_v42) : (⟨S1280x128, .f32⟩ : BufTy).Contents (Elt F))⟩,
        ⟨S1280x128, (W (Proc.devRef .tc main_v46) : (⟨S1280x128, .f32⟩ : BufTy).Contents (Elt F))⟩,
        ⟨S1280x128, (W (Proc.devRef .tc main_v50) : (⟨S1280x128, .f32⟩ : BufTy).Contents (Elt F))⟩,
        ⟨S1280x128, (W (Proc.devRef .tc main_v54) : (⟨S1280x128, .f32⟩ : BufTy).Contents (Elt F))⟩,
        ⟨S1280x128, (W (Proc.devRef .tc main_v58) : (⟨S1280x128, .f32⟩ : BufTy).Contents (Elt F))⟩,
        ⟨S1280x128, (W (Proc.devRef .tc main_v62) : (⟨S1280x128, .f32⟩ : BufTy).Contents (Elt F))⟩,
        ⟨S1280x128, shapeCast S1280x128 (W (Proc.devRef .tc main_v65) : (⟨S1280x1x128, .f32⟩ : BufTy).Contents (Elt F)) shapeCasts_S1280x1x128_S1280x128⟩]
        concatenates_S1280x128_S1280x128_S1280x128_S1280x128_S1280x128_S1280x128_S1280x128_S1280x128_S10240x128_d0 := by
  after_results; rfl

theorem kvOps13_v73 :
    (StableHlo.after hostOps13 W (Proc.devRef .tc main_v73) : (⟨S1024x256, .f32⟩ : BufTy).Contents (Elt F)) =
      Host.divf (Host.reduceAdd (shapeCast S1024x10x256 (W (Proc.devRef .tc main_v69) : (⟨S10240x256, .f32⟩ : BufTy).Contents (Elt F)) shapeCasts_S10240x256_S1024x10x256)
          (constant (F := F) S_ .f32 0x00000000#32) reducesTo_S1024x10x256_S1024x256_d1 h_S_)
        (broadcastInDim S1024x256 ![] bcast_S_S1024x256 (constant (F := F) S_ .f32 0x41200000#32)) := by
  after_results; rfl

end Stretches

variable (m : (ℓ : Loc nD τ sig) → Buf (Elt F) ℓ) (outs : Outs (F := F))

theorem kv27_v22 (c : Dev nD) : (V27 m outs c main_v22 : (⟨S1024x128, .f32⟩ : BufTy).Contents (Elt F)) =
    shapeCast S1024x128 (outs 6 main_v21 c : (⟨S1024x1x128, .f32⟩ : BufTy).Contents (Elt F)) shapeCasts_S1024x1x128_S1024x128 :=
  ((V27_of m outs c main_v22 (by decide)).trans <| (V26_of m outs c main_v22 (by decide)).trans <| (V25_of m outs c main_v22 (by decide)).trans <| (V24_of m outs c main_v22 (by decide)).trans <| (V23_of m outs c main_v22 (by decide)).trans <| (V22_of m outs c main_v22 (by decide)).trans <| (V21_of m outs c main_v22 (by decide)).trans <| (V20_of m outs c main_v22 (by decide)).trans <| (V19_of m outs c main_v22 (by decide)).trans <| (V18_of m outs c main_v22 (by decide)).trans <| (V17_of m outs c main_v22 (by decide)).trans <| (V16_of m outs c main_v22 (by decide)).trans <| (V15_of m outs c main_v22 (by decide)).trans <| (V14_of m outs c main_v22 (by decide)).trans <| (V13_of m outs c main_v22 (by decide)).trans <| (V12_of m outs c main_v22 (by decide)).trans <| (V11_of m outs c main_v22 (by decide)).trans <| (V10_of m outs c main_v22 (by decide)).trans <| (V9_of m outs c main_v22 (by decide)).trans <| (V8_of m outs c main_v22 (by decide))).trans <|
  (kvOps1_v22 (V6 m outs c)).trans (congrArg (fun x : (⟨S1024x1x128, .f32⟩ : BufTy).Contents (Elt F) => shapeCast S1024x128 x shapeCasts_S1024x1x128_S1024x128)
    (Function.update_self _ _ _))

theorem kv27_v32 (c : Dev nD) : (V27 m outs c main_v32 : (⟨S1024x128, .f32⟩ : BufTy).Contents (Elt F)) =
    shapeCast S1024x128 (outs 10 main_v31 c : (⟨S1024x1x128, .f32⟩ : BufTy).Contents (Elt F)) shapeCasts_S1024x1x128_S1024x128 :=
  ((V27_of m outs c main_v32 (by decide)).trans <| (V26_of m outs c main_v32 (by decide)).trans <| (V25_of m outs c main_v32 (by decide)).trans <| (V24_of m outs c main_v32 (by decide)).trans <| (V23_of m outs c main_v32 (by decide)).trans <| (V22_of m outs c main_v32 (by decide)).trans <| (V21_of m outs c main_v32 (by decide)).trans <| (V20_of m outs c main_v32 (by decide)).trans <| (V19_of m outs c main_v32 (by decide)).trans <| (V18_of m outs c main_v32 (by decide)).trans <| (V17_of m outs c main_v32 (by decide)).trans <| (V16_of m outs c main_v32 (by decide)).trans <| (V15_of m outs c main_v32 (by decide)).trans <| (V14_of m outs c main_v32 (by decide)).trans <| (V13_of m outs c main_v32 (by decide)).trans <| (V12_of m outs c main_v32 (by decide))).trans <|
  (kvOps3_v32 (V10 m outs c)).trans (congrArg (fun x : (⟨S1024x1x128, .f32⟩ : BufTy).Contents (Elt F) => shapeCast S1024x128 x shapeCasts_S1024x1x128_S1024x128)
    (Function.update_self _ _ _))

theorem kv27_v27 (c : Dev nD) : (V27 m outs c main_v27 : (⟨S10240x128, .f32⟩ : BufTy).Contents (Elt F)) =
    shapeCast S10240x128 (outs 8 main_v26 c : (⟨S10240x1x128, .f32⟩ : BufTy).Contents (Elt F)) shapeCasts_S10240x1x128_S10240x128 :=
  ((V27_of m outs c main_v27 (by decide)).trans <| (V26_of m outs c main_v27 (by decide)).trans <| (V25_of m outs c main_v27 (by decide)).trans <| (V24_of m outs c main_v27 (by decide)).trans <| (V23_of m outs c main_v27 (by decide)).trans <| (V22_of m outs c main_v27 (by decide)).trans <| (V21_of m outs c main_v27 (by decide)).trans <| (V20_of m outs c main_v27 (by decide)).trans <| (V19_of m outs c main_v27 (by decide)).trans <| (V18_of m outs c main_v27 (by decide)).trans <| (V17_of m outs c main_v27 (by decide)).trans <| (V16_of m outs c main_v27 (by decide)).trans <| (V15_of m outs c main_v27 (by decide)).trans <| (V14_of m outs c main_v27 (by decide)).trans <| (V13_of m outs c main_v27 (by decide)).trans <| (V12_of m outs c main_v27 (by decide)).trans <| (V11_of m outs c main_v27 (by decide)).trans <| (V10_of m outs c main_v27 (by decide))).trans <|
  (kvOps2_v27 (V8 m outs c)).trans (congrArg (fun x : (⟨S10240x1x128, .f32⟩ : BufTy).Contents (Elt F) => shapeCast S10240x128 x shapeCasts_S10240x1x128_S10240x128)
    (Function.update_self _ _ _))

theorem kv26_v38 (c : Dev nD) : (V26 m outs c main_v38 : (⟨S1280x128, .f32⟩ : BufTy).Contents (Elt F)) =
    shapeCast S1280x128 (outs 12 main_v37 c : (⟨S1280x1x128, .f32⟩ : BufTy).Contents (Elt F)) shapeCasts_S1280x1x128_S1280x128 :=
  ((V26_of m outs c main_v38 (by decide)).trans <| (V25_of m outs c main_v38 (by decide)).trans <| (V24_of m outs c main_v38 (by decide)).trans <| (V23_of m outs c main_v38 (by decide)).trans <| (V22_of m outs c main_v38 (by decide)).trans <| (V21_of m outs c main_v38 (by decide)).trans <| (V20_of m outs c main_v38 (by decide)).trans <| (V19_of m outs c main_v38 (by decide)).trans <| (V18_of m outs c main_v38 (by decide)).trans <| (V17_of m outs c main_v38 (by decide)).trans <| (V16_of m outs c main_v38 (by decide)).trans <| (V15_of m outs c main_v38 (by decide)).trans <| (V14_of m outs c main_v38 (by decide))).trans <|
  (kvOps4_v38 (V12 m outs c)).trans (congrArg (fun x : (⟨S1280x1x128, .f32⟩ : BufTy).Contents (Elt F) => shapeCast S1280x128 x shapeCasts_S1280x1x128_S1280x128)
    (Function.update_self _ _ _))
theorem kv26_v42 (c : Dev nD) : (V26 m outs c main_v42 : (⟨S1280x128, .f32⟩ : BufTy).Contents (Elt F)) =
    shapeCast S1280x128 (outs 14 main_v41 c : (⟨S1280x1x128, .f32⟩ : BufTy).Contents (Elt F)) shapeCasts_S1280x1x128_S1280x128 :=
  ((V26_of m outs c main_v42 (by decide)).trans <| (V25_of m outs c main_v42 (by decide)).trans <| (V24_of m outs c main_v42 (by decide)).trans <| (V23_of m outs c main_v42 (by decide)).trans <| (V22_of m outs c main_v42 (by decide)).trans <| (V21_of m outs c main_v42 (by decide)).trans <| (V20_of m outs c main_v42 (by decide)).trans <| (V19_of m outs c main_v42 (by decide)).trans <| (V18_of m outs c main_v42 (by decide)).trans <| (V17_of m outs c main_v42 (by decide)).trans <| (V16_of m outs c main_v42 (by decide))).trans <|
  (kvOps5_v42 (V14 m outs c)).trans (congrArg (fun x : (⟨S1280x1x128, .f32⟩ : BufTy).Contents (Elt F) => shapeCast S1280x128 x shapeCasts_S1280x1x128_S1280x128)
    (Function.update_self _ _ _))
theorem kv26_v46 (c : Dev nD) : (V26 m outs c main_v46 : (⟨S1280x128, .f32⟩ : BufTy).Contents (Elt F)) =
    shapeCast S1280x128 (outs 16 main_v45 c : (⟨S1280x1x128, .f32⟩ : BufTy).Contents (Elt F)) shapeCasts_S1280x1x128_S1280x128 :=
  ((V26_of m outs c main_v46 (by decide)).trans <| (V25_of m outs c main_v46 (by decide)).trans <| (V24_of m outs c main_v46 (by decide)).trans <| (V23_of m outs c main_v46 (by decide)).trans <| (V22_of m outs c main_v46 (by decide)).trans <| (V21_of m outs c main_v46 (by decide)).trans <| (V20_of m outs c main_v46 (by decide)).trans <| (V19_of m outs c main_v46 (by decide)).trans <| (V18_of m outs c main_v46 (by decide))).trans <|
  (kvOps6_v46 (V16 m outs c)).trans (congrArg (fun x : (⟨S1280x1x128, .f32⟩ : BufTy).Contents (Elt F) => shapeCast S1280x128 x shapeCasts_S1280x1x128_S1280x128)
    (Function.update_self _ _ _))
theorem kv26_v50 (c : Dev nD) : (V26 m outs c main_v50 : (⟨S1280x128, .f32⟩ : BufTy).Contents (Elt F)) =
    shapeCast S1280x128 (outs 18 main_v49 c : (⟨S1280x1x128, .f32⟩ : BufTy).Contents (Elt F)) shapeCasts_S1280x1x128_S1280x128 :=
  ((V26_of m outs c main_v50 (by decide)).trans <| (V25_of m outs c main_v50 (by decide)).trans <| (V24_of m outs c main_v50 (by decide)).trans <| (V23_of m outs c main_v50 (by decide)).trans <| (V22_of m outs c main_v50 (by decide)).trans <| (V21_of m outs c main_v50 (by decide)).trans <| (V20_of m outs c main_v50 (by decide))).trans <|
  (kvOps7_v50 (V18 m outs c)).trans (congrArg (fun x : (⟨S1280x1x128, .f32⟩ : BufTy).Contents (Elt F) => shapeCast S1280x128 x shapeCasts_S1280x1x128_S1280x128)
    (Function.update_self _ _ _))
theorem kv26_v54 (c : Dev nD) : (V26 m outs c main_v54 : (⟨S1280x128, .f32⟩ : BufTy).Contents (Elt F)) =
    shapeCast S1280x128 (outs 20 main_v53 c : (⟨S1280x1x128, .f32⟩ : BufTy).Contents (Elt F)) shapeCasts_S1280x1x128_S1280x128 :=
  ((V26_of m outs c main_v54 (by decide)).trans <| (V25_of m outs c main_v54 (by decide)).trans <| (V24_of m outs c main_v54 (by decide)).trans <| (V23_of m outs c main_v54 (by decide)).trans <| (V22_of m outs c main_v54 (by decide))).trans <|
  (kvOps8_v54 (V20 m outs c)).trans (congrArg (fun x : (⟨S1280x1x128, .f32⟩ : BufTy).Contents (Elt F) => shapeCast S1280x128 x shapeCasts_S1280x1x128_S1280x128)
    (Function.update_self _ _ _))
theorem kv26_v58 (c : Dev nD) : (V26 m outs c main_v58 : (⟨S1280x128, .f32⟩ : BufTy).Contents (Elt F)) =
    shapeCast S1280x128 (outs 22 main_v57 c : (⟨S1280x1x128, .f32⟩ : BufTy).Contents (Elt F)) shapeCasts_S1280x1x128_S1280x128 :=
  ((V26_of m outs c main_v58 (by decide)).trans <| (V25_of m outs c main_v58 (by decide)).trans <| (V24_of m outs c main_v58 (by decide))).trans <|
  (kvOps9_v58 (V22 m outs c)).trans (congrArg (fun x : (⟨S1280x1x128, .f32⟩ : BufTy).Contents (Elt F) => shapeCast S1280x128 x shapeCasts_S1280x1x128_S1280x128)
    (Function.update_self _ _ _))
theorem kv26_v62 (c : Dev nD) : (V26 m outs c main_v62 : (⟨S1280x128, .f32⟩ : BufTy).Contents (Elt F)) =
    shapeCast S1280x128 (outs 24 main_v61 c : (⟨S1280x1x128, .f32⟩ : BufTy).Contents (Elt F)) shapeCasts_S1280x1x128_S1280x128 :=
  ((V26_of m outs c main_v62 (by decide))).trans <|
  (kvOps10_v62 (V24 m outs c)).trans (congrArg (fun x : (⟨S1280x1x128, .f32⟩ : BufTy).Contents (Elt F) => shapeCast S1280x128 x shapeCasts_S1280x1x128_S1280x128)
    (Function.update_self _ _ _))

theorem kv27_v67 (c : Dev nD) : (V27 m outs c main_v67 : (⟨S10240x128, .f32⟩ : BufTy).Contents (Elt F)) =
    concatenate S10240x128 0 [⟨S1280x128, shapeCast S1280x128 (outs 12 main_v37 c : (⟨S1280x1x128, .f32⟩ : BufTy).Contents (Elt F)) shapeCasts_S1280x1x128_S1280x128⟩,
      ⟨S1280x128, shapeCast S1280x128 (outs 14 main_v41 c : (⟨S1280x1x128, .f32⟩ : BufTy).Contents (Elt F)) shapeCasts_S1280x1x128_S1280x128⟩,
      ⟨S1280x128, shapeCast S1280x128 (outs 16 main_v45 c : (⟨S1280x1x128, .f32⟩ : BufTy).Contents (Elt F)) shapeCasts_S1280x1x128_S1280x128⟩,
      ⟨S1280x128, shapeCast S1280x128 (outs 18 main_v49 c : (⟨S1280x1x128, .f32⟩ : BufTy).Contents (Elt F)) shapeCasts_S1280x1x128_S1280x128⟩,
      ⟨S1280x128, shapeCast S1280x128 (outs 20 main_v53 c : (⟨S1280x1x128, .f32⟩ : BufTy).Contents (Elt F)) shapeCasts_S1280x1x128_S1280x128⟩,
      ⟨S1280x128, shapeCast S1280x128 (outs 22 main_v57 c : (⟨S1280x1x128, .f32⟩ : BufTy).Contents (Elt F)) shapeCasts_S1280x1x128_S1280x128⟩,
      ⟨S1280x128, shapeCast S1280x128 (outs 24 main_v61 c : (⟨S1280x1x128, .f32⟩ : BufTy).Contents (Elt F)) shapeCasts_S1280x1x128_S1280x128⟩,
      ⟨S1280x128, shapeCast S1280x128 (outs 26 main_v65 c : (⟨S1280x1x128, .f32⟩ : BufTy).Contents (Elt F)) shapeCasts_S1280x1x128_S1280x128⟩]
      concatenates_S1280x128_S1280x128_S1280x128_S1280x128_S1280x128_S1280x128_S1280x128_S1280x128_S10240x128_d0 := by
  refine (kvOps11_v67 (V26 m outs c)).trans ?_
  rw [kv26_v38 m outs c, kv26_v42 m outs c, kv26_v46 m outs c, kv26_v50 m outs c, kv26_v54 m outs c, kv26_v58 m outs c, kv26_v62 m outs c,
    show (V26 m outs c (Proc.devRef .tc main_v65) : (⟨S1280x1x128, .f32⟩ : BufTy).Contents (Elt F)) = outs 26 main_v65 c from Function.update_self _ _ _]

theorem kv27_arg6 (c : Dev nD) : V27 m outs c main_arg6 = m ((c : Thread nD τ).loc main_arg6) :=
  ((V31_of m outs c main_arg6 (by decide)).trans <| (V30_of m outs c main_arg6 (by decide)).trans <|
    (V29_of m outs c main_arg6 (by decide)).trans (V28_of m outs c main_arg6 (by decide))).symm.trans (V31_main_arg6 m outs c)
theorem kv27_arg5 (c : Dev nD) : V27 m outs c main_arg5 = m ((c : Thread nD τ).loc main_arg5) :=
  ((V31_of m outs c main_arg5 (by decide)).trans <| (V30_of m outs c main_arg5 (by decide)).trans <|
    (V29_of m outs c main_arg5 (by decide)).trans (V28_of m outs c main_arg5 (by decide))).symm.trans (V31_main_arg5 m outs c)

theorem kv30_v68 (c : Dev nD) : V30 m outs c main_v68 = outs 28 main_v68 c :=
  (V30_of m outs c main_v68 (by decide)).trans <| (V29_of m outs c main_v68 (by decide)).trans (Function.update_self _ _ _)

theorem kv30_v73 (c : Dev nD) : (V30 m outs c main_v73 : (⟨S1024x256, .f32⟩ : BufTy).Contents (Elt F)) =
    Host.divf (Host.reduceAdd (shapeCast S1024x10x256 (outs 29 main_v69 c : (⟨S10240x256, .f32⟩ : BufTy).Contents (Elt F)) shapeCasts_S10240x256_S1024x10x256)
        (constant (F := F) S_ .f32 0x00000000#32) reducesTo_S1024x10x256_S1024x256_d1 h_S_)
      (broadcastInDim S1024x256 ![] bcast_S_S1024x256 (constant (F := F) S_ .f32 0x41200000#32)) := by
  refine (kvOps13_v73 (V29 m outs c)).trans ?_
  rw [show (V29 m outs c (Proc.devRef .tc main_v69) : (⟨S10240x256, .f32⟩ : BufTy).Contents (Elt F)) = outs 29 main_v69 c from Function.update_self _ _ _]

theorem kv30_arg8 (c : Dev nD) : V30 m outs c main_arg8 = m ((c : Thread nD τ).loc main_arg8) :=
  (V31_of m outs c main_arg8 (by decide)).symm.trans (V31_main_arg8 m outs c)
theorem kv30_arg7 (c : Dev nD) : V30 m outs c main_arg7 = m ((c : Thread nD τ).loc main_arg7) :=
  (V31_of m outs c main_arg7 (by decide)).symm.trans (V31_main_arg7 m outs c)

end Cert.KernelIdeal.Hand

end
-- ==== Proof.MlpPay.lean ====
import proofs.«401580_j65068754534945_2_alg».proof.Proof.Mlp11
import proofs.«401580_j65068754534945_2_alg».proof.Proof.Mlp12
import proofs.«401580_j65068754534945_2_alg».proof.Proof.Mlp13
import proofs.«401580_j65068754534945_2_alg».proof.Proof.SpecVal

/-! The two-product payload at an index over the extended reals: a product into zero is the sum over the contracted coordinate, the side-by-side join reads the first factor left of the middle column and the second right of it. -/

noncomputable section

open scoped BigOperators

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen
open Cert.Hand

theorem mlpLhsA_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem mlpLhsA_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
theorem mlpRhsA_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
theorem mlpRhsA_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

theorem mlpMatmulA_apply (x : FVec Ideal S1024x128 .bf16) (w : FVec Ideal S128x128 .bf16) (p : Fin 1024) (q : Fin 128) :
    matmul dot_S1024x128_S128x128_S1024x128_1_0_0_1_n_n none x w (constant (F := Ideal) S1024x128 .f32 0x00000000#32) (ValueIdx.ix2 p q)
      = ∑ k : Fin 128, x (ValueIdx.ix2 p k) * w (ValueIdx.ix2 k q) := by
  simp only [matmul]
  rw [Ideal.matmul_constant_zero_apply, ← Equiv.sum_comp (ValueIdx.contrEquiv1 dot_S1024x128_S128x128_S1024x128_1_0_0_1_n_n 128 rfl rfl).symm]
  refine Finset.sum_congr rfl fun k _ => ?_
  have hk := ValueIdx.contrEquiv1_symm_val dot_S1024x128_S128x128_S1024x128_1_0_0_1_n_n 128 rfl rfl k
  have el : dot_S1024x128_S128x128_S1024x128_1_0_0_1_n_n.lhsIdx (ValueIdx.ix2 p q) ((ValueIdx.contrEquiv1 dot_S1024x128_S128x128_S1024x128_1_0_0_1_n_n 128 rfl rfl).symm k) = ValueIdx.ix2 p k := funext fun a => Fin.ext (by
    match a with
    | ⟨0, _⟩ => exact mlpLhsA_0 _ _
    | ⟨1, _⟩ => exact (mlpLhsA_1 _ _).trans hk)
  have er : dot_S1024x128_S128x128_S1024x128_1_0_0_1_n_n.rhsIdx (ValueIdx.ix2 p q) ((ValueIdx.contrEquiv1 dot_S1024x128_S128x128_S1024x128_1_0_0_1_n_n 128 rfl rfl).symm k) = ValueIdx.ix2 k q := funext fun a => Fin.ext (by
    match a with
    | ⟨0, _⟩ => exact (mlpRhsA_0 _ _).trans hk
    | ⟨1, _⟩ => exact mlpRhsA_1 _ _)
  rw [el, er]

theorem mlpLhsB_0 (i : S1024x128.Idx) (q : dot_S1024x256_S256x128_S1024x128_1_0_0_1_n_n.contr.Idx) :
    (dot_S1024x256_S256x128_S1024x128_1_0_0_1_n_n.lhsIdx i q 0).val = (i 0).val := by
  unfold DotDims.lhsIdx
  rw [dif_neg (show ¬(0 : Fin S1024x256.rank) ∈ dot_S1024x256_S256x128_S1024x128_1_0_0_1_n_n.lhsBatch by decide), dif_pos (show (0 : Fin S1024x256.rank) ∈ dot_S1024x256_S256x128_S1024x128_1_0_0_1_n_n.lhsNonContracting by decide)]
  rfl
theorem mlpLhsB_1 (i : S1024x128.Idx) (q : dot_S1024x256_S256x128_S1024x128_1_0_0_1_n_n.contr.Idx) :
    (dot_S1024x256_S256x128_S1024x128_1_0_0_1_n_n.lhsIdx i q 1).val = (q ⟨0, by decide⟩).val :=
  dot_S1024x256_S256x128_S1024x128_1_0_0_1_n_n.lhsIdx_val_of_single rfl i q
theorem mlpRhsB_0 (i : S1024x128.Idx) (q : dot_S1024x256_S256x128_S1024x128_1_0_0_1_n_n.contr.Idx) :
    (dot_S1024x256_S256x128_S1024x128_1_0_0_1_n_n.rhsIdx i q 0).val = (q ⟨0, by decide⟩).val :=
  dot_S1024x256_S256x128_S1024x128_1_0_0_1_n_n.rhsIdx_val_of_single rfl i q
theorem mlpRhsB_1 (i : S1024x128.Idx) (q : dot_S1024x256_S256x128_S1024x128_1_0_0_1_n_n.contr.Idx) :
    (dot_S1024x256_S256x128_S1024x128_1_0_0_1_n_n.rhsIdx i q 1).val = (i 1).val := by
  unfold DotDims.rhsIdx
  rw [dif_neg (show ¬(1 : Fin S256x128.rank) ∈ dot_S1024x256_S256x128_S1024x128_1_0_0_1_n_n.rhsBatch by decide), dif_pos (show (1 : Fin S256x128.rank) ∈ dot_S1024x256_S256x128_S1024x128_1_0_0_1_n_n.rhsNonContracting by decide)]
  rfl

theorem mlpMatmulB_apply (x : FVec Ideal S1024x256 .bf16) (w : FVec Ideal S256x128 .bf16) (p : Fin 1024) (q : Fin 128) :
    matmul dot_S1024x256_S256x128_S1024x128_1_0_0_1_n_n none x w (constant (F := Ideal) S1024x128 .f32 0x00000000#32) (ValueIdx.ix2 p q)
      = ∑ k : Fin 256, x (ValueIdx.ix2 p k) * w (ValueIdx.ix2 k q) := by
  simp only [matmul]
  rw [Ideal.matmul_constant_zero_apply, ← Equiv.sum_comp (ValueIdx.contrEquiv1 dot_S1024x256_S256x128_S1024x128_1_0_0_1_n_n 256 rfl rfl).symm]
  refine Finset.sum_congr rfl fun k _ => ?_
  have hk := ValueIdx.contrEquiv1_symm_val dot_S1024x256_S256x128_S1024x128_1_0_0_1_n_n 256 rfl rfl k
  have el : dot_S1024x256_S256x128_S1024x128_1_0_0_1_n_n.lhsIdx (ValueIdx.ix2 p q) ((ValueIdx.contrEquiv1 dot_S1024x256_S256x128_S1024x128_1_0_0_1_n_n 256 rfl rfl).symm k) = ValueIdx.ix2 p k := funext fun a => Fin.ext (by
    match a with
    | ⟨0, _⟩ => exact mlpLhsB_0 _ _
    | ⟨1, _⟩ => exact (mlpLhsB_1 _ _).trans hk)
  have er : dot_S1024x256_S256x128_S1024x128_1_0_0_1_n_n.rhsIdx (ValueIdx.ix2 p q) ((ValueIdx.contrEquiv1 dot_S1024x256_S256x128_S1024x128_1_0_0_1_n_n 256 rfl rfl).symm k) = ValueIdx.ix2 k q := funext fun a => Fin.ext (by
    match a with
    | ⟨0, _⟩ => exact (mlpRhsB_0 _ _).trans hk
    | ⟨1, _⟩ => exact mlpRhsB_1 _ _)
  rw [el, er]

theorem out11_eq (x0 x1 : Vec Ideal S1024x128 .f32) (x2 x3 : Vec Ideal S128x128 .f32) :
    out11 (F := Ideal) x0 x1 x2 x3 = Spec.mlpRelu1024 x0 x1 x2 x3 := by
  funext j
  obtain ⟨p, q, rfl⟩ : ∃ (p : Fin 1024) (q : Fin 256), j = ValueIdx.ix2 p q := ⟨j 0, j 1, ValueIdx.eq_ix2 j⟩
  unfold out11 k11_pay1 Spec.mlpRelu1024
  dsimp only
  rw [ValueIdx.maximumf_apply, ValueIdx.broadcast_apply, Ideal.ofBits_def, Ideal.ofBits_zero_f32]
  refine congrArg (fun z => max z (0 : EReal)) ?_
  by_cases h : q.val < 128
  · rw [dif_pos (show (ValueIdx.ix2 p q 1).val < 128 from h),
      concatenate_pair_apply_left (1 : Fin S1024x256.rank) _ _ concatenates_S1024x128_S1024x128_S1024x256_d1
        (ValueIdx.ix2 p q) rfl (ValueIdx.ix2 p (⟨q.val, h⟩ : Fin 128))
        (fun b => by match b with | ⟨0, _⟩ => rfl | ⟨1, _⟩ => rfl),
      mlpMatmulA_apply]
    simp only [ValueIdx.truncf_apply, shapeCast_self]
  · have hq : q.val < 256 := q.isLt
    rw [dif_neg (show ¬ (ValueIdx.ix2 p q 1).val < 128 from h),
      concatenate_pair_apply_right (1 : Fin S1024x256.rank) _ _ concatenates_S1024x128_S1024x128_S1024x256_d1
        (ValueIdx.ix2 p q) rfl rfl (ValueIdx.ix2 p (⟨q.val - 128, by omega⟩ : Fin 128))
        (fun b hb => by match b with | ⟨0, _⟩ => rfl | ⟨1, _⟩ => exact absurd rfl hb)
        (show (q.val - 128) + 128 = q.val by omega),
      mlpMatmulA_apply]
    simp only [ValueIdx.truncf_apply, shapeCast_self]

theorem out12_eq (x0 x1 : Vec Ideal S1024x128 .f32) (x2 x3 : Vec Ideal S128x128 .f32) :
    out12 (F := Ideal) x0 x1 x2 x3 = Spec.mlpRelu1024 x0 x1 x2 x3 := by
  funext j
  obtain ⟨p, q, rfl⟩ : ∃ (p : Fin 1024) (q : Fin 256), j = ValueIdx.ix2 p q := ⟨j 0, j 1, ValueIdx.eq_ix2 j⟩
  unfold out12 k12_pay1 Spec.mlpRelu1024
  dsimp only
  rw [ValueIdx.maximumf_apply, ValueIdx.broadcast_apply, Ideal.ofBits_def, Ideal.ofBits_zero_f32]
  refine congrArg (fun z => max z (0 : EReal)) ?_
  by_cases h : q.val < 128
  · rw [dif_pos (show (ValueIdx.ix2 p q 1).val < 128 from h),
      concatenate_pair_apply_left (1 : Fin S1024x256.rank) _ _ concatenates_S1024x128_S1024x128_S1024x256_d1
        (ValueIdx.ix2 p q) rfl (ValueIdx.ix2 p (⟨q.val, h⟩ : Fin 128))
        (fun b => by match b with | ⟨0, _⟩ => rfl | ⟨1, _⟩ => rfl),
      mlpMatmulA_apply]
    simp only [ValueIdx.truncf_apply, shapeCast_self]
  · have hq : q.val < 256 := q.isLt
    rw [dif_neg (show ¬ (ValueIdx.ix2 p q 1).val < 128 from h),
      concatenate_pair_apply_right (1 : Fin S1024x256.rank) _ _ concatenates_S1024x128_S1024x128_S1024x256_d1
        (ValueIdx.ix2 p q) rfl rfl (ValueIdx.ix2 p (⟨q.val - 128, by omega⟩ : Fin 128))
        (fun b hb => by match b with | ⟨0, _⟩ => rfl | ⟨1, _⟩ => exact absurd rfl hb)
        (show (q.val - 128) + 128 = q.val by omega),
      mlpMatmulA_apply]
    simp only [ValueIdx.truncf_apply, shapeCast_self]

theorem out13_eq (x0 x1 : Vec Ideal S1024x256 .f32) (x2 x3 : Vec Ideal S256x128 .f32) :
    out13 (F := Ideal) x0 x1 x2 x3 = Spec.mlpId x0 x1 x2 x3 := by
  funext j
  obtain ⟨p, q, rfl⟩ : ∃ (p : Fin 1024) (q : Fin 256), j = ValueIdx.ix2 p q := ⟨j 0, j 1, ValueIdx.eq_ix2 j⟩
  unfold out13 k13_pay1 Spec.mlpId
  dsimp only
  by_cases h : q.val < 128
  · rw [dif_pos (show (ValueIdx.ix2 p q 1).val < 128 from h),
      concatenate_pair_apply_left (1 : Fin S1024x256.rank) _ _ concatenates_S1024x128_S1024x128_S1024x256_d1
        (ValueIdx.ix2 p q) rfl (ValueIdx.ix2 p (⟨q.val, h⟩ : Fin 128))
        (fun b => by match b with | ⟨0, _⟩ => rfl | ⟨1, _⟩ => rfl),
      mlpMatmulB_apply]
    simp only [ValueIdx.truncf_apply, shapeCast_self]
  · have hq : q.val < 256 := q.isLt
    rw [dif_neg (show ¬ (ValueIdx.ix2 p q 1).val < 128 from h),
      concatenate_pair_apply_right (1 : Fin S1024x256.rank) _ _ concatenates_S1024x128_S1024x128_S1024x256_d1
        (ValueIdx.ix2 p q) rfl rfl (ValueIdx.ix2 p (⟨q.val - 128, by omega⟩ : Fin 128))
        (fun b hb => by match b with | ⟨0, _⟩ => rfl | ⟨1, _⟩ => exact absurd rfl hb)
        (show (q.val - 128) + 128 = q.val by omega),
      mlpMatmulB_apply]
    simp only [ValueIdx.truncf_apply, shapeCast_self]

end Cert.KernelIdeal.Hand

end
-- ==== Proof.MlpVal11.lean ====
import proofs.«401580_j65068754534945_2_alg».proof.Proof.MlpPay

/-! The first matrix region's output array is the aggregator layer of its entry arrays: every point writes a block of that one function and the blocks cover the array. -/

noncomputable section

open scoped BigOperators

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen
open Cert.Hand

section Val11

variable (A : (c : Dev nD) → (w : Fin cfg11.W) → Buf (Elt Ideal) ((cfg11.win w).arr.view.loc (c.tc : Thread nD τ)))

theorem mlpIdx11 : ∀ t : Fin cfg11.N,
    win11_0.index t (0 : Fin 2) = 0 ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0 :=
  (by decide +kernel : ∀ t : Fin grid11.N, _)

theorem blk11_0_eq (c : Dev nD) (t : Fin cfg11.N) : (blk11 A c 0 t : S1024x128.Idx → EReal) = A c 0 := by
  obtain ⟨e00, e01, e10, e11, e20, e21, e30, e31, e40, e41⟩ := mlpIdx11 t
  funext y
  show A c 0 (((cfg11.win 0).blk t).view.emb y) = A c 0 y
  congr 1
  funext d; apply Fin.ext
  match d with
  | ⟨0, _⟩ => show win11_0.index t (0 : Fin 2) * 1024 + 1 * (y 0).val = (y 0).val; omega
  | ⟨1, _⟩ => show win11_0.index t (1 : Fin 2) * 128 + 1 * (y 1).val = (y 1).val; omega
theorem blk11_1_eq (c : Dev nD) (t : Fin cfg11.N) : (blk11 A c 1 t : S1024x128.Idx → EReal) = A c 1 := by
  obtain ⟨e00, e01, e10, e11, e20, e21, e30, e31, e40, e41⟩ := mlpIdx11 t
  funext y
  show A c 1 (((cfg11.win 1).blk t).view.emb y) = A c 1 y
  congr 1
  funext d; apply Fin.ext
  match d with
  | ⟨0, _⟩ => show win11_1.index t (0 : Fin 2) * 1024 + 1 * (y 0).val = (y 0).val; omega
  | ⟨1, _⟩ => show win11_1.index t (1 : Fin 2) * 128 + 1 * (y 1).val = (y 1).val; omega
theorem blk11_2_eq (c : Dev nD) (t : Fin cfg11.N) : (blk11 A c 2 t : S128x128.Idx → EReal) = A c 2 := by
  obtain ⟨e00, e01, e10, e11, e20, e21, e30, e31, e40, e41⟩ := mlpIdx11 t
  funext y
  show A c 2 (((cfg11.win 2).blk t).view.emb y) = A c 2 y
  congr 1
  funext d; apply Fin.ext
  match d with
  | ⟨0, _⟩ => show win11_2.index t (0 : Fin 2) * 128 + 1 * (y 0).val = (y 0).val; omega
  | ⟨1, _⟩ => show win11_2.index t (1 : Fin 2) * 128 + 1 * (y 1).val = (y 1).val; omega
theorem blk11_3_eq (c : Dev nD) (t : Fin cfg11.N) : (blk11 A c 3 t : S128x128.Idx → EReal) = A c 3 := by
  obtain ⟨e00, e01, e10, e11, e20, e21, e30, e31, e40, e41⟩ := mlpIdx11 t
  funext y
  show A c 3 (((cfg11.win 3).blk t).view.emb y) = A c 3 y
  congr 1
  funext d; apply Fin.ext
  match d with
  | ⟨0, _⟩ => show win11_3.index t (0 : Fin 2) * 128 + 1 * (y 0).val = (y 0).val; omega
  | ⟨1, _⟩ => show win11_3.index t (1 : Fin 2) * 128 + 1 * (y 1).val = (y 1).val; omega

theorem mlpFlushed11_eq (c : Dev nD) (t : Fin cfg11.N) :
    (dat11 (F := Ideal) A c).flushed 4 t
      = ((cfg11.win 4).blk t).view.read (Elt Ideal) (Spec.mlpRelu1024 (A c 0) (A c 1) (A c 2) (A c 3)) := by
  show (cfg11.win 4).cut (grid11.coords t) ((dat11 A c).after 4 t) = _
  rw [after11_4]
  obtain ⟨e00, e01, e10, e11, e20, e21, e30, e31, e40, e41⟩ := mlpIdx11 t
  funext j
  show out11 (blk11 A c 0 t) (blk11 A c 1 t) (blk11 A c 2 t) (blk11 A c 3 t) j
    = Spec.mlpRelu1024 (A c 0) (A c 1) (A c 2) (A c 3) (((cfg11.win 4).blk t).view.emb j)
  have hemb : ((cfg11.win 4).blk t).view.emb j = j := by
    funext d; apply Fin.ext
    match d with
    | ⟨0, _⟩ => show win11_4.index t (0 : Fin 2) * 1024 + 1 * (j 0).val = (j 0).val; omega
    | ⟨1, _⟩ => show win11_4.index t (1 : Fin 2) * 256 + 1 * (j 1).val = (j 1).val; omega
  rw [hemb]
  refine (congrFun (out11_eq (blk11 A c 0 t) (blk11 A c 1 t) (blk11 A c 2 t) (blk11 A c 3 t)) j).trans ?_
  rw [blk11_0_eq, blk11_1_eq, blk11_2_eq, blk11_3_eq]

theorem mlpMem_blk11 (t : Fin cfg11.N) (i : S1024x256.Idx) :
    i ∈ ((cfg11.win 4).blk t).view.set ↔ ∀ d : Fin 2, win11_4.index t d * S1024x256.size d ≤ (i d).val ∧ (i d).val < win11_4.index t d * S1024x256.size d + S1024x256.size d := by
  show i ∈ ((View.whole main_v68).slice (win11_4.rect t)).set ↔ _
  rw [View.set_slice_whole, Rect.mem_set_unit]
  exact Iff.rfl

theorem val11 (c : Dev nD) :
    (dat11 (F := Ideal) A c).arrAt 4 cfg11.N = Spec.mlpRelu1024 (A c 0) (A c 1) (A c 2) (A c 3) :=
  (dat11 (F := Ideal) A c).arrAt_eq_of_cover 4 (Spec.mlpRelu1024 (A c 0) (A c 1) (A c 2) (A c 3))
    (fun t _ => mlpFlushed11_eq A c t)
    (fun i => ⟨t11_0, flush11_4 _, by
      obtain ⟨e00, e01, e10, e11, e20, e21, e30, e31, e40, e41⟩ := mlpIdx11 t11_0
      have h0 : (i 0).val < 1024 := (i 0).isLt
      have h1 : (i 1).val < 256 := (i 1).isLt
      rw [mlpMem_blk11]
      intro d
      match d with
      | ⟨0, _⟩ => show win11_4.index t11_0 (0 : Fin 2) * 1024 ≤ (i 0).val ∧ (i 0).val < win11_4.index t11_0 (0 : Fin 2) * 1024 + 1024; omega
      | ⟨1, _⟩ => show win11_4.index t11_0 (1 : Fin 2) * 256 ≤ (i 1).val ∧ (i 1).val < win11_4.index t11_0 (1 : Fin 2) * 256 + 256; omega⟩)

end Val11

end Cert.KernelIdeal.Hand

end
-- ==== Proof.MlpVal12.lean ====
import proofs.«401580_j65068754534945_2_alg».proof.Proof.MlpPay

/-! The tiled matrix region's output array is the aggregator layer of its entry arrays, tile by tile. -/

noncomputable section

open scoped BigOperators

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen
open Cert.Hand

section Val12

theorem mlpRelu_rows12 (X0 X1 : FVec Ideal S10240x128 .f32) (W0 W1 : FVec Ideal S128x128 .f32)
    (x0 x1 : FVec Ideal S1024x128 .f32) (b : Nat) (hb : b ≤ 9)
    (h0 : ∀ (p : Fin 1024) (k : Fin 128), x0 (ValueIdx.ix2 p k) = X0 (ValueIdx.ix2 (⟨b * 1024 + p.val, by omega⟩ : Fin 10240) k))
    (h1 : ∀ (p : Fin 1024) (k : Fin 128), x1 (ValueIdx.ix2 p k) = X1 (ValueIdx.ix2 (⟨b * 1024 + p.val, by omega⟩ : Fin 10240) k))
    (p : Fin 1024) (q : Fin 256) :
    Spec.mlpRelu1024 x0 x1 W0 W1 (ValueIdx.ix2 p q)
      = Spec.mlpRelu10240 X0 X1 W0 W1 (ValueIdx.ix2 (⟨b * 1024 + p.val, by omega⟩ : Fin 10240) q) := by
  have hq : q.val < 256 := q.isLt
  show max (if h : q.val < 128 then ∑ k : Fin 128, x0 (ValueIdx.ix2 p k) * W0 (ValueIdx.ix2 k (⟨q.val, h⟩ : Fin 128))
        else ∑ k : Fin 128, x1 (ValueIdx.ix2 p k) * W1 (ValueIdx.ix2 k (⟨q.val - 128, by omega⟩ : Fin 128))) 0
      = max (if h : q.val < 128 then ∑ k : Fin 128, X0 (ValueIdx.ix2 (⟨b * 1024 + p.val, by omega⟩ : Fin 10240) k) * W0 (ValueIdx.ix2 k (⟨q.val, h⟩ : Fin 128))
        else ∑ k : Fin 128, X1 (ValueIdx.ix2 (⟨b * 1024 + p.val, by omega⟩ : Fin 10240) k) * W1 (ValueIdx.ix2 k (⟨q.val - 128, by omega⟩ : Fin 128))) 0
  simp only [h0, h1]

variable (A : (c : Dev nD) → (w : Fin cfg12.W) → Buf (Elt Ideal) ((cfg12.win w).arr.view.loc (c.tc : Thread nD τ)))

theorem mlpIdx12 : ∀ t : Fin cfg12.N,
    win12_0.index t (0 : Fin 2) = win12_4.index t (0 : Fin 2) ∧ win12_0.index t (1 : Fin 2) = 0
    ∧ win12_1.index t (0 : Fin 2) = win12_4.index t (0 : Fin 2) ∧ win12_1.index t (1 : Fin 2) = 0
    ∧ win12_2.index t (0 : Fin 2) = 0 ∧ win12_2.index t (1 : Fin 2) = 0
    ∧ win12_3.index t (0 : Fin 2) = 0 ∧ win12_3.index t (1 : Fin 2) = 0
    ∧ win12_4.index t (0 : Fin 2) ≤ 9 ∧ win12_4.index t (1 : Fin 2) = 0 :=
  (by decide +kernel : ∀ t : Fin grid12.N, _)

theorem mlpOnto12 : ∀ b : Fin 10, ∃ t : Fin cfg12.N, win12_4.index t (0 : Fin 2) = b.val :=
  (by decide +kernel : ∀ b : Fin 10, ∃ t : Fin grid12.N, win12_4.index t (0 : Fin 2) = b.val)

theorem blk12_2_eq (c : Dev nD) (t : Fin cfg12.N) : (blk12 A c 2 t : S128x128.Idx → EReal) = A c 2 := by
  obtain ⟨e00, e01, e10, e11, e20, e21, e30, e31, e40, e41⟩ := mlpIdx12 t
  funext y
  show A c 2 (((cfg12.win 2).blk t).view.emb y) = A c 2 y
  congr 1
  funext d; apply Fin.ext
  match d with
  | ⟨0, _⟩ => show win12_2.index t (0 : Fin 2) * 128 + 1 * (y 0).val = (y 0).val; omega
  | ⟨1, _⟩ => show win12_2.index t (1 : Fin 2) * 128 + 1 * (y 1).val = (y 1).val; omega
theorem blk12_3_eq (c : Dev nD) (t : Fin cfg12.N) : (blk12 A c 3 t : S128x128.Idx → EReal) = A c 3 := by
  obtain ⟨e00, e01, e10, e11, e20, e21, e30, e31, e40, e41⟩ := mlpIdx12 t
  funext y
  show A c 3 (((cfg12.win 3).blk t).view.emb y) = A c 3 y
  congr 1
  funext d; apply Fin.ext
  match d with
  | ⟨0, _⟩ => show win12_3.index t (0 : Fin 2) * 128 + 1 * (y 0).val = (y 0).val; omega
  | ⟨1, _⟩ => show win12_3.index t (1 : Fin 2) * 128 + 1 * (y 1).val = (y 1).val; omega

theorem blk12_0_apply (c : Dev nD) (t : Fin cfg12.N) (p : Fin 1024) (k : Fin 128) :
    (blk12 A c 0 t : S1024x128.Idx → EReal) (ValueIdx.ix2 p k)
      = (A c 0 : S10240x128.Idx → EReal) (ValueIdx.ix2 (⟨win12_4.index t (0 : Fin 2) * 1024 + p.val, by
          have := (mlpIdx12 t).2.2.2.2.2.2.2.2.1; omega⟩ : Fin 10240) k) := by
  obtain ⟨e00, e01, e10, e11, e20, e21, e30, e31, e40, e41⟩ := mlpIdx12 t
  show A c 0 (((cfg12.win 0).blk t).view.emb (ValueIdx.ix2 p k)) = A c 0 _
  congr 1
  funext d; apply Fin.ext
  match d with
  | ⟨0, _⟩ => show win12_0.index t (0 : Fin 2) * 1024 + 1 * p.val = win12_4.index t (0 : Fin 2) * 1024 + p.val; omega
  | ⟨1, _⟩ => show win12_0.index t (1 : Fin 2) * 128 + 1 * k.val = k.val; omega
theorem blk12_1_apply (c : Dev nD) (t : Fin cfg12.N) (p : Fin 1024) (k : Fin 128) :
    (blk12 A c 1 t : S1024x128.Idx → EReal) (ValueIdx.ix2 p k)
      = (A c 1 : S10240x128.Idx → EReal) (ValueIdx.ix2 (⟨win12_4.index t (0 : Fin 2) * 1024 + p.val, by
          have := (mlpIdx12 t).2.2.2.2.2.2.2.2.1; omega⟩ : Fin 10240) k) := by
  obtain ⟨e00, e01, e10, e11, e20, e21, e30, e31, e40, e41⟩ := mlpIdx12 t
  show A c 1 (((cfg12.win 1).blk t).view.emb (ValueIdx.ix2 p k)) = A c 1 _
  congr 1
  funext d; apply Fin.ext
  match d with
  | ⟨0, _⟩ => show win12_1.index t (0 : Fin 2) * 1024 + 1 * p.val = win12_4.index t (0 : Fin 2) * 1024 + p.val; omega
  | ⟨1, _⟩ => show win12_1.index t (1 : Fin 2) * 128 + 1 * k.val = k.val; omega

theorem mlpFlushed12_eq (c : Dev nD) (t : Fin cfg12.N) :
    (dat12 (F := Ideal) A c).flushed 4 t
      = ((cfg12.win 4).blk t).view.read (Elt Ideal) (Spec.mlpRelu10240 (A c 0) (A c 1) (A c 2) (A c 3)) := by
  show (cfg12.win 4).cut (grid12.coords t) ((dat12 A c).after 4 t) = _
  rw [after12_4]
  obtain ⟨e00, e01, e10, e11, e20, e21, e30, e31, e40, e41⟩ := mlpIdx12 t
  funext j
  obtain ⟨p, q, rfl⟩ : ∃ (p : Fin 1024) (q : Fin 256), j = ValueIdx.ix2 p q := ⟨j 0, j 1, ValueIdx.eq_ix2 j⟩
  show out12 (blk12 A c 0 t) (blk12 A c 1 t) (blk12 A c 2 t) (blk12 A c 3 t) (ValueIdx.ix2 p q)
    = Spec.mlpRelu10240 (A c 0) (A c 1) (A c 2) (A c 3) (((cfg12.win 4).blk t).view.emb (ValueIdx.ix2 p q))
  have hemb : ((cfg12.win 4).blk t).view.emb (ValueIdx.ix2 p q)
      = ValueIdx.ix2 (⟨win12_4.index t (0 : Fin 2) * 1024 + p.val, by omega⟩ : Fin 10240) q := by
    funext d; apply Fin.ext
    match d with
    | ⟨0, _⟩ => show win12_4.index t (0 : Fin 2) * 1024 + 1 * p.val = win12_4.index t (0 : Fin 2) * 1024 + p.val; omega
    | ⟨1, _⟩ => show win12_4.index t (1 : Fin 2) * 256 + 1 * q.val = q.val; omega
  rw [hemb]
  refine (congrFun (out12_eq (blk12 A c 0 t) (blk12 A c 1 t) (blk12 A c 2 t) (blk12 A c 3 t)) _).trans ?_
  rw [blk12_2_eq, blk12_3_eq]
  exact mlpRelu_rows12 (A c 0) (A c 1) (A c 2) (A c 3) (blk12 A c 0 t) (blk12 A c 1 t) (win12_4.index t (0 : Fin 2)) e40
    (blk12_0_apply A c t) (blk12_1_apply A c t) p q

theorem mlpMem_blk12 (t : Fin cfg12.N) (i : S10240x256.Idx) :
    i ∈ ((cfg12.win 4).blk t).view.set ↔ ∀ d : Fin 2, win12_4.index t d * S1024x256.size d ≤ (i d).val ∧ (i d).val < win12_4.index t d * S1024x256.size d + S1024x256.size d := by
  show i ∈ ((View.whole main_v69).slice (win12_4.rect t)).set ↔ _
  rw [View.set_slice_whole, Rect.mem_set_unit]
  exact Iff.rfl

theorem val12 (c : Dev nD) :
    (dat12 (F := Ideal) A c).arrAt 4 cfg12.N = Spec.mlpRelu10240 (A c 0) (A c 1) (A c 2) (A c 3) :=
  (dat12 (F := Ideal) A c).arrAt_eq_of_cover 4 (Spec.mlpRelu10240 (A c 0) (A c 1) (A c 2) (A c 3))
    (fun t _ => mlpFlushed12_eq A c t)
    (fun i => by
      have h0 : (i 0).val < 10240 := (i 0).isLt
      have h1 : (i 1).val < 256 := (i 1).isLt
      obtain ⟨t, ht⟩ := mlpOnto12 ⟨(i 0).val / 1024, by omega⟩
      have hb : win12_4.index t (0 : Fin 2) = (i 0).val / 1024 := ht
      obtain ⟨e00, e01, e10, e11, e20, e21, e30, e31, e40, e41⟩ := mlpIdx12 t
      refine ⟨t, flush12_4 t, ?_⟩
      rw [mlpMem_blk12]
      intro d
      match d with
      | ⟨0, _⟩ => show win12_4.index t (0 : Fin 2) * 1024 ≤ (i 0).val ∧ (i 0).val < win12_4.index t (0 : Fin 2) * 1024 + 1024; omega
      | ⟨1, _⟩ => show win12_4.index t (1 : Fin 2) * 256 ≤ (i 1).val ∧ (i 1).val < win12_4.index t (1 : Fin 2) * 256 + 256; omega)

end Val12

end Cert.KernelIdeal.Hand

end
-- ==== Proof.MlpVal13.lean ====
import proofs.«401580_j65068754534945_2_alg».proof.Proof.MlpPay

/-! The last matrix region's output array is the last layer of its entry arrays. -/

noncomputable section

open scoped BigOperators

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen
open Cert.Hand

section Val13

variable (A : (c : Dev nD) → (w : Fin cfg13.W) → Buf (Elt Ideal) ((cfg13.win w).arr.view.loc (c.tc : Thread nD τ)))

theorem mlpIdx13 : ∀ t : Fin cfg13.N,
    win13_0.index t (0 : Fin 2) = 0 ∧ win13_0.index t (1 : Fin 2) = 0
    ∧ win13_1.index t (0 : Fin 2) = 0 ∧ win13_1.index t (1 : Fin 2) = 0
    ∧ win13_2.index t (0 : Fin 2) = 0 ∧ win13_2.index t (1 : Fin 2) = 0
    ∧ win13_3.index t (0 : Fin 2) = 0 ∧ win13_3.index t (1 : Fin 2) = 0
    ∧ win13_4.index t (0 : Fin 2) = 0 ∧ win13_4.index t (1 : Fin 2) = 0 :=
  (by decide +kernel : ∀ t : Fin grid13.N, _)

theorem blk13_0_eq (c : Dev nD) (t : Fin cfg13.N) : (blk13 A c 0 t : S1024x256.Idx → EReal) = A c 0 := by
  obtain ⟨e00, e01, e10, e11, e20, e21, e30, e31, e40, e41⟩ := mlpIdx13 t
  funext y
  show A c 0 (((cfg13.win 0).blk t).view.emb y) = A c 0 y
  congr 1
  funext d; apply Fin.ext
  match d with
  | ⟨0, _⟩ => show win13_0.index t (0 : Fin 2) * 1024 + 1 * (y 0).val = (y 0).val; omega
  | ⟨1, _⟩ => show win13_0.index t (1 : Fin 2) * 256 + 1 * (y 1).val = (y 1).val; omega
theorem blk13_1_eq (c : Dev nD) (t : Fin cfg13.N) : (blk13 A c 1 t : S1024x256.Idx → EReal) = A c 1 := by
  obtain ⟨e00, e01, e10, e11, e20, e21, e30, e31, e40, e41⟩ := mlpIdx13 t
  funext y
  show A c 1 (((cfg13.win 1).blk t).view.emb y) = A c 1 y
  congr 1
  funext d; apply Fin.ext
  match d with
  | ⟨0, _⟩ => show win13_1.index t (0 : Fin 2) * 1024 + 1 * (y 0).val = (y 0).val; omega
  | ⟨1, _⟩ => show win13_1.index t (1 : Fin 2) * 256 + 1 * (y 1).val = (y 1).val; omega
theorem blk13_2_eq (c : Dev nD) (t : Fin cfg13.N) : (blk13 A c 2 t : S256x128.Idx → EReal) = A c 2 := by
  obtain ⟨e00, e01, e10, e11, e20, e21, e30, e31, e40, e41⟩ := mlpIdx13 t
  funext y
  show A c 2 (((cfg13.win 2).blk t).view.emb y) = A c 2 y
  congr 1
  funext d; apply Fin.ext
  match d with
  | ⟨0, _⟩ => show win13_2.index t (0 : Fin 2) * 256 + 1 * (y 0).val = (y 0).val; omega
  | ⟨1, _⟩ => show win13_2.index t (1 : Fin 2) * 128 + 1 * (y 1).val = (y 1).val; omega
theorem blk13_3_eq (c : Dev nD) (t : Fin cfg13.N) : (blk13 A c 3 t : S256x128.Idx → EReal) = A c 3 := by
  obtain ⟨e00, e01, e10, e11, e20, e21, e30, e31, e40, e41⟩ := mlpIdx13 t
  funext y
  show A c 3 (((cfg13.win 3).blk t).view.emb y) = A c 3 y
  congr 1
  funext d; apply Fin.ext
  match d with
  | ⟨0, _⟩ => show win13_3.index t (0 : Fin 2) * 256 + 1 * (y 0).val = (y 0).val; omega
  | ⟨1, _⟩ => show win13_3.index t (1 : Fin 2) * 128 + 1 * (y 1).val = (y 1).val; omega

theorem mlpFlushed13_eq (c : Dev nD) (t : Fin cfg13.N) :
    (dat13 (F := Ideal) A c).flushed 4 t
      = ((cfg13.win 4).blk t).view.read (Elt Ideal) (Spec.mlpId (A c 0) (A c 1) (A c 2) (A c 3)) := by
  show (cfg13.win 4).cut (grid13.coords t) ((dat13 A c).after 4 t) = _
  rw [after13_4]
  obtain ⟨e00, e01, e10, e11, e20, e21, e30, e31, e40, e41⟩ := mlpIdx13 t
  funext j
  show out13 (blk13 A c 0 t) (blk13 A c 1 t) (blk13 A c 2 t) (blk13 A c 3 t) j
    = Spec.mlpId (A c 0) (A c 1) (A c 2) (A c 3) (((cfg13.win 4).blk t).view.emb j)
  have hemb : ((cfg13.win 4).blk t).view.emb j = j := by
    funext d; apply Fin.ext
    match d with
    | ⟨0, _⟩ => show win13_4.index t (0 : Fin 2) * 1024 + 1 * (j 0).val = (j 0).val; omega
    | ⟨1, _⟩ => show win13_4.index t (1 : Fin 2) * 256 + 1 * (j 1).val = (j 1).val; omega
  rw [hemb]
  refine (congrFun (out13_eq (blk13 A c 0 t) (blk13 A c 1 t) (blk13 A c 2 t) (blk13 A c 3 t)) j).trans ?_
  rw [blk13_0_eq, blk13_1_eq, blk13_2_eq, blk13_3_eq]

theorem mlpMem_blk13 (t : Fin cfg13.N) (i : S1024x256.Idx) :
    i ∈ ((cfg13.win 4).blk t).view.set ↔ ∀ d : Fin 2, win13_4.index t d * S1024x256.size d ≤ (i d).val ∧ (i d).val < win13_4.index t d * S1024x256.size d + S1024x256.size d := by
  show i ∈ ((View.whole main_v74).slice (win13_4.rect t)).set ↔ _
  rw [View.set_slice_whole, Rect.mem_set_unit]
  exact Iff.rfl

theorem val13 (c : Dev nD) :
    (dat13 (F := Ideal) A c).arrAt 4 cfg13.N = Spec.mlpId (A c 0) (A c 1) (A c 2) (A c 3) :=
  (dat13 (F := Ideal) A c).arrAt_eq_of_cover 4 (Spec.mlpId (A c 0) (A c 1) (A c 2) (A c 3))
    (fun t _ => mlpFlushed13_eq A c t)
    (fun i => ⟨t13_0, flush13_4 _, by
      obtain ⟨e00, e01, e10, e11, e20, e21, e30, e31, e40, e41⟩ := mlpIdx13 t13_0
      have h0 : (i 0).val < 1024 := (i 0).isLt
      have h1 : (i 1).val < 256 := (i 1).isLt
      rw [mlpMem_blk13]
      intro d
      match d with
      | ⟨0, _⟩ => show win13_4.index t13_0 (0 : Fin 2) * 1024 ≤ (i 0).val ∧ (i 0).val < win13_4.index t13_0 (0 : Fin 2) * 1024 + 1024; omega
      | ⟨1, _⟩ => show win13_4.index t13_0 (1 : Fin 2) * 256 ≤ (i 1).val ∧ (i 1).val < win13_4.index t13_0 (1 : Fin 2) * 256 + 256; omega⟩)

end Val13

end Cert.KernelIdeal.Hand

end
-- ==== Proof.MlpValue.lean ====
import proofs.«401580_j65068754534945_2_alg».proof.Proof.MlpVal11
import proofs.«401580_j65068754534945_2_alg».proof.Proof.MlpVal12
import proofs.«401580_j65068754534945_2_alg».proof.Proof.MlpVal13

/-! The three matrix regions' outputs, gathered. -/
-- ==== Proof.KernelValue.lean ====
import proofs.«401580_j65068754534945_2_alg».proof.Proof.KvGather
import proofs.«401580_j65068754534945_2_alg».proof.Proof.KvHost
import proofs.«401580_j65068754534945_2_alg».proof.Proof.MlpValue

/-! The last region's output is the specification's result of the arguments. -/

noncomputable section

open scoped BigOperators

namespace Cert.KernelIdeal.Hand

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen
open Cert.Hand

variable (m : (ℓ : Loc nD τ sig) → Buf (Elt Ideal) ℓ) (hR : InRange m)

theorem kvA11_0 (c : Dev nD) : (A11 m hR c 0 : S1024x128.Idx → EReal) = (Spec.gath1024 (m (((c : Dev nD).tc : Thread nD τ).loc main_arg0)) (m (((c : Dev nD).tc : Thread nD τ).loc main_arg2))) :=
  (kv27_v22 m (outsG m hR) c).trans (by rw [kvOutsG_at0]; exact kvG0 m hR c)
theorem kvA11_1 (c : Dev nD) : (A11 m hR c 1 : S1024x128.Idx → EReal) = (Spec.gmean10 (m (((c : Dev nD).tc : Thread nD τ).loc main_arg0)) (Spec.s1 (ArgAdj m c) (ArgBn m c) (ArgC1 m c))) :=
  (kv27_v32 m (outsG m hR) c).trans (by rw [kvOutsG_at2]; exact kvG2 m hR c)
theorem kvA11_2 (c : Dev nD) : (A11 m hR c 2 : S128x128.Idx → EReal) = m (((c : Dev nD).tc : Thread nD τ).loc main_arg6) := kv27_arg6 m (outsG m hR) c
theorem kvA11_3 (c : Dev nD) : (A11 m hR c 3 : S128x128.Idx → EReal) = m (((c : Dev nD).tc : Thread nD τ).loc main_arg5) := kv27_arg5 m (outsG m hR) c

theorem kvL11 (c : Dev nD) : (o11 m hR c : S1024x256.Idx → EReal) = (Spec.mlpRelu1024 (Spec.gath1024 (m (((c : Dev nD).tc : Thread nD τ).loc main_arg0)) (m (((c : Dev nD).tc : Thread nD τ).loc main_arg2))) (Spec.gmean10 (m (((c : Dev nD).tc : Thread nD τ).loc main_arg0)) (Spec.s1 (ArgAdj m c) (ArgBn m c) (ArgC1 m c))) (m (((c : Dev nD).tc : Thread nD τ).loc main_arg6)) (m (((c : Dev nD).tc : Thread nD τ).loc main_arg5))) := by
  show (dat11 (F := Ideal) (A11 m hR) c).arrAt 4 cfg11.N = _
  rw [val11 (A11 m hR) c, kvA11_0, kvA11_1, kvA11_2, kvA11_3]

theorem kvA12_0 (c : Dev nD) : (A12 m hR c 0 : S10240x128.Idx → EReal) = (Spec.gath10240 (m (((c : Dev nD).tc : Thread nD τ).loc main_arg0)) (Spec.s1 (ArgAdj m c) (ArgBn m c) (ArgC1 m c))) :=
  (kv27_v27 m (outsG m hR) c).trans (by rw [kvOutsG_at1]; exact kvG1 m hR c)
theorem kvA12_1 (c : Dev nD) : (A12 m hR c 1 : S10240x128.Idx → EReal) = (Spec.gmean25 (m (((c : Dev nD).tc : Thread nD τ).loc main_arg0)) (Spec.s2 (ArgAdj m c) (ArgBn m c) (ArgC1 m c) (ArgC2 m c))) :=
  (kv27_v67 m (outsG m hR) c).trans (by
    rw [kvOutsG_at3, kvOutsG_at4, kvOutsG_at5, kvOutsG_at6, kvOutsG_at7, kvOutsG_at8, kvOutsG_at9, kvOutsG_at10]; exact kvG25 m hR c)
theorem kvA12_2 (c : Dev nD) : (A12 m hR c 2 : S128x128.Idx → EReal) = m (((c : Dev nD).tc : Thread nD τ).loc main_arg6) := kv27_arg6 m (outsG m hR) c
theorem kvA12_3 (c : Dev nD) : (A12 m hR c 3 : S128x128.Idx → EReal) = m (((c : Dev nD).tc : Thread nD τ).loc main_arg5) := kv27_arg5 m (outsG m hR) c

theorem kvL12 (c : Dev nD) : (o12 m hR c : S10240x256.Idx → EReal) = (Spec.mlpRelu10240 (Spec.gath10240 (m (((c : Dev nD).tc : Thread nD τ).loc main_arg0)) (Spec.s1 (ArgAdj m c) (ArgBn m c) (ArgC1 m c))) (Spec.gmean25 (m (((c : Dev nD).tc : Thread nD τ).loc main_arg0)) (Spec.s2 (ArgAdj m c) (ArgBn m c) (ArgC1 m c) (ArgC2 m c))) (m (((c : Dev nD).tc : Thread nD τ).loc main_arg6)) (m (((c : Dev nD).tc : Thread nD τ).loc main_arg5))) := by
  show (dat12 (F := Ideal) (A12 m hR) c).arrAt 4 cfg12.N = _
  rw [val12 (A12 m hR) c, kvA12_0, kvA12_1, kvA12_2, kvA12_3]

theorem kvA13_0 (c : Dev nD) : (A13 m hR c 0 : S1024x256.Idx → EReal) = (Spec.mlpRelu1024 (Spec.gath1024 (m (((c : Dev nD).tc : Thread nD τ).loc main_arg0)) (m (((c : Dev nD).tc : Thread nD τ).loc main_arg2))) (Spec.gmean10 (m (((c : Dev nD).tc : Thread nD τ).loc main_arg0)) (Spec.s1 (ArgAdj m c) (ArgBn m c) (ArgC1 m c))) (m (((c : Dev nD).tc : Thread nD τ).loc main_arg6)) (m (((c : Dev nD).tc : Thread nD τ).loc main_arg5))) :=
  (kv30_v68 m (outsM m hR) c).trans ((kvOutsM_at11 m hR c).trans (kvL11 m hR c))
theorem kvA13_1 (c : Dev nD) : (A13 m hR c 1 : S1024x256.Idx → EReal) = Spec.mean10of (Spec.mlpRelu10240 (Spec.gath10240 (m (((c : Dev nD).tc : Thread nD τ).loc main_arg0)) (Spec.s1 (ArgAdj m c) (ArgBn m c) (ArgC1 m c))) (Spec.gmean25 (m (((c : Dev nD).tc : Thread nD τ).loc main_arg0)) (Spec.s2 (ArgAdj m c) (ArgBn m c) (ArgC1 m c) (ArgC2 m c))) (m (((c : Dev nD).tc : Thread nD τ).loc main_arg6)) (m (((c : Dev nD).tc : Thread nD τ).loc main_arg5))) :=
  (kv30_v73 m (outsM m hR) c).trans (by
    rw [kvOutsM_at12, kvL12]
    exact Spec.mean10of_host _ _ _ _ _)
theorem kvA13_2 (c : Dev nD) : (A13 m hR c 2 : S256x128.Idx → EReal) = m (((c : Dev nD).tc : Thread nD τ).loc main_arg8) := kv30_arg8 m (outsM m hR) c
theorem kvA13_3 (c : Dev nD) : (A13 m hR c 3 : S256x128.Idx → EReal) = m (((c : Dev nD).tc : Thread nD τ).loc main_arg7) := kv30_arg7 m (outsM m hR) c

theorem kernel_value (c : Dev nD) :
    (o13 (F := Ideal) m hR c : S1024x256.Idx → EReal)
      = Spec.OUT (m (((c : Dev nD).tc : Thread nD τ).loc main_arg0)) (m (((c : Dev nD).tc : Thread nD τ).loc main_arg2)) (Spec.s1 (ArgAdj m c) (ArgBn m c) (ArgC1 m c)) (Spec.s2 (ArgAdj m c) (ArgBn m c) (ArgC1 m c) (ArgC2 m c))
          (m (((c : Dev nD).tc : Thread nD τ).loc main_arg5)) (m (((c : Dev nD).tc : Thread nD τ).loc main_arg6)) (m (((c : Dev nD).tc : Thread nD τ).loc main_arg7)) (m (((c : Dev nD).tc : Thread nD τ).loc main_arg8)) := by
  show (dat13 (F := Ideal) (A13 m hR) c).arrAt 4 cfg13.N = _
  rw [val13 (A13 m hR) c, kvA13_0, kvA13_1, kvA13_2, kvA13_3]
  rfl

end Cert.KernelIdeal.Hand

end
-- ==== Proof.RefCut.lean ====
import proofs.«401580_j65068754534945_2_alg».proof.Proof.RefRun
import Idealize.ShloMosaic.Lib.Pipeline.Frame

/-! The reference's operations cut into an index part and a float part: running the line is running one after the other. -/

noncomputable section

namespace Cert.ReferenceIdeal.RefValue

open Cert.ReferenceIdeal Cert.ReferenceIdeal.Gen Idealize.ShloMosaic Idealize.ShloMosaic.TcCoe Idealize.SL.Sem
open Idealize.ShloMosaic.StableHlo

variable {F : FTy → Type} [FloatOps F]

abbrev opsA : List (HloOp τ sig (Elt F)) :=
  [ nullary main_c (constantI S_ 32 0#32),
    unary main_c main_v0 (broadcastInDim S1024 ![] bcast_S_S1024 : (⟨S_, .i32⟩ : BufTy).Contents (Elt F) → (⟨S1024, .i32⟩ : BufTy).Contents (Elt F)),
    binary main_arg2 main_v0 main_v1 (cmpi .slt : (⟨S1024, .i32⟩ : BufTy).Contents (Elt F) → (⟨S1024, .i32⟩ : BufTy).Contents (Elt F) → (⟨S1024, .i1⟩ : BufTy).Contents (Elt F)),
    nullary main_c_0 (constantI S_ 32 500000#32),
    unary main_c_0 main_v2 (broadcastInDim S1024 ![] bcast_S_S1024 : (⟨S_, .i32⟩ : BufTy).Contents (Elt F) → (⟨S1024, .i32⟩ : BufTy).Contents (Elt F)),
    binary main_arg2 main_v2 main_v3 (addi : (⟨S1024, .i32⟩ : BufTy).Contents (Elt F) → (⟨S1024, .i32⟩ : BufTy).Contents (Elt F) → (⟨S1024, .i32⟩ : BufTy).Contents (Elt F)),
    ternary main_v1 main_v3 main_arg2 main_v4 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v4 main_v5 (broadcastInDim S1024x1 ![0] bcast_S1024_S1024x1_0 : (⟨S1024, .i32⟩ : BufTy).Contents (Elt F) → (⟨S1024x1, .i32⟩ : BufTy).Contents (Elt F)),
    binary main_arg1 main_v5 main_v6 ((fun x i => Host.gather gather_S500000x128_S1024x1_S1024x128_1_0_n_n_0_1_1128 x i) : (⟨S500000x128, .i32⟩ : BufTy).Contents (Elt F) → (⟨S1024x1, .i32⟩ : BufTy).Contents (Elt F) → (⟨S1024x128, .i32⟩ : BufTy).Contents (Elt F)),
    TRef.nullary (TRef.of (T := ⟨S_, .i32⟩) main_call0_c) (constantI S_ 32 0#32),
    TRef.unary (TRef.of (T := ⟨S_, .i32⟩) main_call0_c) (TRef.of (T := ⟨S1024x10, .i32⟩) main_call0_v0) (broadcastInDim S1024x10 ![] bcast_S_S1024x10),
    TRef.binary (TRef.of (T := ⟨S1024x10, .i32⟩) main_arg3) (TRef.of (T := ⟨S1024x10, .i32⟩) main_call0_v0) (TRef.of (T := ⟨S1024x10, .i1⟩) main_call0_v1) (cmpi .slt),
    TRef.nullary (TRef.of (T := ⟨S_, .i32⟩) main_call0_c_0) (constantI S_ 32 128#32),
    TRef.unary (TRef.of (T := ⟨S_, .i32⟩) main_call0_c_0) (TRef.of (T := ⟨S1024x10, .i32⟩) main_call0_v2) (broadcastInDim S1024x10 ![] bcast_S_S1024x10),
    TRef.binary (TRef.of (T := ⟨S1024x10, .i32⟩) main_arg3) (TRef.of (T := ⟨S1024x10, .i32⟩) main_call0_v2) (TRef.of (T := ⟨S1024x10, .i32⟩) main_call0_v3) addi,
    TRef.ternary (TRef.of (T := ⟨S1024x10, .i1⟩) main_call0_v1) (TRef.of (T := ⟨S1024x10, .i32⟩) main_call0_v3) (TRef.of (T := ⟨S1024x10, .i32⟩) main_arg3) (TRef.of (T := ⟨S1024x10, .i32⟩) main_call0_v4) select,
    TRef.reshape (TRef.of (T := ⟨S1024x10, .i32⟩) main_call0_v4) (TRef.of (T := ⟨S1024x10x1, .i32⟩) main_call0_v5) rfl shapeCasts_S1024x10_S1024x10x1,
    TRef.nullary (TRef.of (T := ⟨S1, .i32⟩) main_call0_c_1) (constantI S1 32 127#32),
    TRef.nullary (TRef.of (T := ⟨S_, .i32⟩) main_call0_c_2) (constantI S_ 32 0#32),
    TRef.unary (TRef.of (T := ⟨S_, .i32⟩) main_call0_c_2) (TRef.of (T := ⟨S1024x10x1, .i32⟩) main_call0_v6) (broadcastInDim S1024x10x1 ![] bcast_S_S1024x10x1),
    TRef.binary (TRef.of (T := ⟨S1024x10x1, .i32⟩) main_call0_v5) (TRef.of (T := ⟨S1024x10x1, .i32⟩) main_call0_v6) (TRef.of (T := ⟨S1024x10x1, .i1⟩) main_call0_v7) (cmpi .sge),
    TRef.unary (TRef.of (T := ⟨S1, .i32⟩) main_call0_c_1) (TRef.of (T := ⟨S1x1x1, .i32⟩) main_call0_v8) (broadcastInDim S1x1x1 ![2] bcast_S1_S1x1x1_2),
    TRef.unary (TRef.of (T := ⟨S1x1x1, .i32⟩) main_call0_v8) (TRef.of (T := ⟨S1024x10x1, .i32⟩) main_call0_v9) (broadcastInDim S1024x10x1 ![0, 1, 2] bcast_S1x1x1_S1024x10x1_0_1_2),
    TRef.binary (TRef.of (T := ⟨S1024x10x1, .i32⟩) main_call0_v5) (TRef.of (T := ⟨S1024x10x1, .i32⟩) main_call0_v9) (TRef.of (T := ⟨S1024x10x1, .i1⟩) main_call0_v10) (cmpi .sle),
    TRef.binary (TRef.of (T := ⟨S1024x10x1, .i1⟩) main_call0_v7) (TRef.of (T := ⟨S1024x10x1, .i1⟩) main_call0_v10) (TRef.of (T := ⟨S1024x10x1, .i1⟩) main_call0_v11) andi,
    TRef.nullary (TRef.of (T := ⟨S_, .i1⟩) main_call0_c_3) (constantI S_ 1 1#1),
    TRef.binary (TRef.of (T := ⟨S1024x10x1, .i1⟩) main_call0_v11) (TRef.of (T := ⟨S_, .i1⟩) main_call0_c_3) (TRef.of (T := ⟨S1024x10, .i1⟩) main_call0_v12) (fun x v => Host.reduce IntOp.andi x v reducesTo_S1024x10x1_S1024x10_d2 h_S_),
    TRef.binary (TRef.of (T := ⟨S1024x128, .i32⟩) main_v6) (TRef.of (T := ⟨S1024x10x1, .i32⟩) main_call0_v5) (TRef.of (T := ⟨S1024x10, .i32⟩) main_call0_v13) (fun x i => Host.gather gather_S1024x128_S1024x10x1_S1024x10_n_1_0_0_1_2_11 x i),
    TRef.nullary (TRef.of (T := ⟨S_, .i32⟩) main_call0_c_4) (constantI S_ 32 2147483648#32),
    TRef.unary (TRef.of (T := ⟨S_, .i32⟩) main_call0_c_4) (TRef.of (T := ⟨S1024x10, .i32⟩) main_call0_v14) (broadcastInDim S1024x10 ![] bcast_S_S1024x10),
    TRef.ternary (TRef.of (T := ⟨S1024x10, .i1⟩) main_call0_v12) (TRef.of (T := ⟨S1024x10, .i32⟩) main_call0_v13) (TRef.of (T := ⟨S1024x10, .i32⟩) main_call0_v14) (TRef.of (T := ⟨S1024x10, .i32⟩) main_v7) select,
    reshape main_v7 main_v8 rfl shapeCasts_S1024x10_S10240,
    nullary main_c_1 (constantI S_ 32 0#32),
    unary main_c_1 main_v9 (broadcastInDim S10240 ![] bcast_S_S10240 : (⟨S_, .i32⟩ : BufTy).Contents (Elt F) → (⟨S10240, .i32⟩ : BufTy).Contents (Elt F)),
    binary main_v8 main_v9 main_v10 (cmpi .slt : (⟨S10240, .i32⟩ : BufTy).Contents (Elt F) → (⟨S10240, .i32⟩ : BufTy).Contents (Elt F) → (⟨S10240, .i1⟩ : BufTy).Contents (Elt F)),
    nullary main_c_2 (constantI S_ 32 500000#32),
    unary main_c_2 main_v11 (broadcastInDim S10240 ![] bcast_S_S10240 : (⟨S_, .i32⟩ : BufTy).Contents (Elt F) → (⟨S10240, .i32⟩ : BufTy).Contents (Elt F)),
    binary main_v8 main_v11 main_v12 (addi : (⟨S10240, .i32⟩ : BufTy).Contents (Elt F) → (⟨S10240, .i32⟩ : BufTy).Contents (Elt F) → (⟨S10240, .i32⟩ : BufTy).Contents (Elt F)),
    ternary main_v10 main_v12 main_v8 main_v13 (select : (⟨S10240, .i1⟩ : BufTy).Contents (Elt F) → (⟨S10240, .i32⟩ : BufTy).Contents (Elt F) → (⟨S10240, .i32⟩ : BufTy).Contents (Elt F) → (⟨S10240, .i32⟩ : BufTy).Contents (Elt F)),
    unary main_v13 main_v14 (broadcastInDim S10240x1 ![0] bcast_S10240_S10240x1_0 : (⟨S10240, .i32⟩ : BufTy).Contents (Elt F) → (⟨S10240x1, .i32⟩ : BufTy).Contents (Elt F)),
    binary main_arg1 main_v14 main_v15 ((fun x i => Host.gather gather_S500000x128_S10240x1_S10240x128_1_0_n_n_0_1_1128 x i) : (⟨S500000x128, .i32⟩ : BufTy).Contents (Elt F) → (⟨S10240x1, .i32⟩ : BufTy).Contents (Elt F) → (⟨S10240x128, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S10240x25, .i32⟩) main_call1_v0) (broadcastInDim S10240x25 ![] bcast_S_S10240x25),
    TRef.binary (TRef.of (T := ⟨S10240x25, .i32⟩) main_arg4) (TRef.of (T := ⟨S10240x25, .i32⟩) main_call1_v0) (TRef.of (T := ⟨S10240x25, .i1⟩) main_call1_v1) (cmpi .slt),
    TRef.nullary (TRef.of (T := ⟨S_, .i32⟩) main_call1_c_0) (constantI S_ 32 128#32),
    TRef.unary (TRef.of (T := ⟨S_, .i32⟩) main_call1_c_0) (TRef.of (T := ⟨S10240x25, .i32⟩) main_call1_v2) (broadcastInDim S10240x25 ![] bcast_S_S10240x25),
    TRef.binary (TRef.of (T := ⟨S10240x25, .i32⟩) main_arg4) (TRef.of (T := ⟨S10240x25, .i32⟩) main_call1_v2) (TRef.of (T := ⟨S10240x25, .i32⟩) main_call1_v3) addi,
    TRef.ternary (TRef.of (T := ⟨S10240x25, .i1⟩) main_call1_v1) (TRef.of (T := ⟨S10240x25, .i32⟩) main_call1_v3) (TRef.of (T := ⟨S10240x25, .i32⟩) main_arg4) (TRef.of (T := ⟨S10240x25, .i32⟩) main_call1_v4) select,
    TRef.reshape (TRef.of (T := ⟨S10240x25, .i32⟩) main_call1_v4) (TRef.of (T := ⟨S10240x25x1, .i32⟩) main_call1_v5) rfl shapeCasts_S10240x25_S10240x25x1,
    TRef.nullary (TRef.of (T := ⟨S1, .i32⟩) main_call1_c_1) (constantI S1 32 127#32),
    TRef.nullary (TRef.of (T := ⟨S_, .i32⟩) main_call1_c_2) (constantI S_ 32 0#32),
    TRef.unary (TRef.of (T := ⟨S_, .i32⟩) main_call1_c_2) (TRef.of (T := ⟨S10240x25x1, .i32⟩) main_call1_v6) (broadcastInDim S10240x25x1 ![] bcast_S_S10240x25x1),
    TRef.binary (TRef.of (T := ⟨S10240x25x1, .i32⟩) main_call1_v5) (TRef.of (T := ⟨S10240x25x1, .i32⟩) main_call1_v6) (TRef.of (T := ⟨S10240x25x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S10240x25x1, .i32⟩) main_call1_v9) (broadcastInDim S10240x25x1 ![0, 1, 2] bcast_S1x1x1_S10240x25x1_0_1_2),
    TRef.binary (TRef.of (T := ⟨S10240x25x1, .i32⟩) main_call1_v5) (TRef.of (T := ⟨S10240x25x1, .i32⟩) main_call1_v9) (TRef.of (T := ⟨S10240x25x1, .i1⟩) main_call1_v10) (cmpi .sle),
    TRef.binary (TRef.of (T := ⟨S10240x25x1, .i1⟩) main_call1_v7) (TRef.of (T := ⟨S10240x25x1, .i1⟩) main_call1_v10) (TRef.of (T := ⟨S10240x25x1, .i1⟩) main_call1_v11) andi,
    TRef.nullary (TRef.of (T := ⟨S_, .i1⟩) main_call1_c_3) (constantI S_ 1 1#1),
    TRef.binary (TRef.of (T := ⟨S10240x25x1, .i1⟩) main_call1_v11) (TRef.of (T := ⟨S_, .i1⟩) main_call1_c_3) (TRef.of (T := ⟨S10240x25, .i1⟩) main_call1_v12) (fun x v => Host.reduce IntOp.andi x v reducesTo_S10240x25x1_S10240x25_d2 h_S_),
    TRef.binary (TRef.of (T := ⟨S10240x128, .i32⟩) main_v15) (TRef.of (T := ⟨S10240x25x1, .i32⟩) main_call1_v5) (TRef.of (T := ⟨S10240x25, .i32⟩) main_call1_v13) (fun x i => Host.gather gather_S10240x128_S10240x25x1_S10240x25_n_1_0_0_1_2_11 x i),
    TRef.nullary (TRef.of (T := ⟨S_, .i32⟩) main_call1_c_4) (constantI S_ 32 2147483648#32),
    TRef.unary (TRef.of (T := ⟨S_, .i32⟩) main_call1_c_4) (TRef.of (T := ⟨S10240x25, .i32⟩) main_call1_v14) (broadcastInDim S10240x25 ![] bcast_S_S10240x25),
    TRef.ternary (TRef.of (T := ⟨S10240x25, .i1⟩) main_call1_v12) (TRef.of (T := ⟨S10240x25, .i32⟩) main_call1_v13) (TRef.of (T := ⟨S10240x25, .i32⟩) main_call1_v14) (TRef.of (T := ⟨S10240x25, .i32⟩) main_v16) select,
    reshape main_v16 main_v17 rfl shapeCasts_S10240x25_S256000 ]

abbrev opsB : List (HloOp τ sig (Elt F)) :=
  [ nullary main_c_3 (constantI S_ 32 0#32),
    unary main_c_3 main_v18 (broadcastInDim S1024 ![] bcast_S_S1024 : (⟨S_, .i32⟩ : BufTy).Contents (Elt F) → (⟨S1024, .i32⟩ : BufTy).Contents (Elt F)),
    binary main_arg2 main_v18 main_v19 (cmpi .slt : (⟨S1024, .i32⟩ : BufTy).Contents (Elt F) → (⟨S1024, .i32⟩ : BufTy).Contents (Elt F) → (⟨S1024, .i1⟩ : BufTy).Contents (Elt F)),
    nullary main_c_4 (constantI S_ 32 500000#32),
    unary main_c_4 main_v20 (broadcastInDim S1024 ![] bcast_S_S1024 : (⟨S_, .i32⟩ : BufTy).Contents (Elt F) → (⟨S1024, .i32⟩ : BufTy).Contents (Elt F)),
    binary main_arg2 main_v20 main_v21 (addi : (⟨S1024, .i32⟩ : BufTy).Contents (Elt F) → (⟨S1024, .i32⟩ : BufTy).Contents (Elt F) → (⟨S1024, .i32⟩ : BufTy).Contents (Elt F)),
    ternary main_v19 main_v21 main_arg2 main_v22 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v22 main_v23 (broadcastInDim S1024x1 ![0] bcast_S1024_S1024x1_0 : (⟨S1024, .i32⟩ : BufTy).Contents (Elt F) → (⟨S1024x1, .i32⟩ : BufTy).Contents (Elt F)),
    binary main_arg0 main_v23 main_v24 ((fun x i => Host.gather gather_S500000x128_S1024x1_S1024x128_1_0_n_n_0_1_1128 x i) : (⟨S500000x128, .f32⟩ : BufTy).Contents (Elt F) → (⟨S1024x1, .i32⟩ : BufTy).Contents (Elt F) → (⟨S1024x128, .f32⟩ : BufTy).Contents (Elt F)),
    nullary main_c_5 (constantI S_ 32 0#32),
    unary main_c_5 main_v25 (broadcastInDim S10240 ![] bcast_S_S10240 : (⟨S_, .i32⟩ : BufTy).Contents (Elt F) → (⟨S10240, .i32⟩ : BufTy).Contents (Elt F)),
    binary main_v8 main_v25 main_v26 (cmpi .slt : (⟨S10240, .i32⟩ : BufTy).Contents (Elt F) → (⟨S10240, .i32⟩ : BufTy).Contents (Elt F) → (⟨S10240, .i1⟩ : BufTy).Contents (Elt F)),
    nullary main_c_6 (constantI S_ 32 500000#32),
    unary main_c_6 main_v27 (broadcastInDim S10240 ![] bcast_S_S10240 : (⟨S_, .i32⟩ : BufTy).Contents (Elt F) → (⟨S10240, .i32⟩ : BufTy).Contents (Elt F)),
    binary main_v8 main_v27 main_v28 (addi : (⟨S10240, .i32⟩ : BufTy).Contents (Elt F) → (⟨S10240, .i32⟩ : BufTy).Contents (Elt F) → (⟨S10240, .i32⟩ : BufTy).Contents (Elt F)),
    ternary main_v26 main_v28 main_v8 main_v29 (select : (⟨S10240, .i1⟩ : BufTy).Contents (Elt F) → (⟨S10240, .i32⟩ : BufTy).Contents (Elt F) → (⟨S10240, .i32⟩ : BufTy).Contents (Elt F) → (⟨S10240, .i32⟩ : BufTy).Contents (Elt F)),
    unary main_v29 main_v30 (broadcastInDim S10240x1 ![0] bcast_S10240_S10240x1_0 : (⟨S10240, .i32⟩ : BufTy).Contents (Elt F) → (⟨S10240x1, .i32⟩ : BufTy).Contents (Elt F)),
    binary main_arg0 main_v30 main_v31 ((fun x i => Host.gather gather_S500000x128_S10240x1_S10240x128_1_0_n_n_0_1_1128 x i) : (⟨S500000x128, .f32⟩ : BufTy).Contents (Elt F) → (⟨S10240x1, .i32⟩ : BufTy).Contents (Elt F) → (⟨S10240x128, .f32⟩ : BufTy).Contents (Elt F)),
    nullary main_c_7 (constantI S_ 32 0#32),
    unary main_c_7 main_v32 (broadcastInDim S256000 ![] bcast_S_S256000 : (⟨S_, .i32⟩ : BufTy).Contents (Elt F) → (⟨S256000, .i32⟩ : BufTy).Contents (Elt F)),
    binary main_v17 main_v32 main_v33 (cmpi .slt : (⟨S256000, .i32⟩ : BufTy).Contents (Elt F) → (⟨S256000, .i32⟩ : BufTy).Contents (Elt F) → (⟨S256000, .i1⟩ : BufTy).Contents (Elt F)),
    nullary main_c_8 (constantI S_ 32 500000#32),
    unary main_c_8 main_v34 (broadcastInDim S256000 ![] bcast_S_S256000 : (⟨S_, .i32⟩ : BufTy).Contents (Elt F) → (⟨S256000, .i32⟩ : BufTy).Contents (Elt F)),
    binary main_v17 main_v34 main_v35 (addi : (⟨S256000, .i32⟩ : BufTy).Contents (Elt F) → (⟨S256000, .i32⟩ : BufTy).Contents (Elt F) → (⟨S256000, .i32⟩ : BufTy).Contents (Elt F)),
    ternary main_v33 main_v35 main_v17 main_v36 (select : (⟨S256000, .i1⟩ : BufTy).Contents (Elt F) → (⟨S256000, .i32⟩ : BufTy).Contents (Elt F) → (⟨S256000, .i32⟩ : BufTy).Contents (Elt F) → (⟨S256000, .i32⟩ : BufTy).Contents (Elt F)),
    unary main_v36 main_v37 (broadcastInDim S256000x1 ![0] bcast_S256000_S256000x1_0 : (⟨S256000, .i32⟩ : BufTy).Contents (Elt F) → (⟨S256000x1, .i32⟩ : BufTy).Contents (Elt F)),
    binary main_arg0 main_v37 main_v38 ((fun x i => Host.gather gather_S500000x128_S256000x1_S256000x128_1_0_n_n_0_1_1128 x i) : (⟨S500000x128, .f32⟩ : BufTy).Contents (Elt F) → (⟨S256000x1, .i32⟩ : BufTy).Contents (Elt F) → (⟨S256000x128, .f32⟩ : BufTy).Contents (Elt F)),
    reshape main_v31 main_v39 rfl shapeCasts_S10240x128_S1024x10x128,
    nullary main_cst (constant S_ .f32 0x00000000#32),
    binary main_v39 main_cst main_v40 ((fun x v => Host.reduceAdd x v reducesTo_S1024x10x128_S1024x128_d1 h_S_) : (⟨S1024x10x128, .f32⟩ : BufTy).Contents (Elt F) → (⟨S_, .f32⟩ : BufTy).Contents (Elt F) → (⟨S1024x128, .f32⟩ : BufTy).Contents (Elt F)),
    nullary main_cst_9 (constant S_ .f32 0x41200000#32),
    unary main_cst_9 main_v41 (broadcastInDim S1024x128 ![] bcast_S_S1024x128 : (⟨S_, .f32⟩ : BufTy).Contents (Elt F) → (⟨S1024x128, .f32⟩ : BufTy).Contents (Elt F)),
    binary main_v40 main_v41 main_v42 (Host.divf : (⟨S1024x128, .f32⟩ : BufTy).Contents (Elt F) → (⟨S1024x128, .f32⟩ : BufTy).Contents (Elt F) → (⟨S1024x128, .f32⟩ : BufTy).Contents (Elt F)),
    binary main_v42 main_arg5 main_v43 ((fun l r => Host.dotGeneral dot_S1024x128_S128x128_S1024x128_1_0_0_1_n_n none l r) : (⟨S1024x128, .f32⟩ : BufTy).Contents (Elt F) → (⟨S128x128, .f32⟩ : BufTy).Contents (Elt F) → (⟨S1024x128, .f32⟩ : BufTy).Contents (Elt F)),
    binary main_v24 main_arg6 main_v44 ((fun l r => Host.dotGeneral dot_S1024x128_S128x128_S1024x128_1_0_0_1_n_n none l r) : (⟨S1024x128, .f32⟩ : BufTy).Contents (Elt F) → (⟨S128x128, .f32⟩ : BufTy).Contents (Elt F) → (⟨S1024x128, .f32⟩ : BufTy).Contents (Elt F)),
    binary main_v44 main_v43 main_v45 ((fun a b => concatenate S1024x256 1 [⟨S1024x128, a⟩, ⟨S1024x128, b⟩] concatenates_S1024x128_S1024x128_S1024x256_d1) : (⟨S1024x128, .f32⟩ : BufTy).Contents (Elt F) → (⟨S1024x128, .f32⟩ : BufTy).Contents (Elt F) → (⟨S1024x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S1024x256, .f32⟩) main_call2_v0) (broadcastInDim S1024x256 ![] bcast_S_S1024x256),
    TRef.binary (TRef.of (T := ⟨S1024x256, .f32⟩) main_v45) (TRef.of (T := ⟨S1024x256, .f32⟩) main_call2_v0) (TRef.of (T := ⟨S1024x256, .f32⟩) main_v46) maximumf,
    reshape main_v38 main_v47 rfl shapeCasts_S256000x128_S10240x25x128,
    nullary main_cst_10 (constant S_ .f32 0x00000000#32),
    binary main_v47 main_cst_10 main_v48 ((fun x v => Host.reduceAdd x v reducesTo_S10240x25x128_S10240x128_d1 h_S_) : (⟨S10240x25x128, .f32⟩ : BufTy).Contents (Elt F) → (⟨S_, .f32⟩ : BufTy).Contents (Elt F) → (⟨S10240x128, .f32⟩ : BufTy).Contents (Elt F)),
    nullary main_cst_11 (constant S_ .f32 0x41C80000#32),
    unary main_cst_11 main_v49 (broadcastInDim S10240x128 ![] bcast_S_S10240x128 : (⟨S_, .f32⟩ : BufTy).Contents (Elt F) → (⟨S10240x128, .f32⟩ : BufTy).Contents (Elt F)),
    binary main_v48 main_v49 main_v50 (Host.divf : (⟨S10240x128, .f32⟩ : BufTy).Contents (Elt F) → (⟨S10240x128, .f32⟩ : BufTy).Contents (Elt F) → (⟨S10240x128, .f32⟩ : BufTy).Contents (Elt F)),
    binary main_v50 main_arg5 main_v51 ((fun l r => Host.dotGeneral dot_S10240x128_S128x128_S10240x128_1_0_0_1_n_n none l r) : (⟨S10240x128, .f32⟩ : BufTy).Contents (Elt F) → (⟨S128x128, .f32⟩ : BufTy).Contents (Elt F) → (⟨S10240x128, .f32⟩ : BufTy).Contents (Elt F)),
    binary main_v31 main_arg6 main_v52 ((fun l r => Host.dotGeneral dot_S10240x128_S128x128_S10240x128_1_0_0_1_n_n none l r) : (⟨S10240x128, .f32⟩ : BufTy).Contents (Elt F) → (⟨S128x128, .f32⟩ : BufTy).Contents (Elt F) → (⟨S10240x128, .f32⟩ : BufTy).Contents (Elt F)),
    binary main_v52 main_v51 main_v53 ((fun a b => concatenate S10240x256 1 [⟨S10240x128, a⟩, ⟨S10240x128, b⟩] concatenates_S10240x128_S10240x128_S10240x256_d1) : (⟨S10240x128, .f32⟩ : BufTy).Contents (Elt F) → (⟨S10240x128, .f32⟩ : BufTy).Contents (Elt F) → (⟨S10240x256, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S10240x256, .f32⟩) main_call3_v0) (broadcastInDim S10240x256 ![] bcast_S_S10240x256),
    TRef.binary (TRef.of (T := ⟨S10240x256, .f32⟩) main_v53) (TRef.of (T := ⟨S10240x256, .f32⟩) main_call3_v0) (TRef.of (T := ⟨S10240x256, .f32⟩) main_v54) maximumf,
    reshape main_v54 main_v55 rfl shapeCasts_S10240x256_S1024x10x256,
    nullary main_cst_12 (constant S_ .f32 0x00000000#32),
    binary main_v55 main_cst_12 main_v56 ((fun x v => Host.reduceAdd x v reducesTo_S1024x10x256_S1024x256_d1 h_S_) : (⟨S1024x10x256, .f32⟩ : BufTy).Contents (Elt F) → (⟨S_, .f32⟩ : BufTy).Contents (Elt F) → (⟨S1024x256, .f32⟩ : BufTy).Contents (Elt F)),
    nullary main_cst_13 (constant S_ .f32 0x41200000#32),
    unary main_cst_13 main_v57 (broadcastInDim S1024x256 ![] bcast_S_S1024x256 : (⟨S_, .f32⟩ : BufTy).Contents (Elt F) → (⟨S1024x256, .f32⟩ : BufTy).Contents (Elt F)),
    binary main_v56 main_v57 main_v58 (Host.divf : (⟨S1024x256, .f32⟩ : BufTy).Contents (Elt F) → (⟨S1024x256, .f32⟩ : BufTy).Contents (Elt F) → (⟨S1024x256, .f32⟩ : BufTy).Contents (Elt F)),
    binary main_v58 main_arg7 main_v59 ((fun l r => Host.dotGeneral dot_S1024x256_S256x128_S1024x128_1_0_0_1_n_n none l r) : (⟨S1024x256, .f32⟩ : BufTy).Contents (Elt F) → (⟨S256x128, .f32⟩ : BufTy).Contents (Elt F) → (⟨S1024x128, .f32⟩ : BufTy).Contents (Elt F)),
    binary main_v46 main_arg8 main_v60 ((fun l r => Host.dotGeneral dot_S1024x256_S256x128_S1024x128_1_0_0_1_n_n none l r) : (⟨S1024x256, .f32⟩ : BufTy).Contents (Elt F) → (⟨S256x128, .f32⟩ : BufTy).Contents (Elt F) → (⟨S1024x128, .f32⟩ : BufTy).Contents (Elt F)),
    binary main_v60 main_v59 main_v61 ((fun a b => concatenate S1024x256 1 [⟨S1024x128, a⟩, ⟨S1024x128, b⟩] concatenates_S1024x128_S1024x128_S1024x256_d1) : (⟨S1024x128, .f32⟩ : BufTy).Contents (Elt F) → (⟨S1024x128, .f32⟩ : BufTy).Contents (Elt F) → (⟨S1024x256, .f32⟩ : BufTy).Contents (Elt F)) ]

set_option maxHeartbeats 4000000 in
theorem ops_cut : (Cert.ReferenceIdeal.Value.ops : List (HloOp τ sig (Elt F))) = opsA ++ opsB := rfl

theorem after_cut (V : Valuation τ sig (Elt F)) :
    after (Cert.ReferenceIdeal.Value.ops (F := F)) V = after opsB (after opsA V) := by
  rw [ops_cut, after_append]

end Cert.ReferenceIdeal.RefValue

end
-- ==== Proof.RefIdx.lean ====
import proofs.«401580_j65068754534945_2_alg».proof.Proof.RefCut
import proofs.«401580_j65068754534945_2_alg».proof.Proof.SpecIdx

/-! The index part of the reference leaves the specification's two neighbour lists and writes no argument. -/

noncomputable section

namespace Cert.ReferenceIdeal.RefValue

open Cert.ReferenceIdeal Cert.ReferenceIdeal.Gen Idealize.ShloMosaic Idealize.ShloMosaic.TcCoe Idealize.SL.Sem
open Idealize.ShloMosaic.StableHlo

variable {F : FTy → Type} [FloatOps F]

abbrev opsA1 : List (HloOp τ sig (Elt F)) :=
  [ nullary main_c (constantI S_ 32 0#32),
    unary main_c main_v0 (broadcastInDim S1024 ![] bcast_S_S1024 : (⟨S_, .i32⟩ : BufTy).Contents (Elt F) → (⟨S1024, .i32⟩ : BufTy).Contents (Elt F)),
    binary main_arg2 main_v0 main_v1 (cmpi .slt : (⟨S1024, .i32⟩ : BufTy).Contents (Elt F) → (⟨S1024, .i32⟩ : BufTy).Contents (Elt F) → (⟨S1024, .i1⟩ : BufTy).Contents (Elt F)),
    nullary main_c_0 (constantI S_ 32 500000#32),
    unary main_c_0 main_v2 (broadcastInDim S1024 ![] bcast_S_S1024 : (⟨S_, .i32⟩ : BufTy).Contents (Elt F) → (⟨S1024, .i32⟩ : BufTy).Contents (Elt F)),
    binary main_arg2 main_v2 main_v3 (addi : (⟨S1024, .i32⟩ : BufTy).Contents (Elt F) → (⟨S1024, .i32⟩ : BufTy).Contents (Elt F) → (⟨S1024, .i32⟩ : BufTy).Contents (Elt F)),
    ternary main_v1 main_v3 main_arg2 main_v4 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v4 main_v5 (broadcastInDim S1024x1 ![0] bcast_S1024_S1024x1_0 : (⟨S1024, .i32⟩ : BufTy).Contents (Elt F) → (⟨S1024x1, .i32⟩ : BufTy).Contents (Elt F)),
    binary main_arg1 main_v5 main_v6 ((fun x i => Host.gather gather_S500000x128_S1024x1_S1024x128_1_0_n_n_0_1_1128 x i) : (⟨S500000x128, .i32⟩ : BufTy).Contents (Elt F) → (⟨S1024x1, .i32⟩ : BufTy).Contents (Elt F) → (⟨S1024x128, .i32⟩ : BufTy).Contents (Elt F)) ]

abbrev opsA2 : List (HloOp τ sig (Elt F)) :=
  [ TRef.nullary (TRef.of (T := ⟨S_, .i32⟩) main_call0_c) (constantI S_ 32 0#32),
    TRef.unary (TRef.of (T := ⟨S_, .i32⟩) main_call0_c) (TRef.of (T := ⟨S1024x10, .i32⟩) main_call0_v0) (broadcastInDim S1024x10 ![] bcast_S_S1024x10),
    TRef.binary (TRef.of (T := ⟨S1024x10, .i32⟩) main_arg3) (TRef.of (T := ⟨S1024x10, .i32⟩) main_call0_v0) (TRef.of (T := ⟨S1024x10, .i1⟩) main_call0_v1) (cmpi .slt),
    TRef.nullary (TRef.of (T := ⟨S_, .i32⟩) main_call0_c_0) (constantI S_ 32 128#32),
    TRef.unary (TRef.of (T := ⟨S_, .i32⟩) main_call0_c_0) (TRef.of (T := ⟨S1024x10, .i32⟩) main_call0_v2) (broadcastInDim S1024x10 ![] bcast_S_S1024x10),
    TRef.binary (TRef.of (T := ⟨S1024x10, .i32⟩) main_arg3) (TRef.of (T := ⟨S1024x10, .i32⟩) main_call0_v2) (TRef.of (T := ⟨S1024x10, .i32⟩) main_call0_v3) addi,
    TRef.ternary (TRef.of (T := ⟨S1024x10, .i1⟩) main_call0_v1) (TRef.of (T := ⟨S1024x10, .i32⟩) main_call0_v3) (TRef.of (T := ⟨S1024x10, .i32⟩) main_arg3) (TRef.of (T := ⟨S1024x10, .i32⟩) main_call0_v4) select,
    TRef.reshape (TRef.of (T := ⟨S1024x10, .i32⟩) main_call0_v4) (TRef.of (T := ⟨S1024x10x1, .i32⟩) main_call0_v5) rfl shapeCasts_S1024x10_S1024x10x1,
    TRef.nullary (TRef.of (T := ⟨S1, .i32⟩) main_call0_c_1) (constantI S1 32 127#32),
    TRef.nullary (TRef.of (T := ⟨S_, .i32⟩) main_call0_c_2) (constantI S_ 32 0#32),
    TRef.unary (TRef.of (T := ⟨S_, .i32⟩) main_call0_c_2) (TRef.of (T := ⟨S1024x10x1, .i32⟩) main_call0_v6) (broadcastInDim S1024x10x1 ![] bcast_S_S1024x10x1),
    TRef.binary (TRef.of (T := ⟨S1024x10x1, .i32⟩) main_call0_v5) (TRef.of (T := ⟨S1024x10x1, .i32⟩) main_call0_v6) (TRef.of (T := ⟨S1024x10x1, .i1⟩) main_call0_v7) (cmpi .sge),
    TRef.unary (TRef.of (T := ⟨S1, .i32⟩) main_call0_c_1) (TRef.of (T := ⟨S1x1x1, .i32⟩) main_call0_v8) (broadcastInDim S1x1x1 ![2] bcast_S1_S1x1x1_2),
    TRef.unary (TRef.of (T := ⟨S1x1x1, .i32⟩) main_call0_v8) (TRef.of (T := ⟨S1024x10x1, .i32⟩) main_call0_v9) (broadcastInDim S1024x10x1 ![0, 1, 2] bcast_S1x1x1_S1024x10x1_0_1_2),
    TRef.binary (TRef.of (T := ⟨S1024x10x1, .i32⟩) main_call0_v5) (TRef.of (T := ⟨S1024x10x1, .i32⟩) main_call0_v9) (TRef.of (T := ⟨S1024x10x1, .i1⟩) main_call0_v10) (cmpi .sle),
    TRef.binary (TRef.of (T := ⟨S1024x10x1, .i1⟩) main_call0_v7) (TRef.of (T := ⟨S1024x10x1, .i1⟩) main_call0_v10) (TRef.of (T := ⟨S1024x10x1, .i1⟩) main_call0_v11) andi,
    TRef.nullary (TRef.of (T := ⟨S_, .i1⟩) main_call0_c_3) (constantI S_ 1 1#1),
    TRef.binary (TRef.of (T := ⟨S1024x10x1, .i1⟩) main_call0_v11) (TRef.of (T := ⟨S_, .i1⟩) main_call0_c_3) (TRef.of (T := ⟨S1024x10, .i1⟩) main_call0_v12) (fun x v => Host.reduce IntOp.andi x v reducesTo_S1024x10x1_S1024x10_d2 h_S_),
    TRef.binary (TRef.of (T := ⟨S1024x128, .i32⟩) main_v6) (TRef.of (T := ⟨S1024x10x1, .i32⟩) main_call0_v5) (TRef.of (T := ⟨S1024x10, .i32⟩) main_call0_v13) (fun x i => Host.gather gather_S1024x128_S1024x10x1_S1024x10_n_1_0_0_1_2_11 x i),
    TRef.nullary (TRef.of (T := ⟨S_, .i32⟩) main_call0_c_4) (constantI S_ 32 2147483648#32),
    TRef.unary (TRef.of (T := ⟨S_, .i32⟩) main_call0_c_4) (TRef.of (T := ⟨S1024x10, .i32⟩) main_call0_v14) (broadcastInDim S1024x10 ![] bcast_S_S1024x10),
    TRef.ternary (TRef.of (T := ⟨S1024x10, .i1⟩) main_call0_v12) (TRef.of (T := ⟨S1024x10, .i32⟩) main_call0_v13) (TRef.of (T := ⟨S1024x10, .i32⟩) main_call0_v14) (TRef.of (T := ⟨S1024x10, .i32⟩) main_v7) select ]

abbrev opsA3 : List (HloOp τ sig (Elt F)) :=
  [ reshape main_v7 main_v8 rfl shapeCasts_S1024x10_S10240,
    nullary main_c_1 (constantI S_ 32 0#32),
    unary main_c_1 main_v9 (broadcastInDim S10240 ![] bcast_S_S10240 : (⟨S_, .i32⟩ : BufTy).Contents (Elt F) → (⟨S10240, .i32⟩ : BufTy).Contents (Elt F)),
    binary main_v8 main_v9 main_v10 (cmpi .slt : (⟨S10240, .i32⟩ : BufTy).Contents (Elt F) → (⟨S10240, .i32⟩ : BufTy).Contents (Elt F) → (⟨S10240, .i1⟩ : BufTy).Contents (Elt F)),
    nullary main_c_2 (constantI S_ 32 500000#32),
    unary main_c_2 main_v11 (broadcastInDim S10240 ![] bcast_S_S10240 : (⟨S_, .i32⟩ : BufTy).Contents (Elt F) → (⟨S10240, .i32⟩ : BufTy).Contents (Elt F)),
    binary main_v8 main_v11 main_v12 (addi : (⟨S10240, .i32⟩ : BufTy).Contents (Elt F) → (⟨S10240, .i32⟩ : BufTy).Contents (Elt F) → (⟨S10240, .i32⟩ : BufTy).Contents (Elt F)),
    ternary main_v10 main_v12 main_v8 main_v13 (select : (⟨S10240, .i1⟩ : BufTy).Contents (Elt F) → (⟨S10240, .i32⟩ : BufTy).Contents (Elt F) → (⟨S10240, .i32⟩ : BufTy).Contents (Elt F) → (⟨S10240, .i32⟩ : BufTy).Contents (Elt F)),
    unary main_v13 main_v14 (broadcastInDim S10240x1 ![0] bcast_S10240_S10240x1_0 : (⟨S10240, .i32⟩ : BufTy).Contents (Elt F) → (⟨S10240x1, .i32⟩ : BufTy).Contents (Elt F)),
    binary main_arg1 main_v14 main_v15 ((fun x i => Host.gather gather_S500000x128_S10240x1_S10240x128_1_0_n_n_0_1_1128 x i) : (⟨S500000x128, .i32⟩ : BufTy).Contents (Elt F) → (⟨S10240x1, .i32⟩ : BufTy).Contents (Elt F) → (⟨S10240x128, .i32⟩ : BufTy).Contents (Elt F)) ]

abbrev opsA4 : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S10240x25, .i32⟩) main_call1_v0) (broadcastInDim S10240x25 ![] bcast_S_S10240x25),
    TRef.binary (TRef.of (T := ⟨S10240x25, .i32⟩) main_arg4) (TRef.of (T := ⟨S10240x25, .i32⟩) main_call1_v0) (TRef.of (T := ⟨S10240x25, .i1⟩) main_call1_v1) (cmpi .slt),
    TRef.nullary (TRef.of (T := ⟨S_, .i32⟩) main_call1_c_0) (constantI S_ 32 128#32),
    TRef.unary (TRef.of (T := ⟨S_, .i32⟩) main_call1_c_0) (TRef.of (T := ⟨S10240x25, .i32⟩) main_call1_v2) (broadcastInDim S10240x25 ![] bcast_S_S10240x25),
    TRef.binary (TRef.of (T := ⟨S10240x25, .i32⟩) main_arg4) (TRef.of (T := ⟨S10240x25, .i32⟩) main_call1_v2) (TRef.of (T := ⟨S10240x25, .i32⟩) main_call1_v3) addi,
    TRef.ternary (TRef.of (T := ⟨S10240x25, .i1⟩) main_call1_v1) (TRef.of (T := ⟨S10240x25, .i32⟩) main_call1_v3) (TRef.of (T := ⟨S10240x25, .i32⟩) main_arg4) (TRef.of (T := ⟨S10240x25, .i32⟩) main_call1_v4) select,
    TRef.reshape (TRef.of (T := ⟨S10240x25, .i32⟩) main_call1_v4) (TRef.of (T := ⟨S10240x25x1, .i32⟩) main_call1_v5) rfl shapeCasts_S10240x25_S10240x25x1,
    TRef.nullary (TRef.of (T := ⟨S1, .i32⟩) main_call1_c_1) (constantI S1 32 127#32),
    TRef.nullary (TRef.of (T := ⟨S_, .i32⟩) main_call1_c_2) (constantI S_ 32 0#32),
    TRef.unary (TRef.of (T := ⟨S_, .i32⟩) main_call1_c_2) (TRef.of (T := ⟨S10240x25x1, .i32⟩) main_call1_v6) (broadcastInDim S10240x25x1 ![] bcast_S_S10240x25x1),
    TRef.binary (TRef.of (T := ⟨S10240x25x1, .i32⟩) main_call1_v5) (TRef.of (T := ⟨S10240x25x1, .i32⟩) main_call1_v6) (TRef.of (T := ⟨S10240x25x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S10240x25x1, .i32⟩) main_call1_v9) (broadcastInDim S10240x25x1 ![0, 1, 2] bcast_S1x1x1_S10240x25x1_0_1_2),
    TRef.binary (TRef.of (T := ⟨S10240x25x1, .i32⟩) main_call1_v5) (TRef.of (T := ⟨S10240x25x1, .i32⟩) main_call1_v9) (TRef.of (T := ⟨S10240x25x1, .i1⟩) main_call1_v10) (cmpi .sle),
    TRef.binary (TRef.of (T := ⟨S10240x25x1, .i1⟩) main_call1_v7) (TRef.of (T := ⟨S10240x25x1, .i1⟩) main_call1_v10) (TRef.of (T := ⟨S10240x25x1, .i1⟩) main_call1_v11) andi,
    TRef.nullary (TRef.of (T := ⟨S_, .i1⟩) main_call1_c_3) (constantI S_ 1 1#1),
    TRef.binary (TRef.of (T := ⟨S10240x25x1, .i1⟩) main_call1_v11) (TRef.of (T := ⟨S_, .i1⟩) main_call1_c_3) (TRef.of (T := ⟨S10240x25, .i1⟩) main_call1_v12) (fun x v => Host.reduce IntOp.andi x v reducesTo_S10240x25x1_S10240x25_d2 h_S_),
    TRef.binary (TRef.of (T := ⟨S10240x128, .i32⟩) main_v15) (TRef.of (T := ⟨S10240x25x1, .i32⟩) main_call1_v5) (TRef.of (T := ⟨S10240x25, .i32⟩) main_call1_v13) (fun x i => Host.gather gather_S10240x128_S10240x25x1_S10240x25_n_1_0_0_1_2_11 x i),
    TRef.nullary (TRef.of (T := ⟨S_, .i32⟩) main_call1_c_4) (constantI S_ 32 2147483648#32),
    TRef.unary (TRef.of (T := ⟨S_, .i32⟩) main_call1_c_4) (TRef.of (T := ⟨S10240x25, .i32⟩) main_call1_v14) (broadcastInDim S10240x25 ![] bcast_S_S10240x25),
    TRef.ternary (TRef.of (T := ⟨S10240x25, .i1⟩) main_call1_v12) (TRef.of (T := ⟨S10240x25, .i32⟩) main_call1_v13) (TRef.of (T := ⟨S10240x25, .i32⟩) main_call1_v14) (TRef.of (T := ⟨S10240x25, .i32⟩) main_v16) select ]

abbrev opsA5 : List (HloOp τ sig (Elt F)) :=
  [ reshape main_v16 main_v17 rfl shapeCasts_S10240x25_S256000 ]

theorem opsA_split : (opsA : List (HloOp τ sig (Elt F))) = opsA1 ++ (opsA2 ++ (opsA3 ++ (opsA4 ++ opsA5))) := rfl

local macro "wr" : tactic =>
  `(tactic| (simp only [StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.singleton_subset_iff, List.mem_toFinset]; exact List.mem_map_of_mem (by decide)))

abbrev opsA1_W : List (Ref sig .tc) := [main_c, main_v0, main_v1, main_c_0, main_v2, main_v3, main_v4, main_v5, main_v6]
theorem opsA1_writes : (opsA1 : List (HloOp τ sig (Elt F))).Forall fun op => op.writes ⊆ (opsA1_W.map (Proc.devRef (τ := τ) .tc)).toFinset := by
  simp only [List.Forall]; exact ⟨by wr, by wr, by wr, by wr, by wr, by wr, by wr, by wr, by wr⟩
theorem keepA1 (W : Valuation τ sig (Elt F)) (r : Ref sig .tc) (h : r ∉ opsA1_W) :
    after opsA1 W (Proc.devRef .tc r) = W (Proc.devRef .tc r) := after_of_writes_sub opsA1 W opsA1_writes h

abbrev opsA2_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_c_4, main_call0_v14, main_v7]
theorem opsA2_writes : (opsA2 : List (HloOp τ sig (Elt F))).Forall fun op => op.writes ⊆ (opsA2_W.map (Proc.devRef (τ := τ) .tc)).toFinset := by
  simp only [List.Forall]; exact ⟨by wr, by wr, by wr, by wr, by wr, by wr, by wr, by wr, by wr, by wr, by wr, by wr, by wr, by wr, by wr, by wr, by wr, by wr, by wr, by wr, by wr, by wr⟩
theorem keepA2 (W : Valuation τ sig (Elt F)) (r : Ref sig .tc) (h : r ∉ opsA2_W) :
    after opsA2 W (Proc.devRef .tc r) = W (Proc.devRef .tc r) := after_of_writes_sub opsA2 W opsA2_writes h

abbrev opsA3_W : List (Ref sig .tc) := [main_v8, main_c_1, main_v9, main_v10, main_c_2, main_v11, main_v12, main_v13, main_v14, main_v15]
theorem opsA3_writes : (opsA3 : List (HloOp τ sig (Elt F))).Forall fun op => op.writes ⊆ (opsA3_W.map (Proc.devRef (τ := τ) .tc)).toFinset := by
  simp only [List.Forall]; exact ⟨by wr, by wr, by wr, by wr, by wr, by wr, by wr, by wr, by wr, by wr⟩
theorem keepA3 (W : Valuation τ sig (Elt F)) (r : Ref sig .tc) (h : r ∉ opsA3_W) :
    after opsA3 W (Proc.devRef .tc r) = W (Proc.devRef .tc r) := after_of_writes_sub opsA3 W opsA3_writes h

abbrev opsA4_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_c_4, main_call1_v14, main_v16]
theorem opsA4_writes : (opsA4 : List (HloOp τ sig (Elt F))).Forall fun op => op.writes ⊆ (opsA4_W.map (Proc.devRef (τ := τ) .tc)).toFinset := by
  simp only [List.Forall]; exact ⟨by wr, by wr, by wr, by wr, by wr, by wr, by wr, by wr, by wr, by wr, by wr, by wr, by wr, by wr, by wr, by wr, by wr, by wr, by wr, by wr, by wr, by wr⟩
theorem keepA4 (W : Valuation τ sig (Elt F)) (r : Ref sig .tc) (h : r ∉ opsA4_W) :
    after opsA4 W (Proc.devRef .tc r) = W (Proc.devRef .tc r) := after_of_writes_sub opsA4 W opsA4_writes h

abbrev opsA5_W : List (Ref sig .tc) := [main_v17]
theorem opsA5_writes : (opsA5 : List (HloOp τ sig (Elt F))).Forall fun op => op.writes ⊆ (opsA5_W.map (Proc.devRef (τ := τ) .tc)).toFinset := by
  simp only [List.Forall]; exact (by wr)
theorem keepA5 (W : Valuation τ sig (Elt F)) (r : Ref sig .tc) (h : r ∉ opsA5_W) :
    after opsA5 W (Proc.devRef .tc r) = W (Proc.devRef .tc r) := after_of_writes_sub opsA5 W opsA5_writes h

abbrev opsA_W : List (Ref sig .tc) := [main_c, main_v0, main_v1, main_c_0, main_v2, main_v3, main_v4, main_v5, main_v6, main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_c_4, main_call0_v14, main_v7, main_v8, main_c_1, main_v9, main_v10, main_c_2, main_v11, main_v12, main_v13, main_v14, main_v15, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_c_4, main_call1_v14, main_v16, main_v17]
theorem opsA_writes : (opsA : List (HloOp τ sig (Elt F))).Forall fun op => op.writes ⊆ (opsA_W.map (Proc.devRef (τ := τ) .tc)).toFinset := by
  simp only [List.Forall]; exact ⟨by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr, by wr⟩

theorem idxA_keep (V : Valuation τ sig (Elt F)) (r : Ref sig .tc) (h : r ∉ opsA_W) :
    after opsA V (Proc.devRef .tc r) = V (Proc.devRef .tc r) := after_of_writes_sub opsA V opsA_writes h

section Stretches

variable (W : Valuation τ sig (Elt F))

theorem A1_v6 :
    (after opsA1 W (Proc.devRef .tc main_v6) : S1024x128.Idx → BitVec 32) =
      Cert.Hand.Spec.rows1 (W (Proc.devRef .tc main_arg1) : S500000x128.Idx → BitVec 32)
        (W (Proc.devRef .tc main_arg2) : S1024.Idx → BitVec 32) := by
  after_results; rfl

theorem A2_v7 :
    (after opsA2 W (Proc.devRef .tc main_v7) : S1024x10.Idx → BitVec 32) =
      Cert.Hand.Spec.pick (W (Proc.devRef .tc main_arg3) : S1024x10.Idx → BitVec 32)
        (W (Proc.devRef .tc main_v6) : S1024x128.Idx → BitVec 32)
        gather_S1024x128_S1024x10x1_S1024x10_n_1_0_0_1_2_11 shapeCasts_S1024x10_S1024x10x1 bcast_S_S1024x10
        bcast_S_S1024x10x1 bcast_S1_S1x1x1_2 bcast_S1x1x1_S1024x10x1_0_1_2 reducesTo_S1024x10x1_S1024x10_d2 h_S_ := by
  after_results_simp
  simp only [StableHlo.TRef.ofBuf, StableHlo.TRef.toBuf, cast_eq]
  rfl

theorem A3_v8 :
    (after opsA3 W (Proc.devRef .tc main_v8) : S10240.Idx → BitVec 32) =
      shapeCast S10240 (W (Proc.devRef .tc main_v7) : S1024x10.Idx → BitVec 32) shapeCasts_S1024x10_S10240 := by
  after_results; rfl

theorem A3_v15 :
    (after opsA3 W (Proc.devRef .tc main_v15) : S10240x128.Idx → BitVec 32) =
      Cert.Hand.Spec.rows2 (W (Proc.devRef .tc main_arg1) : S500000x128.Idx → BitVec 32)
        (shapeCast S10240 (W (Proc.devRef .tc main_v7) : S1024x10.Idx → BitVec 32) shapeCasts_S1024x10_S10240) := by
  after_results; rfl

theorem A4_v16 :
    (after opsA4 W (Proc.devRef .tc main_v16) : S10240x25.Idx → BitVec 32) =
      Cert.Hand.Spec.pick (W (Proc.devRef .tc main_arg4) : S10240x25.Idx → BitVec 32)
        (W (Proc.devRef .tc main_v15) : S10240x128.Idx → BitVec 32)
        gather_S10240x128_S10240x25x1_S10240x25_n_1_0_0_1_2_11 shapeCasts_S10240x25_S10240x25x1 bcast_S_S10240x25
        bcast_S_S10240x25x1 bcast_S1_S1x1x1_2 bcast_S1x1x1_S10240x25x1_0_1_2 reducesTo_S10240x25x1_S10240x25_d2 h_S_ := by
  after_results_simp
  simp only [StableHlo.TRef.ofBuf, StableHlo.TRef.toBuf, cast_eq]
  rfl

theorem A5_v17 :
    (after opsA5 W (Proc.devRef .tc main_v17) : S256000.Idx → BitVec 32) =
      shapeCast S256000 (W (Proc.devRef .tc main_v16) : S10240x25.Idx → BitVec 32) shapeCasts_S10240x25_S256000 := by
  after_results; rfl

end Stretches

variable (V : Valuation τ sig (Elt F))

abbrev U1 : Valuation τ sig (Elt F) := after opsA1 V
abbrev U2 : Valuation τ sig (Elt F) := after opsA2 (U1 V)
abbrev U3 : Valuation τ sig (Elt F) := after opsA3 (U2 V)
abbrev U4 : Valuation τ sig (Elt F) := after opsA4 (U3 V)
abbrev U5 : Valuation τ sig (Elt F) := after opsA5 (U4 V)

abbrev Adj : IVec S500000x128 32 := V (Proc.devRef .tc main_arg1)
abbrev Bn : IVec S1024 32 := V (Proc.devRef .tc main_arg2)
abbrev C1 : IVec S1024x10 32 := V (Proc.devRef .tc main_arg3)
abbrev C2 : IVec S10240x25 32 := V (Proc.devRef .tc main_arg4)

theorem u1_v6 : (U1 V (Proc.devRef .tc main_v6) : S1024x128.Idx → BitVec 32) = Cert.Hand.Spec.rows1 (Adj V) (Bn V) :=
  A1_v6 V

theorem u2_v7 : (U2 V (Proc.devRef .tc main_v7) : S1024x10.Idx → BitVec 32) = Cert.Hand.Spec.hop1 (Adj V) (Bn V) (C1 V) := by
  have e := A2_v7 (U1 V)
  rw [show (U1 V (Proc.devRef .tc main_v6) : S1024x128.Idx → BitVec 32) = _ from u1_v6 V,
    show (U1 V (Proc.devRef .tc main_arg3) : S1024x10.Idx → BitVec 32) = C1 V from (keepA1 V main_arg3 (by decide))] at e
  exact e

theorem u3_v8 : (U3 V (Proc.devRef .tc main_v8) : S10240.Idx → BitVec 32) = Cert.Hand.Spec.s1 (Adj V) (Bn V) (C1 V) := by
  have e := A3_v8 (U2 V)
  rw [show (U2 V (Proc.devRef .tc main_v7) : S1024x10.Idx → BitVec 32) = _ from u2_v7 V] at e
  exact e

theorem u3_v15 : (U3 V (Proc.devRef .tc main_v15) : S10240x128.Idx → BitVec 32) =
    Cert.Hand.Spec.rows2 (Adj V) (Cert.Hand.Spec.s1 (Adj V) (Bn V) (C1 V)) := by
  have e := A3_v15 (U2 V)
  rw [show (U2 V (Proc.devRef .tc main_v7) : S1024x10.Idx → BitVec 32) = _ from u2_v7 V,
    show (U2 V (Proc.devRef .tc main_arg1) : S500000x128.Idx → BitVec 32) = Adj V from
      (keepA2 (U1 V) main_arg1 (by decide)).trans <| (keepA1 V main_arg1 (by decide))] at e
  exact e

theorem u4_v16 : (U4 V (Proc.devRef .tc main_v16) : S10240x25.Idx → BitVec 32) =
    Cert.Hand.Spec.hop2 (Adj V) (Bn V) (C1 V) (C2 V) := by
  have e := A4_v16 (U3 V)
  rw [show (U3 V (Proc.devRef .tc main_v15) : S10240x128.Idx → BitVec 32) = _ from u3_v15 V,
    show (U3 V (Proc.devRef .tc main_arg4) : S10240x25.Idx → BitVec 32) = C2 V from
      (keepA3 (U2 V) main_arg4 (by decide)).trans <| (keepA2 (U1 V) main_arg4 (by decide)).trans <| (keepA1 V main_arg4 (by decide))] at e
  exact e

theorem u5_v17 : (U5 V (Proc.devRef .tc main_v17) : S256000.Idx → BitVec 32) =
    Cert.Hand.Spec.s2 (Adj V) (Bn V) (C1 V) (C2 V) := by
  have e := A5_v17 (U4 V)
  rw [show (U4 V (Proc.devRef .tc main_v16) : S10240x25.Idx → BitVec 32) = _ from u4_v16 V] at e
  exact e

theorem u5_v8 : (U5 V (Proc.devRef .tc main_v8) : S10240.Idx → BitVec 32) = Cert.Hand.Spec.s1 (Adj V) (Bn V) (C1 V) :=
  (keepA5 (U4 V) main_v8 (by decide)).trans <| (keepA4 (U3 V) main_v8 (by decide)).trans (u3_v8 V)

theorem opsA_eq : after (opsA (F := F)) V = U5 V := by
  rw [opsA_split, after_append, after_append, after_append, after_append]

theorem idxA_v8 : (after opsA V (Proc.devRef .tc main_v8) : S10240.Idx → BitVec 32) =
    Cert.Hand.Spec.s1 (Adj V) (Bn V) (C1 V) :=
  (congrFun (opsA_eq V) (Proc.devRef .tc main_v8)).trans (u5_v8 V)

theorem idxA_v17 : (after opsA V (Proc.devRef .tc main_v17) : S256000.Idx → BitVec 32) =
    Cert.Hand.Spec.s2 (Adj V) (Bn V) (C1 V) (C2 V) :=
  (congrFun (opsA_eq V) (Proc.devRef .tc main_v17)).trans (u5_v17 V)

end Cert.ReferenceIdeal.RefValue

end
-- ==== Proof.RefPure.lean ====
import proofs.«401580_j65068754534945_2_alg».proof.ReferenceIdeal
import proofs.«401580_j65068754534945_2_alg».proof.Proof.Gen.ReferenceIdeal
import Idealize.ShloMosaic.PureOps.Ideal

/-! The reference's result as a pure function of its argument arrays, stage by stage. -/

noncomputable section

namespace Cert.ReferenceIdeal.RefValue

open Cert.ReferenceIdeal Cert.ReferenceIdeal.Gen Idealize.ShloMosaic Idealize.ShloMosaic.TcCoe Idealize.SL.Sem

variable {F : FTy → Type} [FloatOps F]

def wrap1024 (x : IVec S1024 32) : IVec S1024 32 :=
  select (cmpi .slt x (broadcastInDim S1024 ![] bcast_S_S1024 (constantI S_ 32 0#32)))
    (addi x (broadcastInDim S1024 ![] bcast_S_S1024 (constantI S_ 32 500000#32))) x

def wrap10240 (x : IVec S10240 32) : IVec S10240 32 :=
  select (cmpi .slt x (broadcastInDim S10240 ![] bcast_S_S10240 (constantI S_ 32 0#32)))
    (addi x (broadcastInDim S10240 ![] bcast_S_S10240 (constantI S_ 32 500000#32))) x

def wrap256000 (x : IVec S256000 32) : IVec S256000 32 :=
  select (cmpi .slt x (broadcastInDim S256000 ![] bcast_S_S256000 (constantI S_ 32 0#32)))
    (addi x (broadcastInDim S256000 ![] bcast_S_S256000 (constantI S_ 32 500000#32))) x

def refV24 (feat : FVec F S500000x128 .f32) (bn : IVec S1024 32) : FVec F S1024x128 .f32 :=
  Host.gather gather_S500000x128_S1024x1_S1024x128_1_0_n_n_0_1_1128 feat
    (broadcastInDim S1024x1 ![0] bcast_S1024_S1024x1_0 (wrap1024 bn))

def refV31 (feat : FVec F S500000x128 .f32) (t1 : IVec S10240 32) : FVec F S10240x128 .f32 :=
  Host.gather gather_S500000x128_S10240x1_S10240x128_1_0_n_n_0_1_1128 feat
    (broadcastInDim S10240x1 ![0] bcast_S10240_S10240x1_0 (wrap10240 t1))

def refV38 (feat : FVec F S500000x128 .f32) (t2 : IVec S256000 32) : FVec F S256000x128 .f32 :=
  Host.gather gather_S500000x128_S256000x1_S256000x128_1_0_n_n_0_1_1128 feat
    (broadcastInDim S256000x1 ![0] bcast_S256000_S256000x1_0 (wrap256000 t2))

def refV42 (feat : FVec F S500000x128 .f32) (t1 : IVec S10240 32) : FVec F S1024x128 .f32 :=
  Host.divf
    (Host.reduceAdd (shapeCast S1024x10x128 (refV31 feat t1) shapeCasts_S10240x128_S1024x10x128)
      (constant S_ .f32 0x00000000#32) reducesTo_S1024x10x128_S1024x128_d1 h_S_)
    (broadcastInDim S1024x128 ![] bcast_S_S1024x128 (constant S_ .f32 0x41200000#32))

def refV46 (feat : FVec F S500000x128 .f32) (bn : IVec S1024 32) (t1 : IVec S10240 32)
    (wn0 ws0 : FVec F S128x128 .f32) : FVec F S1024x256 .f32 :=
  maximumf
    (concatenate S1024x256 1
      [⟨S1024x128, Host.dotGeneral dot_S1024x128_S128x128_S1024x128_1_0_0_1_n_n none (refV24 feat bn) ws0⟩,
       ⟨S1024x128, Host.dotGeneral dot_S1024x128_S128x128_S1024x128_1_0_0_1_n_n none (refV42 feat t1) wn0⟩]
      concatenates_S1024x128_S1024x128_S1024x256_d1)
    (broadcastInDim S1024x256 ![] bcast_S_S1024x256 (constant S_ .f32 0x00000000#32))

def refV50 (feat : FVec F S500000x128 .f32) (t2 : IVec S256000 32) : FVec F S10240x128 .f32 :=
  Host.divf
    (Host.reduceAdd (shapeCast S10240x25x128 (refV38 feat t2) shapeCasts_S256000x128_S10240x25x128)
      (constant S_ .f32 0x00000000#32) reducesTo_S10240x25x128_S10240x128_d1 h_S_)
    (broadcastInDim S10240x128 ![] bcast_S_S10240x128 (constant S_ .f32 0x41C80000#32))

def refV54 (feat : FVec F S500000x128 .f32) (t1 : IVec S10240 32) (t2 : IVec S256000 32)
    (wn0 ws0 : FVec F S128x128 .f32) : FVec F S10240x256 .f32 :=
  maximumf
    (concatenate S10240x256 1
      [⟨S10240x128, Host.dotGeneral dot_S10240x128_S128x128_S10240x128_1_0_0_1_n_n none (refV31 feat t1) ws0⟩,
       ⟨S10240x128, Host.dotGeneral dot_S10240x128_S128x128_S10240x128_1_0_0_1_n_n none (refV50 feat t2) wn0⟩]
      concatenates_S10240x128_S10240x128_S10240x256_d1)
    (broadcastInDim S10240x256 ![] bcast_S_S10240x256 (constant S_ .f32 0x00000000#32))

def refV58 (feat : FVec F S500000x128 .f32) (t1 : IVec S10240 32) (t2 : IVec S256000 32)
    (wn0 ws0 : FVec F S128x128 .f32) : FVec F S1024x256 .f32 :=
  Host.divf
    (Host.reduceAdd (shapeCast S1024x10x256 (refV54 feat t1 t2 wn0 ws0) shapeCasts_S10240x256_S1024x10x256)
      (constant S_ .f32 0x00000000#32) reducesTo_S1024x10x256_S1024x256_d1 h_S_)
    (broadcastInDim S1024x256 ![] bcast_S_S1024x256 (constant S_ .f32 0x41200000#32))

def refOut (feat : FVec F S500000x128 .f32) (bn : IVec S1024 32) (t1 : IVec S10240 32) (t2 : IVec S256000 32)
    (wn0 ws0 : FVec F S128x128 .f32) (wn1 ws1 : FVec F S256x128 .f32) : FVec F S1024x256 .f32 :=
  concatenate S1024x256 1
    [⟨S1024x128, Host.dotGeneral dot_S1024x256_S256x128_S1024x128_1_0_0_1_n_n none (refV46 feat bn t1 wn0 ws0) ws1⟩,
     ⟨S1024x128, Host.dotGeneral dot_S1024x256_S256x128_S1024x128_1_0_0_1_n_n none (refV58 feat t1 t2 wn0 ws0) wn1⟩]
    concatenates_S1024x128_S1024x128_S1024x256_d1

end Cert.ReferenceIdeal.RefValue

end
-- ==== Proof.RefFloat.lean ====
import proofs.«401580_j65068754534945_2_alg».proof.Proof.RefPure
import Idealize.ShloMosaic.Lib.StableHlo.Run
import Idealize.ShloMosaic.Lib.Pipeline.Frame

/-! The float part of the reference: three gathers, the first layer twice, the last layer once, each stretch leaving one array. -/

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

def fhLayerA (x24 : FVec F S1024x128 .f32) (x31 : FVec F S10240x128 .f32) (wn0 ws0 : FVec F S128x128 .f32) : FVec F S1024x256 .f32 :=
  maximumf
    (concatenate S1024x256 1
      [⟨S1024x128, Host.dotGeneral dot_S1024x128_S128x128_S1024x128_1_0_0_1_n_n none x24 ws0⟩,
       ⟨S1024x128, Host.dotGeneral dot_S1024x128_S128x128_S1024x128_1_0_0_1_n_n none
          (Host.divf
            (Host.reduceAdd (shapeCast S1024x10x128 x31 shapeCasts_S10240x128_S1024x10x128)
              (constant S_ .f32 0x00000000#32) reducesTo_S1024x10x128_S1024x128_d1 h_S_)
            (broadcastInDim S1024x128 ![] bcast_S_S1024x128 (constant S_ .f32 0x41200000#32))) wn0⟩]
      concatenates_S1024x128_S1024x128_S1024x256_d1)
    (broadcastInDim S1024x256 ![] bcast_S_S1024x256 (constant S_ .f32 0x00000000#32))

def fhLayerB (x31 : FVec F S10240x128 .f32) (x38 : FVec F S256000x128 .f32) (wn0 ws0 : FVec F S128x128 .f32) : FVec F S10240x256 .f32 :=
  maximumf
    (concatenate S10240x256 1
      [⟨S10240x128, Host.dotGeneral dot_S10240x128_S128x128_S10240x128_1_0_0_1_n_n none x31 ws0⟩,
       ⟨S10240x128, Host.dotGeneral dot_S10240x128_S128x128_S10240x128_1_0_0_1_n_n none
          (Host.divf
            (Host.reduceAdd (shapeCast S10240x25x128 x38 shapeCasts_S256000x128_S10240x25x128)
              (constant S_ .f32 0x00000000#32) reducesTo_S10240x25x128_S10240x128_d1 h_S_)
            (broadcastInDim S10240x128 ![] bcast_S_S10240x128 (constant S_ .f32 0x41C80000#32))) wn0⟩]
      concatenates_S10240x128_S10240x128_S10240x256_d1)
    (broadcastInDim S10240x256 ![] bcast_S_S10240x256 (constant S_ .f32 0x00000000#32))

def fhLayerC (x46 : FVec F S1024x256 .f32) (x54 : FVec F S10240x256 .f32) (wn1 ws1 : FVec F S256x128 .f32) : FVec F S1024x256 .f32 :=
  concatenate S1024x256 1
    [⟨S1024x128, Host.dotGeneral dot_S1024x256_S256x128_S1024x128_1_0_0_1_n_n none x46 ws1⟩,
     ⟨S1024x128, Host.dotGeneral dot_S1024x256_S256x128_S1024x128_1_0_0_1_n_n none
        (Host.divf
          (Host.reduceAdd (shapeCast S1024x10x256 x54 shapeCasts_S10240x256_S1024x10x256)
            (constant S_ .f32 0x00000000#32) reducesTo_S1024x10x256_S1024x256_d1 h_S_)
          (broadcastInDim S1024x256 ![] bcast_S_S1024x256 (constant S_ .f32 0x41200000#32))) wn1⟩]
    concatenates_S1024x128_S1024x128_S1024x256_d1

theorem refOut_eq_layers (feat : FVec F S500000x128 .f32) (bn : IVec S1024 32) (t1 : IVec S10240 32) (t2 : IVec S256000 32)
    (wn0 ws0 : FVec F S128x128 .f32) (wn1 ws1 : FVec F S256x128 .f32) :
    refOut feat bn t1 t2 wn0 ws0 wn1 ws1
      = fhLayerC (fhLayerA (refV24 feat bn) (refV31 feat t1) wn0 ws0) (fhLayerB (refV31 feat t1) (refV38 feat t2) wn0 ws0) wn1 ws1 := rfl

abbrev fhB1 : List (HloOp τ sig (Elt F)) :=
  [
    nullary main_c_3 (constantI S_ 32 0#32),
    unary main_c_3 main_v18 (broadcastInDim S1024 ![] bcast_S_S1024 : (⟨S_, .i32⟩ : BufTy).Contents (Elt F) → (⟨S1024, .i32⟩ : BufTy).Contents (Elt F)),
    binary main_arg2 main_v18 main_v19 (cmpi .slt : (⟨S1024, .i32⟩ : BufTy).Contents (Elt F) → (⟨S1024, .i32⟩ : BufTy).Contents (Elt F) → (⟨S1024, .i1⟩ : BufTy).Contents (Elt F)),
    nullary main_c_4 (constantI S_ 32 500000#32),
    unary main_c_4 main_v20 (broadcastInDim S1024 ![] bcast_S_S1024 : (⟨S_, .i32⟩ : BufTy).Contents (Elt F) → (⟨S1024, .i32⟩ : BufTy).Contents (Elt F)),
    binary main_arg2 main_v20 main_v21 (addi : (⟨S1024, .i32⟩ : BufTy).Contents (Elt F) → (⟨S1024, .i32⟩ : BufTy).Contents (Elt F) → (⟨S1024, .i32⟩ : BufTy).Contents (Elt F)),
    ternary main_v19 main_v21 main_arg2 main_v22 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v22 main_v23 (broadcastInDim S1024x1 ![0] bcast_S1024_S1024x1_0 : (⟨S1024, .i32⟩ : BufTy).Contents (Elt F) → (⟨S1024x1, .i32⟩ : BufTy).Contents (Elt F)),
    binary main_arg0 main_v23 main_v24 ((fun x i => Host.gather gather_S500000x128_S1024x1_S1024x128_1_0_n_n_0_1_1128 x i) : (⟨S500000x128, .f32⟩ : BufTy).Contents (Elt F) → (⟨S1024x1, .i32⟩ : BufTy).Contents (Elt F) → (⟨S1024x128, .f32⟩ : BufTy).Contents (Elt F)) ]

abbrev fhB2 : List (HloOp τ sig (Elt F)) :=
  [
    nullary main_c_5 (constantI S_ 32 0#32),
    unary main_c_5 main_v25 (broadcastInDim S10240 ![] bcast_S_S10240 : (⟨S_, .i32⟩ : BufTy).Contents (Elt F) → (⟨S10240, .i32⟩ : BufTy).Contents (Elt F)),
    binary main_v8 main_v25 main_v26 (cmpi .slt : (⟨S10240, .i32⟩ : BufTy).Contents (Elt F) → (⟨S10240, .i32⟩ : BufTy).Contents (Elt F) → (⟨S10240, .i1⟩ : BufTy).Contents (Elt F)),
    nullary main_c_6 (constantI S_ 32 500000#32),
    unary main_c_6 main_v27 (broadcastInDim S10240 ![] bcast_S_S10240 : (⟨S_, .i32⟩ : BufTy).Contents (Elt F) → (⟨S10240, .i32⟩ : BufTy).Contents (Elt F)),
    binary main_v8 main_v27 main_v28 (addi : (⟨S10240, .i32⟩ : BufTy).Contents (Elt F) → (⟨S10240, .i32⟩ : BufTy).Contents (Elt F) → (⟨S10240, .i32⟩ : BufTy).Contents (Elt F)),
    ternary main_v26 main_v28 main_v8 main_v29 (select : (⟨S10240, .i1⟩ : BufTy).Contents (Elt F) → (⟨S10240, .i32⟩ : BufTy).Contents (Elt F) → (⟨S10240, .i32⟩ : BufTy).Contents (Elt F) → (⟨S10240, .i32⟩ : BufTy).Contents (Elt F)),
    unary main_v29 main_v30 (broadcastInDim S10240x1 ![0] bcast_S10240_S10240x1_0 : (⟨S10240, .i32⟩ : BufTy).Contents (Elt F) → (⟨S10240x1, .i32⟩ : BufTy).Contents (Elt F)),
    binary main_arg0 main_v30 main_v31 ((fun x i => Host.gather gather_S500000x128_S10240x1_S10240x128_1_0_n_n_0_1_1128 x i) : (⟨S500000x128, .f32⟩ : BufTy).Contents (Elt F) → (⟨S10240x1, .i32⟩ : BufTy).Contents (Elt F) → (⟨S10240x128, .f32⟩ : BufTy).Contents (Elt F)) ]

abbrev fhB3 : List (HloOp τ sig (Elt F)) :=
  [
    nullary main_c_7 (constantI S_ 32 0#32),
    unary main_c_7 main_v32 (broadcastInDim S256000 ![] bcast_S_S256000 : (⟨S_, .i32⟩ : BufTy).Contents (Elt F) → (⟨S256000, .i32⟩ : BufTy).Contents (Elt F)),
    binary main_v17 main_v32 main_v33 (cmpi .slt : (⟨S256000, .i32⟩ : BufTy).Contents (Elt F) → (⟨S256000, .i32⟩ : BufTy).Contents (Elt F) → (⟨S256000, .i1⟩ : BufTy).Contents (Elt F)),
    nullary main_c_8 (constantI S_ 32 500000#32),
    unary main_c_8 main_v34 (broadcastInDim S256000 ![] bcast_S_S256000 : (⟨S_, .i32⟩ : BufTy).Contents (Elt F) → (⟨S256000, .i32⟩ : BufTy).Contents (Elt F)),
    binary main_v17 main_v34 main_v35 (addi : (⟨S256000, .i32⟩ : BufTy).Contents (Elt F) → (⟨S256000, .i32⟩ : BufTy).Contents (Elt F) → (⟨S256000, .i32⟩ : BufTy).Contents (Elt F)),
    ternary main_v33 main_v35 main_v17 main_v36 (select : (⟨S256000, .i1⟩ : BufTy).Contents (Elt F) → (⟨S256000, .i32⟩ : BufTy).Contents (Elt F) → (⟨S256000, .i32⟩ : BufTy).Contents (Elt F) → (⟨S256000, .i32⟩ : BufTy).Contents (Elt F)),
    unary main_v36 main_v37 (broadcastInDim S256000x1 ![0] bcast_S256000_S256000x1_0 : (⟨S256000, .i32⟩ : BufTy).Contents (Elt F) → (⟨S256000x1, .i32⟩ : BufTy).Contents (Elt F)),
    binary main_arg0 main_v37 main_v38 ((fun x i => Host.gather gather_S500000x128_S256000x1_S256000x128_1_0_n_n_0_1_1128 x i) : (⟨S500000x128, .f32⟩ : BufTy).Contents (Elt F) → (⟨S256000x1, .i32⟩ : BufTy).Contents (Elt F) → (⟨S256000x128, .f32⟩ : BufTy).Contents (Elt F)) ]

abbrev fhB4 : List (HloOp τ sig (Elt F)) :=
  [
    reshape main_v31 main_v39 rfl shapeCasts_S10240x128_S1024x10x128,
    nullary main_cst (constant S_ .f32 0x00000000#32),
    binary main_v39 main_cst main_v40 ((fun x v => Host.reduceAdd x v reducesTo_S1024x10x128_S1024x128_d1 h_S_) : (⟨S1024x10x128, .f32⟩ : BufTy).Contents (Elt F) → (⟨S_, .f32⟩ : BufTy).Contents (Elt F) → (⟨S1024x128, .f32⟩ : BufTy).Contents (Elt F)),
    nullary main_cst_9 (constant S_ .f32 0x41200000#32),
    unary main_cst_9 main_v41 (broadcastInDim S1024x128 ![] bcast_S_S1024x128 : (⟨S_, .f32⟩ : BufTy).Contents (Elt F) → (⟨S1024x128, .f32⟩ : BufTy).Contents (Elt F)),
    binary main_v40 main_v41 main_v42 (Host.divf : (⟨S1024x128, .f32⟩ : BufTy).Contents (Elt F) → (⟨S1024x128, .f32⟩ : BufTy).Contents (Elt F) → (⟨S1024x128, .f32⟩ : BufTy).Contents (Elt F)),
    binary main_v42 main_arg5 main_v43 ((fun l r => Host.dotGeneral dot_S1024x128_S128x128_S1024x128_1_0_0_1_n_n none l r) : (⟨S1024x128, .f32⟩ : BufTy).Contents (Elt F) → (⟨S128x128, .f32⟩ : BufTy).Contents (Elt F) → (⟨S1024x128, .f32⟩ : BufTy).Contents (Elt F)),
    binary main_v24 main_arg6 main_v44 ((fun l r => Host.dotGeneral dot_S1024x128_S128x128_S1024x128_1_0_0_1_n_n none l r) : (⟨S1024x128, .f32⟩ : BufTy).Contents (Elt F) → (⟨S128x128, .f32⟩ : BufTy).Contents (Elt F) → (⟨S1024x128, .f32⟩ : BufTy).Contents (Elt F)),
    binary main_v44 main_v43 main_v45 ((fun a b => concatenate S1024x256 1 [⟨S1024x128, a⟩, ⟨S1024x128, b⟩] concatenates_S1024x128_S1024x128_S1024x256_d1) : (⟨S1024x128, .f32⟩ : BufTy).Contents (Elt F) → (⟨S1024x128, .f32⟩ : BufTy).Contents (Elt F) → (⟨S1024x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S1024x256, .f32⟩) main_call2_v0) (broadcastInDim S1024x256 ![] bcast_S_S1024x256),
    TRef.binary (TRef.of (T := ⟨S1024x256, .f32⟩) main_v45) (TRef.of (T := ⟨S1024x256, .f32⟩) main_call2_v0) (TRef.of (T := ⟨S1024x256, .f32⟩) main_v46) maximumf ]

abbrev fhB5 : List (HloOp τ sig (Elt F)) :=
  [
    reshape main_v38 main_v47 rfl shapeCasts_S256000x128_S10240x25x128,
    nullary main_cst_10 (constant S_ .f32 0x00000000#32),
    binary main_v47 main_cst_10 main_v48 ((fun x v => Host.reduceAdd x v reducesTo_S10240x25x128_S10240x128_d1 h_S_) : (⟨S10240x25x128, .f32⟩ : BufTy).Contents (Elt F) → (⟨S_, .f32⟩ : BufTy).Contents (Elt F) → (⟨S10240x128, .f32⟩ : BufTy).Contents (Elt F)),
    nullary main_cst_11 (constant S_ .f32 0x41C80000#32),
    unary main_cst_11 main_v49 (broadcastInDim S10240x128 ![] bcast_S_S10240x128 : (⟨S_, .f32⟩ : BufTy).Contents (Elt F) → (⟨S10240x128, .f32⟩ : BufTy).Contents (Elt F)),
    binary main_v48 main_v49 main_v50 (Host.divf : (⟨S10240x128, .f32⟩ : BufTy).Contents (Elt F) → (⟨S10240x128, .f32⟩ : BufTy).Contents (Elt F) → (⟨S10240x128, .f32⟩ : BufTy).Contents (Elt F)),
    binary main_v50 main_arg5 main_v51 ((fun l r => Host.dotGeneral dot_S10240x128_S128x128_S10240x128_1_0_0_1_n_n none l r) : (⟨S10240x128, .f32⟩ : BufTy).Contents (Elt F) → (⟨S128x128, .f32⟩ : BufTy).Contents (Elt F) → (⟨S10240x128, .f32⟩ : BufTy).Contents (Elt F)),
    binary main_v31 main_arg6 main_v52 ((fun l r => Host.dotGeneral dot_S10240x128_S128x128_S10240x128_1_0_0_1_n_n none l r) : (⟨S10240x128, .f32⟩ : BufTy).Contents (Elt F) → (⟨S128x128, .f32⟩ : BufTy).Contents (Elt F) → (⟨S10240x128, .f32⟩ : BufTy).Contents (Elt F)),
    binary main_v52 main_v51 main_v53 ((fun a b => concatenate S10240x256 1 [⟨S10240x128, a⟩, ⟨S10240x128, b⟩] concatenates_S10240x128_S10240x128_S10240x256_d1) : (⟨S10240x128, .f32⟩ : BufTy).Contents (Elt F) → (⟨S10240x128, .f32⟩ : BufTy).Contents (Elt F) → (⟨S10240x256, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S10240x256, .f32⟩) main_call3_v0) (broadcastInDim S10240x256 ![] bcast_S_S10240x256),
    TRef.binary (TRef.of (T := ⟨S10240x256, .f32⟩) main_v53) (TRef.of (T := ⟨S10240x256, .f32⟩) main_call3_v0) (TRef.of (T := ⟨S10240x256, .f32⟩) main_v54) maximumf ]

abbrev fhB6 : List (HloOp τ sig (Elt F)) :=
  [
    reshape main_v54 main_v55 rfl shapeCasts_S10240x256_S1024x10x256,
    nullary main_cst_12 (constant S_ .f32 0x00000000#32),
    binary main_v55 main_cst_12 main_v56 ((fun x v => Host.reduceAdd x v reducesTo_S1024x10x256_S1024x256_d1 h_S_) : (⟨S1024x10x256, .f32⟩ : BufTy).Contents (Elt F) → (⟨S_, .f32⟩ : BufTy).Contents (Elt F) → (⟨S1024x256, .f32⟩ : BufTy).Contents (Elt F)),
    nullary main_cst_13 (constant S_ .f32 0x41200000#32),
    unary main_cst_13 main_v57 (broadcastInDim S1024x256 ![] bcast_S_S1024x256 : (⟨S_, .f32⟩ : BufTy).Contents (Elt F) → (⟨S1024x256, .f32⟩ : BufTy).Contents (Elt F)),
    binary main_v56 main_v57 main_v58 (Host.divf : (⟨S1024x256, .f32⟩ : BufTy).Contents (Elt F) → (⟨S1024x256, .f32⟩ : BufTy).Contents (Elt F) → (⟨S1024x256, .f32⟩ : BufTy).Contents (Elt F)),
    binary main_v58 main_arg7 main_v59 ((fun l r => Host.dotGeneral dot_S1024x256_S256x128_S1024x128_1_0_0_1_n_n none l r) : (⟨S1024x256, .f32⟩ : BufTy).Contents (Elt F) → (⟨S256x128, .f32⟩ : BufTy).Contents (Elt F) → (⟨S1024x128, .f32⟩ : BufTy).Contents (Elt F)),
    binary main_v46 main_arg8 main_v60 ((fun l r => Host.dotGeneral dot_S1024x256_S256x128_S1024x128_1_0_0_1_n_n none l r) : (⟨S1024x256, .f32⟩ : BufTy).Contents (Elt F) → (⟨S256x128, .f32⟩ : BufTy).Contents (Elt F) → (⟨S1024x128, .f32⟩ : BufTy).Contents (Elt F)),
    binary main_v60 main_v59 main_v61 ((fun a b => concatenate S1024x256 1 [⟨S1024x128, a⟩, ⟨S1024x128, b⟩] concatenates_S1024x128_S1024x128_S1024x256_d1) : (⟨S1024x128, .f32⟩ : BufTy).Contents (Elt F) → (⟨S1024x128, .f32⟩ : BufTy).Contents (Elt F) → (⟨S1024x256, .f32⟩ : BufTy).Contents (Elt F)) ]

theorem fhB1_arg0 (W : Valuation τ sig (Elt F)) : StableHlo.after fhB1 W (Proc.devRef .tc main_arg0) = W (Proc.devRef .tc main_arg0) := by
  after_results
theorem fhB1_v8 (W : Valuation τ sig (Elt F)) : StableHlo.after fhB1 W (Proc.devRef .tc main_v8) = W (Proc.devRef .tc main_v8) := by
  after_results
theorem fhB1_v17 (W : Valuation τ sig (Elt F)) : StableHlo.after fhB1 W (Proc.devRef .tc main_v17) = W (Proc.devRef .tc main_v17) := by
  after_results
theorem fhB1_arg5 (W : Valuation τ sig (Elt F)) : StableHlo.after fhB1 W (Proc.devRef .tc main_arg5) = W (Proc.devRef .tc main_arg5) := by
  after_results
theorem fhB1_arg6 (W : Valuation τ sig (Elt F)) : StableHlo.after fhB1 W (Proc.devRef .tc main_arg6) = W (Proc.devRef .tc main_arg6) := by
  after_results
theorem fhB1_arg7 (W : Valuation τ sig (Elt F)) : StableHlo.after fhB1 W (Proc.devRef .tc main_arg7) = W (Proc.devRef .tc main_arg7) := by
  after_results
theorem fhB1_arg8 (W : Valuation τ sig (Elt F)) : StableHlo.after fhB1 W (Proc.devRef .tc main_arg8) = W (Proc.devRef .tc main_arg8) := by
  after_results

theorem fhB2_v24 (W : Valuation τ sig (Elt F)) : StableHlo.after fhB2 W (Proc.devRef .tc main_v24) = W (Proc.devRef .tc main_v24) := by
  after_results
theorem fhB2_arg0 (W : Valuation τ sig (Elt F)) : StableHlo.after fhB2 W (Proc.devRef .tc main_arg0) = W (Proc.devRef .tc main_arg0) := by
  after_results
theorem fhB2_v17 (W : Valuation τ sig (Elt F)) : StableHlo.after fhB2 W (Proc.devRef .tc main_v17) = W (Proc.devRef .tc main_v17) := by
  after_results
theorem fhB2_arg5 (W : Valuation τ sig (Elt F)) : StableHlo.after fhB2 W (Proc.devRef .tc main_arg5) = W (Proc.devRef .tc main_arg5) := by
  after_results
theorem fhB2_arg6 (W : Valuation τ sig (Elt F)) : StableHlo.after fhB2 W (Proc.devRef .tc main_arg6) = W (Proc.devRef .tc main_arg6) := by
  after_results
theorem fhB2_arg7 (W : Valuation τ sig (Elt F)) : StableHlo.after fhB2 W (Proc.devRef .tc main_arg7) = W (Proc.devRef .tc main_arg7) := by
  after_results
theorem fhB2_arg8 (W : Valuation τ sig (Elt F)) : StableHlo.after fhB2 W (Proc.devRef .tc main_arg8) = W (Proc.devRef .tc main_arg8) := by
  after_results

theorem fhB3_v24 (W : Valuation τ sig (Elt F)) : StableHlo.after fhB3 W (Proc.devRef .tc main_v24) = W (Proc.devRef .tc main_v24) := by
  after_results
theorem fhB3_v31 (W : Valuation τ sig (Elt F)) : StableHlo.after fhB3 W (Proc.devRef .tc main_v31) = W (Proc.devRef .tc main_v31) := by
  after_results
theorem fhB3_arg5 (W : Valuation τ sig (Elt F)) : StableHlo.after fhB3 W (Proc.devRef .tc main_arg5) = W (Proc.devRef .tc main_arg5) := by
  after_results
theorem fhB3_arg6 (W : Valuation τ sig (Elt F)) : StableHlo.after fhB3 W (Proc.devRef .tc main_arg6) = W (Proc.devRef .tc main_arg6) := by
  after_results
theorem fhB3_arg7 (W : Valuation τ sig (Elt F)) : StableHlo.after fhB3 W (Proc.devRef .tc main_arg7) = W (Proc.devRef .tc main_arg7) := by
  after_results
theorem fhB3_arg8 (W : Valuation τ sig (Elt F)) : StableHlo.after fhB3 W (Proc.devRef .tc main_arg8) = W (Proc.devRef .tc main_arg8) := by
  after_results

theorem fhB4_v38 (W : Valuation τ sig (Elt F)) : StableHlo.after fhB4 W (Proc.devRef .tc main_v38) = W (Proc.devRef .tc main_v38) := by
  after_results
theorem fhB4_v31 (W : Valuation τ sig (Elt F)) : StableHlo.after fhB4 W (Proc.devRef .tc main_v31) = W (Proc.devRef .tc main_v31) := by
  after_results
theorem fhB4_arg5 (W : Valuation τ sig (Elt F)) : StableHlo.after fhB4 W (Proc.devRef .tc main_arg5) = W (Proc.devRef .tc main_arg5) := by
  after_results
theorem fhB4_arg6 (W : Valuation τ sig (Elt F)) : StableHlo.after fhB4 W (Proc.devRef .tc main_arg6) = W (Proc.devRef .tc main_arg6) := by
  after_results
theorem fhB4_arg7 (W : Valuation τ sig (Elt F)) : StableHlo.after fhB4 W (Proc.devRef .tc main_arg7) = W (Proc.devRef .tc main_arg7) := by
  after_results
theorem fhB4_arg8 (W : Valuation τ sig (Elt F)) : StableHlo.after fhB4 W (Proc.devRef .tc main_arg8) = W (Proc.devRef .tc main_arg8) := by
  after_results

theorem fhB5_v46 (W : Valuation τ sig (Elt F)) : StableHlo.after fhB5 W (Proc.devRef .tc main_v46) = W (Proc.devRef .tc main_v46) := by
  after_results
theorem fhB5_arg7 (W : Valuation τ sig (Elt F)) : StableHlo.after fhB5 W (Proc.devRef .tc main_arg7) = W (Proc.devRef .tc main_arg7) := by
  after_results
theorem fhB5_arg8 (W : Valuation τ sig (Elt F)) : StableHlo.after fhB5 W (Proc.devRef .tc main_arg8) = W (Proc.devRef .tc main_arg8) := by
  after_results

theorem fhB1_v24 (W : Valuation τ sig (Elt F)) :
    (StableHlo.after fhB1 W (Proc.devRef .tc main_v24) : (⟨S1024x128, .f32⟩ : BufTy).Contents (Elt F)) = refV24 (W (Proc.devRef .tc main_arg0)) (W (Proc.devRef .tc main_arg2)) := by
  after_results; rfl
theorem fhB2_v31 (W : Valuation τ sig (Elt F)) :
    (StableHlo.after fhB2 W (Proc.devRef .tc main_v31) : (⟨S10240x128, .f32⟩ : BufTy).Contents (Elt F)) = refV31 (W (Proc.devRef .tc main_arg0)) (W (Proc.devRef .tc main_v8)) := by
  after_results; rfl
theorem fhB3_v38 (W : Valuation τ sig (Elt F)) :
    (StableHlo.after fhB3 W (Proc.devRef .tc main_v38) : (⟨S256000x128, .f32⟩ : BufTy).Contents (Elt F)) = refV38 (W (Proc.devRef .tc main_arg0)) (W (Proc.devRef .tc main_v17)) := by
  after_results; rfl

theorem fhB4_v46 (W : Valuation τ sig (Elt F)) :
    (StableHlo.after fhB4 W (Proc.devRef .tc main_v46) : (⟨S1024x256, .f32⟩ : BufTy).Contents (Elt F))
      = fhLayerA (W (Proc.devRef .tc main_v24)) (W (Proc.devRef .tc main_v31)) (W (Proc.devRef .tc main_arg5)) (W (Proc.devRef .tc main_arg6)) := by
  after_results; rfl
theorem fhB5_v54 (W : Valuation τ sig (Elt F)) :
    (StableHlo.after fhB5 W (Proc.devRef .tc main_v54) : (⟨S10240x256, .f32⟩ : BufTy).Contents (Elt F))
      = fhLayerB (W (Proc.devRef .tc main_v31)) (W (Proc.devRef .tc main_v38)) (W (Proc.devRef .tc main_arg5)) (W (Proc.devRef .tc main_arg6)) := by
  after_results; rfl
theorem fhB6_v61 (W : Valuation τ sig (Elt F)) :
    (StableHlo.after fhB6 W (Proc.devRef .tc main_v61) : (⟨S1024x256, .f32⟩ : BufTy).Contents (Elt F))
      = fhLayerC (W (Proc.devRef .tc main_v46)) (W (Proc.devRef .tc main_v54)) (W (Proc.devRef .tc main_arg7)) (W (Proc.devRef .tc main_arg8)) := by
  after_results; rfl

theorem floatHalf_of {l : List (HloOp τ sig (Elt F))} (hl : l = fhB1 ++ (fhB2 ++ (fhB3 ++ (fhB4 ++ (fhB5 ++ fhB6)))))
    (W : Valuation τ sig (Elt F)) :
    (StableHlo.after l W (Proc.devRef .tc main_v61) : (⟨S1024x256, .f32⟩ : BufTy).Contents (Elt F))
      = refOut (W (Proc.devRef .tc main_arg0)) (W (Proc.devRef .tc main_arg2)) (W (Proc.devRef .tc main_v8)) (W (Proc.devRef .tc main_v17))
          (W (Proc.devRef .tc main_arg5)) (W (Proc.devRef .tc main_arg6)) (W (Proc.devRef .tc main_arg7)) (W (Proc.devRef .tc main_arg8)) := by
  subst hl
  rw [StableHlo.after_append, StableHlo.after_append, StableHlo.after_append, StableHlo.after_append, StableHlo.after_append]
  rw [fhB6_v61, fhB5_v54, fhB5_v46, fhB5_arg7, fhB5_arg8,
    fhB4_v46, fhB4_v31, fhB4_v38, fhB4_arg5, fhB4_arg6, fhB4_arg7, fhB4_arg8,
    fhB3_v38, fhB3_v24, fhB3_v31, fhB3_arg5, fhB3_arg6, fhB3_arg7, fhB3_arg8,
    fhB2_v31, fhB2_v24, fhB2_arg0, fhB2_v17, fhB2_arg5, fhB2_arg6, fhB2_arg7, fhB2_arg8,
    fhB1_v24, fhB1_arg0, fhB1_v8, fhB1_v17, fhB1_arg5, fhB1_arg6, fhB1_arg7, fhB1_arg8,
    refOut_eq_layers]

end Cert.ReferenceIdeal.RefValue

end
-- ==== Proof.RefRaw.lean ====
import proofs.«401580_j65068754534945_2_alg».proof.Proof.RefIdx
import proofs.«401580_j65068754534945_2_alg».proof.Proof.RefFloat

/-! The reference's result array is its pure result function of the arguments. -/

noncomputable section

namespace Cert.ReferenceIdeal.RefValue

open Cert.ReferenceIdeal Cert.ReferenceIdeal.Gen Idealize.ShloMosaic Idealize.ShloMosaic.TcCoe Idealize.SL.Sem
open Idealize.ShloMosaic.StableHlo

theorem opsB_stretches {F : FTy → Type} [FloatOps F] :
    (opsB : List (HloOp τ sig (Elt F))) = fhB1 ++ (fhB2 ++ (fhB3 ++ (fhB4 ++ (fhB5 ++ fhB6)))) := rfl

theorem raw_eq_any {F : FTy → Type} [FloatOps F] (m : (ℓ : Loc nD τ sig) → Buf (Elt F) ℓ) (c : Dev nD) :
    (after (Cert.ReferenceIdeal.Value.ops (F := F)) (launchContents m c) (Proc.devRef .tc main_v61)
        : (⟨S1024x256, .f32⟩ : BufTy).Contents (Elt F))
      = refOut (m ((c.tc : Thread nD τ).loc main_arg0)) (m ((c.tc : Thread nD τ).loc main_arg2))
          (Cert.Hand.Spec.s1 (m ((c.tc : Thread nD τ).loc main_arg1)) (m ((c.tc : Thread nD τ).loc main_arg2)) (m ((c.tc : Thread nD τ).loc main_arg3)))
          (Cert.Hand.Spec.s2 (m ((c.tc : Thread nD τ).loc main_arg1)) (m ((c.tc : Thread nD τ).loc main_arg2)) (m ((c.tc : Thread nD τ).loc main_arg3)) (m ((c.tc : Thread nD τ).loc main_arg4)))
          (m ((c.tc : Thread nD τ).loc main_arg5)) (m ((c.tc : Thread nD τ).loc main_arg6)) (m ((c.tc : Thread nD τ).loc main_arg7)) (m ((c.tc : Thread nD τ).loc main_arg8)) := by
  rw [after_cut, floatHalf_of opsB_stretches (after opsA (launchContents m c))]
  rw [idxA_keep _ main_arg0 (by decide), idxA_keep _ main_arg2 (by decide), idxA_v8, idxA_v17,
    idxA_keep _ main_arg5 (by decide), idxA_keep _ main_arg6 (by decide), idxA_keep _ main_arg7 (by decide),
    idxA_keep _ main_arg8 (by decide)]

theorem raw_eq (m : (ℓ : Loc nD τ sig) → Buf (Elt Ideal) ℓ) (c : Dev nD) :
    after (Cert.ReferenceIdeal.Value.ops (F := Ideal)) (launchContents m c) (Proc.devRef .tc main_v61)
      = refOut (F := Ideal) (m ((c.tc : Thread nD τ).loc main_arg0)) (m ((c.tc : Thread nD τ).loc main_arg2))
          (Cert.Hand.Spec.s1 (m ((c.tc : Thread nD τ).loc main_arg1)) (m ((c.tc : Thread nD τ).loc main_arg2)) (m ((c.tc : Thread nD τ).loc main_arg3)))
          (Cert.Hand.Spec.s2 (m ((c.tc : Thread nD τ).loc main_arg1)) (m ((c.tc : Thread nD τ).loc main_arg2)) (m ((c.tc : Thread nD τ).loc main_arg3)) (m ((c.tc : Thread nD τ).loc main_arg4)))
          (m ((c.tc : Thread nD τ).loc main_arg5)) (m ((c.tc : Thread nD τ).loc main_arg6)) (m ((c.tc : Thread nD τ).loc main_arg7)) (m ((c.tc : Thread nD τ).loc main_arg8)) :=
  raw_eq_any m c

end Cert.ReferenceIdeal.RefValue

end
-- ==== Proof.RefOpsA.lean ====
import proofs.«401580_j65068754534945_2_alg».proof.Proof.SpecVal
import proofs.«401580_j65068754534945_2_alg».proof.ReferenceIdeal
import proofs.«401580_j65068754534945_2_alg».proof.Proof.Gen.ReferenceIdeal
import Idealize.ShloMosaic.PureOps.Ideal.Laws
import Idealize.ShloMosaic.Lib.IdealHost
import Idealize.ShloMosaic.Lib.Pipeline.Value
import Idealize.ShloMosaic.Lib.StableHlo.Predicate

/-! The reference's operations at an index over the extended reals: words, gathers, group means. -/

noncomputable section

open scoped BigOperators

namespace Cert.ReferenceIdeal.RefValue

open Cert.ReferenceIdeal Cert.ReferenceIdeal.Gen Idealize.ShloMosaic Idealize.ShloMosaic.TcCoe Idealize.SL.Sem
open Cert.Hand

theorem wrapWord (w : BitVec 32) (h : w.toNat < 500000) :
    Scalar.select (IntOp.cmpi .slt w 0#32) (IntOp.addi w 500000#32) w = w := by
  have hne : ¬ IntOp.cmpi .slt w 0#32 = 1#1 := fun e => by
    have := (StableHlo.Predicate.slt_iff_toNat (a := w) (b := 0#32) (by omega) (by decide)).mp e
    simp at this
  rw [ValueIdx.eq_zero_of_ne_one hne, ValueIdx.select_zero]

theorem clampWord (w : BitVec 32) (h : w.toNat < 500000) : min w.toInt.toNat (500000 - 1) = (Spec.rowOf w).val := by
  rw [StableHlo.Predicate.toInt_eq_toNat_of_lt (by omega), Int.toNat_natCast]
  rfl

theorem getElem_singleton_of_eq {α : Type} (l : List α) (x : α) (hl : l = [x]) (k : ℕ) (hk : k < l.length) : l[k] = x := by
  subst hl
  have : k = 0 := by simpa using hk
  subst this; rfl

theorem ix2_val_of_eq_zero {n m : ℕ} (p : Fin n) (q : Fin m) (X : Fin 2) (h : X = 0) :
    ((ValueIdx.ix2 p q : (⟨2, ![n, m]⟩ : Shape).Idx) X).val = p.val := by subst h; rfl
theorem ix2_val_of_eq_one {n m : ℕ} (p : Fin n) (q : Fin m) (X : Fin 2) (h : X = 1) :
    ((ValueIdx.ix2 p q : (⟨2, ![n, m]⟩ : Shape).Idx) X).val = q.val := by subst h; rfl

theorem gatherRows_apply {α : Type} {N C n w : ℕ} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (q : Fin C) (hN : 0 < N) :
    Host.gather d x idx (ValueIdx.ix2 p q)
      = x (ValueIdx.ix2 ⟨min (idx (StableHlo.Predicate.ixP p)).toInt.toNat (N - 1), by omega⟩ q) := by
  unfold Host.gather
  refine congrArg x ?_
  funext a
  apply Fin.ext
  have hb : ∀ a : Fin 2, a ∉ d.operandBatchingDims := fun a => by rw [hob]; exact List.not_mem_nil
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ValueIdx.ix2 p q) idx 0 + d.batchCoord (ValueIdx.ix2 p q) 0 + d.offCoord (ValueIdx.ix2 p q) 0
      = min (idx (StableHlo.Predicate.ixP p)).toInt.toNat (N - 1)
    rw [GatherDims.batchCoord_eq_zero _ _ _ (hb 0), GatherDims.offCoord_eq_zero _ _ _ hk]
    try simp only [Nat.add_zero]
    unfold GatherDims.start
    rw [dif_pos hm]
    show min (idx _).toInt.toNat (N - d.sliceSizes 0) = _
    rw [hsl]
    refine congrArg (fun k => min (idx k).toInt.toNat (N - 1)) ?_
    funext b
    match b with
    | ⟨0, _⟩ =>
      unfold GatherDims.siIdx
      rw [dif_neg (by rw [hivd]; simp)]
      unfold GatherDims.siCoord
      apply Fin.ext
      simp only [Fin.val_cast]
      refine ix2_val_of_eq_zero p q _ ?_
      have hmem := List.getElem_mem (l := d.batchDims) (n := d.siKept.idxOf (⟨0, by decide⟩ : Fin 2)) (by
        rw [d.batch_length]; exact List.idxOf_lt_length_iff.2 (List.mem_filter.2 ⟨List.mem_finRange _, by rw [hivd]; simp⟩))
      have hnot : d.batchDims[d.siKept.idxOf (⟨0, by decide⟩ : Fin 2)]'(by
          rw [d.batch_length]; exact List.idxOf_lt_length_iff.2 (List.mem_filter.2 ⟨List.mem_finRange _, by rw [hivd]; simp⟩)) ∉ d.offsetDims := by
        have := hmem
        simp only [GatherDims.batchDims, Shape.kept, List.mem_filter, List.mem_finRange, true_and, decide_eq_true_eq] at this
        exact this
      rw [hoff] at hnot
      generalize d.batchDims[d.siKept.idxOf (⟨0, by decide⟩ : Fin 2)]'_ = X at hnot
      fin_cases X
      · rfl
      · exact absurd (List.mem_singleton.mpr rfl) hnot
    | ⟨1, _⟩ =>
      unfold GatherDims.siIdx
      rw [dif_pos (by rw [hivd])]
      apply Fin.ext
      show List.idxOf (0 : Fin 2) d.startIndexMap = 0
      rw [hsim]; simp
  | ⟨1, _⟩ =>
    have hm : (1 : Fin 2) ∉ d.startIndexMap := by rw [hsim]; simp
    have hk : (1 : Fin 2) ∈ d.sKept := by rw [GatherDims.mem_sKept, hcoll, hob]; simp
    show d.start (ValueIdx.ix2 p q) idx 1 + d.batchCoord (ValueIdx.ix2 p q) 1 + d.offCoord (ValueIdx.ix2 p q) 1 = q.val
    rw [GatherDims.batchCoord_eq_zero _ _ _ (hb 1)]
    unfold GatherDims.start
    rw [dif_neg hm]
    unfold GatherDims.offCoord
    rw [dif_pos hk]
    try simp only [Nat.zero_add]
    refine ix2_val_of_eq_one p q _ ?_
    exact getElem_singleton_of_eq d.offsetDims 1 hoff _ _

theorem bcastCol_apply {α : Type} {n : ℕ} (h : (⟨1, ![n]⟩ : Shape).BroadcastsInDim ⟨2, ![n, 1]⟩ ![0])
    (v : (⟨1, ![n]⟩ : Shape).Idx → α) (p : Fin n) :
    broadcastInDim ⟨2, ![n, 1]⟩ ![0] h v (StableHlo.Predicate.ixP p) = v (ValueIdx.ix1 p) := by
  refine (StableHlo.Predicate.bcast_col1 h v p).trans (congrArg v ?_)
  funext a
  match a with
  | ⟨0, _⟩ => rfl

theorem bcastWord_apply {T : Shape} (h : S_.BroadcastsInDim T ![]) (b : BitVec 32) (j : T.Idx) :
    broadcastInDim T ![] h (constantI S_ 32 b) j = b := rfl

theorem wrapCol_apply {n : ℕ} (h0 : S_.BroadcastsInDim ⟨1, ![n]⟩ ![]) (h1 : (⟨1, ![n]⟩ : Shape).BroadcastsInDim ⟨2, ![n, 1]⟩ ![0])
    (x : IVec ⟨1, ![n]⟩ 32) (hx : ∀ i, (x i).toNat < 500000) (p : Fin n) :
    broadcastInDim ⟨2, ![n, 1]⟩ ![0] h1
        (select (cmpi .slt x (broadcastInDim ⟨1, ![n]⟩ ![] h0 (constantI S_ 32 0#32)))
          (addi x (broadcastInDim ⟨1, ![n]⟩ ![] h0 (constantI S_ 32 500000#32))) x) (StableHlo.Predicate.ixP p)
      = x (ValueIdx.ix1 p) := by
  rw [bcastCol_apply]
  exact wrapWord (x (ValueIdx.ix1 p)) (hx _)

theorem gatherFeat_apply {n : ℕ} (d : GatherDims S500000x128 ⟨2, ![n, 1]⟩ ⟨2, ![n, 128]⟩)
    (hoff : d.offsetDims = [1]) (hcoll : d.collapsedSliceDims = [0]) (hob : d.operandBatchingDims = [])
    (hsim : d.startIndexMap = [0]) (hivd : d.indexVectorDim = 1)
    (h0 : S_.BroadcastsInDim ⟨1, ![n]⟩ ![]) (h1 : (⟨1, ![n]⟩ : Shape).BroadcastsInDim ⟨2, ![n, 1]⟩ ![0])
    (feat : FVec Ideal S500000x128 .f32) (x : IVec ⟨1, ![n]⟩ 32) (hx : ∀ i, (x i).toNat < 500000) (p : Fin n) (q : Fin 128) :
    Host.gather d feat
        (broadcastInDim ⟨2, ![n, 1]⟩ ![0] h1
          (select (cmpi .slt x (broadcastInDim ⟨1, ![n]⟩ ![] h0 (constantI S_ 32 0#32)))
            (addi x (broadcastInDim ⟨1, ![n]⟩ ![] h0 (constantI S_ 32 500000#32))) x)) (ValueIdx.ix2 p q)
      = feat (ValueIdx.ix2 (Spec.rowOf (x (ValueIdx.ix1 p))) q) := by
  rw [gatherRows_apply d hoff hcoll hob hsim hivd feat _ p q (by decide)]
  refine congrArg feat ?_
  funext a
  match a with
  | ⟨0, _⟩ =>
    apply Fin.ext
    show min (broadcastInDim ⟨2, ![n, 1]⟩ ![0] h1
        (select (cmpi .slt x (broadcastInDim ⟨1, ![n]⟩ ![] h0 (constantI S_ 32 0#32)))
          (addi x (broadcastInDim ⟨1, ![n]⟩ ![] h0 (constantI S_ 32 500000#32))) x) (StableHlo.Predicate.ixP p)).toInt.toNat (500000 - 1)
      = (Spec.rowOf (x (ValueIdx.ix1 p))).val
    rw [wrapCol_apply h0 h1 x hx p]
    exact clampWord _ (hx _)
  | ⟨1, _⟩ => rfl

theorem grp_lt {N G K : ℕ} (hN : N = G * K) (b : Fin G) (s : Fin K) : K * b.val + s.val < N := by
  subst hN
  have hb := b.isLt
  have hs := s.isLt
  calc K * b.val + s.val < K * b.val + K := by omega
    _ = K * (b.val + 1) := by ring
    _ ≤ K * G := Nat.mul_le_mul_left _ hb
    _ = G * K := Nat.mul_comm _ _

theorem groupReshape_apply {α : Type} {N G K C : ℕ} (hN : N = G * K) (y : (⟨2, ![N, C]⟩ : Shape).Idx → α)
    (h : (⟨2, ![N, C]⟩ : Shape).ShapeCasts ⟨3, ![G, K, C]⟩) (b : Fin G) (s : Fin K) (l : Fin C) :
    shapeCast ⟨3, ![G, K, C]⟩ y h (ValueIdx.ix3 b s l) = y (ValueIdx.ix2 ⟨K * b.val + s.val, grp_lt hN b s⟩ l) := by
  refine shapeCast_apply y h _ _ ?_
  rw [Shape.rowMajor_val_two, Shape.rowMajor_val_three]
  show (K * b.val + s.val) * C + l.val = (b.val * K + s.val) * C + l.val
  rw [Nat.mul_comm K b.val]

theorem sum10_128_apply (y : FVec Ideal S1024x10x128 .f32) (i : S1024x128.Idx) :
    Host.reduceAdd y (constant S_ .f32 0x00000000#32) reducesTo_S1024x10x128_S1024x128_d1 h_S_ i
      = ∑ k : Fin 10, y (ValueIdx.ix3 (i 0 : Fin 1024) k (i 1 : Fin 128)) := by
  rw [ValueIdx.hostReduceAdd_apply, Ideal.hostReduceAdd_single reducesTo_S1024x10x128_S1024x128_d1 (by decide)]
  show Ideal.ofBits .f32 0x00000000#32 + _ = _
  rw [Ideal.ofBits_zero_f32, zero_add]
  refine Finset.sum_congr rfl fun k _ => congrArg y (funext fun a => Fin.ext (by
    match a with | ⟨0, _⟩ => rfl | ⟨1, _⟩ => rfl | ⟨2, _⟩ => rfl))

theorem sum25_128_apply (y : FVec Ideal S10240x25x128 .f32) (i : S10240x128.Idx) :
    Host.reduceAdd y (constant S_ .f32 0x00000000#32) reducesTo_S10240x25x128_S10240x128_d1 h_S_ i
      = ∑ k : Fin 25, y (ValueIdx.ix3 (i 0 : Fin 10240) k (i 1 : Fin 128)) := by
  rw [ValueIdx.hostReduceAdd_apply, Ideal.hostReduceAdd_single reducesTo_S10240x25x128_S10240x128_d1 (by decide)]
  show Ideal.ofBits .f32 0x00000000#32 + _ = _
  rw [Ideal.ofBits_zero_f32, zero_add]
  refine Finset.sum_congr rfl fun k _ => congrArg y (funext fun a => Fin.ext (by
    match a with | ⟨0, _⟩ => rfl | ⟨1, _⟩ => rfl | ⟨2, _⟩ => rfl))

theorem sum10_256_apply (y : FVec Ideal S1024x10x256 .f32) (i : S1024x256.Idx) :
    Host.reduceAdd y (constant S_ .f32 0x00000000#32) reducesTo_S1024x10x256_S1024x256_d1 h_S_ i
      = ∑ k : Fin 10, y (ValueIdx.ix3 (i 0 : Fin 1024) k (i 1 : Fin 256)) := by
  rw [ValueIdx.hostReduceAdd_apply, Ideal.hostReduceAdd_single reducesTo_S1024x10x256_S1024x256_d1 (by decide)]
  show Ideal.ofBits .f32 0x00000000#32 + _ = _
  rw [Ideal.ofBits_zero_f32, zero_add]
  refine Finset.sum_congr rfl fun k _ => congrArg y (funext fun a => Fin.ext (by
    match a with | ⟨0, _⟩ => rfl | ⟨1, _⟩ => rfl | ⟨2, _⟩ => rfl))

theorem divConst_apply {T : Shape} (h : S_.BroadcastsInDim T ![]) (A : FVec Ideal T .f32) (b : BitVec 32) (i : T.Idx) :
    Host.divf A (broadcastInDim T ![] h (constant (F := Ideal) S_ .f32 b)) i = Ideal.div (A i) (Ideal.ofBits .f32 b) := rfl

theorem ofBits_ten : Ideal.ofBits .f32 0x41200000#32 = ((10 : ℝ) : EReal) := by
  simp [Ideal.ofBits, Ideal.ieee, -EReal.coe_mul]; norm_num
theorem ofBits_twentyfive : Ideal.ofBits .f32 0x41C80000#32 = ((25 : ℝ) : EReal) := by
  simp [Ideal.ofBits, Ideal.ieee, -EReal.coe_mul]; norm_num

theorem mean10_128_apply (y : FVec Ideal S10240x128 .f32) (i : S1024x128.Idx) :
    Host.divf
        (Host.reduceAdd (shapeCast S1024x10x128 y shapeCasts_S10240x128_S1024x10x128)
          (constant S_ .f32 0x00000000#32) reducesTo_S1024x10x128_S1024x128_d1 h_S_)
        (broadcastInDim S1024x128 ![] bcast_S_S1024x128 (constant S_ .f32 0x41200000#32)) i
      = Ideal.div (∑ s : Fin 10, y (ValueIdx.ix2 (Spec.at10 (i 0) s) (i 1 : Fin 128))) (Ideal.ofBits .f32 0x41200000#32) := by
  rw [divConst_apply, sum10_128_apply]
  refine congrArg (fun z => Ideal.div z (Ideal.ofBits .f32 0x41200000#32)) (Finset.sum_congr rfl fun s _ => ?_)
  exact groupReshape_apply (N := 10240) (G := 1024) (K := 10) (C := 128) rfl y shapeCasts_S10240x128_S1024x10x128 (i 0) s (i 1)

theorem mean25_128_apply (y : FVec Ideal S256000x128 .f32) (i : S10240x128.Idx) :
    Host.divf
        (Host.reduceAdd (shapeCast S10240x25x128 y shapeCasts_S256000x128_S10240x25x128)
          (constant S_ .f32 0x00000000#32) reducesTo_S10240x25x128_S10240x128_d1 h_S_)
        (broadcastInDim S10240x128 ![] bcast_S_S10240x128 (constant S_ .f32 0x41C80000#32)) i
      = Ideal.div (∑ s : Fin 25, y (ValueIdx.ix2 (Spec.at25 (i 0) s) (i 1 : Fin 128))) (Ideal.ofBits .f32 0x41C80000#32) := by
  rw [divConst_apply, sum25_128_apply]
  refine congrArg (fun z => Ideal.div z (Ideal.ofBits .f32 0x41C80000#32)) (Finset.sum_congr rfl fun s _ => ?_)
  exact groupReshape_apply (N := 256000) (G := 10240) (K := 25) (C := 128) rfl y shapeCasts_S256000x128_S10240x25x128 (i 0) s (i 1)

theorem mean10_256_eq (y : FVec Ideal S10240x256 .f32) :
    Host.divf
        (Host.reduceAdd (shapeCast S1024x10x256 y shapeCasts_S10240x256_S1024x10x256)
          (constant S_ .f32 0x00000000#32) reducesTo_S1024x10x256_S1024x256_d1 h_S_)
        (broadcastInDim S1024x256 ![] bcast_S_S1024x256 (constant S_ .f32 0x41200000#32))
      = Spec.mean10of y := by
  funext i
  rw [divConst_apply, sum10_256_apply]
  unfold Spec.mean10of
  refine congrArg (fun z => Ideal.div z (Ideal.ofBits .f32 0x41200000#32)) (Finset.sum_congr rfl fun s _ => ?_)
  exact groupReshape_apply (N := 10240) (G := 1024) (K := 10) (C := 256) rfl y shapeCasts_S10240x256_S1024x10x256 (i 0) s (i 1)

end Cert.ReferenceIdeal.RefValue

end
-- ==== Proof.RefOpsB.lean ====
import proofs.«401580_j65068754534945_2_alg».proof.Proof.SpecVal
import proofs.«401580_j65068754534945_2_alg».proof.ReferenceIdeal
import proofs.«401580_j65068754534945_2_alg».proof.Proof.Gen.ReferenceIdeal
import Idealize.ShloMosaic.PureOps.Ideal.Laws
import Idealize.ShloMosaic.Lib.IdealHost
import Idealize.ShloMosaic.Lib.Pipeline.Value
import Idealize.ShloMosaic.Lib.StableHlo.Predicate

/-! The reference's operations at an index over the extended reals: products and layers. -/

noncomputable section

open scoped BigOperators

namespace Cert.ReferenceIdeal.RefValue

open Cert.ReferenceIdeal Cert.ReferenceIdeal.Gen Idealize.ShloMosaic Idealize.ShloMosaic.TcCoe Idealize.SL.Sem
open Cert.Hand

theorem lhsA_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem lhsA_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
theorem rhsA_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
theorem rhsA_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

theorem dotA_apply (x : FVec Ideal S1024x128 .f32) (w : FVec Ideal S128x128 .f32) (p : Fin 1024) (q : Fin 128) :
    Host.dotGeneral dot_S1024x128_S128x128_S1024x128_1_0_0_1_n_n none x w (ValueIdx.ix2 p q)
      = ∑ k : Fin 128, x (ValueIdx.ix2 p k) * w (ValueIdx.ix2 k q) := by
  simp only [Host.dotGeneral]
  rw [Ideal.dotGeneral_apply, ← Equiv.sum_comp (ValueIdx.contrEquiv1 dot_S1024x128_S128x128_S1024x128_1_0_0_1_n_n 128 rfl rfl).symm]
  refine Finset.sum_congr rfl fun k _ => ?_
  have hk := ValueIdx.contrEquiv1_symm_val dot_S1024x128_S128x128_S1024x128_1_0_0_1_n_n 128 rfl rfl k
  have el : dot_S1024x128_S128x128_S1024x128_1_0_0_1_n_n.lhsIdx (ValueIdx.ix2 p q) ((ValueIdx.contrEquiv1 dot_S1024x128_S128x128_S1024x128_1_0_0_1_n_n 128 rfl rfl).symm k) = ValueIdx.ix2 p k := funext fun a => Fin.ext (by
    match a with
    | ⟨0, _⟩ => exact lhsA_0 _ _
    | ⟨1, _⟩ => exact (lhsA_1 _ _).trans hk)
  have er : dot_S1024x128_S128x128_S1024x128_1_0_0_1_n_n.rhsIdx (ValueIdx.ix2 p q) ((ValueIdx.contrEquiv1 dot_S1024x128_S128x128_S1024x128_1_0_0_1_n_n 128 rfl rfl).symm k) = ValueIdx.ix2 k q := funext fun a => Fin.ext (by
    match a with
    | ⟨0, _⟩ => exact (rhsA_0 _ _).trans hk
    | ⟨1, _⟩ => exact rhsA_1 _ _)
  rw [el, er]

theorem lhsC_0 (i : S10240x128.Idx) (q : dot_S10240x128_S128x128_S10240x128_1_0_0_1_n_n.contr.Idx) :
    (dot_S10240x128_S128x128_S10240x128_1_0_0_1_n_n.lhsIdx i q 0).val = (i 0).val := by
  unfold DotDims.lhsIdx
  rw [dif_neg (show ¬(0 : Fin S10240x128.rank) ∈ dot_S10240x128_S128x128_S10240x128_1_0_0_1_n_n.lhsBatch by decide), dif_pos (show (0 : Fin S10240x128.rank) ∈ dot_S10240x128_S128x128_S10240x128_1_0_0_1_n_n.lhsNonContracting by decide)]
  rfl
theorem lhsC_1 (i : S10240x128.Idx) (q : dot_S10240x128_S128x128_S10240x128_1_0_0_1_n_n.contr.Idx) :
    (dot_S10240x128_S128x128_S10240x128_1_0_0_1_n_n.lhsIdx i q 1).val = (q ⟨0, by decide⟩).val :=
  dot_S10240x128_S128x128_S10240x128_1_0_0_1_n_n.lhsIdx_val_of_single rfl i q
theorem rhsC_0 (i : S10240x128.Idx) (q : dot_S10240x128_S128x128_S10240x128_1_0_0_1_n_n.contr.Idx) :
    (dot_S10240x128_S128x128_S10240x128_1_0_0_1_n_n.rhsIdx i q 0).val = (q ⟨0, by decide⟩).val :=
  dot_S10240x128_S128x128_S10240x128_1_0_0_1_n_n.rhsIdx_val_of_single rfl i q
theorem rhsC_1 (i : S10240x128.Idx) (q : dot_S10240x128_S128x128_S10240x128_1_0_0_1_n_n.contr.Idx) :
    (dot_S10240x128_S128x128_S10240x128_1_0_0_1_n_n.rhsIdx i q 1).val = (i 1).val := by
  unfold DotDims.rhsIdx
  rw [dif_neg (show ¬(1 : Fin S128x128.rank) ∈ dot_S10240x128_S128x128_S10240x128_1_0_0_1_n_n.rhsBatch by decide), dif_pos (show (1 : Fin S128x128.rank) ∈ dot_S10240x128_S128x128_S10240x128_1_0_0_1_n_n.rhsNonContracting by decide)]
  rfl

theorem dotC_apply (x : FVec Ideal S10240x128 .f32) (w : FVec Ideal S128x128 .f32) (p : Fin 10240) (q : Fin 128) :
    Host.dotGeneral dot_S10240x128_S128x128_S10240x128_1_0_0_1_n_n none x w (ValueIdx.ix2 p q)
      = ∑ k : Fin 128, x (ValueIdx.ix2 p k) * w (ValueIdx.ix2 k q) := by
  simp only [Host.dotGeneral]
  rw [Ideal.dotGeneral_apply, ← Equiv.sum_comp (ValueIdx.contrEquiv1 dot_S10240x128_S128x128_S10240x128_1_0_0_1_n_n 128 rfl rfl).symm]
  refine Finset.sum_congr rfl fun k _ => ?_
  have hk := ValueIdx.contrEquiv1_symm_val dot_S10240x128_S128x128_S10240x128_1_0_0_1_n_n 128 rfl rfl k
  have el : dot_S10240x128_S128x128_S10240x128_1_0_0_1_n_n.lhsIdx (ValueIdx.ix2 p q) ((ValueIdx.contrEquiv1 dot_S10240x128_S128x128_S10240x128_1_0_0_1_n_n 128 rfl rfl).symm k) = ValueIdx.ix2 p k := funext fun a => Fin.ext (by
    match a with
    | ⟨0, _⟩ => exact lhsC_0 _ _
    | ⟨1, _⟩ => exact (lhsC_1 _ _).trans hk)
  have er : dot_S10240x128_S128x128_S10240x128_1_0_0_1_n_n.rhsIdx (ValueIdx.ix2 p q) ((ValueIdx.contrEquiv1 dot_S10240x128_S128x128_S10240x128_1_0_0_1_n_n 128 rfl rfl).symm k) = ValueIdx.ix2 k q := funext fun a => Fin.ext (by
    match a with
    | ⟨0, _⟩ => exact (rhsC_0 _ _).trans hk
    | ⟨1, _⟩ => exact rhsC_1 _ _)
  rw [el, er]

theorem lhsB_0 (i : S1024x128.Idx) (q : dot_S1024x256_S256x128_S1024x128_1_0_0_1_n_n.contr.Idx) :
    (dot_S1024x256_S256x128_S1024x128_1_0_0_1_n_n.lhsIdx i q 0).val = (i 0).val := by
  unfold DotDims.lhsIdx
  rw [dif_neg (show ¬(0 : Fin S1024x256.rank) ∈ dot_S1024x256_S256x128_S1024x128_1_0_0_1_n_n.lhsBatch by decide), dif_pos (show (0 : Fin S1024x256.rank) ∈ dot_S1024x256_S256x128_S1024x128_1_0_0_1_n_n.lhsNonContracting by decide)]
  rfl
theorem lhsB_1 (i : S1024x128.Idx) (q : dot_S1024x256_S256x128_S1024x128_1_0_0_1_n_n.contr.Idx) :
    (dot_S1024x256_S256x128_S1024x128_1_0_0_1_n_n.lhsIdx i q 1).val = (q ⟨0, by decide⟩).val :=
  dot_S1024x256_S256x128_S1024x128_1_0_0_1_n_n.lhsIdx_val_of_single rfl i q
theorem rhsB_0 (i : S1024x128.Idx) (q : dot_S1024x256_S256x128_S1024x128_1_0_0_1_n_n.contr.Idx) :
    (dot_S1024x256_S256x128_S1024x128_1_0_0_1_n_n.rhsIdx i q 0).val = (q ⟨0, by decide⟩).val :=
  dot_S1024x256_S256x128_S1024x128_1_0_0_1_n_n.rhsIdx_val_of_single rfl i q
theorem rhsB_1 (i : S1024x128.Idx) (q : dot_S1024x256_S256x128_S1024x128_1_0_0_1_n_n.contr.Idx) :
    (dot_S1024x256_S256x128_S1024x128_1_0_0_1_n_n.rhsIdx i q 1).val = (i 1).val := by
  unfold DotDims.rhsIdx
  rw [dif_neg (show ¬(1 : Fin S256x128.rank) ∈ dot_S1024x256_S256x128_S1024x128_1_0_0_1_n_n.rhsBatch by decide), dif_pos (show (1 : Fin S256x128.rank) ∈ dot_S1024x256_S256x128_S1024x128_1_0_0_1_n_n.rhsNonContracting by decide)]
  rfl

theorem dotB_apply (x : FVec Ideal S1024x256 .f32) (w : FVec Ideal S256x128 .f32) (p : Fin 1024) (q : Fin 128) :
    Host.dotGeneral dot_S1024x256_S256x128_S1024x128_1_0_0_1_n_n none x w (ValueIdx.ix2 p q)
      = ∑ k : Fin 256, x (ValueIdx.ix2 p k) * w (ValueIdx.ix2 k q) := by
  simp only [Host.dotGeneral]
  rw [Ideal.dotGeneral_apply, ← Equiv.sum_comp (ValueIdx.contrEquiv1 dot_S1024x256_S256x128_S1024x128_1_0_0_1_n_n 256 rfl rfl).symm]
  refine Finset.sum_congr rfl fun k _ => ?_
  have hk := ValueIdx.contrEquiv1_symm_val dot_S1024x256_S256x128_S1024x128_1_0_0_1_n_n 256 rfl rfl k
  have el : dot_S1024x256_S256x128_S1024x128_1_0_0_1_n_n.lhsIdx (ValueIdx.ix2 p q) ((ValueIdx.contrEquiv1 dot_S1024x256_S256x128_S1024x128_1_0_0_1_n_n 256 rfl rfl).symm k) = ValueIdx.ix2 p k := funext fun a => Fin.ext (by
    match a with
    | ⟨0, _⟩ => exact lhsB_0 _ _
    | ⟨1, _⟩ => exact (lhsB_1 _ _).trans hk)
  have er : dot_S1024x256_S256x128_S1024x128_1_0_0_1_n_n.rhsIdx (ValueIdx.ix2 p q) ((ValueIdx.contrEquiv1 dot_S1024x256_S256x128_S1024x128_1_0_0_1_n_n 256 rfl rfl).symm k) = ValueIdx.ix2 k q := funext fun a => Fin.ext (by
    match a with
    | ⟨0, _⟩ => exact (rhsB_0 _ _).trans hk
    | ⟨1, _⟩ => exact rhsB_1 _ _)
  rw [el, er]

theorem layer1024_eq (x0 x1 : FVec Ideal S1024x128 .f32) (w0 w1 : FVec Ideal S128x128 .f32) :
    maximumf
        (concatenate S1024x256 1
          [⟨S1024x128, Host.dotGeneral dot_S1024x128_S128x128_S1024x128_1_0_0_1_n_n none x0 w0⟩,
           ⟨S1024x128, Host.dotGeneral dot_S1024x128_S128x128_S1024x128_1_0_0_1_n_n none x1 w1⟩]
          concatenates_S1024x128_S1024x128_S1024x256_d1)
        (broadcastInDim S1024x256 ![] bcast_S_S1024x256 (constant S_ .f32 0x00000000#32))
      = Spec.mlpRelu1024 x0 x1 w0 w1 := by
  funext j
  obtain ⟨p, q, rfl⟩ : ∃ (p : Fin 1024) (q : Fin 256), j = ValueIdx.ix2 p q := ⟨j 0, j 1, ValueIdx.eq_ix2 j⟩
  unfold Spec.mlpRelu1024
  rw [ValueIdx.maximumf_apply]
  show max _ (Ideal.ofBits .f32 0x00000000#32) = _
  rw [Ideal.ofBits_zero_f32]
  refine congrArg (fun z => max z (0 : EReal)) ?_
  by_cases h : q.val < 128
  · rw [dif_pos (show (ValueIdx.ix2 p q 1).val < 128 from h),
      concatenate_pair_apply_left (1 : Fin S1024x256.rank) _ _ concatenates_S1024x128_S1024x128_S1024x256_d1
        (ValueIdx.ix2 p q) rfl (ValueIdx.ix2 p (⟨q.val, h⟩ : Fin 128))
        (fun b => by match b with | ⟨0, _⟩ => rfl | ⟨1, _⟩ => rfl),
      dotA_apply]
  · have hq : q.val < 256 := q.isLt
    rw [dif_neg (show ¬ (ValueIdx.ix2 p q 1).val < 128 from h),
      concatenate_pair_apply_right (1 : Fin S1024x256.rank) _ _ concatenates_S1024x128_S1024x128_S1024x256_d1
        (ValueIdx.ix2 p q) rfl rfl (ValueIdx.ix2 p (⟨q.val - 128, by omega⟩ : Fin 128))
        (fun b hb => by match b with | ⟨0, _⟩ => rfl | ⟨1, _⟩ => exact absurd rfl hb)
        (show (q.val - 128) + 128 = q.val by omega),
      dotA_apply]

theorem layer10240_eq (x0 x1 : FVec Ideal S10240x128 .f32) (w0 w1 : FVec Ideal S128x128 .f32) :
    maximumf
        (concatenate S10240x256 1
          [⟨S10240x128, Host.dotGeneral dot_S10240x128_S128x128_S10240x128_1_0_0_1_n_n none x0 w0⟩,
           ⟨S10240x128, Host.dotGeneral dot_S10240x128_S128x128_S10240x128_1_0_0_1_n_n none x1 w1⟩]
          concatenates_S10240x128_S10240x128_S10240x256_d1)
        (broadcastInDim S10240x256 ![] bcast_S_S10240x256 (constant S_ .f32 0x00000000#32))
      = Spec.mlpRelu10240 x0 x1 w0 w1 := by
  funext j
  obtain ⟨p, q, rfl⟩ : ∃ (p : Fin 10240) (q : Fin 256), j = ValueIdx.ix2 p q := ⟨j 0, j 1, ValueIdx.eq_ix2 j⟩
  unfold Spec.mlpRelu10240
  rw [ValueIdx.maximumf_apply]
  show max _ (Ideal.ofBits .f32 0x00000000#32) = _
  rw [Ideal.ofBits_zero_f32]
  refine congrArg (fun z => max z (0 : EReal)) ?_
  by_cases h : q.val < 128
  · rw [dif_pos (show (ValueIdx.ix2 p q 1).val < 128 from h),
      concatenate_pair_apply_left (1 : Fin S10240x256.rank) _ _ concatenates_S10240x128_S10240x128_S10240x256_d1
        (ValueIdx.ix2 p q) rfl (ValueIdx.ix2 p (⟨q.val, h⟩ : Fin 128))
        (fun b => by match b with | ⟨0, _⟩ => rfl | ⟨1, _⟩ => rfl),
      dotC_apply]
  · have hq : q.val < 256 := q.isLt
    rw [dif_neg (show ¬ (ValueIdx.ix2 p q 1).val < 128 from h),
      concatenate_pair_apply_right (1 : Fin S10240x256.rank) _ _ concatenates_S10240x128_S10240x128_S10240x256_d1
        (ValueIdx.ix2 p q) rfl rfl (ValueIdx.ix2 p (⟨q.val - 128, by omega⟩ : Fin 128))
        (fun b hb => by match b with | ⟨0, _⟩ => rfl | ⟨1, _⟩ => exact absurd rfl hb)
        (show (q.val - 128) + 128 = q.val by omega),
      dotC_apply]

theorem lastLayer_eq (x0 x1 : FVec Ideal S1024x256 .f32) (w0 w1 : FVec Ideal S256x128 .f32) :
    concatenate S1024x256 1
        [⟨S1024x128, Host.dotGeneral dot_S1024x256_S256x128_S1024x128_1_0_0_1_n_n none x0 w0⟩,
         ⟨S1024x128, Host.dotGeneral dot_S1024x256_S256x128_S1024x128_1_0_0_1_n_n none x1 w1⟩]
        concatenates_S1024x128_S1024x128_S1024x256_d1
      = Spec.mlpId x0 x1 w0 w1 := by
  funext j
  obtain ⟨p, q, rfl⟩ : ∃ (p : Fin 1024) (q : Fin 256), j = ValueIdx.ix2 p q := ⟨j 0, j 1, ValueIdx.eq_ix2 j⟩
  unfold Spec.mlpId
  by_cases h : q.val < 128
  · rw [dif_pos (show (ValueIdx.ix2 p q 1).val < 128 from h),
      concatenate_pair_apply_left (1 : Fin S1024x256.rank) _ _ concatenates_S1024x128_S1024x128_S1024x256_d1
        (ValueIdx.ix2 p q) rfl (ValueIdx.ix2 p (⟨q.val, h⟩ : Fin 128))
        (fun b => by match b with | ⟨0, _⟩ => rfl | ⟨1, _⟩ => rfl),
      dotB_apply]
  · have hq : q.val < 256 := q.isLt
    rw [dif_neg (show ¬ (ValueIdx.ix2 p q 1).val < 128 from h),
      concatenate_pair_apply_right (1 : Fin S1024x256.rank) _ _ concatenates_S1024x128_S1024x128_S1024x256_d1
        (ValueIdx.ix2 p q) rfl rfl (ValueIdx.ix2 p (⟨q.val - 128, by omega⟩ : Fin 128))
        (fun b hb => by match b with | ⟨0, _⟩ => rfl | ⟨1, _⟩ => exact absurd rfl hb)
        (show (q.val - 128) + 128 = q.val by omega),
      dotB_apply]

end Cert.ReferenceIdeal.RefValue

end
-- ==== Proof.RefPureEq.lean ====
import proofs.«401580_j65068754534945_2_alg».proof.Proof.RefPure
import proofs.«401580_j65068754534945_2_alg».proof.Proof.RefOpsA
import proofs.«401580_j65068754534945_2_alg».proof.Proof.RefOpsB

/-! The reference's pure result is the specification's: in-range words are neither wrapped nor clamped, a group's sum divided by its size is the sum times the reciprocal, the layers agree term by term. -/

noncomputable section

open scoped BigOperators

namespace Cert.ReferenceIdeal.RefValue

open Cert.ReferenceIdeal Cert.ReferenceIdeal.Gen Idealize.ShloMosaic Idealize.ShloMosaic.TcCoe Idealize.SL.Sem
open Cert.Hand

theorem refV24_eq (feat : FVec Ideal S500000x128 .f32) (bn : IVec S1024 32) (hbn : ∀ i, (bn i).toNat < 500000) :
    refV24 (F := Ideal) feat bn = Spec.gath1024 feat bn := by
  funext j
  obtain ⟨p, q, rfl⟩ : ∃ (p : Fin 1024) (q : Fin 128), j = ValueIdx.ix2 p q := ⟨j 0, j 1, ValueIdx.eq_ix2 j⟩
  unfold refV24 wrap1024 Spec.gath1024
  exact gatherFeat_apply gather_S500000x128_S1024x1_S1024x128_1_0_n_n_0_1_1128 rfl rfl rfl rfl rfl
    bcast_S_S1024 bcast_S1024_S1024x1_0 feat bn hbn p q

theorem refV31_eq (feat : FVec Ideal S500000x128 .f32) (t1 : IVec S10240 32) (h1 : ∀ i, (t1 i).toNat < 500000) :
    refV31 (F := Ideal) feat t1 = Spec.gath10240 feat t1 := by
  funext j
  obtain ⟨p, q, rfl⟩ : ∃ (p : Fin 10240) (q : Fin 128), j = ValueIdx.ix2 p q := ⟨j 0, j 1, ValueIdx.eq_ix2 j⟩
  unfold refV31 wrap10240 Spec.gath10240
  exact gatherFeat_apply gather_S500000x128_S10240x1_S10240x128_1_0_n_n_0_1_1128 rfl rfl rfl rfl rfl
    bcast_S_S10240 bcast_S10240_S10240x1_0 feat t1 h1 p q

theorem refV42_eq (feat : FVec Ideal S500000x128 .f32) (t1 : IVec S10240 32) (h1 : ∀ i, (t1 i).toNat < 500000) :
    refV42 (F := Ideal) feat t1 = Spec.gmean10 feat t1 := by
  funext i
  unfold refV42
  rw [mean10_128_apply, ofBits_ten, Ideal.div_coe (by norm_num : (10 : ℝ) ≠ 0)]
  unfold Spec.gmean10
  refine congrArg (· * ((1 / 10 : ℝ) : EReal)) (Finset.sum_congr rfl fun s _ => ?_)
  exact congrFun (refV31_eq feat t1 h1) (ValueIdx.ix2 (Spec.at10 (i 0) s) (i 1 : Fin 128))

theorem refV50_eq (feat : FVec Ideal S500000x128 .f32) (t2 : IVec S256000 32) (h2 : ∀ i, (t2 i).toNat < 500000) :
    refV50 (F := Ideal) feat t2 = Spec.gmean25 feat t2 := by
  funext i
  unfold refV50
  rw [mean25_128_apply, ofBits_twentyfive, Ideal.div_coe (by norm_num : (25 : ℝ) ≠ 0)]
  unfold Spec.gmean25
  refine congrArg (· * ((1 / 25 : ℝ) : EReal)) (Finset.sum_congr rfl fun s _ => ?_)
  unfold refV38 wrap256000
  exact gatherFeat_apply gather_S500000x128_S256000x1_S256000x128_1_0_n_n_0_1_1128 rfl rfl rfl rfl rfl
    bcast_S_S256000 bcast_S256000_S256000x1_0 feat t2 h2 (Spec.at25 (i 0) s) (i 1 : Fin 128)

theorem refV46_eq (feat : FVec Ideal S500000x128 .f32) (bn : IVec S1024 32) (t1 : IVec S10240 32)
    (wn0 ws0 : FVec Ideal S128x128 .f32) (hbn : ∀ i, (bn i).toNat < 500000) (h1 : ∀ i, (t1 i).toNat < 500000) :
    refV46 (F := Ideal) feat bn t1 wn0 ws0 = Spec.mlpRelu1024 (Spec.gath1024 feat bn) (Spec.gmean10 feat t1) ws0 wn0 := by
  unfold refV46
  rw [layer1024_eq, refV24_eq feat bn hbn, refV42_eq feat t1 h1]

theorem refV54_eq (feat : FVec Ideal S500000x128 .f32) (t1 : IVec S10240 32) (t2 : IVec S256000 32)
    (wn0 ws0 : FVec Ideal S128x128 .f32) (h1 : ∀ i, (t1 i).toNat < 500000) (h2 : ∀ i, (t2 i).toNat < 500000) :
    refV54 (F := Ideal) feat t1 t2 wn0 ws0 = Spec.mlpRelu10240 (Spec.gath10240 feat t1) (Spec.gmean25 feat t2) ws0 wn0 := by
  unfold refV54
  rw [layer10240_eq, refV31_eq feat t1 h1, refV50_eq feat t2 h2]

theorem refV58_eq (feat : FVec Ideal S500000x128 .f32) (t1 : IVec S10240 32) (t2 : IVec S256000 32)
    (wn0 ws0 : FVec Ideal S128x128 .f32) :
    refV58 (F := Ideal) feat t1 t2 wn0 ws0 = Spec.mean10of (refV54 (F := Ideal) feat t1 t2 wn0 ws0) := by
  unfold refV58
  exact mean10_256_eq _

theorem refOut_eq (feat : FVec Ideal S500000x128 .f32) (bn : IVec S1024 32) (t1 : IVec S10240 32) (t2 : IVec S256000 32)
    (wn0 ws0 : FVec Ideal S128x128 .f32) (wn1 ws1 : FVec Ideal S256x128 .f32)
    (hbn : ∀ i, (bn i).toNat < 500000) (h1 : ∀ i, (t1 i).toNat < 500000) (h2 : ∀ i, (t2 i).toNat < 500000) :
    refOut (F := Ideal) feat bn t1 t2 wn0 ws0 wn1 ws1 = Cert.Hand.Spec.OUT feat bn t1 t2 wn0 ws0 wn1 ws1 := by
  unfold refOut
  rw [lastLayer_eq, refV46_eq feat bn t1 wn0 ws0 hbn h1, refV58_eq, refV54_eq feat t1 t2 wn0 ws0 h1 h2]
  rfl

end Cert.ReferenceIdeal.RefValue

end
-- ==== Proof.SpecIdxLt.lean ====
import proofs.«401580_j65068754534945_2_alg».proof.Proof.SpecIdx
import Idealize.ShloMosaic.Lib.Affine
import Idealize.ShloMosaic.Lib.ValueIdx
import Idealize.ShloMosaic.PureOps.Reduce

/-! Both neighbour lists hold row numbers below 500000 when the adjacency entries are and the column indices are below 128. -/

namespace Cert.Hand.Spec

open Idealize.ShloMosaic
open Cert.Hand.Spec.Idx

theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

theorem reduce_andi_of_all {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_one x _ fun n _ => hx n

theorem toInt_of_small {x : BitVec 32} (hx : x.toNat < 2 ^ 31) : x.toInt = x.toNat :=
  BitVec.toInt_eq_toNat_of_lt (by omega)

theorem wrap_word_of_small (x K : BitVec 32) (hx : x.toNat < 2 ^ 31) :
    Scalar.select (IntOp.cmpi .slt x 0#32) (IntOp.addi x K) x = x := by
  unfold Scalar.select
  rw [if_neg]
  intro h
  have h' : IntOp.cmpi .slt x 0#32 = 1#1 := h
  rw [IntOp.cmpi_slt, show (0#32 : BitVec 32).toInt = 0 from by decide, toInt_of_small hx] at h'
  omega

theorem wrap_apply_of_small {s : Shape} (K : BitVec 32) (b : S_.BroadcastsInDim s (![] : Fin 0 → Fin s.rank)) (x : IVec s 32)
    (i : s.Idx) (hx : (x i).toNat < 2 ^ 31) : wrap K b x i = x i :=
  wrap_word_of_small (x i) K hx

theorem inb_of_small (x : BitVec 32) (hx : x.toNat < 128) :
    IntOp.andi (IntOp.cmpi .sge x 0#32) (IntOp.cmpi .sle x 127#32) = 1#1 := by
  rw [IntOp.andi_eq_one, IntOp.cmpi_sge, IntOp.cmpi_sle, show (0#32 : BitVec 32).toInt = 0 from by decide,
    show (127#32 : BitVec 32).toInt = 127 from by decide, toInt_of_small (x := x) (by omega)]
  omega

theorem shapeCast_lt {s t : Shape} {B : Nat} (x : IVec s 32) (h : s.ShapeCasts t) (hx : ∀ i, (x i).toNat < B) (j : t.Idx) :
    (shapeCast t x h j).toNat < B := hx _

section Pick

variable {n k : Nat} {sx : Shape} {axes : List (Fin 3)}

theorem pickIdx_lt (a : IVec ⟨2, ![n, k]⟩ 32) (hc : (⟨2, ![n, k]⟩ : Shape).ShapeCasts ⟨3, ![n, k, 1]⟩)
    (b2 : S_.BroadcastsInDim ⟨2, ![n, k]⟩ (![] : Fin 0 → Fin 2)) (ha : ∀ i, (a i).toNat < 128) (i : (⟨3, ![n, k, 1]⟩ : Shape).Idx) :
    (pickIdx a hc b2 i).toNat < 128 := by
  show (wrap 128#32 b2 a (Shape.reshapeEquiv hc i)).toNat < 128
  rw [wrap_apply_of_small _ _ _ _ (by have := ha (Shape.reshapeEquiv hc i); omega)]
  exact ha _

theorem pick_mask (a : IVec ⟨2, ![n, k]⟩ 32) (hc : (⟨2, ![n, k]⟩ : Shape).ShapeCasts ⟨3, ![n, k, 1]⟩)
    (b2 : S_.BroadcastsInDim ⟨2, ![n, k]⟩ (![] : Fin 0 → Fin 2))
    (b3 : S_.BroadcastsInDim ⟨3, ![n, k, 1]⟩ (![] : Fin 0 → Fin 3))
    (b1 : S1.BroadcastsInDim S1x1x1 (![2] : Fin 1 → Fin 3))
    (b111 : S1x1x1.BroadcastsInDim ⟨3, ![n, k, 1]⟩ (![0, 1, 2] : Fin 3 → Fin 3))
    (red : (⟨3, ![n, k, 1]⟩ : Shape).ReducesTo axes ⟨2, ![n, k]⟩) (hu : 0 < S_.numel)
    (ha : ∀ i, (a i).toNat < 128) (j : (⟨2, ![n, k]⟩ : Shape).Idx) :
    Host.reduce IntOp.andi
      (andi (cmpi .sge (pickIdx a hc b2) (broadcastInDim ⟨3, ![n, k, 1]⟩ ![] b3 (constantI S_ 32 0#32)))
        (cmpi .sle (pickIdx a hc b2)
          (broadcastInDim ⟨3, ![n, k, 1]⟩ ![0, 1, 2] b111 (broadcastInDim S1x1x1 ![2] b1 (constantI S1 32 127#32)))))
      (constantI S_ 1 1#1) red hu j = 1#1 :=
  reduce_andi_of_all _ _ red hu (fun i => inb_of_small _ (pickIdx_lt a hc b2 ha i)) (fun _ => rfl) j

theorem pick_apply (a : IVec ⟨2, ![n, k]⟩ 32) (x : IVec sx 32) (d : GatherDims sx ⟨3, ![n, k, 1]⟩ ⟨2, ![n, k]⟩)
    (hc : (⟨2, ![n, k]⟩ : Shape).ShapeCasts ⟨3, ![n, k, 1]⟩)
    (b2 : S_.BroadcastsInDim ⟨2, ![n, k]⟩ (![] : Fin 0 → Fin 2))
    (b3 : S_.BroadcastsInDim ⟨3, ![n, k, 1]⟩ (![] : Fin 0 → Fin 3))
    (b1 : S1.BroadcastsInDim S1x1x1 (![2] : Fin 1 → Fin 3))
    (b111 : S1x1x1.BroadcastsInDim ⟨3, ![n, k, 1]⟩ (![0, 1, 2] : Fin 3 → Fin 3))
    (red : (⟨3, ![n, k, 1]⟩ : Shape).ReducesTo axes ⟨2, ![n, k]⟩) (hu : 0 < S_.numel)
    (ha : ∀ i, (a i).toNat < 128) (j : (⟨2, ![n, k]⟩ : Shape).Idx) :
    pick a x d hc b2 b3 b1 b111 red hu j = Host.gather d x (pickIdx a hc b2) j := by
  show Scalar.select _ (Host.gather d x (pickIdx a hc b2) j) _ = _
  rw [pick_mask a hc b2 b3 b1 b111 red hu ha j]
  exact if_pos rfl

theorem pick_lt {B : Nat} (a : IVec ⟨2, ![n, k]⟩ 32) (x : IVec sx 32) (d : GatherDims sx ⟨3, ![n, k, 1]⟩ ⟨2, ![n, k]⟩)
    (hc : (⟨2, ![n, k]⟩ : Shape).ShapeCasts ⟨3, ![n, k, 1]⟩)
    (b2 : S_.BroadcastsInDim ⟨2, ![n, k]⟩ (![] : Fin 0 → Fin 2))
    (b3 : S_.BroadcastsInDim ⟨3, ![n, k, 1]⟩ (![] : Fin 0 → Fin 3))
    (b1 : S1.BroadcastsInDim S1x1x1 (![2] : Fin 1 → Fin 3))
    (b111 : S1x1x1.BroadcastsInDim ⟨3, ![n, k, 1]⟩ (![0, 1, 2] : Fin 3 → Fin 3))
    (red : (⟨3, ![n, k, 1]⟩ : Shape).ReducesTo axes ⟨2, ![n, k]⟩) (hu : 0 < S_.numel)
    (ha : ∀ i, (a i).toNat < 128) (hx : ∀ i, (x i).toNat < B) (j : (⟨2, ![n, k]⟩ : Shape).Idx) :
    (pick a x d hc b2 b3 b1 b111 red hu j).toNat < B := by
  rw [pick_apply a x d hc b2 b3 b1 b111 red hu ha j]
  exact hx _

end Pick

variable (adj : IVec S500000x128 32) (bn : IVec S1024 32) (c1 : IVec S1024x10 32) (c2 : IVec S10240x25 32)

theorem s1_lt (hadj : ∀ i, (adj i).toNat < 500000) (hc1 : ∀ i, (c1 i).toNat < 128) (j : S10240.Idx) :
    (s1 adj bn c1 j).toNat < 500000 :=
  shapeCast_lt _ _ (pick_lt c1 (rows1 adj bn) _ _ _ _ _ _ _ _ hc1 (fun _ => hadj _)) j

theorem s2_lt (hadj : ∀ i, (adj i).toNat < 500000) (hc2 : ∀ i, (c2 i).toNat < 128) (j : S256000.Idx) :
    (s2 adj bn c1 c2 j).toNat < 500000 :=
  shapeCast_lt _ _ (pick_lt c2 (rows2 adj (s1 adj bn c1)) _ _ _ _ _ _ _ _ hc2 (fun _ => hadj _)) j

end Cert.Hand.Spec
-- ==== Proof.Algebraic.lean ====
import proofs.«401580_j65068754534945_2_alg».proof.Proof.Ranges
import proofs.«401580_j65068754534945_2_alg».proof.Proof.RunValue
import proofs.«401580_j65068754534945_2_alg».proof.Proof.KernelValue
import proofs.«401580_j65068754534945_2_alg».proof.Proof.RefRaw
import proofs.«401580_j65068754534945_2_alg».proof.Proof.RefPureEq
import proofs.«401580_j65068754534945_2_alg».proof.Proof.SpecIdxLt
import proofs.«401580_j65068754534945_2_alg».proof.Proof.Gen.KernelIdeal

/-! From memories agreeing on the arguments both programs end with the same array: each side is the specification's function of the arguments. -/

noncomputable section

namespace Cert.Proof

open Idealize.ShloMosaic Idealize.SL.Sem

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' hpre hag
  have hR := inRange_KI m hpre
  refine ⟨fun c => Cert.KernelIdeal.Hand.o13 m hR c, Cert.KernelIdeal.Hand.run_hand m hR g, ?_⟩
  refine (θ_run (Cert.ReferenceIdeal.defs (F := Ideal)) _ _).mono (fun r h c => ⟨?_, (h c).2⟩)
    (Cert.ReferenceIdeal.Value.run_raw (F := Ideal) m' g')
  obtain ⟨e0, e1, e2, e3, e4, e5, e6, e7, e8⟩ := hag c
  refine (h c).1.trans ?_
  rw [Cert.ReferenceIdeal.RefValue.raw_eq m' c, e0, e1, e2, e3, e4, e5, e6, e7, e8]
  rw [Cert.ReferenceIdeal.RefValue.refOut_eq _ _ _ _ _ _ _ _ (hR.h2 c)
    (Cert.Hand.Spec.s1_lt _ _ _ (hR.h1 c) (hR.h3 c)) (Cert.Hand.Spec.s2_lt _ _ _ _ (hR.h1 c) (hR.h4 c))]
  exact (Cert.KernelIdeal.Hand.kernel_value m hR c).symm

end Cert.Proof

end
-- ==== Proof.lean ====
import proofs.«401580_j65068754534945_2_alg».proof.Defs
import proofs.«401580_j65068754534945_2_alg».proof.Proof.Gen.Kernel
import proofs.«401580_j65068754534945_2_alg».proof.Proof.Gen.KernelIdeal
import proofs.«401580_j65068754534945_2_alg».proof.Proof.Gen.ReferenceIdeal
import proofs.«401580_j65068754534945_2_alg».proof.Proof.Gen.Pre_finite_inputs
import proofs.«401580_j65068754534945_2_alg».proof.Proof.Ranges
import proofs.«401580_j65068754534945_2_alg».proof.Proof.RunFrame
import proofs.«401580_j65068754534945_2_alg».proof.Proof.Bits.RunFrame
import proofs.«401580_j65068754534945_2_alg».proof.Proof.RefSide
import proofs.«401580_j65068754534945_2_alg».proof.Proof.Algebraic
import Idealize.ShloMosaic.Adequacy
import Idealize.ShloMosaic.Init

/-! The five claims: the three programs run to the end with their arguments unchanged; the idealized kernel names 1/10 once and 1/25 eight times; and at the ideal instance the kernel's group sums times the named reciprocals are the reference's group sums divided by the group sizes, with the same products, rectifier and last mean. -/

noncomputable section

namespace Cert.Proof

open Idealize.ShloMosaic Idealize.SL.Sem

theorem frame_k : Cert.frame_Kernel := fun m ρ h => Cert.Kernel.Hand.frame_hand m (inRange_K m h) ρ
theorem frame_ki : Cert.frame_KernelIdeal := fun m ρ h => Cert.KernelIdeal.Hand.frame_hand m (inRange_KI m h) ρ
theorem frame_ri : Cert.frame_ReferenceIdeal := Cert.ReferenceIdeal.RefValue.frame_ri

theorem preserves : Cert.preserves_Kernel_KernelIdeal :=
  have h := IdealRules.named_const.statement Cert.KernelIdeal.κ "inv_25" .f32 0x3D23D70A#32 ((1 / 25 : ℝ) : EReal) rfl
  ⟨IdealRules.named_const.statement Cert.KernelIdeal.κ "inv_10" .f32 0x3DCCCCCD#32 ((1 / 10 : ℝ) : EReal) rfl, h, h, h, h, h, h, h, h⟩

theorem claim : Cert.Claim := ⟨Cert.Kernel.Gen.facts, Cert.KernelIdeal.Gen.facts, Cert.ReferenceIdeal.Gen.facts, Cert.Pre_finite_inputs.Gen.facts,
  frame_k, frame_ki, frame_ri, preserves, Cert.Proof.algebraic⟩

end Cert.Proof

end
